-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg16 : FVec F S64 .f32) (main_arg17 : FVec F S64 .f32) (main_arg18 : FVec F S64 .f32) (main_arg19 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_v83 main_v84 main_cst_32

def fn_part3 {F : FTy → Type} [FloatOps F] (main_arg13 : FVec F S1 .f32) (main_arg14 : FVec F S64 .f32) (main_arg15 : FVec F S64 .f32) (main_arg16 : FVec F S64 .f32) (main_arg17 : FVec F S64 .f32) (main_arg18 : FVec F S64 .f32) (main_arg19 : FVec F S64 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_v63 main_v67

def fn_part2 {F : FTy → Type} [FloatOps F] (main_arg9 : FVec F S64 .f32) (main_arg10 : FVec F S64x64 .f32) (main_arg11 : FVec F S64 .f32) (main_arg12 : FVec F S64x1 .f32) (main_arg13 : FVec F S1 .f32) (main_arg14 : FVec F S64 .f32) (main_arg15 : FVec F S64 .f32) (main_arg16 : FVec F S64 .f32) (main_arg17 : FVec F S64 .f32) (main_arg18 : FVec F S64 .f32) (main_arg19 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg12
  let main_cst_18 : FVec F S_ .f32 := constant S_ .f32 0x7F800000#32
  let main_v50 : FVec F S64x1 .f32 := broadcastInDim S64x1 ![] bcast_S_S64x1 main_cst_18
  fn_part3 (F := F) main_arg13 main_arg14 main_arg15 main_arg16 main_arg17 main_arg18 main_arg19 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) (main_arg14 : FVec F S64 .f32) (main_arg15 : FVec F S64 .f32) (main_arg16 : FVec F S64 .f32) (main_arg17 : FVec F S64 .f32) (main_arg18 : FVec F S64 .f32) (main_arg19 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S50000x64 .f32) (main_arg1 : IVec S2x800000 32) (main_arg2 : FVec F S800000 .f32) (main_arg3 : IVec S50000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) (main_arg14 : FVec F S64 .f32) (main_arg15 : FVec F S64 .f32) (main_arg16 : FVec F S64 .f32) (main_arg17 : FVec F S64 .f32) (main_arg18 : FVec F S64 .f32) (main_arg19 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S800768 : Shape := ⟨1, ![800768]⟩
abbrev S800768x64 : Shape := ⟨2, ![800768, 64]⟩
abbrev S1x800768 : Shape := ⟨2, ![1, 800768]⟩
abbrev S5000x64 : Shape := ⟨2, ![5000, 64]⟩
abbrev S1x2048 : Shape := ⟨2, ![1, 2048]⟩
abbrev S2048x64 : Shape := ⟨2, ![2048, 64]⟩
abbrev S5000x1 : Shape := ⟨2, ![5000, 1]⟩
abbrev S5000x2048 : Shape := ⟨2, ![5000, 2048]⟩
abbrev S1x64 : Shape := ⟨2, ![1, 64]⟩
abbrev S50000x1 : Shape := ⟨2, ![50000, 1]⟩
abbrev S256x1 : Shape := ⟨2, ![256, 1]⟩
abbrev S256x64 : Shape := ⟨2, ![256, 64]⟩
abbrev S5000x256 : Shape := ⟨2, ![5000, 256]⟩
abbrev S1x1 : Shape := ⟨2, ![1, 1]⟩
abbrev S256 : Shape := ⟨1, ![256]⟩

abbrev nBuf : Space → Nat
  | .hbm => 128
  | .vmem => 79
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S1x800000, .i32⟩
  | .hbm, ⟨21, _⟩ => ⟨S800000, .i32⟩
  | .hbm, ⟨22, _⟩ => ⟨S1x800000, .i32⟩
  | .hbm, ⟨23, _⟩ => ⟨S800000, .i32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S800000x1, .f32⟩
  | .hbm, ⟨34, _⟩ => ⟨S800000x64, .f32⟩
  | .hbm, ⟨35, _⟩ => ⟨S800000x64, .f32⟩
  | .hbm, ⟨36, _⟩ => ⟨S800000x64, .bf16⟩
  | .hbm, ⟨37, _⟩ => ⟨S_, .i32⟩
  | .hbm, ⟨38, _⟩ => ⟨S_, .i32⟩
  | .hbm, ⟨39, _⟩ => ⟨S800768, .i32⟩
  | .hbm, ⟨40, _⟩ => ⟨S_, .i32⟩
  | .hbm, ⟨41, _⟩ => ⟨S_, .bf16⟩
  | .hbm, ⟨42, _⟩ => ⟨S800768x64, .bf16⟩
  | .hbm, ⟨43, _⟩ => ⟨S1x800768, .i32⟩
  | .hbm, ⟨44, _⟩ => ⟨S64x64, .bf16⟩
  | .hbm, ⟨45, _⟩ => ⟨S50000x64, .f32⟩
  | .hbm, ⟨46, _⟩ => ⟨S1x64, .f32⟩
  | .hbm, ⟨47, _⟩ => ⟨S1x64, .f32⟩
  | .hbm, ⟨48, _⟩ => ⟨S_, .f32⟩
  | .hbm, ⟨49, _⟩ => ⟨S1x64, .f32⟩
  | .hbm, ⟨50, _⟩ => ⟨S1x64, .f32⟩
  | .hbm, ⟨51, _⟩ => ⟨S_, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S50000x64, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x64, .f32⟩
  | .hbm, ⟨66, _⟩ => ⟨S800000x1, .f32⟩
  | .hbm, ⟨67, _⟩ => ⟨S800000x64, .f32⟩
  | .hbm, ⟨68, _⟩ => ⟨S800000x64, .f32⟩
  | .hbm, ⟨69, _⟩ => ⟨S800000x64, .bf16⟩
  | .hbm, ⟨70, _⟩ => ⟨S_, .i32⟩
  | .hbm, ⟨71, _⟩ => ⟨S_, .i32⟩
  | .hbm, ⟨72, _⟩ => ⟨S800768, .i32⟩
  | .hbm, ⟨73, _⟩ => ⟨S_, .i32⟩
  | .hbm, ⟨74, _⟩ => ⟨S_, .bf16⟩
  | .hbm, ⟨75, _⟩ => ⟨S800768x64, .bf16⟩
  | .hbm, ⟨76, _⟩ => ⟨S1x800768, .i32⟩
  | .hbm, ⟨77, _⟩ => ⟨S64x64, .bf16⟩
  | .hbm, ⟨78, _⟩ => ⟨S50000x64, .f32⟩
  | .hbm, ⟨79, _⟩ => ⟨S1x64, .f32⟩
  | .hbm, ⟨80, _⟩ => ⟨S1x64, .f32⟩
  | .hbm, ⟨81, _⟩ => ⟨S_, .f32⟩
  | .hbm, ⟨82, _⟩ => ⟨S1x64, .f32⟩
  | .hbm, ⟨83, _⟩ => ⟨S1x64, .f32⟩
  | .hbm, ⟨84, _⟩ => ⟨S_, .f32⟩
  | .hbm, ⟨85, _⟩ => ⟨S1x64, .f32⟩
  | .hbm, ⟨86, _⟩ => ⟨S1x64, .f32⟩
  | .hbm, ⟨87, _⟩ => ⟨S1x64, .f32⟩
  | .hbm, ⟨88, _⟩ => ⟨S1x64, .f32⟩
  | .hbm, ⟨89, _⟩ => ⟨S50000x64, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000x64, .f32⟩
  | .hbm, ⟨99, _⟩ => ⟨S800000x1, .f32⟩
  | .hbm, ⟨100, _⟩ => ⟨S800000x64, .f32⟩
  | .hbm, ⟨101, _⟩ => ⟨S800000x64, .f32⟩
  | .hbm, ⟨102, _⟩ => ⟨S800000x64, .bf16⟩
  | .hbm, ⟨103, _⟩ => ⟨S_, .i32⟩
  | .hbm, ⟨104, _⟩ => ⟨S_, .i32⟩
  | .hbm, ⟨105, _⟩ => ⟨S800768, .i32⟩
  | .hbm, ⟨106, _⟩ => ⟨S_, .i32⟩
  | .hbm, ⟨107, _⟩ => ⟨S_, .bf16⟩
  | .hbm, ⟨108, _⟩ => ⟨S800768x64, .bf16⟩
  | .hbm, ⟨109, _⟩ => ⟨S1x800768, .i32⟩
  | .hbm, ⟨110, _⟩ => ⟨S64x64, .bf16⟩
  | .hbm, ⟨111, _⟩ => ⟨S50000x64, .f32⟩
  | .hbm, ⟨112, _⟩ => ⟨S1x64, .f32⟩
  | .hbm, ⟨113, _⟩ => ⟨S1x64, .f32⟩
  | .hbm, ⟨114, _⟩ => ⟨S_, .f32⟩
  | .hbm, ⟨115, _⟩ => ⟨S1x64, .f32⟩
  | .hbm, ⟨116, _⟩ => ⟨S1x64, .f32⟩
  | .hbm, ⟨117, _⟩ => ⟨S_, .f32⟩
  | .hbm, ⟨118, _⟩ => ⟨S1x64, .f32⟩
  | .hbm, ⟨119, _⟩ => ⟨S1x64, .f32⟩
  | .hbm, ⟨120, _⟩ => ⟨S1x64, .f32⟩
  | .hbm, ⟨121, _⟩ => ⟨S1x64, .f32⟩
  | .hbm, ⟨122, _⟩ => ⟨S50000x64, .f32⟩
  | .hbm, ⟨123, _⟩ => ⟨S50000x1, .i32⟩
  | .hbm, ⟨124, _⟩ => ⟨S64x64, .bf16⟩
  | .hbm, ⟨125, _⟩ => ⟨S64x1, .bf16⟩
  | .hbm, ⟨126, _⟩ => ⟨S256x1, .f32⟩
  | .hbm, ⟨127, _⟩ => ⟨S256, .f32⟩
  | .local _ .vmem, ⟨0, _⟩ => ⟨S5000x64, .f32⟩
  | .local _ .vmem, ⟨1, _⟩ => ⟨S5000x64, .f32⟩
  | .local _ .vmem, ⟨2, _⟩ => ⟨S1x2048, .i32⟩
  | .local _ .vmem, ⟨3, _⟩ => ⟨S1x2048, .i32⟩
  | .local _ .vmem, ⟨4, _⟩ => ⟨S2048x64, .bf16⟩
  | .local _ .vmem, ⟨5, _⟩ => ⟨S2048x64, .bf16⟩
  | .local _ .vmem, ⟨6, _⟩ => ⟨S64x64, .bf16⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S1x64, .f32⟩
  | .local _ .vmem, ⟨19, _⟩ => ⟨S64, .f32⟩
  | .local _ .vmem, ⟨20, _⟩ => ⟨S64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S1x2048, .i32⟩
  | .local _ .vmem, ⟨26, _⟩ => ⟨S1x2048, .i32⟩
  | .local _ .vmem, ⟨27, _⟩ => ⟨S2048x64, .bf16⟩
  | .local _ .vmem, ⟨28, _⟩ => ⟨S2048x64, .bf16⟩
  | .local _ .vmem, ⟨29, _⟩ => ⟨S64x64, .bf16⟩
  | .local _ .vmem, ⟨30, _⟩ => ⟨S64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S1x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S1x64, .f32⟩
  | .local _ .vmem, ⟨41, _⟩ => ⟨S1x64, .f32⟩
  | .local _ .vmem, ⟨42, _⟩ => ⟨S64, .f32⟩
  | .local _ .vmem, ⟨43, _⟩ => ⟨S64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S1x2048, .i32⟩
  | .local _ .vmem, ⟨49, _⟩ => ⟨S1x2048, .i32⟩
  | .local _ .vmem, ⟨50, _⟩ => ⟨S2048x64, .bf16⟩
  | .local _ .vmem, ⟨51, _⟩ => ⟨S2048x64, .bf16⟩
  | .local _ .vmem, ⟨52, _⟩ => ⟨S64x64, .bf16⟩
  | .local _ .vmem, ⟨53, _⟩ => ⟨S64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S1x64, .f32⟩
  | .local _ .vmem, ⟨60, _⟩ => ⟨S1x64, .f32⟩
  | .local _ .vmem, ⟨61, _⟩ => ⟨S5000x64, .f32⟩
  | .local _ .vmem, ⟨62, _⟩ => ⟨S5000x64, .f32⟩
  | .local _ .vmem, ⟨63, _⟩ => ⟨S1x64, .f32⟩
  | .local _ .vmem, ⟨64, _⟩ => ⟨S1x64, .f32⟩
  | .local _ .vmem, ⟨65, _⟩ => ⟨S64, .f32⟩
  | .local _ .vmem, ⟨66, _⟩ => ⟨S64, .f32⟩
  | .local _ .vmem, ⟨67, _⟩ => ⟨S5000x64, .f32⟩
  | .local _ .vmem, ⟨68, _⟩ => ⟨S5000x64, .f32⟩
  | .local _ .vmem, ⟨69, _⟩ => ⟨S5000x1, .i32⟩
  | .local _ .vmem, ⟨70, _⟩ => ⟨S5000x1, .i32⟩
  | .local _ .vmem, ⟨71, _⟩ => ⟨S5000x64, .f32⟩
  | .local _ .vmem, ⟨72, _⟩ => ⟨S5000x64, .f32⟩
  | .local _ .vmem, ⟨73, _⟩ => ⟨S64x64, .bf16⟩
  | .local _ .vmem, ⟨74, _⟩ => ⟨S64, .f32⟩
  | .local _ .vmem, ⟨75, _⟩ => ⟨S64x1, .bf16⟩
  | .local _ .vmem, ⟨76, _⟩ => ⟨S1, .f32⟩
  | .local _ .vmem, ⟨77, _⟩ => ⟨S256x1, .f32⟩
  | .local _ .vmem, ⟨78, _⟩ => ⟨S256x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_1 : Ref sig .tc := ⟨.hbm, 37, rfl⟩
abbrev main_call0_v0 : Ref sig .tc := ⟨.hbm, 38, rfl⟩
abbrev main_v15 : Ref sig .tc := ⟨.hbm, 39, rfl⟩
abbrev main_c_2 : Ref sig .tc := ⟨.hbm, 40, rfl⟩
abbrev main_call1_v0 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20_0 : Ref sig .tc := ⟨.hbm, 46, rfl⟩
abbrev main_v20_1 : Ref sig .tc := ⟨.hbm, 47, rfl⟩
abbrev main_cst : Ref sig .tc := ⟨.hbm, 48, rfl⟩
abbrev main_v21 : Ref sig .tc := ⟨.hbm, 49, rfl⟩
abbrev main_v22 : Ref sig .tc := ⟨.hbm, 50, rfl⟩
abbrev main_cst_3 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_4 : Ref sig .tc := ⟨.hbm, 57, rfl⟩
abbrev main_v28 : Ref sig .tc := ⟨.hbm, 58, rfl⟩
abbrev main_v29 : Ref sig .tc := ⟨.hbm, 59, rfl⟩
abbrev main_c_5 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c_6 : Ref sig .tc := ⟨.hbm, 70, rfl⟩
abbrev main_call2_v0 : Ref sig .tc := ⟨.hbm, 71, rfl⟩
abbrev main_v39 : Ref sig .tc := ⟨.hbm, 72, rfl⟩
abbrev main_c_7 : Ref sig .tc := ⟨.hbm, 73, rfl⟩
abbrev main_call3_v0 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44_0 : Ref sig .tc := ⟨.hbm, 79, rfl⟩
abbrev main_v44_1 : Ref sig .tc := ⟨.hbm, 80, rfl⟩
abbrev main_cst_8 : Ref sig .tc := ⟨.hbm, 81, rfl⟩
abbrev main_v45 : Ref sig .tc := ⟨.hbm, 82, rfl⟩
abbrev main_v46 : Ref sig .tc := ⟨.hbm, 83, rfl⟩
abbrev main_cst_9 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_c_10 : Ref sig .tc := ⟨.hbm, 90, rfl⟩
abbrev main_v52 : Ref sig .tc := ⟨.hbm, 91, rfl⟩
abbrev main_v53 : Ref sig .tc := ⟨.hbm, 92, rfl⟩
abbrev main_c_11 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_c_12 : Ref sig .tc := ⟨.hbm, 103, rfl⟩
abbrev main_call4_v0 : Ref sig .tc := ⟨.hbm, 104, rfl⟩
abbrev main_v63 : Ref sig .tc := ⟨.hbm, 105, rfl⟩
abbrev main_c_13 : Ref sig .tc := ⟨.hbm, 106, rfl⟩
abbrev main_call5_v0 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68_0 : Ref sig .tc := ⟨.hbm, 112, rfl⟩
abbrev main_v68_1 : Ref sig .tc := ⟨.hbm, 113, rfl⟩
abbrev main_cst_14 : Ref sig .tc := ⟨.hbm, 114, rfl⟩
abbrev main_v69 : Ref sig .tc := ⟨.hbm, 115, rfl⟩
abbrev main_v70 : Ref sig .tc := ⟨.hbm, 116, rfl⟩
abbrev main_cst_15 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc3_scratch0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg2_1 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc6_scratch0 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg2_0 : Ref sig .tc := ⟨.vmem, 60, rfl⟩
abbrev cc8_stg0_0 : Ref sig .tc := ⟨.vmem, 61, rfl⟩
abbrev cc8_stg0_1 : Ref sig .tc := ⟨.vmem, 62, rfl⟩
abbrev cc8_stg1_0 : Ref sig .tc := ⟨.vmem, 63, rfl⟩
abbrev cc8_stg2_0 : Ref sig .tc := ⟨.vmem, 64, rfl⟩
abbrev cc8_stg3_0 : Ref sig .tc := ⟨.vmem, 65, rfl⟩
abbrev cc8_stg4_0 : Ref sig .tc := ⟨.vmem, 66, rfl⟩
abbrev cc8_stg5_0 : Ref sig .tc := ⟨.vmem, 67, rfl⟩
abbrev cc8_stg5_1 : Ref sig .tc := ⟨.vmem, 68, rfl⟩
abbrev cc9_stg0_0 : Ref sig .tc := ⟨.vmem, 69, rfl⟩
abbrev cc9_stg0_1 : Ref sig .tc := ⟨.vmem, 70, rfl⟩
abbrev cc9_stg1_0 : Ref sig .tc := ⟨.vmem, 71, rfl⟩
abbrev cc9_stg1_1 : Ref sig .tc := ⟨.vmem, 72, rfl⟩
abbrev cc9_stg2_0 : Ref sig .tc := ⟨.vmem, 73, rfl⟩
abbrev cc9_stg3_0 : Ref sig .tc := ⟨.vmem, 74, rfl⟩
abbrev cc9_stg4_0 : Ref sig .tc := ⟨.vmem, 75, rfl⟩
abbrev cc9_stg5_0 : Ref sig .tc := ⟨.vmem, 76, rfl⟩
abbrev cc9_stg6_0 : Ref sig .tc := ⟨.vmem, 77, rfl⟩
abbrev cc9_scratch0 : Ref sig .tc := ⟨.vmem, 78, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem5_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49
abbrev cc6_sem3_0 : DmaSem sig := 50
abbrev cc6_sem4_0 : DmaSem sig := 51
abbrev cc6_sem5_0 : DmaSem sig := 52
abbrev cc6_sem5_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc8_sem0_0 : DmaSem sig := 58
abbrev cc8_sem0_1 : DmaSem sig := 59
abbrev cc8_sem1_0 : DmaSem sig := 60
abbrev cc8_sem2_0 : DmaSem sig := 61
abbrev cc8_sem3_0 : DmaSem sig := 62
abbrev cc8_sem4_0 : DmaSem sig := 63
abbrev cc8_sem5_0 : DmaSem sig := 64
abbrev cc8_sem5_1 : DmaSem sig := 65
abbrev cc9_sem0_0 : DmaSem sig := 66
abbrev cc9_sem0_1 : DmaSem sig := 67
abbrev cc9_sem1_0 : DmaSem sig := 68
abbrev cc9_sem1_1 : DmaSem sig := 69
abbrev cc9_sem2_0 : DmaSem sig := 70
abbrev cc9_sem3_0 : DmaSem sig := 71
abbrev cc9_sem4_0 : DmaSem sig := 72
abbrev cc9_sem5_0 : DmaSem sig := 73
abbrev cc9_sem6_0 : DmaSem sig := 74

abbrev nD : Nat := 1
abbrev τ : Topo := Topo.v7x

variable {F : FTy → Type} [FloatOps F]

abbrev grid0 : Pipeline.Grid := ⟨2, ![10, 391], ![false, false]⟩

def k0_cond2 (i : grid0.Coords) : BitVec 1 :=
  let arg1 : BitVec 32 := BitVec.ofNat 32 (i 1).val
  let c390_i32 : BitVec 32 := 390#32
  let v23 : BitVec 1 := Scalar.cmpi .eq arg1 c390_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![10, 391], ![false, false]⟩

def k3_cond2 (i : grid3.Coords) : BitVec 1 :=
  let arg1 : BitVec 32 := BitVec.ofNat 32 (i 1).val
  let c390_i32 : BitVec 32 := 390#32
  let v23 : BitVec 1 := Scalar.cmpi .eq arg1 c390_i32
  let v24 : BitVec 32 := Scalar.extui v23
  let c0_i32_8 : BitVec 32 := 0#32
  let v25 : BitVec 1 := Scalar.cmpi .ne v24 c0_i32_8
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x2048 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 1 → Memref sig .tc .vmem S64x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨2, ![10, 391], ![false, false]⟩

def k6_cond2 (i : grid6.Coords) : BitVec 1 :=
  let arg1 : BitVec 32 := BitVec.ofNat 32 (i 1).val
  let c390_i32 : BitVec 32 := 390#32
  let v23 : BitVec 1 := Scalar.cmpi .eq arg1 c390_i32
  let v24 : BitVec 32 := Scalar.extui v23
  let c0_i32_8 : BitVec 32 := 0#32
  let v25 : BitVec 1 := Scalar.cmpi .ne v24 c0_i32_8
  v25

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S1x2048 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S2048x64 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 1 → Memref sig .tc .vmem S64x64 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 1 → Memref sig .tc .vmem S64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false, false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def k9_cond2 (i : grid9.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x1 .i32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x64 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S64x1 .bf16 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S256x1 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bitsLt_bf16_f32 : FTy.bits .bf16 < FTy.bits .f32
  pads_S800000_S800768_07680 : S800000.Pads (![0] : Fin 1 → Nat) ![768] ![0] S800768
  h_S_ : 0 < S_.numel
  pads_S800000x64_S800768x64_07680_000 : S800000x64.Pads (![0, 0] : Fin 2 → Nat) ![768, 0] ![0, 0] S800768x64
  shapeCasts_S800768_S1x800768 : S800768.ShapeCasts S1x800768
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  iota_S5000x1_d0_w32 : S5000x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S5000x1_S5000x2048 : S5000x1.Broadcasts S5000x2048
  broadcasts_S1x2048_S5000x2048 : S1x2048.Broadcasts S5000x2048
  natLt_1_32 : 1 < 32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S5000x64_S64 : S5000x64.Reduces [0] S64
  bcast_S_S1x64 : S_.BroadcastsInDim S1x64 (![] : Fin 0 → Fin S1x64.rank)
  shapeCasts_S50000_S50000x1 : S50000.ShapeCasts S50000x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x256_d1_w32 : S5000x256.Iotas .tc 32 [1]
  broadcasts_S5000x1_S5000x256 : S5000x1.Broadcasts S5000x256
  broadcasts_S1x64_S256x64 : S1x64.Broadcasts S256x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1x1 : S1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  shapeCasts_S256x1_S256 : S256x1.ShapeCasts S256
  gather_S50000x64_S800000x1_S800000x64_1_0_n_n_0_1_164_wf : GatherDims.WF S50000x64 S800000x1 S800000x64 [1] [0] [] [0] [] 1 ![1, 64]
  dot_S5000x2048_S2048x64_S5000x64_1_0_0_1_n_n_wf : DotDims.WF S5000x2048 S2048x64 S5000x64 [1] [0] [0] [1] [] []
  dot_S5000x64_S64x64_S5000x64_1_0_0_1_n_n_wf : DotDims.WF S5000x64 S64x64 S5000x64 [1] [0] [0] [1] [] []
  dot_S5000x256_S5000x64_S256x64_0_0_1_1_n_n_wf : DotDims.WF S5000x256 S5000x64 S256x64 [0] [0] [1] [1] [] []
  dot_S256x64_S64x64_S256x64_1_0_0_1_n_n_wf : DotDims.WF S256x64 S64x64 S256x64 [1] [0] [0] [1] [] []
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x800768.size a
  hwx0_1 : ∀ i : grid0.Coords, EltTy.bits .i32 = 32 ∨ (Rect.block (s := S1x800768) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S800768x64.size a
  hwx0_2 : ∀ i : grid0.Coords, EltTy.bits .bf16 = 32 ∨ (Rect.block (s := S800768x64) S2048x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048.size a ≤ S1x800768.size a
  hwx3_1 : ∀ i : grid3.Coords, EltTy.bits .i32 = 32 ∨ (Rect.block (s := S1x800768) S1x2048.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S800768x64.size a
  hwx3_2 : ∀ i : grid3.Coords, EltTy.bits .bf16 = 32 ∨ (Rect.block (s := S800768x64) S2048x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .bf16 = 32 ∨ (Rect.block (s := S64x64) S64x64.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64.size a ≤ S64.size a
  hwx5_4 : ∀ i : grid5.Coords, EltTy.bits .f32 = 32 ∨ (Rect.block (s := S64) S64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x2048.size a ≤ S1x800768.size a
  hwx6_1 : ∀ i : grid6.Coords, EltTy.bits .i32 = 32 ∨ (Rect.block (s := S1x800768) S1x2048.size (cc6_transform_1 i) (hinb6_1 i)).WholeWords (EltTy.packing .i32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x64.size a ≤ S800768x64.size a
  hwx6_2 : ∀ i : grid6.Coords, EltTy.bits .bf16 = 32 ∨ (Rect.block (s := S800768x64) S2048x64.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .bf16 = 32 ∨ (Rect.block (s := S64x64) S64x64.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64.size a ≤ S64.size a
  hwx6_4 : ∀ i : grid6.Coords, EltTy.bits .f32 = 32 ∨ (Rect.block (s := S64) S64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S50000x64.size a
  hwx6_5 : ∀ i : grid6.Coords, EltTy.bits .f32 = 32 ∨ (Rect.block (s := S50000x64) S5000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64.size a ≤ S64.size a
  hwx8_3 : ∀ i : grid8.Coords, EltTy.bits .f32 = 32 ∨ (Rect.block (s := S64) S64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64.size a ≤ S64.size a
  hwx8_4 : ∀ i : grid8.Coords, EltTy.bits .f32 = 32 ∨ (Rect.block (s := S64) S64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S50000x64.size a
  hwx8_5 : ∀ i : grid8.Coords, EltTy.bits .f32 = 32 ∨ (Rect.block (s := S50000x64) S5000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x1.size a ≤ S50000x1.size a
  hwx9_0 : ∀ i : grid9.Coords, EltTy.bits .i32 = 32 ∨ (Rect.block (s := S50000x1) S5000x1.size (cc9_transform_0 i) (hinb9_0 i)).WholeWords (EltTy.packing .i32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S50000x64.size a
  hwx9_1 : ∀ i : grid9.Coords, EltTy.bits .f32 = 32 ∨ (Rect.block (s := S50000x64) S5000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x64.size a ≤ S64x64.size a
  hwx9_2 : ∀ i : grid9.Coords, EltTy.bits .bf16 = 32 ∨ (Rect.block (s := S64x64) S64x64.size (cc9_transform_2 i) (hinb9_2 i)).WholeWords (EltTy.packing .bf16)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64.size a ≤ S64.size a
  hwx9_3 : ∀ i : grid9.Coords, EltTy.bits .f32 = 32 ∨ (Rect.block (s := S64) S64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S64x1.size a ≤ S64x1.size a
  hwx9_4 : ∀ i : grid9.Coords, EltTy.bits .bf16 = 32 ∨ (Rect.block (s := S64x1) S64x1.size (cc9_transform_4 i) (hinb9_4 i)).WholeWords (EltTy.packing .bf16)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1.size a ≤ S1.size a
  hwx9_5 : ∀ i : grid9.Coords, EltTy.bits .f32 = 32 ∨ (Rect.block (s := S1) S1.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S256x1.size a ≤ S256x1.size a
  hwx9_6 : ∀ i : grid9.Coords, EltTy.bits .f32 = 32 ∨ (Rect.block (s := S256x1) S256x1.size (cc9_transform_6 i) (hinb9_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S5000x2048_S2048x64_S5000x64_1_0_0_1_n_n : DotDims S5000x2048 S2048x64 S5000x64 where
  lhsContracting := [1]
  rhsContracting := [0]
  lhsNonContracting := [0]
  rhsNonContracting := [1]
  lhsBatch := []
  rhsBatch := []
  wf := dot_S5000x2048_S2048x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v19) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v27) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S1x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v42) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg7) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

abbrev win4_0 : Pipeline.Window sig grid4 :=
  Pipeline.Window.ofSpec (Memref.whole main_v43) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44_0) S1x64.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v44_1) S1x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v43) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v50) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg16) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg17) S64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v51) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v51) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v65) S1x2048.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v64) S2048x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v66) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg9) S64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v67) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev idle6 : Fin 6 → grid6.Coords → Bool := fun | 0 => fun _ => false | 1 => fun _ => false | 2 => fun _ => false | 3 => fun _ => false | 4 => fun _ => false | 5 => fun i => !(k6_cond2 i == 1#1) | ⟨_ + 6, h⟩ => absurd h (Nat.not_lt.2 (Nat.le_add_left _ _))

abbrev win7_0 : Pipeline.Window sig grid7 :=
  Pipeline.Window.ofSpec (Memref.whole main_v67) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v68_0) S1x64.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v68_1) S1x64.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v67) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v70) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v74) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg18) S64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg19) S64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v75) S5000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v76) S5000x1.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v75) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v77) S64x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg11) S64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v78) S64x1.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg13) S1.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v79) S256x1.size cc9_transform_6 reads9_6 true true 1 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev idle9 : Fin 7 → grid9.Coords → Bool := fun | 0 => fun _ => false | 1 => fun _ => false | 2 => fun _ => false | 3 => fun _ => false | 4 => fun _ => false | 5 => fun _ => false | 6 => fun i => !(k9_cond2 i == 1#1) | ⟨_ + 7, h⟩ => absurd h (Nat.not_lt.2 (Nat.le_add_left _ _))

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S256x64 : Shape := ⟨2, ![256, 64]⟩
abbrev S50000x1 : Shape := ⟨2, ![50000, 1]⟩
abbrev S256x1 : Shape := ⟨2, ![256, 1]⟩
abbrev S1x1 : Shape := ⟨2, ![1, 1]⟩
abbrev S256 : Shape := ⟨1, ![256]⟩

abbrev nBuf : Space → Nat
  | .hbm => 244
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S50000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x1, .f32⟩
  | 13 => ⟨S1, .f32⟩
  | 14 => ⟨S64, .f32⟩
  | 15 => ⟨S64, .f32⟩
  | 16 => ⟨S64, .f32⟩
  | 17 => ⟨S64, .f32⟩
  | 18 => ⟨S64, .f32⟩
  | 19 => ⟨S64, .f32⟩
  | 20 => ⟨S1x800000, .i32⟩
  | 21 => ⟨S800000, .i32⟩
  | 22 => ⟨S1x800000, .i32⟩
  | 23 => ⟨S800000, .i32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .f32⟩
  | 33 => ⟨S800000x1, .f32⟩
  | 34 => ⟨S800000x64, .f32⟩
  | 35 => ⟨S800000x64, .f32⟩
  | 36 => ⟨S_, .f32⟩
  | 37 => ⟨S50000x64, .f32⟩
  | 38 => ⟨S800000x1, .i32⟩
  | 39 => ⟨S50000x64, .f32⟩
  | 40 => ⟨S50000x64, .f32⟩
  | 41 => ⟨S50000x64, .f32⟩
  | 42 => ⟨S1x64, .f32⟩
  | 43 => ⟨S50000x64, .f32⟩
  | 44 => ⟨S50000x64, .f32⟩
  | 45 => ⟨S_, .f32⟩
  | 46 => ⟨S50000x64, .f32⟩
  | 47 => ⟨S50000x64, .f32⟩
  | 48 => ⟨S_, .f32⟩
  | 49 => ⟨S64, .f32⟩
  | 50 => ⟨S_, .f32⟩
  | 51 => ⟨S64, .f32⟩
  | 52 => ⟨S64, .f32⟩
  | 53 => ⟨S_, .i32⟩
  | 54 => ⟨S_, .f32⟩
  | 55 => ⟨S64, .f32⟩
  | 56 => ⟨S1x64, .f32⟩
  | 57 => ⟨S_, .f32⟩
  | 58 => ⟨S1x64, .f32⟩
  | 59 => ⟨S1x64, .f32⟩
  | 60 => ⟨S50000x64, .f32⟩
  | 61 => ⟨S50000x64, .f32⟩
  | 62 => ⟨S50000x64, .f32⟩
  | 63 => ⟨S_, .f32⟩
  | 64 => ⟨S_, .f32⟩
  | 65 => ⟨S_, .f32⟩
  | 66 => ⟨S_, .f32⟩
  | 67 => ⟨S64, .f32⟩
  | 68 => ⟨S64, .f32⟩
  | 69 => ⟨S64, .f32⟩
  | 70 => ⟨S_, .f32⟩
  | 71 => ⟨S_, .i1⟩
  | 72 => ⟨S_, .f32⟩
  | 73 => ⟨S_, .f32⟩
  | 74 => ⟨S64, .f32⟩
  | 75 => ⟨S64, .f32⟩
  | 76 => ⟨S1x64, .f32⟩
  | 77 => ⟨S50000x64, .f32⟩
  | 78 => ⟨S50000x64, .f32⟩
  | 79 => ⟨S_, .f32⟩
  | 80 => ⟨S64, .f32⟩
  | 81 => ⟨S64, .f32⟩
  | 82 => ⟨S64, .f32⟩
  | 83 => ⟨S1x64, .f32⟩
  | 84 => ⟨S50000x64, .f32⟩
  | 85 => ⟨S50000x64, .f32⟩
  | 86 => ⟨S1x64, .f32⟩
  | 87 => ⟨S50000x64, .f32⟩
  | 88 => ⟨S50000x64, .f32⟩
  | 89 => ⟨S1x64, .f32⟩
  | 90 => ⟨S50000x64, .f32⟩
  | 91 => ⟨S50000x64, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x64, .f32⟩
  | 101 => ⟨S800000x1, .f32⟩
  | 102 => ⟨S800000x64, .f32⟩
  | 103 => ⟨S800000x64, .f32⟩
  | 104 => ⟨S_, .f32⟩
  | 105 => ⟨S50000x64, .f32⟩
  | 106 => ⟨S800000x1, .i32⟩
  | 107 => ⟨S50000x64, .f32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S_, .f32⟩
  | 117 => ⟨S64, .f32⟩
  | 118 => ⟨S_, .f32⟩
  | 119 => ⟨S64, .f32⟩
  | 120 => ⟨S64, .f32⟩
  | 121 => ⟨S_, .i32⟩
  | 122 => ⟨S_, .f32⟩
  | 123 => ⟨S64, .f32⟩
  | 124 => ⟨S1x64, .f32⟩
  | 125 => ⟨S_, .f32⟩
  | 126 => ⟨S1x64, .f32⟩
  | 127 => ⟨S1x64, .f32⟩
  | _ => ⟨S50000x64, .f32⟩

abbrev hbmTy0_1 (i : Nat) : BufTy := match i % 128 with
  | 0 => ⟨S50000x64, .f32⟩
  | 1 => ⟨S50000x64, .f32⟩
  | 2 => ⟨S50000x64, .f32⟩
  | 3 => ⟨S_, .f32⟩
  | 4 => ⟨S_, .f32⟩
  | 5 => ⟨S_, .f32⟩
  | 6 => ⟨S_, .f32⟩
  | 7 => ⟨S64, .f32⟩
  | 8 => ⟨S64, .f32⟩
  | 9 => ⟨S64, .f32⟩
  | 10 => ⟨S_, .f32⟩
  | 11 => ⟨S_, .i1⟩
  | 12 => ⟨S_, .f32⟩
  | 13 => ⟨S_, .f32⟩
  | 14 => ⟨S64, .f32⟩
  | 15 => ⟨S64, .f32⟩
  | 16 => ⟨S1x64, .f32⟩
  | 17 => ⟨S50000x64, .f32⟩
  | 18 => ⟨S50000x64, .f32⟩
  | 19 => ⟨S_, .f32⟩
  | 20 => ⟨S64, .f32⟩
  | 21 => ⟨S64, .f32⟩
  | 22 => ⟨S64, .f32⟩
  | 23 => ⟨S1x64, .f32⟩
  | 24 => ⟨S50000x64, .f32⟩
  | 25 => ⟨S50000x64, .f32⟩
  | 26 => ⟨S1x64, .f32⟩
  | 27 => ⟨S50000x64, .f32⟩
  | 28 => ⟨S50000x64, .f32⟩
  | 29 => ⟨S1x64, .f32⟩
  | 30 => ⟨S50000x64, .f32⟩
  | 31 => ⟨S50000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S800000x1, .f32⟩
  | 42 => ⟨S800000x64, .f32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S50000x64, .f32⟩
  | 49 => ⟨S50000x64, .f32⟩
  | 50 => ⟨S1x64, .f32⟩
  | 51 => ⟨S50000x64, .f32⟩
  | 52 => ⟨S50000x64, .f32⟩
  | 53 => ⟨S_, .f32⟩
  | 54 => ⟨S64, .f32⟩
  | 55 => ⟨S_, .f32⟩
  | 56 => ⟨S64, .f32⟩
  | 57 => ⟨S64, .f32⟩
  | 58 => ⟨S_, .i32⟩
  | 59 => ⟨S_, .f32⟩
  | 60 => ⟨S64, .f32⟩
  | 61 => ⟨S1x64, .f32⟩
  | 62 => ⟨S_, .f32⟩
  | 63 => ⟨S1x64, .f32⟩
  | 64 => ⟨S1x64, .f32⟩
  | 65 => ⟨S50000x64, .f32⟩
  | 66 => ⟨S50000x64, .f32⟩
  | 67 => ⟨S50000x64, .f32⟩
  | 68 => ⟨S_, .f32⟩
  | 69 => ⟨S_, .f32⟩
  | 70 => ⟨S_, .f32⟩
  | 71 => ⟨S_, .f32⟩
  | 72 => ⟨S64, .f32⟩
  | 73 => ⟨S64, .f32⟩
  | 74 => ⟨S64, .f32⟩
  | 75 => ⟨S_, .f32⟩
  | 76 => ⟨S_, .i1⟩
  | 77 => ⟨S_, .f32⟩
  | 78 => ⟨S_, .f32⟩
  | 79 => ⟨S64, .f32⟩
  | 80 => ⟨S64, .f32⟩
  | 81 => ⟨S1x64, .f32⟩
  | 82 => ⟨S50000x64, .f32⟩
  | 83 => ⟨S50000x64, .f32⟩
  | 84 => ⟨S_, .f32⟩
  | 85 => ⟨S64, .f32⟩
  | 86 => ⟨S64, .f32⟩
  | 87 => ⟨S64, .f32⟩
  | 88 => ⟨S1x64, .f32⟩
  | 89 => ⟨S50000x64, .f32⟩
  | 90 => ⟨S50000x64, .f32⟩
  | 91 => ⟨S1x64, .f32⟩
  | 92 => ⟨S50000x64, .f32⟩
  | 93 => ⟨S50000x64, .f32⟩
  | 94 => ⟨S1x64, .f32⟩
  | 95 => ⟨S50000x64, .f32⟩
  | 96 => ⟨S50000x64, .f32⟩
  | 97 => ⟨S_, .f32⟩
  | 98 => ⟨S256x64, .f32⟩
  | 99 => ⟨S50000x1, .i32⟩
  | 100 => ⟨S256x64, .f32⟩
  | 101 => ⟨S_, .f32⟩
  | 102 => ⟨S256x64, .f32⟩
  | 103 => ⟨S256x64, .f32⟩
  | 104 => ⟨S256x64, .f32⟩
  | 105 => ⟨S1x64, .f32⟩
  | 106 => ⟨S256x64, .f32⟩
  | 107 => ⟨S256x64, .f32⟩
  | 108 => ⟨S_, .f32⟩
  | 109 => ⟨S256x64, .f32⟩
  | 110 => ⟨S256x64, .f32⟩
  | 111 => ⟨S256x1, .f32⟩
  | 112 => ⟨S1x1, .f32⟩
  | 113 => ⟨S256x1, .f32⟩
  | 114 => ⟨S256x1, .f32⟩
  | 115 => ⟨S256, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_call0_cst : Ref sig .tc := ⟨.hbm, 45, rfl⟩
abbrev main_call0_v0 : Ref sig .tc := ⟨.hbm, 46, rfl⟩
abbrev main_v22 : Ref sig .tc := ⟨.hbm, 47, rfl⟩
abbrev main_cst_1 : Ref sig .tc := ⟨.hbm, 48, rfl⟩
abbrev main_v23 : Ref sig .tc := ⟨.hbm, 49, rfl⟩
abbrev main_cst_2 : Ref sig .tc := ⟨.hbm, 50, rfl⟩
abbrev main_v24 : Ref sig .tc := ⟨.hbm, 51, rfl⟩
abbrev main_v25 : Ref sig .tc := ⟨.hbm, 52, rfl⟩
abbrev main_c_3 : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_cst_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_cst_1 : Ref sig .tc := ⟨.hbm, 64, rfl⟩
abbrev main_call1_v8 : Ref sig .tc := ⟨.hbm, 65, rfl⟩
abbrev main_call1_cst_2 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_cst_3 : Ref sig .tc := ⟨.hbm, 70, rfl⟩
abbrev main_call1_v12 : Ref sig .tc := ⟨.hbm, 71, rfl⟩
abbrev main_call1_cst_4 : Ref sig .tc := ⟨.hbm, 72, rfl⟩
abbrev main_call1_call0_v0 : Ref sig .tc := ⟨.hbm, 73, rfl⟩
abbrev main_call1_call0_v1 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_cst_4 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_c_5 : Ref sig .tc := ⟨.hbm, 92, rfl⟩
abbrev main_v42 : Ref sig .tc := ⟨.hbm, 93, rfl⟩
abbrev main_v43 : Ref sig .tc := ⟨.hbm, 94, rfl⟩
abbrev main_c_6 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_cst_7 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_call2_cst : Ref sig .tc := ⟨.hbm, 113, rfl⟩
abbrev main_call2_v0 : Ref sig .tc := ⟨.hbm, 114, rfl⟩
abbrev main_v60 : Ref sig .tc := ⟨.hbm, 115, rfl⟩
abbrev main_cst_8 : Ref sig .tc := ⟨.hbm, 116, rfl⟩
abbrev main_v61 : Ref sig .tc := ⟨.hbm, 117, rfl⟩
abbrev main_cst_9 : Ref sig .tc := ⟨.hbm, 118, rfl⟩
abbrev main_v62 : Ref sig .tc := ⟨.hbm, 119, rfl⟩
abbrev main_v63 : Ref sig .tc := ⟨.hbm, 120, rfl⟩
abbrev main_c_10 : Ref sig .tc := ⟨.hbm, 121, rfl⟩
abbrev main_call3_cst : Ref sig .tc := ⟨.hbm, 122, rfl⟩
abbrev main_call3_v0 : Ref sig .tc := ⟨.hbm, 123, rfl⟩
abbrev main_call3_v1 : Ref sig .tc := ⟨.hbm, 124, rfl⟩
abbrev main_call3_cst_0 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_v7 : Ref sig .tc := ⟨.hbm, 131, rfl⟩
abbrev main_call3_cst_1 : Ref sig .tc := ⟨.hbm, 132, rfl⟩
abbrev main_call3_v8 : Ref sig .tc := ⟨.hbm, 133, rfl⟩
abbrev main_call3_cst_2 : Ref sig .tc := ⟨.hbm, 134, rfl⟩
abbrev main_call3_v9 : Ref sig .tc := ⟨.hbm, 135, rfl⟩
abbrev main_call3_v10 : Ref sig .tc := ⟨.hbm, 136, rfl⟩
abbrev main_call3_v11 : Ref sig .tc := ⟨.hbm, 137, rfl⟩
abbrev main_call3_cst_3 : Ref sig .tc := ⟨.hbm, 138, rfl⟩
abbrev main_call3_v12 : Ref sig .tc := ⟨.hbm, 139, rfl⟩
abbrev main_call3_cst_4 : Ref sig .tc := ⟨.hbm, 140, rfl⟩
abbrev main_call3_call0_v0 : Ref sig .tc := ⟨.hbm, 141, rfl⟩
abbrev main_call3_call0_v1 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_cst_11 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_c_12 : Ref sig .tc := ⟨.hbm, 160, rfl⟩
abbrev main_v80 : Ref sig .tc := ⟨.hbm, 161, rfl⟩
abbrev main_v81 : Ref sig .tc := ⟨.hbm, 162, rfl⟩
abbrev main_c_13 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_cst_14 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_cst_15 : Ref sig .tc := ⟨.hbm, 181, rfl⟩
abbrev main_v98 : Ref sig .tc := ⟨.hbm, 182, rfl⟩
abbrev main_cst_16 : Ref sig .tc := ⟨.hbm, 183, rfl⟩
abbrev main_v99 : Ref sig .tc := ⟨.hbm, 184, rfl⟩
abbrev main_v100 : Ref sig .tc := ⟨.hbm, 185, rfl⟩
abbrev main_c_17 : Ref sig .tc := ⟨.hbm, 186, rfl⟩
abbrev main_call4_cst : Ref sig .tc := ⟨.hbm, 187, rfl⟩
abbrev main_call4_v0 : Ref sig .tc := ⟨.hbm, 188, rfl⟩
abbrev main_call4_v1 : Ref sig .tc := ⟨.hbm, 189, rfl⟩
abbrev main_call4_cst_0 : Ref sig .tc := ⟨.hbm, 190, rfl⟩
abbrev main_call4_v2 : Ref sig .tc := ⟨.hbm, 191, rfl⟩
abbrev main_call4_v3 : Ref sig .tc := ⟨.hbm, 192, rfl⟩
abbrev main_call4_v4 : Ref sig .tc := ⟨.hbm, 193, rfl⟩
abbrev main_call4_v5 : Ref sig .tc := ⟨.hbm, 194, rfl⟩
abbrev main_call4_v6 : Ref sig .tc := ⟨.hbm, 195, rfl⟩
abbrev main_call4_v7 : Ref sig .tc := ⟨.hbm, 196, rfl⟩
abbrev main_call4_cst_1 : Ref sig .tc := ⟨.hbm, 197, rfl⟩
abbrev main_call4_v8 : Ref sig .tc := ⟨.hbm, 198, rfl⟩
abbrev main_call4_cst_2 : Ref sig .tc := ⟨.hbm, 199, rfl⟩
abbrev main_call4_v9 : Ref sig .tc := ⟨.hbm, 200, rfl⟩
abbrev main_call4_v10 : Ref sig .tc := ⟨.hbm, 201, rfl⟩
abbrev main_call4_v11 : Ref sig .tc := ⟨.hbm, 202, rfl⟩
abbrev main_call4_cst_3 : Ref sig .tc := ⟨.hbm, 203, rfl⟩
abbrev main_call4_v12 : Ref sig .tc := ⟨.hbm, 204, rfl⟩
abbrev main_call4_cst_4 : Ref sig .tc := ⟨.hbm, 205, rfl⟩
abbrev main_call4_call0_v0 : Ref sig .tc := ⟨.hbm, 206, rfl⟩
abbrev main_call4_call0_v1 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_v104 : Ref sig .tc := ⟨.hbm, 211, rfl⟩
abbrev main_cst_18 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_v115 : Ref sig .tc := ⟨.hbm, 223, rfl⟩
abbrev main_v116 : Ref sig .tc := ⟨.hbm, 224, rfl⟩
abbrev main_cst_19 : Ref sig .tc := ⟨.hbm, 225, rfl⟩
abbrev main_v117 : Ref sig .tc := ⟨.hbm, 226, rfl⟩
abbrev main_v118 : Ref sig .tc := ⟨.hbm, 227, rfl⟩
abbrev main_v119 : Ref sig .tc := ⟨.hbm, 228, rfl⟩
abbrev main_call5_cst : Ref sig .tc := ⟨.hbm, 229, rfl⟩
abbrev main_call5_v0 : Ref sig .tc := ⟨.hbm, 230, rfl⟩
abbrev main_v120 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_call6_cst : Ref sig .tc := ⟨.hbm, 236, rfl⟩
abbrev main_call6_v0 : Ref sig .tc := ⟨.hbm, 237, rfl⟩
abbrev main_v125 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_v129 : Ref sig .tc := ⟨.hbm, 242, rfl⟩
abbrev main_v130 : Ref sig .tc := ⟨.hbm, 243, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S256x64 : S_.BroadcastsInDim S256x64 (![] : Fin 0 → Fin S256x64.rank)
  bcast_S50000_S50000x1_0 : S50000.BroadcastsInDim S50000x1 (![0] : Fin 1 → Fin S50000x1.rank)
  bcast_S1x64_S256x64_0_1 : S1x64.BroadcastsInDim S256x64 (![0, 1] : Fin 2 → Fin S256x64.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S256x64_S50000x1_S50000x64_1_0_0_1_wf : ScatterDims.WF S256x64 S50000x1 S50000x64 [1] [0] [0] 1
  dot_S256x64_S64x64_S256x64_1_0_0_1_n_n_wf : DotDims.WF S256x64 S64x64 S256x64 [1] [0] [0] [1] [] []
  dot_S256x64_S64x1_S256x1_1_0_0_1_n_n_wf : DotDims.WF S256x64 S64x1 S256x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.KI.R0Runs.lean ====
import proofs.«407044_j9311489098471_2_alg».proof.Proof.Gen.KernelIdeal.Launch
import proofs.«407044_j9311489098471_2_alg».proof.Proof.Gen.KernelIdeal.Skeleton
import proofs.«407044_j9311489098471_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 391 = 0 :=
  (by decide +kernel : ∀ t : Fin grid0.N, cond0_0 (grid0.coords t) ↔ t.val % 391 = 0)

abbrev cond0_1 (i : grid0.Coords) : Prop := k0_cond2 i = 1#1

theorem hcond0_1 : ∀ t : Fin cfg0.N, cond0_1 (grid0.coords t) ↔ t.val % 391 = 390 :=
  (by decide +kernel : ∀ t : Fin grid0.N, cond0_1 (grid0.coords t) ↔ t.val % 391 = 390)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

theorem idleAt0_5 : ∀ t : Fin cfg0.N, ¬cond0_1 (grid0.coords t) → cfg0.idle 5 (grid0.coords t) = true := by
  intro t h
  show (!(k0_cond2 (grid0.coords t) == 1#1)) = true
  simpa using h

theorem noFlush0_5 : ∀ t : Fin cfg0.N, ¬cond0_1 (grid0.coords t) → (cfg0.win 5).flush t = false := by
  intro t h
  cases hf : (cfg0.win 5).flush t with
  | false => rfl
  | true => exact absurd ((hcond0_1 t).mpr ((flush0_5 t).mp hf)) h

theorem liveAt0_5 : ∀ t : Fin cfg0.N, cond0_1 (grid0.coords t) → cfg0.idle 5 (grid0.coords t) = false := by
  intro t h
  show (!(k0_cond2 (grid0.coords t) == 1#1)) = false
  simpa using h

section
variable (c : Dev nD) (i : grid0.Coords) (arg2 : Memref sig .tc .vmem S5000x64 .f32) (harg2 : arg2.IsWhole) (arg3 : Memref sig .tc .vmem S1x2048 .i32) (harg3 : arg3.IsWhole) (arg4 : Memref sig .tc .vmem S2048x64 .bf16) (harg4 : arg4.IsWhole) (arg5 : Memref sig .tc .vmem S64x64 .bf16) (harg5 : arg5.IsWhole) (arg6 : Memref sig .tc .vmem S64 .f32) (harg6 : arg6.IsWhole) (arg7 : Memref sig .tc .vmem S5000x64 .f32) (harg7 : arg7.IsWhole) (arg8 : Memref sig .tc .vmem S5000x64 .f32) (harg8 : arg8.IsWhole)
include c i arg2 harg2 arg3 harg3 arg4 harg4 arg5 harg5 arg6 harg6 arg7 harg7 arg8 harg8

set_option maxHeartbeats 4000000 in

noncomputable def kernelRun0_A (hc0 : cond0_0 i) (hc1 : ¬cond0_1 i)
    (x0 : Vec F S5000x64 .f32) (x1 : Vec F S1x2048 .i32) (x2 : Vec F S2048x64 .bf16) (x3 : Vec F S64x64 .bf16) (x4 : Vec F S64 .f32) :
    Σ' (L5 : List (View.Piece (Elt F) S5000x64 .f32)), { LS0 : List (View.Piece (Elt F) S5000x64 .f32) //
      ∀ (xi5 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], ?_, fun xi5 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in

noncomputable def kernelRun0_B (hc0 : ¬cond0_0 i) (hc1 : ¬cond0_1 i)
    (x0 : Vec F S5000x64 .f32) (x1 : Vec F S1x2048 .i32) (x2 : Vec F S2048x64 .bf16) (x3 : Vec F S64x64 .bf16) (x4 : Vec F S64 .f32) (xs0 : Vec F S5000x64 .f32) :
    Σ' (L5 : List (View.Piece (Elt F) S5000x64 .f32)), { LS0 : List (View.Piece (Elt F) S5000x64 .f32) //
      ∀ (xi5 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], ?_, fun xi5 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in

noncomputable def kernelRun0_C (hc0 : ¬cond0_0 i) (hc1 : cond0_1 i)
    (x0 : Vec F S5000x64 .f32) (x1 : Vec F S1x2048 .i32) (x2 : Vec F S2048x64 .bf16) (x3 : Vec F S64x64 .bf16) (x4 : Vec F S64 .f32) (xs0 : Vec F S5000x64 .f32) :
    Σ' (L5 : List (View.Piece (Elt F) S5000x64 .f32)), { LS0 : List (View.Piece (Elt F) S5000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end

end Cert.KernelIdeal.Hand

end
-- ==== Proof.KI.R0.lean ====
import proofs.«407044_j9311489098471_2_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev VO0_5 : View sig .tc .vmem S5000x64 .f32 := (Memref.whole cc0_stg5_0 : Memref sig .tc .vmem S5000x64 .f32).view
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x64 .f32 := win0_5.stage (cfg0.slots t 5)
abbrev hs0_5 (t : Fin cfg0.N) : (ms0_5 t).IsWhole := hstage0_5 ((cfg0.slots t 5).cast nbuf0_5)

abbrev scM0_0 : Memref sig .tc .vmem S5000x64 .f32 := Memref.whole cc0_scratch0
abbrev VS0_0 : View sig .tc .vmem S5000x64 .f32 := scM0_0.view

theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

section
variable (c : Dev nD) (i : grid0.Coords) (arg2 : Memref sig .tc .vmem S5000x64 .f32) (harg2 : arg2.IsWhole) (arg3 : Memref sig .tc .vmem S1x2048 .i32) (harg3 : arg3.IsWhole) (arg4 : Memref sig .tc .vmem S2048x64 .bf16) (harg4 : arg4.IsWhole) (arg5 : Memref sig .tc .vmem S64x64 .bf16) (harg5 : arg5.IsWhole) (arg6 : Memref sig .tc .vmem S64 .f32) (harg6 : arg6.IsWhole) (arg7 : Memref sig .tc .vmem S5000x64 .f32) (harg7 : arg7.IsWhole) (arg8 : Memref sig .tc .vmem S5000x64 .f32) (harg8 : arg8.IsWhole)
include c i arg2 harg2 arg3 harg3 arg4 harg4 arg5 harg5 arg6 harg6 arg7 harg7 arg8 harg8

def out0_A_5 (hc0 : cond0_0 i) (hc1 : ¬cond0_1 i)
    (x0 : Vec F S5000x64 .f32) (x1 : Vec F S1x2048 .i32) (x2 : Vec F S2048x64 .bf16) (x3 : Vec F S64x64 .bf16) (x4 : Vec F S64 .f32) : Vec F S5000x64 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

theorem scover0_A_0 (hc0 : cond0_0 i) (hc1 : ¬cond0_1 i)
    (x0 : Vec F S5000x64 .f32) (x1 : Vec F S1x2048 .i32) (x2 : Vec F S2048x64 .bf16) (x3 : Vec F S64x64 .bf16) (x4 : Vec F S64 .f32) (y : S5000x64.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S5000x64.size (by sl_kernel_rfl) y

def sout0_A_0 (hc0 : cond0_0 i) (hc1 : ¬cond0_1 i)
    (x0 : Vec F S5000x64 .f32) (x1 : Vec F S1x2048 .i32) (x2 : Vec F S2048x64 .bf16) (x3 : Vec F S64x64 .bf16) (x4 : Vec F S64 .f32) : Vec F S5000x64 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

def out0_B_5 (hc0 : ¬cond0_0 i) (hc1 : ¬cond0_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

theorem scover0_B_0 (hc0 : ¬cond0_0 i) (hc1 : ¬cond0_1 i)
    (x0 : Vec F S5000x64 .f32) (x1 : Vec F S1x2048 .i32) (x2 : Vec F S2048x64 .bf16) (x3 : Vec F S64x64 .bf16) (x4 : Vec F S64 .f32) (xs0 : Vec F S5000x64 .f32) (y : S5000x64.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S5000x64.size (by sl_kernel_rfl) y

def sout0_B_0 (hc0 : ¬cond0_0 i) (hc1 : ¬cond0_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

theorem cover0_C_5 (hc0 : ¬cond0_0 i) (hc1 : cond0_1 i)
    (x0 : Vec F S5000x64 .f32) (x1 : Vec F S1x2048 .i32) (x2 : Vec F S2048x64 .bf16) (x3 : Vec F S64x64 .bf16) (x4 : Vec F S64 .f32) (xs0 : Vec F S5000x64 .f32) (y : S5000x64.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S5000x64.size (by sl_kernel_rfl) y

def out0_C_5 (hc0 : ¬cond0_0 i) (hc1 : cond0_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

theorem scover0_C_0 (hc0 : ¬cond0_0 i) (hc1 : cond0_1 i)
    (x0 : Vec F S5000x64 .f32) (x1 : Vec F S1x2048 .i32) (x2 : Vec F S2048x64 .bf16) (x3 : Vec F S64x64 .bf16) (x4 : Vec F S64 .f32) (xs0 : Vec F S5000x64 .f32) (y : S5000x64.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S5000x64.size (by sl_kernel_rfl) y

def sout0_C_0 (hc0 : ¬cond0_0 i) (hc1 : cond0_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

end

def outsAt0 (c : Dev nD) : (n : ℕ) → n < cfg0.N → Vec F S5000x64 .f32 × Vec F S5000x64 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 391 = 0 then
      if h1 : (n + 1) % 391 = 390 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 391 = 390 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val % 391 = 0) (h1 : ¬t.val % 391 = 390) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 391 = 0) (h1 : ¬t.val % 391 = 390) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 391 = 0) (h1 : t.val % 391 = 390) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) : (dat0 V c).leavesExact 4 t = owns (c : Thread nD τ) (ms0_4 t) fullShare (iblk0 V c 4 t) := by
  unfold Dat.leavesExact; rw [liveAt0_4 t, after0_4]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 3910 := lt_of_lt_of_eq t.isLt (show cfg0.N = 3910 from N_0)
  by_cases h0 : t.val % 391 = 0
  · by_cases h1 : t.val % 391 = 390
    · exfalso; omega
    · rw [leaves0_0, leaves0_1, leaves0_2, leaves0_3, leaves0_4]
      rw [Dat.leavesExact_idle (dat0 V c) 5 t (idleAt0_5 t (fun h => h1 ((hcond0_1 t).mp h))) (noFlush0_5 t (fun h => h1 ((hcond0_1 t).mp h)))]
      rw [outsAt0_A V c t h0 h1]
      unfold sout0_A_0; (try dsimp only)
      by_cases hz : t.val = 0
      on_goal 1 => rw [PhiS0_castSucc V c t, PhiS0_zero V c _ _ hz, PhiA0_eq]
      on_goal 2 => rw [PhiS0_castSucc V c t, PhiS0_pos V c _ _ hz]
      all_goals
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · first | iexact HS0 | (iexists _; iexact HS0)
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 391 = 390
    · rw [leaves0_0, leaves0_1, leaves0_2, leaves0_3, leaves0_4]
      rw [show (dat0 V c).leavesExact 5 t = owns (c : Thread nD τ) (ms0_5 t) fullShare ((dat0 V c).after 5 t) from (by unfold Dat.leavesExact; rw [liveAt0_5 t ((hcond0_1 t).mpr h1)]), after0_5]
      rw [outsAt0_C V c t h0 h1]
      unfold out0_C_5 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    · rw [leaves0_0, leaves0_1, leaves0_2, leaves0_3, leaves0_4]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 3910 := N_0; omega)

end Region

end Cert.KernelIdeal.Hand

end
-- ==== Proof.KI.R1.lean ====
import proofs.«407044_j9311489098471_2_alg».proof.Proof.Gen.KernelIdeal.Launch
import proofs.«407044_j9311489098471_2_alg».proof.Proof.Gen.KernelIdeal.Skeleton
import proofs.«407044_j9311489098471_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 10 = 0 :=
  (by decide +kernel : ∀ t : Fin grid1.N, cond1_0 (grid1.coords t) ↔ t.val % 10 = 0)

abbrev VO1_1 : View sig .tc .vmem S1x64 .f32 := (Memref.whole cc1_stg1_0 : Memref sig .tc .vmem S1x64 .f32).view
abbrev VO1_2 : View sig .tc .vmem S1x64 .f32 := (Memref.whole cc1_stg2_0 : Memref sig .tc .vmem S1x64 .f32).view

abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)

section
variable (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole)
include c i arg1 harg1 arg2 harg2 arg3 harg3

set_option maxHeartbeats 1000000 in

noncomputable def kernelRun1_A (hc0 : cond1_0 i)
    (x0 : Vec F S5000x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1_bn_stats_kernel i arg1 harg1 arg2 harg2 arg3 harg3) K } := by
  refine ⟨?_, ?_, fun E K => ?run⟩
  case run =>
    simp only [cc1_bn_stats_kernel_eq_skeleton]; unfold cc1_bn_stats_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in

noncomputable def kernelRun1_B (hc0 : ¬cond1_0 i)
    (x0 : Vec F S5000x64 .f32) (xo1 : Vec F S1x64 .f32) (xo2 : Vec F S1x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1_bn_stats_kernel i arg1 harg1 arg2 harg2 arg3 harg3) K } := by
  refine ⟨?_, ?_, fun E K => ?run⟩
  case run =>
    simp only [cc1_bn_stats_kernel_eq_skeleton]; unfold cc1_bn_stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

theorem cover1_A_1 (hc0 : cond1_0 i)
    (x0 : Vec F S5000x64 .f32) (y : S1x64.Idx) :
    ∃ pc ∈ (kernelRun1_A c i arg1 harg1 arg2 harg2 arg3 harg3 hc0 x0).1, y ∈ pc.1.set :=
  View.cover_of_tiledL (kernelRun1_A c i arg1 harg1 arg2 harg2 arg3 harg3 hc0 x0).1 S1x64.size (by sl_kernel_rfl) y

theorem cover1_A_2 (hc0 : cond1_0 i)
    (x0 : Vec F S5000x64 .f32) (y : S1x64.Idx) :
    ∃ pc ∈ (kernelRun1_A c i arg1 harg1 arg2 harg2 arg3 harg3 hc0 x0).2.1, y ∈ pc.1.set :=
  View.cover_of_tiledL (kernelRun1_A c i arg1 harg1 arg2 harg2 arg3 harg3 hc0 x0).2.1 S1x64.size (by sl_kernel_rfl) y

def out1_A_1 (hc0 : cond1_0 i)
    (x0 : Vec F S5000x64 .f32) : Vec F S1x64 .f32 :=
  VO1_1.read (Elt F) (VO1_1.writes (Elt F) VO1_1.junk (kernelRun1_A c i arg1 harg1 arg2 harg2 arg3 harg3 hc0 x0).1)

def out1_A_2 (hc0 : cond1_0 i)
    (x0 : Vec F S5000x64 .f32) : Vec F S1x64 .f32 :=
  VO1_2.read (Elt F) (VO1_2.writes (Elt F) VO1_2.junk (kernelRun1_A c i arg1 harg1 arg2 harg2 arg3 harg3 hc0 x0).2.1)

theorem cover1_B_1 (hc0 : ¬cond1_0 i)
    (x0 : Vec F S5000x64 .f32) (xo1 : Vec F S1x64 .f32) (xo2 : Vec F S1x64 .f32) (y : S1x64.Idx) :
    ∃ pc ∈ (kernelRun1_B c i arg1 harg1 arg2 harg2 arg3 harg3 hc0 x0 xo1 xo2).1, y ∈ pc.1.set :=
  View.cover_of_tiledL (kernelRun1_B c i arg1 harg1 arg2 harg2 arg3 harg3 hc0 x0 xo1 xo2).1 S1x64.size (by sl_kernel_rfl) y

theorem cover1_B_2 (hc0 : ¬cond1_0 i)
    (x0 : Vec F S5000x64 .f32) (xo1 : Vec F S1x64 .f32) (xo2 : Vec F S1x64 .f32) (y : S1x64.Idx) :
    ∃ pc ∈ (kernelRun1_B c i arg1 harg1 arg2 harg2 arg3 harg3 hc0 x0 xo1 xo2).2.1, y ∈ pc.1.set :=
  View.cover_of_tiledL (kernelRun1_B c i arg1 harg1 arg2 harg2 arg3 harg3 hc0 x0 xo1 xo2).2.1 S1x64.size (by sl_kernel_rfl) y

def out1_B_1 (hc0 : ¬cond1_0 i)
    (x0 : Vec F S5000x64 .f32) (xo1 : Vec F S1x64 .f32) (xo2 : Vec F S1x64 .f32) : Vec F S1x64 .f32 :=
  VO1_1.read (Elt F) (VO1_1.writes (Elt F) VO1_1.junk (kernelRun1_B c i arg1 harg1 arg2 harg2 arg3 harg3 hc0 x0 xo1 xo2).1)

def out1_B_2 (hc0 : ¬cond1_0 i)
    (x0 : Vec F S5000x64 .f32) (xo1 : Vec F S1x64 .f32) (xo2 : Vec F S1x64 .f32) : Vec F S1x64 .f32 :=
  VO1_2.read (Elt F) (VO1_2.writes (Elt F) VO1_2.junk (kernelRun1_B c i arg1 harg1 arg2 harg2 arg3 harg3 hc0 x0 xo1 xo2).2.1)

end

def outsAt1 (c : Dev nD) : (n : ℕ) → n < cfg1.N → Vec F S1x64 .f32 × Vec F S1x64 .f32
  | 0, hn => (out1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩),
      out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩))
  | n + 1, hn =>
    if h0 : (n + 1) % 10 = 0 then
      (out1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩),
        out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩))
    else
      (out1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (outsAt1 c n (Nat.lt_of_succ_lt hn)).1 (outsAt1 c n (Nat.lt_of_succ_lt hn)).2,
        out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (outsAt1 c n (Nat.lt_of_succ_lt hn)).1 (outsAt1 c n (Nat.lt_of_succ_lt hn)).2)

theorem outsAt1_A (c : Dev nD) (t : Fin cfg1.N) (h0 : t.val % 10 = 0) :
    outsAt1 V c t.val t.isLt = (out1_A_1 c (grid1.coords t) (ms1_0 t) (hs1_0 t) (ms1_1 t) (hs1_1 t) (ms1_2 t) (hs1_2 t) ((hcond1_0 t).mpr h0) (iblk1 V c 0 t),
      out1_A_2 c (grid1.coords t) (ms1_0 t) (hs1_0 t) (ms1_1 t) (hs1_1 t) (ms1_2 t) (hs1_2 t) ((hcond1_0 t).mpr h0) (iblk1 V c 0 t)) := by
  obtain ⟨n, hn⟩ := t
  cases n with
  | zero => exact rfl
  | succ n => exact (dif_pos h0).trans rfl

theorem outsAt1_B (c : Dev nD) (t : Fin cfg1.N) (h0 : ¬t.val % 10 = 0) :
    outsAt1 V c t.val t.isLt = (out1_B_1 c (grid1.coords t) (ms1_0 t) (hs1_0 t) (ms1_1 t) (hs1_1 t) (ms1_2 t) (hs1_2 t) (fun h => h0 ((hcond1_0 t).mp h)) (iblk1 V c 0 t) (outsAt1 V c (t.val - 1) (Nat.lt_of_le_of_lt (Nat.sub_le _ _) t.isLt)).1 (outsAt1 V c (t.val - 1) (Nat.lt_of_le_of_lt (Nat.sub_le _ _) t.isLt)).2,
      out1_B_2 c (grid1.coords t) (ms1_0 t) (hs1_0 t) (ms1_1 t) (hs1_1 t) (ms1_2 t) (hs1_2 t) (fun h => h0 ((hcond1_0 t).mp h)) (iblk1 V c 0 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl

theorem before1_1_B (c : Dev nD) (t : Fin cfg1.N) (h0 : ¬t.val % 10 = 0) (d) :
    (dat1 V c).before 1 t d = (outsAt1 V c (t.val - 1) (Nat.lt_of_le_of_lt (Nat.sub_le _ _) t.isLt)).1 := by
  have hN : t.val < 10 := lt_of_lt_of_eq t.isLt (show cfg1.N = 10 from N_1)
  rw [Dat.before_out_kept _ 1 rfl t (by omega) (Bool.eq_false_iff.mpr fun h => by have := (flush1_1 _).mp h; dsimp only at this; omega)
    (fun _ => rfl) (fun _ _ => rfl)]
  dsimp only [dat1]

theorem before1_2_B (c : Dev nD) (t : Fin cfg1.N) (h0 : ¬t.val % 10 = 0) (d) :
    (dat1 V c).before 2 t d = (outsAt1 V c (t.val - 1) (Nat.lt_of_le_of_lt (Nat.sub_le _ _) t.isLt)).2 := by
  have hN : t.val < 10 := lt_of_lt_of_eq t.isLt (show cfg1.N = 10 from N_1)
  rw [Dat.before_out_kept _ 2 rfl t (by omega) (Bool.eq_false_iff.mpr fun h => by have := (flush1_2 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  have hN : t.val < 10 := lt_of_lt_of_eq t.isLt (show cfg1.N = 10 from N_1)
  by_cases h0 : t.val % 10 = 0
  · rw [outsAt1_A V c t h0]
    unfold out1_A_1 out1_A_2; (try dsimp only)
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover1_A_1 c _ _ _ _ _ _ _ _ _)
    unfold owns; iexists _; isplitr
    swap; · iexact H2
    ipureintro; exact View.read_writes_of_cover _ _ _ _ _ (cover1_A_2 c _ _ _ _ _ _ _ _ _)
  · rw [outsAt1_B V c t h0]
    simp only [before1_1_B V c t h0, before1_2_B V c t h0]
    unfold out1_B_1 out1_B_2; (try dsimp only)
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover1_B_1 c _ _ _ _ _ _ _ _ _ _ _)
    unfold owns; iexists _; isplitr
    swap; · iexact H2
    ipureintro; exact View.read_writes_of_cover _ _ _ _ _ (cover1_B_2 c _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

end Region1

end Cert.KernelIdeal.Hand

end
-- ==== Proof.KI.R2.lean ====
import proofs.«407044_j9311489098471_2_alg».proof.Proof.Gen.KernelIdeal.Launch
import proofs.«407044_j9311489098471_2_alg».proof.Proof.Gen.KernelIdeal.Skeleton
import proofs.«407044_j9311489098471_2_alg».proof.Proof.Gen.KernelIdeal.Points
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S1x64 := Rect.unit (s := S1x64) ![0, 0] S1x64.size inb_S1x64_S1x64_0_0
abbrev r2_2 : Rect S64 := Rect.unit (s := S64) ![0] S64.size inb_S64_S64_0

def out2_5 (x0 : Vec F S5000x64 .f32) (x1 : Vec F S1x64 .f32) (x2 : Vec F S1x64 .f32) (x3 : Vec F S64 .f32) (x4 : Vec F S64 .f32) :
    Vec F S5000x64 .f32 :=
  View.canon [⟨r2_0, k2_pay1 (View.ld x0 r2_0) (View.ld x2 r2_1) (View.ld x1 r2_1) (View.ld x3 r2_2) (View.ld x4 r2_2)⟩]

theorem cover2_5 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

set_option maxHeartbeats 1000000 in

theorem sound_kernel2 (c : Dev nD) (E : Set ℕ) (i : grid2.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2_bn_norm_kernel i arg1 harg1 arg2 harg2 arg3 harg3 arg4 harg4 arg5 harg5 arg6 harg6) K := by
  simp only [cc2_bn_norm_kernel_eq_skeleton]; unfold cc2_bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Cert.KernelIdeal.Hand

end
-- ==== Proof.KI.R3Runs.lean ====
import proofs.«407044_j9311489098471_2_alg».proof.Proof.Gen.KernelIdeal.Launch
import proofs.«407044_j9311489098471_2_alg».proof.Proof.Gen.KernelIdeal.Skeleton
import proofs.«407044_j9311489098471_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 1).val) 0#32)) 0#32) = 1#1

theorem hcond3_0 : ∀ t : Fin cfg3.N, cond3_0 (grid3.coords t) ↔ t.val % 391 = 0 :=
  (by decide +kernel : ∀ t : Fin grid3.N, cond3_0 (grid3.coords t) ↔ t.val % 391 = 0)

abbrev cond3_1 (i : grid3.Coords) : Prop := k3_cond2 i = 1#1

theorem hcond3_1 : ∀ t : Fin cfg3.N, cond3_1 (grid3.coords t) ↔ t.val % 391 = 390 :=
  (by decide +kernel : ∀ t : Fin grid3.N, cond3_1 (grid3.coords t) ↔ t.val % 391 = 390)

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl

theorem idleAt3_5 : ∀ t : Fin cfg3.N, ¬cond3_1 (grid3.coords t) → cfg3.idle 5 (grid3.coords t) = true := by
  intro t h
  show (!(k3_cond2 (grid3.coords t) == 1#1)) = true
  simpa using h

theorem noFlush3_5 : ∀ t : Fin cfg3.N, ¬cond3_1 (grid3.coords t) → (cfg3.win 5).flush t = false := by
  intro t h
  cases hf : (cfg3.win 5).flush t with
  | false => rfl
  | true => exact absurd ((hcond3_1 t).mpr ((flush3_5 t).mp hf)) h

theorem liveAt3_5 : ∀ t : Fin cfg3.N, cond3_1 (grid3.coords t) → cfg3.idle 5 (grid3.coords t) = false := by
  intro t h
  show (!(k3_cond2 (grid3.coords t) == 1#1)) = false
  simpa using h

section
variable (c : Dev nD) (i : grid3.Coords) (arg2 : Memref sig .tc .vmem S5000x64 .f32) (harg2 : arg2.IsWhole) (arg3 : Memref sig .tc .vmem S1x2048 .i32) (harg3 : arg3.IsWhole) (arg4 : Memref sig .tc .vmem S2048x64 .bf16) (harg4 : arg4.IsWhole) (arg5 : Memref sig .tc .vmem S64x64 .bf16) (harg5 : arg5.IsWhole) (arg6 : Memref sig .tc .vmem S64 .f32) (harg6 : arg6.IsWhole) (arg7 : Memref sig .tc .vmem S5000x64 .f32) (harg7 : arg7.IsWhole) (arg8 : Memref sig .tc .vmem S5000x64 .f32) (harg8 : arg8.IsWhole)
include c i arg2 harg2 arg3 harg3 arg4 harg4 arg5 harg5 arg6 harg6 arg7 harg7 arg8 harg8

set_option maxHeartbeats 4000000 in

noncomputable def kernelRun3_A (hc0 : cond3_0 i) (hc1 : ¬cond3_1 i)
    (x0 : Vec F S5000x64 .f32) (x1 : Vec F S1x2048 .i32) (x2 : Vec F S2048x64 .bf16) (x3 : Vec F S64x64 .bf16) (x4 : Vec F S64 .f32) :
    Σ' (L5 : List (View.Piece (Elt F) S5000x64 .f32)), { LS0 : List (View.Piece (Elt F) S5000x64 .f32) //
      ∀ (xi5 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc3_kernel i arg2 harg2 arg3 harg3 arg4 harg4 arg5 harg5 arg6 harg6 arg7 harg7 arg8 harg8) K } := by
  refine ⟨[], ?_, fun xi5 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in

noncomputable def kernelRun3_B (hc0 : ¬cond3_0 i) (hc1 : ¬cond3_1 i)
    (x0 : Vec F S5000x64 .f32) (x1 : Vec F S1x2048 .i32) (x2 : Vec F S2048x64 .bf16) (x3 : Vec F S64x64 .bf16) (x4 : Vec F S64 .f32) (xs0 : Vec F S5000x64 .f32) :
    Σ' (L5 : List (View.Piece (Elt F) S5000x64 .f32)), { LS0 : List (View.Piece (Elt F) S5000x64 .f32) //
      ∀ (xi5 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc3_kernel i arg2 harg2 arg3 harg3 arg4 harg4 arg5 harg5 arg6 harg6 arg7 harg7 arg8 harg8) K } := by
  refine ⟨[], ?_, fun xi5 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in

noncomputable def kernelRun3_C (hc0 : ¬cond3_0 i) (hc1 : cond3_1 i)
    (x0 : Vec F S5000x64 .f32) (x1 : Vec F S1x2048 .i32) (x2 : Vec F S2048x64 .bf16) (x3 : Vec F S64x64 .bf16) (x4 : Vec F S64 .f32) (xs0 : Vec F S5000x64 .f32) :
    Σ' (L5 : List (View.Piece (Elt F) S5000x64 .f32)), { LS0 : List (View.Piece (Elt F) S5000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc3_kernel i arg2 harg2 arg3 harg3 arg4 harg4 arg5 harg5 arg6 harg6 arg7 harg7 arg8 harg8) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end

end Cert.KernelIdeal.Hand

end
-- ==== Proof.KI.R3.lean ====
import proofs.«407044_j9311489098471_2_alg».proof.Proof.KI.R3Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev VO3_5 : View sig .tc .vmem S5000x64 .f32 := (Memref.whole cc3_stg5_0 : Memref sig .tc .vmem S5000x64 .f32).view
abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x2048 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x64 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x64 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S5000x64 .f32 := win3_5.stage (cfg3.slots t 5)
abbrev hs3_5 (t : Fin cfg3.N) : (ms3_5 t).IsWhole := hstage3_5 ((cfg3.slots t 5).cast nbuf3_5)

abbrev scM3_0 : Memref sig .tc .vmem S5000x64 .f32 := Memref.whole cc3_scratch0
abbrev VS3_0 : View sig .tc .vmem S5000x64 .f32 := scM3_0.view

theorem PhiA3_eq (c : Dev nD) :
    (Pipeline.ΦA spec3 c : sProp 𝕄)
      = iprop(iprop((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

section
variable (c : Dev nD) (i : grid3.Coords) (arg2 : Memref sig .tc .vmem S5000x64 .f32) (harg2 : arg2.IsWhole) (arg3 : Memref sig .tc .vmem S1x2048 .i32) (harg3 : arg3.IsWhole) (arg4 : Memref sig .tc .vmem S2048x64 .bf16) (harg4 : arg4.IsWhole) (arg5 : Memref sig .tc .vmem S64x64 .bf16) (harg5 : arg5.IsWhole) (arg6 : Memref sig .tc .vmem S64 .f32) (harg6 : arg6.IsWhole) (arg7 : Memref sig .tc .vmem S5000x64 .f32) (harg7 : arg7.IsWhole) (arg8 : Memref sig .tc .vmem S5000x64 .f32) (harg8 : arg8.IsWhole)
include c i arg2 harg2 arg3 harg3 arg4 harg4 arg5 harg5 arg6 harg6 arg7 harg7 arg8 harg8

def out3_A_5 (hc0 : cond3_0 i) (hc1 : ¬cond3_1 i)
    (x0 : Vec F S5000x64 .f32) (x1 : Vec F S1x2048 .i32) (x2 : Vec F S2048x64 .bf16) (x3 : Vec F S64x64 .bf16) (x4 : Vec F S64 .f32) : Vec F S5000x64 .f32 :=
  VO3_5.read (Elt F) (VO3_5.writes (Elt F) VO3_5.junk (kernelRun3_A c i arg2 harg2 arg3 harg3 arg4 harg4 arg5 harg5 arg6 harg6 arg7 harg7 arg8 harg8 hc0 hc1 x0 x1 x2 x3 x4).1)

theorem scover3_A_0 (hc0 : cond3_0 i) (hc1 : ¬cond3_1 i)
    (x0 : Vec F S5000x64 .f32) (x1 : Vec F S1x2048 .i32) (x2 : Vec F S2048x64 .bf16) (x3 : Vec F S64x64 .bf16) (x4 : Vec F S64 .f32) (y : S5000x64.Idx) :
    ∃ pc ∈ (kernelRun3_A c i arg2 harg2 arg3 harg3 arg4 harg4 arg5 harg5 arg6 harg6 arg7 harg7 arg8 harg8 hc0 hc1 x0 x1 x2 x3 x4).2.1, y ∈ pc.1.set :=
  View.cover_of_tiledL (kernelRun3_A c i arg2 harg2 arg3 harg3 arg4 harg4 arg5 harg5 arg6 harg6 arg7 harg7 arg8 harg8 hc0 hc1 x0 x1 x2 x3 x4).2.1 S5000x64.size (by sl_kernel_rfl) y

def sout3_A_0 (hc0 : cond3_0 i) (hc1 : ¬cond3_1 i)
    (x0 : Vec F S5000x64 .f32) (x1 : Vec F S1x2048 .i32) (x2 : Vec F S2048x64 .bf16) (x3 : Vec F S64x64 .bf16) (x4 : Vec F S64 .f32) : Vec F S5000x64 .f32 :=
  VS3_0.read (Elt F) (VS3_0.writes (Elt F) VS3_0.junk (kernelRun3_A c i arg2 harg2 arg3 harg3 arg4 harg4 arg5 harg5 arg6 harg6 arg7 harg7 arg8 harg8 hc0 hc1 x0 x1 x2 x3 x4).2.1)

def out3_B_5 (hc0 : ¬cond3_0 i) (hc1 : ¬cond3_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VO3_5.read (Elt F) (VO3_5.writes (Elt F) VO3_5.junk (kernelRun3_B c i arg2 harg2 arg3 harg3 arg4 harg4 arg5 harg5 arg6 harg6 arg7 harg7 arg8 harg8 hc0 hc1 x0 x1 x2 x3 x4 xs0).1)

theorem scover3_B_0 (hc0 : ¬cond3_0 i) (hc1 : ¬cond3_1 i)
    (x0 : Vec F S5000x64 .f32) (x1 : Vec F S1x2048 .i32) (x2 : Vec F S2048x64 .bf16) (x3 : Vec F S64x64 .bf16) (x4 : Vec F S64 .f32) (xs0 : Vec F S5000x64 .f32) (y : S5000x64.Idx) :
    ∃ pc ∈ (kernelRun3_B c i arg2 harg2 arg3 harg3 arg4 harg4 arg5 harg5 arg6 harg6 arg7 harg7 arg8 harg8 hc0 hc1 x0 x1 x2 x3 x4 xs0).2.1, y ∈ pc.1.set :=
  View.cover_of_tiledL (kernelRun3_B c i arg2 harg2 arg3 harg3 arg4 harg4 arg5 harg5 arg6 harg6 arg7 harg7 arg8 harg8 hc0 hc1 x0 x1 x2 x3 x4 xs0).2.1 S5000x64.size (by sl_kernel_rfl) y

def sout3_B_0 (hc0 : ¬cond3_0 i) (hc1 : ¬cond3_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VS3_0.read (Elt F) (VS3_0.writes (Elt F) VS3_0.junk (kernelRun3_B c i arg2 harg2 arg3 harg3 arg4 harg4 arg5 harg5 arg6 harg6 arg7 harg7 arg8 harg8 hc0 hc1 x0 x1 x2 x3 x4 xs0).2.1)

theorem cover3_C_5 (hc0 : ¬cond3_0 i) (hc1 : cond3_1 i)
    (x0 : Vec F S5000x64 .f32) (x1 : Vec F S1x2048 .i32) (x2 : Vec F S2048x64 .bf16) (x3 : Vec F S64x64 .bf16) (x4 : Vec F S64 .f32) (xs0 : Vec F S5000x64 .f32) (y : S5000x64.Idx) :
    ∃ pc ∈ (kernelRun3_C c i arg2 harg2 arg3 harg3 arg4 harg4 arg5 harg5 arg6 harg6 arg7 harg7 arg8 harg8 hc0 hc1 x0 x1 x2 x3 x4 xs0).1, y ∈ pc.1.set :=
  View.cover_of_tiledL (kernelRun3_C c i arg2 harg2 arg3 harg3 arg4 harg4 arg5 harg5 arg6 harg6 arg7 harg7 arg8 harg8 hc0 hc1 x0 x1 x2 x3 x4 xs0).1 S5000x64.size (by sl_kernel_rfl) y

def out3_C_5 (hc0 : ¬cond3_0 i) (hc1 : cond3_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VO3_5.read (Elt F) (VO3_5.writes (Elt F) VO3_5.junk (kernelRun3_C c i arg2 harg2 arg3 harg3 arg4 harg4 arg5 harg5 arg6 harg6 arg7 harg7 arg8 harg8 hc0 hc1 x0 x1 x2 x3 x4 xs0).1)

theorem scover3_C_0 (hc0 : ¬cond3_0 i) (hc1 : cond3_1 i)
    (x0 : Vec F S5000x64 .f32) (x1 : Vec F S1x2048 .i32) (x2 : Vec F S2048x64 .bf16) (x3 : Vec F S64x64 .bf16) (x4 : Vec F S64 .f32) (xs0 : Vec F S5000x64 .f32) (y : S5000x64.Idx) :
    ∃ pc ∈ (kernelRun3_C c i arg2 harg2 arg3 harg3 arg4 harg4 arg5 harg5 arg6 harg6 arg7 harg7 arg8 harg8 hc0 hc1 x0 x1 x2 x3 x4 xs0).2.1, y ∈ pc.1.set :=
  View.cover_of_tiledL (kernelRun3_C c i arg2 harg2 arg3 harg3 arg4 harg4 arg5 harg5 arg6 harg6 arg7 harg7 arg8 harg8 hc0 hc1 x0 x1 x2 x3 x4 xs0).2.1 S5000x64.size (by sl_kernel_rfl) y

def sout3_C_0 (hc0 : ¬cond3_0 i) (hc1 : cond3_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VS3_0.read (Elt F) (VS3_0.writes (Elt F) VS3_0.junk (kernelRun3_C c i arg2 harg2 arg3 harg3 arg4 harg4 arg5 harg5 arg6 harg6 arg7 harg7 arg8 harg8 hc0 hc1 x0 x1 x2 x3 x4 xs0).2.1)

end

def outsAt3 (c : Dev nD) : (n : ℕ) → n < cfg3.N → Vec F S5000x64 .f32 × Vec F S5000x64 .f32
  | 0, hn => (out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩))
  | n + 1, hn =>
    if h0 : (n + 1) % 391 = 0 then
      if h1 : (n + 1) % 391 = 390 then
        False.elim (by omega)
      else
        (out3_A_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩))
    else
      if h1 : (n + 1) % 391 = 390 then
        (out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2)
      else
        (out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2)

theorem outsAt3_A (c : Dev nD) (t : Fin cfg3.N) (h0 : t.val % 391 = 0) (h1 : ¬t.val % 391 = 390) :
    outsAt3 V c t.val t.isLt = (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t)) := by
  obtain ⟨n, hn⟩ := t
  cases n with
  | zero => exact rfl
  | succ n => exact (dif_pos h0).trans ((dif_neg h1).trans rfl)

theorem outsAt3_B (c : Dev nD) (t : Fin cfg3.N) (h0 : ¬t.val % 391 = 0) (h1 : ¬t.val % 391 = 390) :
    outsAt3 V c t.val t.isLt = (out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 391 = 0) (h1 : t.val % 391 = 390) :
    outsAt3 V c t.val t.isLt = (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) : (dat3 V c).leavesExact 2 t = owns (c : Thread nD τ) (ms3_2 t) fullShare (iblk3 V c 2 t) := by
  unfold Dat.leavesExact; rw [liveAt3_2 t, after3_2]
theorem leaves3_3 (c : Dev nD) (t : Fin cfg3.N) : (dat3 V c).leavesExact 3 t = owns (c : Thread nD τ) (ms3_3 t) fullShare (iblk3 V c 3 t) := by
  unfold Dat.leavesExact; rw [liveAt3_3 t, after3_3]
theorem leaves3_4 (c : Dev nD) (t : Fin cfg3.N) : (dat3 V c).leavesExact 4 t = owns (c : Thread nD τ) (ms3_4 t) fullShare (iblk3 V c 4 t) := by
  unfold Dat.leavesExact; rw [liveAt3_4 t, after3_4]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 3910 := lt_of_lt_of_eq t.isLt (show cfg3.N = 3910 from N_3)
  by_cases h0 : t.val % 391 = 0
  · by_cases h1 : t.val % 391 = 390
    · exfalso; omega
    · rw [leaves3_0, leaves3_1, leaves3_2, leaves3_3, leaves3_4]
      rw [Dat.leavesExact_idle (dat3 V c) 5 t (idleAt3_5 t (fun h => h1 ((hcond3_1 t).mp h))) (noFlush3_5 t (fun h => h1 ((hcond3_1 t).mp h)))]
      rw [outsAt3_A V c t h0 h1]
      unfold sout3_A_0; (try dsimp only)
      by_cases hz : t.val = 0
      on_goal 1 => rw [PhiS3_castSucc V c t, PhiS3_zero V c _ _ hz, PhiA3_eq]
      on_goal 2 => rw [PhiS3_castSucc V c t, PhiS3_pos V c _ _ hz]
      all_goals
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · first | iexact HS0 | (iexists _; iexact HS0)
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 391 = 390
    · rw [leaves3_0, leaves3_1, leaves3_2, leaves3_3, leaves3_4]
      rw [show (dat3 V c).leavesExact 5 t = owns (c : Thread nD τ) (ms3_5 t) fullShare ((dat3 V c).after 5 t) from (by unfold Dat.leavesExact; rw [liveAt3_5 t ((hcond3_1 t).mpr h1)]), after3_5]
      rw [outsAt3_C V c t h0 h1]
      unfold out3_C_5 sout3_C_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun3_C c (grid3.coords t) _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover3_C_5 c _ _ _ _ _ _ _ _ _ _ _ _ _ _ _ _ _ _ _ _ _ _ _)
    · rw [leaves3_0, leaves3_1, leaves3_2, leaves3_3, leaves3_4]
      rw [Dat.leavesExact_idle (dat3 V c) 5 t (idleAt3_5 t (fun h => h1 ((hcond3_1 t).mp h))) (noFlush3_5 t (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun3_B c (grid3.coords t) _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

theorem hout3 (c : Dev nD) : (dat3 V c).Φ (Fin.last cfg3.N) ⊢ Pipeline.ΦA spec3 c :=
  Phi_out3 V c _ (by rw [Fin.val_last]; have : cfg3.N = 3910 := N_3; omega)

end Region

end Cert.KernelIdeal.Hand

end
-- ==== Proof.KI.R4.lean ====
import proofs.«407044_j9311489098471_2_alg».proof.Proof.Gen.KernelIdeal.Launch
import proofs.«407044_j9311489098471_2_alg».proof.Proof.Gen.KernelIdeal.Skeleton
import proofs.«407044_j9311489098471_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val % 10 = 0 :=
  (by decide +kernel : ∀ t : Fin grid4.N, cond4_0 (grid4.coords t) ↔ t.val % 10 = 0)

abbrev VO4_1 : View sig .tc .vmem S1x64 .f32 := (Memref.whole cc4_stg1_0 : Memref sig .tc .vmem S1x64 .f32).view
abbrev VO4_2 : View sig .tc .vmem S1x64 .f32 := (Memref.whole cc4_stg2_0 : Memref sig .tc .vmem S1x64 .f32).view

abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)

section
variable (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole)
include c i arg1 harg1 arg2 harg2 arg3 harg3

set_option maxHeartbeats 1000000 in

noncomputable def kernelRun4_A (hc0 : cond4_0 i)
    (x0 : Vec F S5000x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc4_bn_stats_kernel i arg1 harg1 arg2 harg2 arg3 harg3) K } := by
  refine ⟨?_, ?_, fun E K => ?run⟩
  case run =>
    simp only [cc4_bn_stats_kernel_eq_skeleton]; unfold cc4_bn_stats_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in

noncomputable def kernelRun4_B (hc0 : ¬cond4_0 i)
    (x0 : Vec F S5000x64 .f32) (xo1 : Vec F S1x64 .f32) (xo2 : Vec F S1x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc4_bn_stats_kernel i arg1 harg1 arg2 harg2 arg3 harg3) K } := by
  refine ⟨?_, ?_, fun E K => ?run⟩
  case run =>
    simp only [cc4_bn_stats_kernel_eq_skeleton]; unfold cc4_bn_stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

theorem cover4_A_1 (hc0 : cond4_0 i)
    (x0 : Vec F S5000x64 .f32) (y : S1x64.Idx) :
    ∃ pc ∈ (kernelRun4_A c i arg1 harg1 arg2 harg2 arg3 harg3 hc0 x0).1, y ∈ pc.1.set :=
  View.cover_of_tiledL (kernelRun4_A c i arg1 harg1 arg2 harg2 arg3 harg3 hc0 x0).1 S1x64.size (by sl_kernel_rfl) y

theorem cover4_A_2 (hc0 : cond4_0 i)
    (x0 : Vec F S5000x64 .f32) (y : S1x64.Idx) :
    ∃ pc ∈ (kernelRun4_A c i arg1 harg1 arg2 harg2 arg3 harg3 hc0 x0).2.1, y ∈ pc.1.set :=
  View.cover_of_tiledL (kernelRun4_A c i arg1 harg1 arg2 harg2 arg3 harg3 hc0 x0).2.1 S1x64.size (by sl_kernel_rfl) y

def out4_A_1 (hc0 : cond4_0 i)
    (x0 : Vec F S5000x64 .f32) : Vec F S1x64 .f32 :=
  VO4_1.read (Elt F) (VO4_1.writes (Elt F) VO4_1.junk (kernelRun4_A c i arg1 harg1 arg2 harg2 arg3 harg3 hc0 x0).1)

def out4_A_2 (hc0 : cond4_0 i)
    (x0 : Vec F S5000x64 .f32) : Vec F S1x64 .f32 :=
  VO4_2.read (Elt F) (VO4_2.writes (Elt F) VO4_2.junk (kernelRun4_A c i arg1 harg1 arg2 harg2 arg3 harg3 hc0 x0).2.1)

theorem cover4_B_1 (hc0 : ¬cond4_0 i)
    (x0 : Vec F S5000x64 .f32) (xo1 : Vec F S1x64 .f32) (xo2 : Vec F S1x64 .f32) (y : S1x64.Idx) :
    ∃ pc ∈ (kernelRun4_B c i arg1 harg1 arg2 harg2 arg3 harg3 hc0 x0 xo1 xo2).1, y ∈ pc.1.set :=
  View.cover_of_tiledL (kernelRun4_B c i arg1 harg1 arg2 harg2 arg3 harg3 hc0 x0 xo1 xo2).1 S1x64.size (by sl_kernel_rfl) y

theorem cover4_B_2 (hc0 : ¬cond4_0 i)
    (x0 : Vec F S5000x64 .f32) (xo1 : Vec F S1x64 .f32) (xo2 : Vec F S1x64 .f32) (y : S1x64.Idx) :
    ∃ pc ∈ (kernelRun4_B c i arg1 harg1 arg2 harg2 arg3 harg3 hc0 x0 xo1 xo2).2.1, y ∈ pc.1.set :=
  View.cover_of_tiledL (kernelRun4_B c i arg1 harg1 arg2 harg2 arg3 harg3 hc0 x0 xo1 xo2).2.1 S1x64.size (by sl_kernel_rfl) y

def out4_B_1 (hc0 : ¬cond4_0 i)
    (x0 : Vec F S5000x64 .f32) (xo1 : Vec F S1x64 .f32) (xo2 : Vec F S1x64 .f32) : Vec F S1x64 .f32 :=
  VO4_1.read (Elt F) (VO4_1.writes (Elt F) VO4_1.junk (kernelRun4_B c i arg1 harg1 arg2 harg2 arg3 harg3 hc0 x0 xo1 xo2).1)

def out4_B_2 (hc0 : ¬cond4_0 i)
    (x0 : Vec F S5000x64 .f32) (xo1 : Vec F S1x64 .f32) (xo2 : Vec F S1x64 .f32) : Vec F S1x64 .f32 :=
  VO4_2.read (Elt F) (VO4_2.writes (Elt F) VO4_2.junk (kernelRun4_B c i arg1 harg1 arg2 harg2 arg3 harg3 hc0 x0 xo1 xo2).2.1)

end

def outsAt4 (c : Dev nD) : (n : ℕ) → n < cfg4.N → Vec F S1x64 .f32 × Vec F S1x64 .f32
  | 0, hn => (out4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) ((hcond4_0 ⟨0, hn⟩).mpr (Nat.zero_mod _)) (iblk4 V c 0 ⟨0, hn⟩),
      out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) ((hcond4_0 ⟨0, hn⟩).mpr (Nat.zero_mod _)) (iblk4 V c 0 ⟨0, hn⟩))
  | n + 1, hn =>
    if h0 : (n + 1) % 10 = 0 then
      (out4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) ((hcond4_0 ⟨n + 1, hn⟩).mpr h0) (iblk4 V c 0 ⟨n + 1, hn⟩),
        out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) ((hcond4_0 ⟨n + 1, hn⟩).mpr h0) (iblk4 V c 0 ⟨n + 1, hn⟩))
    else
      (out4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (fun h => h0 ((hcond4_0 ⟨n + 1, hn⟩).mp h)) (iblk4 V c 0 ⟨n + 1, hn⟩) (outsAt4 c n (Nat.lt_of_succ_lt hn)).1 (outsAt4 c n (Nat.lt_of_succ_lt hn)).2,
        out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (fun h => h0 ((hcond4_0 ⟨n + 1, hn⟩).mp h)) (iblk4 V c 0 ⟨n + 1, hn⟩) (outsAt4 c n (Nat.lt_of_succ_lt hn)).1 (outsAt4 c n (Nat.lt_of_succ_lt hn)).2)

theorem outsAt4_A (c : Dev nD) (t : Fin cfg4.N) (h0 : t.val % 10 = 0) :
    outsAt4 V c t.val t.isLt = (out4_A_1 c (grid4.coords t) (ms4_0 t) (hs4_0 t) (ms4_1 t) (hs4_1 t) (ms4_2 t) (hs4_2 t) ((hcond4_0 t).mpr h0) (iblk4 V c 0 t),
      out4_A_2 c (grid4.coords t) (ms4_0 t) (hs4_0 t) (ms4_1 t) (hs4_1 t) (ms4_2 t) (hs4_2 t) ((hcond4_0 t).mpr h0) (iblk4 V c 0 t)) := by
  obtain ⟨n, hn⟩ := t
  cases n with
  | zero => exact rfl
  | succ n => exact (dif_pos h0).trans rfl

theorem outsAt4_B (c : Dev nD) (t : Fin cfg4.N) (h0 : ¬t.val % 10 = 0) :
    outsAt4 V c t.val t.isLt = (out4_B_1 c (grid4.coords t) (ms4_0 t) (hs4_0 t) (ms4_1 t) (hs4_1 t) (ms4_2 t) (hs4_2 t) (fun h => h0 ((hcond4_0 t).mp h)) (iblk4 V c 0 t) (outsAt4 V c (t.val - 1) (Nat.lt_of_le_of_lt (Nat.sub_le _ _) t.isLt)).1 (outsAt4 V c (t.val - 1) (Nat.lt_of_le_of_lt (Nat.sub_le _ _) t.isLt)).2,
      out4_B_2 c (grid4.coords t) (ms4_0 t) (hs4_0 t) (ms4_1 t) (hs4_1 t) (ms4_2 t) (hs4_2 t) (fun h => h0 ((hcond4_0 t).mp h)) (iblk4 V c 0 t) (outsAt4 V c (t.val - 1) (Nat.lt_of_le_of_lt (Nat.sub_le _ _) t.isLt)).1 (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt).1
    | ⟨2, _⟩ => (outsAt4 V c t.val t.isLt).2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = (outsAt4 V c t.val t.isLt).1 := by dsimp only [dat4]
theorem after4_2 (c : Dev nD) (t : Fin cfg4.N) : (dat4 V c).after 2 t = (outsAt4 V c t.val t.isLt).2 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl

theorem before4_1_B (c : Dev nD) (t : Fin cfg4.N) (h0 : ¬t.val % 10 = 0) (d) :
    (dat4 V c).before 1 t d = (outsAt4 V c (t.val - 1) (Nat.lt_of_le_of_lt (Nat.sub_le _ _) t.isLt)).1 := by
  have hN : t.val < 10 := lt_of_lt_of_eq t.isLt (show cfg4.N = 10 from N_4)
  rw [Dat.before_out_kept _ 1 rfl t (by omega) (Bool.eq_false_iff.mpr fun h => by have := (flush4_1 _).mp h; dsimp only at this; omega)
    (fun _ => rfl) (fun _ _ => rfl)]
  dsimp only [dat4]

theorem before4_2_B (c : Dev nD) (t : Fin cfg4.N) (h0 : ¬t.val % 10 = 0) (d) :
    (dat4 V c).before 2 t d = (outsAt4 V c (t.val - 1) (Nat.lt_of_le_of_lt (Nat.sub_le _ _) t.isLt)).2 := by
  have hN : t.val < 10 := lt_of_lt_of_eq t.isLt (show cfg4.N = 10 from N_4)
  rw [Dat.before_out_kept _ 2 rfl t (by omega) (Bool.eq_false_iff.mpr fun h => by have := (flush4_2 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t))

set_option maxHeartbeats 1600000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1, after4_2]
  have hN : t.val < 10 := lt_of_lt_of_eq t.isLt (show cfg4.N = 10 from N_4)
  by_cases h0 : t.val % 10 = 0
  · rw [outsAt4_A V c t h0]
    unfold out4_A_1 out4_A_2; (try dsimp only)
    iintro ⟨HΦ, Ho, ⟨%d0, H0⟩, ⟨%d1, H1⟩, ⟨%d2, H2⟩⟩
    iapply ((kernelRun4_A c (grid4.coords t) _ _ _ _ _ _ ((hcond4_0 t).mpr h0) (iblk4 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover4_A_1 c _ _ _ _ _ _ _ _ _)
    unfold owns; iexists _; isplitr
    swap; · iexact H2
    ipureintro; exact View.read_writes_of_cover _ _ _ _ _ (cover4_A_2 c _ _ _ _ _ _ _ _ _)
  · rw [outsAt4_B V c t h0]
    simp only [before4_1_B V c t h0, before4_2_B V c t h0]
    unfold out4_B_1 out4_B_2; (try dsimp only)
    iintro ⟨HΦ, Ho, ⟨%d0, H0⟩, ⟨%d1, H1⟩, ⟨%d2, H2⟩⟩
    iapply ((kernelRun4_B c (grid4.coords t) _ _ _ _ _ _ (fun h => h0 ((hcond4_0 t).mp h)) (iblk4 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover4_B_1 c _ _ _ _ _ _ _ _ _ _ _)
    unfold owns; iexists _; isplitr
    swap; · iexact H2
    ipureintro; exact View.read_writes_of_cover _ _ _ _ _ (cover4_B_2 c _ _ _ _ _ _ _ _ _ _ _)

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl

theorem hout4 (c : Dev nD) : (dat4 V c).Φ (Fin.last cfg4.N) ⊢ Pipeline.ΦA spec4 c := .rfl

end Region4

end Cert.KernelIdeal.Hand

end
-- ==== Proof.KI.R5.lean ====
import proofs.«407044_j9311489098471_2_alg».proof.Proof.Gen.KernelIdeal.Launch
import proofs.«407044_j9311489098471_2_alg».proof.Proof.Gen.KernelIdeal.Skeleton
import proofs.«407044_j9311489098471_2_alg».proof.Proof.Gen.KernelIdeal.Points
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x64 := Rect.unit (s := S5000x64) ![0, 0] S5000x64.size inb_S5000x64_S5000x64_0_0
abbrev r5_1 : Rect S1x64 := Rect.unit (s := S1x64) ![0, 0] S1x64.size inb_S1x64_S1x64_0_0
abbrev r5_2 : Rect S64 := Rect.unit (s := S64) ![0] S64.size inb_S64_S64_0

def out5_5 (x0 : Vec F S5000x64 .f32) (x1 : Vec F S1x64 .f32) (x2 : Vec F S1x64 .f32) (x3 : Vec F S64 .f32) (x4 : Vec F S64 .f32) :
    Vec F S5000x64 .f32 :=
  View.canon [⟨r5_0, k5_pay1 (View.ld x0 r5_0) (View.ld x2 r5_1) (View.ld x1 r5_1) (View.ld x3 r5_2) (View.ld x4 r5_2)⟩]

theorem cover5_5 (p0 : Vec F S5000x64 .f32) (y : S5000x64.Idx) :
    ∃ pc ∈ ([⟨r5_0, p0⟩] : List (View.Piece (Elt F) S5000x64 .f32)), y ∈ pc.1.set :=
  View.cover_of_tiled [⟨r5_0, p0⟩] S5000x64.size (by rfl) y

set_option maxHeartbeats 1000000 in

theorem sound_kernel5 (c : Dev nD) (E : Set ℕ) (i : grid5.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5_bn_norm_kernel i arg1 harg1 arg2 harg2 arg3 harg3 arg4 harg4 arg5 harg5 arg6 harg6) K := by
  simp only [cc5_bn_norm_kernel_eq_skeleton]; unfold cc5_bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := .rfl
theorem hout5 (c : Dev nD) : (dat5 V c).Φ (Fin.last cfg5.N) ⊢ Pipeline.ΦA spec5 c := .rfl

end Cert.KernelIdeal.Hand

end
-- ==== Proof.KI.R6Runs.lean ====
import proofs.«407044_j9311489098471_2_alg».proof.Proof.Gen.KernelIdeal.Launch
import proofs.«407044_j9311489098471_2_alg».proof.Proof.Gen.KernelIdeal.Skeleton
import proofs.«407044_j9311489098471_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond6_0 (i : grid6.Coords) : Prop := (Scalar.cmpi .ne (Scalar.extui (Scalar.cmpi .eq (BitVec.ofNat 32 (i 1).val) 0#32)) 0#32) = 1#1

theorem hcond6_0 : ∀ t : Fin cfg6.N, cond6_0 (grid6.coords t) ↔ t.val % 391 = 0 :=
  (by decide +kernel : ∀ t : Fin grid6.N, cond6_0 (grid6.coords t) ↔ t.val % 391 = 0)

abbrev cond6_1 (i : grid6.Coords) : Prop := k6_cond2 i = 1#1

theorem hcond6_1 : ∀ t : Fin cfg6.N, cond6_1 (grid6.coords t) ↔ t.val % 391 = 390 :=
  (by decide +kernel : ∀ t : Fin grid6.N, cond6_1 (grid6.coords t) ↔ t.val % 391 = 390)

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
theorem liveAt6_3 : ∀ t : Fin cfg6.N, cfg6.idle 3 (grid6.coords t) = false := fun _ => rfl
theorem liveAt6_4 : ∀ t : Fin cfg6.N, cfg6.idle 4 (grid6.coords t) = false := fun _ => rfl

theorem idleAt6_5 : ∀ t : Fin cfg6.N, ¬cond6_1 (grid6.coords t) → cfg6.idle 5 (grid6.coords t) = true := by
  intro t h
  show (!(k6_cond2 (grid6.coords t) == 1#1)) = true
  simpa using h

theorem noFlush6_5 : ∀ t : Fin cfg6.N, ¬cond6_1 (grid6.coords t) → (cfg6.win 5).flush t = false := by
  intro t h
  cases hf : (cfg6.win 5).flush t with
  | false => rfl
  | true => exact absurd ((hcond6_1 t).mpr ((flush6_5 t).mp hf)) h

theorem liveAt6_5 : ∀ t : Fin cfg6.N, cond6_1 (grid6.coords t) → cfg6.idle 5 (grid6.coords t) = false := by
  intro t h
  show (!(k6_cond2 (grid6.coords t) == 1#1)) = false
  simpa using h

section
variable (c : Dev nD) (i : grid6.Coords) (arg2 : Memref sig .tc .vmem S5000x64 .f32) (harg2 : arg2.IsWhole) (arg3 : Memref sig .tc .vmem S1x2048 .i32) (harg3 : arg3.IsWhole) (arg4 : Memref sig .tc .vmem S2048x64 .bf16) (harg4 : arg4.IsWhole) (arg5 : Memref sig .tc .vmem S64x64 .bf16) (harg5 : arg5.IsWhole) (arg6 : Memref sig .tc .vmem S64 .f32) (harg6 : arg6.IsWhole) (arg7 : Memref sig .tc .vmem S5000x64 .f32) (harg7 : arg7.IsWhole) (arg8 : Memref sig .tc .vmem S5000x64 .f32) (harg8 : arg8.IsWhole)
include c i arg2 harg2 arg3 harg3 arg4 harg4 arg5 harg5 arg6 harg6 arg7 harg7 arg8 harg8

set_option maxHeartbeats 4000000 in

noncomputable def kernelRun6_A (hc0 : cond6_0 i) (hc1 : ¬cond6_1 i)
    (x0 : Vec F S5000x64 .f32) (x1 : Vec F S1x2048 .i32) (x2 : Vec F S2048x64 .bf16) (x3 : Vec F S64x64 .bf16) (x4 : Vec F S64 .f32) :
    Σ' (L5 : List (View.Piece (Elt F) S5000x64 .f32)), { LS0 : List (View.Piece (Elt F) S5000x64 .f32) //
      ∀ (xi5 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc6_kernel i arg2 harg2 arg3 harg3 arg4 harg4 arg5 harg5 arg6 harg6 arg7 harg7 arg8 harg8) K } := by
  refine ⟨[], ?_, fun xi5 E K => ?run⟩
  case run =>
    simp only [cc6_kernel_eq_skeleton]; unfold cc6_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in

noncomputable def kernelRun6_B (hc0 : ¬cond6_0 i) (hc1 : ¬cond6_1 i)
    (x0 : Vec F S5000x64 .f32) (x1 : Vec F S1x2048 .i32) (x2 : Vec F S2048x64 .bf16) (x3 : Vec F S64x64 .bf16) (x4 : Vec F S64 .f32) (xs0 : Vec F S5000x64 .f32) :
    Σ' (L5 : List (View.Piece (Elt F) S5000x64 .f32)), { LS0 : List (View.Piece (Elt F) S5000x64 .f32) //
      ∀ (xi5 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc6_kernel i arg2 harg2 arg3 harg3 arg4 harg4 arg5 harg5 arg6 harg6 arg7 harg7 arg8 harg8) K } := by
  refine ⟨[], ?_, fun xi5 E K => ?run⟩
  case run =>
    simp only [cc6_kernel_eq_skeleton]; unfold cc6_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in

noncomputable def kernelRun6_C (hc0 : ¬cond6_0 i) (hc1 : cond6_1 i)
    (x0 : Vec F S5000x64 .f32) (x1 : Vec F S1x2048 .i32) (x2 : Vec F S2048x64 .bf16) (x3 : Vec F S64x64 .bf16) (x4 : Vec F S64 .f32) (xs0 : Vec F S5000x64 .f32) :
    Σ' (L5 : List (View.Piece (Elt F) S5000x64 .f32)), { LS0 : List (View.Piece (Elt F) S5000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc6_kernel i arg2 harg2 arg3 harg3 arg4 harg4 arg5 harg5 arg6 harg6 arg7 harg7 arg8 harg8) K } := by
  refine ⟨?_, ?_, fun E K => ?run⟩
  case run =>
    simp only [cc6_kernel_eq_skeleton]; unfold cc6_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end

end Cert.KernelIdeal.Hand

end
-- ==== Proof.KI.R6.lean ====
import proofs.«407044_j9311489098471_2_alg».proof.Proof.KI.R6Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev VO6_5 : View sig .tc .vmem S5000x64 .f32 := (Memref.whole cc6_stg5_0 : Memref sig .tc .vmem S5000x64 .f32).view
abbrev ms6_0 (t : Fin cfg6.N) : Memref sig .tc .vmem S5000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1x2048 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S2048x64 .bf16 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S64x64 .bf16 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S64 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S5000x64 .f32 := win6_5.stage (cfg6.slots t 5)
abbrev hs6_5 (t : Fin cfg6.N) : (ms6_5 t).IsWhole := hstage6_5 ((cfg6.slots t 5).cast nbuf6_5)

abbrev scM6_0 : Memref sig .tc .vmem S5000x64 .f32 := Memref.whole cc6_scratch0
abbrev VS6_0 : View sig .tc .vmem S5000x64 .f32 := scM6_0.view

theorem PhiA6_eq (c : Dev nD) :
    (Pipeline.ΦA spec6 c : sProp 𝕄)
      = iprop(iprop((∃ d, owns (c : Thread nD τ) scM6_0 fullShare d) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

section
variable (c : Dev nD) (i : grid6.Coords) (arg2 : Memref sig .tc .vmem S5000x64 .f32) (harg2 : arg2.IsWhole) (arg3 : Memref sig .tc .vmem S1x2048 .i32) (harg3 : arg3.IsWhole) (arg4 : Memref sig .tc .vmem S2048x64 .bf16) (harg4 : arg4.IsWhole) (arg5 : Memref sig .tc .vmem S64x64 .bf16) (harg5 : arg5.IsWhole) (arg6 : Memref sig .tc .vmem S64 .f32) (harg6 : arg6.IsWhole) (arg7 : Memref sig .tc .vmem S5000x64 .f32) (harg7 : arg7.IsWhole) (arg8 : Memref sig .tc .vmem S5000x64 .f32) (harg8 : arg8.IsWhole)
include c i arg2 harg2 arg3 harg3 arg4 harg4 arg5 harg5 arg6 harg6 arg7 harg7 arg8 harg8

def out6_A_5 (hc0 : cond6_0 i) (hc1 : ¬cond6_1 i)
    (x0 : Vec F S5000x64 .f32) (x1 : Vec F S1x2048 .i32) (x2 : Vec F S2048x64 .bf16) (x3 : Vec F S64x64 .bf16) (x4 : Vec F S64 .f32) : Vec F S5000x64 .f32 :=
  VO6_5.read (Elt F) (VO6_5.writes (Elt F) VO6_5.junk (kernelRun6_A c i arg2 harg2 arg3 harg3 arg4 harg4 arg5 harg5 arg6 harg6 arg7 harg7 arg8 harg8 hc0 hc1 x0 x1 x2 x3 x4).1)

theorem scover6_A_0 (hc0 : cond6_0 i) (hc1 : ¬cond6_1 i)
    (x0 : Vec F S5000x64 .f32) (x1 : Vec F S1x2048 .i32) (x2 : Vec F S2048x64 .bf16) (x3 : Vec F S64x64 .bf16) (x4 : Vec F S64 .f32) (y : S5000x64.Idx) :
    ∃ pc ∈ (kernelRun6_A c i arg2 harg2 arg3 harg3 arg4 harg4 arg5 harg5 arg6 harg6 arg7 harg7 arg8 harg8 hc0 hc1 x0 x1 x2 x3 x4).2.1, y ∈ pc.1.set :=
  View.cover_of_tiledL (kernelRun6_A c i arg2 harg2 arg3 harg3 arg4 harg4 arg5 harg5 arg6 harg6 arg7 harg7 arg8 harg8 hc0 hc1 x0 x1 x2 x3 x4).2.1 S5000x64.size (by sl_kernel_rfl) y

def sout6_A_0 (hc0 : cond6_0 i) (hc1 : ¬cond6_1 i)
    (x0 : Vec F S5000x64 .f32) (x1 : Vec F S1x2048 .i32) (x2 : Vec F S2048x64 .bf16) (x3 : Vec F S64x64 .bf16) (x4 : Vec F S64 .f32) : Vec F S5000x64 .f32 :=
  VS6_0.read (Elt F) (VS6_0.writes (Elt F) VS6_0.junk (kernelRun6_A c i arg2 harg2 arg3 harg3 arg4 harg4 arg5 harg5 arg6 harg6 arg7 harg7 arg8 harg8 hc0 hc1 x0 x1 x2 x3 x4).2.1)

def out6_B_5 (hc0 : ¬cond6_0 i) (hc1 : ¬cond6_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VO6_5.read (Elt F) (VO6_5.writes (Elt F) VO6_5.junk (kernelRun6_B c i arg2 harg2 arg3 harg3 arg4 harg4 arg5 harg5 arg6 harg6 arg7 harg7 arg8 harg8 hc0 hc1 x0 x1 x2 x3 x4 xs0).1)

theorem scover6_B_0 (hc0 : ¬cond6_0 i) (hc1 : ¬cond6_1 i)
    (x0 : Vec F S5000x64 .f32) (x1 : Vec F S1x2048 .i32) (x2 : Vec F S2048x64 .bf16) (x3 : Vec F S64x64 .bf16) (x4 : Vec F S64 .f32) (xs0 : Vec F S5000x64 .f32) (y : S5000x64.Idx) :
    ∃ pc ∈ (kernelRun6_B c i arg2 harg2 arg3 harg3 arg4 harg4 arg5 harg5 arg6 harg6 arg7 harg7 arg8 harg8 hc0 hc1 x0 x1 x2 x3 x4 xs0).2.1, y ∈ pc.1.set :=
  View.cover_of_tiledL (kernelRun6_B c i arg2 harg2 arg3 harg3 arg4 harg4 arg5 harg5 arg6 harg6 arg7 harg7 arg8 harg8 hc0 hc1 x0 x1 x2 x3 x4 xs0).2.1 S5000x64.size (by sl_kernel_rfl) y

def sout6_B_0 (hc0 : ¬cond6_0 i) (hc1 : ¬cond6_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VS6_0.read (Elt F) (VS6_0.writes (Elt F) VS6_0.junk (kernelRun6_B c i arg2 harg2 arg3 harg3 arg4 harg4 arg5 harg5 arg6 harg6 arg7 harg7 arg8 harg8 hc0 hc1 x0 x1 x2 x3 x4 xs0).2.1)

theorem cover6_C_5 (hc0 : ¬cond6_0 i) (hc1 : cond6_1 i)
    (x0 : Vec F S5000x64 .f32) (x1 : Vec F S1x2048 .i32) (x2 : Vec F S2048x64 .bf16) (x3 : Vec F S64x64 .bf16) (x4 : Vec F S64 .f32) (xs0 : Vec F S5000x64 .f32) (y : S5000x64.Idx) :
    ∃ pc ∈ (kernelRun6_C c i arg2 harg2 arg3 harg3 arg4 harg4 arg5 harg5 arg6 harg6 arg7 harg7 arg8 harg8 hc0 hc1 x0 x1 x2 x3 x4 xs0).1, y ∈ pc.1.set :=
  View.cover_of_tiledL (kernelRun6_C c i arg2 harg2 arg3 harg3 arg4 harg4 arg5 harg5 arg6 harg6 arg7 harg7 arg8 harg8 hc0 hc1 x0 x1 x2 x3 x4 xs0).1 S5000x64.size (by sl_kernel_rfl) y

def out6_C_5 (hc0 : ¬cond6_0 i) (hc1 : cond6_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VO6_5.read (Elt F) (VO6_5.writes (Elt F) VO6_5.junk (kernelRun6_C c i arg2 harg2 arg3 harg3 arg4 harg4 arg5 harg5 arg6 harg6 arg7 harg7 arg8 harg8 hc0 hc1 x0 x1 x2 x3 x4 xs0).1)

theorem scover6_C_0 (hc0 : ¬cond6_0 i) (hc1 : cond6_1 i)
    (x0 : Vec F S5000x64 .f32) (x1 : Vec F S1x2048 .i32) (x2 : Vec F S2048x64 .bf16) (x3 : Vec F S64x64 .bf16) (x4 : Vec F S64 .f32) (xs0 : Vec F S5000x64 .f32) (y : S5000x64.Idx) :
    ∃ pc ∈ (kernelRun6_C c i arg2 harg2 arg3 harg3 arg4 harg4 arg5 harg5 arg6 harg6 arg7 harg7 arg8 harg8 hc0 hc1 x0 x1 x2 x3 x4 xs0).2.1, y ∈ pc.1.set :=
  View.cover_of_tiledL (kernelRun6_C c i arg2 harg2 arg3 harg3 arg4 harg4 arg5 harg5 arg6 harg6 arg7 harg7 arg8 harg8 hc0 hc1 x0 x1 x2 x3 x4 xs0).2.1 S5000x64.size (by sl_kernel_rfl) y

def sout6_C_0 (hc0 : ¬cond6_0 i) (hc1 : cond6_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VS6_0.read (Elt F) (VS6_0.writes (Elt F) VS6_0.junk (kernelRun6_C c i arg2 harg2 arg3 harg3 arg4 harg4 arg5 harg5 arg6 harg6 arg7 harg7 arg8 harg8 hc0 hc1 x0 x1 x2 x3 x4 xs0).2.1)

end

def outsAt6 (c : Dev nD) : (n : ℕ) → n < cfg6.N → Vec F S5000x64 .f32 × Vec F S5000x64 .f32
  | 0, hn => (out6_A_5 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩))
  | n + 1, hn =>
    if h0 : (n + 1) % 391 = 0 then
      if h1 : (n + 1) % 391 = 390 then
        False.elim (by omega)
      else
        (out6_A_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩), sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩))
    else
      if h1 : (n + 1) % 391 = 390 then
        (out6_C_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2)
      else
        (out6_B_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2)

theorem outsAt6_A (c : Dev nD) (t : Fin cfg6.N) (h0 : t.val % 391 = 0) (h1 : ¬t.val % 391 = 390) :
    outsAt6 V c t.val t.isLt = (out6_A_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) ((hcond6_0 t).mpr h0) (fun h => h1 ((hcond6_1 t).mp h)) (iblk6 V c 0 t) (iblk6 V c 1 t) (iblk6 V c 2 t) (iblk6 V c 3 t) (iblk6 V c 4 t), sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) ((hcond6_0 t).mpr h0) (fun h => h1 ((hcond6_1 t).mp h)) (iblk6 V c 0 t) (iblk6 V c 1 t) (iblk6 V c 2 t) (iblk6 V c 3 t) (iblk6 V c 4 t)) := by
  obtain ⟨n, hn⟩ := t
  cases n with
  | zero => exact rfl
  | succ n => exact (dif_pos h0).trans ((dif_neg h1).trans rfl)

theorem outsAt6_B (c : Dev nD) (t : Fin cfg6.N) (h0 : ¬t.val % 391 = 0) (h1 : ¬t.val % 391 = 390) :
    outsAt6 V c t.val t.isLt = (out6_B_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2, sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 391 = 0) (h1 : t.val % 391 = 390) :
    outsAt6 V c t.val t.isLt = (out6_C_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2, sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6_0 fullShare ((outsAt6 V c n hn).2) ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6_0 fullShare ((outsAt6 V c (n - 1) (by omega)).2) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = (outsAt6 V c t.val t.isLt).1 := by dsimp only [dat6]

theorem leaves6_0 (c : Dev nD) (t : Fin cfg6.N) : (dat6 V c).leavesExact 0 t = owns (c : Thread nD τ) (ms6_0 t) fullShare (iblk6 V c 0 t) := by
  unfold Dat.leavesExact; rw [liveAt6_0 t, after6_0]
theorem leaves6_1 (c : Dev nD) (t : Fin cfg6.N) : (dat6 V c).leavesExact 1 t = owns (c : Thread nD τ) (ms6_1 t) fullShare (iblk6 V c 1 t) := by
  unfold Dat.leavesExact; rw [liveAt6_1 t, after6_1]
theorem leaves6_2 (c : Dev nD) (t : Fin cfg6.N) : (dat6 V c).leavesExact 2 t = owns (c : Thread nD τ) (ms6_2 t) fullShare (iblk6 V c 2 t) := by
  unfold Dat.leavesExact; rw [liveAt6_2 t, after6_2]
theorem leaves6_3 (c : Dev nD) (t : Fin cfg6.N) : (dat6 V c).leavesExact 3 t = owns (c : Thread nD τ) (ms6_3 t) fullShare (iblk6 V c 3 t) := by
  unfold Dat.leavesExact; rw [liveAt6_3 t, after6_3]
theorem leaves6_4 (c : Dev nD) (t : Fin cfg6.N) : (dat6 V c).leavesExact 4 t = owns (c : Thread nD τ) (ms6_4 t) fullShare (iblk6 V c 4 t) := by
  unfold Dat.leavesExact; rw [liveAt6_4 t, after6_4]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl
theorem before6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl
theorem before6_4 (c : Dev nD) (t : Fin cfg6.N) (d) : (dat6 V c).before 4 t d = iblk6 V c 4 t :=
  ((dat6 V c).before_in_eq_fetched 4 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t)

set_option maxHeartbeats 4800000 in

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl]
  rw [show (dat6 V c).Φ t.succ = PhiS6 V c (t.val + 1) t.isLt from rfl, PhiS6_succ]
  have hN : t.val < 3910 := lt_of_lt_of_eq t.isLt (show cfg6.N = 3910 from N_6)
  by_cases h0 : t.val % 391 = 0
  · by_cases h1 : t.val % 391 = 390
    · exfalso; omega
    · rw [leaves6_0, leaves6_1, leaves6_2, leaves6_3, leaves6_4]
      rw [Dat.leavesExact_idle (dat6 V c) 5 t (idleAt6_5 t (fun h => h1 ((hcond6_1 t).mp h))) (noFlush6_5 t (fun h => h1 ((hcond6_1 t).mp h)))]
      rw [outsAt6_A V c t h0 h1]
      unfold sout6_A_0; (try dsimp only)
      by_cases hz : t.val = 0
      on_goal 1 => rw [PhiS6_castSucc V c t, PhiS6_zero V c _ _ hz, PhiA6_eq]
      on_goal 2 => rw [PhiS6_castSucc V c t, PhiS6_pos V c _ _ hz]
      all_goals
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun6_A c (grid6.coords t) _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · first | iexact HS0 | (iexists _; iexact HS0)
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 391 = 390
    · rw [leaves6_0, leaves6_1, leaves6_2, leaves6_3, leaves6_4]
      rw [show (dat6 V c).leavesExact 5 t = owns (c : Thread nD τ) (ms6_5 t) fullShare ((dat6 V c).after 5 t) from (by unfold Dat.leavesExact; rw [liveAt6_5 t ((hcond6_1 t).mpr h1)]), after6_5]
      rw [outsAt6_C V c t h0 h1]
      unfold out6_C_5 sout6_C_0; (try dsimp only)
      by_cases hz : t.val = 0
      · exfalso; omega
      · rw [PhiS6_castSucc V c t, PhiS6_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun6_C c (grid6.coords t) _ _ _ _ _ _ _ _ _ _ _ _ _ _ (fun h => h0 ((hcond6_0 t).mp h)) ((hcond6_1 t).mpr h1) (iblk6 V c 0 t) (iblk6 V c 1 t) (iblk6 V c 2 t) (iblk6 V c 3 t) (iblk6 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover6_C_5 c _ _ _ _ _ _ _ _ _ _ _ _ _ _ _ _ _ _ _ _ _ _ _)
    · rw [leaves6_0, leaves6_1, leaves6_2, leaves6_3, leaves6_4]
      rw [Dat.leavesExact_idle (dat6 V c) 5 t (idleAt6_5 t (fun h => h1 ((hcond6_1 t).mp h))) (noFlush6_5 t (fun h => h1 ((hcond6_1 t).mp h)))]
      rw [outsAt6_B V c t h0 h1]
      unfold sout6_B_0; (try dsimp only)
      by_cases hz : t.val = 0
      · exfalso; omega
      · rw [PhiS6_castSucc V c t, PhiS6_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun6_B c (grid6.coords t) _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) (iblk6 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, HR⟩, Hg⟩
  isplitl [HS0 HR]
  · isplitl [HS0]
    · iexists _; iexact HS0
    iexact HR
  iexact Hg

theorem hout6 (c : Dev nD) : (dat6 V c).Φ (Fin.last cfg6.N) ⊢ Pipeline.ΦA spec6 c :=
  Phi_out6 V c _ (by rw [Fin.val_last]; have : cfg6.N = 3910 := N_6; omega)

end Region

end Cert.KernelIdeal.Hand

end
-- ==== Proof.KI.R7.lean ====
import proofs.«407044_j9311489098471_2_alg».proof.Proof.Gen.KernelIdeal.Launch
import proofs.«407044_j9311489098471_2_alg».proof.Proof.Gen.KernelIdeal.Skeleton
import proofs.«407044_j9311489098471_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region7

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev cond7_0 (i : grid7.Coords) : Prop := (Scalar.cmpi .ne (Scalar.extui (Scalar.cmpi .eq (BitVec.ofNat 32 (i 0).val) 0#32)) 0#32) = 1#1

theorem hcond7_0 : ∀ t : Fin cfg7.N, cond7_0 (grid7.coords t) ↔ t.val % 10 = 0 :=
  (by decide +kernel : ∀ t : Fin grid7.N, cond7_0 (grid7.coords t) ↔ t.val % 10 = 0)

abbrev VO7_1 : View sig .tc .vmem S1x64 .f32 := (Memref.whole cc7_stg1_0 : Memref sig .tc .vmem S1x64 .f32).view
abbrev VO7_2 : View sig .tc .vmem S1x64 .f32 := (Memref.whole cc7_stg2_0 : Memref sig .tc .vmem S1x64 .f32).view

abbrev ms7_0 (t : Fin cfg7.N) : Memref sig .tc .vmem S5000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x64 .f32 := win7_2.stage (cfg7.slots t 2)
abbrev hs7_2 (t : Fin cfg7.N) : (ms7_2 t).IsWhole := hstage7_2 ((cfg7.slots t 2).cast nbuf7_2)

section
variable (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole)
include c i arg1 harg1 arg2 harg2 arg3 harg3

set_option maxHeartbeats 1000000 in

noncomputable def kernelRun7_A (hc0 : cond7_0 i)
    (x0 : Vec F S5000x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc7_bn_stats_kernel i arg1 harg1 arg2 harg2 arg3 harg3) K } := by
  refine ⟨?_, ?_, fun E K => ?run⟩
  case run =>
    simp only [cc7_bn_stats_kernel_eq_skeleton]; unfold cc7_bn_stats_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in

noncomputable def kernelRun7_B (hc0 : ¬cond7_0 i)
    (x0 : Vec F S5000x64 .f32) (xo1 : Vec F S1x64 .f32) (xo2 : Vec F S1x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc7_bn_stats_kernel i arg1 harg1 arg2 harg2 arg3 harg3) K } := by
  refine ⟨?_, ?_, fun E K => ?run⟩
  case run =>
    simp only [cc7_bn_stats_kernel_eq_skeleton]; unfold cc7_bn_stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

theorem cover7_A_1 (hc0 : cond7_0 i)
    (x0 : Vec F S5000x64 .f32) (y : S1x64.Idx) :
    ∃ pc ∈ (kernelRun7_A c i arg1 harg1 arg2 harg2 arg3 harg3 hc0 x0).1, y ∈ pc.1.set :=
  View.cover_of_tiledL (kernelRun7_A c i arg1 harg1 arg2 harg2 arg3 harg3 hc0 x0).1 S1x64.size (by sl_kernel_rfl) y

theorem cover7_A_2 (hc0 : cond7_0 i)
    (x0 : Vec F S5000x64 .f32) (y : S1x64.Idx) :
    ∃ pc ∈ (kernelRun7_A c i arg1 harg1 arg2 harg2 arg3 harg3 hc0 x0).2.1, y ∈ pc.1.set :=
  View.cover_of_tiledL (kernelRun7_A c i arg1 harg1 arg2 harg2 arg3 harg3 hc0 x0).2.1 S1x64.size (by sl_kernel_rfl) y

def out7_A_1 (hc0 : cond7_0 i)
    (x0 : Vec F S5000x64 .f32) : Vec F S1x64 .f32 :=
  VO7_1.read (Elt F) (VO7_1.writes (Elt F) VO7_1.junk (kernelRun7_A c i arg1 harg1 arg2 harg2 arg3 harg3 hc0 x0).1)

def out7_A_2 (hc0 : cond7_0 i)
    (x0 : Vec F S5000x64 .f32) : Vec F S1x64 .f32 :=
  VO7_2.read (Elt F) (VO7_2.writes (Elt F) VO7_2.junk (kernelRun7_A c i arg1 harg1 arg2 harg2 arg3 harg3 hc0 x0).2.1)

theorem cover7_B_1 (hc0 : ¬cond7_0 i)
    (x0 : Vec F S5000x64 .f32) (xo1 : Vec F S1x64 .f32) (xo2 : Vec F S1x64 .f32) (y : S1x64.Idx) :
    ∃ pc ∈ (kernelRun7_B c i arg1 harg1 arg2 harg2 arg3 harg3 hc0 x0 xo1 xo2).1, y ∈ pc.1.set :=
  View.cover_of_tiledL (kernelRun7_B c i arg1 harg1 arg2 harg2 arg3 harg3 hc0 x0 xo1 xo2).1 S1x64.size (by sl_kernel_rfl) y

theorem cover7_B_2 (hc0 : ¬cond7_0 i)
    (x0 : Vec F S5000x64 .f32) (xo1 : Vec F S1x64 .f32) (xo2 : Vec F S1x64 .f32) (y : S1x64.Idx) :
    ∃ pc ∈ (kernelRun7_B c i arg1 harg1 arg2 harg2 arg3 harg3 hc0 x0 xo1 xo2).2.1, y ∈ pc.1.set :=
  View.cover_of_tiledL (kernelRun7_B c i arg1 harg1 arg2 harg2 arg3 harg3 hc0 x0 xo1 xo2).2.1 S1x64.size (by sl_kernel_rfl) y

def out7_B_1 (hc0 : ¬cond7_0 i)
    (x0 : Vec F S5000x64 .f32) (xo1 : Vec F S1x64 .f32) (xo2 : Vec F S1x64 .f32) : Vec F S1x64 .f32 :=
  VO7_1.read (Elt F) (VO7_1.writes (Elt F) VO7_1.junk (kernelRun7_B c i arg1 harg1 arg2 harg2 arg3 harg3 hc0 x0 xo1 xo2).1)

def out7_B_2 (hc0 : ¬cond7_0 i)
    (x0 : Vec F S5000x64 .f32) (xo1 : Vec F S1x64 .f32) (xo2 : Vec F S1x64 .f32) : Vec F S1x64 .f32 :=
  VO7_2.read (Elt F) (VO7_2.writes (Elt F) VO7_2.junk (kernelRun7_B c i arg1 harg1 arg2 harg2 arg3 harg3 hc0 x0 xo1 xo2).2.1)

end

def outsAt7 (c : Dev nD) : (n : ℕ) → n < cfg7.N → Vec F S1x64 .f32 × Vec F S1x64 .f32
  | 0, hn => (out7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) ((hcond7_0 ⟨0, hn⟩).mpr (Nat.zero_mod _)) (iblk7 V c 0 ⟨0, hn⟩),
      out7_A_2 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) ((hcond7_0 ⟨0, hn⟩).mpr (Nat.zero_mod _)) (iblk7 V c 0 ⟨0, hn⟩))
  | n + 1, hn =>
    if h0 : (n + 1) % 10 = 0 then
      (out7_A_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) ((hcond7_0 ⟨n + 1, hn⟩).mpr h0) (iblk7 V c 0 ⟨n + 1, hn⟩),
        out7_A_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) ((hcond7_0 ⟨n + 1, hn⟩).mpr h0) (iblk7 V c 0 ⟨n + 1, hn⟩))
    else
      (out7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (fun h => h0 ((hcond7_0 ⟨n + 1, hn⟩).mp h)) (iblk7 V c 0 ⟨n + 1, hn⟩) (outsAt7 c n (Nat.lt_of_succ_lt hn)).1 (outsAt7 c n (Nat.lt_of_succ_lt hn)).2,
        out7_B_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (fun h => h0 ((hcond7_0 ⟨n + 1, hn⟩).mp h)) (iblk7 V c 0 ⟨n + 1, hn⟩) (outsAt7 c n (Nat.lt_of_succ_lt hn)).1 (outsAt7 c n (Nat.lt_of_succ_lt hn)).2)

theorem outsAt7_A (c : Dev nD) (t : Fin cfg7.N) (h0 : t.val % 10 = 0) :
    outsAt7 V c t.val t.isLt = (out7_A_1 c (grid7.coords t) (ms7_0 t) (hs7_0 t) (ms7_1 t) (hs7_1 t) (ms7_2 t) (hs7_2 t) ((hcond7_0 t).mpr h0) (iblk7 V c 0 t),
      out7_A_2 c (grid7.coords t) (ms7_0 t) (hs7_0 t) (ms7_1 t) (hs7_1 t) (ms7_2 t) (hs7_2 t) ((hcond7_0 t).mpr h0) (iblk7 V c 0 t)) := by
  obtain ⟨n, hn⟩ := t
  cases n with
  | zero => exact rfl
  | succ n => exact (dif_pos h0).trans rfl

theorem outsAt7_B (c : Dev nD) (t : Fin cfg7.N) (h0 : ¬t.val % 10 = 0) :
    outsAt7 V c t.val t.isLt = (out7_B_1 c (grid7.coords t) (ms7_0 t) (hs7_0 t) (ms7_1 t) (hs7_1 t) (ms7_2 t) (hs7_2 t) (fun h => h0 ((hcond7_0 t).mp h)) (iblk7 V c 0 t) (outsAt7 V c (t.val - 1) (Nat.lt_of_le_of_lt (Nat.sub_le _ _) t.isLt)).1 (outsAt7 V c (t.val - 1) (Nat.lt_of_le_of_lt (Nat.sub_le _ _) t.isLt)).2,
      out7_B_2 c (grid7.coords t) (ms7_0 t) (hs7_0 t) (ms7_1 t) (hs7_1 t) (ms7_2 t) (hs7_2 t) (fun h => h0 ((hcond7_0 t).mp h)) (iblk7 V c 0 t) (outsAt7 V c (t.val - 1) (Nat.lt_of_le_of_lt (Nat.sub_le _ _) t.isLt)).1 (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => (outsAt7 V c t.val t.isLt).1
    | ⟨2, _⟩ => (outsAt7 V c t.val t.isLt).2
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = (outsAt7 V c t.val t.isLt).1 := by dsimp only [dat7]
theorem after7_2 (c : Dev nD) (t : Fin cfg7.N) : (dat7 V c).after 2 t = (outsAt7 V c t.val t.isLt).2 := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl

theorem before7_1_B (c : Dev nD) (t : Fin cfg7.N) (h0 : ¬t.val % 10 = 0) (d) :
    (dat7 V c).before 1 t d = (outsAt7 V c (t.val - 1) (Nat.lt_of_le_of_lt (Nat.sub_le _ _) t.isLt)).1 := by
  have hN : t.val < 10 := lt_of_lt_of_eq t.isLt (show cfg7.N = 10 from N_7)
  rw [Dat.before_out_kept _ 1 rfl t (by omega) (Bool.eq_false_iff.mpr fun h => by have := (flush7_1 _).mp h; dsimp only at this; omega)
    (fun _ => rfl) (fun _ _ => rfl)]
  dsimp only [dat7]

theorem before7_2_B (c : Dev nD) (t : Fin cfg7.N) (h0 : ¬t.val % 10 = 0) (d) :
    (dat7 V c).before 2 t d = (outsAt7 V c (t.val - 1) (Nat.lt_of_le_of_lt (Nat.sub_le _ _) t.isLt)).2 := by
  have hN : t.val < 10 := lt_of_lt_of_eq t.isLt (show cfg7.N = 10 from N_7)
  rw [Dat.before_out_kept _ 2 rfl t (by omega) (Bool.eq_false_iff.mpr fun h => by have := (flush7_2 _).mp h; dsimp only at this; omega)
    (fun _ => rfl) (fun _ _ => rfl)]
  dsimp only [dat7]

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t))

set_option maxHeartbeats 1600000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).Φ t.succ = (dat7 V c).Φ t.castSucc from rfl,
    show (dat7 V c).owesAt () t.succ = (dat7 V c).owesAt () t.castSucc from rfl,
    after7_0, after7_1, after7_2]
  have hN : t.val < 10 := lt_of_lt_of_eq t.isLt (show cfg7.N = 10 from N_7)
  by_cases h0 : t.val % 10 = 0
  · rw [outsAt7_A V c t h0]
    unfold out7_A_1 out7_A_2; (try dsimp only)
    iintro ⟨HΦ, Ho, ⟨%d0, H0⟩, ⟨%d1, H1⟩, ⟨%d2, H2⟩⟩
    iapply ((kernelRun7_A c (grid7.coords t) _ _ _ _ _ _ ((hcond7_0 t).mpr h0) (iblk7 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover7_A_1 c _ _ _ _ _ _ _ _ _)
    unfold owns; iexists _; isplitr
    swap; · iexact H2
    ipureintro; exact View.read_writes_of_cover _ _ _ _ _ (cover7_A_2 c _ _ _ _ _ _ _ _ _)
  · rw [outsAt7_B V c t h0]
    simp only [before7_1_B V c t h0, before7_2_B V c t h0]
    unfold out7_B_1 out7_B_2; (try dsimp only)
    iintro ⟨HΦ, Ho, ⟨%d0, H0⟩, ⟨%d1, H1⟩, ⟨%d2, H2⟩⟩
    iapply ((kernelRun7_B c (grid7.coords t) _ _ _ _ _ _ (fun h => h0 ((hcond7_0 t).mp h)) (iblk7 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover7_B_1 c _ _ _ _ _ _ _ _ _ _ _)
    unfold owns; iexists _; isplitr
    swap; · iexact H2
    ipureintro; exact View.read_writes_of_cover _ _ _ _ _ (cover7_B_2 c _ _ _ _ _ _ _ _ _ _ _)

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := .rfl

theorem hout7 (c : Dev nD) : (dat7 V c).Φ (Fin.last cfg7.N) ⊢ Pipeline.ΦA spec7 c := .rfl

end Region7

end Cert.KernelIdeal.Hand

end
-- ==== Proof.KI.R8.lean ====
import proofs.«407044_j9311489098471_2_alg».proof.Proof.Gen.KernelIdeal.Launch
import proofs.«407044_j9311489098471_2_alg».proof.Proof.Gen.KernelIdeal.Skeleton
import proofs.«407044_j9311489098471_2_alg».proof.Proof.Gen.KernelIdeal.Points
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S5000x64 := Rect.unit (s := S5000x64) ![0, 0] S5000x64.size inb_S5000x64_S5000x64_0_0
abbrev r8_1 : Rect S1x64 := Rect.unit (s := S1x64) ![0, 0] S1x64.size inb_S1x64_S1x64_0_0
abbrev r8_2 : Rect S64 := Rect.unit (s := S64) ![0] S64.size inb_S64_S64_0

def out8_5 (x0 : Vec F S5000x64 .f32) (x1 : Vec F S1x64 .f32) (x2 : Vec F S1x64 .f32) (x3 : Vec F S64 .f32) (x4 : Vec F S64 .f32) :
    Vec F S5000x64 .f32 :=
  View.canon [⟨r8_0, k8_pay1 (View.ld x0 r8_0) (View.ld x2 r8_1) (View.ld x1 r8_1) (View.ld x3 r8_2) (View.ld x4 r8_2)⟩]

theorem cover8_5 (p0 : Vec F S5000x64 .f32) (y : S5000x64.Idx) :
    ∃ pc ∈ ([⟨r8_0, p0⟩] : List (View.Piece (Elt F) S5000x64 .f32)), y ∈ pc.1.set :=
  View.cover_of_tiled [⟨r8_0, p0⟩] S5000x64.size (by rfl) y

set_option maxHeartbeats 1000000 in

theorem sound_kernel8 (c : Dev nD) (E : Set ℕ) (i : grid8.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E (cc8_bn_norm_kernel i arg1 harg1 arg2 harg2 arg3 harg3 arg4 harg4 arg5 harg5 arg6 harg6) K := by
  simp only [cc8_bn_norm_kernel_eq_skeleton]; unfold cc8_bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl
theorem before8_2 (c : Dev nD) (t : Fin cfg8.N) (d) : (dat8 V c).before 2 t d = iblk8 V c 2 t :=
  ((dat8 V c).before_in_eq_fetched 2 rfl (fun _ => rfl) (fun _ _ _ => rfl) (fun _ => rfl) t d).trans rfl
theorem before8_3 (c : Dev nD) (t : Fin cfg8.N) (d) : (dat8 V c).before 3 t d = iblk8 V c 3 t :=
  ((dat8 V c).before_in_eq_fetched 3 rfl (fun _ => rfl) (fun _ _ _ => rfl) (fun _ => rfl) t d).trans rfl
theorem before8_4 (c : Dev nD) (t : Fin cfg8.N) (d) : (dat8 V c).before 4 t d = iblk8 V c 4 t :=
  ((dat8 V c).before_in_eq_fetched 4 rfl (fun _ => rfl) (fun _ _ _ => rfl) (fun _ => rfl) t d).trans rfl

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _
    (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := .rfl
theorem hout8 (c : Dev nD) : (dat8 V c).Φ (Fin.last cfg8.N) ⊢ Pipeline.ΦA spec8 c := .rfl

end Cert.KernelIdeal.Hand

end
-- ==== Proof.KI.R9Runs.lean ====
import proofs.«407044_j9311489098471_2_alg».proof.Proof.Gen.KernelIdeal.Launch
import proofs.«407044_j9311489098471_2_alg».proof.Proof.Gen.KernelIdeal.Skeleton
import proofs.«407044_j9311489098471_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond9_0 (i : grid9.Coords) : Prop := (Scalar.cmpi .ne (Scalar.extui (Scalar.cmpi .eq (BitVec.ofNat 32 (i 0).val) 0#32)) 0#32) = 1#1

theorem hcond9_0 : ∀ t : Fin cfg9.N, cond9_0 (grid9.coords t) ↔ t.val = 0 :=
  (by decide +kernel : ∀ t : Fin grid9.N, cond9_0 (grid9.coords t) ↔ t.val = 0)

abbrev cond9_1 (i : grid9.Coords) : Prop := k9_cond2 i = 1#1

theorem hcond9_1 : ∀ t : Fin cfg9.N, cond9_1 (grid9.coords t) ↔ t.val = 9 :=
  (by decide +kernel : ∀ t : Fin grid9.N, cond9_1 (grid9.coords t) ↔ t.val = 9)

theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
theorem liveAt9_3 : ∀ t : Fin cfg9.N, cfg9.idle 3 (grid9.coords t) = false := by decide +kernel
theorem liveAt9_4 : ∀ t : Fin cfg9.N, cfg9.idle 4 (grid9.coords t) = false := by decide +kernel
theorem liveAt9_5 : ∀ t : Fin cfg9.N, cfg9.idle 5 (grid9.coords t) = false := by decide +kernel

theorem idleAt9_6 : ∀ t : Fin cfg9.N, ¬cond9_1 (grid9.coords t) → cfg9.idle 6 (grid9.coords t) = true := by decide +kernel
theorem noFlush9_6 : ∀ t : Fin cfg9.N, ¬cond9_1 (grid9.coords t) → (cfg9.win 6).flush t = false := by decide +kernel

theorem liveAt9_6 : ∀ t : Fin cfg9.N, cond9_1 (grid9.coords t) → cfg9.idle 6 (grid9.coords t) = false := by decide +kernel

abbrev VO9_6 : View sig .tc .vmem S256x1 .f32 := (Memref.whole cc9_stg6_0 : Memref sig .tc .vmem S256x1 .f32).view
abbrev ms9_0 (t : Fin cfg9.N) : Memref sig .tc .vmem S5000x1 .i32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S5000x64 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S64x64 .bf16 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S64 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S64x1 .bf16 := win9_4.stage (cfg9.slots t 4)
abbrev hs9_4 (t : Fin cfg9.N) : (ms9_4 t).IsWhole := hstage9_4 ((cfg9.slots t 4).cast nbuf9_4)
abbrev ms9_5 (t : Fin cfg9.N) : Memref sig .tc .vmem S1 .f32 := win9_5.stage (cfg9.slots t 5)
abbrev hs9_5 (t : Fin cfg9.N) : (ms9_5 t).IsWhole := hstage9_5 ((cfg9.slots t 5).cast nbuf9_5)
abbrev ms9_6 (t : Fin cfg9.N) : Memref sig .tc .vmem S256x1 .f32 := win9_6.stage (cfg9.slots t 6)
abbrev hs9_6 (t : Fin cfg9.N) : (ms9_6 t).IsWhole := hstage9_6 ((cfg9.slots t 6).cast nbuf9_6)

abbrev scM9_0 : Memref sig .tc .vmem S256x64 .f32 := Memref.whole cc9_scratch0
abbrev VS9_0 : View sig .tc .vmem S256x64 .f32 := scM9_0.view

theorem PhiA9_eq (c : Dev nD) :
    (Pipeline.ΦA spec9 c : sProp 𝕄)
      = iprop(iprop((∃ d, owns (c : Thread nD τ) scM9_0 fullShare d)
          ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [scM9_0, owns_whole]; try rfl

section
variable (c : Dev nD) (i : grid9.Coords) (arg1 : Memref sig .tc .vmem S5000x1 .i32) (harg1 : arg1.IsWhole) (arg2 : Memref sig .tc .vmem S5000x64 .f32) (harg2 : arg2.IsWhole) (arg3 : Memref sig .tc .vmem S64x64 .bf16) (harg3 : arg3.IsWhole) (arg4 : Memref sig .tc .vmem S64 .f32) (harg4 : arg4.IsWhole) (arg5 : Memref sig .tc .vmem S64x1 .bf16) (harg5 : arg5.IsWhole) (arg6 : Memref sig .tc .vmem S1 .f32) (harg6 : arg6.IsWhole) (arg7 : Memref sig .tc .vmem S256x1 .f32) (harg7 : arg7.IsWhole) (arg8 : Memref sig .tc .vmem S256x64 .f32) (harg8 : arg8.IsWhole)
include c i arg1 harg1 arg2 harg2 arg3 harg3 arg4 harg4 arg5 harg5 arg6 harg6 arg7 harg7 arg8 harg8

set_option maxHeartbeats 2000000 in

noncomputable def kernelRun9_A (hc0 : cond9_0 i) (hc1 : ¬cond9_1 i)
    (x0 : Vec F S5000x1 .i32) (x1 : Vec F S5000x64 .f32) (x2 : Vec F S64x64 .bf16) (x3 : Vec F S64 .f32) (x4 : Vec F S64x1 .bf16) (x5 : Vec F S1 .f32) :
    Σ' (L6 : List (View.Piece (Elt F) S256x1 .f32)), { LS0 : List (View.Piece (Elt F) S256x64 .f32) //
      ∀ (xi6 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc9_pool_mlp_kernel i arg1 harg1 arg2 harg2 arg3 harg3 arg4 harg4 arg5 harg5 arg6 harg6 arg7 harg7 arg8 harg8) K } := by
  refine ⟨[], ?_, fun xi6 E K => ?run⟩
  case run =>
    simp only [cc9_pool_mlp_kernel_eq_skeleton]; unfold cc9_pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

set_option maxHeartbeats 2000000 in

noncomputable def kernelRun9_B (hc0 : ¬cond9_0 i) (hc1 : ¬cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) :
    Σ' (L6 : List (View.Piece (Elt F) S256x1 .f32)), { LS0 : List (View.Piece (Elt F) S256x64 .f32) //
      ∀ (xi6 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc9_pool_mlp_kernel i arg1 harg1 arg2 harg2 arg3 harg3 arg4 harg4 arg5 harg5 arg6 harg6 arg7 harg7 arg8 harg8) K } := by
  refine ⟨[], ?_, fun xi6 E K => ?run⟩
  case run =>
    simp only [cc9_pool_mlp_kernel_eq_skeleton]; unfold cc9_pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

set_option maxHeartbeats 2000000 in

noncomputable def kernelRun9_C (hc0 : ¬cond9_0 i) (hc1 : cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) :
    Σ' (L6 : List (View.Piece (Elt F) S256x1 .f32)), { LS0 : List (View.Piece (Elt F) S256x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc9_pool_mlp_kernel i arg1 harg1 arg2 harg2 arg3 harg3 arg4 harg4 arg5 harg5 arg6 harg6 arg7 harg7 arg8 harg8) K } := by
  refine ⟨?_, ?_, fun E K => ?run⟩
  case run =>
    simp only [cc9_pool_mlp_kernel_eq_skeleton]; unfold cc9_pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end

end Cert.KernelIdeal.Hand

end
-- ==== Proof.KI.R9.lean ====
import proofs.«407044_j9311489098471_2_alg».proof.Proof.KI.R9Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem r9_zero_ne_nine : ¬((0 : ℕ) = 9) := by decide

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

section
variable (c : Dev nD) (i : grid9.Coords) (arg1 : Memref sig .tc .vmem S5000x1 .i32) (harg1 : arg1.IsWhole) (arg2 : Memref sig .tc .vmem S5000x64 .f32) (harg2 : arg2.IsWhole) (arg3 : Memref sig .tc .vmem S64x64 .bf16) (harg3 : arg3.IsWhole) (arg4 : Memref sig .tc .vmem S64 .f32) (harg4 : arg4.IsWhole) (arg5 : Memref sig .tc .vmem S64x1 .bf16) (harg5 : arg5.IsWhole) (arg6 : Memref sig .tc .vmem S1 .f32) (harg6 : arg6.IsWhole) (arg7 : Memref sig .tc .vmem S256x1 .f32) (harg7 : arg7.IsWhole) (arg8 : Memref sig .tc .vmem S256x64 .f32) (harg8 : arg8.IsWhole)
include c i arg1 harg1 arg2 harg2 arg3 harg3 arg4 harg4 arg5 harg5 arg6 harg6 arg7 harg7 arg8 harg8

def out9_A_6 (hc0 : cond9_0 i) (hc1 : ¬cond9_1 i)
    (x0 : Vec F S5000x1 .i32) (x1 : Vec F S5000x64 .f32) (x2 : Vec F S64x64 .bf16) (x3 : Vec F S64 .f32) (x4 : Vec F S64x1 .bf16) (x5 : Vec F S1 .f32) : Vec F S256x1 .f32 :=
  VO9_6.read (Elt F) (VO9_6.writes (Elt F) VO9_6.junk (kernelRun9_A c i arg1 harg1 arg2 harg2 arg3 harg3 arg4 harg4 arg5 harg5 arg6 harg6 arg7 harg7 arg8 harg8 hc0 hc1 x0 x1 x2 x3 x4 x5).1)

theorem scover9_A_0 (hc0 : cond9_0 i) (hc1 : ¬cond9_1 i)
    (x0 : Vec F S5000x1 .i32) (x1 : Vec F S5000x64 .f32) (x2 : Vec F S64x64 .bf16) (x3 : Vec F S64 .f32) (x4 : Vec F S64x1 .bf16) (x5 : Vec F S1 .f32) (y : S256x64.Idx) :
    ∃ pc ∈ (kernelRun9_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun9_A c i arg1 harg1 arg2 harg2 arg3 harg3 arg4 harg4 arg5 harg5 arg6 harg6 arg7 harg7 arg8 harg8 hc0 hc1 x0 x1 x2 x3 x4 x5).2.1 S256x64.size (by sl_kernel_rfl) y

def sout9_A_0 (hc0 : cond9_0 i) (hc1 : ¬cond9_1 i)
    (x0 : Vec F S5000x1 .i32) (x1 : Vec F S5000x64 .f32) (x2 : Vec F S64x64 .bf16) (x3 : Vec F S64 .f32) (x4 : Vec F S64x1 .bf16) (x5 : Vec F S1 .f32) : Vec F S256x64 .f32 :=
  VS9_0.read (Elt F) (VS9_0.writes (Elt F) VS9_0.junk (kernelRun9_A c i arg1 harg1 arg2 harg2 arg3 harg3 arg4 harg4 arg5 harg5 arg6 harg6 arg7 harg7 arg8 harg8 hc0 hc1 x0 x1 x2 x3 x4 x5).2.1)

def out9_B_6 (hc0 : ¬cond9_0 i) (hc1 : ¬cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) : Vec F S256x1 .f32 :=
  VO9_6.read (Elt F) (VO9_6.writes (Elt F) VO9_6.junk (kernelRun9_B c i arg1 harg1 arg2 harg2 arg3 harg3 arg4 harg4 arg5 harg5 arg6 harg6 arg7 harg7 arg8 harg8 hc0 hc1 x0 x1 x2 x3 x4 x5 xs0).1)

theorem scover9_B_0 (hc0 : ¬cond9_0 i) (hc1 : ¬cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) (y : S256x64.Idx) :
    ∃ pc ∈ (kernelRun9_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun9_B c i arg1 harg1 arg2 harg2 arg3 harg3 arg4 harg4 arg5 harg5 arg6 harg6 arg7 harg7 arg8 harg8 hc0 hc1 x0 x1 x2 x3 x4 x5 xs0).2.1 S256x64.size (by sl_kernel_rfl) y

def sout9_B_0 (hc0 : ¬cond9_0 i) (hc1 : ¬cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) : Vec F S256x64 .f32 :=
  VS9_0.read (Elt F) (VS9_0.writes (Elt F) VS9_0.junk (kernelRun9_B c i arg1 harg1 arg2 harg2 arg3 harg3 arg4 harg4 arg5 harg5 arg6 harg6 arg7 harg7 arg8 harg8 hc0 hc1 x0 x1 x2 x3 x4 x5 xs0).2.1)

theorem cover9_C_6 (hc0 : ¬cond9_0 i) (hc1 : cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) (y : S256x1.Idx) :
    ∃ pc ∈ (kernelRun9_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun9_C c i arg1 harg1 arg2 harg2 arg3 harg3 arg4 harg4 arg5 harg5 arg6 harg6 arg7 harg7 arg8 harg8 hc0 hc1 x0 x1 x2 x3 x4 x5 xs0).1 S256x1.size (by sl_kernel_rfl) y

def out9_C_6 (hc0 : ¬cond9_0 i) (hc1 : cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) : Vec F S256x1 .f32 :=
  VO9_6.read (Elt F) (VO9_6.writes (Elt F) VO9_6.junk (kernelRun9_C c i arg1 harg1 arg2 harg2 arg3 harg3 arg4 harg4 arg5 harg5 arg6 harg6 arg7 harg7 arg8 harg8 hc0 hc1 x0 x1 x2 x3 x4 x5 xs0).1)

theorem scover9_C_0 (hc0 : ¬cond9_0 i) (hc1 : cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) (y : S256x64.Idx) :
    ∃ pc ∈ (kernelRun9_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun9_C c i arg1 harg1 arg2 harg2 arg3 harg3 arg4 harg4 arg5 harg5 arg6 harg6 arg7 harg7 arg8 harg8 hc0 hc1 x0 x1 x2 x3 x4 x5 xs0).2.1 S256x64.size (by sl_kernel_rfl) y

def sout9_C_0 (hc0 : ¬cond9_0 i) (hc1 : cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) : Vec F S256x64 .f32 :=
  VS9_0.read (Elt F) (VS9_0.writes (Elt F) VS9_0.junk (kernelRun9_C c i arg1 harg1 arg2 harg2 arg3 harg3 arg4 harg4 arg5 harg5 arg6 harg6 arg7 harg7 arg8 harg8 hc0 hc1 x0 x1 x2 x3 x4 x5 xs0).2.1)

end

def outsAt9 (c : Dev nD) : (n : ℕ) → n < cfg9.N → Vec F S256x1 .f32 × Vec F S256x64 .f32
  | 0, hn => (out9_A_6 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) (ms9_6 ⟨0, hn⟩) (hs9_6 ⟨0, hn⟩) scM9_0 (Memref.isWhole_whole _) ((hcond9_0 ⟨0, hn⟩).mpr rfl) (fun h => absurd ((hcond9_1 ⟨0, hn⟩).mp h) r9_zero_ne_nine) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩), sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) (ms9_6 ⟨0, hn⟩) (hs9_6 ⟨0, hn⟩) scM9_0 (Memref.isWhole_whole _) ((hcond9_0 ⟨0, hn⟩).mpr rfl) (fun h => absurd ((hcond9_1 ⟨0, hn⟩).mp h) r9_zero_ne_nine) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩))
  | n + 1, hn =>
    if h1 : n + 1 = 9 then
      (out9_C_6 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) (fun h => absurd ((hcond9_0 ⟨n + 1, hn⟩).mp h) (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (outsAt9 c n (Nat.lt_of_succ_lt hn)).2, sout9_C_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) (fun h => absurd ((hcond9_0 ⟨n + 1, hn⟩).mp h) (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (outsAt9 c n (Nat.lt_of_succ_lt hn)).2)
    else
      (out9_B_6 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) (fun h => absurd ((hcond9_0 ⟨n + 1, hn⟩).mp h) (Nat.succ_ne_zero n)) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (outsAt9 c n (Nat.lt_of_succ_lt hn)).2, sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) (fun h => absurd ((hcond9_0 ⟨n + 1, hn⟩).mp h) (Nat.succ_ne_zero n)) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (outsAt9 c n (Nat.lt_of_succ_lt hn)).2)

theorem outsAt9_A (c : Dev nD) (t : Fin cfg9.N) (h0 : t.val = 0) (h1 : ¬t.val = 9) :
    outsAt9 V c t.val t.isLt = (out9_A_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) ((hcond9_0 t).mpr h0) (fun h => h1 ((hcond9_1 t).mp h)) (iblk9 V c 0 t) (iblk9 V c 1 t) (iblk9 V c 2 t) (iblk9 V c 3 t) (iblk9 V c 4 t) (iblk9 V c 5 t), sout9_A_0 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) ((hcond9_0 t).mpr h0) (fun h => h1 ((hcond9_1 t).mp h)) (iblk9 V c 0 t) (iblk9 V c 1 t) (iblk9 V c 2 t) (iblk9 V c 3 t) (iblk9 V c 4 t) (iblk9 V c 5 t)) := by
  obtain ⟨n, hn⟩ := t
  cases n with
  | zero => exact rfl
  | succ n => exact absurd h0 (Nat.succ_ne_zero n)

theorem outsAt9_B (c : Dev nD) (t : Fin cfg9.N) (h0 : ¬t.val = 0) (h1 : ¬t.val = 9) :
    outsAt9 V c t.val t.isLt = (out9_B_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) (fun h => h0 ((hcond9_0 t).mp h)) (fun h => h1 ((hcond9_1 t).mp h)) (iblk9 V c 0 t) (iblk9 V c 1 t) (iblk9 V c 2 t) (iblk9 V c 3 t) (iblk9 V c 4 t) (iblk9 V c 5 t) (outsAt9 V c (t.val - 1) (Nat.lt_of_le_of_lt (Nat.sub_le _ _) t.isLt)).2, sout9_B_0 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) (fun h => h0 ((hcond9_0 t).mp h)) (fun h => h1 ((hcond9_1 t).mp h)) (iblk9 V c 0 t) (iblk9 V c 1 t) (iblk9 V c 2 t) (iblk9 V c 3 t) (iblk9 V c 4 t) (iblk9 V c 5 t) (outsAt9 V c (t.val - 1) (Nat.lt_of_le_of_lt (Nat.sub_le _ _) t.isLt)).2) := by
  obtain ⟨n, hn⟩ := t
  cases n with
  | zero => exact absurd rfl h0
  | succ n => exact (dif_neg h1).trans rfl

theorem outsAt9_C (c : Dev nD) (t : Fin cfg9.N) (h0 : ¬t.val = 0) (h1 : t.val = 9) :
    outsAt9 V c t.val t.isLt = (out9_C_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) (fun h => h0 ((hcond9_0 t).mp h)) ((hcond9_1 t).mpr h1) (iblk9 V c 0 t) (iblk9 V c 1 t) (iblk9 V c 2 t) (iblk9 V c 3 t) (iblk9 V c 4 t) (iblk9 V c 5 t) (outsAt9 V c (t.val - 1) (Nat.lt_of_le_of_lt (Nat.sub_le _ _) t.isLt)).2, sout9_C_0 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) (fun h => h0 ((hcond9_0 t).mp h)) ((hcond9_1 t).mpr h1) (iblk9 V c 0 t) (iblk9 V c 1 t) (iblk9 V c 2 t) (iblk9 V c 3 t) (iblk9 V c 4 t) (iblk9 V c 5 t) (outsAt9 V c (t.val - 1) (Nat.lt_of_le_of_lt (Nat.sub_le _ _) t.isLt)).2) := by
  obtain ⟨n, hn⟩ := t
  cases n with
  | zero => exact absurd rfl h0
  | succ n => exact (dif_pos h1).trans rfl

def PhiS9 (c : Dev nD) : (n : ℕ) → n ≤ cfg9.N → sProp 𝕄
  | 0, _ => Pipeline.ΦA spec9 c
  | n + 1, hn => iprop(iprop(owns (c : Thread nD τ) scM9_0 fullShare ((outsAt9 V c n hn).2)
      ∗ Pipeline.scopedRestBut (Ix := Unit) (Name := ℕ) (U := UR sig nD τ) (Lvl := ℕ) (Val := Elt F) spec9 c [cc9_scratch0]) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(owns (c : Thread nD τ) scM9_0 fullShare ((outsAt9 V c n hn).2)
      ∗ Pipeline.scopedRestBut (Ix := Unit) (Name := ℕ) (U := UR sig nD τ) (Lvl := ℕ) (Val := Elt F) spec9 c [cc9_scratch0]) ∗ (∃ r, prngReg c r)) := rfl

theorem PhiS9_pos (c : Dev nD) (n : ℕ) (h : n ≤ cfg9.N) (hz : n ≠ 0) :
    PhiS9 V c n h = iprop(iprop(owns (c : Thread nD τ) scM9_0 fullShare ((outsAt9 V c (n - 1) (by omega)).2)
      ∗ Pipeline.scopedRestBut (Ix := Unit) (Name := ℕ) (U := UR sig nD τ) (Lvl := ℕ) (Val := Elt F) spec9 c [cc9_scratch0]) ∗ (∃ r, prngReg c r)) := by
  cases n with
  | zero => exact absurd rfl hz
  | succ n => rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = (outsAt9 V c t.val t.isLt).1 := by dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl
theorem before9_2 (c : Dev nD) (t : Fin cfg9.N) (d) : (dat9 V c).before 2 t d = iblk9 V c 2 t :=
  ((dat9 V c).before_in_eq_fetched 2 rfl (fun _ => rfl) (fun _ _ _ => rfl) (fun _ => rfl) t d).trans rfl
theorem before9_3 (c : Dev nD) (t : Fin cfg9.N) (d) : (dat9 V c).before 3 t d = iblk9 V c 3 t :=
  ((dat9 V c).before_in_eq_fetched 3 rfl (fun _ => rfl) (fun _ _ _ => rfl) (fun _ => rfl) t d).trans rfl
theorem before9_4 (c : Dev nD) (t : Fin cfg9.N) (d) : (dat9 V c).before 4 t d = iblk9 V c 4 t :=
  ((dat9 V c).before_in_eq_fetched 4 rfl (fun _ => rfl) (fun _ _ _ => rfl) (fun _ => rfl) t d).trans rfl
theorem before9_5 (c : Dev nD) (t : Fin cfg9.N) (d) : (dat9 V c).before 5 t d = iblk9 V c 5 t :=
  ((dat9 V c).before_in_eq_fetched 5 rfl (fun _ => rfl) (fun _ _ _ => rfl) (fun _ => rfl) t d).trans rfl

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d))
    ∗ (∃ d, owns (c : Thread nD τ) (ms9_5 t) fullShare ((dat9 V c).before 5 t d))
    ∗ (∃ d, owns (c : Thread nD τ) (ms9_6 t) fullShare ((dat9 V c).before 6 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t
    ∗ (dat9 V c).leavesExact 5 t
    ∗ (dat9 V c).leavesExact 6 t)

set_option maxHeartbeats 4800000 in

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).owesAt () t.succ = (dat9 V c).owesAt () t.castSucc from rfl]
  rw [show (dat9 V c).Φ t.succ = PhiS9 V c (t.val + 1) t.isLt from rfl, PhiS9_succ]
  have hN : t.val < 10 := lt_of_lt_of_eq t.isLt (show cfg9.N = 10 from N_9)
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [show (dat9 V c).leavesExact 2 t = owns (c : Thread nD τ) (ms9_2 t) fullShare ((dat9 V c).after 2 t) from by
    unfold Dat.leavesExact; rw [liveAt9_2 t], after9_2]
  rw [show (dat9 V c).leavesExact 3 t = owns (c : Thread nD τ) (ms9_3 t) fullShare ((dat9 V c).after 3 t) from by
    unfold Dat.leavesExact; rw [liveAt9_3 t], after9_3]
  rw [show (dat9 V c).leavesExact 4 t = owns (c : Thread nD τ) (ms9_4 t) fullShare ((dat9 V c).after 4 t) from by
    unfold Dat.leavesExact; rw [liveAt9_4 t], after9_4]
  rw [show (dat9 V c).leavesExact 5 t = owns (c : Thread nD τ) (ms9_5 t) fullShare ((dat9 V c).after 5 t) from by
    unfold Dat.leavesExact; rw [liveAt9_5 t], after9_5]
  by_cases h0 : t.val = 0
  · have h1 : ¬t.val = 9 := by omega
    rw [Dat.leavesExact_idle (dat9 V c) 6 t (idleAt9_6 t (fun h => h1 ((hcond9_1 t).mp h))) (noFlush9_6 t (fun h => h1 ((hcond9_1 t).mp h)))]
    rw [outsAt9_A V c t h0 h1]
    unfold sout9_A_0; (try dsimp only)
    rw [PhiS9_castSucc V c t, PhiS9_zero V c _ _ h0, PhiA9_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun9_A c (grid9.coords t) _ _ _ _ _ _ _ _ _ _ _ _ _ _ _ _ ((hcond9_0 t).mpr h0) (fun h => h1 ((hcond9_1 t).mp h)) (iblk9 V c 0 t) (iblk9 V c 1 t) (iblk9 V c 2 t) (iblk9 V c 3 t) (iblk9 V c 4 t) (iblk9 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover9_A_0 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val = 9
    · rw [show (dat9 V c).leavesExact 6 t = owns (c : Thread nD τ) (ms9_6 t) fullShare ((dat9 V c).after 6 t) from by
        unfold Dat.leavesExact; rw [liveAt9_6 t ((hcond9_1 t).mpr h1)], after9_6]
      rw [outsAt9_C V c t h0 h1]
      unfold out9_C_6 sout9_C_0; (try dsimp only)
      rw [PhiS9_castSucc V c t, PhiS9_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun9_C c (grid9.coords t) _ _ _ _ _ _ _ _ _ _ _ _ _ _ _ _ (fun h => h0 ((hcond9_0 t).mp h)) ((hcond9_1 t).mpr h1) (iblk9 V c 0 t) (iblk9 V c 1 t) (iblk9 V c 2 t) (iblk9 V c 3 t) (iblk9 V c 4 t) (iblk9 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_C_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover9_C_6 c _ _ _ _ _ _ _ _ _ _ _ _ _ _ _ _ _ _ _ _ _ _ _ _ _ _)
    · rw [Dat.leavesExact_idle (dat9 V c) 6 t (idleAt9_6 t (fun h => h1 ((hcond9_1 t).mp h))) (noFlush9_6 t (fun h => h1 ((hcond9_1 t).mp h)))]
      rw [outsAt9_B V c t h0 h1]
      unfold sout9_B_0; (try dsimp only)
      rw [PhiS9_castSucc V c t, PhiS9_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun9_B c (grid9.coords t) _ _ _ _ _ _ _ _ _ _ _ _ _ _ _ _ (fun h => h0 ((hcond9_0 t).mp h)) (fun h => h1 ((hcond9_1 t).mp h)) (iblk9 V c 0 t) (iblk9 V c 1 t) (iblk9 V c 2 t) (iblk9 V c 3 t) (iblk9 V c 4 t) (iblk9 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_B_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation9 (c : Dev nD) : BodyObligation (dat9 (F := F) V c) (defs₀ (F := F)) Variants.none () Set.univ := fun t => by
  rw [bigSep_W9, bigSep_W9]
  exact sound_body9 V c t

theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

theorem hout9 (c : Dev nD) : (dat9 V c).Φ (Fin.last cfg9.N) ⊢ Pipeline.ΦA spec9 c := by
  have ht : (Fin.last cfg9.N).val ≠ 0 := by rw [Fin.val_last]; have : cfg9.N = 10 := N_9; omega
  rw [show (dat9 V c).Φ (Fin.last cfg9.N) = PhiS9 V c (Fin.last cfg9.N).val (Nat.le_of_lt_succ (Fin.last cfg9.N).isLt) from rfl,
    PhiS9_pos V c _ _ ht, PhiA9_eq]
  iintro ⟨⟨HS0, HR⟩, Hg⟩
  isplitl [HS0 HR]
  · isplitl [HS0]
    · iexists _; iexact HS0
    iexact HR
  iexact Hg

end Cert.KernelIdeal.Hand

end
-- ==== Proof.KI.RegOf.lean ====
import proofs.«407044_j9311489098471_2_alg».proof.Proof.Gen.KernelIdeal.Launch
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev adm : (p : Fin 10) → (pcfgs (F := F) p).Adm := fun p => (cfgs p).toPCfg_adm
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev PDats (F : FTy → Type) [FloatOps F] : Type _ :=
  (p : Fin 10) → (c : Dev nD) → Dat τ (Elt F) Unit ℕ (UR sig nD τ) ℕ (Pipeline.pin (pcfgs (F := F)) adm p) c

set_option backward.isDefEq.respectTransparency.types false in

def regOf (pdats : PDats F) (p : Fin 10) (lf : Pipeline.LaunchFacts (nD := nD) (τ := τ) cfgs p)
    (W W' : Dev nD → Valuation τ sig (Elt F))
    (hbody : ∀ c, BodyObligation (pdats p c) (defs₀ (F := F)) Variants.none () Set.univ)
    (hq : ∀ c w, (pdats p c).q w = fullShare) (howed : ∀ c t, (pdats p c).owed t = 0)
    (hrec : ∀ c t, (pdats p c).recorded t = Set.univ)
    (hA : ∀ c w, (pdats p c).A w = W c (Pipeline.arrRef (cfgs p).spec w))
    (hin : ∀ c, Pipeline.ΦA (cfgs p).spec c ⊢ (pdats p c).Φ 0)
    (hout : ∀ c, (pdats p c).Φ (Fin.last (cfgs p).N) ⊢ Pipeline.ΦA (cfgs p).spec c)
    (hF : ∀ c w, (pdats p c).arrAt w (cfgs p).N = W' c (Pipeline.arrRef (cfgs p).spec w))
    (hrest : ∀ c, ∀ b : Ref sig .tc, b ∉ Finset.univ.image (Pipeline.arrRef (cfgs p).spec) → W' c b = W c b) :
    Pipeline.RegionSeg (pcfgs (F := F)) adm pdats () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    rw [Pipeline.ownSems0_none]
    have hsplit := Pipeline.arrays_of_unscopedBufs (p := p) (pcfgs (F := F)) adm pdats lf.win lf.arr_whole c
      ((pdats p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W0, HO⟩; iexists W0; isplitr; · ipureintro; exact fun _ _ => Or.inl (by rw [hrec c]; trivial)
      rw [howed c]; iexact HO
    isplitl [Hp]; · iexact Hp
    iexact Hrest
  hin c := by
    refine BIBase.Entails.trans ?_ (hin c); unfold Pipeline.ΦA
    iintro ⟨Hp, -, Hr⟩
    isplitl [Hr]; · iexact Hr
    iexact Hp
  hout c := by
    rw [Pipeline.ownSems0_none]
    refine (hout c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (hq c))
      (fun b => W c b) (fun b => W' c b) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W0, -, HO⟩; iexists W0; rw [howed c]; iexact HO

end Cert.KernelIdeal.Hand

end
-- ==== Proof.KI.Shares.lean ====
import proofs.«407044_j9311489098471_2_alg».proof.Proof.KI.R0
import proofs.«407044_j9311489098471_2_alg».proof.Proof.KI.R1
import proofs.«407044_j9311489098471_2_alg».proof.Proof.KI.R2
import proofs.«407044_j9311489098471_2_alg».proof.Proof.KI.R3
import proofs.«407044_j9311489098471_2_alg».proof.Proof.KI.R4
import proofs.«407044_j9311489098471_2_alg».proof.Proof.KI.R5
import proofs.«407044_j9311489098471_2_alg».proof.Proof.KI.R6
import proofs.«407044_j9311489098471_2_alg».proof.Proof.KI.R7
import proofs.«407044_j9311489098471_2_alg».proof.Proof.KI.R8
import proofs.«407044_j9311489098471_2_alg».proof.Proof.KI.R9
import proofs.«407044_j9311489098471_2_alg».proof.Proof.KI.RegOf
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
variable (V : (c : Dev nD) → (b : Ref sig .tc) → Buf (Elt F) ((c : Thread nD τ).loc b))

theorem hq0 (c : Dev nD) (w : Fin cfg0.W) : (dat0 V c).q w = fullShare := rfl
theorem howed0 (c : Dev nD) (t : Fin (cfg0.N + 1)) : (dat0 V c).owed t = 0 := rfl
theorem hrec0 (c : Dev nD) (t : Fin (cfg0.N + 1)) : (dat0 V c).recorded t = Set.univ := rfl

theorem hq1 (c : Dev nD) (w : Fin cfg1.W) : (dat1 V c).q w = fullShare := rfl
theorem howed1 (c : Dev nD) (t : Fin (cfg1.N + 1)) : (dat1 V c).owed t = 0 := rfl
theorem hrec1 (c : Dev nD) (t : Fin (cfg1.N + 1)) : (dat1 V c).recorded t = Set.univ := rfl

theorem hq2 (c : Dev nD) (w : Fin cfg2.W) : (dat2 V c).q w = fullShare := rfl
theorem howed2 (c : Dev nD) (t : Fin (cfg2.N + 1)) : (dat2 V c).owed t = 0 := rfl
theorem hrec2 (c : Dev nD) (t : Fin (cfg2.N + 1)) : (dat2 V c).recorded t = Set.univ := rfl

theorem hq3 (c : Dev nD) (w : Fin cfg3.W) : (dat3 V c).q w = fullShare := rfl
theorem howed3 (c : Dev nD) (t : Fin (cfg3.N + 1)) : (dat3 V c).owed t = 0 := rfl
theorem hrec3 (c : Dev nD) (t : Fin (cfg3.N + 1)) : (dat3 V c).recorded t = Set.univ := rfl

theorem hq4 (c : Dev nD) (w : Fin cfg4.W) : (dat4 V c).q w = fullShare := rfl
theorem howed4 (c : Dev nD) (t : Fin (cfg4.N + 1)) : (dat4 V c).owed t = 0 := rfl
theorem hrec4 (c : Dev nD) (t : Fin (cfg4.N + 1)) : (dat4 V c).recorded t = Set.univ := rfl

theorem hq5 (c : Dev nD) (w : Fin cfg5.W) : (dat5 V c).q w = fullShare := rfl
theorem howed5 (c : Dev nD) (t : Fin (cfg5.N + 1)) : (dat5 V c).owed t = 0 := rfl
theorem hrec5 (c : Dev nD) (t : Fin (cfg5.N + 1)) : (dat5 V c).recorded t = Set.univ := rfl

theorem hq6 (c : Dev nD) (w : Fin cfg6.W) : (dat6 V c).q w = fullShare := rfl
theorem howed6 (c : Dev nD) (t : Fin (cfg6.N + 1)) : (dat6 V c).owed t = 0 := rfl
theorem hrec6 (c : Dev nD) (t : Fin (cfg6.N + 1)) : (dat6 V c).recorded t = Set.univ := rfl

theorem hq7 (c : Dev nD) (w : Fin cfg7.W) : (dat7 V c).q w = fullShare := rfl
theorem howed7 (c : Dev nD) (t : Fin (cfg7.N + 1)) : (dat7 V c).owed t = 0 := rfl
theorem hrec7 (c : Dev nD) (t : Fin (cfg7.N + 1)) : (dat7 V c).recorded t = Set.univ := rfl

theorem hq8 (c : Dev nD) (w : Fin cfg8.W) : (dat8 V c).q w = fullShare := rfl
theorem howed8 (c : Dev nD) (t : Fin (cfg8.N + 1)) : (dat8 V c).owed t = 0 := rfl
theorem hrec8 (c : Dev nD) (t : Fin (cfg8.N + 1)) : (dat8 V c).recorded t = Set.univ := rfl

theorem hq9 (c : Dev nD) (w : Fin cfg9.W) : (dat9 V c).q w = fullShare := rfl
theorem howed9 (c : Dev nD) (t : Fin (cfg9.N + 1)) : (dat9 V c).owed t = 0 := rfl
theorem hrec9 (c : Dev nD) (t : Fin (cfg9.N + 1)) : (dat9 V c).recorded t = Set.univ := rfl

end Cert.KernelIdeal.Hand
end
-- ==== Proof.KI.Launch.lean ====
import proofs.«407044_j9311489098471_2_alg».proof.Proof.KI.Shares
import proofs.«407044_j9311489098471_2_alg».proof.Proof.Gen.KernelIdeal.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Vof (W : Dev nD → Valuation τ sig (Elt F)) : (c : Dev nD) → (b : Ref sig .tc) → Buf (Elt F) ((c : Thread nD τ).loc b) := fun c b => W c b

abbrev W0 : Dev nD → Valuation τ sig (Elt F) := fun c b => m ((c : Dev nD), b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)

abbrev W4 : Dev nD → Valuation τ sig (Elt F) := fun c => StableHlo.after hostOps0_3 (W3 m c)

abbrev W5 : Dev nD → Valuation τ sig (Elt F) := fun c => StableHlo.after hostOps0_4 (W4 m c)

def W6 (c : Dev nD) : Valuation τ sig (Elt F) :=
  Pipeline.withArrays spec0 c (W5 m c) fun w => (dat0 (Vof (W5 m)) c).arrAt w cfg0.N

def W7 (c : Dev nD) : Valuation τ sig (Elt F) :=
  Pipeline.withArrays spec1 c (W6 m c) fun w => (dat1 (Vof (W6 m)) c).arrAt w cfg1.N

abbrev W8 : Dev nD → Valuation τ sig (Elt F) := fun c => StableHlo.after hostOps2 (W7 m c)

def W9 (c : Dev nD) : Valuation τ sig (Elt F) :=
  Pipeline.withArrays spec2 c (W8 m c) fun w => (dat2 (Vof (W8 m)) c).arrAt w cfg2.N

abbrev W10 : Dev nD → Valuation τ sig (Elt F) := fun c => StableHlo.after hostOps3 (W9 m c)

abbrev W11 : Dev nD → Valuation τ sig (Elt F) := fun c => StableHlo.after hostOps3_1 (W10 m c)

abbrev W12 : Dev nD → Valuation τ sig (Elt F) := fun c => StableHlo.after hostOps3_2 (W11 m c)

abbrev W13 : Dev nD → Valuation τ sig (Elt F) := fun c => StableHlo.after hostOps3_3 (W12 m c)

abbrev W14 : Dev nD → Valuation τ sig (Elt F) := fun c => StableHlo.after hostOps3_4 (W13 m c)

def W15 (c : Dev nD) : Valuation τ sig (Elt F) :=
  Pipeline.withArrays spec3 c (W14 m c) fun w => (dat3 (Vof (W14 m)) c).arrAt w cfg3.N

def W16 (c : Dev nD) : Valuation τ sig (Elt F) :=
  Pipeline.withArrays spec4 c (W15 m c) fun w => (dat4 (Vof (W15 m)) c).arrAt w cfg4.N

abbrev W17 : Dev nD → Valuation τ sig (Elt F) := fun c => StableHlo.after hostOps5 (W16 m c)

def W18 (c : Dev nD) : Valuation τ sig (Elt F) :=
  Pipeline.withArrays spec5 c (W17 m c) fun w => (dat5 (Vof (W17 m)) c).arrAt w cfg5.N

abbrev W19 : Dev nD → Valuation τ sig (Elt F) := fun c => StableHlo.after hostOps6 (W18 m c)

abbrev W20 : Dev nD → Valuation τ sig (Elt F) := fun c => StableHlo.after hostOps6_1 (W19 m c)

abbrev W21 : Dev nD → Valuation τ sig (Elt F) := fun c => StableHlo.after hostOps6_2 (W20 m c)

abbrev W22 : Dev nD → Valuation τ sig (Elt F) := fun c => StableHlo.after hostOps6_3 (W21 m c)

abbrev W23 : Dev nD → Valuation τ sig (Elt F) := fun c => StableHlo.after hostOps6_4 (W22 m c)

def W24 (c : Dev nD) : Valuation τ sig (Elt F) :=
  Pipeline.withArrays spec6 c (W23 m c) fun w => (dat6 (Vof (W23 m)) c).arrAt w cfg6.N

def W25 (c : Dev nD) : Valuation τ sig (Elt F) :=
  Pipeline.withArrays spec7 c (W24 m c) fun w => (dat7 (Vof (W24 m)) c).arrAt w cfg7.N

abbrev W26 : Dev nD → Valuation τ sig (Elt F) := fun c => StableHlo.after hostOps8 (W25 m c)

def W27 (c : Dev nD) : Valuation τ sig (Elt F) :=
  Pipeline.withArrays spec8 c (W26 m c) fun w => (dat8 (Vof (W26 m)) c).arrAt w cfg8.N

abbrev W28 : Dev nD → Valuation τ sig (Elt F) := fun c => StableHlo.after hostOps9 (W27 m c)

def W29 (c : Dev nD) : Valuation τ sig (Elt F) :=
  Pipeline.withArrays spec9 c (W28 m c) fun w => (dat9 (Vof (W28 m)) c).arrAt w cfg9.N

abbrev W30 : Dev nD → Valuation τ sig (Elt F) := fun c => StableHlo.after hostOps10 (W29 m c)

theorem keep0 (c : Dev nD) (b : Ref sig .tc) (hb : b ∉ hostOps0_W) : W1 m c (Proc.devRef .tc b) = W0 m c (Proc.devRef .tc b) :=
  StableHlo.after_of_writes_sub hostOps0 _ hostOps0_writes hb
theorem keep1 (c : Dev nD) (b : Ref sig .tc) (hb : b ∉ hostOps0_1_W) : W2 m c (Proc.devRef .tc b) = W1 m c (Proc.devRef .tc b) :=
  StableHlo.after_of_writes_sub hostOps0_1 _ hostOps0_1_writes hb
theorem keep2 (c : Dev nD) (b : Ref sig .tc) (hb : b ∉ hostOps0_2_W) : W3 m c (Proc.devRef .tc b) = W2 m c (Proc.devRef .tc b) :=
  StableHlo.after_of_writes_sub hostOps0_2 _ hostOps0_2_writes hb
theorem keep3 (c : Dev nD) (b : Ref sig .tc) (hb : b ∉ hostOps0_3_W) : W4 m c (Proc.devRef .tc b) = W3 m c (Proc.devRef .tc b) :=
  StableHlo.after_of_writes_sub hostOps0_3 _ hostOps0_3_writes hb
theorem keep4 (c : Dev nD) (b : Ref sig .tc) (hb : b ∉ hostOps0_4_W) : W5 m c (Proc.devRef .tc b) = W4 m c (Proc.devRef .tc b) :=
  StableHlo.after_of_writes_sub hostOps0_4 _ hostOps0_4_writes hb
theorem W6_arr (c : Dev nD) (w : Fin cfg0.W) :
    W6 m c (Proc.devRef .tc (Pipeline.arrRef spec0 w)) = (dat0 (Vof (W5 m)) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
theorem keep5 (c : Dev nD) (b : Ref sig .tc) (hb : b ∉ ([main_v19] : List (Ref sig .tc))) : W6 m c (Proc.devRef .tc b) = W5 m c (Proc.devRef .tc b) := by
  by_cases h : ∃ w, Pipeline.arrRef spec0 w = b
  · obtain ⟨w, rfl⟩ := h
    match w with
    | ⟨0, _⟩ | ⟨1, _⟩ | ⟨2, _⟩ | ⟨3, _⟩ | ⟨4, _⟩ => exact ((W6_arr m c _).trans ((dat0 (Vof (W5 m)) c).arrAt_in _ rfl _)).trans (A_eq0 (Vof (W5 m)) c _)
    | ⟨5, _⟩ => exact absurd (by first | exact List.Mem.head _ | exact List.Mem.tail _ (List.Mem.head _)) hb
    | ⟨_ + 6, h⟩ => exact absurd h (Nat.not_lt.2 (Nat.le_add_left _ _))
  · exact W6_of_ne m c b fun w e => h ⟨w, e⟩
theorem W7_arr (c : Dev nD) (w : Fin cfg1.W) :
    W7 m c (Proc.devRef .tc (Pipeline.arrRef spec1 w)) = (dat1 (Vof (W6 m)) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem keep6 (c : Dev nD) (b : Ref sig .tc) (hb : b ∉ ([main_v20_0, main_v20_1] : List (Ref sig .tc))) : W7 m c (Proc.devRef .tc b) = W6 m c (Proc.devRef .tc b) := by
  by_cases h : ∃ w, Pipeline.arrRef spec1 w = b
  · obtain ⟨w, rfl⟩ := h
    match w with
    | ⟨0, _⟩ => exact ((W7_arr m c _).trans ((dat1 (Vof (W6 m)) c).arrAt_in _ rfl _)).trans (A_eq1 (Vof (W6 m)) c _)
    | ⟨1, _⟩ | ⟨2, _⟩ => exact absurd (by first | exact List.Mem.head _ | exact List.Mem.tail _ (List.Mem.head _)) hb
    | ⟨_ + 3, h⟩ => exact absurd h (Nat.not_lt.2 (Nat.le_add_left _ _))
  · exact W7_of_ne m c b fun w e => h ⟨w, e⟩
theorem keep7 (c : Dev nD) (b : Ref sig .tc) (hb : b ∉ hostOps2_W) : W8 m c (Proc.devRef .tc b) = W7 m c (Proc.devRef .tc b) :=
  StableHlo.after_of_writes_sub hostOps2 _ hostOps2_writes hb
theorem W9_arr (c : Dev nD) (w : Fin cfg2.W) :
    W9 m c (Proc.devRef .tc (Pipeline.arrRef spec2 w)) = (dat2 (Vof (W8 m)) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
theorem keep8 (c : Dev nD) (b : Ref sig .tc) (hb : b ∉ ([main_v27] : List (Ref sig .tc))) : W9 m c (Proc.devRef .tc b) = W8 m c (Proc.devRef .tc b) := by
  by_cases h : ∃ w, Pipeline.arrRef spec2 w = b
  · obtain ⟨w, rfl⟩ := h
    match w with
    | ⟨0, _⟩ | ⟨1, _⟩ | ⟨2, _⟩ | ⟨3, _⟩ | ⟨4, _⟩ => exact ((W9_arr m c _).trans ((dat2 (Vof (W8 m)) c).arrAt_in _ rfl _)).trans (A_eq2 (Vof (W8 m)) c _)
    | ⟨5, _⟩ => exact absurd (by first | exact List.Mem.head _ | exact List.Mem.tail _ (List.Mem.head _)) hb
    | ⟨_ + 6, h⟩ => exact absurd h (Nat.not_lt.2 (Nat.le_add_left _ _))
  · exact W9_of_ne m c b fun w e => h ⟨w, e⟩
theorem keep9 (c : Dev nD) (b : Ref sig .tc) (hb : b ∉ hostOps3_W) : W10 m c (Proc.devRef .tc b) = W9 m c (Proc.devRef .tc b) :=
  StableHlo.after_of_writes_sub hostOps3 _ hostOps3_writes hb
theorem keep10 (c : Dev nD) (b : Ref sig .tc) (hb : b ∉ hostOps3_1_W) : W11 m c (Proc.devRef .tc b) = W10 m c (Proc.devRef .tc b) :=
  StableHlo.after_of_writes_sub hostOps3_1 _ hostOps3_1_writes hb
theorem keep11 (c : Dev nD) (b : Ref sig .tc) (hb : b ∉ hostOps3_2_W) : W12 m c (Proc.devRef .tc b) = W11 m c (Proc.devRef .tc b) :=
  StableHlo.after_of_writes_sub hostOps3_2 _ hostOps3_2_writes hb
theorem keep12 (c : Dev nD) (b : Ref sig .tc) (hb : b ∉ hostOps3_3_W) : W13 m c (Proc.devRef .tc b) = W12 m c (Proc.devRef .tc b) :=
  StableHlo.after_of_writes_sub hostOps3_3 _ hostOps3_3_writes hb
theorem keep13 (c : Dev nD) (b : Ref sig .tc) (hb : b ∉ hostOps3_4_W) : W14 m c (Proc.devRef .tc b) = W13 m c (Proc.devRef .tc b) :=
  StableHlo.after_of_writes_sub hostOps3_4 _ hostOps3_4_writes hb
theorem W15_arr (c : Dev nD) (w : Fin cfg3.W) :
    W15 m c (Proc.devRef .tc (Pipeline.arrRef spec3 w)) = (dat3 (Vof (W14 m)) c).arrAt w cfg3.N := by
  unfold W15; exact Pipeline.withArrays_arr spec3 launch3.win.arr_inj c _ _ w
theorem W15_of_ne (c : Dev nD) (b : Ref sig .tc) (hb : ∀ w, Pipeline.arrRef spec3 w ≠ b) :
    W15 m c (Proc.devRef .tc b) = W14 m c (Proc.devRef .tc b) := by
  unfold W15; exact Pipeline.withArrays_of_ne spec3 c _ _ b hb
theorem keep14 (c : Dev nD) (b : Ref sig .tc) (hb : b ∉ ([main_v43] : List (Ref sig .tc))) : W15 m c (Proc.devRef .tc b) = W14 m c (Proc.devRef .tc b) := by
  by_cases h : ∃ w, Pipeline.arrRef spec3 w = b
  · obtain ⟨w, rfl⟩ := h
    match w with
    | ⟨0, _⟩ | ⟨1, _⟩ | ⟨2, _⟩ | ⟨3, _⟩ | ⟨4, _⟩ => exact ((W15_arr m c _).trans ((dat3 (Vof (W14 m)) c).arrAt_in _ rfl _)).trans (A_eq3 (Vof (W14 m)) c _)
    | ⟨5, _⟩ => exact absurd (by first | exact List.Mem.head _ | exact List.Mem.tail _ (List.Mem.head _)) hb
    | ⟨_ + 6, h⟩ => exact absurd h (Nat.not_lt.2 (Nat.le_add_left _ _))
  · exact W15_of_ne m c b fun w e => h ⟨w, e⟩
theorem W16_arr (c : Dev nD) (w : Fin cfg4.W) :
    W16 m c (Proc.devRef .tc (Pipeline.arrRef spec4 w)) = (dat4 (Vof (W15 m)) c).arrAt w cfg4.N := by
  unfold W16; exact Pipeline.withArrays_arr spec4 launch4.win.arr_inj c _ _ w
theorem W16_of_ne (c : Dev nD) (b : Ref sig .tc) (hb : ∀ w, Pipeline.arrRef spec4 w ≠ b) :
    W16 m c (Proc.devRef .tc b) = W15 m c (Proc.devRef .tc b) := by
  unfold W16; exact Pipeline.withArrays_of_ne spec4 c _ _ b hb
theorem keep15 (c : Dev nD) (b : Ref sig .tc) (hb : b ∉ ([main_v44_0, main_v44_1] : List (Ref sig .tc))) : W16 m c (Proc.devRef .tc b) = W15 m c (Proc.devRef .tc b) := by
  by_cases h : ∃ w, Pipeline.arrRef spec4 w = b
  · obtain ⟨w, rfl⟩ := h
    match w with
    | ⟨0, _⟩ => exact ((W16_arr m c _).trans ((dat4 (Vof (W15 m)) c).arrAt_in _ rfl _)).trans (A_eq4 (Vof (W15 m)) c _)
    | ⟨1, _⟩ | ⟨2, _⟩ => exact absurd (by first | exact List.Mem.head _ | exact List.Mem.tail _ (List.Mem.head _)) hb
    | ⟨_ + 3, h⟩ => exact absurd h (Nat.not_lt.2 (Nat.le_add_left _ _))
  · exact W16_of_ne m c b fun w e => h ⟨w, e⟩
theorem keep16 (c : Dev nD) (b : Ref sig .tc) (hb : b ∉ hostOps5_W) : W17 m c (Proc.devRef .tc b) = W16 m c (Proc.devRef .tc b) :=
  StableHlo.after_of_writes_sub hostOps5 _ hostOps5_writes hb
theorem W18_arr (c : Dev nD) (w : Fin cfg5.W) :
    W18 m c (Proc.devRef .tc (Pipeline.arrRef spec5 w)) = (dat5 (Vof (W17 m)) c).arrAt w cfg5.N := by
  unfold W18; exact Pipeline.withArrays_arr spec5 launch5.win.arr_inj c _ _ w
theorem W18_of_ne (c : Dev nD) (b : Ref sig .tc) (hb : ∀ w, Pipeline.arrRef spec5 w ≠ b) :
    W18 m c (Proc.devRef .tc b) = W17 m c (Proc.devRef .tc b) := by
  unfold W18; exact Pipeline.withArrays_of_ne spec5 c _ _ b hb
theorem keep17 (c : Dev nD) (b : Ref sig .tc) (hb : b ∉ ([main_v51] : List (Ref sig .tc))) : W18 m c (Proc.devRef .tc b) = W17 m c (Proc.devRef .tc b) := by
  by_cases h : ∃ w, Pipeline.arrRef spec5 w = b
  · obtain ⟨w, rfl⟩ := h
    match w with
    | ⟨0, _⟩ | ⟨1, _⟩ | ⟨2, _⟩ | ⟨3, _⟩ | ⟨4, _⟩ => exact ((W18_arr m c _).trans ((dat5 (Vof (W17 m)) c).arrAt_in _ rfl _)).trans (A_eq5 (Vof (W17 m)) c _)
    | ⟨5, _⟩ => exact absurd (by first | exact List.Mem.head _ | exact List.Mem.tail _ (List.Mem.head _)) hb
    | ⟨_ + 6, h⟩ => exact absurd h (Nat.not_lt.2 (Nat.le_add_left _ _))
  · exact W18_of_ne m c b fun w e => h ⟨w, e⟩
theorem keep18 (c : Dev nD) (b : Ref sig .tc) (hb : b ∉ hostOps6_W) : W19 m c (Proc.devRef .tc b) = W18 m c (Proc.devRef .tc b) :=
  StableHlo.after_of_writes_sub hostOps6 _ hostOps6_writes hb
theorem keep19 (c : Dev nD) (b : Ref sig .tc) (hb : b ∉ hostOps6_1_W) : W20 m c (Proc.devRef .tc b) = W19 m c (Proc.devRef .tc b) :=
  StableHlo.after_of_writes_sub hostOps6_1 _ hostOps6_1_writes hb
theorem keep20 (c : Dev nD) (b : Ref sig .tc) (hb : b ∉ hostOps6_2_W) : W21 m c (Proc.devRef .tc b) = W20 m c (Proc.devRef .tc b) :=
  StableHlo.after_of_writes_sub hostOps6_2 _ hostOps6_2_writes hb
theorem keep21 (c : Dev nD) (b : Ref sig .tc) (hb : b ∉ hostOps6_3_W) : W22 m c (Proc.devRef .tc b) = W21 m c (Proc.devRef .tc b) :=
  StableHlo.after_of_writes_sub hostOps6_3 _ hostOps6_3_writes hb
theorem keep22 (c : Dev nD) (b : Ref sig .tc) (hb : b ∉ hostOps6_4_W) : W23 m c (Proc.devRef .tc b) = W22 m c (Proc.devRef .tc b) :=
  StableHlo.after_of_writes_sub hostOps6_4 _ hostOps6_4_writes hb
theorem W24_arr (c : Dev nD) (w : Fin cfg6.W) :
    W24 m c (Proc.devRef .tc (Pipeline.arrRef spec6 w)) = (dat6 (Vof (W23 m)) c).arrAt w cfg6.N := by
  unfold W24; exact Pipeline.withArrays_arr spec6 launch6.win.arr_inj c _ _ w
theorem W24_of_ne (c : Dev nD) (b : Ref sig .tc) (hb : ∀ w, Pipeline.arrRef spec6 w ≠ b) :
    W24 m c (Proc.devRef .tc b) = W23 m c (Proc.devRef .tc b) := by
  unfold W24; exact Pipeline.withArrays_of_ne spec6 c _ _ b hb
theorem keep23 (c : Dev nD) (b : Ref sig .tc) (hb : b ∉ ([main_v67] : List (Ref sig .tc))) : W24 m c (Proc.devRef .tc b) = W23 m c (Proc.devRef .tc b) := by
  by_cases h : ∃ w, Pipeline.arrRef spec6 w = b
  · obtain ⟨w, rfl⟩ := h
    match w with
    | ⟨0, _⟩ | ⟨1, _⟩ | ⟨2, _⟩ | ⟨3, _⟩ | ⟨4, _⟩ => exact ((W24_arr m c _).trans ((dat6 (Vof (W23 m)) c).arrAt_in _ rfl _)).trans (A_eq6 (Vof (W23 m)) c _)
    | ⟨5, _⟩ => exact absurd (by first | exact List.Mem.head _ | exact List.Mem.tail _ (List.Mem.head _)) hb
    | ⟨_ + 6, h⟩ => exact absurd h (Nat.not_lt.2 (Nat.le_add_left _ _))
  · exact W24_of_ne m c b fun w e => h ⟨w, e⟩
theorem W25_arr (c : Dev nD) (w : Fin cfg7.W) :
    W25 m c (Proc.devRef .tc (Pipeline.arrRef spec7 w)) = (dat7 (Vof (W24 m)) c).arrAt w cfg7.N := by
  unfold W25; exact Pipeline.withArrays_arr spec7 launch7.win.arr_inj c _ _ w
theorem W25_of_ne (c : Dev nD) (b : Ref sig .tc) (hb : ∀ w, Pipeline.arrRef spec7 w ≠ b) :
    W25 m c (Proc.devRef .tc b) = W24 m c (Proc.devRef .tc b) := by
  unfold W25; exact Pipeline.withArrays_of_ne spec7 c _ _ b hb
theorem keep24 (c : Dev nD) (b : Ref sig .tc) (hb : b ∉ ([main_v68_0, main_v68_1] : List (Ref sig .tc))) : W25 m c (Proc.devRef .tc b) = W24 m c (Proc.devRef .tc b) := by
  by_cases h : ∃ w, Pipeline.arrRef spec7 w = b
  · obtain ⟨w, rfl⟩ := h
    match w with
    | ⟨0, _⟩ => exact ((W25_arr m c _).trans ((dat7 (Vof (W24 m)) c).arrAt_in _ rfl _)).trans (A_eq7 (Vof (W24 m)) c _)
    | ⟨1, _⟩ | ⟨2, _⟩ => exact absurd (by first | exact List.Mem.head _ | exact List.Mem.tail _ (List.Mem.head _)) hb
    | ⟨_ + 3, h⟩ => exact absurd h (Nat.not_lt.2 (Nat.le_add_left _ _))
  · exact W25_of_ne m c b fun w e => h ⟨w, e⟩
theorem keep25 (c : Dev nD) (b : Ref sig .tc) (hb : b ∉ hostOps8_W) : W26 m c (Proc.devRef .tc b) = W25 m c (Proc.devRef .tc b) :=
  StableHlo.after_of_writes_sub hostOps8 _ hostOps8_writes hb
theorem W27_arr (c : Dev nD) (w : Fin cfg8.W) :
    W27 m c (Proc.devRef .tc (Pipeline.arrRef spec8 w)) = (dat8 (Vof (W26 m)) c).arrAt w cfg8.N := by
  unfold W27; exact Pipeline.withArrays_arr spec8 launch8.win.arr_inj c _ _ w
theorem W27_of_ne (c : Dev nD) (b : Ref sig .tc) (hb : ∀ w, Pipeline.arrRef spec8 w ≠ b) :
    W27 m c (Proc.devRef .tc b) = W26 m c (Proc.devRef .tc b) := by
  unfold W27; exact Pipeline.withArrays_of_ne spec8 c _ _ b hb
theorem keep26 (c : Dev nD) (b : Ref sig .tc) (hb : b ∉ ([main_v75] : List (Ref sig .tc))) : W27 m c (Proc.devRef .tc b) = W26 m c (Proc.devRef .tc b) := by
  by_cases h : ∃ w, Pipeline.arrRef spec8 w = b
  · obtain ⟨w, rfl⟩ := h
    match w with
    | ⟨0, _⟩ | ⟨1, _⟩ | ⟨2, _⟩ | ⟨3, _⟩ | ⟨4, _⟩ => exact ((W27_arr m c _).trans ((dat8 (Vof (W26 m)) c).arrAt_in _ rfl _)).trans (A_eq8 (Vof (W26 m)) c _)
    | ⟨5, _⟩ => exact absurd (by first | exact List.Mem.head _ | exact List.Mem.tail _ (List.Mem.head _)) hb
    | ⟨_ + 6, h⟩ => exact absurd h (Nat.not_lt.2 (Nat.le_add_left _ _))
  · exact W27_of_ne m c b fun w e => h ⟨w, e⟩
theorem keep27 (c : Dev nD) (b : Ref sig .tc) (hb : b ∉ hostOps9_W) : W28 m c (Proc.devRef .tc b) = W27 m c (Proc.devRef .tc b) :=
  StableHlo.after_of_writes_sub hostOps9 _ hostOps9_writes hb
theorem W29_arr (c : Dev nD) (w : Fin cfg9.W) :
    W29 m c (Proc.devRef .tc (Pipeline.arrRef spec9 w)) = (dat9 (Vof (W28 m)) c).arrAt w cfg9.N := by
  unfold W29; exact Pipeline.withArrays_arr spec9 launch9.win.arr_inj c _ _ w
theorem W29_of_ne (c : Dev nD) (b : Ref sig .tc) (hb : ∀ w, Pipeline.arrRef spec9 w ≠ b) :
    W29 m c (Proc.devRef .tc b) = W28 m c (Proc.devRef .tc b) := by
  unfold W29; exact Pipeline.withArrays_of_ne spec9 c _ _ b hb
theorem keep28 (c : Dev nD) (b : Ref sig .tc) (hb : b ∉ ([main_v79] : List (Ref sig .tc))) : W29 m c (Proc.devRef .tc b) = W28 m c (Proc.devRef .tc b) := by
  by_cases h : ∃ w, Pipeline.arrRef spec9 w = b
  · obtain ⟨w, rfl⟩ := h
    match w with
    | ⟨0, _⟩ | ⟨1, _⟩ | ⟨2, _⟩ | ⟨3, _⟩ | ⟨4, _⟩ | ⟨5, _⟩ => exact ((W29_arr m c _).trans ((dat9 (Vof (W28 m)) c).arrAt_in _ rfl _)).trans (A_eq9 (Vof (W28 m)) c _)
    | ⟨6, _⟩ => exact absurd (by first | exact List.Mem.head _ | exact List.Mem.tail _ (List.Mem.head _)) hb
    | ⟨_ + 7, h⟩ => exact absurd h (Nat.not_lt.2 (Nat.le_add_left _ _))
  · exact W29_of_ne m c b fun w e => h ⟨w, e⟩
theorem keep29 (c : Dev nD) (b : Ref sig .tc) (hb : b ∉ hostOps10_W) : W30 m c (Proc.devRef .tc b) = W29 m c (Proc.devRef .tc b) :=
  StableHlo.after_of_writes_sub hostOps10 _ hostOps10_writes hb

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]
-- No host stretch and no launch writes an argument array, so each holds its launch contents at the last boundary.
theorem args_kept0 : ∀ b ∈ argRefs, b ∉ hostOps0_W ∧ b ∉ hostOps0_1_W ∧ b ∉ hostOps0_2_W ∧ b ∉ hostOps0_3_W ∧ b ∉ hostOps0_4_W ∧ b ∉ ([main_v19] : List (Ref sig .tc)) ∧ b ∉ ([main_v20_0, main_v20_1] : List (Ref sig .tc)) ∧ b ∉ hostOps2_W ∧ b ∉ ([main_v27] : List (Ref sig .tc)) ∧ b ∉ hostOps3_W := by decide
theorem args_kept1 : ∀ b ∈ argRefs, b ∉ hostOps3_1_W ∧ b ∉ hostOps3_2_W ∧ b ∉ hostOps3_3_W ∧ b ∉ hostOps3_4_W ∧ b ∉ ([main_v43] : List (Ref sig .tc)) ∧ b ∉ ([main_v44_0, main_v44_1] : List (Ref sig .tc)) ∧ b ∉ hostOps5_W ∧ b ∉ ([main_v51] : List (Ref sig .tc)) ∧ b ∉ hostOps6_W ∧ b ∉ hostOps6_1_W := by decide
theorem args_kept2 : ∀ b ∈ argRefs, b ∉ hostOps6_2_W ∧ b ∉ hostOps6_3_W ∧ b ∉ hostOps6_4_W ∧ b ∉ ([main_v67] : List (Ref sig .tc)) ∧ b ∉ ([main_v68_0, main_v68_1] : List (Ref sig .tc)) ∧ b ∉ hostOps8_W ∧ b ∉ ([main_v75] : List (Ref sig .tc)) ∧ b ∉ hostOps9_W ∧ b ∉ ([main_v79] : List (Ref sig .tc)) ∧ b ∉ hostOps10_W := by decide
theorem W30_arg (c : Dev nD) (b : Ref sig .tc) (hb : b ∈ argRefs) : W30 m c (Proc.devRef .tc b) = m ((c : Thread nD τ).loc b) := by
  obtain ⟨h0, h1, h2, h3, h4, h5, h6, h7, h8, h9⟩ := args_kept0 b hb
  obtain ⟨h10, h11, h12, h13, h14, h15, h16, h17, h18, h19⟩ := args_kept1 b hb
  obtain ⟨h20, h21, h22, h23, h24, h25, h26, h27, h28, h29⟩ := args_kept2 b hb
  exact (keep29 m c b h29).trans <| (keep28 m c b h28).trans <| (keep27 m c b h27).trans <| (keep26 m c b h26).trans <| (keep25 m c b h25).trans <| (keep24 m c b h24).trans <| (keep23 m c b h23).trans <| (keep22 m c b h22).trans <| (keep21 m c b h21).trans <| (keep20 m c b h20).trans <| (keep19 m c b h19).trans <| (keep18 m c b h18).trans <| (keep17 m c b h17).trans <| (keep16 m c b h16).trans <| (keep15 m c b h15).trans <| (keep14 m c b h14).trans <| (keep13 m c b h13).trans <| (keep12 m c b h12).trans <| (keep11 m c b h11).trans <| (keep10 m c b h10).trans <| (keep9 m c b h9).trans <| (keep8 m c b h8).trans <| (keep7 m c b h7).trans <| (keep6 m c b h6).trans <| (keep5 m c b h5).trans <| (keep4 m c b h4).trans <| (keep3 m c b h3).trans <| (keep2 m c b h2).trans <| (keep1 m c b h1).trans <| (keep0 m c b h0)

def pdats : PDats F
  | ⟨0, _⟩ => fun c => dat0 (Vof (W5 m)) c
  | ⟨1, _⟩ => fun c => dat1 (Vof (W6 m)) c
  | ⟨2, _⟩ => fun c => dat2 (Vof (W8 m)) c
  | ⟨3, _⟩ => fun c => dat3 (Vof (W14 m)) c
  | ⟨4, _⟩ => fun c => dat4 (Vof (W15 m)) c
  | ⟨5, _⟩ => fun c => dat5 (Vof (W17 m)) c
  | ⟨6, _⟩ => fun c => dat6 (Vof (W23 m)) c
  | ⟨7, _⟩ => fun c => dat7 (Vof (W24 m)) c
  | ⟨8, _⟩ => fun c => dat8 (Vof (W26 m)) c
  | ⟨9, _⟩ => fun c => dat9 (Vof (W28 m)) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in

def reg0 : Pipeline.RegionSeg (pcfgs (F := F)) adm (pdats m) () defs₀ 𝒱₀ L lv 0 :=
  regOf (pdats m) 0 launch0 (W5 m) (W6 m)
    (fun c => body_obligation0 (Vof (W5 m)) c) (fun c w => hq0 (Vof (W5 m)) c w) (fun c t => howed0 (Vof (W5 m)) c t) (fun c t => hrec0 (Vof (W5 m)) c t)
    (fun c w => A_eq0 (Vof (W5 m)) c w) (fun c => hin0 (Vof (W5 m)) c) (fun c => hout0 (Vof (W5 m)) c)
    (fun c w => (W6_arr m c w).symm)
    (fun c b hb => W6_of_ne m c b fun w e => hb (Finset.mem_image.mpr ⟨w, Finset.mem_univ _, e⟩))

set_option backward.isDefEq.respectTransparency.types false in

def reg1 : Pipeline.RegionSeg (pcfgs (F := F)) adm (pdats m) () defs₀ 𝒱₀ L lv 1 :=
  regOf (pdats m) 1 launch1 (W6 m) (W7 m)
    (fun c => body_obligation1 (Vof (W6 m)) c) (fun c w => hq1 (Vof (W6 m)) c w) (fun c t => howed1 (Vof (W6 m)) c t) (fun c t => hrec1 (Vof (W6 m)) c t)
    (fun c w => A_eq1 (Vof (W6 m)) c w) (fun c => hin1 (Vof (W6 m)) c) (fun c => hout1 (Vof (W6 m)) c)
    (fun c w => (W7_arr m c w).symm)
    (fun c b hb => W7_of_ne m c b fun w e => hb (Finset.mem_image.mpr ⟨w, Finset.mem_univ _, e⟩))

set_option backward.isDefEq.respectTransparency.types false in

def reg2 : Pipeline.RegionSeg (pcfgs (F := F)) adm (pdats m) () defs₀ 𝒱₀ L lv 2 :=
  regOf (pdats m) 2 launch2 (W8 m) (W9 m)
    (fun c => body_obligation2 (Vof (W8 m)) c) (fun c w => hq2 (Vof (W8 m)) c w) (fun c t => howed2 (Vof (W8 m)) c t) (fun c t => hrec2 (Vof (W8 m)) c t)
    (fun c w => A_eq2 (Vof (W8 m)) c w) (fun c => hin2 (Vof (W8 m)) c) (fun c => hout2 (Vof (W8 m)) c)
    (fun c w => (W9_arr m c w).symm)
    (fun c b hb => W9_of_ne m c b fun w e => hb (Finset.mem_image.mpr ⟨w, Finset.mem_univ _, e⟩))

set_option backward.isDefEq.respectTransparency.types false in

def reg3 : Pipeline.RegionSeg (pcfgs (F := F)) adm (pdats m) () defs₀ 𝒱₀ L lv 3 :=
  regOf (pdats m) 3 launch3 (W14 m) (W15 m)
    (fun c => body_obligation3 (Vof (W14 m)) c) (fun c w => hq3 (Vof (W14 m)) c w) (fun c t => howed3 (Vof (W14 m)) c t) (fun c t => hrec3 (Vof (W14 m)) c t)
    (fun c w => A_eq3 (Vof (W14 m)) c w) (fun c => hin3 (Vof (W14 m)) c) (fun c => hout3 (Vof (W14 m)) c)
    (fun c w => (W15_arr m c w).symm)
    (fun c b hb => W15_of_ne m c b fun w e => hb (Finset.mem_image.mpr ⟨w, Finset.mem_univ _, e⟩))

set_option backward.isDefEq.respectTransparency.types false in

def reg4 : Pipeline.RegionSeg (pcfgs (F := F)) adm (pdats m) () defs₀ 𝒱₀ L lv 4 :=
  regOf (pdats m) 4 launch4 (W15 m) (W16 m)
    (fun c => body_obligation4 (Vof (W15 m)) c) (fun c w => hq4 (Vof (W15 m)) c w) (fun c t => howed4 (Vof (W15 m)) c t) (fun c t => hrec4 (Vof (W15 m)) c t)
    (fun c w => A_eq4 (Vof (W15 m)) c w) (fun c => hin4 (Vof (W15 m)) c) (fun c => hout4 (Vof (W15 m)) c)
    (fun c w => (W16_arr m c w).symm)
    (fun c b hb => W16_of_ne m c b fun w e => hb (Finset.mem_image.mpr ⟨w, Finset.mem_univ _, e⟩))

set_option backward.isDefEq.respectTransparency.types false in

def reg5 : Pipeline.RegionSeg (pcfgs (F := F)) adm (pdats m) () defs₀ 𝒱₀ L lv 5 :=
  regOf (pdats m) 5 launch5 (W17 m) (W18 m)
    (fun c => body_obligation5 (Vof (W17 m)) c) (fun c w => hq5 (Vof (W17 m)) c w) (fun c t => howed5 (Vof (W17 m)) c t) (fun c t => hrec5 (Vof (W17 m)) c t)
    (fun c w => A_eq5 (Vof (W17 m)) c w) (fun c => hin5 (Vof (W17 m)) c) (fun c => hout5 (Vof (W17 m)) c)
    (fun c w => (W18_arr m c w).symm)
    (fun c b hb => W18_of_ne m c b fun w e => hb (Finset.mem_image.mpr ⟨w, Finset.mem_univ _, e⟩))

set_option backward.isDefEq.respectTransparency.types false in

def reg6 : Pipeline.RegionSeg (pcfgs (F := F)) adm (pdats m) () defs₀ 𝒱₀ L lv 6 :=
  regOf (pdats m) 6 launch6 (W23 m) (W24 m)
    (fun c => body_obligation6 (Vof (W23 m)) c) (fun c w => hq6 (Vof (W23 m)) c w) (fun c t => howed6 (Vof (W23 m)) c t) (fun c t => hrec6 (Vof (W23 m)) c t)
    (fun c w => A_eq6 (Vof (W23 m)) c w) (fun c => hin6 (Vof (W23 m)) c) (fun c => hout6 (Vof (W23 m)) c)
    (fun c w => (W24_arr m c w).symm)
    (fun c b hb => W24_of_ne m c b fun w e => hb (Finset.mem_image.mpr ⟨w, Finset.mem_univ _, e⟩))

set_option backward.isDefEq.respectTransparency.types false in

def reg7 : Pipeline.RegionSeg (pcfgs (F := F)) adm (pdats m) () defs₀ 𝒱₀ L lv 7 :=
  regOf (pdats m) 7 launch7 (W24 m) (W25 m)
    (fun c => body_obligation7 (Vof (W24 m)) c) (fun c w => hq7 (Vof (W24 m)) c w) (fun c t => howed7 (Vof (W24 m)) c t) (fun c t => hrec7 (Vof (W24 m)) c t)
    (fun c w => A_eq7 (Vof (W24 m)) c w) (fun c => hin7 (Vof (W24 m)) c) (fun c => hout7 (Vof (W24 m)) c)
    (fun c w => (W25_arr m c w).symm)
    (fun c b hb => W25_of_ne m c b fun w e => hb (Finset.mem_image.mpr ⟨w, Finset.mem_univ _, e⟩))

set_option backward.isDefEq.respectTransparency.types false in

def reg8 : Pipeline.RegionSeg (pcfgs (F := F)) adm (pdats m) () defs₀ 𝒱₀ L lv 8 :=
  regOf (pdats m) 8 launch8 (W26 m) (W27 m)
    (fun c => body_obligation8 (Vof (W26 m)) c) (fun c w => hq8 (Vof (W26 m)) c w) (fun c t => howed8 (Vof (W26 m)) c t) (fun c t => hrec8 (Vof (W26 m)) c t)
    (fun c w => A_eq8 (Vof (W26 m)) c w) (fun c => hin8 (Vof (W26 m)) c) (fun c => hout8 (Vof (W26 m)) c)
    (fun c w => (W27_arr m c w).symm)
    (fun c b hb => W27_of_ne m c b fun w e => hb (Finset.mem_image.mpr ⟨w, Finset.mem_univ _, e⟩))

set_option backward.isDefEq.respectTransparency.types false in

def reg9 : Pipeline.RegionSeg (pcfgs (F := F)) adm (pdats m) () defs₀ 𝒱₀ L lv 9 :=
  regOf (pdats m) 9 launch9 (W28 m) (W29 m)
    (fun c => body_obligation9 (Vof (W28 m)) c) (fun c w => hq9 (Vof (W28 m)) c w) (fun c t => howed9 (Vof (W28 m)) c t) (fun c t => hrec9 (Vof (W28 m)) c t)
    (fun c w => A_eq9 (Vof (W28 m)) c w) (fun c => hin9 (Vof (W28 m)) c) (fun c => hout9 (Vof (W28 m)) c)
    (fun c w => (W29_arr m c w).symm)
    (fun c b hb => W29_of_ne m c b fun w e => hb (Finset.mem_image.mpr ⟨w, Finset.mem_univ _, e⟩))

abbrev segs : List (Pipeline.Seg (pcfgs (F := F)) adm (pdats m) () defs₀ 𝒱₀ L lv) :=
  [
    .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .region (reg1 m),
    .host (hseg hostOps2 hostOps2_sub hostOps2_fresh (W7 m)),
    .region (reg2 m),
    .host (hseg hostOps3 hostOps3_sub hostOps3_fresh (W9 m)),
    .host (hseg hostOps3_1 hostOps3_1_sub hostOps3_1_fresh (W10 m)),
    .host (hseg hostOps3_2 hostOps3_2_sub hostOps3_2_fresh (W11 m)),
    .host (hseg hostOps3_3 hostOps3_3_sub hostOps3_3_fresh (W12 m)),
    .host (hseg hostOps3_4 hostOps3_4_sub hostOps3_4_fresh (W13 m)),
    .region (reg3 m),
    .region (reg4 m),
    .host (hseg hostOps5 hostOps5_sub hostOps5_fresh (W16 m)),
    .region (reg5 m),
    .host (hseg hostOps6 hostOps6_sub hostOps6_fresh (W18 m)),
    .host (hseg hostOps6_1 hostOps6_1_sub hostOps6_1_fresh (W19 m)),
    .host (hseg hostOps6_2 hostOps6_2_sub hostOps6_2_fresh (W20 m)),
    .host (hseg hostOps6_3 hostOps6_3_sub hostOps6_3_fresh (W21 m)),
    .host (hseg hostOps6_4 hostOps6_4_sub hostOps6_4_fresh (W22 m)),
    .region (reg6 m),
    .region (reg7 m),
    .host (hseg hostOps8 hostOps8_sub hostOps8_fresh (W25 m)),
    .region (reg8 m),
    .host (hseg hostOps9 hostOps9_sub hostOps9_fresh (W27 m)),
    .region (reg9 m),
    .host (hseg hostOps10 hostOps10_sub hostOps10_fresh (W29 m)) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W30 m c) ∗ ∃ r, prngReg c r)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W30 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W30 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W30 m c b)
    (hfin := fun c s' => by
      iintro ⟨⟨Hh, -⟩, HSI⟩
      unfold StableHlo.held
      imodintro
      iapply (pointsTo_read_all (Pipeline.ucRefs τ sig) (fun b => (((c : Thread nD τ)).1, b)) (W30 m c) s')
      isplitl [Hh] <;> iassumption)
    (hQ := fun s h c => h c)

theorem run_main : θ_run defs (onTc (τ := τ) (main (F := F))) ⟨m, fun _ => 0, ρ⟩ (fun r => ∀ c : Dev nD,
      r.2.mem ((c.tc : Thread nD τ).loc main_v80) = W30 m c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨h c _ (mem_uc main_v80 (by decide)),
    (h c _ (mem_uc main_arg0 (by decide))).trans (W30_arg m c main_arg0 (by decide)),
    (h c _ (mem_uc main_arg1 (by decide))).trans (W30_arg m c main_arg1 (by decide)),
    (h c _ (mem_uc main_arg2 (by decide))).trans (W30_arg m c main_arg2 (by decide)),
    (h c _ (mem_uc main_arg3 (by decide))).trans (W30_arg m c main_arg3 (by decide)),
    (h c _ (mem_uc main_arg4 (by decide))).trans (W30_arg m c main_arg4 (by decide)),
    (h c _ (mem_uc main_arg5 (by decide))).trans (W30_arg m c main_arg5 (by decide)),
    (h c _ (mem_uc main_arg6 (by decide))).trans (W30_arg m c main_arg6 (by decide)),
    (h c _ (mem_uc main_arg7 (by decide))).trans (W30_arg m c main_arg7 (by decide)),
    (h c _ (mem_uc main_arg8 (by decide))).trans (W30_arg m c main_arg8 (by decide)),
    (h c _ (mem_uc main_arg9 (by decide))).trans (W30_arg m c main_arg9 (by decide)),
    (h c _ (mem_uc main_arg10 (by decide))).trans (W30_arg m c main_arg10 (by decide)),
    (h c _ (mem_uc main_arg11 (by decide))).trans (W30_arg m c main_arg11 (by decide)),
    (h c _ (mem_uc main_arg12 (by decide))).trans (W30_arg m c main_arg12 (by decide)),
    (h c _ (mem_uc main_arg13 (by decide))).trans (W30_arg m c main_arg13 (by decide)),
    (h c _ (mem_uc main_arg14 (by decide))).trans (W30_arg m c main_arg14 (by decide)),
    (h c _ (mem_uc main_arg15 (by decide))).trans (W30_arg m c main_arg15 (by decide)),
    (h c _ (mem_uc main_arg16 (by decide))).trans (W30_arg m c main_arg16 (by decide)),
    (h c _ (mem_uc main_arg17 (by decide))).trans (W30_arg m c main_arg17 (by decide)),
    (h c _ (mem_uc main_arg18 (by decide))).trans (W30_arg m c main_arg18 (by decide)),
    (h c _ (mem_uc main_arg19 (by decide))).trans (W30_arg m c main_arg19 (by decide))⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => (h c).2) (run_main m ρ)

end Cert.KernelIdeal.Hand

end
-- ==== Proof.Spec.lean ====
import Idealize.ShloMosaic.PureOps.Ideal
import Mathlib.Algebra.BigOperators.Group.Finset.Basic

noncomputable section

open scoped BigOperators

namespace Cert.Spec

open Idealize.ShloMosaic

abbrev Tab := Fin 50000 → Fin 64 → EReal

abbrev Vec64 := Fin 64 → EReal
abbrev Mat64 := Fin 64 → Fin 64 → EReal

abbrev cN : EReal := Ideal.ofBits .f32 0x47435000#32
abbrev cEps : EReal := Ideal.ofBits .f32 0x3727C5AC#32

def reluIf (relu : Bool) (x : EReal) : EReal := if relu then max x 0 else x

def agg {E : Nat} (dst : Fin E → BitVec 32) (msg : Fin E → Fin 64 → EReal) : Tab :=
  fun n f => ∑ e : Fin E, if dst e = BitVec.ofNat 32 n.val then msg e f else 0

def conv {E : Nat} (relu : Bool) (h : Tab) (dst : Fin E → BitVec 32) (msg : Fin E → Fin 64 → EReal)
    (W : Mat64) (b : Vec64) : Tab :=
  fun n f => reluIf relu ((∑ k : Fin 64, (h n k + agg dst msg n k) * W k f) + b f)

def mean (y : Tab) : Vec64 := fun f => Ideal.div (∑ n : Fin 50000, y n f) cN

def varDev (y : Tab) : Vec64 :=
  fun f => Ideal.div (∑ n : Fin 50000, (y n f - mean y f) * (y n f - mean y f)) cN

def varSq (y : Tab) : Vec64 :=
  fun f => Ideal.div (∑ n : Fin 50000, y n f * y n f) cN - mean y f * mean y f

def normWith (var : Vec64) (y : Tab) (g be : Vec64) : Tab :=
  fun n f => (y n f - mean y f) * Ideal.rsqrt (var f + cEps) * g f + be f

def bnDev (y : Tab) (g be : Vec64) : Tab := normWith (varDev y) y g be
def bnSq (y : Tab) (g be : Vec64) : Tab := normWith (varSq y) y g be

def pool (batch : Fin 50000 → BitVec 32) (h : Tab) : Fin 256 → Fin 64 → EReal :=
  fun g f => ∑ n : Fin 50000, if batch n = BitVec.ofNat 32 g.val then h n f else 0

def head (p : Fin 256 → Fin 64 → EReal) (W1 : Mat64) (b1 : Vec64) (W2 : Fin 64 → EReal) (b2 : EReal) :
    Fin 256 → EReal :=
  fun g => (∑ k : Fin 64, max ((∑ j : Fin 64, max (p g j) 0 * W1 j k) + b1 k) 0 * W2 k) + b2

def FinTab (y : Tab) : Prop := ∀ n f, ∃ r : ℝ, y n f = (r : EReal)
def FinVec (v : Vec64) : Prop := ∀ f, ∃ r : ℝ, v f = (r : EReal)
def FinMat (W : Mat64) : Prop := ∀ k f, ∃ r : ℝ, W k f = (r : EReal)

end Cert.Spec

end
-- ==== Proof.KI.R9Value.lean ====
import proofs.«407044_j9311489098471_2_alg».proof.Proof.KI.R9
import proofs.«407044_j9311489098471_2_alg».proof.Proof.Spec
import Idealize.ShloMosaic.Lib.Pipeline.Value
import Idealize.ShloMosaic.Lib.ValueIdx
import Idealize.ShloMosaic.Lib.ValueLayout
import Idealize.ShloMosaic.Lib.Affine
import Idealize.ShloMosaic.Lib.Tactic
import Idealize.ShloMosaic.PureOps.Ideal.Laws

set_option maxRecDepth 16384

noncomputable section
namespace Cert.KernelIdeal.Hand
open Idealize.ShloMosaic Idealize.ShloMosaic.TcCoe Idealize.ShloMosaic.ValueIdx
open Idealize.ShloMosaic.Pipeline (Dat)
open Idealize.ShloMosaic.Tactic
open Cert.KernelIdeal Cert.KernelIdeal.Gen
open scoped BigOperators

theorem r9_dot_pool_apply {φ₁ φ₂ : FTy} (A : FVec Ideal S5000x256 φ₁) (B : FVec Ideal S5000x64 φ₂) (g : Fin 256) (f : Fin 64) :
    FloatOps.matmul dot_S5000x256_S5000x64_S256x64_0_0_1_1_n_n none A B (constant S256x64 .f32 0x00000000#32) (ix2 g f)
      = ∑ r : Fin 5000, A (ix2 r g) * B (ix2 r f) := by
  rw [Ideal.matmul_constant_zero_apply, ← Equiv.sum_comp (contrEquiv1 dot_S5000x256_S5000x64_S256x64_0_0_1_1_n_n 5000 rfl rfl).symm]
  refine Finset.sum_congr rfl fun r _ => ?_
  have c2 := contrEquiv1_symm_val dot_S5000x256_S5000x64_S256x64_0_0_1_1_n_n 5000 rfl rfl r
  have l2 : (dot_S5000x256_S5000x64_S256x64_0_0_1_1_n_n).lhsIdx (ix2 g f) ((contrEquiv1 _ 5000 rfl rfl).symm r) = ix2 r g := by
    funext ax; apply Fin.ext
    match ax with
    | ⟨0, _⟩ => simp [DotDims.lhsIdx, dot_S5000x256_S5000x64_S256x64_0_0_1_1_n_n] <;> first | rfl | exact c2
    | ⟨1, _⟩ => simp [DotDims.lhsIdx, dot_S5000x256_S5000x64_S256x64_0_0_1_1_n_n] <;> first | rfl | exact c2
  have r2 : (dot_S5000x256_S5000x64_S256x64_0_0_1_1_n_n).rhsIdx (ix2 g f) ((contrEquiv1 _ 5000 rfl rfl).symm r) = ix2 r f := by
    funext ax; apply Fin.ext
    match ax with
    | ⟨0, _⟩ => simp [DotDims.rhsIdx, dot_S5000x256_S5000x64_S256x64_0_0_1_1_n_n] <;> first | rfl | exact c2
    | ⟨1, _⟩ => simp [DotDims.rhsIdx, dot_S5000x256_S5000x64_S256x64_0_0_1_1_n_n] <;> first | rfl | exact c2
  rw [l2, r2]

theorem r9_dot_fc1_apply {φ₁ φ₂ : FTy} (A : FVec Ideal S256x64 φ₁) (B : FVec Ideal S64x64 φ₂) (g : Fin 256) (k : Fin 64) :
    FloatOps.matmul dot_S256x64_S64x64_S256x64_1_0_0_1_n_n none A B (constant S256x64 .f32 0x00000000#32) (ix2 g k)
      = ∑ r : Fin 64, A (ix2 g r) * B (ix2 r k) := by
  rw [Ideal.matmul_constant_zero_apply, ← Equiv.sum_comp (contrEquiv1 dot_S256x64_S64x64_S256x64_1_0_0_1_n_n 64 rfl rfl).symm]
  refine Finset.sum_congr rfl fun r _ => ?_
  have c2 := contrEquiv1_symm_val dot_S256x64_S64x64_S256x64_1_0_0_1_n_n 64 rfl rfl r
  have l2 : (dot_S256x64_S64x64_S256x64_1_0_0_1_n_n).lhsIdx (ix2 g k) ((contrEquiv1 _ 64 rfl rfl).symm r) = ix2 g r := by
    funext ax; apply Fin.ext
    match ax with
    | ⟨0, _⟩ => simp [DotDims.lhsIdx, dot_S256x64_S64x64_S256x64_1_0_0_1_n_n] <;> first | rfl | exact c2
    | ⟨1, _⟩ => simp [DotDims.lhsIdx, dot_S256x64_S64x64_S256x64_1_0_0_1_n_n] <;> first | rfl | exact c2
  have r2 : (dot_S256x64_S64x64_S256x64_1_0_0_1_n_n).rhsIdx (ix2 g k) ((contrEquiv1 _ 64 rfl rfl).symm r) = ix2 r k := by
    funext ax; apply Fin.ext
    match ax with
    | ⟨0, _⟩ => simp [DotDims.rhsIdx, dot_S256x64_S64x64_S256x64_1_0_0_1_n_n] <;> first | rfl | exact c2
    | ⟨1, _⟩ => simp [DotDims.rhsIdx, dot_S256x64_S64x64_S256x64_1_0_0_1_n_n] <;> first | rfl | exact c2
  rw [l2, r2]

theorem r9_dot_fc2_apply {φ₁ φ₂ : FTy} (A : FVec Ideal S256x64 φ₁) (B : FVec Ideal S64x1 φ₂) (g : Fin 256) (z : Fin 1) :
    FloatOps.matmul dot_S256x64_S64x1_S256x1_1_0_0_1_n_n none A B (constant S256x1 .f32 0x00000000#32) (ix2 g z)
      = ∑ r : Fin 64, A (ix2 g r) * B (ix2 r z) := by
  rw [Ideal.matmul_constant_zero_apply, ← Equiv.sum_comp (contrEquiv1 dot_S256x64_S64x1_S256x1_1_0_0_1_n_n 64 rfl rfl).symm]
  refine Finset.sum_congr rfl fun r _ => ?_
  have c2 := contrEquiv1_symm_val dot_S256x64_S64x1_S256x1_1_0_0_1_n_n 64 rfl rfl r
  have l2 : (dot_S256x64_S64x1_S256x1_1_0_0_1_n_n).lhsIdx (ix2 g z) ((contrEquiv1 _ 64 rfl rfl).symm r) = ix2 g r := by
    funext ax; apply Fin.ext
    match ax with
    | ⟨0, _⟩ => simp [DotDims.lhsIdx, dot_S256x64_S64x1_S256x1_1_0_0_1_n_n] <;> first | rfl | exact c2
    | ⟨1, _⟩ => simp [DotDims.lhsIdx, dot_S256x64_S64x1_S256x1_1_0_0_1_n_n] <;> first | rfl | exact c2
  have r2 : (dot_S256x64_S64x1_S256x1_1_0_0_1_n_n).rhsIdx (ix2 g z) ((contrEquiv1 _ 64 rfl rfl).symm r) = ix2 r z := by
    funext ax; apply Fin.ext
    match ax with
    | ⟨0, _⟩ => simp [DotDims.rhsIdx, dot_S256x64_S64x1_S256x1_1_0_0_1_n_n] <;> first | rfl | exact c2
    | ⟨1, _⟩ => simp [DotDims.rhsIdx, dot_S256x64_S64x1_S256x1_1_0_0_1_n_n] <;> first | rfl | exact c2
  rw [l2, r2]

theorem r9_onehot_word (a b : BitVec 32) :
    ((((IntOp.cmpi .eq a b).setWidth 32).toInt : ℝ) : EReal) = if a = b then 1 else 0 := by
  by_cases h : a = b
  · rw [if_pos h, IntOp.cmpi_eq.mpr h]
    have e : ((1#1 : BitVec 1).setWidth 32).toInt = 1 := by decide
    rw [e, Int.cast_one, EReal.coe_one]
  · rw [if_neg h, eq_zero_of_ne_one (fun h' => h (IntOp.cmpi_eq.mp h'))]
    have e : ((0#1 : BitVec 1).setWidth 32).toInt = 0 := by decide
    rw [e, Int.cast_zero, EReal.coe_zero]

theorem r9_pay1_apply (g : Fin 256) (f : Fin 64) : k9_pay1 (F := Ideal) (ix2 g f) = 0 := by
  unfold k9_pay1
  simp only [shapeCast_self]
  exact Ideal.ofBits_zero_f32

theorem r9_pay2_apply (v3 : Vec Ideal S5000x1 .i32) (v11 : Vec Ideal S5000x64 .f32) (v14 : Vec Ideal S256x64 .f32) (g : Fin 256) (f : Fin 64) :
    k9_pay2 (F := Ideal) v3 v11 v14 (ix2 g f)
      = v14 (ix2 g f) + ∑ r : Fin 5000, (if v3 (ix2 r 0) = BitVec.ofNat 32 g.val then v11 (ix2 r f) else 0) := by
  unfold k9_pay2
  simp only [shapeCast_self, matmul]
  refine congrArg (v14 (ix2 g f) + ·) ?_
  refine (r9_dot_pool_apply (φ₁ := .bf16) (φ₂ := .bf16) _ _ g f).trans ?_
  refine Finset.sum_congr rfl fun r _ => ?_
  have hb : broadcastTo S5000x256 v3 broadcasts_S5000x1_S5000x256 (ix2 r g) = v3 (ix2 r 0) :=
    broadcastTo_apply v3 _ (ix2 r g) (ix2 r 0) (fun a => by match a with | ⟨0, _⟩ => rfl | ⟨1, _⟩ => rfl)
  have hi : iota Kind.tc S5000x256 32 [1] iota_S5000x256_d1_w32 (ix2 r g) = BitVec.ofNat 32 g.val :=
    iota_single_apply Kind.tc S5000x256 32 1 iota_S5000x256_d1_w32 (ix2 r g)
  show ((((IntOp.cmpi .eq (broadcastTo S5000x256 v3 broadcasts_S5000x1_S5000x256 (ix2 r g))
      (iota Kind.tc S5000x256 32 [1] iota_S5000x256_d1_w32 (ix2 r g))).setWidth 32).toInt : ℝ) : EReal) * v11 (ix2 r f) = _
  rw [hb, hi, r9_onehot_word]
  by_cases h : v3 (ix2 r 0) = BitVec.ofNat 32 g.val
  · rw [if_pos h, if_pos h, one_mul]
  · rw [if_neg h, if_neg h, zero_mul]

theorem r9_pay3_apply (v23 : Vec Ideal S256x64 .f32) (v27 : Vec Ideal S64x64 .bf16) (v30 : Vec Ideal S64 .f32) (v37 : Vec Ideal S64x1 .bf16) (v40 : Vec Ideal S1 .f32) (g : Fin 256) :
    k9_pay3 (F := Ideal) v23 v27 v30 v37 v40 (ix2 g 0)
      = (∑ k : Fin 64, max ((∑ j : Fin 64, max (v23 (ix2 g j)) 0 * v27 (ix2 j k)) + v30 (ix1 k)) 0 * v37 (ix2 k 0)) + v40 (ix1 0) := by
  unfold k9_pay3
  simp only [shapeCast_self, matmul]
  refine (addf_apply (φ := .f32) _ _ _).trans ?_
  refine congrArg₂ (· + ·) ?_ ?_
  · refine (r9_dot_fc2_apply (φ₁ := .bf16) (φ₂ := .bf16) _ _ g 0).trans ?_
    refine Finset.sum_congr rfl fun k _ => ?_
    refine congrArg (· * v37 (ix2 k 0)) ?_
    refine (truncf_apply (φ := .f32) (ψ := .bf16) _ bitsLt_bf16_f32 _).trans ((maximumf_apply (φ := .f32) _ _ _).trans ?_)
    refine congrArg₂ max ?_ Ideal.ofBits_zero_f32
    refine (addf_apply (φ := .f32) _ _ _).trans ?_
    refine congrArg₂ (· + ·) ?_ ?_
    · refine (r9_dot_fc1_apply (φ₁ := .bf16) (φ₂ := .bf16) _ _ g k).trans ?_
      refine Finset.sum_congr rfl fun j _ => ?_
      refine congrArg (· * v27 (ix2 j k)) ?_
      refine (truncf_apply (φ := .f32) (ψ := .bf16) _ bitsLt_bf16_f32 _).trans ((maximumf_apply (φ := .f32) _ _ _).trans ?_)
      exact congrArg (max (v23 (ix2 g j))) Ideal.ofBits_zero_f32
    · exact (broadcastTo_1b_ab_apply _ _ g k).trans (shapeCast_a_1a_apply v30 _ 0 k)
  · exact (broadcastTo_1b_ab_apply _ _ g 0).trans (shapeCast_a_1a_apply v40 _ 0 0)

def r9_rowOf (t : Fin 10) (r : Fin 5000) : Fin 50000 := ⟨5000 * t.val + r.val, by have := t.isLt; have := r.isLt; omega⟩

theorem r9_sum_rows (F : Fin 50000 → EReal) : ∑ n, F n = ∑ t : Fin 10, ∑ r : Fin 5000, F (r9_rowOf t r) := by
  rw [← Fintype.sum_prod_type' (f := fun t r => F (r9_rowOf t r))]
  refine (Equiv.sum_comp (finProdFinEquiv.trans (finCongr (show 10 * 5000 = 50000 by norm_num))) F).symm.trans ?_
  refine Finset.sum_congr rfl fun x _ => congrArg F (Fin.ext ?_)
  simp [r9_rowOf, finProdFinEquiv]
  omega

variable {F : FTy → Type} [FloatOps F]

theorem r9_hz2 : (![0, 0] : Fin 2 → Nat) = fun _ => 0 := funext fun a => by fin_cases a <;> rfl
theorem r9_hz1 : (![0] : Fin 1 → Nat) = fun _ => 0 := funext fun a => by fin_cases a <;> rfl

section
variable (c : Dev nD) (i : grid9.Coords) (arg1 : Memref sig .tc .vmem S5000x1 .i32) (harg1 : arg1.IsWhole) (arg2 : Memref sig .tc .vmem S5000x64 .f32) (harg2 : arg2.IsWhole) (arg3 : Memref sig .tc .vmem S64x64 .bf16) (harg3 : arg3.IsWhole) (arg4 : Memref sig .tc .vmem S64 .f32) (harg4 : arg4.IsWhole) (arg5 : Memref sig .tc .vmem S64x1 .bf16) (harg5 : arg5.IsWhole) (arg6 : Memref sig .tc .vmem S1 .f32) (harg6 : arg6.IsWhole) (arg7 : Memref sig .tc .vmem S256x1 .f32) (harg7 : arg7.IsWhole) (arg8 : Memref sig .tc .vmem S256x64 .f32) (harg8 : arg8.IsWhole)
include c i arg1 harg1 arg2 harg2 arg3 harg3 arg4 harg4 arg5 harg5 arg6 harg6 arg7 harg7 arg8 harg8

theorem sout9_A_0_eq (hc0 : cond9_0 i) (hc1 : ¬cond9_1 i)
    (x0 : Vec F S5000x1 .i32) (x1 : Vec F S5000x64 .f32) (x2 : Vec F S64x64 .bf16) (x3 : Vec F S64 .f32) (x4 : Vec F S64x1 .bf16) (x5 : Vec F S1 .f32) :
    sout9_A_0 c i arg1 harg1 arg2 harg2 arg3 harg3 arg4 harg4 arg5 harg5 arg6 harg6 arg7 harg7 arg8 harg8 hc0 hc1 x0 x1 x2 x3 x4 x5 = k9_pay2 x0 x1 (k9_pay1 (F := F)) := by
  unfold sout9_A_0
  rw [View.read_writes_eq_canon _ _ _ (scover9_A_0 c i arg1 harg1 arg2 harg2 arg3 harg3 arg4 harg4 arg5 harg5 arg6 harg6 arg7 harg7 arg8 harg8 hc0 hc1 x0 x1 x2 x3 x4 x5)]
  unfold kernelRun9_A
  dsimp only
  sl_unfold_words
  rw [View.canon_cons_unit_zero (S := S256x64) r9_hz2, View.readCov_unit_zero (S := S256x64) _ r9_hz2]
  simp only [View.readAt_eq_ld, harg1.read_unread, harg2.read_unread, harg3.read_unread, harg4.read_unread, harg5.read_unread, harg6.read_unread, harg8.read_unread, View.ld_unit_zero (S := S5000x1) r9_hz2, View.ld_unit_zero (S := S5000x64) r9_hz2, View.ld_unit_zero (S := S256x64) r9_hz2, View.ld_unit_zero (S := S64x64) r9_hz2, View.ld_unit_zero (S := S64x1) r9_hz2, View.ld_unit_zero (S := S64) r9_hz1, View.ld_unit_zero (S := S1) r9_hz1, View.readCov_unit_zero (S := S256x64) _ r9_hz2]

theorem sout9_B_0_eq (hc0 : ¬cond9_0 i) (hc1 : ¬cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) :
    sout9_B_0 c i arg1 harg1 arg2 harg2 arg3 harg3 arg4 harg4 arg5 harg5 arg6 harg6 arg7 harg7 arg8 harg8 hc0 hc1 x0 x1 x2 x3 x4 x5 xs0 = k9_pay2 x0 x1 xs0 := by
  unfold sout9_B_0
  rw [View.read_writes_eq_canon _ _ _ (scover9_B_0 c i arg1 harg1 arg2 harg2 arg3 harg3 arg4 harg4 arg5 harg5 arg6 harg6 arg7 harg7 arg8 harg8 hc0 hc1 x0 x1 x2 x3 x4 x5 xs0)]
  unfold kernelRun9_B
  dsimp only
  sl_unfold_words
  rw [View.canon_unit_zero r9_hz2]
  simp only [View.readAt_eq_ld, harg1.read_unread, harg2.read_unread, harg3.read_unread, harg4.read_unread, harg5.read_unread, harg6.read_unread, harg8.read_unread, View.ld_unit_zero (S := S5000x1) r9_hz2, View.ld_unit_zero (S := S5000x64) r9_hz2, View.ld_unit_zero (S := S256x64) r9_hz2, View.ld_unit_zero (S := S64x64) r9_hz2, View.ld_unit_zero (S := S64x1) r9_hz2, View.ld_unit_zero (S := S64) r9_hz1, View.ld_unit_zero (S := S1) r9_hz1, View.readCov_unit_zero (S := S256x64) _ r9_hz2]

theorem sout9_C_0_eq (hc0 : ¬cond9_0 i) (hc1 : cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) :
    sout9_C_0 c i arg1 harg1 arg2 harg2 arg3 harg3 arg4 harg4 arg5 harg5 arg6 harg6 arg7 harg7 arg8 harg8 hc0 hc1 x0 x1 x2 x3 x4 x5 xs0 = k9_pay2 x0 x1 xs0 := by
  unfold sout9_C_0
  rw [View.read_writes_eq_canon _ _ _ (scover9_C_0 c i arg1 harg1 arg2 harg2 arg3 harg3 arg4 harg4 arg5 harg5 arg6 harg6 arg7 harg7 arg8 harg8 hc0 hc1 x0 x1 x2 x3 x4 x5 xs0)]
  unfold kernelRun9_C
  dsimp only
  sl_unfold_words
  rw [View.canon_unit_zero r9_hz2]
  simp only [View.readAt_eq_ld, harg1.read_unread, harg2.read_unread, harg3.read_unread, harg4.read_unread, harg5.read_unread, harg6.read_unread, harg8.read_unread, View.ld_unit_zero (S := S5000x1) r9_hz2, View.ld_unit_zero (S := S5000x64) r9_hz2, View.ld_unit_zero (S := S256x64) r9_hz2, View.ld_unit_zero (S := S64x64) r9_hz2, View.ld_unit_zero (S := S64x1) r9_hz2, View.ld_unit_zero (S := S64) r9_hz1, View.ld_unit_zero (S := S1) r9_hz1, View.readCov_unit_zero (S := S256x64) _ r9_hz2]

theorem out9_C_6_eq (hc0 : ¬cond9_0 i) (hc1 : cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) :
    out9_C_6 c i arg1 harg1 arg2 harg2 arg3 harg3 arg4 harg4 arg5 harg5 arg6 harg6 arg7 harg7 arg8 harg8 hc0 hc1 x0 x1 x2 x3 x4 x5 xs0 = k9_pay3 (k9_pay2 x0 x1 xs0) x2 x3 x4 x5 := by
  unfold out9_C_6
  rw [View.read_writes_eq_canon _ _ _ (cover9_C_6 c i arg1 harg1 arg2 harg2 arg3 harg3 arg4 harg4 arg5 harg5 arg6 harg6 arg7 harg7 arg8 harg8 hc0 hc1 x0 x1 x2 x3 x4 x5 xs0)]
  unfold kernelRun9_C
  dsimp only
  sl_unfold_words
  rw [View.canon_unit_zero r9_hz2]
  simp only [View.readAt_eq_ld, harg1.read_unread, harg2.read_unread, harg3.read_unread, harg4.read_unread, harg5.read_unread, harg6.read_unread, harg8.read_unread, View.ld_unit_zero (S := S5000x1) r9_hz2, View.ld_unit_zero (S := S5000x64) r9_hz2, View.ld_unit_zero (S := S256x64) r9_hz2, View.ld_unit_zero (S := S64x64) r9_hz2, View.ld_unit_zero (S := S64x1) r9_hz2, View.ld_unit_zero (S := S64) r9_hz1, View.ld_unit_zero (S := S1) r9_hz1, View.readCov_unit_zero (S := S256x64) _ r9_hz2]

end

variable (V : (c : Dev nD) → (b : Ref sig .tc) → Buf (Elt Ideal) ((c : Thread nD τ).loc b))

abbrev r9_bArr (c : Dev nD) : Vec Ideal S50000x1 .i32 := V c main_v76
abbrev r9_blk0 (c : Dev nD) (t : Fin cfg9.N) : Vec Ideal S5000x1 .i32 := iblk9 V c 0 t
abbrev r9_hArr (c : Dev nD) : Vec Ideal S50000x64 .f32 := V c main_v75
abbrev r9_blk1 (c : Dev nD) (t : Fin cfg9.N) : Vec Ideal S5000x64 .f32 := iblk9 V c 1 t
abbrev r9_w1Arr (c : Dev nD) : Vec Ideal S64x64 .bf16 := V c main_v77
abbrev r9_blk2 (c : Dev nD) (t : Fin cfg9.N) : Vec Ideal S64x64 .bf16 := iblk9 V c 2 t
abbrev r9_b1Arr (c : Dev nD) : Vec Ideal S64 .f32 := V c main_arg11
abbrev r9_blk3 (c : Dev nD) (t : Fin cfg9.N) : Vec Ideal S64 .f32 := iblk9 V c 3 t
abbrev r9_w2Arr (c : Dev nD) : Vec Ideal S64x1 .bf16 := V c main_v78
abbrev r9_blk4 (c : Dev nD) (t : Fin cfg9.N) : Vec Ideal S64x1 .bf16 := iblk9 V c 4 t
abbrev r9_b2Arr (c : Dev nD) : Vec Ideal S1 .f32 := V c main_arg13
abbrev r9_blk5 (c : Dev nD) (t : Fin cfg9.N) : Vec Ideal S1 .f32 := iblk9 V c 5 t

theorem r9_tlt (t : Fin cfg9.N) : t.val < 10 := lt_of_lt_of_eq t.isLt (show cfg9.N = 10 from N_9)

theorem r9_blk0_apply (c : Dev nD) (t : Fin cfg9.N) (r : Fin 5000) :
    r9_blk0 V c t (ix2 r 0) = r9_bArr V c (ix2 (r9_rowOf ⟨t.val, r9_tlt t⟩ r) 0) := by
  have hi : win9_0.index t 0 = t.val ∧ win9_0.index t 1 = 0 := by
    rcases fin_N9 t with rfl | rfl | rfl | rfl | rfl | rfl | rfl | rfl | rfl | rfl <;> decide
  unfold r9_blk0 iblk9
  rw [View.read_apply]
  show V c main_v76 _ = V c main_v76 _
  congr 1
  funext a
  apply Fin.ext
  match a with
  | ⟨0, _⟩ => show win9_0.index t 0 * 5000 + 1 * r.val = 5000 * t.val + r.val; rw [hi.1]; omega
  | ⟨1, _⟩ => show win9_0.index t 1 * 1 + 1 * 0 = 0; rw [hi.2]

theorem r9_blk1_apply (c : Dev nD) (t : Fin cfg9.N) (r : Fin 5000) (f : Fin 64) :
    r9_blk1 V c t (ix2 r f) = r9_hArr V c (ix2 (r9_rowOf ⟨t.val, r9_tlt t⟩ r) f) := by
  have hi : win9_1.index t 0 = t.val ∧ win9_1.index t 1 = 0 := by
    rcases fin_N9 t with rfl | rfl | rfl | rfl | rfl | rfl | rfl | rfl | rfl | rfl <;> decide
  unfold r9_blk1 iblk9
  rw [View.read_apply]
  show V c main_v75 _ = V c main_v75 _
  congr 1
  funext a
  apply Fin.ext
  match a with
  | ⟨0, _⟩ => show win9_1.index t 0 * 5000 + 1 * r.val = 5000 * t.val + r.val; rw [hi.1]; omega
  | ⟨1, _⟩ => show win9_1.index t 1 * 64 + 1 * f.val = f.val; rw [hi.2]; omega

theorem r9_blk2_apply (c : Dev nD) (t : Fin cfg9.N) (j k : Fin 64) : r9_blk2 V c t (ix2 j k) = r9_w1Arr V c (ix2 j k) := by
  have hi : win9_2.index t 0 = 0 ∧ win9_2.index t 1 = 0 := by
    rcases fin_N9 t with rfl | rfl | rfl | rfl | rfl | rfl | rfl | rfl | rfl | rfl <;> decide
  unfold r9_blk2 iblk9
  rw [View.read_apply]
  show V c main_v77 _ = V c main_v77 _
  congr 1
  funext a
  apply Fin.ext
  match a with
  | ⟨0, _⟩ => show win9_2.index t 0 * 64 + 1 * j.val = j.val; rw [hi.1]; omega
  | ⟨1, _⟩ => show win9_2.index t 1 * 64 + 1 * k.val = k.val; rw [hi.2]; omega

theorem r9_blk3_apply (c : Dev nD) (t : Fin cfg9.N) (k : Fin 64) : r9_blk3 V c t (ix1 k) = r9_b1Arr V c (ix1 k) := by
  have hi : win9_3.index t 0 = 0 := by
    rcases fin_N9 t with rfl | rfl | rfl | rfl | rfl | rfl | rfl | rfl | rfl | rfl <;> decide
  unfold r9_blk3 iblk9
  rw [View.read_apply]
  show V c main_arg11 _ = V c main_arg11 _
  congr 1
  funext a
  apply Fin.ext
  match a with
  | ⟨0, _⟩ => show win9_3.index t 0 * 64 + 1 * k.val = k.val; rw [hi]; omega

theorem r9_blk4_apply (c : Dev nD) (t : Fin cfg9.N) (k : Fin 64) : r9_blk4 V c t (ix2 k 0) = r9_w2Arr V c (ix2 k 0) := by
  have hi : win9_4.index t 0 = 0 ∧ win9_4.index t 1 = 0 := by
    rcases fin_N9 t with rfl | rfl | rfl | rfl | rfl | rfl | rfl | rfl | rfl | rfl <;> decide
  unfold r9_blk4 iblk9
  rw [View.read_apply]
  show V c main_v78 _ = V c main_v78 _
  congr 1
  funext a
  apply Fin.ext
  match a with
  | ⟨0, _⟩ => show win9_4.index t 0 * 64 + 1 * k.val = k.val; rw [hi.1]; omega
  | ⟨1, _⟩ => show win9_4.index t 1 * 1 + 1 * 0 = 0; rw [hi.2]

theorem r9_blk5_apply (c : Dev nD) (t : Fin cfg9.N) : r9_blk5 V c t (ix1 0) = r9_b2Arr V c (ix1 0) := by
  have hi : win9_5.index t 0 = 0 := by
    rcases fin_N9 t with rfl | rfl | rfl | rfl | rfl | rfl | rfl | rfl | rfl | rfl <;> decide
  unfold r9_blk5 iblk9
  rw [View.read_apply]
  show V c main_arg13 _ = V c main_arg13 _
  congr 1
  funext a
  apply Fin.ext
  match a with
  | ⟨0, _⟩ => show win9_5.index t 0 * 1 + 1 * 0 = 0; rw [hi]

def r9_blockSum (c : Dev nD) (t : Fin cfg9.N) (g : Fin 256) (f : Fin 64) : EReal :=
  ∑ r : Fin 5000, (if r9_blk0 V c t (ix2 r 0) = BitVec.ofNat 32 g.val then r9_blk1 V c t (ix2 r f) else 0)

def r9_contrib (c : Dev nD) (t : ℕ) (g : Fin 256) (f : Fin 64) : EReal :=
  if ht : t < 10 then ∑ r : Fin 5000, (if r9_bArr V c (ix2 (r9_rowOf ⟨t, ht⟩ r) 0) = BitVec.ofNat 32 g.val then r9_hArr V c (ix2 (r9_rowOf ⟨t, ht⟩ r) f) else 0) else 0

theorem r9_blockSum_eq (c : Dev nD) (t : Fin cfg9.N) (g : Fin 256) (f : Fin 64) :
    r9_blockSum V c t g f = r9_contrib V c t.val g f := by
  unfold r9_blockSum r9_contrib
  rw [dif_pos (r9_tlt t)]
  refine Finset.sum_congr rfl fun r _ => ?_
  rw [r9_blk0_apply, r9_blk1_apply]

theorem r9_step_A (c : Dev nD) (t : Fin cfg9.N) (h0 : t.val = 0) (h1 : ¬t.val = 9) (g : Fin 256) (f : Fin 64) :
    (outsAt9 V c t.val t.isLt).2 (ix2 g f) = r9_blockSum V c t g f := by
  rw [outsAt9_A V c t h0 h1]
  dsimp only
  refine (congrFun (sout9_A_0_eq (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) ((hcond9_0 t).mpr h0) (fun h => h1 ((hcond9_1 t).mp h)) (iblk9 V c 0 t) (iblk9 V c 1 t) (iblk9 V c 2 t) (iblk9 V c 3 t) (iblk9 V c 4 t) (iblk9 V c 5 t)) (ix2 g f)).trans ?_
  refine (r9_pay2_apply (r9_blk0 V c t) (r9_blk1 V c t) (k9_pay1 (F := Ideal)) g f).trans ?_
  rw [r9_pay1_apply, zero_add]
  rfl

theorem r9_step_BC (c : Dev nD) (t : Fin cfg9.N) (h0 : ¬t.val = 0) (g : Fin 256) (f : Fin 64) :
    (outsAt9 V c t.val t.isLt).2 (ix2 g f) = (outsAt9 V c (t.val - 1) (Nat.lt_of_le_of_lt (Nat.sub_le _ _) t.isLt)).2 (ix2 g f) + r9_blockSum V c t g f := by
  by_cases h1 : t.val = 9
  · rw [outsAt9_C V c t h0 h1]
    dsimp only
    refine (congrFun (sout9_C_0_eq (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) (fun h => h0 ((hcond9_0 t).mp h)) ((hcond9_1 t).mpr h1) (iblk9 V c 0 t) (iblk9 V c 1 t) (iblk9 V c 2 t) (iblk9 V c 3 t) (iblk9 V c 4 t) (iblk9 V c 5 t) (outsAt9 V c (t.val - 1) (Nat.lt_of_le_of_lt (Nat.sub_le _ _) t.isLt)).2) (ix2 g f)).trans ?_
    exact r9_pay2_apply (r9_blk0 V c t) (r9_blk1 V c t) (outsAt9 V c (t.val - 1) (Nat.lt_of_le_of_lt (Nat.sub_le _ _) t.isLt)).2 g f
  · rw [outsAt9_B V c t h0 h1]
    dsimp only
    refine (congrFun (sout9_B_0_eq (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) (fun h => h0 ((hcond9_0 t).mp h)) (fun h => h1 ((hcond9_1 t).mp h)) (iblk9 V c 0 t) (iblk9 V c 1 t) (iblk9 V c 2 t) (iblk9 V c 3 t) (iblk9 V c 4 t) (iblk9 V c 5 t) (outsAt9 V c (t.val - 1) (Nat.lt_of_le_of_lt (Nat.sub_le _ _) t.isLt)).2) (ix2 g f)).trans ?_
    exact r9_pay2_apply (r9_blk0 V c t) (r9_blk1 V c t) (outsAt9 V c (t.val - 1) (Nat.lt_of_le_of_lt (Nat.sub_le _ _) t.isLt)).2 g f

theorem r9_acc_eq (c : Dev nD) : ∀ (n : ℕ) (hn : n < cfg9.N) (g : Fin 256) (f : Fin 64),
    (outsAt9 V c n hn).2 (ix2 g f) = ∑ t ∈ Finset.range (n + 1), r9_contrib V c t g f
  | 0, hn, g, f => by
    rw [Finset.sum_range_one]
    exact (r9_step_A V c ⟨0, hn⟩ rfl r9_zero_ne_nine g f).trans (r9_blockSum_eq V c ⟨0, hn⟩ g f)
  | n + 1, hn, g, f => by
    rw [Finset.sum_range_succ]
    refine (r9_step_BC V c ⟨n + 1, hn⟩ (Nat.succ_ne_zero n) g f).trans ?_
    exact congrArg₂ (· + ·) (r9_acc_eq c n (Nat.lt_of_succ_lt hn) g f) (r9_blockSum_eq V c ⟨n + 1, hn⟩ g f)

theorem r9_pool_eq (c : Dev nD) (g : Fin 256) (f : Fin 64) :
    ∑ t ∈ Finset.range 10, r9_contrib V c t g f = (Cert.Spec.pool (fun n => V c main_v76 (ix2 n 0)) (fun n f => V c main_v75 (ix2 n f))) g f := by
  unfold Cert.Spec.pool
  rw [r9_sum_rows, ← Fin.sum_univ_eq_sum_range (fun t => r9_contrib V c t g f) 10]
  refine Finset.sum_congr rfl fun t _ => ?_
  unfold r9_contrib
  rw [dif_pos t.isLt]

theorem r9_h9lt : 9 < cfg9.N := by rw [show cfg9.N = 10 from N_9]; decide
theorem r9_t9_ne : ¬(t9_9 : Fin cfg9.N).val = 0 := by decide
theorem r9_t9_eq : (t9_9 : Fin cfg9.N).val = 9 := rfl

theorem r9_acc_last (c : Dev nD) (g : Fin 256) (j : Fin 64) :
    k9_pay2 (F := Ideal) (r9_blk0 V c t9_9) (r9_blk1 V c t9_9) (outsAt9 V c ((t9_9 : Fin cfg9.N).val - 1) (Nat.lt_of_le_of_lt (Nat.sub_le _ _) (t9_9 : Fin cfg9.N).isLt)).2 (ix2 g j) = (Cert.Spec.pool (fun n => V c main_v76 (ix2 n 0)) (fun n f => V c main_v75 (ix2 n f))) g j := by
  have e2 : (outsAt9 V c (t9_9 : Fin cfg9.N).val (t9_9 : Fin cfg9.N).isLt).2
      = k9_pay2 (F := Ideal) (r9_blk0 V c t9_9) (r9_blk1 V c t9_9) (outsAt9 V c ((t9_9 : Fin cfg9.N).val - 1) (Nat.lt_of_le_of_lt (Nat.sub_le _ _) (t9_9 : Fin cfg9.N).isLt)).2 := by
    rw [outsAt9_C V c t9_9 r9_t9_ne r9_t9_eq]
    dsimp only
    exact sout9_C_0_eq (F := Ideal) c (grid9.coords t9_9) (ms9_0 t9_9) (hs9_0 t9_9) (ms9_1 t9_9) (hs9_1 t9_9) (ms9_2 t9_9) (hs9_2 t9_9) (ms9_3 t9_9) (hs9_3 t9_9) (ms9_4 t9_9) (hs9_4 t9_9) (ms9_5 t9_9) (hs9_5 t9_9) (ms9_6 t9_9) (hs9_6 t9_9) scM9_0 (Memref.isWhole_whole _) (fun h => r9_t9_ne ((hcond9_0 t9_9).mp h)) ((hcond9_1 t9_9).mpr r9_t9_eq) (iblk9 V c 0 t9_9) (iblk9 V c 1 t9_9) (iblk9 V c 2 t9_9) (iblk9 V c 3 t9_9) (iblk9 V c 4 t9_9) (iblk9 V c 5 t9_9) (outsAt9 V c ((t9_9 : Fin cfg9.N).val - 1) (Nat.lt_of_le_of_lt (Nat.sub_le _ _) (t9_9 : Fin cfg9.N).isLt)).2
  exact (congrFun e2 (ix2 g j)).symm.trans ((r9_acc_eq V c 9 r9_h9lt g j).trans (r9_pool_eq V c g j))

theorem r9_out_last (c : Dev nD) (g : Fin 256) :
    (outsAt9 V c (t9_9 : Fin cfg9.N).val (t9_9 : Fin cfg9.N).isLt).1 (ix2 g 0)
      = Cert.Spec.head (Cert.Spec.pool (fun n => V c main_v76 (ix2 n 0)) (fun n f => V c main_v75 (ix2 n f))) (fun j k => V c main_v77 (ix2 j k)) (fun k => V c main_arg11 (ix1 k))
          (fun k => V c main_v78 (ix2 k 0)) (V c main_arg13 (ix1 0)) g := by
  rw [outsAt9_C V c t9_9 r9_t9_ne r9_t9_eq]
  dsimp only
  refine (congrFun (out9_C_6_eq (F := Ideal) c (grid9.coords t9_9) (ms9_0 t9_9) (hs9_0 t9_9) (ms9_1 t9_9) (hs9_1 t9_9) (ms9_2 t9_9) (hs9_2 t9_9) (ms9_3 t9_9) (hs9_3 t9_9) (ms9_4 t9_9) (hs9_4 t9_9) (ms9_5 t9_9) (hs9_5 t9_9) (ms9_6 t9_9) (hs9_6 t9_9) scM9_0 (Memref.isWhole_whole _) (fun h => r9_t9_ne ((hcond9_0 t9_9).mp h)) ((hcond9_1 t9_9).mpr r9_t9_eq) (iblk9 V c 0 t9_9) (iblk9 V c 1 t9_9) (iblk9 V c 2 t9_9) (iblk9 V c 3 t9_9) (iblk9 V c 4 t9_9) (iblk9 V c 5 t9_9) (outsAt9 V c ((t9_9 : Fin cfg9.N).val - 1) (Nat.lt_of_le_of_lt (Nat.sub_le _ _) (t9_9 : Fin cfg9.N).isLt)).2) (ix2 g 0)).trans ?_
  refine (r9_pay3_apply (k9_pay2 (F := Ideal) (r9_blk0 V c t9_9) (r9_blk1 V c t9_9) (outsAt9 V c ((t9_9 : Fin cfg9.N).val - 1) (Nat.lt_of_le_of_lt (Nat.sub_le _ _) (t9_9 : Fin cfg9.N).isLt)).2)
    (r9_blk2 V c t9_9) (r9_blk3 V c t9_9) (r9_blk4 V c t9_9) (r9_blk5 V c t9_9) g).trans ?_
  unfold Cert.Spec.head
  refine congrArg₂ (· + ·) (Finset.sum_congr rfl fun k _ => ?_) (r9_blk5_apply V c t9_9)
  refine congrArg₂ (· * ·) (congrArg (max · 0) (congrArg₂ (· + ·) (Finset.sum_congr rfl fun j _ => ?_) (r9_blk3_apply V c t9_9 k))) (r9_blk4_apply V c t9_9 k)
  exact congrArg₂ (· * ·) (congrArg (max · 0) (r9_acc_last V c g j)) (r9_blk2_apply V c t9_9 j k)

abbrev result9 (c : Dev nD) : Buf (Elt Ideal) ((c : Thread nD τ).loc main_v79) :=
  (outsAt9 V c (t9_9 : Fin cfg9.N).val (t9_9 : Fin cfg9.N).isLt).1

theorem flushed9_eq (c : Dev nD) (t : Fin cfg9.N) (hf : (cfg9.win 6).flush t = true) :
    (dat9 V c).flushed 6 t = ((cfg9.win 6).blk t).view.read (Elt Ideal) (result9 V c) := by
  have h9 : t.val = 9 := by have := (flush9_6 t).mp hf; have := r9_tlt t; omega
  obtain rfl : t = t9_9 := Fin.ext h9
  show (cfg9.win 6).cut (grid9.coords t9_9) ((dat9 V c).after 6 t9_9) = _
  rw [after9_6]
  have hz' : (fun a => win9_6.index t9_9 a * main_v79.ty.shape.size a) = fun _ => 0 := funext fun a => by fin_cases a <;> decide
  exact (Memref.read_access_unit_zero (Elt Ideal) main_v79 hz' (fun a => by rw [congrFun hz' a]; simp) (result9 V c)).symm

theorem final9_arr (c : Dev nD) : (dat9 V c).arrAt 6 cfg9.N = result9 V c :=
  (dat9 V c).arrAt_eq_of_cover 6 (result9 V c) (flushed9_eq V c) fun i =>
    ⟨t9_9, (flush9_6 t9_9).mpr rfl, by
      show i ∈ ((View.whole main_v79).slice (win9_6.rect t9_9)).set
      rw [View.set_slice_whole, Rect.mem_set_unit]
      intro a
      have h0 : (i 0 : Nat) < 256 := (i 0).isLt
      have h1 : (i 1 : Nat) < 1 := (i 1).isLt
      match a with
      | ⟨0, _⟩ => show win9_6.index t9_9 0 * win9_6.size 0 ≤ (i 0 : Nat) ∧ (i 0 : Nat) < win9_6.index t9_9 0 * win9_6.size 0 + win9_6.xsize (grid9.coords t9_9) 0
                  rw [show win9_6.index t9_9 0 * win9_6.size 0 = 0 from by decide +kernel, show win9_6.xsize (grid9.coords t9_9) 0 = 256 from by decide +kernel]; omega
      | ⟨1, _⟩ => show win9_6.index t9_9 1 * win9_6.size 1 ≤ (i 1 : Nat) ∧ (i 1 : Nat) < win9_6.index t9_9 1 * win9_6.size 1 + win9_6.xsize (grid9.coords t9_9) 1
                  rw [show win9_6.index t9_9 1 * win9_6.size 1 = 0 from by decide +kernel, show win9_6.xsize (grid9.coords t9_9) 1 = 1 from by decide +kernel]; omega⟩

theorem final9 (c : Dev nD) (g : Fin 256) :
    (dat9 (F := Ideal) V c).arrAt 6 cfg9.N (ValueIdx.ix2 g 0)
      = Cert.Spec.head (Cert.Spec.pool (fun n => V c main_v76 (ValueIdx.ix2 n 0)) (fun n f => V c main_v75 (ValueIdx.ix2 n f)))
          (fun j k => V c main_v77 (ValueIdx.ix2 j k)) (fun k => V c main_arg11 (ValueIdx.ix1 k))
          (fun k => V c main_v78 (ValueIdx.ix2 k 0)) (V c main_arg13 (ValueIdx.ix1 0)) g :=
  (congrFun (final9_arr V c) (ix2 g 0)).trans (r9_out_last V c g)

end Cert.KernelIdeal.Hand

end
-- ==== Proof.KI.HostPre.lean ====
import proofs.«407044_j9311489098471_2_alg».proof.Proof.Gen.KernelIdeal.Regions
import Idealize.ShloMosaic.Lib.ValueIdx
import Idealize.ShloMosaic.Lib.ValueLayout
import Idealize.ShloMosaic.Lib.Pipeline.Value
import Idealize.ShloMosaic.Lib.KernelVsHost
set_option maxRecDepth 1340

noncomputable section

namespace Cert.KernelIdeal.Hand

open Idealize.ShloMosaic Idealize.ShloMosaic.TcCoe
open Idealize.SL.Sem
open Cert.KernelIdeal Cert.KernelIdeal.Gen
open ValueIdx

def idxOf (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

theorem padDst_apply (dst : IVec S800000 32) (e : Fin 800768) :
    shapeCast S1x800768 (pad S800768 ![0] ![768] ![0] dst (constantI S_ 32 0#32) pads_S800000_S800768_07680 h_S_)
        shapeCasts_S800768_S1x800768 (ix2 0 e)
      = if h : e.val < 800000 then dst (ix1 ⟨e.val, h⟩) else 0#32 := by
  refine (shapeCast_a_1a_apply _ shapeCasts_S800768_S1x800768 0 e).trans ?_
  by_cases h : e.val < 800000
  · rw [dif_pos h]
    exact pad_apply_of_inside _ _ _ dst _ pads_S800000_S800768_07680 h_S_ _ (ix1 (⟨e.val, h⟩ : Fin 800000)) (by
      intro a
      have ha : a = 0 := Subsingleton.elim _ _
      subst ha
      show e.val = 0 + e.val * (0 + 1); omega)
  · rw [dif_neg h]
    refine (pad_apply_of_not_inside _ _ _ dst _ pads_S800000_S800768_07680 h_S_ _ (0 : Fin 1) (by
      intro hin
      have e3 : (e.val - 0) / (0 + 1) < 800000 := hin.2.2
      rw [Nat.sub_zero, Nat.div_one] at e3
      exact h e3)).trans ?_
    rfl

theorem padMsg_apply (g : FVec Ideal S800000x64 .f32) (w : FVec Ideal S800000 .f32) (e : Fin 800768) (k : Fin 64) :
    pad S800768x64 ![0, 0] ![768, 0] ![0, 0]
        (truncf .bf16 (mulf g (broadcastInDim S800000x64 ![0, 1] bcast_S800000x1_S800000x64_0_1
          (broadcastInDim S800000x1 ![0] bcast_S800000_S800000x1_0 w))) bitsLt_bf16_f32 : FVec Ideal S800000x64 .bf16)
        (sitofp .bf16 (constantI S_ 32 0#32) : FVec Ideal S_ .bf16) pads_S800000x64_S800768x64_07680_000 h_S_ (ix2 e k)
      = if h : e.val < 800000 then g (ix2 ⟨e.val, h⟩ k) * w (ix1 ⟨e.val, h⟩) else 0 := by
  by_cases h : e.val < 800000
  · rw [dif_pos h]
    refine (pad_apply_of_inside _ _ _ _ _ pads_S800000x64_S800768x64_07680_000 h_S_ _ (ix2 (⟨e.val, h⟩ : Fin 800000) k) (by
      intro a
      match a with
      | ⟨0, _⟩ => show e.val = 0 + e.val * (0 + 1); omega
      | ⟨1, _⟩ => show k.val = 0 + k.val * (0 + 1); omega)).trans ?_
    show g (ix2 ⟨e.val, h⟩ k) * broadcastInDim S800000x64 ![0, 1] bcast_S800000x1_S800000x64_0_1
          (broadcastInDim S800000x1 ![0] bcast_S800000_S800000x1_0 w) (ix2 ⟨e.val, h⟩ k) = _
    congr 1
    refine (broadcastInDim_apply _ bcast_S800000x1_S800000x64_0_1 _ _ (ix2 (⟨e.val, h⟩ : Fin 800000) (0 : Fin 1)) (by
      intro a
      match a with
      | ⟨0, _⟩ => rfl
      | ⟨1, _⟩ => rfl)).trans ?_
    exact broadcastInDim_apply _ bcast_S800000_S800000x1_0 _ _ (ix1 (⟨e.val, h⟩ : Fin 800000)) (by
      intro a
      match a with
      | ⟨0, _⟩ => rfl)
  · rw [dif_neg h]
    refine (pad_apply_of_not_inside _ _ _ _ _ pads_S800000x64_S800768x64_07680_000 h_S_ _ (0 : Fin 2) (by
      intro hin
      have e3 : (e.val - 0) / (0 + 1) < 800000 := hin.2.2
      rw [Nat.sub_zero, Nat.div_one] at e3
      exact h e3)).trans ?_
    exact sitofp_zero

abbrev msgOf (tab : FVec Ideal S50000x64 .f32) (src : IVec S800000 32) (w : FVec Ideal S800000 .f32)
    (e : Fin 800768) (k : Fin 64) : EReal :=
  if h : e.val < 800000 then
    Host.gather gather_S50000x64_S800000x1_S800000x64_1_0_n_n_0_1_164 tab (idxOf src) (ix2 ⟨e.val, h⟩ k) * w (ix1 ⟨e.val, h⟩)
  else 0

theorem row0_apply (X : IVec S2x800000 32) (e : Fin 800000) :
    shapeCast S800000 (extractStridedSlice S1x800000 ![0, 0] X slices_S2x800000_S1x800000_0_0) shapeCasts_S1x800000_S800000 (ix1 e)
      = X (ix2 0 e) :=
  (shapeCast_1a_a_apply _ shapeCasts_S1x800000_S800000 e).trans
    (slice2_axis0_apply 0 X slices_S2x800000_S1x800000_0_0 (0 : Fin 1) e (0 : Fin 2) rfl)
theorem row1_apply (X : IVec S2x800000 32) (e : Fin 800000) :
    shapeCast S800000 (extractStridedSlice S1x800000 ![1, 0] X slices_S2x800000_S1x800000_1_0) shapeCasts_S1x800000_S800000 (ix1 e)
      = X (ix2 1 e) :=
  (shapeCast_1a_a_apply _ shapeCasts_S1x800000_S800000 e).trans
    (slice2_axis0_apply 1 X slices_S2x800000_S1x800000_1_0 (0 : Fin 1) e (1 : Fin 2) rfl)

abbrev srcOf0 (W : Valuation τ sig (Elt Ideal)) : IVec S800000 32 :=
  shapeCast S800000 (extractStridedSlice S1x800000 ![0, 0] (W (Proc.devRef .tc main_arg1) : S2x800000.Idx → BitVec 32)
    slices_S2x800000_S1x800000_0_0) shapeCasts_S1x800000_S800000
theorem srcOf0_apply (W : Valuation τ sig (Elt Ideal)) (e : Fin 800000) :
    srcOf0 W (ix1 e) = (W (Proc.devRef .tc main_arg1) : S2x800000.Idx → BitVec 32) (ix2 0 e) := row0_apply _ e

abbrev L0 (W : Valuation τ sig (Elt Ideal)) : Valuation τ sig (Elt Ideal) :=
  StableHlo.after (hostOps0_4 (F := Ideal)) (StableHlo.after (hostOps0_3 (F := Ideal)) (StableHlo.after (hostOps0_2 (F := Ideal))
    (StableHlo.after (hostOps0_1 (F := Ideal)) (StableHlo.after (hostOps0 (F := Ideal)) W))))

theorem pre0_dst2 (W : Valuation τ sig (Elt Ideal)) (e : Fin 800768) :
    (L0 W (Proc.devRef .tc main_v17) : S1x800768.Idx → BitVec 32) (ix2 0 e)
      = if h : e.val < 800000 then (W (Proc.devRef .tc main_arg1) : S2x800000.Idx → BitVec 32) (ix2 1 ⟨e.val, h⟩) else 0#32 := by
  dsimp only [L0, hostOps0, hostOps0_1, hostOps0_2, hostOps0_3, hostOps0_4]
  after_results_simp
  refine (padDst_apply _ e).trans ?_
  by_cases h : e.val < 800000
  · rw [dif_pos h, dif_pos h]; exact row1_apply _ ⟨e.val, h⟩
  · rw [dif_neg h, dif_neg h]

theorem pre0_msg (W : Valuation τ sig (Elt Ideal)) (e : Fin 800768) (k : Fin 64) :
    (L0 W (Proc.devRef .tc main_v16) : S800768x64.Idx → EReal) (ix2 e k)
      = msgOf (W (Proc.devRef .tc main_arg0)) (srcOf0 W) (W (Proc.devRef .tc main_arg2)) e k := by
  dsimp only [L0, hostOps0, hostOps0_1, hostOps0_2, hostOps0_3, hostOps0_4]
  after_results_simp
  exact padMsg_apply _ _ e k

theorem pre0_W (W : Valuation τ sig (Elt Ideal)) :
    (L0 W (Proc.devRef .tc main_v18) : S64x64.Idx → EReal) = (W (Proc.devRef .tc main_arg4) : S64x64.Idx → EReal) := by
  dsimp only [L0, hostOps0, hostOps0_1, hostOps0_2, hostOps0_3, hostOps0_4]
  after_results_simp
  rfl

theorem pre0_tab (W : Valuation τ sig (Elt Ideal)) : L0 W (Proc.devRef .tc main_arg0) = W (Proc.devRef .tc main_arg0) := by
  dsimp only [L0, hostOps0, hostOps0_1, hostOps0_2, hostOps0_3, hostOps0_4]
  after_results_simp
theorem pre0_bias (W : Valuation τ sig (Elt Ideal)) : L0 W (Proc.devRef .tc main_arg5) = W (Proc.devRef .tc main_arg5) := by
  dsimp only [L0, hostOps0, hostOps0_1, hostOps0_2, hostOps0_3, hostOps0_4]
  after_results_simp

theorem pre0_src (W : Valuation τ sig (Elt Ideal)) :
    (L0 W (Proc.devRef .tc main_v1) : S800000.Idx → BitVec 32) = srcOf0 W := by
  dsimp only [L0, hostOps0, hostOps0_1, hostOps0_2, hostOps0_3, hostOps0_4]
  after_results_simp
  rfl
theorem pre0_dst1 (W : Valuation τ sig (Elt Ideal)) (e : Fin 800000) :
    (L0 W (Proc.devRef .tc main_v3) : S800000.Idx → BitVec 32) (ix1 e)
      = (W (Proc.devRef .tc main_arg1) : S2x800000.Idx → BitVec 32) (ix2 1 e) := by
  dsimp only [L0, hostOps0, hostOps0_1, hostOps0_2, hostOps0_3, hostOps0_4]
  after_results_simp
  exact row1_apply _ e

abbrev L3 (W : Valuation τ sig (Elt Ideal)) : Valuation τ sig (Elt Ideal) :=
  StableHlo.after (hostOps3_4 (F := Ideal)) (StableHlo.after (hostOps3_3 (F := Ideal)) (StableHlo.after (hostOps3_2 (F := Ideal))
    (StableHlo.after (hostOps3_1 (F := Ideal)) (StableHlo.after (hostOps3 (F := Ideal)) W))))

theorem pre3_dst2 (W : Valuation τ sig (Elt Ideal)) (e : Fin 800768) :
    (L3 W (Proc.devRef .tc main_v41) : S1x800768.Idx → BitVec 32) (ix2 0 e)
      = if h : e.val < 800000 then (W (Proc.devRef .tc main_v3) : S800000.Idx → BitVec 32) (ix1 ⟨e.val, h⟩) else 0#32 := by
  dsimp only [L3, hostOps3, hostOps3_1, hostOps3_2, hostOps3_3, hostOps3_4]
  after_results_simp
  exact padDst_apply _ e

theorem pre3_msg (W : Valuation τ sig (Elt Ideal)) (e : Fin 800768) (k : Fin 64) :
    (L3 W (Proc.devRef .tc main_v40) : S800768x64.Idx → EReal) (ix2 e k)
      = msgOf (W (Proc.devRef .tc main_v27)) (W (Proc.devRef .tc main_v1) : S800000.Idx → BitVec 32) (W (Proc.devRef .tc main_arg2)) e k := by
  dsimp only [L3, hostOps3, hostOps3_1, hostOps3_2, hostOps3_3, hostOps3_4]
  after_results_simp
  exact padMsg_apply _ _ e k

theorem pre3_W (W : Valuation τ sig (Elt Ideal)) :
    (L3 W (Proc.devRef .tc main_v42) : S64x64.Idx → EReal) = (W (Proc.devRef .tc main_arg6) : S64x64.Idx → EReal) := by
  dsimp only [L3, hostOps3, hostOps3_1, hostOps3_2, hostOps3_3, hostOps3_4]
  after_results_simp
  rfl

theorem pre3_tab (W : Valuation τ sig (Elt Ideal)) : L3 W (Proc.devRef .tc main_v27) = W (Proc.devRef .tc main_v27) := by
  dsimp only [L3, hostOps3, hostOps3_1, hostOps3_2, hostOps3_3, hostOps3_4]
  after_results_simp
theorem pre3_bias (W : Valuation τ sig (Elt Ideal)) : L3 W (Proc.devRef .tc main_arg7) = W (Proc.devRef .tc main_arg7) := by
  dsimp only [L3, hostOps3, hostOps3_1, hostOps3_2, hostOps3_3, hostOps3_4]
  after_results_simp

abbrev L6 (W : Valuation τ sig (Elt Ideal)) : Valuation τ sig (Elt Ideal) :=
  StableHlo.after (hostOps6_4 (F := Ideal)) (StableHlo.after (hostOps6_3 (F := Ideal)) (StableHlo.after (hostOps6_2 (F := Ideal))
    (StableHlo.after (hostOps6_1 (F := Ideal)) (StableHlo.after (hostOps6 (F := Ideal)) W))))

theorem pre6_dst2 (W : Valuation τ sig (Elt Ideal)) (e : Fin 800768) :
    (L6 W (Proc.devRef .tc main_v65) : S1x800768.Idx → BitVec 32) (ix2 0 e)
      = if h : e.val < 800000 then (W (Proc.devRef .tc main_v3) : S800000.Idx → BitVec 32) (ix1 ⟨e.val, h⟩) else 0#32 := by
  dsimp only [L6, hostOps6, hostOps6_1, hostOps6_2, hostOps6_3, hostOps6_4]
  after_results_simp
  exact padDst_apply _ e

theorem pre6_msg (W : Valuation τ sig (Elt Ideal)) (e : Fin 800768) (k : Fin 64) :
    (L6 W (Proc.devRef .tc main_v64) : S800768x64.Idx → EReal) (ix2 e k)
      = msgOf (W (Proc.devRef .tc main_v51)) (W (Proc.devRef .tc main_v1) : S800000.Idx → BitVec 32) (W (Proc.devRef .tc main_arg2)) e k := by
  dsimp only [L6, hostOps6, hostOps6_1, hostOps6_2, hostOps6_3, hostOps6_4]
  after_results_simp
  exact padMsg_apply _ _ e k

theorem pre6_W (W : Valuation τ sig (Elt Ideal)) :
    (L6 W (Proc.devRef .tc main_v66) : S64x64.Idx → EReal) = (W (Proc.devRef .tc main_arg8) : S64x64.Idx → EReal) := by
  dsimp only [L6, hostOps6, hostOps6_1, hostOps6_2, hostOps6_3, hostOps6_4]
  after_results_simp
  rfl

theorem pre6_tab (W : Valuation τ sig (Elt Ideal)) : L6 W (Proc.devRef .tc main_v51) = W (Proc.devRef .tc main_v51) := by
  dsimp only [L6, hostOps6, hostOps6_1, hostOps6_2, hostOps6_3, hostOps6_4]
  after_results_simp
theorem pre6_bias (W : Valuation τ sig (Elt Ideal)) : L6 W (Proc.devRef .tc main_arg9) = W (Proc.devRef .tc main_arg9) := by
  dsimp only [L6, hostOps6, hostOps6_1, hostOps6_2, hostOps6_3, hostOps6_4]
  after_results_simp

end Cert.KernelIdeal.Hand
-- ==== Proof.KI.R0Pieces.lean ====
import proofs.«407044_j9311489098471_2_alg».proof.Proof.KI.R0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz0 : (![0, 0] : Fin 2 → Nat) = fun _ => 0 := funext fun a => by fin_cases a <;> rfl
theorem hz0' : (![0] : Fin 1 → Nat) = fun _ => 0 := funext fun a => by fin_cases a; rfl

section
variable (c : Dev nD) (i : grid0.Coords) (arg2 : Memref sig .tc .vmem S5000x64 .f32) (harg2 : arg2.IsWhole) (arg3 : Memref sig .tc .vmem S1x2048 .i32) (harg3 : arg3.IsWhole) (arg4 : Memref sig .tc .vmem S2048x64 .bf16) (harg4 : arg4.IsWhole) (arg5 : Memref sig .tc .vmem S64x64 .bf16) (harg5 : arg5.IsWhole) (arg6 : Memref sig .tc .vmem S64 .f32) (harg6 : arg6.IsWhole) (arg7 : Memref sig .tc .vmem S5000x64 .f32) (harg7 : arg7.IsWhole) (arg8 : Memref sig .tc .vmem S5000x64 .f32) (harg8 : arg8.IsWhole)
include c i arg2 harg2 arg3 harg3 arg4 harg4 arg5 harg5 arg6 harg6 arg7 harg7 arg8 harg8

theorem soutB_eq0 (hc0 : ¬cond0_0 i) (hc1 : ¬cond0_1 i)
    (x0 : Vec F S5000x64 .f32) (x1 : Vec F S1x2048 .i32) (x2 : Vec F S2048x64 .bf16) (x3 : Vec F S64x64 .bf16) (x4 : Vec F S64 .f32) (xs0 : Vec F S5000x64 .f32) :
    sout0_B_0 c i arg2 harg2 arg3 harg3 arg4 harg4 arg5 harg5 arg6 harg6 arg7 harg7 arg8 harg8 hc0 hc1 x0 x1 x2 x3 x4 xs0 = k0_pay2 i x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz0]
  simp only [View.readAt_eq_ld, harg3.read_unread, harg4.read_unread, harg8.read_unread, View.ld_unit_zero (S := S1x2048) hz0, View.ld_unit_zero (S := S2048x64) hz0, View.ld_unit_zero (S := S5000x64) hz0]

theorem soutA_eq0 (hc0 : cond0_0 i) (hc1 : ¬cond0_1 i)
    (x0 : Vec F S5000x64 .f32) (x1 : Vec F S1x2048 .i32) (x2 : Vec F S2048x64 .bf16) (x3 : Vec F S64x64 .bf16) (x4 : Vec F S64 .f32) :
    sout0_A_0 c i arg2 harg2 arg3 harg3 arg4 harg4 arg5 harg5 arg6 harg6 arg7 harg7 arg8 harg8 hc0 hc1 x0 x1 x2 x3 x4 = k0_pay2 i x1 x2 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S5000x64) hz0, View.readCov_unit_zero (S := S5000x64) _ hz0]
  simp only [View.readAt_eq_ld, harg3.read_unread, harg4.read_unread, View.ld_unit_zero (S := S1x2048) hz0, View.ld_unit_zero (S := S2048x64) hz0, View.ld_unit_zero (S := S5000x64) hz0]

theorem soutC_eq0 (hc0 : ¬cond0_0 i) (hc1 : cond0_1 i)
    (x0 : Vec F S5000x64 .f32) (x1 : Vec F S1x2048 .i32) (x2 : Vec F S2048x64 .bf16) (x3 : Vec F S64x64 .bf16) (x4 : Vec F S64 .f32) (xs0 : Vec F S5000x64 .f32) :
    sout0_C_0 c i arg2 harg2 arg3 harg3 arg4 harg4 arg5 harg5 arg6 harg6 arg7 harg7 arg8 harg8 hc0 hc1 x0 x1 x2 x3 x4 xs0 = k0_pay2 i x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz0]
  simp only [View.readAt_eq_ld, harg3.read_unread, harg4.read_unread, harg8.read_unread, View.ld_unit_zero (S := S1x2048) hz0, View.ld_unit_zero (S := S2048x64) hz0, View.ld_unit_zero (S := S5000x64) hz0]

theorem outC_eq0 (hc0 : ¬cond0_0 i) (hc1 : cond0_1 i)
    (x0 : Vec F S5000x64 .f32) (x1 : Vec F S1x2048 .i32) (x2 : Vec F S2048x64 .bf16) (x3 : Vec F S64x64 .bf16) (x4 : Vec F S64 .f32) (xs0 : Vec F S5000x64 .f32) :
    out0_C_5 c i arg2 harg2 arg3 harg3 arg4 harg4 arg5 harg5 arg6 harg6 arg7 harg7 arg8 harg8 hc0 hc1 x0 x1 x2 x3 x4 xs0 = k0_pay3 x0 (k0_pay2 i x1 x2 xs0) x3 x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz0]
  simp only [View.readAt_eq_ld, harg2.read_unread, harg3.read_unread, harg4.read_unread, harg5.read_unread, harg6.read_unread, harg8.read_unread,
    View.readCov_unit_zero (S := S5000x64) _ hz0, View.ld_unit_zero (S := S1x2048) hz0, View.ld_unit_zero (S := S2048x64) hz0, View.ld_unit_zero (S := S5000x64) hz0, View.ld_unit_zero (S := S64x64) hz0, View.ld_unit_zero (S := S64) hz0']

end

end Cert.KernelIdeal.Hand

end
-- ==== Proof.KI.R0Idx.lean ====
import proofs.«407044_j9311489098471_2_alg».proof.Proof.Gen.KernelIdeal.Launch

noncomputable section

namespace Cert.KernelIdeal.Hand

open Idealize.ShloMosaic
open Cert.KernelIdeal Cert.KernelIdeal.Gen

theorem coords0 : ∀ t : Fin grid0.N, (grid0.coords t 0).val = t.val / 391 ∧ (grid0.coords t 1).val = t.val % 391 := by decide +kernel

theorem index0_0 : ∀ t : Fin grid0.N, win0_0.index t 0 = t.val / 391 ∧ win0_0.index t 1 = 0 := by decide +kernel
theorem index0_5 : ∀ t : Fin grid0.N, win0_5.index t 0 = t.val / 391 ∧ win0_5.index t 1 = 0 := by decide +kernel

theorem index0_1 : ∀ t : Fin grid0.N, win0_1.index t 0 = 0 ∧ win0_1.index t 1 = t.val % 391 := by decide +kernel
theorem index0_2 : ∀ t : Fin grid0.N, win0_2.index t 0 = t.val % 391 ∧ win0_2.index t 1 = 0 := by decide +kernel

theorem index0_3 : ∀ t : Fin grid0.N, win0_3.index t 0 = 0 ∧ win0_3.index t 1 = 0 := by decide +kernel
theorem index0_4 : ∀ t : Fin grid0.N, win0_4.index t 0 = 0 := by decide +kernel

end Cert.KernelIdeal.Hand

end
-- ==== Proof.KI.GinMath.lean ====
import proofs.«407044_j9311489098471_2_alg».proof.Proof.Gen.KernelIdeal.Skeleton
import proofs.«407044_j9311489098471_2_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

set_option maxRecDepth 16384

noncomputable section

open scoped BigOperators

namespace Cert.KernelIdeal.Hand.Gin

open Idealize.ShloMosaic Idealize.ShloMosaic.ValueIdx
open Cert.KernelIdeal Cert.KernelIdeal.Gen

theorem onehot_word (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  by_cases h : x = y
  · subst h; simp [IntOp.cmpi]
  · have hb : (x == y) = false := by simpa using h
    simp [IntOp.cmpi, hb, h]

theorem onehot_apply {s : Shape} (A B : IVec s 32) (h1 : 1 < 32) (hb : FTy.bf16.bits < FTy.f32.bits) (j : s.Idx) :
    (truncf .bf16 (sitofp (F := Ideal) .f32 (extui 32 (cmpi .eq A B) h1)) hb) j = if A j = B j then 1 else 0 :=
  onehot_word (A j) (B j)

def cE : dot_S5000x2048_S2048x64_S5000x64_1_0_0_1_n_n.contr.Idx ≃ Fin 2048 :=
  contrEquiv1 dot_S5000x2048_S2048x64_S5000x64_1_0_0_1_n_n 2048 rfl rfl

theorem lhsIdx_eq (r : Fin 5000) (f : Fin 64) (e : Fin 2048) :
    dot_S5000x2048_S2048x64_S5000x64_1_0_0_1_n_n.lhsIdx (ix2 r f) (cE.symm e) = ix2 r e := by
  funext a
  match a with
  | ⟨0, _⟩ => rfl
  | ⟨1, _⟩ => rfl
theorem rhsIdx_eq (r : Fin 5000) (f : Fin 64) (e : Fin 2048) :
    dot_S5000x2048_S2048x64_S5000x64_1_0_0_1_n_n.rhsIdx (ix2 r f) (cE.symm e) = ix2 e f := by
  funext a
  match a with
  | ⟨0, _⟩ => rfl
  | ⟨1, _⟩ => rfl

def cW : dot_S5000x64_S64x64_S5000x64_1_0_0_1_n_n.contr.Idx ≃ Fin 64 :=
  contrEquiv1 dot_S5000x64_S64x64_S5000x64_1_0_0_1_n_n 64 rfl rfl

theorem lhsIdxW_eq (r : Fin 5000) (f : Fin 64) (k : Fin 64) :
    dot_S5000x64_S64x64_S5000x64_1_0_0_1_n_n.lhsIdx (ix2 r f) (cW.symm k) = ix2 r k := by
  funext a
  match a with
  | ⟨0, _⟩ => rfl
  | ⟨1, _⟩ => rfl
theorem rhsIdxW_eq (r : Fin 5000) (f : Fin 64) (k : Fin 64) :
    dot_S5000x64_S64x64_S5000x64_1_0_0_1_n_n.rhsIdx (ix2 r f) (cW.symm k) = ix2 k f := by
  funext a
  match a with
  | ⟨0, _⟩ => rfl
  | ⟨1, _⟩ => rfl

section Sums
variable (dst : S1x800768.Idx → BitVec 32) (msg : S800768x64.Idx → EReal)

def edgeT (n : ℕ) (f : Fin 64) (e : ℕ) : EReal :=
  if h : e < 800768 then (if dst (ix2 0 ⟨e, h⟩) = BitVec.ofNat 32 n then msg (ix2 ⟨e, h⟩ f) else 0) else 0

theorem edgeT_lt (n : ℕ) (f : Fin 64) (e : ℕ) (h : e < 800768) :
    edgeT dst msg n f e = if dst (ix2 0 ⟨e, h⟩) = BitVec.ofNat 32 n then msg (ix2 ⟨e, h⟩ f) else 0 := dif_pos h

def accS (n m : ℕ) (f : Fin 64) : EReal := ∑ e ∈ Finset.range (m * 2048), edgeT dst msg n f e

theorem accS_zero (n : ℕ) (f : Fin 64) : accS dst msg n 0 f = 0 := by
  unfold accS; rw [Nat.zero_mul, Finset.range_zero, Finset.sum_empty]

theorem accS_succ (n m : ℕ) (f : Fin 64) :
    accS dst msg n (m + 1) f = accS dst msg n m f + ∑ e : Fin 2048, edgeT dst msg n f (m * 2048 + e.val) := by
  unfold accS
  rw [Nat.add_mul, Nat.one_mul, Finset.sum_range_add, Fin.sum_univ_eq_sum_range (fun x => edgeT dst msg n f (m * 2048 + x)) 2048]

theorem accS_full (n : Fin 50000) (f : Fin 64) :
    accS dst msg n.val 391 f = Cert.Spec.agg (E := 800768) (fun e => dst (ix2 0 e)) (fun e k => msg (ix2 e k)) n f := by
  unfold accS Cert.Spec.agg
  rw [show 391 * 2048 = 800768 from rfl, ← Fin.sum_univ_eq_sum_range (fun x => edgeT dst msg n.val f x) 800768]
  exact Finset.sum_congr rfl fun e _ => edgeT_lt dst msg n.val f e.val e.isLt

end Sums

end Cert.KernelIdeal.Hand.Gin

end
-- ==== Proof.KI.R0Value.lean ====
import proofs.«407044_j9311489098471_2_alg».proof.Proof.KI.R0Pieces
import proofs.«407044_j9311489098471_2_alg».proof.Proof.KI.R0Idx
import proofs.«407044_j9311489098471_2_alg».proof.Proof.KI.GinMath

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand.Gin

abbrev relu0 : Bool := true

theorem pay1_apply0 (r : Fin 5000) (f : Fin 64) : (k0_pay1 (F := Ideal)) (ix2 r f) = 0 := by
  unfold k0_pay1
  rw [shapeCast_self]
  exact Ideal.ofBits_zero_f32

theorem rowid_apply0 (i : grid0.Coords) (r : Fin 5000) (e : Fin 2048) :
    (broadcastTo S5000x2048 (addi (iota .tc S5000x1 32 [0] iota_S5000x1_d0_w32)
        (broadcast S5000x1 (Scalar.muli (BitVec.ofNat 32 (i 0).val) 5000#32))) broadcasts_S5000x1_S5000x2048) (ix2 r e)
      = BitVec.ofNat 32 ((i 0).val * 5000 + r.val) := by
  refine (broadcastTo_apply _ _ (ix2 r e) (ix2 r (0 : Fin 1)) ?_).trans ?_
  · intro a
    match a with
    | ⟨0, _⟩ => rfl
    | ⟨1, _⟩ => rfl
  · show IntOp.addi (iota .tc S5000x1 32 [0] iota_S5000x1_d0_w32 (ix2 r (0 : Fin 1))) (IntOp.muli (BitVec.ofNat 32 (i 0).val) 5000#32) = _
    rw [iota_single_apply]
    show BitVec.ofNat 32 r.val + BitVec.ofNat 32 (i 0).val * 5000#32 = _
    rw [Nat.add_comm, BitVec.ofNat_add, BitVec.ofNat_mul]

theorem onehot_row_apply0 (i : grid0.Coords) (v7 : Vec Ideal S1x2048 .i32) (r : Fin 5000) (e : Fin 2048) :
    (truncf .bf16 (sitofp (F := Ideal) .f32 (extui 32 (cmpi .eq
        (broadcastTo S5000x2048 (addi (iota .tc S5000x1 32 [0] iota_S5000x1_d0_w32)
          (broadcast S5000x1 (Scalar.muli (BitVec.ofNat 32 (i 0).val) 5000#32))) broadcasts_S5000x1_S5000x2048)
        (broadcastTo S5000x2048 v7 broadcasts_S1x2048_S5000x2048)) natLt_1_32)) bitsLt_bf16_f32) (ix2 r e)
      = if v7 (ix2 0 e) = BitVec.ofNat 32 ((i 0).val * 5000 + r.val) then 1 else 0 := by
  refine (onehot_apply _ _ _ _ (ix2 r e)).trans ?_
  rw [rowid_apply0, broadcastTo_1b_ab_apply]
  exact if_congr eq_comm rfl rfl

theorem pay2_apply0 (i : grid0.Coords) (v7 : Vec Ideal S1x2048 .i32) (v15 : Vec Ideal S2048x64 .bf16) (v17 : Vec Ideal S5000x64 .f32)
    (r : Fin 5000) (f : Fin 64) :
    k0_pay2 (F := Ideal) i v7 v15 v17 (ix2 r f)
      = v17 (ix2 r f) + ∑ e : Fin 2048, (if v7 (ix2 0 e) = BitVec.ofNat 32 ((i 0).val * 5000 + r.val) then v15 (ix2 e f) else 0) := by
  unfold k0_pay2
  simp only [shapeCast_self]
  refine (addf_apply _ _ _).trans ?_
  refine congrArg (v17 (ix2 r f) + ·) ?_
  refine (Ideal.matmul_constant_zero_apply (φ₁ := .bf16) (φ₂ := .bf16) dot_S5000x2048_S2048x64_S5000x64_1_0_0_1_n_n none _ v15 (ix2 r f)).trans ?_
  refine (Equiv.sum_comp cE.symm _).symm.trans ?_
  refine Finset.sum_congr rfl fun e _ => ?_
  rw [lhsIdx_eq, rhsIdx_eq]
  refine (congrArg (· * v15 (ix2 e f)) (onehot_row_apply0 i v7 r e)).trans ?_
  dsimp only
  split
  · exact one_mul _
  · exact zero_mul _

theorem pay3_apply0 (v26 v27 : Vec Ideal S5000x64 .f32) (v30 : Vec Ideal S64x64 .bf16) (v33 : Vec Ideal S64 .f32)
    (r : Fin 5000) (f : Fin 64) :
    k0_pay3 (F := Ideal) v26 v27 v30 v33 (ix2 r f)
      = Cert.Spec.reluIf relu0 ((∑ k : Fin 64, (v26 (ix2 r k) + v27 (ix2 r k)) * v30 (ix2 k f)) + v33 (ix1 f)) := by
  unfold k0_pay3
  simp only [shapeCast_self]
  first
  | (refine (maximumf_apply _ _ _).trans ?_
     show max _ _ = max _ 0
     refine congrArg₂ max ?_ Ideal.ofBits_zero_f32)
  | skip
  refine (addf_apply _ _ _).trans ?_
  refine congrArg₂ (· + ·) ?_ ?_
  · refine (Ideal.matmul_constant_zero_apply (φ₁ := .bf16) (φ₂ := .bf16) dot_S5000x64_S64x64_S5000x64_1_0_0_1_n_n none _ v30 (ix2 r f)).trans ?_
    refine (Equiv.sum_comp cW.symm _).symm.trans ?_
    refine Finset.sum_congr rfl fun k _ => ?_
    rw [lhsIdxW_eq, rhsIdxW_eq]
    rfl
  · refine (broadcastTo_1b_ab_apply _ _ r f).trans ?_
    exact shapeCast_a_1a_apply v33 _ 0 f

section Value
variable (V : (c : Dev nD) → (b : Ref sig .tc) → Buf (Elt Ideal) ((c : Thread nD τ).loc b))

abbrev xarr0 (c : Dev nD) : S50000x64.Idx → EReal := V c main_arg0
abbrev darr0 (c : Dev nD) : S1x800768.Idx → BitVec 32 := V c main_v17
abbrev marr0 (c : Dev nD) : S800768x64.Idx → EReal := V c main_v16
abbrev warr0 (c : Dev nD) : S64x64.Idx → EReal := V c main_v18
abbrev barr0 (c : Dev nD) : S64.Idx → EReal := V c main_arg5

abbrev xblk0 (c : Dev nD) (t : Fin cfg0.N) : Vec Ideal S5000x64 .f32 := iblk0 V c 0 t
abbrev dblk0 (c : Dev nD) (t : Fin cfg0.N) : Vec Ideal S1x2048 .i32 := iblk0 V c 1 t
abbrev mblk0 (c : Dev nD) (t : Fin cfg0.N) : Vec Ideal S2048x64 .bf16 := iblk0 V c 2 t
abbrev wblk0 (c : Dev nD) (t : Fin cfg0.N) : Vec Ideal S64x64 .bf16 := iblk0 V c 3 t
abbrev bblk0 (c : Dev nD) (t : Fin cfg0.N) : Vec Ideal S64 .f32 := iblk0 V c 4 t

theorem xblk_apply0 (c : Dev nD) (t : Fin cfg0.N) (r : Fin 5000) (k : Fin 64) (h : t.val / 391 * 5000 + r.val < 50000) :
    xblk0 V c t (ix2 r k) = xarr0 V c (ix2 ⟨t.val / 391 * 5000 + r.val, h⟩ k) := by
  unfold xblk0 xarr0 iblk0
  rw [View.read_apply]
  show V c main_arg0 _ = V c main_arg0 _
  congr 1
  funext a; apply Fin.ext
  match a with
  | ⟨0, _⟩ => show win0_0.index t 0 * 5000 + 1 * r.val = t.val / 391 * 5000 + r.val; rw [(index0_0 t).1]; omega
  | ⟨1, _⟩ => show win0_0.index t 1 * 64 + 1 * k.val = k.val; rw [(index0_0 t).2]; omega

theorem dblk_apply0 (c : Dev nD) (t : Fin cfg0.N) (e : Fin 2048) (h : t.val % 391 * 2048 + e.val < 800768) :
    dblk0 V c t (ix2 0 e) = darr0 V c (ix2 0 ⟨t.val % 391 * 2048 + e.val, h⟩) := by
  unfold dblk0 darr0 iblk0
  rw [View.read_apply]
  show V c main_v17 _ = V c main_v17 _
  congr 1
  funext a; apply Fin.ext
  match a with
  | ⟨0, _⟩ => show win0_1.index t 0 * 1 + 1 * 0 = 0; rw [(index0_1 t).1]
  | ⟨1, _⟩ => show win0_1.index t 1 * 2048 + 1 * e.val = t.val % 391 * 2048 + e.val; rw [(index0_1 t).2]; omega

theorem mblk_apply0 (c : Dev nD) (t : Fin cfg0.N) (e : Fin 2048) (f : Fin 64) (h : t.val % 391 * 2048 + e.val < 800768) :
    mblk0 V c t (ix2 e f) = marr0 V c (ix2 ⟨t.val % 391 * 2048 + e.val, h⟩ f) := by
  unfold mblk0 marr0 iblk0
  rw [View.read_apply]
  show V c main_v16 _ = V c main_v16 _
  congr 1
  funext a; apply Fin.ext
  match a with
  | ⟨0, _⟩ => show win0_2.index t 0 * 2048 + 1 * e.val = t.val % 391 * 2048 + e.val; rw [(index0_2 t).1]; omega
  | ⟨1, _⟩ => show win0_2.index t 1 * 64 + 1 * f.val = f.val; rw [(index0_2 t).2]; omega

theorem wblk_apply0 (c : Dev nD) (t : Fin cfg0.N) (k : Fin 64) (f : Fin 64) :
    wblk0 V c t (ix2 k f) = warr0 V c (ix2 k f) := by
  unfold wblk0 warr0 iblk0
  rw [View.read_apply]
  show V c main_v18 _ = V c main_v18 _
  congr 1
  funext a; apply Fin.ext
  match a with
  | ⟨0, _⟩ => show win0_3.index t 0 * 64 + 1 * k.val = k.val; rw [(index0_3 t).1]; omega
  | ⟨1, _⟩ => show win0_3.index t 1 * 64 + 1 * f.val = f.val; rw [(index0_3 t).2]; omega

theorem bblk_apply0 (c : Dev nD) (t : Fin cfg0.N) (f : Fin 64) :
    bblk0 V c t (ix1 f) = barr0 V c (ix1 f) := by
  unfold bblk0 barr0 iblk0
  rw [View.read_apply]
  show V c main_arg5 _ = V c main_arg5 _
  congr 1
  funext a; apply Fin.ext
  match a with
  | ⟨0, _⟩ => show win0_4.index t 0 * 64 + 1 * f.val = f.val; rw [index0_4 t]; omega

abbrev acc0 (c : Dev nD) (n m : ℕ) (f : Fin 64) : EReal := accS (darr0 V c) (marr0 V c) n m f

theorem blockstep0 (c : Dev nD) (t : Fin cfg0.N) (X : Vec Ideal S5000x64 .f32) (r : Fin 5000) (f : Fin 64)
    (hX : X (ix2 r f) = acc0 V c (t.val / 391 * 5000 + r.val) (t.val % 391) f) :
    k0_pay2 (F := Ideal) (grid0.coords t) (dblk0 V c t) (mblk0 V c t) X (ix2 r f)
      = acc0 V c (t.val / 391 * 5000 + r.val) (t.val % 391 + 1) f := by
  rw [pay2_apply0, hX]
  refine Eq.trans ?_ (accS_succ (darr0 V c) (marr0 V c) (t.val / 391 * 5000 + r.val) (t.val % 391) f).symm
  refine congrArg (_ + ·) (Finset.sum_congr rfl fun e _ => ?_)
  have he : t.val % 391 * 2048 + e.val < 800768 := by
    have := Nat.mod_lt t.val (show 391 > 0 by decide); have := e.isLt; omega
  rw [(coords0 t).1, edgeT_lt _ _ _ _ _ he, dblk_apply0 V c t e he, mblk_apply0 V c t e f he]

set_option maxHeartbeats 1000000 in

theorem sinv0 (c : Dev nD) (n : ℕ) : ∀ (hn : n < cfg0.N) (r : Fin 5000) (f : Fin 64),
    (outsAt0 V c n hn).2 (ix2 r f) = acc0 V c (n / 391 * 5000 + r.val) (n % 391 + 1) f := by
  induction n with
  | zero =>
    intro hn r f
    have h0 : (⟨0, hn⟩ : Fin cfg0.N).val % 391 = 0 := rfl
    have h1 : ¬(⟨0, hn⟩ : Fin cfg0.N).val % 391 = 390 := by show ¬(0 % 391 = 390); decide
    rw [outsAt0_A V c ⟨0, hn⟩ h0 h1]
    dsimp only
    refine (congrFun (soutA_eq0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr h0) (fun h => h1 ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩)) (ix2 r f)).trans ?_
    refine blockstep0 V c ⟨0, hn⟩ (k0_pay1 (F := Ideal)) r f ?_
    rw [pay1_apply0]; exact (accS_zero _ _ _ _).symm
  | succ n ih =>
    intro hn r f
    have hN : n + 1 < 3910 := lt_of_lt_of_eq hn (show cfg0.N = 3910 from N_0)
    by_cases h0 : (n + 1) % 391 = 0
    · have h1 : ¬(n + 1) % 391 = 390 := by omega
      rw [outsAt0_A V c ⟨n + 1, hn⟩ h0 h1]
      dsimp only
      refine (congrFun (soutA_eq0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)) (ix2 r f)).trans ?_
      refine blockstep0 V c ⟨n + 1, hn⟩ (k0_pay1 (F := Ideal)) r f ?_
      rw [pay1_apply0]
      show (0 : EReal) = acc0 V c _ ((n + 1) % 391) f
      rw [h0]; exact (accS_zero _ _ _ _).symm
    · have hprev : (outsAt0 V c n (Nat.lt_of_succ_lt hn)).2 (ix2 r f) = acc0 V c ((n + 1) / 391 * 5000 + r.val) ((n + 1) % 391) f := by
        rw [ih (Nat.lt_of_succ_lt hn) r f]
        congr 1 <;> omega
      by_cases h1 : (n + 1) % 391 = 390
      · rw [outsAt0_C V c ⟨n + 1, hn⟩ h0 h1]
        dsimp only
        refine (congrFun (soutC_eq0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 V c n (Nat.lt_of_succ_lt hn)).2) (ix2 r f)).trans ?_
        exact blockstep0 V c ⟨n + 1, hn⟩ _ r f hprev
      · rw [outsAt0_B V c ⟨n + 1, hn⟩ h0 h1]
        dsimp only
        refine (congrFun (soutB_eq0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 V c n (Nat.lt_of_succ_lt hn)).2) (ix2 r f)).trans ?_
        exact blockstep0 V c ⟨n + 1, hn⟩ _ r f hprev

def G0 (c : Dev nD) : S50000x64.Idx → EReal := fun j =>
  Cert.Spec.conv (E := 800768) relu0 (fun n k => xarr0 V c (ix2 n k)) (fun e => darr0 V c (ix2 0 e))
    (fun e k => marr0 V c (ix2 e k)) (fun k f => warr0 V c (ix2 k f)) (fun f => barr0 V c (ix1 f)) (j 0) (j 1)

set_option maxHeartbeats 1000000 in

theorem oinv0 (c : Dev nD) (t : Fin cfg0.N) (h1 : t.val % 391 = 390) (r : Fin 5000) (f : Fin 64)
    (hn : t.val / 391 * 5000 + r.val < 50000) :
    (outsAt0 V c t.val t.isLt).1 (ix2 r f) = G0 V c (ix2 ⟨t.val / 391 * 5000 + r.val, hn⟩ f) := by
  have h0 : ¬t.val % 391 = 0 := by omega
  have hN : t.val < 3910 := lt_of_lt_of_eq t.isLt (show cfg0.N = 3910 from N_0)
  rw [outsAt0_C V c t h0 h1]
  dsimp only
  refine (congrFun (outC_eq0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) (ix2 r f)).trans ?_
  refine (pay3_apply0 (xblk0 V c t) (k0_pay2 (grid0.coords t) (dblk0 V c t) (mblk0 V c t) (outsAt0 V c (t.val - 1) (Nat.lt_of_le_of_lt (Nat.sub_le _ _) t.isLt)).2) (wblk0 V c t) (bblk0 V c t) r f).trans ?_
  show Cert.Spec.reluIf relu0 _ = Cert.Spec.conv relu0 _ _ _ _ _ ⟨t.val / 391 * 5000 + r.val, hn⟩ f
  unfold Cert.Spec.conv
  refine congrArg (Cert.Spec.reluIf relu0) ?_
  refine congrArg₂ (· + ·) (Finset.sum_congr rfl fun k _ => ?_) (bblk_apply0 V c t f)
  refine congrArg₂ (· * ·) (congrArg₂ (· + ·) (xblk_apply0 V c t r k hn) ?_) (wblk_apply0 V c t k f)
  refine (blockstep0 V c t _ r k ?_).trans ?_
  · rw [sinv0 V c (t.val - 1) _ r k]
    congr 1 <;> omega
  · rw [h1]
    exact accS_full (darr0 V c) (marr0 V c) ⟨t.val / 391 * 5000 + r.val, hn⟩ k

theorem flushed_eq0 (c : Dev nD) (t : Fin cfg0.N) (hf : (cfg0.win 5).flush t = true) :
    (dat0 V c).flushed 5 t = ((cfg0.win 5).blk t).view.read (Elt Ideal) (G0 V c) := by
  have h1 : t.val % 391 = 390 := (flush0_5 t).mp hf
  have hN : t.val < 3910 := lt_of_lt_of_eq t.isLt (show cfg0.N = 3910 from N_0)
  show (cfg0.win 5).cut (grid0.coords t) ((dat0 V c).after 5 t) = _
  rw [after0_5]
  funext j
  obtain ⟨r, f, rfl⟩ : ∃ (r : Fin 5000) (f : Fin 64), j = ix2 r f := ⟨j 0, j 1, eq_ix2 j⟩
  have hn : t.val / 391 * 5000 + r.val < 50000 := by have := r.isLt; omega
  refine (oinv0 V c t h1 r f hn).trans ?_
  symm
  rw [View.read_apply]
  show G0 V c _ = G0 V c _
  refine congrArg (G0 V c) (funext fun a => Fin.ext ?_)
  match a with
  | ⟨0, _⟩ => show win0_5.index t 0 * 5000 + 1 * r.val = t.val / 391 * 5000 + r.val; rw [(index0_5 t).1]; omega
  | ⟨1, _⟩ => show win0_5.index t 1 * 64 + 1 * f.val = f.val; rw [(index0_5 t).2]; omega

theorem cover0 (c : Dev nD) (i : ((cfg0.win 5).arr.view.loc (c.tc : Thread nD τ)).2.ty.Idx) :
    ∃ t : Fin cfg0.N, (cfg0.win 5).flush t = true ∧ i ∈ ((cfg0.win 5).blk t).view.set := by
  have hi0 : (i 0 : Nat) < 50000 := (i 0).isLt
  have hi1 : (i 1 : Nat) < 64 := (i 1).isLt
  have hN : cfg0.N = 3910 := N_0
  have ht : (i 0 : Nat) / 5000 * 391 + 390 < cfg0.N := by rw [hN]; omega
  refine ⟨⟨(i 0 : Nat) / 5000 * 391 + 390, ht⟩, (flush0_5 _).mpr (by show ((i 0 : Nat) / 5000 * 391 + 390) % 391 = 390; omega), ?_⟩
  show i ∈ ((View.whole main_v19).slice (win0_5.rect ⟨(i 0 : Nat) / 5000 * 391 + 390, ht⟩)).set
  rw [View.set_slice_whole, Rect.mem_set_unit]
  intro a
  match a with
  | ⟨0, _⟩ =>
    show win0_5.index ⟨(i 0 : Nat) / 5000 * 391 + 390, ht⟩ 0 * 5000 ≤ (i 0 : Nat) ∧ (i 0 : Nat) < win0_5.index ⟨(i 0 : Nat) / 5000 * 391 + 390, ht⟩ 0 * 5000 + 5000
    rw [(index0_5 ⟨(i 0 : Nat) / 5000 * 391 + 390, ht⟩).1]
    show ((i 0 : Nat) / 5000 * 391 + 390) / 391 * 5000 ≤ (i 0 : Nat) ∧ (i 0 : Nat) < ((i 0 : Nat) / 5000 * 391 + 390) / 391 * 5000 + 5000
    omega
  | ⟨1, _⟩ =>
    show win0_5.index ⟨(i 0 : Nat) / 5000 * 391 + 390, ht⟩ 1 * 64 ≤ (i 1 : Nat) ∧ (i 1 : Nat) < win0_5.index ⟨(i 0 : Nat) / 5000 * 391 + 390, ht⟩ 1 * 64 + 64
    rw [(index0_5 ⟨(i 0 : Nat) / 5000 * 391 + 390, ht⟩).2]
    omega

theorem final0 (c : Dev nD) (n : Fin 50000) (f : Fin 64) :
    (dat0 (F := Ideal) V c).arrAt 5 cfg0.N (ValueIdx.ix2 n f)
      = Cert.Spec.conv (E := 800768) relu0 (fun n k => (V c main_arg0 : S50000x64.Idx → EReal) (ValueIdx.ix2 n k))
          (fun e => (V c main_v17 : S1x800768.Idx → BitVec 32) (ValueIdx.ix2 0 e))
          (fun e k => (V c main_v16 : S800768x64.Idx → EReal) (ValueIdx.ix2 e k))
          (fun k f => (V c main_v18 : S64x64.Idx → EReal) (ValueIdx.ix2 k f))
          (fun f => (V c main_arg5 : S64.Idx → EReal) (ValueIdx.ix1 f)) n f :=
  (congrFun ((dat0 V c).arrAt_eq_of_cover 5 (G0 V c) (flushed_eq0 V c) (cover0 c)) (ix2 n f)).trans rfl

end Value

end Cert.KernelIdeal.Hand

end
-- ==== Proof.KI.R3Pieces.lean ====
import proofs.«407044_j9311489098471_2_alg».proof.Proof.KI.R3
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz3 : (![0, 0] : Fin 2 → Nat) = fun _ => 0 := funext fun a => by fin_cases a <;> rfl
theorem hz3' : (![0] : Fin 1 → Nat) = fun _ => 0 := funext fun a => by fin_cases a; rfl

section
variable (c : Dev nD) (i : grid3.Coords) (arg2 : Memref sig .tc .vmem S5000x64 .f32) (harg2 : arg2.IsWhole) (arg3 : Memref sig .tc .vmem S1x2048 .i32) (harg3 : arg3.IsWhole) (arg4 : Memref sig .tc .vmem S2048x64 .bf16) (harg4 : arg4.IsWhole) (arg5 : Memref sig .tc .vmem S64x64 .bf16) (harg5 : arg5.IsWhole) (arg6 : Memref sig .tc .vmem S64 .f32) (harg6 : arg6.IsWhole) (arg7 : Memref sig .tc .vmem S5000x64 .f32) (harg7 : arg7.IsWhole) (arg8 : Memref sig .tc .vmem S5000x64 .f32) (harg8 : arg8.IsWhole)
include c i arg2 harg2 arg3 harg3 arg4 harg4 arg5 harg5 arg6 harg6 arg7 harg7 arg8 harg8

theorem soutB_eq3 (hc0 : ¬cond3_0 i) (hc1 : ¬cond3_1 i)
    (x0 : Vec F S5000x64 .f32) (x1 : Vec F S1x2048 .i32) (x2 : Vec F S2048x64 .bf16) (x3 : Vec F S64x64 .bf16) (x4 : Vec F S64 .f32) (xs0 : Vec F S5000x64 .f32) :
    sout3_B_0 c i arg2 harg2 arg3 harg3 arg4 harg4 arg5 harg5 arg6 harg6 arg7 harg7 arg8 harg8 hc0 hc1 x0 x1 x2 x3 x4 xs0 = k3_pay2 i x1 x2 xs0 := by
  unfold sout3_B_0
  rw [View.read_writes_eq_canon _ _ _ (scover3_B_0 c i arg2 harg2 arg3 harg3 arg4 harg4 arg5 harg5 arg6 harg6 arg7 harg7 arg8 harg8 hc0 hc1 x0 x1 x2 x3 x4 xs0)]
  unfold kernelRun3_B
  dsimp only
  sl_unfold_words
  rw [View.canon_unit_zero hz3]
  simp only [View.readAt_eq_ld, harg3.read_unread, harg4.read_unread, harg8.read_unread, View.ld_unit_zero (S := S1x2048) hz3, View.ld_unit_zero (S := S2048x64) hz3, View.ld_unit_zero (S := S5000x64) hz3]

theorem soutA_eq3 (hc0 : cond3_0 i) (hc1 : ¬cond3_1 i)
    (x0 : Vec F S5000x64 .f32) (x1 : Vec F S1x2048 .i32) (x2 : Vec F S2048x64 .bf16) (x3 : Vec F S64x64 .bf16) (x4 : Vec F S64 .f32) :
    sout3_A_0 c i arg2 harg2 arg3 harg3 arg4 harg4 arg5 harg5 arg6 harg6 arg7 harg7 arg8 harg8 hc0 hc1 x0 x1 x2 x3 x4 = k3_pay2 i x1 x2 (k3_pay1 (F := F)) := by
  unfold sout3_A_0
  rw [View.read_writes_eq_canon _ _ _ (scover3_A_0 c i arg2 harg2 arg3 harg3 arg4 harg4 arg5 harg5 arg6 harg6 arg7 harg7 arg8 harg8 hc0 hc1 x0 x1 x2 x3 x4)]
  unfold kernelRun3_A
  dsimp only
  sl_unfold_words
  rw [View.canon_cons_unit_zero (S := S5000x64) hz3, View.readCov_unit_zero (S := S5000x64) _ hz3]
  simp only [View.readAt_eq_ld, harg3.read_unread, harg4.read_unread, View.ld_unit_zero (S := S1x2048) hz3, View.ld_unit_zero (S := S2048x64) hz3, View.ld_unit_zero (S := S5000x64) hz3]

theorem soutC_eq3 (hc0 : ¬cond3_0 i) (hc1 : cond3_1 i)
    (x0 : Vec F S5000x64 .f32) (x1 : Vec F S1x2048 .i32) (x2 : Vec F S2048x64 .bf16) (x3 : Vec F S64x64 .bf16) (x4 : Vec F S64 .f32) (xs0 : Vec F S5000x64 .f32) :
    sout3_C_0 c i arg2 harg2 arg3 harg3 arg4 harg4 arg5 harg5 arg6 harg6 arg7 harg7 arg8 harg8 hc0 hc1 x0 x1 x2 x3 x4 xs0 = k3_pay2 i x1 x2 xs0 := by
  unfold sout3_C_0
  rw [View.read_writes_eq_canon _ _ _ (scover3_C_0 c i arg2 harg2 arg3 harg3 arg4 harg4 arg5 harg5 arg6 harg6 arg7 harg7 arg8 harg8 hc0 hc1 x0 x1 x2 x3 x4 xs0)]
  unfold kernelRun3_C
  dsimp only
  sl_unfold_words
  rw [View.canon_unit_zero hz3]
  simp only [View.readAt_eq_ld, harg3.read_unread, harg4.read_unread, harg8.read_unread, View.ld_unit_zero (S := S1x2048) hz3, View.ld_unit_zero (S := S2048x64) hz3, View.ld_unit_zero (S := S5000x64) hz3]

theorem outC_eq3 (hc0 : ¬cond3_0 i) (hc1 : cond3_1 i)
    (x0 : Vec F S5000x64 .f32) (x1 : Vec F S1x2048 .i32) (x2 : Vec F S2048x64 .bf16) (x3 : Vec F S64x64 .bf16) (x4 : Vec F S64 .f32) (xs0 : Vec F S5000x64 .f32) :
    out3_C_5 c i arg2 harg2 arg3 harg3 arg4 harg4 arg5 harg5 arg6 harg6 arg7 harg7 arg8 harg8 hc0 hc1 x0 x1 x2 x3 x4 xs0 = k3_pay3 x0 (k3_pay2 i x1 x2 xs0) x3 x4 := by
  unfold out3_C_5
  rw [View.read_writes_eq_canon _ _ _ (cover3_C_5 c i arg2 harg2 arg3 harg3 arg4 harg4 arg5 harg5 arg6 harg6 arg7 harg7 arg8 harg8 hc0 hc1 x0 x1 x2 x3 x4 xs0)]
  unfold kernelRun3_C
  dsimp only
  sl_unfold_words
  rw [View.canon_unit_zero hz3]
  simp only [View.readAt_eq_ld, harg2.read_unread, harg3.read_unread, harg4.read_unread, harg5.read_unread, harg6.read_unread, harg8.read_unread,
    View.readCov_unit_zero (S := S5000x64) _ hz3, View.ld_unit_zero (S := S1x2048) hz3, View.ld_unit_zero (S := S2048x64) hz3, View.ld_unit_zero (S := S5000x64) hz3, View.ld_unit_zero (S := S64x64) hz3, View.ld_unit_zero (S := S64) hz3']

end

end Cert.KernelIdeal.Hand

end
-- ==== Proof.KI.R3Idx.lean ====
import proofs.«407044_j9311489098471_2_alg».proof.Proof.Gen.KernelIdeal.Launch

noncomputable section

namespace Cert.KernelIdeal.Hand

open Idealize.ShloMosaic
open Cert.KernelIdeal Cert.KernelIdeal.Gen

theorem coords3 : ∀ t : Fin grid3.N, (grid3.coords t 0).val = t.val / 391 ∧ (grid3.coords t 1).val = t.val % 391 := by decide +kernel

theorem index3_0 : ∀ t : Fin grid3.N, win3_0.index t 0 = t.val / 391 ∧ win3_0.index t 1 = 0 := by decide +kernel
theorem index3_5 : ∀ t : Fin grid3.N, win3_5.index t 0 = t.val / 391 ∧ win3_5.index t 1 = 0 := by decide +kernel

theorem index3_1 : ∀ t : Fin grid3.N, win3_1.index t 0 = 0 ∧ win3_1.index t 1 = t.val % 391 := by decide +kernel
theorem index3_2 : ∀ t : Fin grid3.N, win3_2.index t 0 = t.val % 391 ∧ win3_2.index t 1 = 0 := by decide +kernel

theorem index3_3 : ∀ t : Fin grid3.N, win3_3.index t 0 = 0 ∧ win3_3.index t 1 = 0 := by decide +kernel
theorem index3_4 : ∀ t : Fin grid3.N, win3_4.index t 0 = 0 := by decide +kernel

end Cert.KernelIdeal.Hand

end
-- ==== Proof.KI.R3Value.lean ====
import proofs.«407044_j9311489098471_2_alg».proof.Proof.KI.R3Pieces
import proofs.«407044_j9311489098471_2_alg».proof.Proof.KI.R3Idx
import proofs.«407044_j9311489098471_2_alg».proof.Proof.KI.GinMath

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand.Gin

abbrev relu3 : Bool := true

theorem pay1_apply3 (r : Fin 5000) (f : Fin 64) : (k3_pay1 (F := Ideal)) (ix2 r f) = 0 := by
  unfold k3_pay1
  rw [shapeCast_self]
  exact Ideal.ofBits_zero_f32

theorem rowid_apply3 (i : grid3.Coords) (r : Fin 5000) (e : Fin 2048) :
    (broadcastTo S5000x2048 (addi (iota .tc S5000x1 32 [0] iota_S5000x1_d0_w32)
        (broadcast S5000x1 (Scalar.muli (BitVec.ofNat 32 (i 0).val) 5000#32))) broadcasts_S5000x1_S5000x2048) (ix2 r e)
      = BitVec.ofNat 32 ((i 0).val * 5000 + r.val) := by
  refine (broadcastTo_apply _ _ (ix2 r e) (ix2 r (0 : Fin 1)) ?_).trans ?_
  · intro a
    match a with
    | ⟨0, _⟩ => rfl
    | ⟨1, _⟩ => rfl
  · show IntOp.addi (iota .tc S5000x1 32 [0] iota_S5000x1_d0_w32 (ix2 r (0 : Fin 1))) (IntOp.muli (BitVec.ofNat 32 (i 0).val) 5000#32) = _
    rw [iota_single_apply]
    show BitVec.ofNat 32 r.val + BitVec.ofNat 32 (i 0).val * 5000#32 = _
    rw [Nat.add_comm, BitVec.ofNat_add, BitVec.ofNat_mul]

theorem onehot_row_apply3 (i : grid3.Coords) (v7 : Vec Ideal S1x2048 .i32) (r : Fin 5000) (e : Fin 2048) :
    (truncf .bf16 (sitofp (F := Ideal) .f32 (extui 32 (cmpi .eq
        (broadcastTo S5000x2048 (addi (iota .tc S5000x1 32 [0] iota_S5000x1_d0_w32)
          (broadcast S5000x1 (Scalar.muli (BitVec.ofNat 32 (i 0).val) 5000#32))) broadcasts_S5000x1_S5000x2048)
        (broadcastTo S5000x2048 v7 broadcasts_S1x2048_S5000x2048)) natLt_1_32)) bitsLt_bf16_f32) (ix2 r e)
      = if v7 (ix2 0 e) = BitVec.ofNat 32 ((i 0).val * 5000 + r.val) then 1 else 0 := by
  refine (onehot_apply _ _ _ _ (ix2 r e)).trans ?_
  rw [rowid_apply3, broadcastTo_1b_ab_apply]
  exact if_congr eq_comm rfl rfl

theorem pay2_apply3 (i : grid3.Coords) (v7 : Vec Ideal S1x2048 .i32) (v15 : Vec Ideal S2048x64 .bf16) (v17 : Vec Ideal S5000x64 .f32)
    (r : Fin 5000) (f : Fin 64) :
    k3_pay2 (F := Ideal) i v7 v15 v17 (ix2 r f)
      = v17 (ix2 r f) + ∑ e : Fin 2048, (if v7 (ix2 0 e) = BitVec.ofNat 32 ((i 0).val * 5000 + r.val) then v15 (ix2 e f) else 0) := by
  unfold k3_pay2
  simp only [shapeCast_self]
  refine (addf_apply _ _ _).trans ?_
  refine congrArg (v17 (ix2 r f) + ·) ?_
  refine (Ideal.matmul_constant_zero_apply (φ₁ := .bf16) (φ₂ := .bf16) dot_S5000x2048_S2048x64_S5000x64_1_0_0_1_n_n none _ v15 (ix2 r f)).trans ?_
  refine (Equiv.sum_comp cE.symm _).symm.trans ?_
  refine Finset.sum_congr rfl fun e _ => ?_
  rw [lhsIdx_eq, rhsIdx_eq]
  refine (congrArg (· * v15 (ix2 e f)) (onehot_row_apply3 i v7 r e)).trans ?_
  dsimp only
  split
  · exact one_mul _
  · exact zero_mul _

theorem pay3_apply3 (v26 v27 : Vec Ideal S5000x64 .f32) (v30 : Vec Ideal S64x64 .bf16) (v33 : Vec Ideal S64 .f32)
    (r : Fin 5000) (f : Fin 64) :
    k3_pay3 (F := Ideal) v26 v27 v30 v33 (ix2 r f)
      = Cert.Spec.reluIf relu3 ((∑ k : Fin 64, (v26 (ix2 r k) + v27 (ix2 r k)) * v30 (ix2 k f)) + v33 (ix1 f)) := by
  unfold k3_pay3
  simp only [shapeCast_self]
  first
  | (refine (maximumf_apply _ _ _).trans ?_
     show max _ _ = max _ 0
     refine congrArg₂ max ?_ Ideal.ofBits_zero_f32)
  | skip
  refine (addf_apply _ _ _).trans ?_
  refine congrArg₂ (· + ·) ?_ ?_
  · refine (Ideal.matmul_constant_zero_apply (φ₁ := .bf16) (φ₂ := .bf16) dot_S5000x64_S64x64_S5000x64_1_0_0_1_n_n none _ v30 (ix2 r f)).trans ?_
    refine (Equiv.sum_comp cW.symm _).symm.trans ?_
    refine Finset.sum_congr rfl fun k _ => ?_
    rw [lhsIdxW_eq, rhsIdxW_eq]
    rfl
  · refine (broadcastTo_1b_ab_apply _ _ r f).trans ?_
    exact shapeCast_a_1a_apply v33 _ 0 f

section Value
variable (V : (c : Dev nD) → (b : Ref sig .tc) → Buf (Elt Ideal) ((c : Thread nD τ).loc b))

abbrev xarr3 (c : Dev nD) : S50000x64.Idx → EReal := V c main_v27
abbrev darr3 (c : Dev nD) : S1x800768.Idx → BitVec 32 := V c main_v41
abbrev marr3 (c : Dev nD) : S800768x64.Idx → EReal := V c main_v40
abbrev warr3 (c : Dev nD) : S64x64.Idx → EReal := V c main_v42
abbrev barr3 (c : Dev nD) : S64.Idx → EReal := V c main_arg7

abbrev xblk3 (c : Dev nD) (t : Fin cfg3.N) : Vec Ideal S5000x64 .f32 := iblk3 V c 0 t
abbrev dblk3 (c : Dev nD) (t : Fin cfg3.N) : Vec Ideal S1x2048 .i32 := iblk3 V c 1 t
abbrev mblk3 (c : Dev nD) (t : Fin cfg3.N) : Vec Ideal S2048x64 .bf16 := iblk3 V c 2 t
abbrev wblk3 (c : Dev nD) (t : Fin cfg3.N) : Vec Ideal S64x64 .bf16 := iblk3 V c 3 t
abbrev bblk3 (c : Dev nD) (t : Fin cfg3.N) : Vec Ideal S64 .f32 := iblk3 V c 4 t

theorem xblk_apply3 (c : Dev nD) (t : Fin cfg3.N) (r : Fin 5000) (k : Fin 64) (h : t.val / 391 * 5000 + r.val < 50000) :
    xblk3 V c t (ix2 r k) = xarr3 V c (ix2 ⟨t.val / 391 * 5000 + r.val, h⟩ k) := by
  unfold xblk3 xarr3 iblk3
  rw [View.read_apply]
  show V c main_v27 _ = V c main_v27 _
  congr 1
  funext a; apply Fin.ext
  match a with
  | ⟨0, _⟩ => show win3_0.index t 0 * 5000 + 1 * r.val = t.val / 391 * 5000 + r.val; rw [(index3_0 t).1]; omega
  | ⟨1, _⟩ => show win3_0.index t 1 * 64 + 1 * k.val = k.val; rw [(index3_0 t).2]; omega

theorem dblk_apply3 (c : Dev nD) (t : Fin cfg3.N) (e : Fin 2048) (h : t.val % 391 * 2048 + e.val < 800768) :
    dblk3 V c t (ix2 0 e) = darr3 V c (ix2 0 ⟨t.val % 391 * 2048 + e.val, h⟩) := by
  unfold dblk3 darr3 iblk3
  rw [View.read_apply]
  show V c main_v41 _ = V c main_v41 _
  congr 1
  funext a; apply Fin.ext
  match a with
  | ⟨0, _⟩ => show win3_1.index t 0 * 1 + 1 * 0 = 0; rw [(index3_1 t).1]
  | ⟨1, _⟩ => show win3_1.index t 1 * 2048 + 1 * e.val = t.val % 391 * 2048 + e.val; rw [(index3_1 t).2]; omega

theorem mblk_apply3 (c : Dev nD) (t : Fin cfg3.N) (e : Fin 2048) (f : Fin 64) (h : t.val % 391 * 2048 + e.val < 800768) :
    mblk3 V c t (ix2 e f) = marr3 V c (ix2 ⟨t.val % 391 * 2048 + e.val, h⟩ f) := by
  unfold mblk3 marr3 iblk3
  rw [View.read_apply]
  show V c main_v40 _ = V c main_v40 _
  congr 1
  funext a; apply Fin.ext
  match a with
  | ⟨0, _⟩ => show win3_2.index t 0 * 2048 + 1 * e.val = t.val % 391 * 2048 + e.val; rw [(index3_2 t).1]; omega
  | ⟨1, _⟩ => show win3_2.index t 1 * 64 + 1 * f.val = f.val; rw [(index3_2 t).2]; omega

theorem wblk_apply3 (c : Dev nD) (t : Fin cfg3.N) (k : Fin 64) (f : Fin 64) :
    wblk3 V c t (ix2 k f) = warr3 V c (ix2 k f) := by
  unfold wblk3 warr3 iblk3
  rw [View.read_apply]
  show V c main_v42 _ = V c main_v42 _
  congr 1
  funext a; apply Fin.ext
  match a with
  | ⟨0, _⟩ => show win3_3.index t 0 * 64 + 1 * k.val = k.val; rw [(index3_3 t).1]; omega
  | ⟨1, _⟩ => show win3_3.index t 1 * 64 + 1 * f.val = f.val; rw [(index3_3 t).2]; omega

theorem bblk_apply3 (c : Dev nD) (t : Fin cfg3.N) (f : Fin 64) :
    bblk3 V c t (ix1 f) = barr3 V c (ix1 f) := by
  unfold bblk3 barr3 iblk3
  rw [View.read_apply]
  show V c main_arg7 _ = V c main_arg7 _
  congr 1
  funext a; apply Fin.ext
  match a with
  | ⟨0, _⟩ => show win3_4.index t 0 * 64 + 1 * f.val = f.val; rw [index3_4 t]; omega

abbrev acc3 (c : Dev nD) (n m : ℕ) (f : Fin 64) : EReal := accS (darr3 V c) (marr3 V c) n m f

theorem blockstep3 (c : Dev nD) (t : Fin cfg3.N) (X : Vec Ideal S5000x64 .f32) (r : Fin 5000) (f : Fin 64)
    (hX : X (ix2 r f) = acc3 V c (t.val / 391 * 5000 + r.val) (t.val % 391) f) :
    k3_pay2 (F := Ideal) (grid3.coords t) (dblk3 V c t) (mblk3 V c t) X (ix2 r f)
      = acc3 V c (t.val / 391 * 5000 + r.val) (t.val % 391 + 1) f := by
  rw [pay2_apply3, hX]
  refine Eq.trans ?_ (accS_succ (darr3 V c) (marr3 V c) (t.val / 391 * 5000 + r.val) (t.val % 391) f).symm
  refine congrArg (_ + ·) (Finset.sum_congr rfl fun e _ => ?_)
  have he : t.val % 391 * 2048 + e.val < 800768 := by
    have := Nat.mod_lt t.val (show 391 > 0 by decide); have := e.isLt; omega
  rw [(coords3 t).1, edgeT_lt _ _ _ _ _ he, dblk_apply3 V c t e he, mblk_apply3 V c t e f he]

set_option maxHeartbeats 1000000 in

theorem sinv3 (c : Dev nD) (n : ℕ) : ∀ (hn : n < cfg3.N) (r : Fin 5000) (f : Fin 64),
    (outsAt3 V c n hn).2 (ix2 r f) = acc3 V c (n / 391 * 5000 + r.val) (n % 391 + 1) f := by
  induction n with
  | zero =>
    intro hn r f
    have h0 : (⟨0, hn⟩ : Fin cfg3.N).val % 391 = 0 := rfl
    have h1 : ¬(⟨0, hn⟩ : Fin cfg3.N).val % 391 = 390 := by show ¬(0 % 391 = 390); decide
    rw [outsAt3_A V c ⟨0, hn⟩ h0 h1]
    dsimp only
    refine (congrFun (soutA_eq3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) ((hcond3_0 ⟨0, hn⟩).mpr h0) (fun h => h1 ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩)) (ix2 r f)).trans ?_
    refine blockstep3 V c ⟨0, hn⟩ (k3_pay1 (F := Ideal)) r f ?_
    rw [pay1_apply3]; exact (accS_zero _ _ _ _).symm
  | succ n ih =>
    intro hn r f
    have hN : n + 1 < 3910 := lt_of_lt_of_eq hn (show cfg3.N = 3910 from N_3)
    by_cases h0 : (n + 1) % 391 = 0
    · have h1 : ¬(n + 1) % 391 = 390 := by omega
      rw [outsAt3_A V c ⟨n + 1, hn⟩ h0 h1]
      dsimp only
      refine (congrFun (soutA_eq3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩)) (ix2 r f)).trans ?_
      refine blockstep3 V c ⟨n + 1, hn⟩ (k3_pay1 (F := Ideal)) r f ?_
      rw [pay1_apply3]
      show (0 : EReal) = acc3 V c _ ((n + 1) % 391) f
      rw [h0]; exact (accS_zero _ _ _ _).symm
    · have hprev : (outsAt3 V c n (Nat.lt_of_succ_lt hn)).2 (ix2 r f) = acc3 V c ((n + 1) / 391 * 5000 + r.val) ((n + 1) % 391) f := by
        rw [ih (Nat.lt_of_succ_lt hn) r f]
        congr 1 <;> omega
      by_cases h1 : (n + 1) % 391 = 390
      · rw [outsAt3_C V c ⟨n + 1, hn⟩ h0 h1]
        dsimp only
        refine (congrFun (soutC_eq3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 V c n (Nat.lt_of_succ_lt hn)).2) (ix2 r f)).trans ?_
        exact blockstep3 V c ⟨n + 1, hn⟩ _ r f hprev
      · rw [outsAt3_B V c ⟨n + 1, hn⟩ h0 h1]
        dsimp only
        refine (congrFun (soutB_eq3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 V c n (Nat.lt_of_succ_lt hn)).2) (ix2 r f)).trans ?_
        exact blockstep3 V c ⟨n + 1, hn⟩ _ r f hprev

def G3 (c : Dev nD) : S50000x64.Idx → EReal := fun j =>
  Cert.Spec.conv (E := 800768) relu3 (fun n k => xarr3 V c (ix2 n k)) (fun e => darr3 V c (ix2 0 e))
    (fun e k => marr3 V c (ix2 e k)) (fun k f => warr3 V c (ix2 k f)) (fun f => barr3 V c (ix1 f)) (j 0) (j 1)

set_option maxHeartbeats 1000000 in

theorem oinv3 (c : Dev nD) (t : Fin cfg3.N) (h1 : t.val % 391 = 390) (r : Fin 5000) (f : Fin 64)
    (hn : t.val / 391 * 5000 + r.val < 50000) :
    (outsAt3 V c t.val t.isLt).1 (ix2 r f) = G3 V c (ix2 ⟨t.val / 391 * 5000 + r.val, hn⟩ f) := by
  have h0 : ¬t.val % 391 = 0 := by omega
  have hN : t.val < 3910 := lt_of_lt_of_eq t.isLt (show cfg3.N = 3910 from N_3)
  rw [outsAt3_C V c t h0 h1]
  dsimp only
  refine (congrFun (outC_eq3 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2) (ix2 r f)).trans ?_
  refine (pay3_apply3 (xblk3 V c t) (k3_pay2 (grid3.coords t) (dblk3 V c t) (mblk3 V c t) (outsAt3 V c (t.val - 1) (Nat.lt_of_le_of_lt (Nat.sub_le _ _) t.isLt)).2) (wblk3 V c t) (bblk3 V c t) r f).trans ?_
  show Cert.Spec.reluIf relu3 _ = Cert.Spec.conv relu3 _ _ _ _ _ ⟨t.val / 391 * 5000 + r.val, hn⟩ f
  unfold Cert.Spec.conv
  refine congrArg (Cert.Spec.reluIf relu3) ?_
  refine congrArg₂ (· + ·) (Finset.sum_congr rfl fun k _ => ?_) (bblk_apply3 V c t f)
  refine congrArg₂ (· * ·) (congrArg₂ (· + ·) (xblk_apply3 V c t r k hn) ?_) (wblk_apply3 V c t k f)
  refine (blockstep3 V c t _ r k ?_).trans ?_
  · rw [sinv3 V c (t.val - 1) _ r k]
    congr 1 <;> omega
  · rw [h1]
    exact accS_full (darr3 V c) (marr3 V c) ⟨t.val / 391 * 5000 + r.val, hn⟩ k

theorem flushed_eq3 (c : Dev nD) (t : Fin cfg3.N) (hf : (cfg3.win 5).flush t = true) :
    (dat3 V c).flushed 5 t = ((cfg3.win 5).blk t).view.read (Elt Ideal) (G3 V c) := by
  have h1 : t.val % 391 = 390 := (flush3_5 t).mp hf
  have hN : t.val < 3910 := lt_of_lt_of_eq t.isLt (show cfg3.N = 3910 from N_3)
  show (cfg3.win 5).cut (grid3.coords t) ((dat3 V c).after 5 t) = _
  rw [after3_5]
  funext j
  obtain ⟨r, f, rfl⟩ : ∃ (r : Fin 5000) (f : Fin 64), j = ix2 r f := ⟨j 0, j 1, eq_ix2 j⟩
  have hn : t.val / 391 * 5000 + r.val < 50000 := by have := r.isLt; omega
  refine (oinv3 V c t h1 r f hn).trans ?_
  symm
  rw [View.read_apply]
  show G3 V c _ = G3 V c _
  refine congrArg (G3 V c) (funext fun a => Fin.ext ?_)
  match a with
  | ⟨0, _⟩ => show win3_5.index t 0 * 5000 + 1 * r.val = t.val / 391 * 5000 + r.val; rw [(index3_5 t).1]; omega
  | ⟨1, _⟩ => show win3_5.index t 1 * 64 + 1 * f.val = f.val; rw [(index3_5 t).2]; omega

theorem cover3 (c : Dev nD) (i : ((cfg3.win 5).arr.view.loc (c.tc : Thread nD τ)).2.ty.Idx) :
    ∃ t : Fin cfg3.N, (cfg3.win 5).flush t = true ∧ i ∈ ((cfg3.win 5).blk t).view.set := by
  have hi0 : (i 0 : Nat) < 50000 := (i 0).isLt
  have hi1 : (i 1 : Nat) < 64 := (i 1).isLt
  have hN : cfg3.N = 3910 := N_3
  have ht : (i 0 : Nat) / 5000 * 391 + 390 < cfg3.N := by rw [hN]; omega
  refine ⟨⟨(i 0 : Nat) / 5000 * 391 + 390, ht⟩, (flush3_5 _).mpr (by show ((i 0 : Nat) / 5000 * 391 + 390) % 391 = 390; omega), ?_⟩
  show i ∈ ((View.whole main_v43).slice (win3_5.rect ⟨(i 0 : Nat) / 5000 * 391 + 390, ht⟩)).set
  rw [View.set_slice_whole, Rect.mem_set_unit]
  intro a
  match a with
  | ⟨0, _⟩ =>
    show win3_5.index ⟨(i 0 : Nat) / 5000 * 391 + 390, ht⟩ 0 * 5000 ≤ (i 0 : Nat) ∧ (i 0 : Nat) < win3_5.index ⟨(i 0 : Nat) / 5000 * 391 + 390, ht⟩ 0 * 5000 + 5000
    rw [(index3_5 ⟨(i 0 : Nat) / 5000 * 391 + 390, ht⟩).1]
    show ((i 0 : Nat) / 5000 * 391 + 390) / 391 * 5000 ≤ (i 0 : Nat) ∧ (i 0 : Nat) < ((i 0 : Nat) / 5000 * 391 + 390) / 391 * 5000 + 5000
    omega
  | ⟨1, _⟩ =>
    show win3_5.index ⟨(i 0 : Nat) / 5000 * 391 + 390, ht⟩ 1 * 64 ≤ (i 1 : Nat) ∧ (i 1 : Nat) < win3_5.index ⟨(i 0 : Nat) / 5000 * 391 + 390, ht⟩ 1 * 64 + 64
    rw [(index3_5 ⟨(i 0 : Nat) / 5000 * 391 + 390, ht⟩).2]
    omega

theorem final3 (c : Dev nD) (n : Fin 50000) (f : Fin 64) :
    (dat3 (F := Ideal) V c).arrAt 5 cfg3.N (ValueIdx.ix2 n f)
      = Cert.Spec.conv (E := 800768) relu3 (fun n k => (V c main_v27 : S50000x64.Idx → EReal) (ValueIdx.ix2 n k))
          (fun e => (V c main_v41 : S1x800768.Idx → BitVec 32) (ValueIdx.ix2 0 e))
          (fun e k => (V c main_v40 : S800768x64.Idx → EReal) (ValueIdx.ix2 e k))
          (fun k f => (V c main_v42 : S64x64.Idx → EReal) (ValueIdx.ix2 k f))
          (fun f => (V c main_arg7 : S64.Idx → EReal) (ValueIdx.ix1 f)) n f :=
  (congrFun ((dat3 V c).arrAt_eq_of_cover 5 (G3 V c) (flushed_eq3 V c) (cover3 c)) (ix2 n f)).trans rfl

end Value

end Cert.KernelIdeal.Hand

end
-- ==== Proof.KI.R6Pieces.lean ====
import proofs.«407044_j9311489098471_2_alg».proof.Proof.KI.R6
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz6 : (![0, 0] : Fin 2 → Nat) = fun _ => 0 := funext fun a => by fin_cases a <;> rfl
theorem hz6' : (![0] : Fin 1 → Nat) = fun _ => 0 := funext fun a => by fin_cases a; rfl

section
variable (c : Dev nD) (i : grid6.Coords) (arg2 : Memref sig .tc .vmem S5000x64 .f32) (harg2 : arg2.IsWhole) (arg3 : Memref sig .tc .vmem S1x2048 .i32) (harg3 : arg3.IsWhole) (arg4 : Memref sig .tc .vmem S2048x64 .bf16) (harg4 : arg4.IsWhole) (arg5 : Memref sig .tc .vmem S64x64 .bf16) (harg5 : arg5.IsWhole) (arg6 : Memref sig .tc .vmem S64 .f32) (harg6 : arg6.IsWhole) (arg7 : Memref sig .tc .vmem S5000x64 .f32) (harg7 : arg7.IsWhole) (arg8 : Memref sig .tc .vmem S5000x64 .f32) (harg8 : arg8.IsWhole)
include c i arg2 harg2 arg3 harg3 arg4 harg4 arg5 harg5 arg6 harg6 arg7 harg7 arg8 harg8

theorem soutB_eq6 (hc0 : ¬cond6_0 i) (hc1 : ¬cond6_1 i)
    (x0 : Vec F S5000x64 .f32) (x1 : Vec F S1x2048 .i32) (x2 : Vec F S2048x64 .bf16) (x3 : Vec F S64x64 .bf16) (x4 : Vec F S64 .f32) (xs0 : Vec F S5000x64 .f32) :
    sout6_B_0 c i arg2 harg2 arg3 harg3 arg4 harg4 arg5 harg5 arg6 harg6 arg7 harg7 arg8 harg8 hc0 hc1 x0 x1 x2 x3 x4 xs0 = k6_pay2 i x1 x2 xs0 := by
  unfold sout6_B_0
  rw [View.read_writes_eq_canon _ _ _ (scover6_B_0 c i arg2 harg2 arg3 harg3 arg4 harg4 arg5 harg5 arg6 harg6 arg7 harg7 arg8 harg8 hc0 hc1 x0 x1 x2 x3 x4 xs0)]
  unfold kernelRun6_B
  dsimp only
  sl_unfold_words
  rw [View.canon_unit_zero hz6]
  simp only [View.readAt_eq_ld, harg3.read_unread, harg4.read_unread, harg8.read_unread, View.ld_unit_zero (S := S1x2048) hz6, View.ld_unit_zero (S := S2048x64) hz6, View.ld_unit_zero (S := S5000x64) hz6]

theorem soutA_eq6 (hc0 : cond6_0 i) (hc1 : ¬cond6_1 i)
    (x0 : Vec F S5000x64 .f32) (x1 : Vec F S1x2048 .i32) (x2 : Vec F S2048x64 .bf16) (x3 : Vec F S64x64 .bf16) (x4 : Vec F S64 .f32) :
    sout6_A_0 c i arg2 harg2 arg3 harg3 arg4 harg4 arg5 harg5 arg6 harg6 arg7 harg7 arg8 harg8 hc0 hc1 x0 x1 x2 x3 x4 = k6_pay2 i x1 x2 (k6_pay1 (F := F)) := by
  unfold sout6_A_0
  rw [View.read_writes_eq_canon _ _ _ (scover6_A_0 c i arg2 harg2 arg3 harg3 arg4 harg4 arg5 harg5 arg6 harg6 arg7 harg7 arg8 harg8 hc0 hc1 x0 x1 x2 x3 x4)]
  unfold kernelRun6_A
  dsimp only
  sl_unfold_words
  rw [View.canon_cons_unit_zero (S := S5000x64) hz6, View.readCov_unit_zero (S := S5000x64) _ hz6]
  simp only [View.readAt_eq_ld, harg3.read_unread, harg4.read_unread, View.ld_unit_zero (S := S1x2048) hz6, View.ld_unit_zero (S := S2048x64) hz6, View.ld_unit_zero (S := S5000x64) hz6]

theorem soutC_eq6 (hc0 : ¬cond6_0 i) (hc1 : cond6_1 i)
    (x0 : Vec F S5000x64 .f32) (x1 : Vec F S1x2048 .i32) (x2 : Vec F S2048x64 .bf16) (x3 : Vec F S64x64 .bf16) (x4 : Vec F S64 .f32) (xs0 : Vec F S5000x64 .f32) :
    sout6_C_0 c i arg2 harg2 arg3 harg3 arg4 harg4 arg5 harg5 arg6 harg6 arg7 harg7 arg8 harg8 hc0 hc1 x0 x1 x2 x3 x4 xs0 = k6_pay2 i x1 x2 xs0 := by
  unfold sout6_C_0
  rw [View.read_writes_eq_canon _ _ _ (scover6_C_0 c i arg2 harg2 arg3 harg3 arg4 harg4 arg5 harg5 arg6 harg6 arg7 harg7 arg8 harg8 hc0 hc1 x0 x1 x2 x3 x4 xs0)]
  unfold kernelRun6_C
  dsimp only
  sl_unfold_words
  rw [View.canon_unit_zero hz6]
  simp only [View.readAt_eq_ld, harg3.read_unread, harg4.read_unread, harg8.read_unread, View.ld_unit_zero (S := S1x2048) hz6, View.ld_unit_zero (S := S2048x64) hz6, View.ld_unit_zero (S := S5000x64) hz6]

theorem outC_eq6 (hc0 : ¬cond6_0 i) (hc1 : cond6_1 i)
    (x0 : Vec F S5000x64 .f32) (x1 : Vec F S1x2048 .i32) (x2 : Vec F S2048x64 .bf16) (x3 : Vec F S64x64 .bf16) (x4 : Vec F S64 .f32) (xs0 : Vec F S5000x64 .f32) :
    out6_C_5 c i arg2 harg2 arg3 harg3 arg4 harg4 arg5 harg5 arg6 harg6 arg7 harg7 arg8 harg8 hc0 hc1 x0 x1 x2 x3 x4 xs0 = k6_pay3 x0 (k6_pay2 i x1 x2 xs0) x3 x4 := by
  unfold out6_C_5
  rw [View.read_writes_eq_canon _ _ _ (cover6_C_5 c i arg2 harg2 arg3 harg3 arg4 harg4 arg5 harg5 arg6 harg6 arg7 harg7 arg8 harg8 hc0 hc1 x0 x1 x2 x3 x4 xs0)]
  unfold kernelRun6_C
  dsimp only
  sl_unfold_words
  rw [View.canon_unit_zero hz6]
  simp only [View.readAt_eq_ld, harg2.read_unread, harg3.read_unread, harg4.read_unread, harg5.read_unread, harg6.read_unread, harg8.read_unread,
    View.readCov_unit_zero (S := S5000x64) _ hz6, View.ld_unit_zero (S := S1x2048) hz6, View.ld_unit_zero (S := S2048x64) hz6, View.ld_unit_zero (S := S5000x64) hz6, View.ld_unit_zero (S := S64x64) hz6, View.ld_unit_zero (S := S64) hz6']

end

end Cert.KernelIdeal.Hand

end
-- ==== Proof.KI.R6Idx.lean ====
import proofs.«407044_j9311489098471_2_alg».proof.Proof.Gen.KernelIdeal.Launch

noncomputable section

namespace Cert.KernelIdeal.Hand

open Idealize.ShloMosaic
open Cert.KernelIdeal Cert.KernelIdeal.Gen

theorem coords6 : ∀ t : Fin grid6.N, (grid6.coords t 0).val = t.val / 391 ∧ (grid6.coords t 1).val = t.val % 391 := by decide +kernel

theorem index6_0 : ∀ t : Fin grid6.N, win6_0.index t 0 = t.val / 391 ∧ win6_0.index t 1 = 0 := by decide +kernel
theorem index6_5 : ∀ t : Fin grid6.N, win6_5.index t 0 = t.val / 391 ∧ win6_5.index t 1 = 0 := by decide +kernel

theorem index6_1 : ∀ t : Fin grid6.N, win6_1.index t 0 = 0 ∧ win6_1.index t 1 = t.val % 391 := by decide +kernel
theorem index6_2 : ∀ t : Fin grid6.N, win6_2.index t 0 = t.val % 391 ∧ win6_2.index t 1 = 0 := by decide +kernel

theorem index6_3 : ∀ t : Fin grid6.N, win6_3.index t 0 = 0 ∧ win6_3.index t 1 = 0 := by decide +kernel
theorem index6_4 : ∀ t : Fin grid6.N, win6_4.index t 0 = 0 := by decide +kernel

end Cert.KernelIdeal.Hand

end
-- ==== Proof.KI.R6Value.lean ====
import proofs.«407044_j9311489098471_2_alg».proof.Proof.KI.R6Pieces
import proofs.«407044_j9311489098471_2_alg».proof.Proof.KI.R6Idx
import proofs.«407044_j9311489098471_2_alg».proof.Proof.KI.GinMath

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand.Gin

abbrev relu6 : Bool := false

theorem pay1_apply6 (r : Fin 5000) (f : Fin 64) : (k6_pay1 (F := Ideal)) (ix2 r f) = 0 := by
  unfold k6_pay1
  rw [shapeCast_self]
  exact Ideal.ofBits_zero_f32

theorem rowid_apply6 (i : grid6.Coords) (r : Fin 5000) (e : Fin 2048) :
    (broadcastTo S5000x2048 (addi (iota .tc S5000x1 32 [0] iota_S5000x1_d0_w32)
        (broadcast S5000x1 (Scalar.muli (BitVec.ofNat 32 (i 0).val) 5000#32))) broadcasts_S5000x1_S5000x2048) (ix2 r e)
      = BitVec.ofNat 32 ((i 0).val * 5000 + r.val) := by
  refine (broadcastTo_apply _ _ (ix2 r e) (ix2 r (0 : Fin 1)) ?_).trans ?_
  · intro a
    match a with
    | ⟨0, _⟩ => rfl
    | ⟨1, _⟩ => rfl
  · show IntOp.addi (iota .tc S5000x1 32 [0] iota_S5000x1_d0_w32 (ix2 r (0 : Fin 1))) (IntOp.muli (BitVec.ofNat 32 (i 0).val) 5000#32) = _
    rw [iota_single_apply]
    show BitVec.ofNat 32 r.val + BitVec.ofNat 32 (i 0).val * 5000#32 = _
    rw [Nat.add_comm, BitVec.ofNat_add, BitVec.ofNat_mul]

theorem onehot_row_apply6 (i : grid6.Coords) (v7 : Vec Ideal S1x2048 .i32) (r : Fin 5000) (e : Fin 2048) :
    (truncf .bf16 (sitofp (F := Ideal) .f32 (extui 32 (cmpi .eq
        (broadcastTo S5000x2048 (addi (iota .tc S5000x1 32 [0] iota_S5000x1_d0_w32)
          (broadcast S5000x1 (Scalar.muli (BitVec.ofNat 32 (i 0).val) 5000#32))) broadcasts_S5000x1_S5000x2048)
        (broadcastTo S5000x2048 v7 broadcasts_S1x2048_S5000x2048)) natLt_1_32)) bitsLt_bf16_f32) (ix2 r e)
      = if v7 (ix2 0 e) = BitVec.ofNat 32 ((i 0).val * 5000 + r.val) then 1 else 0 := by
  refine (onehot_apply _ _ _ _ (ix2 r e)).trans ?_
  rw [rowid_apply6, broadcastTo_1b_ab_apply]
  exact if_congr eq_comm rfl rfl

theorem pay2_apply6 (i : grid6.Coords) (v7 : Vec Ideal S1x2048 .i32) (v15 : Vec Ideal S2048x64 .bf16) (v17 : Vec Ideal S5000x64 .f32)
    (r : Fin 5000) (f : Fin 64) :
    k6_pay2 (F := Ideal) i v7 v15 v17 (ix2 r f)
      = v17 (ix2 r f) + ∑ e : Fin 2048, (if v7 (ix2 0 e) = BitVec.ofNat 32 ((i 0).val * 5000 + r.val) then v15 (ix2 e f) else 0) := by
  unfold k6_pay2
  simp only [shapeCast_self]
  refine (addf_apply _ _ _).trans ?_
  refine congrArg (v17 (ix2 r f) + ·) ?_
  refine (Ideal.matmul_constant_zero_apply (φ₁ := .bf16) (φ₂ := .bf16) dot_S5000x2048_S2048x64_S5000x64_1_0_0_1_n_n none _ v15 (ix2 r f)).trans ?_
  refine (Equiv.sum_comp cE.symm _).symm.trans ?_
  refine Finset.sum_congr rfl fun e _ => ?_
  rw [lhsIdx_eq, rhsIdx_eq]
  refine (congrArg (· * v15 (ix2 e f)) (onehot_row_apply6 i v7 r e)).trans ?_
  dsimp only
  split
  · exact one_mul _
  · exact zero_mul _

theorem pay3_apply6 (v26 v27 : Vec Ideal S5000x64 .f32) (v30 : Vec Ideal S64x64 .bf16) (v33 : Vec Ideal S64 .f32)
    (r : Fin 5000) (f : Fin 64) :
    k6_pay3 (F := Ideal) v26 v27 v30 v33 (ix2 r f)
      = Cert.Spec.reluIf relu6 ((∑ k : Fin 64, (v26 (ix2 r k) + v27 (ix2 r k)) * v30 (ix2 k f)) + v33 (ix1 f)) := by
  unfold k6_pay3
  simp only [shapeCast_self]
  first
  | (refine (maximumf_apply _ _ _).trans ?_
     show max _ _ = max _ 0
     refine congrArg₂ max ?_ Ideal.ofBits_zero_f32)
  | skip
  refine (addf_apply _ _ _).trans ?_
  refine congrArg₂ (· + ·) ?_ ?_
  · refine (Ideal.matmul_constant_zero_apply (φ₁ := .bf16) (φ₂ := .bf16) dot_S5000x64_S64x64_S5000x64_1_0_0_1_n_n none _ v30 (ix2 r f)).trans ?_
    refine (Equiv.sum_comp cW.symm _).symm.trans ?_
    refine Finset.sum_congr rfl fun k _ => ?_
    rw [lhsIdxW_eq, rhsIdxW_eq]
    rfl
  · refine (broadcastTo_1b_ab_apply _ _ r f).trans ?_
    exact shapeCast_a_1a_apply v33 _ 0 f

section Value
variable (V : (c : Dev nD) → (b : Ref sig .tc) → Buf (Elt Ideal) ((c : Thread nD τ).loc b))

abbrev xarr6 (c : Dev nD) : S50000x64.Idx → EReal := V c main_v51
abbrev darr6 (c : Dev nD) : S1x800768.Idx → BitVec 32 := V c main_v65
abbrev marr6 (c : Dev nD) : S800768x64.Idx → EReal := V c main_v64
abbrev warr6 (c : Dev nD) : S64x64.Idx → EReal := V c main_v66
abbrev barr6 (c : Dev nD) : S64.Idx → EReal := V c main_arg9

abbrev xblk6 (c : Dev nD) (t : Fin cfg6.N) : Vec Ideal S5000x64 .f32 := iblk6 V c 0 t
abbrev dblk6 (c : Dev nD) (t : Fin cfg6.N) : Vec Ideal S1x2048 .i32 := iblk6 V c 1 t
abbrev mblk6 (c : Dev nD) (t : Fin cfg6.N) : Vec Ideal S2048x64 .bf16 := iblk6 V c 2 t
abbrev wblk6 (c : Dev nD) (t : Fin cfg6.N) : Vec Ideal S64x64 .bf16 := iblk6 V c 3 t
abbrev bblk6 (c : Dev nD) (t : Fin cfg6.N) : Vec Ideal S64 .f32 := iblk6 V c 4 t

theorem xblk_apply6 (c : Dev nD) (t : Fin cfg6.N) (r : Fin 5000) (k : Fin 64) (h : t.val / 391 * 5000 + r.val < 50000) :
    xblk6 V c t (ix2 r k) = xarr6 V c (ix2 ⟨t.val / 391 * 5000 + r.val, h⟩ k) := by
  unfold xblk6 xarr6 iblk6
  rw [View.read_apply]
  show V c main_v51 _ = V c main_v51 _
  congr 1
  funext a; apply Fin.ext
  match a with
  | ⟨0, _⟩ => show win6_0.index t 0 * 5000 + 1 * r.val = t.val / 391 * 5000 + r.val; rw [(index6_0 t).1]; omega
  | ⟨1, _⟩ => show win6_0.index t 1 * 64 + 1 * k.val = k.val; rw [(index6_0 t).2]; omega

theorem dblk_apply6 (c : Dev nD) (t : Fin cfg6.N) (e : Fin 2048) (h : t.val % 391 * 2048 + e.val < 800768) :
    dblk6 V c t (ix2 0 e) = darr6 V c (ix2 0 ⟨t.val % 391 * 2048 + e.val, h⟩) := by
  unfold dblk6 darr6 iblk6
  rw [View.read_apply]
  show V c main_v65 _ = V c main_v65 _
  congr 1
  funext a; apply Fin.ext
  match a with
  | ⟨0, _⟩ => show win6_1.index t 0 * 1 + 1 * 0 = 0; rw [(index6_1 t).1]
  | ⟨1, _⟩ => show win6_1.index t 1 * 2048 + 1 * e.val = t.val % 391 * 2048 + e.val; rw [(index6_1 t).2]; omega

theorem mblk_apply6 (c : Dev nD) (t : Fin cfg6.N) (e : Fin 2048) (f : Fin 64) (h : t.val % 391 * 2048 + e.val < 800768) :
    mblk6 V c t (ix2 e f) = marr6 V c (ix2 ⟨t.val % 391 * 2048 + e.val, h⟩ f) := by
  unfold mblk6 marr6 iblk6
  rw [View.read_apply]
  show V c main_v64 _ = V c main_v64 _
  congr 1
  funext a; apply Fin.ext
  match a with
  | ⟨0, _⟩ => show win6_2.index t 0 * 2048 + 1 * e.val = t.val % 391 * 2048 + e.val; rw [(index6_2 t).1]; omega
  | ⟨1, _⟩ => show win6_2.index t 1 * 64 + 1 * f.val = f.val; rw [(index6_2 t).2]; omega

theorem wblk_apply6 (c : Dev nD) (t : Fin cfg6.N) (k : Fin 64) (f : Fin 64) :
    wblk6 V c t (ix2 k f) = warr6 V c (ix2 k f) := by
  unfold wblk6 warr6 iblk6
  rw [View.read_apply]
  show V c main_v66 _ = V c main_v66 _
  congr 1
  funext a; apply Fin.ext
  match a with
  | ⟨0, _⟩ => show win6_3.index t 0 * 64 + 1 * k.val = k.val; rw [(index6_3 t).1]; omega
  | ⟨1, _⟩ => show win6_3.index t 1 * 64 + 1 * f.val = f.val; rw [(index6_3 t).2]; omega

theorem bblk_apply6 (c : Dev nD) (t : Fin cfg6.N) (f : Fin 64) :
    bblk6 V c t (ix1 f) = barr6 V c (ix1 f) := by
  unfold bblk6 barr6 iblk6
  rw [View.read_apply]
  show V c main_arg9 _ = V c main_arg9 _
  congr 1
  funext a; apply Fin.ext
  match a with
  | ⟨0, _⟩ => show win6_4.index t 0 * 64 + 1 * f.val = f.val; rw [index6_4 t]; omega

abbrev acc6 (c : Dev nD) (n m : ℕ) (f : Fin 64) : EReal := accS (darr6 V c) (marr6 V c) n m f

theorem blockstep6 (c : Dev nD) (t : Fin cfg6.N) (X : Vec Ideal S5000x64 .f32) (r : Fin 5000) (f : Fin 64)
    (hX : X (ix2 r f) = acc6 V c (t.val / 391 * 5000 + r.val) (t.val % 391) f) :
    k6_pay2 (F := Ideal) (grid6.coords t) (dblk6 V c t) (mblk6 V c t) X (ix2 r f)
      = acc6 V c (t.val / 391 * 5000 + r.val) (t.val % 391 + 1) f := by
  rw [pay2_apply6, hX]
  refine Eq.trans ?_ (accS_succ (darr6 V c) (marr6 V c) (t.val / 391 * 5000 + r.val) (t.val % 391) f).symm
  refine congrArg (_ + ·) (Finset.sum_congr rfl fun e _ => ?_)
  have he : t.val % 391 * 2048 + e.val < 800768 := by
    have := Nat.mod_lt t.val (show 391 > 0 by decide); have := e.isLt; omega
  rw [(coords6 t).1, edgeT_lt _ _ _ _ _ he, dblk_apply6 V c t e he, mblk_apply6 V c t e f he]

set_option maxHeartbeats 1000000 in

theorem sinv6 (c : Dev nD) (n : ℕ) : ∀ (hn : n < cfg6.N) (r : Fin 5000) (f : Fin 64),
    (outsAt6 V c n hn).2 (ix2 r f) = acc6 V c (n / 391 * 5000 + r.val) (n % 391 + 1) f := by
  induction n with
  | zero =>
    intro hn r f
    have h0 : (⟨0, hn⟩ : Fin cfg6.N).val % 391 = 0 := rfl
    have h1 : ¬(⟨0, hn⟩ : Fin cfg6.N).val % 391 = 390 := by show ¬(0 % 391 = 390); decide
    rw [outsAt6_A V c ⟨0, hn⟩ h0 h1]
    dsimp only
    refine (congrFun (soutA_eq6 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) ((hcond6_0 ⟨0, hn⟩).mpr h0) (fun h => h1 ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩)) (ix2 r f)).trans ?_
    refine blockstep6 V c ⟨0, hn⟩ (k6_pay1 (F := Ideal)) r f ?_
    rw [pay1_apply6]; exact (accS_zero _ _ _ _).symm
  | succ n ih =>
    intro hn r f
    have hN : n + 1 < 3910 := lt_of_lt_of_eq hn (show cfg6.N = 3910 from N_6)
    by_cases h0 : (n + 1) % 391 = 0
    · have h1 : ¬(n + 1) % 391 = 390 := by omega
      rw [outsAt6_A V c ⟨n + 1, hn⟩ h0 h1]
      dsimp only
      refine (congrFun (soutA_eq6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩)) (ix2 r f)).trans ?_
      refine blockstep6 V c ⟨n + 1, hn⟩ (k6_pay1 (F := Ideal)) r f ?_
      rw [pay1_apply6]
      show (0 : EReal) = acc6 V c _ ((n + 1) % 391) f
      rw [h0]; exact (accS_zero _ _ _ _).symm
    · have hprev : (outsAt6 V c n (Nat.lt_of_succ_lt hn)).2 (ix2 r f) = acc6 V c ((n + 1) / 391 * 5000 + r.val) ((n + 1) % 391) f := by
        rw [ih (Nat.lt_of_succ_lt hn) r f]
        congr 1 <;> omega
      by_cases h1 : (n + 1) % 391 = 390
      · rw [outsAt6_C V c ⟨n + 1, hn⟩ h0 h1]
        dsimp only
        refine (congrFun (soutC_eq6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 V c n (Nat.lt_of_succ_lt hn)).2) (ix2 r f)).trans ?_
        exact blockstep6 V c ⟨n + 1, hn⟩ _ r f hprev
      · rw [outsAt6_B V c ⟨n + 1, hn⟩ h0 h1]
        dsimp only
        refine (congrFun (soutB_eq6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 V c n (Nat.lt_of_succ_lt hn)).2) (ix2 r f)).trans ?_
        exact blockstep6 V c ⟨n + 1, hn⟩ _ r f hprev

def G6 (c : Dev nD) : S50000x64.Idx → EReal := fun j =>
  Cert.Spec.conv (E := 800768) relu6 (fun n k => xarr6 V c (ix2 n k)) (fun e => darr6 V c (ix2 0 e))
    (fun e k => marr6 V c (ix2 e k)) (fun k f => warr6 V c (ix2 k f)) (fun f => barr6 V c (ix1 f)) (j 0) (j 1)

set_option maxHeartbeats 1000000 in

theorem oinv6 (c : Dev nD) (t : Fin cfg6.N) (h1 : t.val % 391 = 390) (r : Fin 5000) (f : Fin 64)
    (hn : t.val / 391 * 5000 + r.val < 50000) :
    (outsAt6 V c t.val t.isLt).1 (ix2 r f) = G6 V c (ix2 ⟨t.val / 391 * 5000 + r.val, hn⟩ f) := by
  have h0 : ¬t.val % 391 = 0 := by omega
  have hN : t.val < 3910 := lt_of_lt_of_eq t.isLt (show cfg6.N = 3910 from N_6)
  rw [outsAt6_C V c t h0 h1]
  dsimp only
  refine (congrFun (outC_eq6 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2) (ix2 r f)).trans ?_
  refine (pay3_apply6 (xblk6 V c t) (k6_pay2 (grid6.coords t) (dblk6 V c t) (mblk6 V c t) (outsAt6 V c (t.val - 1) (Nat.lt_of_le_of_lt (Nat.sub_le _ _) t.isLt)).2) (wblk6 V c t) (bblk6 V c t) r f).trans ?_
  show Cert.Spec.reluIf relu6 _ = Cert.Spec.conv relu6 _ _ _ _ _ ⟨t.val / 391 * 5000 + r.val, hn⟩ f
  unfold Cert.Spec.conv
  refine congrArg (Cert.Spec.reluIf relu6) ?_
  refine congrArg₂ (· + ·) (Finset.sum_congr rfl fun k _ => ?_) (bblk_apply6 V c t f)
  refine congrArg₂ (· * ·) (congrArg₂ (· + ·) (xblk_apply6 V c t r k hn) ?_) (wblk_apply6 V c t k f)
  refine (blockstep6 V c t _ r k ?_).trans ?_
  · rw [sinv6 V c (t.val - 1) _ r k]
    congr 1 <;> omega
  · rw [h1]
    exact accS_full (darr6 V c) (marr6 V c) ⟨t.val / 391 * 5000 + r.val, hn⟩ k

theorem flushed_eq6 (c : Dev nD) (t : Fin cfg6.N) (hf : (cfg6.win 5).flush t = true) :
    (dat6 V c).flushed 5 t = ((cfg6.win 5).blk t).view.read (Elt Ideal) (G6 V c) := by
  have h1 : t.val % 391 = 390 := (flush6_5 t).mp hf
  have hN : t.val < 3910 := lt_of_lt_of_eq t.isLt (show cfg6.N = 3910 from N_6)
  show (cfg6.win 5).cut (grid6.coords t) ((dat6 V c).after 5 t) = _
  rw [after6_5]
  funext j
  obtain ⟨r, f, rfl⟩ : ∃ (r : Fin 5000) (f : Fin 64), j = ix2 r f := ⟨j 0, j 1, eq_ix2 j⟩
  have hn : t.val / 391 * 5000 + r.val < 50000 := by have := r.isLt; omega
  refine (oinv6 V c t h1 r f hn).trans ?_
  symm
  rw [View.read_apply]
  show G6 V c _ = G6 V c _
  refine congrArg (G6 V c) (funext fun a => Fin.ext ?_)
  match a with
  | ⟨0, _⟩ => show win6_5.index t 0 * 5000 + 1 * r.val = t.val / 391 * 5000 + r.val; rw [(index6_5 t).1]; omega
  | ⟨1, _⟩ => show win6_5.index t 1 * 64 + 1 * f.val = f.val; rw [(index6_5 t).2]; omega

theorem cover6 (c : Dev nD) (i : ((cfg6.win 5).arr.view.loc (c.tc : Thread nD τ)).2.ty.Idx) :
    ∃ t : Fin cfg6.N, (cfg6.win 5).flush t = true ∧ i ∈ ((cfg6.win 5).blk t).view.set := by
  have hi0 : (i 0 : Nat) < 50000 := (i 0).isLt
  have hi1 : (i 1 : Nat) < 64 := (i 1).isLt
  have hN : cfg6.N = 3910 := N_6
  have ht : (i 0 : Nat) / 5000 * 391 + 390 < cfg6.N := by rw [hN]; omega
  refine ⟨⟨(i 0 : Nat) / 5000 * 391 + 390, ht⟩, (flush6_5 _).mpr (by show ((i 0 : Nat) / 5000 * 391 + 390) % 391 = 390; omega), ?_⟩
  show i ∈ ((View.whole main_v67).slice (win6_5.rect ⟨(i 0 : Nat) / 5000 * 391 + 390, ht⟩)).set
  rw [View.set_slice_whole, Rect.mem_set_unit]
  intro a
  match a with
  | ⟨0, _⟩ =>
    show win6_5.index ⟨(i 0 : Nat) / 5000 * 391 + 390, ht⟩ 0 * 5000 ≤ (i 0 : Nat) ∧ (i 0 : Nat) < win6_5.index ⟨(i 0 : Nat) / 5000 * 391 + 390, ht⟩ 0 * 5000 + 5000
    rw [(index6_5 ⟨(i 0 : Nat) / 5000 * 391 + 390, ht⟩).1]
    show ((i 0 : Nat) / 5000 * 391 + 390) / 391 * 5000 ≤ (i 0 : Nat) ∧ (i 0 : Nat) < ((i 0 : Nat) / 5000 * 391 + 390) / 391 * 5000 + 5000
    omega
  | ⟨1, _⟩ =>
    show win6_5.index ⟨(i 0 : Nat) / 5000 * 391 + 390, ht⟩ 1 * 64 ≤ (i 1 : Nat) ∧ (i 1 : Nat) < win6_5.index ⟨(i 0 : Nat) / 5000 * 391 + 390, ht⟩ 1 * 64 + 64
    rw [(index6_5 ⟨(i 0 : Nat) / 5000 * 391 + 390, ht⟩).2]
    omega

theorem final6 (c : Dev nD) (n : Fin 50000) (f : Fin 64) :
    (dat6 (F := Ideal) V c).arrAt 5 cfg6.N (ValueIdx.ix2 n f)
      = Cert.Spec.conv (E := 800768) relu6 (fun n k => (V c main_v51 : S50000x64.Idx → EReal) (ValueIdx.ix2 n k))
          (fun e => (V c main_v65 : S1x800768.Idx → BitVec 32) (ValueIdx.ix2 0 e))
          (fun e k => (V c main_v64 : S800768x64.Idx → EReal) (ValueIdx.ix2 e k))
          (fun k f => (V c main_v66 : S64x64.Idx → EReal) (ValueIdx.ix2 k f))
          (fun f => (V c main_arg9 : S64.Idx → EReal) (ValueIdx.ix1 f)) n f :=
  (congrFun ((dat6 V c).arrAt_eq_of_cover 5 (G6 V c) (flushed_eq6 V c) (cover6 c)) (ix2 n f)).trans rfl

end Value

end Cert.KernelIdeal.Hand

end
-- ==== Proof.Math.lean ====
import proofs.«407044_j9311489098471_2_alg».proof.Proof.Spec
import Idealize.ShloMosaic.PureOps.Ideal
import Mathlib.Data.EReal.Inv
import Mathlib.Algebra.BigOperators.Group.Finset.Basic
import Mathlib.Algebra.BigOperators.Fin
import Mathlib.Algebra.BigOperators.Ring.Finset
import Mathlib.Algebra.Order.BigOperators.Group.Finset
import Mathlib.Tactic.Ring
import Mathlib.Tactic.NormNum
import Mathlib.Tactic.Linarith
import Mathlib.Tactic.Positivity

noncomputable section

open scoped BigOperators

namespace Cert.Math
open Idealize.ShloMosaic Cert.Spec

theorem cN_eq : Cert.Spec.cN = ((50000 : ℝ) : EReal) := by
  simp [Ideal.ofBits, Ideal.ieee, -EReal.coe_mul]; norm_num

theorem cEps_pos : ∃ e : ℝ, 0 < e ∧ Cert.Spec.cEps = (e : EReal) := by
  refine ⟨(10995116 : ℝ) * (2:ℝ)^(-40:ℤ), by positivity, ?_⟩
  simp [Ideal.ofBits, Ideal.ieee, -EReal.coe_mul]

theorem cInf_eq : Ideal.ofBits .f32 0x7F800000#32 = (⊤ : EReal) := by
  simp [Ideal.ofBits, Ideal.ieee]

theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl (fun i _ => hg i)⟩

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem real_max0 {x : EReal} (hx : ∃ r : ℝ, x = (r : EReal)) : ∃ r : ℝ, max x 0 = (r : EReal) := by
  obtain ⟨a, rfl⟩ := hx
  rcases le_total (a : EReal) 0 with h | h
  · exact ⟨0, by rw [max_eq_right h]; rfl⟩
  · exact ⟨a, max_eq_left h⟩

theorem real_zero : ∃ r : ℝ, (0 : EReal) = (r : EReal) := ⟨0, rfl⟩

theorem real_divN {x : EReal} (hx : ∃ r : ℝ, x = (r : EReal)) : ∃ r : ℝ, Ideal.div x cN = (r : EReal) := by
  obtain ⟨a, rfl⟩ := hx
  rw [cN_eq, Ideal.div_coe (by norm_num : (50000 : ℝ) ≠ 0)]
  exact ⟨a * (1 / 50000), (EReal.coe_mul _ _).symm⟩

theorem agg_pad {E E' : Nat} (hE : E ≤ E') (dst : Fin E → BitVec 32) (msg : Fin E → Fin 64 → EReal)
    (dst' : Fin E' → BitVec 32) (msg' : Fin E' → Fin 64 → EReal)
    (hd : ∀ e : Fin E, dst' ⟨e.val, by omega⟩ = dst e)
    (hm : ∀ (e : Fin E) k, msg' ⟨e.val, by omega⟩ k = msg e k)
    (hz : ∀ (e : Fin E') k, E ≤ e.val → msg' e k = 0) :
    Cert.Spec.agg dst' msg' = Cert.Spec.agg dst msg := by
  obtain ⟨d, rfl⟩ := Nat.exists_eq_add_of_le hE
  funext n f
  simp only [agg]
  rw [Fin.sum_univ_add]
  have h2 : ∑ i : Fin d, (if dst' (Fin.natAdd E i) = BitVec.ofNat 32 n.val
      then msg' (Fin.natAdd E i) f else 0) = 0 := by
    apply Finset.sum_eq_zero
    intro i _
    rw [hz (Fin.natAdd E i) f (by simp)]
    simp
  rw [h2, add_zero]
  apply Finset.sum_congr rfl
  intro e _
  have he : Fin.castAdd d e = ⟨e.val, by omega⟩ := rfl
  rw [he, hd e, hm e f]

theorem agg_fin {E : Nat} (dst : Fin E → BitVec 32) (msg : Fin E → Fin 64 → EReal)
    (hm : ∀ e k, ∃ r : ℝ, msg e k = (r : EReal)) : FinTab (agg dst msg) := by
  intro n f
  simp only [agg]
  apply real_sum
  intro e
  split
  · exact hm e f
  · exact real_zero

theorem conv_fin {E : Nat} (relu : Bool) (h : Tab) (dst : Fin E → BitVec 32)
    (msg : Fin E → Fin 64 → EReal) (W : Mat64) (b : Vec64) (hh : FinTab h)
    (hm : ∀ e k, ∃ r : ℝ, msg e k = (r : EReal)) (hW : FinMat W) (hb : FinVec b) :
    FinTab (conv relu h dst msg W b) := by
  intro n f
  have hs : ∃ r : ℝ, (∑ k : Fin 64, (h n k + agg dst msg n k) * W k f) + b f = (r : EReal) := by
    apply real_add _ (hb f)
    apply real_sum
    intro k
    exact real_mul (real_add (hh n k) (agg_fin dst msg hm n k)) (hW k f)
  simp only [conv, reluIf]
  cases relu
  · simpa using hs
  · simpa using real_max0 hs

theorem mean_coe (y : Tab) (r : Fin 50000 → Fin 64 → ℝ) (hr : ∀ n f, y n f = (r n f : EReal))
    (f : Fin 64) : mean y f = (((∑ n : Fin 50000, r n f) * (1 / 50000) : ℝ) : EReal) := by
  have h1 : ∑ n : Fin 50000, y n f = ((∑ n : Fin 50000, r n f : ℝ) : EReal) := by
    rw [coe_sum]
    exact Finset.sum_congr rfl (fun n _ => hr n f)
  simp only [mean]
  rw [h1, cN_eq, Ideal.div_coe (by norm_num : (50000 : ℝ) ≠ 0), ← EReal.coe_mul]

theorem varDev_coe (y : Tab) (r : Fin 50000 → Fin 64 → ℝ) (hr : ∀ n f, y n f = (r n f : EReal))
    (f : Fin 64) :
    varDev y f = (((∑ n : Fin 50000, (r n f - (∑ m : Fin 50000, r m f) * (1 / 50000)) *
      (r n f - (∑ m : Fin 50000, r m f) * (1 / 50000))) * (1 / 50000) : ℝ) : EReal) := by
  have h1 : ∑ n : Fin 50000, (y n f - mean y f) * (y n f - mean y f) =
      ((∑ n : Fin 50000, (r n f - (∑ m : Fin 50000, r m f) * (1 / 50000)) *
        (r n f - (∑ m : Fin 50000, r m f) * (1 / 50000)) : ℝ) : EReal) := by
    rw [coe_sum, mean_coe y r hr f]
    refine Finset.sum_congr rfl (fun n _ => ?_)
    rw [hr n f, ← EReal.coe_sub, ← EReal.coe_mul]
  simp only [varDev]
  rw [h1, cN_eq, Ideal.div_coe (by norm_num : (50000 : ℝ) ≠ 0), ← EReal.coe_mul]

theorem varSq_coe (y : Tab) (r : Fin 50000 → Fin 64 → ℝ) (hr : ∀ n f, y n f = (r n f : EReal))
    (f : Fin 64) :
    varSq y f = (((∑ n : Fin 50000, r n f * r n f) * (1 / 50000) -
      ((∑ m : Fin 50000, r m f) * (1 / 50000)) * ((∑ m : Fin 50000, r m f) * (1 / 50000)) : ℝ) : EReal) := by
  have h1 : ∑ n : Fin 50000, y n f * y n f = ((∑ n : Fin 50000, r n f * r n f : ℝ) : EReal) := by
    rw [coe_sum]
    refine Finset.sum_congr rfl (fun n _ => ?_)
    rw [hr n f, EReal.coe_mul]
  simp only [varSq]
  rw [mean_coe y r hr f, h1, cN_eq, Ideal.div_coe (by norm_num : (50000 : ℝ) ≠ 0), ← EReal.coe_mul,
    ← EReal.coe_mul, ← EReal.coe_sub]

theorem real_var_identity (r : Fin 50000 → ℝ) :
    (∑ n : Fin 50000, (r n - (∑ m : Fin 50000, r m) * (1 / 50000)) *
      (r n - (∑ m : Fin 50000, r m) * (1 / 50000))) * (1 / 50000) =
    (∑ n : Fin 50000, r n * r n) * (1 / 50000) -
      ((∑ m : Fin 50000, r m) * (1 / 50000)) * ((∑ m : Fin 50000, r m) * (1 / 50000)) := by
  obtain ⟨S, hS⟩ : ∃ S : ℝ, S = ∑ m : Fin 50000, r m := ⟨_, rfl⟩
  rw [← hS]
  have h : ∑ n : Fin 50000, (r n - S * (1 / 50000)) * (r n - S * (1 / 50000)) =
      ∑ n : Fin 50000, r n * r n - 2 * (S * (1 / 50000)) * S + 50000 * ((S * (1 / 50000)) * (S * (1 / 50000))) := by
    have h0 : ∀ n : Fin 50000, (r n - S * (1 / 50000)) * (r n - S * (1 / 50000)) =
        r n * r n - 2 * (S * (1 / 50000)) * r n + (S * (1 / 50000)) * (S * (1 / 50000)) := fun n => by ring
    simp only [h0]
    rw [Finset.sum_add_distrib, Finset.sum_sub_distrib, ← Finset.mul_sum, Finset.sum_const,
      Finset.card_univ, Fintype.card_fin, ← hS, nsmul_eq_mul]
    norm_num
  rw [h]
  ring

theorem varSq_eq_varDev (y : Tab) (hy : FinTab y) : varSq y = varDev y := by
  have hy' : ∀ n f, ∃ r : ℝ, y n f = (r : EReal) := hy
  choose r hr using hy'
  funext f
  rw [varSq_coe y r hr f, varDev_coe y r hr f, real_var_identity (fun n => r n f)]

theorem bnSq_eq_bnDev (y : Tab) (g be : Vec64) (hy : FinTab y) : bnSq y g be = bnDev y g be := by
  simp only [bnSq, bnDev, varSq_eq_varDev y hy]

theorem bnDev_fin (y : Tab) (g be : Vec64) (hy : FinTab y) (hg : FinVec g) (hbe : FinVec be) :
    FinTab (bnDev y g be) := by
  have hy' : ∀ n f, ∃ r : ℝ, y n f = (r : EReal) := hy
  choose r hr using hy'
  obtain ⟨e, he, hce⟩ := cEps_pos
  intro n f
  simp only [bnDev, normWith]
  have hv : 0 ≤ (∑ n : Fin 50000, (r n f - (∑ m : Fin 50000, r m f) * (1 / 50000)) *
      (r n f - (∑ m : Fin 50000, r m f) * (1 / 50000))) * (1 / 50000) :=
    mul_nonneg (Finset.sum_nonneg (fun n _ => mul_self_nonneg _)) (by norm_num)
  rw [varDev_coe y r hr f, hce, ← EReal.coe_add, Ideal.rsqrt_coe,
    if_neg (not_lt.mpr (by linarith)), if_neg (by linarith)]
  exact real_add (real_mul (real_mul (real_sub (hy n f) ⟨_, mean_coe y r hr f⟩) ⟨_, rfl⟩) (hg f)) (hbe f)

end Cert.Math

end
-- ==== Proof.Net.lean ====
import proofs.«407044_j9311489098471_2_alg».proof.Proof.Spec
import proofs.«407044_j9311489098471_2_alg».proof.Proof.Math

noncomputable section

open scoped BigOperators

namespace Cert.Math
open Idealize.ShloMosaic Cert.Spec

def padDst (dst : Fin 800000 → BitVec 32) : Fin 800768 → BitVec 32 :=
  fun e => if h : e.val < 800000 then dst ⟨e.val, h⟩ else 0#32

def padMsg (msg : Fin 800000 → Fin 64 → EReal) : Fin 800768 → Fin 64 → EReal :=
  fun e k => if h : e.val < 800000 then msg ⟨e.val, h⟩ k else 0

def msgOf (gat : Cert.Spec.Tab → Fin 800000 → Fin 64 → EReal) (ew : Fin 800000 → EReal)
    (h : Cert.Spec.Tab) : Fin 800000 → Fin 64 → EReal :=
  fun e k => gat h e k * ew e

def layerK (gat : Tab → Fin 800000 → Fin 64 → EReal) (dst : Fin 800000 → BitVec 32)
    (ew : Fin 800000 → EReal) (relu : Bool) (h : Tab) (W : Mat64) (b : Vec64) : Tab :=
  conv (E := 800768) relu h (padDst dst) (padMsg (msgOf gat ew h)) W b

def layerR (gat : Tab → Fin 800000 → Fin 64 → EReal) (dst : Fin 800000 → BitVec 32)
    (ew : Fin 800000 → EReal) (relu : Bool) (h : Tab) (W : Mat64) (b : Vec64) : Tab :=
  conv (E := 800000) relu h dst (msgOf gat ew h) W b

def netK (gat : Tab → Fin 800000 → Fin 64 → EReal) (x : Tab) (dst : Fin 800000 → BitVec 32)
    (ew : Fin 800000 → EReal) (batch : Fin 50000 → BitVec 32)
    (W1 : Mat64) (b1 : Vec64) (W2 : Mat64) (b2 : Vec64) (W3 : Mat64) (b3 : Vec64)
    (g1 be1 g2 be2 g3 be3 : Vec64) (fcW1 : Mat64) (fcb1 : Vec64) (fcW2 : Fin 64 → EReal)
    (fcb2 : EReal) : Fin 256 → EReal :=
  head (pool batch
    (bnSq (layerK gat dst ew false
      (bnSq (layerK gat dst ew true
        (bnSq (layerK gat dst ew true x W1 b1) g1 be1) W2 b2) g2 be2) W3 b3) g3 be3))
    fcW1 fcb1 fcW2 fcb2

def netR (gat : Tab → Fin 800000 → Fin 64 → EReal) (x : Tab) (dst : Fin 800000 → BitVec 32)
    (ew : Fin 800000 → EReal) (batch : Fin 50000 → BitVec 32)
    (W1 : Mat64) (b1 : Vec64) (W2 : Mat64) (b2 : Vec64) (W3 : Mat64) (b3 : Vec64)
    (g1 be1 g2 be2 g3 be3 : Vec64) (fcW1 : Mat64) (fcb1 : Vec64) (fcW2 : Fin 64 → EReal)
    (fcb2 : EReal) : Fin 256 → EReal :=
  head (pool batch
    (bnDev (layerR gat dst ew false
      (bnDev (layerR gat dst ew true
        (bnDev (layerR gat dst ew true x W1 b1) g1 be1) W2 b2) g2 be2) W3 b3) g3 be3))
    fcW1 fcb1 fcW2 fcb2

theorem agg_padded (dst : Fin 800000 → BitVec 32) (msg : Fin 800000 → Fin 64 → EReal) :
    agg (padDst dst) (padMsg msg) = agg dst msg := by
  refine agg_pad (by omega : 800000 ≤ 800768) dst msg (padDst dst) (padMsg msg) ?_ ?_ ?_
  · intro e
    simp only [padDst]
    rw [dif_pos e.isLt]
  · intro e k
    simp only [padMsg]
    rw [dif_pos e.isLt]
  · intro e k he
    simp only [padMsg]
    rw [dif_neg (by omega)]

theorem layerK_eq_layerR (gat : Tab → Fin 800000 → Fin 64 → EReal) (dst : Fin 800000 → BitVec 32)
    (ew : Fin 800000 → EReal) (relu : Bool) (h : Tab) (W : Mat64) (b : Vec64) :
    layerK gat dst ew relu h W b = layerR gat dst ew relu h W b := by
  funext n f
  simp only [layerK, layerR, conv]
  rw [agg_padded]

theorem layerR_fin (gat : Tab → Fin 800000 → Fin 64 → EReal) (dst : Fin 800000 → BitVec 32)
    (ew : Fin 800000 → EReal) (relu : Bool) (h : Tab) (W : Mat64) (b : Vec64)
    (hgat : ∀ (h : Tab) e k, ∃ n, gat h e k = h n k) (hh : FinTab h)
    (hew : ∀ e, ∃ r : ℝ, ew e = (r : EReal)) (hW : FinMat W) (hb : FinVec b) :
    FinTab (layerR gat dst ew relu h W b) := by
  refine conv_fin relu h dst (msgOf gat ew h) W b hh ?_ hW hb
  intro e k
  simp only [msgOf]
  obtain ⟨n, hn⟩ := hgat h e k
  rw [hn]
  exact real_mul (hh n k) (hew e)

theorem step (gat : Tab → Fin 800000 → Fin 64 → EReal) (dst : Fin 800000 → BitVec 32)
    (ew : Fin 800000 → EReal) (relu : Bool) (hK hR : Tab) (W : Mat64) (b g be : Vec64)
    (hgat : ∀ (h : Tab) e k, ∃ n, gat h e k = h n k) (heq : hK = hR) (hh : FinTab hR)
    (hew : ∀ e, ∃ r : ℝ, ew e = (r : EReal)) (hW : FinMat W) (hb : FinVec b)
    (hg : FinVec g) (hbe : FinVec be) :
    bnSq (layerK gat dst ew relu hK W b) g be = bnDev (layerR gat dst ew relu hR W b) g be ∧
      FinTab (bnDev (layerR gat dst ew relu hR W b) g be) := by
  subst heq
  have hl := layerR_fin gat dst ew relu hK W b hgat hh hew hW hb
  exact ⟨by rw [layerK_eq_layerR, bnSq_eq_bnDev _ g be hl], bnDev_fin _ g be hl hg hbe⟩

theorem netK_eq_netR (gat : Tab → Fin 800000 → Fin 64 → EReal) (x : Tab)
    (dst : Fin 800000 → BitVec 32) (ew : Fin 800000 → EReal) (batch : Fin 50000 → BitVec 32)
    (W1 : Mat64) (b1 : Vec64) (W2 : Mat64) (b2 : Vec64) (W3 : Mat64) (b3 : Vec64)
    (g1 be1 g2 be2 g3 be3 : Vec64) (fcW1 : Mat64) (fcb1 : Vec64) (fcW2 : Fin 64 → EReal)
    (fcb2 : EReal)
    (hgat : ∀ (h : Tab) e k, ∃ n, gat h e k = h n k) (hx : FinTab x)
    (hew : ∀ e, ∃ r : ℝ, ew e = (r : EReal))
    (hW1 : FinMat W1) (hb1 : FinVec b1) (hW2 : FinMat W2) (hb2 : FinVec b2)
    (hW3 : FinMat W3) (hb3 : FinVec b3)
    (hg1 : FinVec g1) (hbe1 : FinVec be1) (hg2 : FinVec g2) (hbe2 : FinVec be2)
    (hg3 : FinVec g3) (hbe3 : FinVec be3) :
    netK gat x dst ew batch W1 b1 W2 b2 W3 b3 g1 be1 g2 be2 g3 be3 fcW1 fcb1 fcW2 fcb2 =
      netR gat x dst ew batch W1 b1 W2 b2 W3 b3 g1 be1 g2 be2 g3 be3 fcW1 fcb1 fcW2 fcb2 := by
  obtain ⟨e1, f1⟩ := step gat dst ew true x x W1 b1 g1 be1 hgat rfl hx hew hW1 hb1 hg1 hbe1
  obtain ⟨e2, f2⟩ := step gat dst ew true _ _ W2 b2 g2 be2 hgat e1 f1 hew hW2 hb2 hg2 hbe2
  obtain ⟨e3, _⟩ := step gat dst ew false _ _ W3 b3 g3 be3 hgat e2 f2 hew hW3 hb3 hg3 hbe3
  simp only [netK, netR]
  rw [e3]

end Cert.Math

end
-- ==== Proof.KI.ResultGin.lean ====
import proofs.«407044_j9311489098471_2_alg».proof.Proof.KI.Launch
import proofs.«407044_j9311489098471_2_alg».proof.Proof.KI.HostPre
import proofs.«407044_j9311489098471_2_alg».proof.Proof.KI.R0Value
import proofs.«407044_j9311489098471_2_alg».proof.Proof.KI.R3Value
import proofs.«407044_j9311489098471_2_alg».proof.Proof.KI.R6Value
import proofs.«407044_j9311489098471_2_alg».proof.Proof.Net

set_option maxRecDepth 16384

noncomputable section

open scoped BigOperators

namespace Cert.KernelIdeal.Hand

open Idealize.ShloMosaic Idealize.ShloMosaic.TcCoe
open Idealize.SL.Sem
open Cert.KernelIdeal Cert.KernelIdeal.Gen
open ValueIdx

def gatAt (src : IVec S800000 32) (h : Cert.Spec.Tab) (e : Fin 800000) (k : Fin 64) : EReal :=
  Host.gather gather_S50000x64_S800000x1_S800000x64_1_0_n_n_0_1_164 (fun i => h (i 0) (i 1)) (idxOf src) (ix2 e k)

theorem tab_relay (t : S50000x64.Idx → EReal) : (fun i : S50000x64.Idx => t (ix2 (i 0) (i 1))) = t :=
  funext fun i => congrArg t (eq_ix2 i).symm

theorem msg_padded (src : IVec S800000 32) (t : S50000x64.Idx → EReal) (w : S800000.Idx → EReal) :
    (fun e k => msgOf t src w e k)
      = Cert.Math.padMsg (Cert.Math.msgOf (gatAt src) (fun e => w (ix1 e)) (fun n k => t (ix2 n k))) := by
  funext e k
  show (if h : e.val < 800000 then _ else (0 : EReal)) = Cert.Math.padMsg _ e k
  unfold Cert.Math.padMsg Cert.Math.msgOf gatAt
  by_cases h : e.val < 800000
  · rw [dif_pos h, dif_pos h]
    show Host.gather gather_S50000x64_S800000x1_S800000x64_1_0_n_n_0_1_164 t (idxOf src) (ix2 (⟨e.val, h⟩ : Fin 800000) k) * w (ix1 (⟨e.val, h⟩ : Fin 800000))
      = Host.gather gather_S50000x64_S800000x1_S800000x64_1_0_n_n_0_1_164 (fun i : S50000x64.Idx => t (ix2 (i 0) (i 1))) (idxOf src) (ix2 (⟨e.val, h⟩ : Fin 800000) k)
          * w (ix1 (⟨e.val, h⟩ : Fin 800000))
    rw [tab_relay t]
  · rw [dif_neg h, dif_neg h]

theorem conv_layerK (relu : Bool) (src : IVec S800000 32) (xb : S50000x64.Idx → EReal)
    (dstb : S1x800768.Idx → BitVec 32) (msgb : S800768x64.Idx → EReal) (Mb : S64x64.Idx → EReal) (bb : S64.Idx → EReal)
    (dst : Fin 800000 → BitVec 32) (w : S800000.Idx → EReal)
    (hd : ∀ e : Fin 800768, dstb (ix2 0 e) = if h : e.val < 800000 then dst ⟨e.val, h⟩ else 0#32)
    (hm : ∀ (e : Fin 800768) (k : Fin 64), msgb (ix2 e k) = msgOf xb src w e k) :
    Cert.Spec.conv (E := 800768) relu (fun n k => xb (ix2 n k)) (fun e => dstb (ix2 0 e)) (fun e k => msgb (ix2 e k))
        (fun k f => Mb (ix2 k f)) (fun f => bb (ix1 f))
      = Cert.Math.layerK (gatAt src) dst (fun e => w (ix1 e)) relu (fun n k => xb (ix2 n k))
          (fun k f => Mb (ix2 k f)) (fun f => bb (ix1 f)) := by
  have e1 : (fun e : Fin 800768 => dstb (ix2 0 e)) = Cert.Math.padDst dst := funext fun e => hd e
  have e2 : (fun (e : Fin 800768) (k : Fin 64) => msgb (ix2 e k))
      = Cert.Math.padMsg (Cert.Math.msgOf (gatAt src) (fun e => w (ix1 e)) (fun n k => xb (ix2 n k))) :=
    (funext fun e => funext fun k => hm e k).trans (msg_padded src xb w)
  unfold Cert.Math.layerK
  rw [e1, e2]

section Launch
variable (m : (ℓ : Loc nD τ sig) → Buf (Elt Ideal) ℓ)

def gatK (c : Dev nD) (h : Cert.Spec.Tab) (e : Fin 800000) (k : Fin 64) : EReal :=
  Host.gather gather_S50000x64_S800000x1_S800000x64_1_0_n_n_0_1_164 (fun i => h (i 0) (i 1)) (idxOf (srcOf0 (W0 m c))) (ix2 e k)

theorem gatK_eq (c : Dev nD) : gatK m c = gatAt (srcOf0 (W0 m c)) := rfl

abbrev dstK (c : Dev nD) : Fin 800000 → BitVec 32 :=
  fun e => (m ((c : Thread nD τ).loc main_arg1) : S2x800000.Idx → BitVec 32) (ix2 1 e)
abbrev ewK (c : Dev nD) : Fin 800000 → EReal :=
  fun e => (m ((c : Thread nD τ).loc main_arg2) : S800000.Idx → EReal) (ix1 e)

theorem gin_layer1 (c : Dev nD) :
    (fun n f => (W6 m c (Proc.devRef .tc main_v19) : S50000x64.Idx → EReal) (ix2 n f))
      = Cert.Math.layerK (gatK m c) (dstK m c) (ewK m c) true
          (fun n k => (m ((c : Thread nD τ).loc main_arg0) : S50000x64.Idx → EReal) (ix2 n k))
          (fun k f => (m ((c : Thread nD τ).loc main_arg4) : S64x64.Idx → EReal) (ix2 k f))
          (fun f => (m ((c : Thread nD τ).loc main_arg5) : S64.Idx → EReal) (ix1 f)) := by
  have hm : ∀ (e : Fin 800768) (k : Fin 64), (L0 (W0 m c) (Proc.devRef .tc main_v16) : S800768x64.Idx → EReal) (ix2 e k)
      = msgOf (L0 (W0 m c) (Proc.devRef .tc main_arg0)) (srcOf0 (W0 m c)) (W0 m c (Proc.devRef .tc main_arg2)) e k := fun e k => by
    refine (pre0_msg (W0 m c) e k).trans ?_
    rw [pre0_tab]
  funext n f
  refine ((congrFun (W6_arr m c 5) (ix2 n f)).trans (final0 (Vof (W5 m)) c n f)).trans ?_
  refine (congrFun (congrFun (conv_layerK true (srcOf0 (W0 m c)) (L0 (W0 m c) (Proc.devRef .tc main_arg0)) (L0 (W0 m c) (Proc.devRef .tc main_v17))
    (L0 (W0 m c) (Proc.devRef .tc main_v16)) (L0 (W0 m c) (Proc.devRef .tc main_v18)) (L0 (W0 m c) (Proc.devRef .tc main_arg5)) (dstK m c)
    (W0 m c (Proc.devRef .tc main_arg2)) (fun e => pre0_dst2 (W0 m c) e) hm) n) f).trans ?_
  rw [pre0_tab, pre0_W, pre0_bias]
  rfl

theorem gin_layer2 (c : Dev nD) :
    (fun n f => (W15 m c (Proc.devRef .tc main_v43) : S50000x64.Idx → EReal) (ix2 n f))
      = Cert.Math.layerK (gatK m c) (dstK m c) (ewK m c) true
          (fun n k => (W9 m c (Proc.devRef .tc main_v27) : S50000x64.Idx → EReal) (ix2 n k))
          (fun k f => (m ((c : Thread nD τ).loc main_arg6) : S64x64.Idx → EReal) (ix2 k f))
          (fun f => (m ((c : Thread nD τ).loc main_arg7) : S64.Idx → EReal) (ix1 f)) := by
  have hsrc : (W9 m c (Proc.devRef .tc main_v1) : S800000.Idx → BitVec 32) = srcOf0 (W0 m c) :=
    (keep8 m c main_v1 (by decide)).trans ((keep7 m c main_v1 (by decide)).trans ((keep6 m c main_v1 (by decide)).trans ((keep5 m c main_v1 (by decide)).trans (pre0_src (W0 m c)))))
  have hdst : ∀ e : Fin 800000, (W9 m c (Proc.devRef .tc main_v3) : S800000.Idx → BitVec 32) (ix1 e) = dstK m c e := fun e =>
    (congrFun ((keep8 m c main_v3 (by decide)).trans ((keep7 m c main_v3 (by decide)).trans ((keep6 m c main_v3 (by decide)).trans ((keep5 m c main_v3 (by decide)))))) (ix1 e)).trans (pre0_dst1 (W0 m c) e)
  have hw : W9 m c (Proc.devRef .tc main_arg2) = W0 m c (Proc.devRef .tc main_arg2) :=
    (keep8 m c main_arg2 (by decide)).trans ((keep7 m c main_arg2 (by decide)).trans ((keep6 m c main_arg2 (by decide)).trans ((keep5 m c main_arg2 (by decide)).trans ((keep4 m c main_arg2 (by decide)).trans ((keep3 m c main_arg2 (by decide)).trans ((keep2 m c main_arg2 (by decide)).trans ((keep1 m c main_arg2 (by decide)).trans ((keep0 m c main_arg2 (by decide))))))))))
  have hM : W9 m c (Proc.devRef .tc main_arg6) = W0 m c (Proc.devRef .tc main_arg6) :=
    (keep8 m c main_arg6 (by decide)).trans ((keep7 m c main_arg6 (by decide)).trans ((keep6 m c main_arg6 (by decide)).trans ((keep5 m c main_arg6 (by decide)).trans ((keep4 m c main_arg6 (by decide)).trans ((keep3 m c main_arg6 (by decide)).trans ((keep2 m c main_arg6 (by decide)).trans ((keep1 m c main_arg6 (by decide)).trans ((keep0 m c main_arg6 (by decide))))))))))
  have hb : W9 m c (Proc.devRef .tc main_arg7) = W0 m c (Proc.devRef .tc main_arg7) :=
    (keep8 m c main_arg7 (by decide)).trans ((keep7 m c main_arg7 (by decide)).trans ((keep6 m c main_arg7 (by decide)).trans ((keep5 m c main_arg7 (by decide)).trans ((keep4 m c main_arg7 (by decide)).trans ((keep3 m c main_arg7 (by decide)).trans ((keep2 m c main_arg7 (by decide)).trans ((keep1 m c main_arg7 (by decide)).trans ((keep0 m c main_arg7 (by decide))))))))))
  have hd : ∀ e : Fin 800768, (L3 (W9 m c) (Proc.devRef .tc main_v41) : S1x800768.Idx → BitVec 32) (ix2 0 e)
      = if h : e.val < 800000 then dstK m c ⟨e.val, h⟩ else 0#32 := fun e => by
    refine (pre3_dst2 (W9 m c) e).trans ?_
    by_cases h : e.val < 800000
    · rw [dif_pos h, dif_pos h]; exact hdst ⟨e.val, h⟩
    · rw [dif_neg h, dif_neg h]
  have hm : ∀ (e : Fin 800768) (k : Fin 64), (L3 (W9 m c) (Proc.devRef .tc main_v40) : S800768x64.Idx → EReal) (ix2 e k)
      = msgOf (L3 (W9 m c) (Proc.devRef .tc main_v27)) (srcOf0 (W0 m c)) (W0 m c (Proc.devRef .tc main_arg2)) e k := fun e k => by
    refine (pre3_msg (W9 m c) e k).trans ?_
    rw [pre3_tab, hsrc, hw]
  funext n f
  refine ((congrFun (W15_arr m c 5) (ix2 n f)).trans (final3 (Vof (W14 m)) c n f)).trans ?_
  refine (congrFun (congrFun (conv_layerK true (srcOf0 (W0 m c)) (L3 (W9 m c) (Proc.devRef .tc main_v27)) (L3 (W9 m c) (Proc.devRef .tc main_v41))
    (L3 (W9 m c) (Proc.devRef .tc main_v40)) (L3 (W9 m c) (Proc.devRef .tc main_v42)) (L3 (W9 m c) (Proc.devRef .tc main_arg7)) (dstK m c)
    (W0 m c (Proc.devRef .tc main_arg2)) hd hm) n) f).trans ?_
  rw [pre3_tab, pre3_W, pre3_bias, hM, hb]
  rfl

theorem gin_layer3 (c : Dev nD) :
    (fun n f => (W24 m c (Proc.devRef .tc main_v67) : S50000x64.Idx → EReal) (ix2 n f))
      = Cert.Math.layerK (gatK m c) (dstK m c) (ewK m c) false
          (fun n k => (W18 m c (Proc.devRef .tc main_v51) : S50000x64.Idx → EReal) (ix2 n k))
          (fun k f => (m ((c : Thread nD τ).loc main_arg8) : S64x64.Idx → EReal) (ix2 k f))
          (fun f => (m ((c : Thread nD τ).loc main_arg9) : S64.Idx → EReal) (ix1 f)) := by
  have hsrc : (W18 m c (Proc.devRef .tc main_v1) : S800000.Idx → BitVec 32) = srcOf0 (W0 m c) :=
    (keep17 m c main_v1 (by decide)).trans ((keep16 m c main_v1 (by decide)).trans ((keep15 m c main_v1 (by decide)).trans ((keep14 m c main_v1 (by decide)).trans ((keep13 m c main_v1 (by decide)).trans ((keep12 m c main_v1 (by decide)).trans ((keep11 m c main_v1 (by decide)).trans ((keep10 m c main_v1 (by decide)).trans ((keep9 m c main_v1 (by decide)).trans ((keep8 m c main_v1 (by decide)).trans ((keep7 m c main_v1 (by decide)).trans ((keep6 m c main_v1 (by decide)).trans ((keep5 m c main_v1 (by decide)).trans (pre0_src (W0 m c))))))))))))))
  have hdst : ∀ e : Fin 800000, (W18 m c (Proc.devRef .tc main_v3) : S800000.Idx → BitVec 32) (ix1 e) = dstK m c e := fun e =>
    (congrFun ((keep17 m c main_v3 (by decide)).trans ((keep16 m c main_v3 (by decide)).trans ((keep15 m c main_v3 (by decide)).trans ((keep14 m c main_v3 (by decide)).trans ((keep13 m c main_v3 (by decide)).trans ((keep12 m c main_v3 (by decide)).trans ((keep11 m c main_v3 (by decide)).trans ((keep10 m c main_v3 (by decide)).trans ((keep9 m c main_v3 (by decide)).trans ((keep8 m c main_v3 (by decide)).trans ((keep7 m c main_v3 (by decide)).trans ((keep6 m c main_v3 (by decide)).trans ((keep5 m c main_v3 (by decide))))))))))))))) (ix1 e)).trans (pre0_dst1 (W0 m c) e)
  have hw : W18 m c (Proc.devRef .tc main_arg2) = W0 m c (Proc.devRef .tc main_arg2) :=
    (keep17 m c main_arg2 (by decide)).trans ((keep16 m c main_arg2 (by decide)).trans ((keep15 m c main_arg2 (by decide)).trans ((keep14 m c main_arg2 (by decide)).trans ((keep13 m c main_arg2 (by decide)).trans ((keep12 m c main_arg2 (by decide)).trans ((keep11 m c main_arg2 (by decide)).trans ((keep10 m c main_arg2 (by decide)).trans ((keep9 m c main_arg2 (by decide)).trans ((keep8 m c main_arg2 (by decide)).trans ((keep7 m c main_arg2 (by decide)).trans ((keep6 m c main_arg2 (by decide)).trans ((keep5 m c main_arg2 (by decide)).trans ((keep4 m c main_arg2 (by decide)).trans ((keep3 m c main_arg2 (by decide)).trans ((keep2 m c main_arg2 (by decide)).trans ((keep1 m c main_arg2 (by decide)).trans ((keep0 m c main_arg2 (by decide)))))))))))))))))))
  have hM : W18 m c (Proc.devRef .tc main_arg8) = W0 m c (Proc.devRef .tc main_arg8) :=
    (keep17 m c main_arg8 (by decide)).trans ((keep16 m c main_arg8 (by decide)).trans ((keep15 m c main_arg8 (by decide)).trans ((keep14 m c main_arg8 (by decide)).trans ((keep13 m c main_arg8 (by decide)).trans ((keep12 m c main_arg8 (by decide)).trans ((keep11 m c main_arg8 (by decide)).trans ((keep10 m c main_arg8 (by decide)).trans ((keep9 m c main_arg8 (by decide)).trans ((keep8 m c main_arg8 (by decide)).trans ((keep7 m c main_arg8 (by decide)).trans ((keep6 m c main_arg8 (by decide)).trans ((keep5 m c main_arg8 (by decide)).trans ((keep4 m c main_arg8 (by decide)).trans ((keep3 m c main_arg8 (by decide)).trans ((keep2 m c main_arg8 (by decide)).trans ((keep1 m c main_arg8 (by decide)).trans ((keep0 m c main_arg8 (by decide)))))))))))))))))))
  have hb : W18 m c (Proc.devRef .tc main_arg9) = W0 m c (Proc.devRef .tc main_arg9) :=
    (keep17 m c main_arg9 (by decide)).trans ((keep16 m c main_arg9 (by decide)).trans ((keep15 m c main_arg9 (by decide)).trans ((keep14 m c main_arg9 (by decide)).trans ((keep13 m c main_arg9 (by decide)).trans ((keep12 m c main_arg9 (by decide)).trans ((keep11 m c main_arg9 (by decide)).trans ((keep10 m c main_arg9 (by decide)).trans ((keep9 m c main_arg9 (by decide)).trans ((keep8 m c main_arg9 (by decide)).trans ((keep7 m c main_arg9 (by decide)).trans ((keep6 m c main_arg9 (by decide)).trans ((keep5 m c main_arg9 (by decide)).trans ((keep4 m c main_arg9 (by decide)).trans ((keep3 m c main_arg9 (by decide)).trans ((keep2 m c main_arg9 (by decide)).trans ((keep1 m c main_arg9 (by decide)).trans ((keep0 m c main_arg9 (by decide)))))))))))))))))))
  have hd : ∀ e : Fin 800768, (L6 (W18 m c) (Proc.devRef .tc main_v65) : S1x800768.Idx → BitVec 32) (ix2 0 e)
      = if h : e.val < 800000 then dstK m c ⟨e.val, h⟩ else 0#32 := fun e => by
    refine (pre6_dst2 (W18 m c) e).trans ?_
    by_cases h : e.val < 800000
    · rw [dif_pos h, dif_pos h]; exact hdst ⟨e.val, h⟩
    · rw [dif_neg h, dif_neg h]
  have hm : ∀ (e : Fin 800768) (k : Fin 64), (L6 (W18 m c) (Proc.devRef .tc main_v64) : S800768x64.Idx → EReal) (ix2 e k)
      = msgOf (L6 (W18 m c) (Proc.devRef .tc main_v51)) (srcOf0 (W0 m c)) (W0 m c (Proc.devRef .tc main_arg2)) e k := fun e k => by
    refine (pre6_msg (W18 m c) e k).trans ?_
    rw [pre6_tab, hsrc, hw]
  funext n f
  refine ((congrFun (W24_arr m c 5) (ix2 n f)).trans (final6 (Vof (W23 m)) c n f)).trans ?_
  refine (congrFun (congrFun (conv_layerK false (srcOf0 (W0 m c)) (L6 (W18 m c) (Proc.devRef .tc main_v51)) (L6 (W18 m c) (Proc.devRef .tc main_v65))
    (L6 (W18 m c) (Proc.devRef .tc main_v64)) (L6 (W18 m c) (Proc.devRef .tc main_v66)) (L6 (W18 m c) (Proc.devRef .tc main_arg9)) (dstK m c)
    (W0 m c (Proc.devRef .tc main_arg2)) hd hm) n) f).trans ?_
  rw [pre6_tab, pre6_W, pre6_bias, hM, hb]
  rfl

end Launch

end Cert.KernelIdeal.Hand

end
-- ==== Proof.KI.R1Value.lean ====
import proofs.«407044_j9311489098471_2_alg».proof.Proof.KI.R1
import proofs.«407044_j9311489098471_2_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Tactic.Ring

set_option maxRecDepth 16384

noncomputable section

open scoped BigOperators

namespace Cert.KernelIdeal.Hand

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

section Pieces
variable {F : FTy → Type} [FloatOps F]

theorem hz1 : (![0, 0] : Fin 2 → Nat) = fun _ => 0 := funext fun a => by
  match a with
  | ⟨0, _⟩ => rfl
  | ⟨1, _⟩ => rfl

theorem out1_B_1_eq (c : Dev nD) (i : grid1.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (hc : ¬cond1_0 i) (x : Vec F S5000x64 .f32) (xo1 xo2 : Vec F S1x64 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  sl_unfold_words

  rw [View.canon_unit_zero hz1]
  simp only [View.readAt_eq_ld, h1.read_unread, h2.read_unread, h3.read_unread, View.ld_unit_zero (S := S5000x64) hz1, View.ld_unit_zero (S := S1x64) hz1]

theorem out1_B_2_eq (c : Dev nD) (i : grid1.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (hc : ¬cond1_0 i) (x : Vec F S5000x64 .f32) (xo1 xo2 : Vec F S1x64 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  sl_unfold_words
  rw [View.canon_unit_zero hz1]
  simp only [View.readAt_eq_ld, h1.read_unread, h2.read_unread, h3.read_unread, View.ld_unit_zero (S := S5000x64) hz1, View.ld_unit_zero (S := S1x64) hz1]

theorem out1_A_1_eq (c : Dev nD) (i : grid1.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (hc : cond1_0 i) (x : Vec F S5000x64 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words

  rw [View.canon_cons_unit_zero (S := S1x64) hz1]
  simp only [View.readAt_eq_ld, h1.read_unread, View.ld_unit_zero (S := S5000x64) hz1, View.ld_unit_zero (S := S1x64) hz1, View.readCov_unit_zero (S := S1x64) _ hz1]

theorem out1_A_2_eq (c : Dev nD) (i : grid1.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (hc : cond1_0 i) (x : Vec F S5000x64 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x64) hz1]
  simp only [View.readAt_eq_ld, h1.read_unread, View.ld_unit_zero (S := S5000x64) hz1, View.ld_unit_zero (S := S1x64) hz1, View.readCov_unit_zero (S := S1x64) _ hz1]

end Pieces

theorem colsum1_apply (z : FVec Ideal S5000x64 .f32) (h : S5000x64.Reduces [0] S64)
    (hacc : (0x00000000#32 : BitVec 32) = 0x00000000#32) (f : Fin 64) :
    multiReduction (F := Ideal) .add [0] S64 z 0x00000000#32 h (.inl rfl) hacc (ix1 f) = ∑ k : Fin 5000, z (ix2 k f) := by
  refine (Ideal.multiReduction_add_single z 0x00000000#32 h (.inl rfl) hacc (ix1 f)).trans ?_
  refine Finset.sum_congr rfl fun k _ => congrArg z ?_
  funext a
  match a with
  | ⟨0, _⟩ => rfl
  | ⟨1, _⟩ => rfl

theorem k1_pay4_apply (x : Vec Ideal S5000x64 .f32) (xo : Vec Ideal S1x64 .f32) (f : Fin 64) :
    k1_pay4 (F := Ideal) x xo (ix2 (0 : Fin 1) f) = xo (ix2 (0 : Fin 1) f) + ∑ k : Fin 5000, x (ix2 k f) := by
  unfold k1_pay4 k1_pay3
  dsimp only
  refine (addf_apply _ _ _).trans ?_
  refine congrArg₂ (· + ·) ?_ ?_
  · rw [shapeCast_self]
  · refine (shapeCast_a_1a_apply _ _ (0 : Fin 1) f).trans ?_
    refine (colsum1_apply _ _ _ f).trans ?_
    rw [shapeCast_self]

theorem k1_pay5_apply (x : Vec Ideal S5000x64 .f32) (xo : Vec Ideal S1x64 .f32) (f : Fin 64) :
    k1_pay5 (F := Ideal) x xo (ix2 (0 : Fin 1) f) = xo (ix2 (0 : Fin 1) f) + ∑ k : Fin 5000, x (ix2 k f) * x (ix2 k f) := by
  unfold k1_pay5 k1_pay3
  dsimp only
  refine (addf_apply _ _ _).trans ?_
  refine congrArg₂ (· + ·) ?_ ?_
  · rw [shapeCast_self]
  · refine (shapeCast_a_1a_apply _ _ (0 : Fin 1) f).trans ?_
    refine (colsum1_apply _ _ _ f).trans ?_
    rw [shapeCast_self]
    rfl

theorem k1_pay1_apply (j : S1x64.Idx) : k1_pay1 (F := Ideal) j = 0 := by
  unfold k1_pay1
  exact Ideal.ofBits_zero_f32
theorem k1_pay2_apply (j : S1x64.Idx) : k1_pay2 (F := Ideal) j = 0 := by
  unfold k1_pay2
  exact Ideal.ofBits_zero_f32

def ext1 (g : Fin 50000 → EReal) (j : ℕ) : EReal := if h : j < 50000 then g ⟨j, h⟩ else 0

theorem ext1_of_lt (g : Fin 50000 → EReal) (j : ℕ) (h : j < 50000) : ext1 g j = g ⟨j, h⟩ := dif_pos h

theorem sum_ext1 (g : Fin 50000 → EReal) : ∑ j ∈ Finset.range 50000, ext1 g j = ∑ n : Fin 50000, g n := by
  rw [Finset.sum_range]
  exact Finset.sum_congr rfl fun n _ => ext1_of_lt g n.val n.isLt

theorem sum_ext1_step (g : Fin 50000 → EReal) (n : ℕ) :
    ∑ j ∈ Finset.range (5000 * (n + 1)), ext1 g j
      = ∑ j ∈ Finset.range (5000 * n), ext1 g j + ∑ k : Fin 5000, ext1 g (5000 * n + k.val) := by
  rw [show 5000 * (n + 1) = 5000 * n + 5000 from by ring, Finset.sum_range_add]
  exact congrArg (_ + ·) (Finset.sum_range fun k => ext1 g (5000 * n + k))

section Value
variable (V : (c : Dev nD) → (b : Ref sig .tc) → Buf (Elt Ideal) ((c : Thread nD τ).loc b))

abbrev xblk1 (c : Dev nD) (t : Fin cfg1.N) : Vec Ideal S5000x64 .f32 := iblk1 V c 0 t
abbrev yarr1 (c : Dev nD) : Vec Ideal S50000x64 .f32 := V c main_v19

theorem xblk1_apply (c : Dev nD) (t : Fin cfg1.N) (k : Fin 5000) (f : Fin 64) (h : 5000 * t.val + k.val < 50000) :
    xblk1 V c t (ix2 k f) = yarr1 V c (ix2 (⟨5000 * t.val + k.val, h⟩ : Fin 50000) f) := by
  have hi : win1_0.index t 0 = t.val ∧ win1_0.index t 1 = 0 := by
    rcases fin_N1 t with rfl | rfl | rfl | rfl | rfl | rfl | rfl | rfl | rfl | rfl <;> decide
  unfold xblk1 yarr1 iblk1
  rw [View.read_apply]
  show V c main_v19 _ = V c main_v19 _
  congr 1
  funext a
  apply Fin.ext
  match a with
  | ⟨0, _⟩ => show win1_0.index t 0 * 5000 + 1 * k.val = 5000 * t.val + k.val; rw [hi.1]; omega
  | ⟨1, _⟩ => show win1_0.index t 1 * 64 + 1 * f.val = f.val; rw [hi.2]; omega

abbrev col1 (c : Dev nD) (f : Fin 64) : Fin 50000 → EReal := fun n => yarr1 V c (ix2 n f)
abbrev colsq1 (c : Dev nD) (f : Fin 64) : Fin 50000 → EReal := fun n => yarr1 V c (ix2 n f) * yarr1 V c (ix2 n f)

theorem blk1_sum (c : Dev nD) (t : Fin cfg1.N) (f : Fin 64) :
    ∑ k : Fin 5000, xblk1 V c t (ix2 k f) = ∑ k : Fin 5000, ext1 (col1 V c f) (5000 * t.val + k.val) := by
  have hN : t.val < 10 := lt_of_lt_of_eq t.isLt (show cfg1.N = 10 from N_1)
  refine Finset.sum_congr rfl fun k _ => ?_
  have hk : 5000 * t.val + k.val < 50000 := by have := k.isLt; omega
  exact (xblk1_apply V c t k f hk).trans (ext1_of_lt (col1 V c f) _ hk).symm

theorem blk1_sumsq (c : Dev nD) (t : Fin cfg1.N) (f : Fin 64) :
    ∑ k : Fin 5000, xblk1 V c t (ix2 k f) * xblk1 V c t (ix2 k f) = ∑ k : Fin 5000, ext1 (colsq1 V c f) (5000 * t.val + k.val) := by
  have hN : t.val < 10 := lt_of_lt_of_eq t.isLt (show cfg1.N = 10 from N_1)
  refine Finset.sum_congr rfl fun k _ => ?_
  have hk : 5000 * t.val + k.val < 50000 := by have := k.isLt; omega
  rw [xblk1_apply V c t k f hk]
  exact (ext1_of_lt (colsq1 V c f) _ hk).symm

theorem outsAt1_sum (c : Dev nD) (f : Fin 64) : ∀ (n : ℕ) (h : n < cfg1.N),
    (outsAt1 V c n h).1 (ix2 (0 : Fin 1) f) = ∑ j ∈ Finset.range (5000 * (n + 1)), ext1 (col1 V c f) j
  | 0, h => by
    rw [outsAt1_A V c ⟨0, h⟩ rfl]; dsimp only
    refine (congrFun (out1_A_1_eq (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) ((hcond1_0 ⟨0, h⟩).mpr rfl) (xblk1 V c ⟨0, h⟩)) (ix2 (0 : Fin 1) f)).trans ?_
    refine (k1_pay4_apply _ _ f).trans ?_
    rw [k1_pay1_apply, sum_ext1_step _ 0, blk1_sum V c ⟨0, h⟩ f]

    simp only [Nat.mul_zero, Finset.range_zero, Finset.sum_empty]
  | n + 1, h => by
    have hN : cfg1.N = 10 := N_1
    have hB : ¬(⟨n + 1, h⟩ : Fin cfg1.N).val % 10 = 0 := by dsimp only; omega
    rw [outsAt1_B V c ⟨n + 1, h⟩ hB]; dsimp only

    refine (congrFun (out1_B_1_eq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (fun hh => hB ((hcond1_0 ⟨n + 1, h⟩).mp hh)) (xblk1 V c ⟨n + 1, h⟩) (outsAt1 V c n (Nat.lt_of_succ_lt h)).1 (outsAt1 V c n (Nat.lt_of_succ_lt h)).2) (ix2 (0 : Fin 1) f)).trans ?_
    refine (k1_pay4_apply _ _ f).trans ?_
    rw [sum_ext1_step _ (n + 1), outsAt1_sum c f n (Nat.lt_of_succ_lt h), blk1_sum V c ⟨n + 1, h⟩ f]

theorem outsAt1_sumsq (c : Dev nD) (f : Fin 64) : ∀ (n : ℕ) (h : n < cfg1.N),
    (outsAt1 V c n h).2 (ix2 (0 : Fin 1) f) = ∑ j ∈ Finset.range (5000 * (n + 1)), ext1 (colsq1 V c f) j
  | 0, h => by
    rw [outsAt1_A V c ⟨0, h⟩ rfl]; dsimp only
    refine (congrFun (out1_A_2_eq (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) ((hcond1_0 ⟨0, h⟩).mpr rfl) (xblk1 V c ⟨0, h⟩)) (ix2 (0 : Fin 1) f)).trans ?_
    refine (k1_pay5_apply _ _ f).trans ?_
    rw [k1_pay2_apply, sum_ext1_step _ 0, blk1_sumsq V c ⟨0, h⟩ f]
    simp only [Nat.mul_zero, Finset.range_zero, Finset.sum_empty]
  | n + 1, h => by
    have hN : cfg1.N = 10 := N_1
    have hB : ¬(⟨n + 1, h⟩ : Fin cfg1.N).val % 10 = 0 := by dsimp only; omega
    rw [outsAt1_B V c ⟨n + 1, h⟩ hB]; dsimp only
    refine (congrFun (out1_B_2_eq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (fun hh => hB ((hcond1_0 ⟨n + 1, h⟩).mp hh)) (xblk1 V c ⟨n + 1, h⟩) (outsAt1 V c n (Nat.lt_of_succ_lt h)).1 (outsAt1 V c n (Nat.lt_of_succ_lt h)).2) (ix2 (0 : Fin 1) f)).trans ?_
    refine (k1_pay5_apply _ _ f).trans ?_
    rw [sum_ext1_step _ (n + 1), outsAt1_sumsq c f n (Nat.lt_of_succ_lt h), blk1_sumsq V c ⟨n + 1, h⟩ f]

theorem lt1_9 : 9 < cfg1.N := by rw [show cfg1.N = 10 from N_1]; decide

abbrev result1_sum (c : Dev nD) : Buf (Elt Ideal) ((c : Thread nD τ).loc main_v20_0) := (outsAt1 V c 9 lt1_9).1
abbrev result1_sumsq (c : Dev nD) : Buf (Elt Ideal) ((c : Thread nD τ).loc main_v20_1) := (outsAt1 V c 9 lt1_9).2

theorem flushed_eq1_1 (c : Dev nD) (t : Fin cfg1.N) (hf : (cfg1.win 1).flush t = true) :
    (dat1 V c).flushed 1 t = ((cfg1.win 1).blk t).view.read (Elt Ideal) (result1_sum V c) := by
  have hN : cfg1.N = 10 := N_1
  have h9 : t.val = 9 := by have := (flush1_1 t).mp hf; have := t.isLt; omega
  obtain rfl : t = t1_9 := Fin.ext h9
  show (cfg1.win 1).cut (grid1.coords t1_9) ((dat1 V c).after 1 t1_9) = _
  rw [after1_1]
  have hz' : (fun a => win1_1.index t1_9 a * main_v20_0.ty.shape.size a) = fun _ => 0 := funext fun a => by
    match a with
    | ⟨0, _⟩ => exact (by decide : win1_1.index t1_9 0 * main_v20_0.ty.shape.size 0 = 0)
    | ⟨1, _⟩ => exact (by decide : win1_1.index t1_9 1 * main_v20_0.ty.shape.size 1 = 0)
  exact (Memref.read_access_unit_zero (Elt Ideal) main_v20_0 hz' (fun a => by rw [congrFun hz' a]; simp) (result1_sum V c)).symm

theorem flushed_eq1_2 (c : Dev nD) (t : Fin cfg1.N) (hf : (cfg1.win 2).flush t = true) :
    (dat1 V c).flushed 2 t = ((cfg1.win 2).blk t).view.read (Elt Ideal) (result1_sumsq V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  have hz' : (fun a => win1_2.index t1_9 a * main_v20_1.ty.shape.size a) = fun _ => 0 := funext fun a => by
    match a with
    | ⟨0, _⟩ => exact (by decide : win1_2.index t1_9 0 * main_v20_1.ty.shape.size 0 = 0)
    | ⟨1, _⟩ => exact (by decide : win1_2.index t1_9 1 * main_v20_1.ty.shape.size 1 = 0)
  exact (Memref.read_access_unit_zero (Elt Ideal) main_v20_1 hz' (fun a => by rw [congrFun hz' a]; simp) (result1_sumsq V c)).symm

theorem arrAt1_1 (c : Dev nD) : (dat1 V c).arrAt 1 cfg1.N = result1_sum V c :=
  (dat1 V c).arrAt_eq_of_cover 1 (result1_sum V c) (flushed_eq1_1 V c) fun i =>
    ⟨t1_9, (flush1_1 t1_9).mpr rfl, by
      show i ∈ ((View.whole main_v20_0).slice (win1_1.rect t1_9)).set
      rw [View.set_slice_whole, Rect.mem_set_unit]
      intro a
      have h0 : (i 0 : Nat) < 1 := (i 0).isLt
      have h1 : (i 1 : Nat) < 64 := (i 1).isLt
      match a with
      | ⟨0, _⟩ => show win1_1.index t1_9 0 * win1_1.size 0 ≤ (i 0 : Nat) ∧ (i 0 : Nat) < win1_1.index t1_9 0 * win1_1.size 0 + win1_1.xsize (grid1.coords t1_9) 0
                  rw [show win1_1.index t1_9 0 * win1_1.size 0 = 0 from by decide +kernel, show win1_1.xsize (grid1.coords t1_9) 0 = 1 from by decide +kernel]; omega
      | ⟨1, _⟩ => show win1_1.index t1_9 1 * win1_1.size 1 ≤ (i 1 : Nat) ∧ (i 1 : Nat) < win1_1.index t1_9 1 * win1_1.size 1 + win1_1.xsize (grid1.coords t1_9) 1
                  rw [show win1_1.index t1_9 1 * win1_1.size 1 = 0 from by decide +kernel, show win1_1.xsize (grid1.coords t1_9) 1 = 64 from by decide +kernel]; omega⟩

theorem arrAt1_2 (c : Dev nD) : (dat1 V c).arrAt 2 cfg1.N = result1_sumsq V c :=
  (dat1 V c).arrAt_eq_of_cover 2 (result1_sumsq V c) (flushed_eq1_2 V c) fun i =>
    ⟨t1_9, (flush1_2 t1_9).mpr rfl, by
      show i ∈ ((View.whole main_v20_1).slice (win1_2.rect t1_9)).set
      rw [View.set_slice_whole, Rect.mem_set_unit]
      intro a
      have h0 : (i 0 : Nat) < 1 := (i 0).isLt
      have h1 : (i 1 : Nat) < 64 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 64 from by decide +kernel]; omega⟩

theorem final1_sum (c : Dev nD) (f : Fin 64) :
    (dat1 (F := Ideal) V c).arrAt 1 cfg1.N (ValueIdx.ix2 0 f) = ∑ n : Fin 50000, yarr1 V c (ValueIdx.ix2 n f) := by
  refine (congrFun (arrAt1_1 V c) (ix2 (0 : Fin 1) f)).trans ?_
  refine (outsAt1_sum V c f 9 lt1_9).trans ?_
  exact sum_ext1 (col1 V c f)

theorem final1_sumsq (c : Dev nD) (f : Fin 64) :
    (dat1 (F := Ideal) V c).arrAt 2 cfg1.N (ValueIdx.ix2 0 f) = ∑ n : Fin 50000, yarr1 V c (ValueIdx.ix2 n f) * yarr1 V c (ValueIdx.ix2 n f) := by
  refine (congrFun (arrAt1_2 V c) (ix2 (0 : Fin 1) f)).trans ?_
  refine (outsAt1_sumsq V c f 9 lt1_9).trans ?_
  exact sum_ext1 (colsq1 V c f)

end Value

end Cert.KernelIdeal.Hand

end
-- ==== Proof.KI.R4Value.lean ====
import proofs.«407044_j9311489098471_2_alg».proof.Proof.KI.R4
import proofs.«407044_j9311489098471_2_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Tactic.Ring

set_option maxRecDepth 16384

noncomputable section

open scoped BigOperators

namespace Cert.KernelIdeal.Hand

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

section Pieces
variable {F : FTy → Type} [FloatOps F]

theorem hz4 : (![0, 0] : Fin 2 → Nat) = fun _ => 0 := funext fun a => by
  match a with
  | ⟨0, _⟩ => rfl
  | ⟨1, _⟩ => rfl

theorem out4_B_1_eq (c : Dev nD) (i : grid4.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (hc : ¬cond4_0 i) (x : Vec F S5000x64 .f32) (xo1 xo2 : Vec F S1x64 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  sl_unfold_words

  rw [View.canon_unit_zero hz4]
  simp only [View.readAt_eq_ld, h1.read_unread, h2.read_unread, h3.read_unread, View.ld_unit_zero (S := S5000x64) hz4, View.ld_unit_zero (S := S1x64) hz4]

theorem out4_B_2_eq (c : Dev nD) (i : grid4.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (hc : ¬cond4_0 i) (x : Vec F S5000x64 .f32) (xo1 xo2 : Vec F S1x64 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  sl_unfold_words
  rw [View.canon_unit_zero hz4]
  simp only [View.readAt_eq_ld, h1.read_unread, h2.read_unread, h3.read_unread, View.ld_unit_zero (S := S5000x64) hz4, View.ld_unit_zero (S := S1x64) hz4]

theorem out4_A_1_eq (c : Dev nD) (i : grid4.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (hc : cond4_0 i) (x : Vec F S5000x64 .f32) :
    out4_A_1 c i a1 h1 a2 h2 a3 h3 hc x = k4_pay4 x k4_pay1 := by
  unfold out4_A_1
  rw [View.read_writes_eq_canon _ _ _ (cover4_A_1 c i a1 h1 a2 h2 a3 h3 hc x)]
  unfold kernelRun4_A
  dsimp only
  sl_unfold_words

  rw [View.canon_cons_unit_zero (S := S1x64) hz4]
  simp only [View.readAt_eq_ld, h1.read_unread, View.ld_unit_zero (S := S5000x64) hz4, View.ld_unit_zero (S := S1x64) hz4, View.readCov_unit_zero (S := S1x64) _ hz4]

theorem out4_A_2_eq (c : Dev nD) (i : grid4.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (hc : cond4_0 i) (x : Vec F S5000x64 .f32) :
    out4_A_2 c i a1 h1 a2 h2 a3 h3 hc x = k4_pay5 x k4_pay2 := by
  unfold out4_A_2
  rw [View.read_writes_eq_canon _ _ _ (cover4_A_2 c i a1 h1 a2 h2 a3 h3 hc x)]
  unfold kernelRun4_A
  dsimp only
  sl_unfold_words
  rw [View.canon_cons_unit_zero (S := S1x64) hz4]
  simp only [View.readAt_eq_ld, h1.read_unread, View.ld_unit_zero (S := S5000x64) hz4, View.ld_unit_zero (S := S1x64) hz4, View.readCov_unit_zero (S := S1x64) _ hz4]

end Pieces

theorem colsum4_apply (z : FVec Ideal S5000x64 .f32) (h : S5000x64.Reduces [0] S64)
    (hacc : (0x00000000#32 : BitVec 32) = 0x00000000#32) (f : Fin 64) :
    multiReduction (F := Ideal) .add [0] S64 z 0x00000000#32 h (.inl rfl) hacc (ix1 f) = ∑ k : Fin 5000, z (ix2 k f) := by
  refine (Ideal.multiReduction_add_single z 0x00000000#32 h (.inl rfl) hacc (ix1 f)).trans ?_
  refine Finset.sum_congr rfl fun k _ => congrArg z ?_
  funext a
  match a with
  | ⟨0, _⟩ => rfl
  | ⟨1, _⟩ => rfl

theorem k4_pay4_apply (x : Vec Ideal S5000x64 .f32) (xo : Vec Ideal S1x64 .f32) (f : Fin 64) :
    k4_pay4 (F := Ideal) x xo (ix2 (0 : Fin 1) f) = xo (ix2 (0 : Fin 1) f) + ∑ k : Fin 5000, x (ix2 k f) := by
  unfold k4_pay4 k4_pay3
  dsimp only
  refine (addf_apply _ _ _).trans ?_
  refine congrArg₂ (· + ·) ?_ ?_
  · rw [shapeCast_self]
  · refine (shapeCast_a_1a_apply _ _ (0 : Fin 1) f).trans ?_
    refine (colsum4_apply _ _ _ f).trans ?_
    rw [shapeCast_self]

theorem k4_pay5_apply (x : Vec Ideal S5000x64 .f32) (xo : Vec Ideal S1x64 .f32) (f : Fin 64) :
    k4_pay5 (F := Ideal) x xo (ix2 (0 : Fin 1) f) = xo (ix2 (0 : Fin 1) f) + ∑ k : Fin 5000, x (ix2 k f) * x (ix2 k f) := by
  unfold k4_pay5 k4_pay3
  dsimp only
  refine (addf_apply _ _ _).trans ?_
  refine congrArg₂ (· + ·) ?_ ?_
  · rw [shapeCast_self]
  · refine (shapeCast_a_1a_apply _ _ (0 : Fin 1) f).trans ?_
    refine (colsum4_apply _ _ _ f).trans ?_
    rw [shapeCast_self]
    rfl

theorem k4_pay1_apply (j : S1x64.Idx) : k4_pay1 (F := Ideal) j = 0 := by
  unfold k4_pay1
  exact Ideal.ofBits_zero_f32
theorem k4_pay2_apply (j : S1x64.Idx) : k4_pay2 (F := Ideal) j = 0 := by
  unfold k4_pay2
  exact Ideal.ofBits_zero_f32

def ext4 (g : Fin 50000 → EReal) (j : ℕ) : EReal := if h : j < 50000 then g ⟨j, h⟩ else 0

theorem ext4_of_lt (g : Fin 50000 → EReal) (j : ℕ) (h : j < 50000) : ext4 g j = g ⟨j, h⟩ := dif_pos h

theorem sum_ext4 (g : Fin 50000 → EReal) : ∑ j ∈ Finset.range 50000, ext4 g j = ∑ n : Fin 50000, g n := by
  rw [Finset.sum_range]
  exact Finset.sum_congr rfl fun n _ => ext4_of_lt g n.val n.isLt

theorem sum_ext4_step (g : Fin 50000 → EReal) (n : ℕ) :
    ∑ j ∈ Finset.range (5000 * (n + 1)), ext4 g j
      = ∑ j ∈ Finset.range (5000 * n), ext4 g j + ∑ k : Fin 5000, ext4 g (5000 * n + k.val) := by
  rw [show 5000 * (n + 1) = 5000 * n + 5000 from by ring, Finset.sum_range_add]
  exact congrArg (_ + ·) (Finset.sum_range fun k => ext4 g (5000 * n + k))

section Value
variable (V : (c : Dev nD) → (b : Ref sig .tc) → Buf (Elt Ideal) ((c : Thread nD τ).loc b))

abbrev xblk4 (c : Dev nD) (t : Fin cfg4.N) : Vec Ideal S5000x64 .f32 := iblk4 V c 0 t
abbrev yarr4 (c : Dev nD) : Vec Ideal S50000x64 .f32 := V c main_v43

theorem xblk4_apply (c : Dev nD) (t : Fin cfg4.N) (k : Fin 5000) (f : Fin 64) (h : 5000 * t.val + k.val < 50000) :
    xblk4 V c t (ix2 k f) = yarr4 V c (ix2 (⟨5000 * t.val + k.val, h⟩ : Fin 50000) f) := by
  have hi : win4_0.index t 0 = t.val ∧ win4_0.index t 1 = 0 := by
    rcases fin_N4 t with rfl | rfl | rfl | rfl | rfl | rfl | rfl | rfl | rfl | rfl <;> decide
  unfold xblk4 yarr4 iblk4
  rw [View.read_apply]
  show V c main_v43 _ = V c main_v43 _
  congr 1
  funext a
  apply Fin.ext
  match a with
  | ⟨0, _⟩ => show win4_0.index t 0 * 5000 + 1 * k.val = 5000 * t.val + k.val; rw [hi.1]; omega
  | ⟨1, _⟩ => show win4_0.index t 1 * 64 + 1 * f.val = f.val; rw [hi.2]; omega

abbrev col4 (c : Dev nD) (f : Fin 64) : Fin 50000 → EReal := fun n => yarr4 V c (ix2 n f)
abbrev colsq4 (c : Dev nD) (f : Fin 64) : Fin 50000 → EReal := fun n => yarr4 V c (ix2 n f) * yarr4 V c (ix2 n f)

theorem blk4_sum (c : Dev nD) (t : Fin cfg4.N) (f : Fin 64) :
    ∑ k : Fin 5000, xblk4 V c t (ix2 k f) = ∑ k : Fin 5000, ext4 (col4 V c f) (5000 * t.val + k.val) := by
  have hN : t.val < 10 := lt_of_lt_of_eq t.isLt (show cfg4.N = 10 from N_4)
  refine Finset.sum_congr rfl fun k _ => ?_
  have hk : 5000 * t.val + k.val < 50000 := by have := k.isLt; omega
  exact (xblk4_apply V c t k f hk).trans (ext4_of_lt (col4 V c f) _ hk).symm

theorem blk4_sumsq (c : Dev nD) (t : Fin cfg4.N) (f : Fin 64) :
    ∑ k : Fin 5000, xblk4 V c t (ix2 k f) * xblk4 V c t (ix2 k f) = ∑ k : Fin 5000, ext4 (colsq4 V c f) (5000 * t.val + k.val) := by
  have hN : t.val < 10 := lt_of_lt_of_eq t.isLt (show cfg4.N = 10 from N_4)
  refine Finset.sum_congr rfl fun k _ => ?_
  have hk : 5000 * t.val + k.val < 50000 := by have := k.isLt; omega
  rw [xblk4_apply V c t k f hk]
  exact (ext4_of_lt (colsq4 V c f) _ hk).symm

theorem outsAt4_sum (c : Dev nD) (f : Fin 64) : ∀ (n : ℕ) (h : n < cfg4.N),
    (outsAt4 V c n h).1 (ix2 (0 : Fin 1) f) = ∑ j ∈ Finset.range (5000 * (n + 1)), ext4 (col4 V c f) j
  | 0, h => by
    rw [outsAt4_A V c ⟨0, h⟩ rfl]; dsimp only
    refine (congrFun (out4_A_1_eq (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) ((hcond4_0 ⟨0, h⟩).mpr rfl) (xblk4 V c ⟨0, h⟩)) (ix2 (0 : Fin 1) f)).trans ?_
    refine (k4_pay4_apply _ _ f).trans ?_
    rw [k4_pay1_apply, sum_ext4_step _ 0, blk4_sum V c ⟨0, h⟩ f]

    simp only [Nat.mul_zero, Finset.range_zero, Finset.sum_empty]
  | n + 1, h => by
    have hN : cfg4.N = 10 := N_4
    have hB : ¬(⟨n + 1, h⟩ : Fin cfg4.N).val % 10 = 0 := by dsimp only; omega
    rw [outsAt4_B V c ⟨n + 1, h⟩ hB]; dsimp only

    refine (congrFun (out4_B_1_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (fun hh => hB ((hcond4_0 ⟨n + 1, h⟩).mp hh)) (xblk4 V c ⟨n + 1, h⟩) (outsAt4 V c n (Nat.lt_of_succ_lt h)).1 (outsAt4 V c n (Nat.lt_of_succ_lt h)).2) (ix2 (0 : Fin 1) f)).trans ?_
    refine (k4_pay4_apply _ _ f).trans ?_
    rw [sum_ext4_step _ (n + 1), outsAt4_sum c f n (Nat.lt_of_succ_lt h), blk4_sum V c ⟨n + 1, h⟩ f]

theorem outsAt4_sumsq (c : Dev nD) (f : Fin 64) : ∀ (n : ℕ) (h : n < cfg4.N),
    (outsAt4 V c n h).2 (ix2 (0 : Fin 1) f) = ∑ j ∈ Finset.range (5000 * (n + 1)), ext4 (colsq4 V c f) j
  | 0, h => by
    rw [outsAt4_A V c ⟨0, h⟩ rfl]; dsimp only
    refine (congrFun (out4_A_2_eq (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) ((hcond4_0 ⟨0, h⟩).mpr rfl) (xblk4 V c ⟨0, h⟩)) (ix2 (0 : Fin 1) f)).trans ?_
    refine (k4_pay5_apply _ _ f).trans ?_
    rw [k4_pay2_apply, sum_ext4_step _ 0, blk4_sumsq V c ⟨0, h⟩ f]
    simp only [Nat.mul_zero, Finset.range_zero, Finset.sum_empty]
  | n + 1, h => by
    have hN : cfg4.N = 10 := N_4
    have hB : ¬(⟨n + 1, h⟩ : Fin cfg4.N).val % 10 = 0 := by dsimp only; omega
    rw [outsAt4_B V c ⟨n + 1, h⟩ hB]; dsimp only
    refine (congrFun (out4_B_2_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (fun hh => hB ((hcond4_0 ⟨n + 1, h⟩).mp hh)) (xblk4 V c ⟨n + 1, h⟩) (outsAt4 V c n (Nat.lt_of_succ_lt h)).1 (outsAt4 V c n (Nat.lt_of_succ_lt h)).2) (ix2 (0 : Fin 1) f)).trans ?_
    refine (k4_pay5_apply _ _ f).trans ?_
    rw [sum_ext4_step _ (n + 1), outsAt4_sumsq c f n (Nat.lt_of_succ_lt h), blk4_sumsq V c ⟨n + 1, h⟩ f]

theorem lt4_9 : 9 < cfg4.N := by rw [show cfg4.N = 10 from N_4]; decide

abbrev result4_sum (c : Dev nD) : Buf (Elt Ideal) ((c : Thread nD τ).loc main_v44_0) := (outsAt4 V c 9 lt4_9).1
abbrev result4_sumsq (c : Dev nD) : Buf (Elt Ideal) ((c : Thread nD τ).loc main_v44_1) := (outsAt4 V c 9 lt4_9).2

theorem flushed_eq4_1 (c : Dev nD) (t : Fin cfg4.N) (hf : (cfg4.win 1).flush t = true) :
    (dat4 V c).flushed 1 t = ((cfg4.win 1).blk t).view.read (Elt Ideal) (result4_sum V c) := by
  have hN : cfg4.N = 10 := N_4
  have h9 : t.val = 9 := by have := (flush4_1 t).mp hf; have := t.isLt; omega
  obtain rfl : t = t4_9 := Fin.ext h9
  show (cfg4.win 1).cut (grid4.coords t4_9) ((dat4 V c).after 1 t4_9) = _
  rw [after4_1]
  have hz' : (fun a => win4_1.index t4_9 a * main_v44_0.ty.shape.size a) = fun _ => 0 := funext fun a => by
    match a with
    | ⟨0, _⟩ => exact (by decide : win4_1.index t4_9 0 * main_v44_0.ty.shape.size 0 = 0)
    | ⟨1, _⟩ => exact (by decide : win4_1.index t4_9 1 * main_v44_0.ty.shape.size 1 = 0)
  exact (Memref.read_access_unit_zero (Elt Ideal) main_v44_0 hz' (fun a => by rw [congrFun hz' a]; simp) (result4_sum V c)).symm

theorem flushed_eq4_2 (c : Dev nD) (t : Fin cfg4.N) (hf : (cfg4.win 2).flush t = true) :
    (dat4 V c).flushed 2 t = ((cfg4.win 2).blk t).view.read (Elt Ideal) (result4_sumsq V c) := by
  have hN : cfg4.N = 10 := N_4
  have h9 : t.val = 9 := by have := (flush4_2 t).mp hf; have := t.isLt; omega
  obtain rfl : t = t4_9 := Fin.ext h9
  show (cfg4.win 2).cut (grid4.coords t4_9) ((dat4 V c).after 2 t4_9) = _
  rw [after4_2]
  have hz' : (fun a => win4_2.index t4_9 a * main_v44_1.ty.shape.size a) = fun _ => 0 := funext fun a => by
    match a with
    | ⟨0, _⟩ => exact (by decide : win4_2.index t4_9 0 * main_v44_1.ty.shape.size 0 = 0)
    | ⟨1, _⟩ => exact (by decide : win4_2.index t4_9 1 * main_v44_1.ty.shape.size 1 = 0)
  exact (Memref.read_access_unit_zero (Elt Ideal) main_v44_1 hz' (fun a => by rw [congrFun hz' a]; simp) (result4_sumsq V c)).symm

theorem arrAt4_1 (c : Dev nD) : (dat4 V c).arrAt 1 cfg4.N = result4_sum V c :=
  (dat4 V c).arrAt_eq_of_cover 1 (result4_sum V c) (flushed_eq4_1 V c) fun i =>
    ⟨t4_9, (flush4_1 t4_9).mpr rfl, by
      show i ∈ ((View.whole main_v44_0).slice (win4_1.rect t4_9)).set
      rw [View.set_slice_whole, Rect.mem_set_unit]
      intro a
      have h0 : (i 0 : Nat) < 1 := (i 0).isLt
      have h1 : (i 1 : Nat) < 64 := (i 1).isLt
      match a with
      | ⟨0, _⟩ => show win4_1.index t4_9 0 * win4_1.size 0 ≤ (i 0 : Nat) ∧ (i 0 : Nat) < win4_1.index t4_9 0 * win4_1.size 0 + win4_1.xsize (grid4.coords t4_9) 0
                  rw [show win4_1.index t4_9 0 * win4_1.size 0 = 0 from by decide +kernel, show win4_1.xsize (grid4.coords t4_9) 0 = 1 from by decide +kernel]; omega
      | ⟨1, _⟩ => show win4_1.index t4_9 1 * win4_1.size 1 ≤ (i 1 : Nat) ∧ (i 1 : Nat) < win4_1.index t4_9 1 * win4_1.size 1 + win4_1.xsize (grid4.coords t4_9) 1
                  rw [show win4_1.index t4_9 1 * win4_1.size 1 = 0 from by decide +kernel, show win4_1.xsize (grid4.coords t4_9) 1 = 64 from by decide +kernel]; omega⟩

theorem arrAt4_2 (c : Dev nD) : (dat4 V c).arrAt 2 cfg4.N = result4_sumsq V c :=
  (dat4 V c).arrAt_eq_of_cover 2 (result4_sumsq V c) (flushed_eq4_2 V c) fun i =>
    ⟨t4_9, (flush4_2 t4_9).mpr rfl, by
      show i ∈ ((View.whole main_v44_1).slice (win4_2.rect t4_9)).set
      rw [View.set_slice_whole, Rect.mem_set_unit]
      intro a
      have h0 : (i 0 : Nat) < 1 := (i 0).isLt
      have h1 : (i 1 : Nat) < 64 := (i 1).isLt
      match a with
      | ⟨0, _⟩ => show win4_2.index t4_9 0 * win4_2.size 0 ≤ (i 0 : Nat) ∧ (i 0 : Nat) < win4_2.index t4_9 0 * win4_2.size 0 + win4_2.xsize (grid4.coords t4_9) 0
                  rw [show win4_2.index t4_9 0 * win4_2.size 0 = 0 from by decide +kernel, show win4_2.xsize (grid4.coords t4_9) 0 = 1 from by decide +kernel]; omega
      | ⟨1, _⟩ => show win4_2.index t4_9 1 * win4_2.size 1 ≤ (i 1 : Nat) ∧ (i 1 : Nat) < win4_2.index t4_9 1 * win4_2.size 1 + win4_2.xsize (grid4.coords t4_9) 1
                  rw [show win4_2.index t4_9 1 * win4_2.size 1 = 0 from by decide +kernel, show win4_2.xsize (grid4.coords t4_9) 1 = 64 from by decide +kernel]; omega⟩

theorem final4_sum (c : Dev nD) (f : Fin 64) :
    (dat4 (F := Ideal) V c).arrAt 1 cfg4.N (ValueIdx.ix2 0 f) = ∑ n : Fin 50000, yarr4 V c (ValueIdx.ix2 n f) := by
  refine (congrFun (arrAt4_1 V c) (ix2 (0 : Fin 1) f)).trans ?_
  refine (outsAt4_sum V c f 9 lt4_9).trans ?_
  exact sum_ext4 (col4 V c f)

theorem final4_sumsq (c : Dev nD) (f : Fin 64) :
    (dat4 (F := Ideal) V c).arrAt 2 cfg4.N (ValueIdx.ix2 0 f) = ∑ n : Fin 50000, yarr4 V c (ValueIdx.ix2 n f) * yarr4 V c (ValueIdx.ix2 n f) := by
  refine (congrFun (arrAt4_2 V c) (ix2 (0 : Fin 1) f)).trans ?_
  refine (outsAt4_sumsq V c f 9 lt4_9).trans ?_
  exact sum_ext4 (colsq4 V c f)

end Value

end Cert.KernelIdeal.Hand

end
-- ==== Proof.KI.R7Value.lean ====
import proofs.«407044_j9311489098471_2_alg».proof.Proof.KI.R7
import proofs.«407044_j9311489098471_2_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Tactic.Ring

set_option maxRecDepth 16384

noncomputable section

open scoped BigOperators

namespace Cert.KernelIdeal.Hand

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

section Pieces
variable {F : FTy → Type} [FloatOps F]

theorem hz7 : (![0, 0] : Fin 2 → Nat) = fun _ => 0 := funext fun a => by
  match a with
  | ⟨0, _⟩ => rfl
  | ⟨1, _⟩ => rfl

theorem out7_B_1_eq (c : Dev nD) (i : grid7.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (hc : ¬cond7_0 i) (x : Vec F S5000x64 .f32) (xo1 xo2 : Vec F S1x64 .f32) :
    out7_B_1 c i a1 h1 a2 h2 a3 h3 hc x xo1 xo2 = k7_pay4 x xo1 := by
  unfold out7_B_1
  rw [View.read_writes_eq_canon _ _ _ (cover7_B_1 c i a1 h1 a2 h2 a3 h3 hc x xo1 xo2)]
  unfold kernelRun7_B
  dsimp only
  sl_unfold_words

  rw [View.canon_unit_zero hz7]
  simp only [View.readAt_eq_ld, h1.read_unread, h2.read_unread, h3.read_unread, View.ld_unit_zero (S := S5000x64) hz7, View.ld_unit_zero (S := S1x64) hz7]

theorem out7_B_2_eq (c : Dev nD) (i : grid7.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (hc : ¬cond7_0 i) (x : Vec F S5000x64 .f32) (xo1 xo2 : Vec F S1x64 .f32) :
    out7_B_2 c i a1 h1 a2 h2 a3 h3 hc x xo1 xo2 = k7_pay5 x xo2 := by
  unfold out7_B_2
  rw [View.read_writes_eq_canon _ _ _ (cover7_B_2 c i a1 h1 a2 h2 a3 h3 hc x xo1 xo2)]
  unfold kernelRun7_B
  dsimp only
  sl_unfold_words
  rw [View.canon_unit_zero hz7]
  simp only [View.readAt_eq_ld, h1.read_unread, h2.read_unread, h3.read_unread, View.ld_unit_zero (S := S5000x64) hz7, View.ld_unit_zero (S := S1x64) hz7]

theorem out7_A_1_eq (c : Dev nD) (i : grid7.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (hc : cond7_0 i) (x : Vec F S5000x64 .f32) :
    out7_A_1 c i a1 h1 a2 h2 a3 h3 hc x = k7_pay4 x k7_pay1 := by
  unfold out7_A_1
  rw [View.read_writes_eq_canon _ _ _ (cover7_A_1 c i a1 h1 a2 h2 a3 h3 hc x)]
  unfold kernelRun7_A
  dsimp only
  sl_unfold_words

  rw [View.canon_cons_unit_zero (S := S1x64) hz7]
  simp only [View.readAt_eq_ld, h1.read_unread, View.ld_unit_zero (S := S5000x64) hz7, View.ld_unit_zero (S := S1x64) hz7, View.readCov_unit_zero (S := S1x64) _ hz7]

theorem out7_A_2_eq (c : Dev nD) (i : grid7.Coords) (a1 : Memref sig .tc .vmem S5000x64 .f32) (h1 : a1.IsWhole) (a2 : Memref sig .tc .vmem S1x64 .f32) (h2 : a2.IsWhole) (a3 : Memref sig .tc .vmem S1x64 .f32) (h3 : a3.IsWhole) (hc : cond7_0 i) (x : Vec F S5000x64 .f32) :
    out7_A_2 c i a1 h1 a2 h2 a3 h3 hc x = k7_pay5 x k7_pay2 := by
  unfold out7_A_2
  rw [View.read_writes_eq_canon _ _ _ (cover7_A_2 c i a1 h1 a2 h2 a3 h3 hc x)]
  unfold kernelRun7_A
  dsimp only
  sl_unfold_words
  rw [View.canon_cons_unit_zero (S := S1x64) hz7]
  simp only [View.readAt_eq_ld, h1.read_unread, View.ld_unit_zero (S := S5000x64) hz7, View.ld_unit_zero (S := S1x64) hz7, View.readCov_unit_zero (S := S1x64) _ hz7]

end Pieces

theorem colsum7_apply (z : FVec Ideal S5000x64 .f32) (h : S5000x64.Reduces [0] S64)
    (hacc : (0x00000000#32 : BitVec 32) = 0x00000000#32) (f : Fin 64) :
    multiReduction (F := Ideal) .add [0] S64 z 0x00000000#32 h (.inl rfl) hacc (ix1 f) = ∑ k : Fin 5000, z (ix2 k f) := by
  refine (Ideal.multiReduction_add_single z 0x00000000#32 h (.inl rfl) hacc (ix1 f)).trans ?_
  refine Finset.sum_congr rfl fun k _ => congrArg z ?_
  funext a
  match a with
  | ⟨0, _⟩ => rfl
  | ⟨1, _⟩ => rfl

theorem k7_pay4_apply (x : Vec Ideal S5000x64 .f32) (xo : Vec Ideal S1x64 .f32) (f : Fin 64) :
    k7_pay4 (F := Ideal) x xo (ix2 (0 : Fin 1) f) = xo (ix2 (0 : Fin 1) f) + ∑ k : Fin 5000, x (ix2 k f) := by
  unfold k7_pay4 k7_pay3
  dsimp only
  refine (addf_apply _ _ _).trans ?_
  refine congrArg₂ (· + ·) ?_ ?_
  · rw [shapeCast_self]
  · refine (shapeCast_a_1a_apply _ _ (0 : Fin 1) f).trans ?_
    refine (colsum7_apply _ _ _ f).trans ?_
    rw [shapeCast_self]

theorem k7_pay5_apply (x : Vec Ideal S5000x64 .f32) (xo : Vec Ideal S1x64 .f32) (f : Fin 64) :
    k7_pay5 (F := Ideal) x xo (ix2 (0 : Fin 1) f) = xo (ix2 (0 : Fin 1) f) + ∑ k : Fin 5000, x (ix2 k f) * x (ix2 k f) := by
  unfold k7_pay5 k7_pay3
  dsimp only
  refine (addf_apply _ _ _).trans ?_
  refine congrArg₂ (· + ·) ?_ ?_
  · rw [shapeCast_self]
  · refine (shapeCast_a_1a_apply _ _ (0 : Fin 1) f).trans ?_
    refine (colsum7_apply _ _ _ f).trans ?_
    rw [shapeCast_self]
    rfl

theorem k7_pay1_apply (j : S1x64.Idx) : k7_pay1 (F := Ideal) j = 0 := by
  unfold k7_pay1
  exact Ideal.ofBits_zero_f32
theorem k7_pay2_apply (j : S1x64.Idx) : k7_pay2 (F := Ideal) j = 0 := by
  unfold k7_pay2
  exact Ideal.ofBits_zero_f32

def ext7 (g : Fin 50000 → EReal) (j : ℕ) : EReal := if h : j < 50000 then g ⟨j, h⟩ else 0

theorem ext7_of_lt (g : Fin 50000 → EReal) (j : ℕ) (h : j < 50000) : ext7 g j = g ⟨j, h⟩ := dif_pos h

theorem sum_ext7 (g : Fin 50000 → EReal) : ∑ j ∈ Finset.range 50000, ext7 g j = ∑ n : Fin 50000, g n := by
  rw [Finset.sum_range]
  exact Finset.sum_congr rfl fun n _ => ext7_of_lt g n.val n.isLt

theorem sum_ext7_step (g : Fin 50000 → EReal) (n : ℕ) :
    ∑ j ∈ Finset.range (5000 * (n + 1)), ext7 g j
      = ∑ j ∈ Finset.range (5000 * n), ext7 g j + ∑ k : Fin 5000, ext7 g (5000 * n + k.val) := by
  rw [show 5000 * (n + 1) = 5000 * n + 5000 from by ring, Finset.sum_range_add]
  exact congrArg (_ + ·) (Finset.sum_range fun k => ext7 g (5000 * n + k))

section Value
variable (V : (c : Dev nD) → (b : Ref sig .tc) → Buf (Elt Ideal) ((c : Thread nD τ).loc b))

abbrev xblk7 (c : Dev nD) (t : Fin cfg7.N) : Vec Ideal S5000x64 .f32 := iblk7 V c 0 t
abbrev yarr7 (c : Dev nD) : Vec Ideal S50000x64 .f32 := V c main_v67

theorem xblk7_apply (c : Dev nD) (t : Fin cfg7.N) (k : Fin 5000) (f : Fin 64) (h : 5000 * t.val + k.val < 50000) :
    xblk7 V c t (ix2 k f) = yarr7 V c (ix2 (⟨5000 * t.val + k.val, h⟩ : Fin 50000) f) := by
  have hi : win7_0.index t 0 = t.val ∧ win7_0.index t 1 = 0 := by
    rcases fin_N7 t with rfl | rfl | rfl | rfl | rfl | rfl | rfl | rfl | rfl | rfl <;> decide
  unfold xblk7 yarr7 iblk7
  rw [View.read_apply]
  show V c main_v67 _ = V c main_v67 _
  congr 1
  funext a
  apply Fin.ext
  match a with
  | ⟨0, _⟩ => show win7_0.index t 0 * 5000 + 1 * k.val = 5000 * t.val + k.val; rw [hi.1]; omega
  | ⟨1, _⟩ => show win7_0.index t 1 * 64 + 1 * f.val = f.val; rw [hi.2]; omega

abbrev col7 (c : Dev nD) (f : Fin 64) : Fin 50000 → EReal := fun n => yarr7 V c (ix2 n f)
abbrev colsq7 (c : Dev nD) (f : Fin 64) : Fin 50000 → EReal := fun n => yarr7 V c (ix2 n f) * yarr7 V c (ix2 n f)

theorem blk7_sum (c : Dev nD) (t : Fin cfg7.N) (f : Fin 64) :
    ∑ k : Fin 5000, xblk7 V c t (ix2 k f) = ∑ k : Fin 5000, ext7 (col7 V c f) (5000 * t.val + k.val) := by
  have hN : t.val < 10 := lt_of_lt_of_eq t.isLt (show cfg7.N = 10 from N_7)
  refine Finset.sum_congr rfl fun k _ => ?_
  have hk : 5000 * t.val + k.val < 50000 := by have := k.isLt; omega
  exact (xblk7_apply V c t k f hk).trans (ext7_of_lt (col7 V c f) _ hk).symm

theorem blk7_sumsq (c : Dev nD) (t : Fin cfg7.N) (f : Fin 64) :
    ∑ k : Fin 5000, xblk7 V c t (ix2 k f) * xblk7 V c t (ix2 k f) = ∑ k : Fin 5000, ext7 (colsq7 V c f) (5000 * t.val + k.val) := by
  have hN : t.val < 10 := lt_of_lt_of_eq t.isLt (show cfg7.N = 10 from N_7)
  refine Finset.sum_congr rfl fun k _ => ?_
  have hk : 5000 * t.val + k.val < 50000 := by have := k.isLt; omega
  rw [xblk7_apply V c t k f hk]
  exact (ext7_of_lt (colsq7 V c f) _ hk).symm

theorem outsAt7_sum (c : Dev nD) (f : Fin 64) : ∀ (n : ℕ) (h : n < cfg7.N),
    (outsAt7 V c n h).1 (ix2 (0 : Fin 1) f) = ∑ j ∈ Finset.range (5000 * (n + 1)), ext7 (col7 V c f) j
  | 0, h => by
    rw [outsAt7_A V c ⟨0, h⟩ rfl]; dsimp only
    refine (congrFun (out7_A_1_eq (F := Ideal) c (grid7.coords ⟨0, h⟩) (ms7_0 ⟨0, h⟩) (hs7_0 ⟨0, h⟩) (ms7_1 ⟨0, h⟩) (hs7_1 ⟨0, h⟩) (ms7_2 ⟨0, h⟩) (hs7_2 ⟨0, h⟩) ((hcond7_0 ⟨0, h⟩).mpr rfl) (xblk7 V c ⟨0, h⟩)) (ix2 (0 : Fin 1) f)).trans ?_
    refine (k7_pay4_apply _ _ f).trans ?_
    rw [k7_pay1_apply, sum_ext7_step _ 0, blk7_sum V c ⟨0, h⟩ f]

    simp only [Nat.mul_zero, Finset.range_zero, Finset.sum_empty]
  | n + 1, h => by
    have hN : cfg7.N = 10 := N_7
    have hB : ¬(⟨n + 1, h⟩ : Fin cfg7.N).val % 10 = 0 := by dsimp only; omega
    rw [outsAt7_B V c ⟨n + 1, h⟩ hB]; dsimp only

    refine (congrFun (out7_B_1_eq (F := Ideal) c (grid7.coords ⟨n + 1, h⟩) (ms7_0 ⟨n + 1, h⟩) (hs7_0 ⟨n + 1, h⟩) (ms7_1 ⟨n + 1, h⟩) (hs7_1 ⟨n + 1, h⟩) (ms7_2 ⟨n + 1, h⟩) (hs7_2 ⟨n + 1, h⟩) (fun hh => hB ((hcond7_0 ⟨n + 1, h⟩).mp hh)) (xblk7 V c ⟨n + 1, h⟩) (outsAt7 V c n (Nat.lt_of_succ_lt h)).1 (outsAt7 V c n (Nat.lt_of_succ_lt h)).2) (ix2 (0 : Fin 1) f)).trans ?_
    refine (k7_pay4_apply _ _ f).trans ?_
    rw [sum_ext7_step _ (n + 1), outsAt7_sum c f n (Nat.lt_of_succ_lt h), blk7_sum V c ⟨n + 1, h⟩ f]

theorem outsAt7_sumsq (c : Dev nD) (f : Fin 64) : ∀ (n : ℕ) (h : n < cfg7.N),
    (outsAt7 V c n h).2 (ix2 (0 : Fin 1) f) = ∑ j ∈ Finset.range (5000 * (n + 1)), ext7 (colsq7 V c f) j
  | 0, h => by
    rw [outsAt7_A V c ⟨0, h⟩ rfl]; dsimp only
    refine (congrFun (out7_A_2_eq (F := Ideal) c (grid7.coords ⟨0, h⟩) (ms7_0 ⟨0, h⟩) (hs7_0 ⟨0, h⟩) (ms7_1 ⟨0, h⟩) (hs7_1 ⟨0, h⟩) (ms7_2 ⟨0, h⟩) (hs7_2 ⟨0, h⟩) ((hcond7_0 ⟨0, h⟩).mpr rfl) (xblk7 V c ⟨0, h⟩)) (ix2 (0 : Fin 1) f)).trans ?_
    refine (k7_pay5_apply _ _ f).trans ?_
    rw [k7_pay2_apply, sum_ext7_step _ 0, blk7_sumsq V c ⟨0, h⟩ f]
    simp only [Nat.mul_zero, Finset.range_zero, Finset.sum_empty]
  | n + 1, h => by
    have hN : cfg7.N = 10 := N_7
    have hB : ¬(⟨n + 1, h⟩ : Fin cfg7.N).val % 10 = 0 := by dsimp only; omega
    rw [outsAt7_B V c ⟨n + 1, h⟩ hB]; dsimp only
    refine (congrFun (out7_B_2_eq (F := Ideal) c (grid7.coords ⟨n + 1, h⟩) (ms7_0 ⟨n + 1, h⟩) (hs7_0 ⟨n + 1, h⟩) (ms7_1 ⟨n + 1, h⟩) (hs7_1 ⟨n + 1, h⟩) (ms7_2 ⟨n + 1, h⟩) (hs7_2 ⟨n + 1, h⟩) (fun hh => hB ((hcond7_0 ⟨n + 1, h⟩).mp hh)) (xblk7 V c ⟨n + 1, h⟩) (outsAt7 V c n (Nat.lt_of_succ_lt h)).1 (outsAt7 V c n (Nat.lt_of_succ_lt h)).2) (ix2 (0 : Fin 1) f)).trans ?_
    refine (k7_pay5_apply _ _ f).trans ?_
    rw [sum_ext7_step _ (n + 1), outsAt7_sumsq c f n (Nat.lt_of_succ_lt h), blk7_sumsq V c ⟨n + 1, h⟩ f]

theorem lt7_9 : 9 < cfg7.N := by rw [show cfg7.N = 10 from N_7]; decide

abbrev result7_sum (c : Dev nD) : Buf (Elt Ideal) ((c : Thread nD τ).loc main_v68_0) := (outsAt7 V c 9 lt7_9).1
abbrev result7_sumsq (c : Dev nD) : Buf (Elt Ideal) ((c : Thread nD τ).loc main_v68_1) := (outsAt7 V c 9 lt7_9).2

theorem flushed_eq7_1 (c : Dev nD) (t : Fin cfg7.N) (hf : (cfg7.win 1).flush t = true) :
    (dat7 V c).flushed 1 t = ((cfg7.win 1).blk t).view.read (Elt Ideal) (result7_sum V c) := by
  have hN : cfg7.N = 10 := N_7
  have h9 : t.val = 9 := by have := (flush7_1 t).mp hf; have := t.isLt; omega
  obtain rfl : t = t7_9 := Fin.ext h9
  show (cfg7.win 1).cut (grid7.coords t7_9) ((dat7 V c).after 1 t7_9) = _
  rw [after7_1]
  have hz' : (fun a => win7_1.index t7_9 a * main_v68_0.ty.shape.size a) = fun _ => 0 := funext fun a => by
    match a with
    | ⟨0, _⟩ => exact (by decide : win7_1.index t7_9 0 * main_v68_0.ty.shape.size 0 = 0)
    | ⟨1, _⟩ => exact (by decide : win7_1.index t7_9 1 * main_v68_0.ty.shape.size 1 = 0)
  exact (Memref.read_access_unit_zero (Elt Ideal) main_v68_0 hz' (fun a => by rw [congrFun hz' a]; simp) (result7_sum V c)).symm

theorem flushed_eq7_2 (c : Dev nD) (t : Fin cfg7.N) (hf : (cfg7.win 2).flush t = true) :
    (dat7 V c).flushed 2 t = ((cfg7.win 2).blk t).view.read (Elt Ideal) (result7_sumsq V c) := by
  have hN : cfg7.N = 10 := N_7
  have h9 : t.val = 9 := by have := (flush7_2 t).mp hf; have := t.isLt; omega
  obtain rfl : t = t7_9 := Fin.ext h9
  show (cfg7.win 2).cut (grid7.coords t7_9) ((dat7 V c).after 2 t7_9) = _
  rw [after7_2]
  have hz' : (fun a => win7_2.index t7_9 a * main_v68_1.ty.shape.size a) = fun _ => 0 := funext fun a => by
    match a with
    | ⟨0, _⟩ => exact (by decide : win7_2.index t7_9 0 * main_v68_1.ty.shape.size 0 = 0)
    | ⟨1, _⟩ => exact (by decide : win7_2.index t7_9 1 * main_v68_1.ty.shape.size 1 = 0)
  exact (Memref.read_access_unit_zero (Elt Ideal) main_v68_1 hz' (fun a => by rw [congrFun hz' a]; simp) (result7_sumsq V c)).symm

theorem arrAt7_1 (c : Dev nD) : (dat7 V c).arrAt 1 cfg7.N = result7_sum V c :=
  (dat7 V c).arrAt_eq_of_cover 1 (result7_sum V c) (flushed_eq7_1 V c) fun i =>
    ⟨t7_9, (flush7_1 t7_9).mpr rfl, by
      show i ∈ ((View.whole main_v68_0).slice (win7_1.rect t7_9)).set
      rw [View.set_slice_whole, Rect.mem_set_unit]
      intro a
      have h0 : (i 0 : Nat) < 1 := (i 0).isLt
      have h1 : (i 1 : Nat) < 64 := (i 1).isLt
      match a with
      | ⟨0, _⟩ => show win7_1.index t7_9 0 * win7_1.size 0 ≤ (i 0 : Nat) ∧ (i 0 : Nat) < win7_1.index t7_9 0 * win7_1.size 0 + win7_1.xsize (grid7.coords t7_9) 0
                  rw [show win7_1.index t7_9 0 * win7_1.size 0 = 0 from by decide +kernel, show win7_1.xsize (grid7.coords t7_9) 0 = 1 from by decide +kernel]; omega
      | ⟨1, _⟩ => show win7_1.index t7_9 1 * win7_1.size 1 ≤ (i 1 : Nat) ∧ (i 1 : Nat) < win7_1.index t7_9 1 * win7_1.size 1 + win7_1.xsize (grid7.coords t7_9) 1
                  rw [show win7_1.index t7_9 1 * win7_1.size 1 = 0 from by decide +kernel, show win7_1.xsize (grid7.coords t7_9) 1 = 64 from by decide +kernel]; omega⟩

theorem arrAt7_2 (c : Dev nD) : (dat7 V c).arrAt 2 cfg7.N = result7_sumsq V c :=
  (dat7 V c).arrAt_eq_of_cover 2 (result7_sumsq V c) (flushed_eq7_2 V c) fun i =>
    ⟨t7_9, (flush7_2 t7_9).mpr rfl, by
      show i ∈ ((View.whole main_v68_1).slice (win7_2.rect t7_9)).set
      rw [View.set_slice_whole, Rect.mem_set_unit]
      intro a
      have h0 : (i 0 : Nat) < 1 := (i 0).isLt
      have h1 : (i 1 : Nat) < 64 := (i 1).isLt
      match a with
      | ⟨0, _⟩ => show win7_2.index t7_9 0 * win7_2.size 0 ≤ (i 0 : Nat) ∧ (i 0 : Nat) < win7_2.index t7_9 0 * win7_2.size 0 + win7_2.xsize (grid7.coords t7_9) 0
                  rw [show win7_2.index t7_9 0 * win7_2.size 0 = 0 from by decide +kernel, show win7_2.xsize (grid7.coords t7_9) 0 = 1 from by decide +kernel]; omega
      | ⟨1, _⟩ => show win7_2.index t7_9 1 * win7_2.size 1 ≤ (i 1 : Nat) ∧ (i 1 : Nat) < win7_2.index t7_9 1 * win7_2.size 1 + win7_2.xsize (grid7.coords t7_9) 1
                  rw [show win7_2.index t7_9 1 * win7_2.size 1 = 0 from by decide +kernel, show win7_2.xsize (grid7.coords t7_9) 1 = 64 from by decide +kernel]; omega⟩

theorem final7_sum (c : Dev nD) (f : Fin 64) :
    (dat7 (F := Ideal) V c).arrAt 1 cfg7.N (ValueIdx.ix2 0 f) = ∑ n : Fin 50000, yarr7 V c (ValueIdx.ix2 n f) := by
  refine (congrFun (arrAt7_1 V c) (ix2 (0 : Fin 1) f)).trans ?_
  refine (outsAt7_sum V c f 9 lt7_9).trans ?_
  exact sum_ext7 (col7 V c f)

theorem final7_sumsq (c : Dev nD) (f : Fin 64) :
    (dat7 (F := Ideal) V c).arrAt 2 cfg7.N (ValueIdx.ix2 0 f) = ∑ n : Fin 50000, yarr7 V c (ValueIdx.ix2 n f) * yarr7 V c (ValueIdx.ix2 n f) := by
  refine (congrFun (arrAt7_2 V c) (ix2 (0 : Fin 1) f)).trans ?_
  refine (outsAt7_sumsq V c f 9 lt7_9).trans ?_
  exact sum_ext7 (colsq7 V c f)

end Value

end Cert.KernelIdeal.Hand

end
-- ==== Proof.KI.BnEntry.lean ====
import proofs.«407044_j9311489098471_2_alg».proof.Proof.Spec
import Idealize.ShloMosaic.Lib.ValueIdx

noncomputable section

namespace Cert.KernelIdeal.Hand

open Idealize.ShloMosaic Idealize.ShloMosaic.ValueIdx

def bnAt (y : (⟨2, ![50000, 64]⟩ : Shape).Idx → EReal) (mu var : (⟨2, ![1, 64]⟩ : Shape).Idx → EReal)
    (g be : (⟨1, ![64]⟩ : Shape).Idx → EReal)
    (i0 : (⟨2, ![50000, 64]⟩ : Shape).Idx) (i1 i2 : (⟨2, ![1, 64]⟩ : Shape).Idx) (i3 i4 : (⟨1, ![64]⟩ : Shape).Idx) : EReal :=
  (y i0 - mu i1) * Ideal.rsqrt (var i2 + Cert.Spec.cEps) * g i3 + be i4

def bnRows (y : (⟨2, ![50000, 64]⟩ : Shape).Idx → EReal) (mu var : (⟨2, ![1, 64]⟩ : Shape).Idx → EReal)
    (g be : (⟨1, ![64]⟩ : Shape).Idx → EReal) (n : Fin 50000) (f : Fin 64) : EReal :=
  bnAt y mu var g be (ix2 n f) (ix2 0 f) (ix2 0 f) (ix1 f) (ix1 f)

theorem bnRows_eq (y : (⟨2, ![50000, 64]⟩ : Shape).Idx → EReal) (mu var : (⟨2, ![1, 64]⟩ : Shape).Idx → EReal)
    (g be : (⟨1, ![64]⟩ : Shape).Idx → EReal) (n : Fin 50000) (f : Fin 64) :
    bnRows y mu var g be n f
      = (y (ix2 n f) - mu (ix2 0 f)) * Ideal.rsqrt (var (ix2 0 f) + Cert.Spec.cEps) * g (ix1 f) + be (ix1 f) := rfl

end Cert.KernelIdeal.Hand

end
-- ==== Proof.KI.R2Value.lean ====
import proofs.«407044_j9311489098471_2_alg».proof.Proof.KI.R2
import proofs.«407044_j9311489098471_2_alg».proof.Proof.KI.BnEntry
import Idealize.ShloMosaic.Lib.Pipeline.Value
import Idealize.ShloMosaic.Lib.ValueIdx
import Idealize.ShloMosaic.Lib.ValueLayout

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem pay2_apply (x0 : Vec Ideal S5000x64 .f32) (x1 x2 : Vec Ideal S1x64 .f32) (x3 x4 : Vec Ideal S64 .f32)
    (p : Fin 5000) (f : Fin 64) :
    k2_pay1 x0 x2 x1 x3 x4 (ix2 p f)
      = (x0 (ix2 p f) - x1 (ix2 0 f)) * Ideal.rsqrt (x2 (ix2 0 f) + Cert.Spec.cEps) * x3 (ix1 f) + x4 (ix1 f) := by
  unfold k2_pay1
  simp only [addf_apply, mulf_apply, subf_apply, broadcastTo_1b_ab_apply, shapeCast_self, shapeCast_a_1a_apply]
  rfl

def G2 (c : Dev nD) : S50000x64.Idx → EReal := fun i =>
  bnAt (V c main_v19) (V c main_v22) (V c main_v26) (V c main_arg14) (V c main_arg15)
    i (ix2 0 (i 1)) (ix2 0 (i 1)) (ix1 (i 1)) (ix1 (i 1))

theorem hz2_2 : (![0, 0] : Fin 2 → Nat) = fun _ => 0 := funext fun a => by fin_cases a <;> rfl
theorem hz2_1 : (![0] : Fin 1 → Nat) = fun _ => 0 := funext fun a => by fin_cases a; rfl

theorem idx_facts2 : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 1) = 0 ∧ win2_4.index t (0 : Fin 1) = 0 :=
  (by decide +kernel : ∀ t : Fin grid2.N, _)

theorem idx_onto2 : ∀ q : Fin 10, ∃ t : Fin cfg2.N, win2_5.index t = ![q.val, 0] :=
  (by decide +kernel : ∀ q : Fin 10, ∃ t : Fin grid2.N, win2_5.index t = ![q.val, 0])

set_option maxHeartbeats 2000000 in

theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2_2]
  simp only [View.ld_unit_zero (S := S5000x64) hz2_2, View.ld_unit_zero (S := S1x64) hz2_2, View.ld_unit_zero (S := S64) hz2_1]
  obtain ⟨e0, e1, e2, e3, e4, e5, e6, e7, e8, e9⟩ := idx_facts2 t
  funext j
  obtain ⟨p, f, rfl⟩ : ∃ (p : Fin 5000) (f : Fin 64), j = ix2 p f := ⟨j 0, j 1, eq_ix2 j⟩
  show k2_pay1 (iblk2 V c 0 t) (iblk2 V c 2 t) (iblk2 V c 1 t) (iblk2 V c 3 t) (iblk2 V c 4 t) (ix2 p f)
    = G2 V c (((cfg2.win 5).blk t).view.emb (ix2 p f))
  refine (pay2_apply _ _ _ _ _ p f).trans ?_
  have h0 : ((cfg2.win 0).blk t).view.emb (ix2 p f) = ((cfg2.win 5).blk t).view.emb (ix2 p f) := by
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 64 + 1 * f.val = win2_5.index t (1 : Fin 2) * 64 + 1 * f.val; omega
  have h1 : ((cfg2.win 1).blk t).view.emb (ix2 0 f) = ix2 0 ((((cfg2.win 5).blk t).view.emb (ix2 p f)) 1) := by
    funext a; apply Fin.ext
    match a with
    | ⟨0, _⟩ => show win2_1.index t (0 : Fin 2) * 1 + 1 * 0 = 0; omega
    | ⟨1, _⟩ => show win2_1.index t (1 : Fin 2) * 64 + 1 * f.val = win2_5.index t (1 : Fin 2) * 64 + 1 * f.val; omega
  have h2 : ((cfg2.win 2).blk t).view.emb (ix2 0 f) = ix2 0 ((((cfg2.win 5).blk t).view.emb (ix2 p f)) 1) := by
    funext a; apply Fin.ext
    match a with
    | ⟨0, _⟩ => show win2_2.index t (0 : Fin 2) * 1 + 1 * 0 = 0; omega
    | ⟨1, _⟩ => show win2_2.index t (1 : Fin 2) * 64 + 1 * f.val = win2_5.index t (1 : Fin 2) * 64 + 1 * f.val; omega
  have h3 : ((cfg2.win 3).blk t).view.emb (ix1 f) = ix1 ((((cfg2.win 5).blk t).view.emb (ix2 p f)) 1) := by
    funext a; apply Fin.ext
    match a with
    | ⟨0, _⟩ => show win2_3.index t (0 : Fin 1) * 64 + 1 * f.val = win2_5.index t (1 : Fin 2) * 64 + 1 * f.val; omega
  have h4 : ((cfg2.win 4).blk t).view.emb (ix1 f) = ix1 ((((cfg2.win 5).blk t).view.emb (ix2 p f)) 1) := by
    funext a; apply Fin.ext
    match a with
    | ⟨0, _⟩ => show win2_4.index t (0 : Fin 1) * 64 + 1 * f.val = win2_5.index t (1 : Fin 2) * 64 + 1 * f.val; omega
  show bnAt (V c main_v19) (V c main_v22) (V c main_v26) (V c main_arg14) (V c main_arg15)
      (((cfg2.win 0).blk t).view.emb (ix2 p f)) (((cfg2.win 1).blk t).view.emb (ix2 0 f))
      (((cfg2.win 2).blk t).view.emb (ix2 0 f)) (((cfg2.win 3).blk t).view.emb (ix1 f))
      (((cfg2.win 4).blk t).view.emb (ix1 f))
    = G2 V c (((cfg2.win 5).blk t).view.emb (ix2 p f))
  rw [h0, h1, h2, h3, h4]
  rfl

theorem mem_blk2 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v27).slice (win2_5.rect t)).set ↔ _
  rw [View.set_slice_whole, Rect.mem_set_unit]
  exact Iff.rfl

theorem cover2 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ := idx_onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

theorem arr2_eq (c : Dev nD) : (dat2 V c).arrAt 5 cfg2.N = G2 V c :=
  (dat2 V c).arrAt_eq_of_cover 5 (G2 V c) (fun t _ => flushed2_eq V c t) (cover2)

theorem final2 (c : Dev nD) (n : Fin 50000) (f : Fin 64) :
    (dat2 (F := Ideal) V c).arrAt 5 cfg2.N (ix2 n f)
      = bnRows (V c main_v19) (V c main_v22) (V c main_v26) (V c main_arg14) (V c main_arg15) n f := by
  rw [arr2_eq]
  rfl

end Cert.KernelIdeal.Hand

end
-- ==== Proof.KI.R5Value.lean ====
import proofs.«407044_j9311489098471_2_alg».proof.Proof.KI.R5
import proofs.«407044_j9311489098471_2_alg».proof.Proof.KI.BnEntry
import Idealize.ShloMosaic.Lib.Pipeline.Value
import Idealize.ShloMosaic.Lib.ValueIdx
import Idealize.ShloMosaic.Lib.ValueLayout

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem pay5_apply (x0 : Vec Ideal S5000x64 .f32) (x1 x2 : Vec Ideal S1x64 .f32) (x3 x4 : Vec Ideal S64 .f32)
    (p : Fin 5000) (f : Fin 64) :
    k5_pay1 x0 x2 x1 x3 x4 (ix2 p f)
      = (x0 (ix2 p f) - x1 (ix2 0 f)) * Ideal.rsqrt (x2 (ix2 0 f) + Cert.Spec.cEps) * x3 (ix1 f) + x4 (ix1 f) := by
  unfold k5_pay1
  simp only [addf_apply, mulf_apply, subf_apply, broadcastTo_1b_ab_apply, shapeCast_self, shapeCast_a_1a_apply]
  rfl

def G5 (c : Dev nD) : S50000x64.Idx → EReal := fun i =>
  bnAt (V c main_v43) (V c main_v46) (V c main_v50) (V c main_arg16) (V c main_arg17)
    i (ix2 0 (i 1)) (ix2 0 (i 1)) (ix1 (i 1)) (ix1 (i 1))

theorem hz5_2 : (![0, 0] : Fin 2 → Nat) = fun _ => 0 := funext fun a => by fin_cases a <;> rfl
theorem hz5_1 : (![0] : Fin 1 → Nat) = fun _ => 0 := funext fun a => by fin_cases a; rfl

theorem idx_facts5 : ∀ t : Fin cfg5.N, win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 1) = 0 ∧ win5_4.index t (0 : Fin 1) = 0 :=
  (by decide +kernel : ∀ t : Fin grid5.N, _)

theorem idx_onto5 : ∀ q : Fin 10, ∃ t : Fin cfg5.N, win5_5.index t = ![q.val, 0] :=
  (by decide +kernel : ∀ q : Fin 10, ∃ t : Fin grid5.N, win5_5.index t = ![q.val, 0])

set_option maxHeartbeats 2000000 in

theorem flushed5_eq (c : Dev nD) (t : Fin cfg5.N) :
    (dat5 V c).flushed 5 t = ((cfg5.win 5).blk t).view.read (Elt Ideal) (G5 V c) := by
  show (cfg5.win 5).cut (grid5.coords t) ((dat5 V c).after 5 t) = _
  rw [after5_5]
  unfold out5_5
  rw [View.canon_unit_zero hz5_2]
  simp only [View.ld_unit_zero (S := S5000x64) hz5_2, View.ld_unit_zero (S := S1x64) hz5_2, View.ld_unit_zero (S := S64) hz5_1]
  obtain ⟨e0, e1, e2, e3, e4, e5, e6, e7, e8, e9⟩ := idx_facts5 t
  funext j
  obtain ⟨p, f, rfl⟩ : ∃ (p : Fin 5000) (f : Fin 64), j = ix2 p f := ⟨j 0, j 1, eq_ix2 j⟩
  show k5_pay1 (iblk5 V c 0 t) (iblk5 V c 2 t) (iblk5 V c 1 t) (iblk5 V c 3 t) (iblk5 V c 4 t) (ix2 p f)
    = G5 V c (((cfg5.win 5).blk t).view.emb (ix2 p f))
  refine (pay5_apply _ _ _ _ _ p f).trans ?_
  have h0 : ((cfg5.win 0).blk t).view.emb (ix2 p f) = ((cfg5.win 5).blk t).view.emb (ix2 p f) := by
    funext a; apply Fin.ext
    match a with
    | ⟨0, _⟩ => show win5_0.index t (0 : Fin 2) * 5000 + 1 * p.val = win5_5.index t (0 : Fin 2) * 5000 + 1 * p.val; omega
    | ⟨1, _⟩ => show win5_0.index t (1 : Fin 2) * 64 + 1 * f.val = win5_5.index t (1 : Fin 2) * 64 + 1 * f.val; omega
  have h1 : ((cfg5.win 1).blk t).view.emb (ix2 0 f) = ix2 0 ((((cfg5.win 5).blk t).view.emb (ix2 p f)) 1) := by
    funext a; apply Fin.ext
    match a with
    | ⟨0, _⟩ => show win5_1.index t (0 : Fin 2) * 1 + 1 * 0 = 0; omega
    | ⟨1, _⟩ => show win5_1.index t (1 : Fin 2) * 64 + 1 * f.val = win5_5.index t (1 : Fin 2) * 64 + 1 * f.val; omega
  have h2 : ((cfg5.win 2).blk t).view.emb (ix2 0 f) = ix2 0 ((((cfg5.win 5).blk t).view.emb (ix2 p f)) 1) := by
    funext a; apply Fin.ext
    match a with
    | ⟨0, _⟩ => show win5_2.index t (0 : Fin 2) * 1 + 1 * 0 = 0; omega
    | ⟨1, _⟩ => show win5_2.index t (1 : Fin 2) * 64 + 1 * f.val = win5_5.index t (1 : Fin 2) * 64 + 1 * f.val; omega
  have h3 : ((cfg5.win 3).blk t).view.emb (ix1 f) = ix1 ((((cfg5.win 5).blk t).view.emb (ix2 p f)) 1) := by
    funext a; apply Fin.ext
    match a with
    | ⟨0, _⟩ => show win5_3.index t (0 : Fin 1) * 64 + 1 * f.val = win5_5.index t (1 : Fin 2) * 64 + 1 * f.val; omega
  have h4 : ((cfg5.win 4).blk t).view.emb (ix1 f) = ix1 ((((cfg5.win 5).blk t).view.emb (ix2 p f)) 1) := by
    funext a; apply Fin.ext
    match a with
    | ⟨0, _⟩ => show win5_4.index t (0 : Fin 1) * 64 + 1 * f.val = win5_5.index t (1 : Fin 2) * 64 + 1 * f.val; omega
  show bnAt (V c main_v43) (V c main_v46) (V c main_v50) (V c main_arg16) (V c main_arg17)
      (((cfg5.win 0).blk t).view.emb (ix2 p f)) (((cfg5.win 1).blk t).view.emb (ix2 0 f))
      (((cfg5.win 2).blk t).view.emb (ix2 0 f)) (((cfg5.win 3).blk t).view.emb (ix1 f))
      (((cfg5.win 4).blk t).view.emb (ix1 f))
    = G5 V c (((cfg5.win 5).blk t).view.emb (ix2 p f))
  rw [h0, h1, h2, h3, h4]
  rfl

theorem mem_blk5 (t : Fin cfg5.N) (i : S50000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v51).slice (win5_5.rect t)).set ↔ _
  rw [View.set_slice_whole, Rect.mem_set_unit]
  exact Iff.rfl

theorem cover5 (i : S50000x64.Idx) :
    ∃ t : Fin cfg5.N, (cfg5.win 5).flush t = true ∧ i ∈ ((cfg5.win 5).blk t).view.set := by
  have hi0 : (i 0).val < 50000 := (i 0).isLt
  have hi1 : (i 1).val < 64 := (i 1).isLt
  obtain ⟨t, ht⟩ := idx_onto5 ⟨(i 0).val / 5000, by omega⟩
  have q0 : win5_5.index t (0 : Fin 2) = (i 0).val / 5000 := congrFun ht 0
  have q1 : win5_5.index t (1 : Fin 2) = 0 := congrFun ht 1
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 64 ≤ (i 1).val ∧ (i 1).val < win5_5.index t (1 : Fin 2) * 64 + 64; omega

theorem arr5_eq (c : Dev nD) : (dat5 V c).arrAt 5 cfg5.N = G5 V c :=
  (dat5 V c).arrAt_eq_of_cover 5 (G5 V c) (fun t _ => flushed5_eq V c t) (cover5)

theorem final5 (c : Dev nD) (n : Fin 50000) (f : Fin 64) :
    (dat5 (F := Ideal) V c).arrAt 5 cfg5.N (ix2 n f)
      = bnRows (V c main_v43) (V c main_v46) (V c main_v50) (V c main_arg16) (V c main_arg17) n f := by
  rw [arr5_eq]
  rfl

end Cert.KernelIdeal.Hand

end
-- ==== Proof.KI.R8Value.lean ====
import proofs.«407044_j9311489098471_2_alg».proof.Proof.KI.R8
import proofs.«407044_j9311489098471_2_alg».proof.Proof.KI.BnEntry
import Idealize.ShloMosaic.Lib.Pipeline.Value
import Idealize.ShloMosaic.Lib.ValueIdx
import Idealize.ShloMosaic.Lib.ValueLayout

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem pay8_apply (x0 : Vec Ideal S5000x64 .f32) (x1 x2 : Vec Ideal S1x64 .f32) (x3 x4 : Vec Ideal S64 .f32)
    (p : Fin 5000) (f : Fin 64) :
    k8_pay1 x0 x2 x1 x3 x4 (ix2 p f)
      = (x0 (ix2 p f) - x1 (ix2 0 f)) * Ideal.rsqrt (x2 (ix2 0 f) + Cert.Spec.cEps) * x3 (ix1 f) + x4 (ix1 f) := by
  unfold k8_pay1
  simp only [addf_apply, mulf_apply, subf_apply, broadcastTo_1b_ab_apply, shapeCast_self, shapeCast_a_1a_apply]
  rfl

def G8 (c : Dev nD) : S50000x64.Idx → EReal := fun i =>
  bnAt (V c main_v67) (V c main_v70) (V c main_v74) (V c main_arg18) (V c main_arg19)
    i (ix2 0 (i 1)) (ix2 0 (i 1)) (ix1 (i 1)) (ix1 (i 1))

theorem hz8_2 : (![0, 0] : Fin 2 → Nat) = fun _ => 0 := funext fun a => by fin_cases a <;> rfl
theorem hz8_1 : (![0] : Fin 1 → Nat) = fun _ => 0 := funext fun a => by fin_cases a; rfl

theorem idx_facts8 : ∀ t : Fin cfg8.N, win8_0.index t (0 : Fin 2) = t.val ∧ win8_0.index t (1 : Fin 2) = 0
    ∧ win8_5.index t (0 : Fin 2) = t.val ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 1) = 0 ∧ win8_4.index t (0 : Fin 1) = 0 :=
  (by decide +kernel : ∀ t : Fin grid8.N, _)

theorem idx_onto8 : ∀ q : Fin 10, ∃ t : Fin cfg8.N, win8_5.index t = ![q.val, 0] :=
  (by decide +kernel : ∀ q : Fin 10, ∃ t : Fin grid8.N, win8_5.index t = ![q.val, 0])

set_option maxHeartbeats 2000000 in

theorem flushed8_eq (c : Dev nD) (t : Fin cfg8.N) :
    (dat8 V c).flushed 5 t = ((cfg8.win 5).blk t).view.read (Elt Ideal) (G8 V c) := by
  show (cfg8.win 5).cut (grid8.coords t) ((dat8 V c).after 5 t) = _
  rw [after8_5]
  unfold out8_5
  rw [View.canon_unit_zero hz8_2]
  simp only [View.ld_unit_zero (S := S5000x64) hz8_2, View.ld_unit_zero (S := S1x64) hz8_2, View.ld_unit_zero (S := S64) hz8_1]
  obtain ⟨e0, e1, e2, e3, e4, e5, e6, e7, e8, e9⟩ := idx_facts8 t
  funext j
  obtain ⟨p, f, rfl⟩ : ∃ (p : Fin 5000) (f : Fin 64), j = ix2 p f := ⟨j 0, j 1, eq_ix2 j⟩
  show k8_pay1 (iblk8 V c 0 t) (iblk8 V c 2 t) (iblk8 V c 1 t) (iblk8 V c 3 t) (iblk8 V c 4 t) (ix2 p f)
    = G8 V c (((cfg8.win 5).blk t).view.emb (ix2 p f))
  refine (pay8_apply _ _ _ _ _ p f).trans ?_
  have h0 : ((cfg8.win 0).blk t).view.emb (ix2 p f) = ((cfg8.win 5).blk t).view.emb (ix2 p f) := by
    funext a; apply Fin.ext
    match a with
    | ⟨0, _⟩ => show win8_0.index t (0 : Fin 2) * 5000 + 1 * p.val = win8_5.index t (0 : Fin 2) * 5000 + 1 * p.val; omega
    | ⟨1, _⟩ => show win8_0.index t (1 : Fin 2) * 64 + 1 * f.val = win8_5.index t (1 : Fin 2) * 64 + 1 * f.val; omega
  have h1 : ((cfg8.win 1).blk t).view.emb (ix2 0 f) = ix2 0 ((((cfg8.win 5).blk t).view.emb (ix2 p f)) 1) := by
    funext a; apply Fin.ext
    match a with
    | ⟨0, _⟩ => show win8_1.index t (0 : Fin 2) * 1 + 1 * 0 = 0; omega
    | ⟨1, _⟩ => show win8_1.index t (1 : Fin 2) * 64 + 1 * f.val = win8_5.index t (1 : Fin 2) * 64 + 1 * f.val; omega
  have h2 : ((cfg8.win 2).blk t).view.emb (ix2 0 f) = ix2 0 ((((cfg8.win 5).blk t).view.emb (ix2 p f)) 1) := by
    funext a; apply Fin.ext
    match a with
    | ⟨0, _⟩ => show win8_2.index t (0 : Fin 2) * 1 + 1 * 0 = 0; omega
    | ⟨1, _⟩ => show win8_2.index t (1 : Fin 2) * 64 + 1 * f.val = win8_5.index t (1 : Fin 2) * 64 + 1 * f.val; omega
  have h3 : ((cfg8.win 3).blk t).view.emb (ix1 f) = ix1 ((((cfg8.win 5).blk t).view.emb (ix2 p f)) 1) := by
    funext a; apply Fin.ext
    match a with
    | ⟨0, _⟩ => show win8_3.index t (0 : Fin 1) * 64 + 1 * f.val = win8_5.index t (1 : Fin 2) * 64 + 1 * f.val; omega
  have h4 : ((cfg8.win 4).blk t).view.emb (ix1 f) = ix1 ((((cfg8.win 5).blk t).view.emb (ix2 p f)) 1) := by
    funext a; apply Fin.ext
    match a with
    | ⟨0, _⟩ => show win8_4.index t (0 : Fin 1) * 64 + 1 * f.val = win8_5.index t (1 : Fin 2) * 64 + 1 * f.val; omega
  show bnAt (V c main_v67) (V c main_v70) (V c main_v74) (V c main_arg18) (V c main_arg19)
      (((cfg8.win 0).blk t).view.emb (ix2 p f)) (((cfg8.win 1).blk t).view.emb (ix2 0 f))
      (((cfg8.win 2).blk t).view.emb (ix2 0 f)) (((cfg8.win 3).blk t).view.emb (ix1 f))
      (((cfg8.win 4).blk t).view.emb (ix1 f))
    = G8 V c (((cfg8.win 5).blk t).view.emb (ix2 p f))
  rw [h0, h1, h2, h3, h4]
  rfl

theorem mem_blk8 (t : Fin cfg8.N) (i : S50000x64.Idx) :
    i ∈ ((cfg8.win 5).blk t).view.set ↔ ∀ a : Fin 2, win8_5.index t a * S5000x64.size a ≤ (i a).val ∧ (i a).val < win8_5.index t a * S5000x64.size a + S5000x64.size a := by
  show i ∈ ((View.whole main_v75).slice (win8_5.rect t)).set ↔ _
  rw [View.set_slice_whole, Rect.mem_set_unit]
  exact Iff.rfl

theorem cover8 (i : S50000x64.Idx) :
    ∃ t : Fin cfg8.N, (cfg8.win 5).flush t = true ∧ i ∈ ((cfg8.win 5).blk t).view.set := by
  have hi0 : (i 0).val < 50000 := (i 0).isLt
  have hi1 : (i 1).val < 64 := (i 1).isLt
  obtain ⟨t, ht⟩ := idx_onto8 ⟨(i 0).val / 5000, by omega⟩
  have q0 : win8_5.index t (0 : Fin 2) = (i 0).val / 5000 := congrFun ht 0
  have q1 : win8_5.index t (1 : Fin 2) = 0 := congrFun ht 1
  refine ⟨t, flush8_5 t, ?_⟩
  rw [mem_blk8]
  intro a
  match a with
  | ⟨0, _⟩ => show win8_5.index t (0 : Fin 2) * 5000 ≤ (i 0).val ∧ (i 0).val < win8_5.index t (0 : Fin 2) * 5000 + 5000; omega
  | ⟨1, _⟩ => show win8_5.index t (1 : Fin 2) * 64 ≤ (i 1).val ∧ (i 1).val < win8_5.index t (1 : Fin 2) * 64 + 64; omega

theorem arr8_eq (c : Dev nD) : (dat8 V c).arrAt 5 cfg8.N = G8 V c :=
  (dat8 V c).arrAt_eq_of_cover 5 (G8 V c) (fun t _ => flushed8_eq V c t) (cover8)

theorem final8 (c : Dev nD) (n : Fin 50000) (f : Fin 64) :
    (dat8 (F := Ideal) V c).arrAt 5 cfg8.N (ix2 n f)
      = bnRows (V c main_v67) (V c main_v70) (V c main_v74) (V c main_arg18) (V c main_arg19) n f := by
  rw [arr8_eq]
  rfl

end Cert.KernelIdeal.Hand

end
-- ==== Proof.KI.HostBn.lean ====
import proofs.«407044_j9311489098471_2_alg».proof.Proof.Gen.KernelIdeal.Regions
import proofs.«407044_j9311489098471_2_alg».proof.Proof.Spec
import Idealize.ShloMosaic.Lib.ValueIdx
import Idealize.ShloMosaic.Lib.ValueLayout
import Idealize.ShloMosaic.Lib.Pipeline.Value

set_option maxRecDepth 1340

noncomputable section

namespace Cert.KernelIdeal.Hand

open Idealize.ShloMosaic Idealize.ShloMosaic.TcCoe
open Idealize.SL.Sem
open Cert.KernelIdeal Cert.KernelIdeal.Gen
open ValueIdx

theorem bn_mean_2 (W : Valuation τ sig (Elt Ideal)) (f : Fin 64) :
    (StableHlo.after (hostOps2 (F := Ideal)) W (Proc.devRef .tc main_v22) : S1x64.Idx → EReal) (ix2 0 f)
      = Ideal.div ((W (Proc.devRef .tc main_v20_0) : S1x64.Idx → EReal) (ix2 0 f)) Cert.Spec.cN := by
  dsimp only [hostOps2]
  after_results
  rfl

theorem bn_var_2 (W : Valuation τ sig (Elt Ideal)) (f : Fin 64) :
    (StableHlo.after (hostOps2 (F := Ideal)) W (Proc.devRef .tc main_v26) : S1x64.Idx → EReal) (ix2 0 f)
      = Ideal.div ((W (Proc.devRef .tc main_v20_1) : S1x64.Idx → EReal) (ix2 0 f)) Cert.Spec.cN
        - Ideal.div ((W (Proc.devRef .tc main_v20_0) : S1x64.Idx → EReal) (ix2 0 f)) Cert.Spec.cN
          * Ideal.div ((W (Proc.devRef .tc main_v20_0) : S1x64.Idx → EReal) (ix2 0 f)) Cert.Spec.cN := by
  dsimp only [hostOps2]
  after_results
  rfl

theorem bn_mean_5 (W : Valuation τ sig (Elt Ideal)) (f : Fin 64) :
    (StableHlo.after (hostOps5 (F := Ideal)) W (Proc.devRef .tc main_v46) : S1x64.Idx → EReal) (ix2 0 f)
      = Ideal.div ((W (Proc.devRef .tc main_v44_0) : S1x64.Idx → EReal) (ix2 0 f)) Cert.Spec.cN := by
  dsimp only [hostOps5]
  after_results
  rfl

theorem bn_var_5 (W : Valuation τ sig (Elt Ideal)) (f : Fin 64) :
    (StableHlo.after (hostOps5 (F := Ideal)) W (Proc.devRef .tc main_v50) : S1x64.Idx → EReal) (ix2 0 f)
      = Ideal.div ((W (Proc.devRef .tc main_v44_1) : S1x64.Idx → EReal) (ix2 0 f)) Cert.Spec.cN
        - Ideal.div ((W (Proc.devRef .tc main_v44_0) : S1x64.Idx → EReal) (ix2 0 f)) Cert.Spec.cN
          * Ideal.div ((W (Proc.devRef .tc main_v44_0) : S1x64.Idx → EReal) (ix2 0 f)) Cert.Spec.cN := by
  dsimp only [hostOps5]
  after_results
  rfl

theorem bn_mean_8 (W : Valuation τ sig (Elt Ideal)) (f : Fin 64) :
    (StableHlo.after (hostOps8 (F := Ideal)) W (Proc.devRef .tc main_v70) : S1x64.Idx → EReal) (ix2 0 f)
      = Ideal.div ((W (Proc.devRef .tc main_v68_0) : S1x64.Idx → EReal) (ix2 0 f)) Cert.Spec.cN := by
  dsimp only [hostOps8]
  after_results
  rfl

theorem bn_var_8 (W : Valuation τ sig (Elt Ideal)) (f : Fin 64) :
    (StableHlo.after (hostOps8 (F := Ideal)) W (Proc.devRef .tc main_v74) : S1x64.Idx → EReal) (ix2 0 f)
      = Ideal.div ((W (Proc.devRef .tc main_v68_1) : S1x64.Idx → EReal) (ix2 0 f)) Cert.Spec.cN
        - Ideal.div ((W (Proc.devRef .tc main_v68_0) : S1x64.Idx → EReal) (ix2 0 f)) Cert.Spec.cN
          * Ideal.div ((W (Proc.devRef .tc main_v68_0) : S1x64.Idx → EReal) (ix2 0 f)) Cert.Spec.cN := by
  dsimp only [hostOps8]
  after_results
  rfl

theorem pre9_batch (W : Valuation τ sig (Elt Ideal)) (n : Fin 50000) :
    (StableHlo.after (hostOps9 (F := Ideal)) W (Proc.devRef .tc main_v76) : S50000x1.Idx → BitVec 32) (ix2 n 0)
      = (W (Proc.devRef .tc main_arg3) : S50000.Idx → BitVec 32) (ix1 n) := by
  dsimp only [hostOps9]
  after_results
  show shapeCast S50000x1 (W (Proc.devRef .tc main_arg3) : S50000.Idx → BitVec 32) shapeCasts_S50000_S50000x1 (ix2 n 0) = _
  exact shapeCast_apply _ _ _ (ix1 n) (by
    rw [Shape.rowMajor_val_one, Shape.rowMajor_val_two]
    show n.val = n.val * 1 + 0
    omega)

theorem pre9_W1 (W : Valuation τ sig (Elt Ideal)) :
    (StableHlo.after (hostOps9 (F := Ideal)) W (Proc.devRef .tc main_v77) : S64x64.Idx → EReal)
      = (W (Proc.devRef .tc main_arg10) : S64x64.Idx → EReal) := by
  dsimp only [hostOps9]
  after_results
  rfl

theorem pre9_W2 (W : Valuation τ sig (Elt Ideal)) :
    (StableHlo.after (hostOps9 (F := Ideal)) W (Proc.devRef .tc main_v78) : S64x1.Idx → EReal)
      = (W (Proc.devRef .tc main_arg12) : S64x1.Idx → EReal) := by
  dsimp only [hostOps9]
  after_results
  rfl

theorem post9 (W : Valuation τ sig (Elt Ideal)) (g : Fin 256) :
    (StableHlo.after (hostOps10 (F := Ideal)) W (Proc.devRef .tc main_v80) : S256.Idx → EReal) (ix1 g)
      = (W (Proc.devRef .tc main_v79) : S256x1.Idx → EReal) (ix2 g 0) := by
  dsimp only [hostOps10]
  after_results
  show shapeCast S256 (W (Proc.devRef .tc main_v79) : S256x1.Idx → EReal) shapeCasts_S256x1_S256 (ix1 g) = _
  exact shapeCast_apply _ _ _ (ix2 g 0) (by
    rw [Shape.rowMajor_val_one, Shape.rowMajor_val_two]
    show g.val * 1 + 0 = g.val
    omega)

end Cert.KernelIdeal.Hand
-- ==== Proof.KI.ResultBn.lean ====
import proofs.«407044_j9311489098471_2_alg».proof.Proof.KI.Launch
import proofs.«407044_j9311489098471_2_alg».proof.Proof.KI.R1Value
import proofs.«407044_j9311489098471_2_alg».proof.Proof.KI.R4Value
import proofs.«407044_j9311489098471_2_alg».proof.Proof.KI.R7Value
import proofs.«407044_j9311489098471_2_alg».proof.Proof.KI.R2Value
import proofs.«407044_j9311489098471_2_alg».proof.Proof.KI.R5Value
import proofs.«407044_j9311489098471_2_alg».proof.Proof.KI.R8Value
import proofs.«407044_j9311489098471_2_alg».proof.Proof.KI.HostBn
import proofs.«407044_j9311489098471_2_alg».proof.Proof.KI.BnEntry
import proofs.«407044_j9311489098471_2_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem bnRows_eq_bnSq (y : (⟨2, ![50000, 64]⟩ : Shape).Idx → EReal) (mu var s sq : (⟨2, ![1, 64]⟩ : Shape).Idx → EReal)
    (g be : (⟨1, ![64]⟩ : Shape).Idx → EReal)
    (hs : ∀ f : Fin 64, s (ix2 0 f) = ∑ n : Fin 50000, y (ix2 n f))
    (hsq : ∀ f : Fin 64, sq (ix2 0 f) = ∑ n : Fin 50000, y (ix2 n f) * y (ix2 n f))
    (hmu : ∀ f : Fin 64, mu (ix2 0 f) = Ideal.div (s (ix2 0 f)) Cert.Spec.cN)
    (hvar : ∀ f : Fin 64, var (ix2 0 f) = Ideal.div (sq (ix2 0 f)) Cert.Spec.cN
      - Ideal.div (s (ix2 0 f)) Cert.Spec.cN * Ideal.div (s (ix2 0 f)) Cert.Spec.cN)
    (n : Fin 50000) (f : Fin 64) :
    bnRows y mu var g be n f
      = Cert.Spec.bnSq (fun n f => y (ix2 n f)) (fun f => g (ix1 f)) (fun f => be (ix1 f)) n f := by
  rw [bnRows_eq, hmu, hvar, hs, hsq]
  rfl

variable (m : (ℓ : Loc nD τ sig) → Buf (Elt Ideal) ℓ)

theorem W8_keep (c : Dev nD) (b : Ref sig .tc) (h0 : b ∉ hostOps0_W) (h1 : b ∉ hostOps0_1_W) (h2 : b ∉ hostOps0_2_W)
    (h3 : b ∉ hostOps0_3_W) (h4 : b ∉ hostOps0_4_W) (h5 : b ∉ ([main_v19] : List (Ref sig .tc)))
    (h6 : b ∉ ([main_v20_0, main_v20_1] : List (Ref sig .tc))) (h7 : b ∉ hostOps2_W) :
    W8 m c (Proc.devRef .tc b) = W0 m c (Proc.devRef .tc b) :=
  (keep7 m c b h7).trans <| (keep6 m c b h6).trans <| (keep5 m c b h5).trans <| (keep4 m c b h4).trans <|
    (keep3 m c b h3).trans <| (keep2 m c b h2).trans <| (keep1 m c b h1).trans <| keep0 m c b h0

theorem W17_keep (c : Dev nD) (b : Ref sig .tc) (h8 : b ∉ ([main_v27] : List (Ref sig .tc))) (h9 : b ∉ hostOps3_W)
    (h10 : b ∉ hostOps3_1_W) (h11 : b ∉ hostOps3_2_W) (h12 : b ∉ hostOps3_3_W) (h13 : b ∉ hostOps3_4_W)
    (h14 : b ∉ ([main_v43] : List (Ref sig .tc))) (h15 : b ∉ ([main_v44_0, main_v44_1] : List (Ref sig .tc)))
    (h16 : b ∉ hostOps5_W) :
    W17 m c (Proc.devRef .tc b) = W8 m c (Proc.devRef .tc b) :=
  (keep16 m c b h16).trans <| (keep15 m c b h15).trans <| (keep14 m c b h14).trans <| (keep13 m c b h13).trans <|
    (keep12 m c b h12).trans <| (keep11 m c b h11).trans <| (keep10 m c b h10).trans <| (keep9 m c b h9).trans <|
    keep8 m c b h8

theorem W26_keep (c : Dev nD) (b : Ref sig .tc) (h17 : b ∉ ([main_v51] : List (Ref sig .tc))) (h18 : b ∉ hostOps6_W)
    (h19 : b ∉ hostOps6_1_W) (h20 : b ∉ hostOps6_2_W) (h21 : b ∉ hostOps6_3_W) (h22 : b ∉ hostOps6_4_W)
    (h23 : b ∉ ([main_v67] : List (Ref sig .tc))) (h24 : b ∉ ([main_v68_0, main_v68_1] : List (Ref sig .tc)))
    (h25 : b ∉ hostOps8_W) :
    W26 m c (Proc.devRef .tc b) = W17 m c (Proc.devRef .tc b) :=
  (keep25 m c b h25).trans <| (keep24 m c b h24).trans <| (keep23 m c b h23).trans <| (keep22 m c b h22).trans <|
    (keep21 m c b h21).trans <| (keep20 m c b h20).trans <| (keep19 m c b h19).trans <| (keep18 m c b h18).trans <|
    keep17 m c b h17

theorem W8_main_arg14 (c : Dev nD) : W8 m c (Proc.devRef .tc main_arg14) = W0 m c (Proc.devRef .tc main_arg14) :=
  W8_keep m c main_arg14 (by decide) (by decide) (by decide) (by decide) (by decide) (by decide) (by decide) (by decide)
theorem W8_main_arg15 (c : Dev nD) : W8 m c (Proc.devRef .tc main_arg15) = W0 m c (Proc.devRef .tc main_arg15) :=
  W8_keep m c main_arg15 (by decide) (by decide) (by decide) (by decide) (by decide) (by decide) (by decide) (by decide)
theorem W17_main_arg16 (c : Dev nD) : W17 m c (Proc.devRef .tc main_arg16) = W0 m c (Proc.devRef .tc main_arg16) :=
  (W17_keep m c main_arg16 (by decide) (by decide) (by decide) (by decide) (by decide) (by decide) (by decide) (by decide) (by decide)).trans
    (W8_keep m c main_arg16 (by decide) (by decide) (by decide) (by decide) (by decide) (by decide) (by decide) (by decide))
theorem W17_main_arg17 (c : Dev nD) : W17 m c (Proc.devRef .tc main_arg17) = W0 m c (Proc.devRef .tc main_arg17) :=
  (W17_keep m c main_arg17 (by decide) (by decide) (by decide) (by decide) (by decide) (by decide) (by decide) (by decide) (by decide)).trans
    (W8_keep m c main_arg17 (by decide) (by decide) (by decide) (by decide) (by decide) (by decide) (by decide) (by decide))
theorem W26_main_arg18 (c : Dev nD) : W26 m c (Proc.devRef .tc main_arg18) = W0 m c (Proc.devRef .tc main_arg18) :=
  ((W26_keep m c main_arg18 (by decide) (by decide) (by decide) (by decide) (by decide) (by decide) (by decide) (by decide) (by decide)).trans
    (W17_keep m c main_arg18 (by decide) (by decide) (by decide) (by decide) (by decide) (by decide) (by decide) (by decide) (by decide))).trans
    (W8_keep m c main_arg18 (by decide) (by decide) (by decide) (by decide) (by decide) (by decide) (by decide) (by decide))
theorem W26_main_arg19 (c : Dev nD) : W26 m c (Proc.devRef .tc main_arg19) = W0 m c (Proc.devRef .tc main_arg19) :=
  ((W26_keep m c main_arg19 (by decide) (by decide) (by decide) (by decide) (by decide) (by decide) (by decide) (by decide) (by decide)).trans
    (W17_keep m c main_arg19 (by decide) (by decide) (by decide) (by decide) (by decide) (by decide) (by decide) (by decide) (by decide))).trans
    (W8_keep m c main_arg19 (by decide) (by decide) (by decide) (by decide) (by decide) (by decide) (by decide) (by decide))

theorem bn_layer1 (c : Dev nD) :
    (fun n f => (W9 m c (Proc.devRef .tc main_v27) : S50000x64.Idx → EReal) (ValueIdx.ix2 n f))
      = Cert.Spec.bnSq (fun n f => (W6 m c (Proc.devRef .tc main_v19) : S50000x64.Idx → EReal) (ValueIdx.ix2 n f))
          (fun f => (m ((c.tc : Thread nD τ).loc main_arg14) : S64.Idx → EReal) (ValueIdx.ix1 f))
          (fun f => (m ((c.tc : Thread nD τ).loc main_arg15) : S64.Idx → EReal) (ValueIdx.ix1 f)) := by
  funext n f
  have hy : W8 m c (Proc.devRef .tc main_v19) = W6 m c (Proc.devRef .tc main_v19) :=
    (keep7 m c main_v19 (by decide)).trans (keep6 m c main_v19 (by decide))
  refine ((congrFun (W9_arr m c 5) (ix2 n f)).trans (final2 (Vof (W8 m)) c n f)).trans ?_
  show bnRows (W8 m c (Proc.devRef .tc main_v19)) (W8 m c (Proc.devRef .tc main_v22)) (W8 m c (Proc.devRef .tc main_v26))
    (W8 m c (Proc.devRef .tc main_arg14)) (W8 m c (Proc.devRef .tc main_arg15)) n f = _
  rw [hy, W8_main_arg14 m c, W8_main_arg15 m c]
  exact bnRows_eq_bnSq (W6 m c (Proc.devRef .tc main_v19)) (W8 m c (Proc.devRef .tc main_v22)) (W8 m c (Proc.devRef .tc main_v26))
    (W7 m c (Proc.devRef .tc main_v20_0)) (W7 m c (Proc.devRef .tc main_v20_1))
    (W0 m c (Proc.devRef .tc main_arg14)) (W0 m c (Proc.devRef .tc main_arg15))
    (fun f => (congrFun (W7_arr m c 1) (ix2 0 f)).trans (final1_sum (Vof (W6 m)) c f))
    (fun f => (congrFun (W7_arr m c 2) (ix2 0 f)).trans (final1_sumsq (Vof (W6 m)) c f))
    (fun f => bn_mean_2 (W7 m c) f)
    (fun f => bn_var_2 (W7 m c) f)
    n f

theorem bn_layer2 (c : Dev nD) :
    (fun n f => (W18 m c (Proc.devRef .tc main_v51) : S50000x64.Idx → EReal) (ValueIdx.ix2 n f))
      = Cert.Spec.bnSq (fun n f => (W15 m c (Proc.devRef .tc main_v43) : S50000x64.Idx → EReal) (ValueIdx.ix2 n f))
          (fun f => (m ((c.tc : Thread nD τ).loc main_arg16) : S64.Idx → EReal) (ValueIdx.ix1 f))
          (fun f => (m ((c.tc : Thread nD τ).loc main_arg17) : S64.Idx → EReal) (ValueIdx.ix1 f)) := by
  funext n f
  have hy : W17 m c (Proc.devRef .tc main_v43) = W15 m c (Proc.devRef .tc main_v43) :=
    (keep16 m c main_v43 (by decide)).trans (keep15 m c main_v43 (by decide))
  refine ((congrFun (W18_arr m c 5) (ix2 n f)).trans (final5 (Vof (W17 m)) c n f)).trans ?_
  show bnRows (W17 m c (Proc.devRef .tc main_v43)) (W17 m c (Proc.devRef .tc main_v46)) (W17 m c (Proc.devRef .tc main_v50))
    (W17 m c (Proc.devRef .tc main_arg16)) (W17 m c (Proc.devRef .tc main_arg17)) n f = _
  rw [hy, W17_main_arg16 m c, W17_main_arg17 m c]
  exact bnRows_eq_bnSq (W15 m c (Proc.devRef .tc main_v43)) (W17 m c (Proc.devRef .tc main_v46)) (W17 m c (Proc.devRef .tc main_v50))
    (W16 m c (Proc.devRef .tc main_v44_0)) (W16 m c (Proc.devRef .tc main_v44_1))
    (W0 m c (Proc.devRef .tc main_arg16)) (W0 m c (Proc.devRef .tc main_arg17))
    (fun f => (congrFun (W16_arr m c 1) (ix2 0 f)).trans (final4_sum (Vof (W15 m)) c f))
    (fun f => (congrFun (W16_arr m c 2) (ix2 0 f)).trans (final4_sumsq (Vof (W15 m)) c f))
    (fun f => bn_mean_5 (W16 m c) f)
    (fun f => bn_var_5 (W16 m c) f)
    n f

theorem bn_layer3 (c : Dev nD) :
    (fun n f => (W27 m c (Proc.devRef .tc main_v75) : S50000x64.Idx → EReal) (ValueIdx.ix2 n f))
      = Cert.Spec.bnSq (fun n f => (W24 m c (Proc.devRef .tc main_v67) : S50000x64.Idx → EReal) (ValueIdx.ix2 n f))
          (fun f => (m ((c.tc : Thread nD τ).loc main_arg18) : S64.Idx → EReal) (ValueIdx.ix1 f))
          (fun f => (m ((c.tc : Thread nD τ).loc main_arg19) : S64.Idx → EReal) (ValueIdx.ix1 f)) := by
  funext n f
  have hy : W26 m c (Proc.devRef .tc main_v67) = W24 m c (Proc.devRef .tc main_v67) :=
    (keep25 m c main_v67 (by decide)).trans (keep24 m c main_v67 (by decide))
  refine ((congrFun (W27_arr m c 5) (ix2 n f)).trans (final8 (Vof (W26 m)) c n f)).trans ?_
  show bnRows (W26 m c (Proc.devRef .tc main_v67)) (W26 m c (Proc.devRef .tc main_v70)) (W26 m c (Proc.devRef .tc main_v74))
    (W26 m c (Proc.devRef .tc main_arg18)) (W26 m c (Proc.devRef .tc main_arg19)) n f = _
  rw [hy, W26_main_arg18 m c, W26_main_arg19 m c]
  exact bnRows_eq_bnSq (W24 m c (Proc.devRef .tc main_v67)) (W26 m c (Proc.devRef .tc main_v70)) (W26 m c (Proc.devRef .tc main_v74))
    (W25 m c (Proc.devRef .tc main_v68_0)) (W25 m c (Proc.devRef .tc main_v68_1))
    (W0 m c (Proc.devRef .tc main_arg18)) (W0 m c (Proc.devRef .tc main_arg19))
    (fun f => (congrFun (W25_arr m c 1) (ix2 0 f)).trans (final7_sum (Vof (W24 m)) c f))
    (fun f => (congrFun (W25_arr m c 2) (ix2 0 f)).trans (final7_sumsq (Vof (W24 m)) c f))
    (fun f => bn_mean_8 (W25 m c) f)
    (fun f => bn_var_8 (W25 m c) f)
    n f

end Cert.KernelIdeal.Hand

end
-- ==== Proof.KI.ResultHead.lean ====
import proofs.«407044_j9311489098471_2_alg».proof.Proof.KI.HostBn
import proofs.«407044_j9311489098471_2_alg».proof.Proof.Net

set_option maxRecDepth 16384

noncomputable section

open scoped BigOperators

namespace Cert.KernelIdeal.Hand

open Idealize.ShloMosaic Idealize.ShloMosaic.TcCoe
open Idealize.SL.Sem
open Cert.KernelIdeal Cert.KernelIdeal.Gen
open ValueIdx

theorem keep9_main_v75 (W27 : Valuation τ sig (Elt Ideal)) :
    (StableHlo.after (hostOps9 (F := Ideal)) W27 (Proc.devRef .tc main_v75)) = (W27 (Proc.devRef .tc main_v75)) :=
  StableHlo.after_of_writes_sub (hostOps9 (F := Ideal)) W27 hostOps9_writes (by decide)
theorem keep9_main_arg11 (W27 : Valuation τ sig (Elt Ideal)) :
    (StableHlo.after (hostOps9 (F := Ideal)) W27 (Proc.devRef .tc main_arg11)) = (W27 (Proc.devRef .tc main_arg11)) :=
  StableHlo.after_of_writes_sub (hostOps9 (F := Ideal)) W27 hostOps9_writes (by decide)
theorem keep9_main_arg13 (W27 : Valuation τ sig (Elt Ideal)) :
    (StableHlo.after (hostOps9 (F := Ideal)) W27 (Proc.devRef .tc main_arg13)) = (W27 (Proc.devRef .tc main_arg13)) :=
  StableHlo.after_of_writes_sub (hostOps9 (F := Ideal)) W27 hostOps9_writes (by decide)

theorem head_congr {bc : S50000x1.Idx → BitVec 32} {bv : S50000.Idx → BitVec 32} {t t' : S50000x64.Idx → EReal}
    {M M' : S64x64.Idx → EReal} {v v' : S64.Idx → EReal} {c2 c2' : S64x1.Idx → EReal} {s s' : S1.Idx → EReal}
    (hb : (fun n : Fin 50000 => bc (ix2 n 0)) = fun n => bv (ix1 n)) (ht : t = t') (hM : M = M') (hv : v = v')
    (hc : c2 = c2') (hs : s = s') (g : Fin 256) :
    Cert.Spec.head (Cert.Spec.pool (fun n => bc (ix2 n 0)) (fun n k => t (ix2 n k))) (fun k f => M (ix2 k f)) (fun f => v (ix1 f))
        (fun k => c2 (ix2 k 0)) (s (ix1 0)) g
      = Cert.Spec.head (Cert.Spec.pool (fun n => bv (ix1 n)) (fun n k => t' (ix2 n k))) (fun k f => M' (ix2 k f)) (fun f => v' (ix1 f))
        (fun k => c2' (ix2 k 0)) (s' (ix1 0)) g := by
  subst ht hM hv hc hs
  rw [hb]

theorem head_abs (W27 W28 W29 W30 : Valuation τ sig (Elt Ideal))
    (h28 : W28 = StableHlo.after (hostOps9 (F := Ideal)) W27) (h30 : W30 = StableHlo.after (hostOps10 (F := Ideal)) W29)
    (hhead : ∀ g : Fin 256, ((W29 (Proc.devRef .tc main_v79)) : S256x1.Idx → EReal) (ix2 g 0)
      = Cert.Spec.head (Cert.Spec.pool (fun n => ((W28 (Proc.devRef .tc main_v76)) : S50000x1.Idx → BitVec 32) (ix2 n 0)) (fun n k => ((W28 (Proc.devRef .tc main_v75)) : S50000x64.Idx → EReal) (ix2 n k)))
          (fun k f => ((W28 (Proc.devRef .tc main_v77)) : S64x64.Idx → EReal) (ix2 k f)) (fun f => ((W28 (Proc.devRef .tc main_arg11)) : S64.Idx → EReal) (ix1 f))
          (fun k => ((W28 (Proc.devRef .tc main_v78)) : S64x1.Idx → EReal) (ix2 k 0)) (((W28 (Proc.devRef .tc main_arg13)) : S1.Idx → EReal) (ix1 0)) g)
    (A3 : S50000.Idx → BitVec 32) (A10 : S64x64.Idx → EReal) (A11 : S64.Idx → EReal) (A12 : S64x1.Idx → EReal) (A13 : S1.Idx → EReal)
    (e3 : (W27 (Proc.devRef .tc main_arg3)) = A3) (e10 : (W27 (Proc.devRef .tc main_arg10)) = A10) (e11 : (W27 (Proc.devRef .tc main_arg11)) = A11)
    (e12 : (W27 (Proc.devRef .tc main_arg12)) = A12) (e13 : (W27 (Proc.devRef .tc main_arg13)) = A13)
    (g : Fin 256) :
    ((W30 (Proc.devRef .tc main_v80)) : S256.Idx → EReal) (ix1 g)
      = Cert.Spec.head (Cert.Spec.pool (fun n => A3 (ix1 n)) (fun n k => ((W27 (Proc.devRef .tc main_v75)) : S50000x64.Idx → EReal) (ix2 n k)))
          (fun k f => A10 (ix2 k f)) (fun f => A11 (ix1 f)) (fun k => A12 (ix2 k 0)) (A13 (ix1 0)) g := by
  subst h28 h30
  rw [post9, hhead g]
  exact head_congr (bc := (StableHlo.after (hostOps9 (F := Ideal)) W27 (Proc.devRef .tc main_v76))) (bv := A3)
    ((funext fun n => pre9_batch W27 n).trans (by rw [e3])) (keep9_main_v75 W27) ((pre9_W1 W27).trans e10)
    ((keep9_main_arg11 W27).trans e11) ((pre9_W2 W27).trans e12) ((keep9_main_arg13 W27).trans e13) g

theorem compose_abs (gat : Cert.Spec.Tab → Fin 800000 → Fin 64 → EReal) (x : Cert.Spec.Tab) (dst : Fin 800000 → BitVec 32)
    (ew : Fin 800000 → EReal) (batch : Fin 50000 → BitVec 32)
    (W1 : Cert.Spec.Mat64) (b1 : Cert.Spec.Vec64) (W2 : Cert.Spec.Mat64) (b2 : Cert.Spec.Vec64) (W3 : Cert.Spec.Mat64) (b3 : Cert.Spec.Vec64)
    (g1 be1 g2 be2 g3 be3 : Cert.Spec.Vec64) (fcW1 : Cert.Spec.Mat64) (fcb1 : Cert.Spec.Vec64) (fcW2 : Fin 64 → EReal) (fcb2 : EReal)
    (T1 T2 T3 T4 T5 T6 : Cert.Spec.Tab)
    (h1 : T1 = Cert.Math.layerK gat dst ew true x W1 b1) (h2 : T2 = Cert.Spec.bnSq T1 g1 be1)
    (h3 : T3 = Cert.Math.layerK gat dst ew true T2 W2 b2) (h4 : T4 = Cert.Spec.bnSq T3 g2 be2)
    (h5 : T5 = Cert.Math.layerK gat dst ew false T4 W3 b3) (h6 : T6 = Cert.Spec.bnSq T5 g3 be3)
    (r : EReal) (g : Fin 256) (hr : r = Cert.Spec.head (Cert.Spec.pool batch T6) fcW1 fcb1 fcW2 fcb2 g) :
    r = Cert.Math.netK gat x dst ew batch W1 b1 W2 b2 W3 b3 g1 be1 g2 be2 g3 be3 fcW1 fcb1 fcW2 fcb2 g := by
  rw [hr, h6, h5, h4, h3, h2, h1]
  rfl

end Cert.KernelIdeal.Hand

end
-- ==== Proof.KI.Result.lean ====
import proofs.«407044_j9311489098471_2_alg».proof.Proof.KI.Launch
import proofs.«407044_j9311489098471_2_alg».proof.Proof.KI.R9Value
import proofs.«407044_j9311489098471_2_alg».proof.Proof.KI.ResultGin
import proofs.«407044_j9311489098471_2_alg».proof.Proof.KI.ResultBn
import proofs.«407044_j9311489098471_2_alg».proof.Proof.KI.ResultHead

set_option maxRecDepth 16384

noncomputable section

open scoped BigOperators

namespace Cert.KernelIdeal.Hand

open Idealize.ShloMosaic Idealize.ShloMosaic.TcCoe
open Idealize.SL.Sem
open Cert.KernelIdeal Cert.KernelIdeal.Gen
open ValueIdx

variable (m : (ℓ : Loc nD τ sig) → Buf (Elt Ideal) ℓ)

theorem W27_main_arg3 (c : Dev nD) : W27 m c (Proc.devRef .tc main_arg3) = m ((c.tc : Thread nD τ).loc main_arg3) :=
  ((keep29 m c main_arg3 (by decide)).trans ((keep28 m c main_arg3 (by decide)).trans (keep27 m c main_arg3 (by decide)))).symm.trans
    (W30_arg m c main_arg3 (by decide))
theorem W27_main_arg10 (c : Dev nD) : W27 m c (Proc.devRef .tc main_arg10) = m ((c.tc : Thread nD τ).loc main_arg10) :=
  ((keep29 m c main_arg10 (by decide)).trans ((keep28 m c main_arg10 (by decide)).trans (keep27 m c main_arg10 (by decide)))).symm.trans
    (W30_arg m c main_arg10 (by decide))
theorem W27_main_arg11 (c : Dev nD) : W27 m c (Proc.devRef .tc main_arg11) = m ((c.tc : Thread nD τ).loc main_arg11) :=
  ((keep29 m c main_arg11 (by decide)).trans ((keep28 m c main_arg11 (by decide)).trans (keep27 m c main_arg11 (by decide)))).symm.trans
    (W30_arg m c main_arg11 (by decide))
theorem W27_main_arg12 (c : Dev nD) : W27 m c (Proc.devRef .tc main_arg12) = m ((c.tc : Thread nD τ).loc main_arg12) :=
  ((keep29 m c main_arg12 (by decide)).trans ((keep28 m c main_arg12 (by decide)).trans (keep27 m c main_arg12 (by decide)))).symm.trans
    (W30_arg m c main_arg12 (by decide))
theorem W27_main_arg13 (c : Dev nD) : W27 m c (Proc.devRef .tc main_arg13) = m ((c.tc : Thread nD τ).loc main_arg13) :=
  ((keep29 m c main_arg13 (by decide)).trans ((keep28 m c main_arg13 (by decide)).trans (keep27 m c main_arg13 (by decide)))).symm.trans
    (W30_arg m c main_arg13 (by decide))

theorem head_eq (c : Dev nD) (g : Fin 256) :
    (W30 m c (Proc.devRef .tc main_v80) : S256.Idx → EReal) (ix1 g)
      = Cert.Spec.head (Cert.Spec.pool (fun n => ((m ((c.tc : Thread nD τ).loc main_arg3)) : S50000.Idx → BitVec 32) (ix1 n))
            (fun n k => (W27 m c (Proc.devRef .tc main_v75) : S50000x64.Idx → EReal) (ix2 n k)))
          (fun k f => ((m ((c.tc : Thread nD τ).loc main_arg10)) : S64x64.Idx → EReal) (ix2 k f)) (fun f => ((m ((c.tc : Thread nD τ).loc main_arg11)) : S64.Idx → EReal) (ix1 f))
          (fun k => ((m ((c.tc : Thread nD τ).loc main_arg12)) : S64x1.Idx → EReal) (ix2 k 0)) (((m ((c.tc : Thread nD τ).loc main_arg13)) : S1.Idx → EReal) (ix1 0)) g :=
  head_abs (W27 m c) (W28 m c) (W29 m c) (W30 m c) rfl rfl
    (fun g => (congrFun (W29_arr m c 6) (ix2 g 0)).trans (final9 (Vof (W28 m)) c g))
    (e3 := W27_main_arg3 m c) (e10 := W27_main_arg10 m c) (e11 := W27_main_arg11 m c) (e12 := W27_main_arg12 m c)
    (e13 := W27_main_arg13 m c) (g := g)

theorem result_eq (c : Dev nD) (g : Fin 256) :
    (W30 m c (Proc.devRef .tc main_v80) : S256.Idx → EReal) (ix1 g)
      = Cert.Math.netK (gatK m c) (fun n k => ((m ((c.tc : Thread nD τ).loc main_arg0)) : S50000x64.Idx → EReal) (ix2 n k))
          (fun e => ((m ((c.tc : Thread nD τ).loc main_arg1)) : S2x800000.Idx → BitVec 32) (ix2 1 e))
          (fun e => ((m ((c.tc : Thread nD τ).loc main_arg2)) : S800000.Idx → EReal) (ix1 e))
          (fun n => ((m ((c.tc : Thread nD τ).loc main_arg3)) : S50000.Idx → BitVec 32) (ix1 n))
          (fun k f => ((m ((c.tc : Thread nD τ).loc main_arg4)) : S64x64.Idx → EReal) (ix2 k f)) (fun f => ((m ((c.tc : Thread nD τ).loc main_arg5)) : S64.Idx → EReal) (ix1 f)) (fun k f => ((m ((c.tc : Thread nD τ).loc main_arg6)) : S64x64.Idx → EReal) (ix2 k f)) (fun f => ((m ((c.tc : Thread nD τ).loc main_arg7)) : S64.Idx → EReal) (ix1 f)) (fun k f => ((m ((c.tc : Thread nD τ).loc main_arg8)) : S64x64.Idx → EReal) (ix2 k f)) (fun f => ((m ((c.tc : Thread nD τ).loc main_arg9)) : S64.Idx → EReal) (ix1 f))
          (fun f => ((m ((c.tc : Thread nD τ).loc main_arg14)) : S64.Idx → EReal) (ix1 f)) (fun f => ((m ((c.tc : Thread nD τ).loc main_arg15)) : S64.Idx → EReal) (ix1 f)) (fun f => ((m ((c.tc : Thread nD τ).loc main_arg16)) : S64.Idx → EReal) (ix1 f)) (fun f => ((m ((c.tc : Thread nD τ).loc main_arg17)) : S64.Idx → EReal) (ix1 f)) (fun f => ((m ((c.tc : Thread nD τ).loc main_arg18)) : S64.Idx → EReal) (ix1 f)) (fun f => ((m ((c.tc : Thread nD τ).loc main_arg19)) : S64.Idx → EReal) (ix1 f))
          (fun k f => ((m ((c.tc : Thread nD τ).loc main_arg10)) : S64x64.Idx → EReal) (ix2 k f)) (fun f => ((m ((c.tc : Thread nD τ).loc main_arg11)) : S64.Idx → EReal) (ix1 f))
          (fun k => ((m ((c.tc : Thread nD τ).loc main_arg12)) : S64x1.Idx → EReal) (ix2 k 0)) (((m ((c.tc : Thread nD τ).loc main_arg13)) : S1.Idx → EReal) (ix1 0)) g :=
  compose_abs (gat := gatK m c) (h1 := gin_layer1 m c) (h2 := bn_layer1 m c) (h3 := gin_layer2 m c) (h4 := bn_layer2 m c)
    (h5 := gin_layer3 m c) (h6 := bn_layer3 m c) (hr := head_eq m c g)

end Cert.KernelIdeal.Hand

end
-- ==== Proof.K.R0Runs.lean ====
import proofs.«407044_j9311489098471_2_alg».proof.Proof.Gen.Kernel.Launch
import proofs.«407044_j9311489098471_2_alg».proof.Proof.Gen.Kernel.Skeleton
import proofs.«407044_j9311489098471_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 391 = 0 :=
  (by decide +kernel : ∀ t : Fin grid0.N, cond0_0 (grid0.coords t) ↔ t.val % 391 = 0)

abbrev cond0_1 (i : grid0.Coords) : Prop := k0_cond2 i = 1#1

theorem hcond0_1 : ∀ t : Fin cfg0.N, cond0_1 (grid0.coords t) ↔ t.val % 391 = 390 :=
  (by decide +kernel : ∀ t : Fin grid0.N, cond0_1 (grid0.coords t) ↔ t.val % 391 = 390)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

theorem idleAt0_5 : ∀ t : Fin cfg0.N, ¬cond0_1 (grid0.coords t) → cfg0.idle 5 (grid0.coords t) = true := by
  intro t h
  show (!(k0_cond2 (grid0.coords t) == 1#1)) = true
  simpa using h

theorem noFlush0_5 : ∀ t : Fin cfg0.N, ¬cond0_1 (grid0.coords t) → (cfg0.win 5).flush t = false := by
  intro t h
  cases hf : (cfg0.win 5).flush t with
  | false => rfl
  | true => exact absurd ((hcond0_1 t).mpr ((flush0_5 t).mp hf)) h

theorem liveAt0_5 : ∀ t : Fin cfg0.N, cond0_1 (grid0.coords t) → cfg0.idle 5 (grid0.coords t) = false := by
  intro t h
  show (!(k0_cond2 (grid0.coords t) == 1#1)) = false
  simpa using h

section
variable (c : Dev nD) (i : grid0.Coords) (arg2 : Memref sig .tc .vmem S5000x64 .f32) (harg2 : arg2.IsWhole) (arg3 : Memref sig .tc .vmem S1x2048 .i32) (harg3 : arg3.IsWhole) (arg4 : Memref sig .tc .vmem S2048x64 .bf16) (harg4 : arg4.IsWhole) (arg5 : Memref sig .tc .vmem S64x64 .bf16) (harg5 : arg5.IsWhole) (arg6 : Memref sig .tc .vmem S64 .f32) (harg6 : arg6.IsWhole) (arg7 : Memref sig .tc .vmem S5000x64 .f32) (harg7 : arg7.IsWhole) (arg8 : Memref sig .tc .vmem S5000x64 .f32) (harg8 : arg8.IsWhole)
include c i arg2 harg2 arg3 harg3 arg4 harg4 arg5 harg5 arg6 harg6 arg7 harg7 arg8 harg8

set_option maxHeartbeats 4000000 in

noncomputable def kernelRun0_A (hc0 : cond0_0 i) (hc1 : ¬cond0_1 i)
    (x0 : Vec F S5000x64 .f32) (x1 : Vec F S1x2048 .i32) (x2 : Vec F S2048x64 .bf16) (x3 : Vec F S64x64 .bf16) (x4 : Vec F S64 .f32) :
    Σ' (L5 : List (View.Piece (Elt F) S5000x64 .f32)), { LS0 : List (View.Piece (Elt F) S5000x64 .f32) //
      ∀ (xi5 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], ?_, fun xi5 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in

noncomputable def kernelRun0_B (hc0 : ¬cond0_0 i) (hc1 : ¬cond0_1 i)
    (x0 : Vec F S5000x64 .f32) (x1 : Vec F S1x2048 .i32) (x2 : Vec F S2048x64 .bf16) (x3 : Vec F S64x64 .bf16) (x4 : Vec F S64 .f32) (xs0 : Vec F S5000x64 .f32) :
    Σ' (L5 : List (View.Piece (Elt F) S5000x64 .f32)), { LS0 : List (View.Piece (Elt F) S5000x64 .f32) //
      ∀ (xi5 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], ?_, fun xi5 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in

noncomputable def kernelRun0_C (hc0 : ¬cond0_0 i) (hc1 : cond0_1 i)
    (x0 : Vec F S5000x64 .f32) (x1 : Vec F S1x2048 .i32) (x2 : Vec F S2048x64 .bf16) (x3 : Vec F S64x64 .bf16) (x4 : Vec F S64 .f32) (xs0 : Vec F S5000x64 .f32) :
    Σ' (L5 : List (View.Piece (Elt F) S5000x64 .f32)), { LS0 : List (View.Piece (Elt F) S5000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end

end Cert.Kernel.Hand

end
-- ==== Proof.K.R0.lean ====
import proofs.«407044_j9311489098471_2_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev VO0_5 : View sig .tc .vmem S5000x64 .f32 := (Memref.whole cc0_stg5_0 : Memref sig .tc .vmem S5000x64 .f32).view
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x64 .f32 := win0_5.stage (cfg0.slots t 5)
abbrev hs0_5 (t : Fin cfg0.N) : (ms0_5 t).IsWhole := hstage0_5 ((cfg0.slots t 5).cast nbuf0_5)

abbrev scM0_0 : Memref sig .tc .vmem S5000x64 .f32 := Memref.whole cc0_scratch0
abbrev VS0_0 : View sig .tc .vmem S5000x64 .f32 := scM0_0.view

theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

section
variable (c : Dev nD) (i : grid0.Coords) (arg2 : Memref sig .tc .vmem S5000x64 .f32) (harg2 : arg2.IsWhole) (arg3 : Memref sig .tc .vmem S1x2048 .i32) (harg3 : arg3.IsWhole) (arg4 : Memref sig .tc .vmem S2048x64 .bf16) (harg4 : arg4.IsWhole) (arg5 : Memref sig .tc .vmem S64x64 .bf16) (harg5 : arg5.IsWhole) (arg6 : Memref sig .tc .vmem S64 .f32) (harg6 : arg6.IsWhole) (arg7 : Memref sig .tc .vmem S5000x64 .f32) (harg7 : arg7.IsWhole) (arg8 : Memref sig .tc .vmem S5000x64 .f32) (harg8 : arg8.IsWhole)
include c i arg2 harg2 arg3 harg3 arg4 harg4 arg5 harg5 arg6 harg6 arg7 harg7 arg8 harg8

def out0_A_5 (hc0 : cond0_0 i) (hc1 : ¬cond0_1 i)
    (x0 : Vec F S5000x64 .f32) (x1 : Vec F S1x2048 .i32) (x2 : Vec F S2048x64 .bf16) (x3 : Vec F S64x64 .bf16) (x4 : Vec F S64 .f32) : Vec F S5000x64 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

theorem scover0_A_0 (hc0 : cond0_0 i) (hc1 : ¬cond0_1 i)
    (x0 : Vec F S5000x64 .f32) (x1 : Vec F S1x2048 .i32) (x2 : Vec F S2048x64 .bf16) (x3 : Vec F S64x64 .bf16) (x4 : Vec F S64 .f32) (y : S5000x64.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S5000x64.size (by sl_kernel_rfl) y

def sout0_A_0 (hc0 : cond0_0 i) (hc1 : ¬cond0_1 i)
    (x0 : Vec F S5000x64 .f32) (x1 : Vec F S1x2048 .i32) (x2 : Vec F S2048x64 .bf16) (x3 : Vec F S64x64 .bf16) (x4 : Vec F S64 .f32) : Vec F S5000x64 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

def out0_B_5 (hc0 : ¬cond0_0 i) (hc1 : ¬cond0_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

theorem scover0_B_0 (hc0 : ¬cond0_0 i) (hc1 : ¬cond0_1 i)
    (x0 : Vec F S5000x64 .f32) (x1 : Vec F S1x2048 .i32) (x2 : Vec F S2048x64 .bf16) (x3 : Vec F S64x64 .bf16) (x4 : Vec F S64 .f32) (xs0 : Vec F S5000x64 .f32) (y : S5000x64.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S5000x64.size (by sl_kernel_rfl) y

def sout0_B_0 (hc0 : ¬cond0_0 i) (hc1 : ¬cond0_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

theorem cover0_C_5 (hc0 : ¬cond0_0 i) (hc1 : cond0_1 i)
    (x0 : Vec F S5000x64 .f32) (x1 : Vec F S1x2048 .i32) (x2 : Vec F S2048x64 .bf16) (x3 : Vec F S64x64 .bf16) (x4 : Vec F S64 .f32) (xs0 : Vec F S5000x64 .f32) (y : S5000x64.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S5000x64.size (by sl_kernel_rfl) y

def out0_C_5 (hc0 : ¬cond0_0 i) (hc1 : cond0_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

theorem scover0_C_0 (hc0 : ¬cond0_0 i) (hc1 : cond0_1 i)
    (x0 : Vec F S5000x64 .f32) (x1 : Vec F S1x2048 .i32) (x2 : Vec F S2048x64 .bf16) (x3 : Vec F S64x64 .bf16) (x4 : Vec F S64 .f32) (xs0 : Vec F S5000x64 .f32) (y : S5000x64.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S5000x64.size (by sl_kernel_rfl) y

def sout0_C_0 (hc0 : ¬cond0_0 i) (hc1 : cond0_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

end

def outsAt0 (c : Dev nD) : (n : ℕ) → n < cfg0.N → Vec F S5000x64 .f32 × Vec F S5000x64 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 391 = 0 then
      if h1 : (n + 1) % 391 = 390 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 391 = 390 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val % 391 = 0) (h1 : ¬t.val % 391 = 390) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 391 = 0) (h1 : ¬t.val % 391 = 390) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 391 = 0) (h1 : t.val % 391 = 390) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) : (dat0 V c).leavesExact 4 t = owns (c : Thread nD τ) (ms0_4 t) fullShare (iblk0 V c 4 t) := by
  unfold Dat.leavesExact; rw [liveAt0_4 t, after0_4]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 3910 := lt_of_lt_of_eq t.isLt (show cfg0.N = 3910 from N_0)
  by_cases h0 : t.val % 391 = 0
  · by_cases h1 : t.val % 391 = 390
    · exfalso; omega
    · rw [leaves0_0, leaves0_1, leaves0_2, leaves0_3, leaves0_4]
      rw [Dat.leavesExact_idle (dat0 V c) 5 t (idleAt0_5 t (fun h => h1 ((hcond0_1 t).mp h))) (noFlush0_5 t (fun h => h1 ((hcond0_1 t).mp h)))]
      rw [outsAt0_A V c t h0 h1]
      unfold sout0_A_0; (try dsimp only)
      by_cases hz : t.val = 0
      on_goal 1 => rw [PhiS0_castSucc V c t, PhiS0_zero V c _ _ hz, PhiA0_eq]
      on_goal 2 => rw [PhiS0_castSucc V c t, PhiS0_pos V c _ _ hz]
      all_goals
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · first | iexact HS0 | (iexists _; iexact HS0)
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 391 = 390
    · rw [leaves0_0, leaves0_1, leaves0_2, leaves0_3, leaves0_4]
      rw [show (dat0 V c).leavesExact 5 t = owns (c : Thread nD τ) (ms0_5 t) fullShare ((dat0 V c).after 5 t) from (by unfold Dat.leavesExact; rw [liveAt0_5 t ((hcond0_1 t).mpr h1)]), after0_5]
      rw [outsAt0_C V c t h0 h1]
      unfold out0_C_5 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    · rw [leaves0_0, leaves0_1, leaves0_2, leaves0_3, leaves0_4]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 3910 := N_0; omega)

end Region

end Cert.Kernel.Hand

end
-- ==== Proof.K.R1.lean ====
import proofs.«407044_j9311489098471_2_alg».proof.Proof.Gen.Kernel.Launch
import proofs.«407044_j9311489098471_2_alg».proof.Proof.Gen.Kernel.Skeleton
import proofs.«407044_j9311489098471_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 10 = 0 :=
  (by decide +kernel : ∀ t : Fin grid1.N, cond1_0 (grid1.coords t) ↔ t.val % 10 = 0)

abbrev VO1_1 : View sig .tc .vmem S1x64 .f32 := (Memref.whole cc1_stg1_0 : Memref sig .tc .vmem S1x64 .f32).view
abbrev VO1_2 : View sig .tc .vmem S1x64 .f32 := (Memref.whole cc1_stg2_0 : Memref sig .tc .vmem S1x64 .f32).view

abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)

section
variable (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole)
include c i arg1 harg1 arg2 harg2 arg3 harg3

set_option maxHeartbeats 1000000 in

noncomputable def kernelRun1_A (hc0 : cond1_0 i)
    (x0 : Vec F S5000x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1_bn_stats_kernel i arg1 harg1 arg2 harg2 arg3 harg3) K } := by
  refine ⟨?_, ?_, fun E K => ?run⟩
  case run =>
    simp only [cc1_bn_stats_kernel_eq_skeleton]; unfold cc1_bn_stats_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in

noncomputable def kernelRun1_B (hc0 : ¬cond1_0 i)
    (x0 : Vec F S5000x64 .f32) (xo1 : Vec F S1x64 .f32) (xo2 : Vec F S1x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1_bn_stats_kernel i arg1 harg1 arg2 harg2 arg3 harg3) K } := by
  refine ⟨?_, ?_, fun E K => ?run⟩
  case run =>
    simp only [cc1_bn_stats_kernel_eq_skeleton]; unfold cc1_bn_stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

theorem cover1_A_1 (hc0 : cond1_0 i)
    (x0 : Vec F S5000x64 .f32) (y : S1x64.Idx) :
    ∃ pc ∈ (kernelRun1_A c i arg1 harg1 arg2 harg2 arg3 harg3 hc0 x0).1, y ∈ pc.1.set :=
  View.cover_of_tiledL (kernelRun1_A c i arg1 harg1 arg2 harg2 arg3 harg3 hc0 x0).1 S1x64.size (by sl_kernel_rfl) y

theorem cover1_A_2 (hc0 : cond1_0 i)
    (x0 : Vec F S5000x64 .f32) (y : S1x64.Idx) :
    ∃ pc ∈ (kernelRun1_A c i arg1 harg1 arg2 harg2 arg3 harg3 hc0 x0).2.1, y ∈ pc.1.set :=
  View.cover_of_tiledL (kernelRun1_A c i arg1 harg1 arg2 harg2 arg3 harg3 hc0 x0).2.1 S1x64.size (by sl_kernel_rfl) y

def out1_A_1 (hc0 : cond1_0 i)
    (x0 : Vec F S5000x64 .f32) : Vec F S1x64 .f32 :=
  VO1_1.read (Elt F) (VO1_1.writes (Elt F) VO1_1.junk (kernelRun1_A c i arg1 harg1 arg2 harg2 arg3 harg3 hc0 x0).1)

def out1_A_2 (hc0 : cond1_0 i)
    (x0 : Vec F S5000x64 .f32) : Vec F S1x64 .f32 :=
  VO1_2.read (Elt F) (VO1_2.writes (Elt F) VO1_2.junk (kernelRun1_A c i arg1 harg1 arg2 harg2 arg3 harg3 hc0 x0).2.1)

theorem cover1_B_1 (hc0 : ¬cond1_0 i)
    (x0 : Vec F S5000x64 .f32) (xo1 : Vec F S1x64 .f32) (xo2 : Vec F S1x64 .f32) (y : S1x64.Idx) :
    ∃ pc ∈ (kernelRun1_B c i arg1 harg1 arg2 harg2 arg3 harg3 hc0 x0 xo1 xo2).1, y ∈ pc.1.set :=
  View.cover_of_tiledL (kernelRun1_B c i arg1 harg1 arg2 harg2 arg3 harg3 hc0 x0 xo1 xo2).1 S1x64.size (by sl_kernel_rfl) y

theorem cover1_B_2 (hc0 : ¬cond1_0 i)
    (x0 : Vec F S5000x64 .f32) (xo1 : Vec F S1x64 .f32) (xo2 : Vec F S1x64 .f32) (y : S1x64.Idx) :
    ∃ pc ∈ (kernelRun1_B c i arg1 harg1 arg2 harg2 arg3 harg3 hc0 x0 xo1 xo2).2.1, y ∈ pc.1.set :=
  View.cover_of_tiledL (kernelRun1_B c i arg1 harg1 arg2 harg2 arg3 harg3 hc0 x0 xo1 xo2).2.1 S1x64.size (by sl_kernel_rfl) y

def out1_B_1 (hc0 : ¬cond1_0 i)
    (x0 : Vec F S5000x64 .f32) (xo1 : Vec F S1x64 .f32) (xo2 : Vec F S1x64 .f32) : Vec F S1x64 .f32 :=
  VO1_1.read (Elt F) (VO1_1.writes (Elt F) VO1_1.junk (kernelRun1_B c i arg1 harg1 arg2 harg2 arg3 harg3 hc0 x0 xo1 xo2).1)

def out1_B_2 (hc0 : ¬cond1_0 i)
    (x0 : Vec F S5000x64 .f32) (xo1 : Vec F S1x64 .f32) (xo2 : Vec F S1x64 .f32) : Vec F S1x64 .f32 :=
  VO1_2.read (Elt F) (VO1_2.writes (Elt F) VO1_2.junk (kernelRun1_B c i arg1 harg1 arg2 harg2 arg3 harg3 hc0 x0 xo1 xo2).2.1)

end

def outsAt1 (c : Dev nD) : (n : ℕ) → n < cfg1.N → Vec F S1x64 .f32 × Vec F S1x64 .f32
  | 0, hn => (out1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩),
      out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩))
  | n + 1, hn =>
    if h0 : (n + 1) % 10 = 0 then
      (out1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩),
        out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩))
    else
      (out1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (outsAt1 c n (Nat.lt_of_succ_lt hn)).1 (outsAt1 c n (Nat.lt_of_succ_lt hn)).2,
        out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (outsAt1 c n (Nat.lt_of_succ_lt hn)).1 (outsAt1 c n (Nat.lt_of_succ_lt hn)).2)

theorem outsAt1_A (c : Dev nD) (t : Fin cfg1.N) (h0 : t.val % 10 = 0) :
    outsAt1 V c t.val t.isLt = (out1_A_1 c (grid1.coords t) (ms1_0 t) (hs1_0 t) (ms1_1 t) (hs1_1 t) (ms1_2 t) (hs1_2 t) ((hcond1_0 t).mpr h0) (iblk1 V c 0 t),
      out1_A_2 c (grid1.coords t) (ms1_0 t) (hs1_0 t) (ms1_1 t) (hs1_1 t) (ms1_2 t) (hs1_2 t) ((hcond1_0 t).mpr h0) (iblk1 V c 0 t)) := by
  obtain ⟨n, hn⟩ := t
  cases n with
  | zero => exact rfl
  | succ n => exact (dif_pos h0).trans rfl

theorem outsAt1_B (c : Dev nD) (t : Fin cfg1.N) (h0 : ¬t.val % 10 = 0) :
    outsAt1 V c t.val t.isLt = (out1_B_1 c (grid1.coords t) (ms1_0 t) (hs1_0 t) (ms1_1 t) (hs1_1 t) (ms1_2 t) (hs1_2 t) (fun h => h0 ((hcond1_0 t).mp h)) (iblk1 V c 0 t) (outsAt1 V c (t.val - 1) (Nat.lt_of_le_of_lt (Nat.sub_le _ _) t.isLt)).1 (outsAt1 V c (t.val - 1) (Nat.lt_of_le_of_lt (Nat.sub_le _ _) t.isLt)).2,
      out1_B_2 c (grid1.coords t) (ms1_0 t) (hs1_0 t) (ms1_1 t) (hs1_1 t) (ms1_2 t) (hs1_2 t) (fun h => h0 ((hcond1_0 t).mp h)) (iblk1 V c 0 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl

theorem before1_1_B (c : Dev nD) (t : Fin cfg1.N) (h0 : ¬t.val % 10 = 0) (d) :
    (dat1 V c).before 1 t d = (outsAt1 V c (t.val - 1) (Nat.lt_of_le_of_lt (Nat.sub_le _ _) t.isLt)).1 := by
  have hN : t.val < 10 := lt_of_lt_of_eq t.isLt (show cfg1.N = 10 from N_1)
  rw [Dat.before_out_kept _ 1 rfl t (by omega) (Bool.eq_false_iff.mpr fun h => by have := (flush1_1 _).mp h; dsimp only at this; omega)
    (fun _ => rfl) (fun _ _ => rfl)]
  dsimp only [dat1]

theorem before1_2_B (c : Dev nD) (t : Fin cfg1.N) (h0 : ¬t.val % 10 = 0) (d) :
    (dat1 V c).before 2 t d = (outsAt1 V c (t.val - 1) (Nat.lt_of_le_of_lt (Nat.sub_le _ _) t.isLt)).2 := by
  have hN : t.val < 10 := lt_of_lt_of_eq t.isLt (show cfg1.N = 10 from N_1)
  rw [Dat.before_out_kept _ 2 rfl t (by omega) (Bool.eq_false_iff.mpr fun h => by have := (flush1_2 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  have hN : t.val < 10 := lt_of_lt_of_eq t.isLt (show cfg1.N = 10 from N_1)
  by_cases h0 : t.val % 10 = 0
  · rw [outsAt1_A V c t h0]
    unfold out1_A_1 out1_A_2; (try dsimp only)
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover1_A_1 c _ _ _ _ _ _ _ _ _)
    unfold owns; iexists _; isplitr
    swap; · iexact H2
    ipureintro; exact View.read_writes_of_cover _ _ _ _ _ (cover1_A_2 c _ _ _ _ _ _ _ _ _)
  · rw [outsAt1_B V c t h0]
    simp only [before1_1_B V c t h0, before1_2_B V c t h0]
    unfold out1_B_1 out1_B_2; (try dsimp only)
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover1_B_1 c _ _ _ _ _ _ _ _ _ _ _)
    unfold owns; iexists _; isplitr
    swap; · iexact H2
    ipureintro; exact View.read_writes_of_cover _ _ _ _ _ (cover1_B_2 c _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

end Region1

end Cert.Kernel.Hand

end
-- ==== Proof.K.R2.lean ====
import proofs.«407044_j9311489098471_2_alg».proof.Proof.Gen.Kernel.Launch
import proofs.«407044_j9311489098471_2_alg».proof.Proof.Gen.Kernel.Skeleton
import proofs.«407044_j9311489098471_2_alg».proof.Proof.Gen.Kernel.Points
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S1x64 := Rect.unit (s := S1x64) ![0, 0] S1x64.size inb_S1x64_S1x64_0_0
abbrev r2_2 : Rect S64 := Rect.unit (s := S64) ![0] S64.size inb_S64_S64_0

def out2_5 (x0 : Vec F S5000x64 .f32) (x1 : Vec F S1x64 .f32) (x2 : Vec F S1x64 .f32) (x3 : Vec F S64 .f32) (x4 : Vec F S64 .f32) :
    Vec F S5000x64 .f32 :=
  View.canon [⟨r2_0, k2_pay1 (View.ld x0 r2_0) (View.ld x2 r2_1) (View.ld x1 r2_1) (View.ld x3 r2_2) (View.ld x4 r2_2)⟩]

theorem cover2_5 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

set_option maxHeartbeats 1000000 in

theorem sound_kernel2 (c : Dev nD) (E : Set ℕ) (i : grid2.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2_bn_norm_kernel i arg1 harg1 arg2 harg2 arg3 harg3 arg4 harg4 arg5 harg5 arg6 harg6) K := by
  simp only [cc2_bn_norm_kernel_eq_skeleton]; unfold cc2_bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Cert.Kernel.Hand

end
-- ==== Proof.K.R3Runs.lean ====
import proofs.«407044_j9311489098471_2_alg».proof.Proof.Gen.Kernel.Launch
import proofs.«407044_j9311489098471_2_alg».proof.Proof.Gen.Kernel.Skeleton
import proofs.«407044_j9311489098471_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 1).val) 0#32)) 0#32) = 1#1

theorem hcond3_0 : ∀ t : Fin cfg3.N, cond3_0 (grid3.coords t) ↔ t.val % 391 = 0 :=
  (by decide +kernel : ∀ t : Fin grid3.N, cond3_0 (grid3.coords t) ↔ t.val % 391 = 0)

abbrev cond3_1 (i : grid3.Coords) : Prop := k3_cond2 i = 1#1

theorem hcond3_1 : ∀ t : Fin cfg3.N, cond3_1 (grid3.coords t) ↔ t.val % 391 = 390 :=
  (by decide +kernel : ∀ t : Fin grid3.N, cond3_1 (grid3.coords t) ↔ t.val % 391 = 390)

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl

theorem idleAt3_5 : ∀ t : Fin cfg3.N, ¬cond3_1 (grid3.coords t) → cfg3.idle 5 (grid3.coords t) = true := by
  intro t h
  show (!(k3_cond2 (grid3.coords t) == 1#1)) = true
  simpa using h

theorem noFlush3_5 : ∀ t : Fin cfg3.N, ¬cond3_1 (grid3.coords t) → (cfg3.win 5).flush t = false := by
  intro t h
  cases hf : (cfg3.win 5).flush t with
  | false => rfl
  | true => exact absurd ((hcond3_1 t).mpr ((flush3_5 t).mp hf)) h

theorem liveAt3_5 : ∀ t : Fin cfg3.N, cond3_1 (grid3.coords t) → cfg3.idle 5 (grid3.coords t) = false := by
  intro t h
  show (!(k3_cond2 (grid3.coords t) == 1#1)) = false
  simpa using h

section
variable (c : Dev nD) (i : grid3.Coords) (arg2 : Memref sig .tc .vmem S5000x64 .f32) (harg2 : arg2.IsWhole) (arg3 : Memref sig .tc .vmem S1x2048 .i32) (harg3 : arg3.IsWhole) (arg4 : Memref sig .tc .vmem S2048x64 .bf16) (harg4 : arg4.IsWhole) (arg5 : Memref sig .tc .vmem S64x64 .bf16) (harg5 : arg5.IsWhole) (arg6 : Memref sig .tc .vmem S64 .f32) (harg6 : arg6.IsWhole) (arg7 : Memref sig .tc .vmem S5000x64 .f32) (harg7 : arg7.IsWhole) (arg8 : Memref sig .tc .vmem S5000x64 .f32) (harg8 : arg8.IsWhole)
include c i arg2 harg2 arg3 harg3 arg4 harg4 arg5 harg5 arg6 harg6 arg7 harg7 arg8 harg8

set_option maxHeartbeats 4000000 in

noncomputable def kernelRun3_A (hc0 : cond3_0 i) (hc1 : ¬cond3_1 i)
    (x0 : Vec F S5000x64 .f32) (x1 : Vec F S1x2048 .i32) (x2 : Vec F S2048x64 .bf16) (x3 : Vec F S64x64 .bf16) (x4 : Vec F S64 .f32) :
    Σ' (L5 : List (View.Piece (Elt F) S5000x64 .f32)), { LS0 : List (View.Piece (Elt F) S5000x64 .f32) //
      ∀ (xi5 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc3_kernel i arg2 harg2 arg3 harg3 arg4 harg4 arg5 harg5 arg6 harg6 arg7 harg7 arg8 harg8) K } := by
  refine ⟨[], ?_, fun xi5 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in

noncomputable def kernelRun3_B (hc0 : ¬cond3_0 i) (hc1 : ¬cond3_1 i)
    (x0 : Vec F S5000x64 .f32) (x1 : Vec F S1x2048 .i32) (x2 : Vec F S2048x64 .bf16) (x3 : Vec F S64x64 .bf16) (x4 : Vec F S64 .f32) (xs0 : Vec F S5000x64 .f32) :
    Σ' (L5 : List (View.Piece (Elt F) S5000x64 .f32)), { LS0 : List (View.Piece (Elt F) S5000x64 .f32) //
      ∀ (xi5 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc3_kernel i arg2 harg2 arg3 harg3 arg4 harg4 arg5 harg5 arg6 harg6 arg7 harg7 arg8 harg8) K } := by
  refine ⟨[], ?_, fun xi5 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in

noncomputable def kernelRun3_C (hc0 : ¬cond3_0 i) (hc1 : cond3_1 i)
    (x0 : Vec F S5000x64 .f32) (x1 : Vec F S1x2048 .i32) (x2 : Vec F S2048x64 .bf16) (x3 : Vec F S64x64 .bf16) (x4 : Vec F S64 .f32) (xs0 : Vec F S5000x64 .f32) :
    Σ' (L5 : List (View.Piece (Elt F) S5000x64 .f32)), { LS0 : List (View.Piece (Elt F) S5000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc3_kernel i arg2 harg2 arg3 harg3 arg4 harg4 arg5 harg5 arg6 harg6 arg7 harg7 arg8 harg8) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end

end Cert.Kernel.Hand

end
-- ==== Proof.K.R3.lean ====
import proofs.«407044_j9311489098471_2_alg».proof.Proof.K.R3Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev VO3_5 : View sig .tc .vmem S5000x64 .f32 := (Memref.whole cc3_stg5_0 : Memref sig .tc .vmem S5000x64 .f32).view
abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x2048 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x64 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x64 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S5000x64 .f32 := win3_5.stage (cfg3.slots t 5)
abbrev hs3_5 (t : Fin cfg3.N) : (ms3_5 t).IsWhole := hstage3_5 ((cfg3.slots t 5).cast nbuf3_5)

abbrev scM3_0 : Memref sig .tc .vmem S5000x64 .f32 := Memref.whole cc3_scratch0
abbrev VS3_0 : View sig .tc .vmem S5000x64 .f32 := scM3_0.view

theorem PhiA3_eq (c : Dev nD) :
    (Pipeline.ΦA spec3 c : sProp 𝕄)
      = iprop(iprop((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

section
variable (c : Dev nD) (i : grid3.Coords) (arg2 : Memref sig .tc .vmem S5000x64 .f32) (harg2 : arg2.IsWhole) (arg3 : Memref sig .tc .vmem S1x2048 .i32) (harg3 : arg3.IsWhole) (arg4 : Memref sig .tc .vmem S2048x64 .bf16) (harg4 : arg4.IsWhole) (arg5 : Memref sig .tc .vmem S64x64 .bf16) (harg5 : arg5.IsWhole) (arg6 : Memref sig .tc .vmem S64 .f32) (harg6 : arg6.IsWhole) (arg7 : Memref sig .tc .vmem S5000x64 .f32) (harg7 : arg7.IsWhole) (arg8 : Memref sig .tc .vmem S5000x64 .f32) (harg8 : arg8.IsWhole)
include c i arg2 harg2 arg3 harg3 arg4 harg4 arg5 harg5 arg6 harg6 arg7 harg7 arg8 harg8

def out3_A_5 (hc0 : cond3_0 i) (hc1 : ¬cond3_1 i)
    (x0 : Vec F S5000x64 .f32) (x1 : Vec F S1x2048 .i32) (x2 : Vec F S2048x64 .bf16) (x3 : Vec F S64x64 .bf16) (x4 : Vec F S64 .f32) : Vec F S5000x64 .f32 :=
  VO3_5.read (Elt F) (VO3_5.writes (Elt F) VO3_5.junk (kernelRun3_A c i arg2 harg2 arg3 harg3 arg4 harg4 arg5 harg5 arg6 harg6 arg7 harg7 arg8 harg8 hc0 hc1 x0 x1 x2 x3 x4).1)

theorem scover3_A_0 (hc0 : cond3_0 i) (hc1 : ¬cond3_1 i)
    (x0 : Vec F S5000x64 .f32) (x1 : Vec F S1x2048 .i32) (x2 : Vec F S2048x64 .bf16) (x3 : Vec F S64x64 .bf16) (x4 : Vec F S64 .f32) (y : S5000x64.Idx) :
    ∃ pc ∈ (kernelRun3_A c i arg2 harg2 arg3 harg3 arg4 harg4 arg5 harg5 arg6 harg6 arg7 harg7 arg8 harg8 hc0 hc1 x0 x1 x2 x3 x4).2.1, y ∈ pc.1.set :=
  View.cover_of_tiledL (kernelRun3_A c i arg2 harg2 arg3 harg3 arg4 harg4 arg5 harg5 arg6 harg6 arg7 harg7 arg8 harg8 hc0 hc1 x0 x1 x2 x3 x4).2.1 S5000x64.size (by sl_kernel_rfl) y

def sout3_A_0 (hc0 : cond3_0 i) (hc1 : ¬cond3_1 i)
    (x0 : Vec F S5000x64 .f32) (x1 : Vec F S1x2048 .i32) (x2 : Vec F S2048x64 .bf16) (x3 : Vec F S64x64 .bf16) (x4 : Vec F S64 .f32) : Vec F S5000x64 .f32 :=
  VS3_0.read (Elt F) (VS3_0.writes (Elt F) VS3_0.junk (kernelRun3_A c i arg2 harg2 arg3 harg3 arg4 harg4 arg5 harg5 arg6 harg6 arg7 harg7 arg8 harg8 hc0 hc1 x0 x1 x2 x3 x4).2.1)

def out3_B_5 (hc0 : ¬cond3_0 i) (hc1 : ¬cond3_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VO3_5.read (Elt F) (VO3_5.writes (Elt F) VO3_5.junk (kernelRun3_B c i arg2 harg2 arg3 harg3 arg4 harg4 arg5 harg5 arg6 harg6 arg7 harg7 arg8 harg8 hc0 hc1 x0 x1 x2 x3 x4 xs0).1)

theorem scover3_B_0 (hc0 : ¬cond3_0 i) (hc1 : ¬cond3_1 i)
    (x0 : Vec F S5000x64 .f32) (x1 : Vec F S1x2048 .i32) (x2 : Vec F S2048x64 .bf16) (x3 : Vec F S64x64 .bf16) (x4 : Vec F S64 .f32) (xs0 : Vec F S5000x64 .f32) (y : S5000x64.Idx) :
    ∃ pc ∈ (kernelRun3_B c i arg2 harg2 arg3 harg3 arg4 harg4 arg5 harg5 arg6 harg6 arg7 harg7 arg8 harg8 hc0 hc1 x0 x1 x2 x3 x4 xs0).2.1, y ∈ pc.1.set :=
  View.cover_of_tiledL (kernelRun3_B c i arg2 harg2 arg3 harg3 arg4 harg4 arg5 harg5 arg6 harg6 arg7 harg7 arg8 harg8 hc0 hc1 x0 x1 x2 x3 x4 xs0).2.1 S5000x64.size (by sl_kernel_rfl) y

def sout3_B_0 (hc0 : ¬cond3_0 i) (hc1 : ¬cond3_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VS3_0.read (Elt F) (VS3_0.writes (Elt F) VS3_0.junk (kernelRun3_B c i arg2 harg2 arg3 harg3 arg4 harg4 arg5 harg5 arg6 harg6 arg7 harg7 arg8 harg8 hc0 hc1 x0 x1 x2 x3 x4 xs0).2.1)

theorem cover3_C_5 (hc0 : ¬cond3_0 i) (hc1 : cond3_1 i)
    (x0 : Vec F S5000x64 .f32) (x1 : Vec F S1x2048 .i32) (x2 : Vec F S2048x64 .bf16) (x3 : Vec F S64x64 .bf16) (x4 : Vec F S64 .f32) (xs0 : Vec F S5000x64 .f32) (y : S5000x64.Idx) :
    ∃ pc ∈ (kernelRun3_C c i arg2 harg2 arg3 harg3 arg4 harg4 arg5 harg5 arg6 harg6 arg7 harg7 arg8 harg8 hc0 hc1 x0 x1 x2 x3 x4 xs0).1, y ∈ pc.1.set :=
  View.cover_of_tiledL (kernelRun3_C c i arg2 harg2 arg3 harg3 arg4 harg4 arg5 harg5 arg6 harg6 arg7 harg7 arg8 harg8 hc0 hc1 x0 x1 x2 x3 x4 xs0).1 S5000x64.size (by sl_kernel_rfl) y

def out3_C_5 (hc0 : ¬cond3_0 i) (hc1 : cond3_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VO3_5.read (Elt F) (VO3_5.writes (Elt F) VO3_5.junk (kernelRun3_C c i arg2 harg2 arg3 harg3 arg4 harg4 arg5 harg5 arg6 harg6 arg7 harg7 arg8 harg8 hc0 hc1 x0 x1 x2 x3 x4 xs0).1)

theorem scover3_C_0 (hc0 : ¬cond3_0 i) (hc1 : cond3_1 i)
    (x0 : Vec F S5000x64 .f32) (x1 : Vec F S1x2048 .i32) (x2 : Vec F S2048x64 .bf16) (x3 : Vec F S64x64 .bf16) (x4 : Vec F S64 .f32) (xs0 : Vec F S5000x64 .f32) (y : S5000x64.Idx) :
    ∃ pc ∈ (kernelRun3_C c i arg2 harg2 arg3 harg3 arg4 harg4 arg5 harg5 arg6 harg6 arg7 harg7 arg8 harg8 hc0 hc1 x0 x1 x2 x3 x4 xs0).2.1, y ∈ pc.1.set :=
  View.cover_of_tiledL (kernelRun3_C c i arg2 harg2 arg3 harg3 arg4 harg4 arg5 harg5 arg6 harg6 arg7 harg7 arg8 harg8 hc0 hc1 x0 x1 x2 x3 x4 xs0).2.1 S5000x64.size (by sl_kernel_rfl) y

def sout3_C_0 (hc0 : ¬cond3_0 i) (hc1 : cond3_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VS3_0.read (Elt F) (VS3_0.writes (Elt F) VS3_0.junk (kernelRun3_C c i arg2 harg2 arg3 harg3 arg4 harg4 arg5 harg5 arg6 harg6 arg7 harg7 arg8 harg8 hc0 hc1 x0 x1 x2 x3 x4 xs0).2.1)

end

def outsAt3 (c : Dev nD) : (n : ℕ) → n < cfg3.N → Vec F S5000x64 .f32 × Vec F S5000x64 .f32
  | 0, hn => (out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩))
  | n + 1, hn =>
    if h0 : (n + 1) % 391 = 0 then
      if h1 : (n + 1) % 391 = 390 then
        False.elim (by omega)
      else
        (out3_A_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩))
    else
      if h1 : (n + 1) % 391 = 390 then
        (out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2)
      else
        (out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2)

theorem outsAt3_A (c : Dev nD) (t : Fin cfg3.N) (h0 : t.val % 391 = 0) (h1 : ¬t.val % 391 = 390) :
    outsAt3 V c t.val t.isLt = (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t)) := by
  obtain ⟨n, hn⟩ := t
  cases n with
  | zero => exact rfl
  | succ n => exact (dif_pos h0).trans ((dif_neg h1).trans rfl)

theorem outsAt3_B (c : Dev nD) (t : Fin cfg3.N) (h0 : ¬t.val % 391 = 0) (h1 : ¬t.val % 391 = 390) :
    outsAt3 V c t.val t.isLt = (out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 391 = 0) (h1 : t.val % 391 = 390) :
    outsAt3 V c t.val t.isLt = (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) : (dat3 V c).leavesExact 2 t = owns (c : Thread nD τ) (ms3_2 t) fullShare (iblk3 V c 2 t) := by
  unfold Dat.leavesExact; rw [liveAt3_2 t, after3_2]
theorem leaves3_3 (c : Dev nD) (t : Fin cfg3.N) : (dat3 V c).leavesExact 3 t = owns (c : Thread nD τ) (ms3_3 t) fullShare (iblk3 V c 3 t) := by
  unfold Dat.leavesExact; rw [liveAt3_3 t, after3_3]
theorem leaves3_4 (c : Dev nD) (t : Fin cfg3.N) : (dat3 V c).leavesExact 4 t = owns (c : Thread nD τ) (ms3_4 t) fullShare (iblk3 V c 4 t) := by
  unfold Dat.leavesExact; rw [liveAt3_4 t, after3_4]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 3910 := lt_of_lt_of_eq t.isLt (show cfg3.N = 3910 from N_3)
  by_cases h0 : t.val % 391 = 0
  · by_cases h1 : t.val % 391 = 390
    · exfalso; omega
    · rw [leaves3_0, leaves3_1, leaves3_2, leaves3_3, leaves3_4]
      rw [Dat.leavesExact_idle (dat3 V c) 5 t (idleAt3_5 t (fun h => h1 ((hcond3_1 t).mp h))) (noFlush3_5 t (fun h => h1 ((hcond3_1 t).mp h)))]
      rw [outsAt3_A V c t h0 h1]
      unfold sout3_A_0; (try dsimp only)
      by_cases hz : t.val = 0
      on_goal 1 => rw [PhiS3_castSucc V c t, PhiS3_zero V c _ _ hz, PhiA3_eq]
      on_goal 2 => rw [PhiS3_castSucc V c t, PhiS3_pos V c _ _ hz]
      all_goals
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun3_A c (grid3.coords t) _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · first | iexact HS0 | (iexists _; iexact HS0)
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 391 = 390
    · rw [leaves3_0, leaves3_1, leaves3_2, leaves3_3, leaves3_4]
      rw [show (dat3 V c).leavesExact 5 t = owns (c : Thread nD τ) (ms3_5 t) fullShare ((dat3 V c).after 5 t) from (by unfold Dat.leavesExact; rw [liveAt3_5 t ((hcond3_1 t).mpr h1)]), after3_5]
      rw [outsAt3_C V c t h0 h1]
      unfold out3_C_5 sout3_C_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun3_C c (grid3.coords t) _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover3_C_5 c _ _ _ _ _ _ _ _ _ _ _ _ _ _ _ _ _ _ _ _ _ _ _)
    · rw [leaves3_0, leaves3_1, leaves3_2, leaves3_3, leaves3_4]
      rw [Dat.leavesExact_idle (dat3 V c) 5 t (idleAt3_5 t (fun h => h1 ((hcond3_1 t).mp h))) (noFlush3_5 t (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun3_B c (grid3.coords t) _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

theorem hout3 (c : Dev nD) : (dat3 V c).Φ (Fin.last cfg3.N) ⊢ Pipeline.ΦA spec3 c :=
  Phi_out3 V c _ (by rw [Fin.val_last]; have : cfg3.N = 3910 := N_3; omega)

end Region

end Cert.Kernel.Hand

end
-- ==== Proof.K.R4.lean ====
import proofs.«407044_j9311489098471_2_alg».proof.Proof.Gen.Kernel.Launch
import proofs.«407044_j9311489098471_2_alg».proof.Proof.Gen.Kernel.Skeleton
import proofs.«407044_j9311489098471_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val % 10 = 0 :=
  (by decide +kernel : ∀ t : Fin grid4.N, cond4_0 (grid4.coords t) ↔ t.val % 10 = 0)

abbrev VO4_1 : View sig .tc .vmem S1x64 .f32 := (Memref.whole cc4_stg1_0 : Memref sig .tc .vmem S1x64 .f32).view
abbrev VO4_2 : View sig .tc .vmem S1x64 .f32 := (Memref.whole cc4_stg2_0 : Memref sig .tc .vmem S1x64 .f32).view

abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)

section
variable (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole)
include c i arg1 harg1 arg2 harg2 arg3 harg3

set_option maxHeartbeats 1000000 in

noncomputable def kernelRun4_A (hc0 : cond4_0 i)
    (x0 : Vec F S5000x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc4_bn_stats_kernel i arg1 harg1 arg2 harg2 arg3 harg3) K } := by
  refine ⟨?_, ?_, fun E K => ?run⟩
  case run =>
    simp only [cc4_bn_stats_kernel_eq_skeleton]; unfold cc4_bn_stats_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in

noncomputable def kernelRun4_B (hc0 : ¬cond4_0 i)
    (x0 : Vec F S5000x64 .f32) (xo1 : Vec F S1x64 .f32) (xo2 : Vec F S1x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc4_bn_stats_kernel i arg1 harg1 arg2 harg2 arg3 harg3) K } := by
  refine ⟨?_, ?_, fun E K => ?run⟩
  case run =>
    simp only [cc4_bn_stats_kernel_eq_skeleton]; unfold cc4_bn_stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

theorem cover4_A_1 (hc0 : cond4_0 i)
    (x0 : Vec F S5000x64 .f32) (y : S1x64.Idx) :
    ∃ pc ∈ (kernelRun4_A c i arg1 harg1 arg2 harg2 arg3 harg3 hc0 x0).1, y ∈ pc.1.set :=
  View.cover_of_tiledL (kernelRun4_A c i arg1 harg1 arg2 harg2 arg3 harg3 hc0 x0).1 S1x64.size (by sl_kernel_rfl) y

theorem cover4_A_2 (hc0 : cond4_0 i)
    (x0 : Vec F S5000x64 .f32) (y : S1x64.Idx) :
    ∃ pc ∈ (kernelRun4_A c i arg1 harg1 arg2 harg2 arg3 harg3 hc0 x0).2.1, y ∈ pc.1.set :=
  View.cover_of_tiledL (kernelRun4_A c i arg1 harg1 arg2 harg2 arg3 harg3 hc0 x0).2.1 S1x64.size (by sl_kernel_rfl) y

def out4_A_1 (hc0 : cond4_0 i)
    (x0 : Vec F S5000x64 .f32) : Vec F S1x64 .f32 :=
  VO4_1.read (Elt F) (VO4_1.writes (Elt F) VO4_1.junk (kernelRun4_A c i arg1 harg1 arg2 harg2 arg3 harg3 hc0 x0).1)

def out4_A_2 (hc0 : cond4_0 i)
    (x0 : Vec F S5000x64 .f32) : Vec F S1x64 .f32 :=
  VO4_2.read (Elt F) (VO4_2.writes (Elt F) VO4_2.junk (kernelRun4_A c i arg1 harg1 arg2 harg2 arg3 harg3 hc0 x0).2.1)

theorem cover4_B_1 (hc0 : ¬cond4_0 i)
    (x0 : Vec F S5000x64 .f32) (xo1 : Vec F S1x64 .f32) (xo2 : Vec F S1x64 .f32) (y : S1x64.Idx) :
    ∃ pc ∈ (kernelRun4_B c i arg1 harg1 arg2 harg2 arg3 harg3 hc0 x0 xo1 xo2).1, y ∈ pc.1.set :=
  View.cover_of_tiledL (kernelRun4_B c i arg1 harg1 arg2 harg2 arg3 harg3 hc0 x0 xo1 xo2).1 S1x64.size (by sl_kernel_rfl) y

theorem cover4_B_2 (hc0 : ¬cond4_0 i)
    (x0 : Vec F S5000x64 .f32) (xo1 : Vec F S1x64 .f32) (xo2 : Vec F S1x64 .f32) (y : S1x64.Idx) :
    ∃ pc ∈ (kernelRun4_B c i arg1 harg1 arg2 harg2 arg3 harg3 hc0 x0 xo1 xo2).2.1, y ∈ pc.1.set :=
  View.cover_of_tiledL (kernelRun4_B c i arg1 harg1 arg2 harg2 arg3 harg3 hc0 x0 xo1 xo2).2.1 S1x64.size (by sl_kernel_rfl) y

def out4_B_1 (hc0 : ¬cond4_0 i)
    (x0 : Vec F S5000x64 .f32) (xo1 : Vec F S1x64 .f32) (xo2 : Vec F S1x64 .f32) : Vec F S1x64 .f32 :=
  VO4_1.read (Elt F) (VO4_1.writes (Elt F) VO4_1.junk (kernelRun4_B c i arg1 harg1 arg2 harg2 arg3 harg3 hc0 x0 xo1 xo2).1)

def out4_B_2 (hc0 : ¬cond4_0 i)
    (x0 : Vec F S5000x64 .f32) (xo1 : Vec F S1x64 .f32) (xo2 : Vec F S1x64 .f32) : Vec F S1x64 .f32 :=
  VO4_2.read (Elt F) (VO4_2.writes (Elt F) VO4_2.junk (kernelRun4_B c i arg1 harg1 arg2 harg2 arg3 harg3 hc0 x0 xo1 xo2).2.1)

end

def outsAt4 (c : Dev nD) : (n : ℕ) → n < cfg4.N → Vec F S1x64 .f32 × Vec F S1x64 .f32
  | 0, hn => (out4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) ((hcond4_0 ⟨0, hn⟩).mpr (Nat.zero_mod _)) (iblk4 V c 0 ⟨0, hn⟩),
      out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) ((hcond4_0 ⟨0, hn⟩).mpr (Nat.zero_mod _)) (iblk4 V c 0 ⟨0, hn⟩))
  | n + 1, hn =>
    if h0 : (n + 1) % 10 = 0 then
      (out4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) ((hcond4_0 ⟨n + 1, hn⟩).mpr h0) (iblk4 V c 0 ⟨n + 1, hn⟩),
        out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) ((hcond4_0 ⟨n + 1, hn⟩).mpr h0) (iblk4 V c 0 ⟨n + 1, hn⟩))
    else
      (out4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (fun h => h0 ((hcond4_0 ⟨n + 1, hn⟩).mp h)) (iblk4 V c 0 ⟨n + 1, hn⟩) (outsAt4 c n (Nat.lt_of_succ_lt hn)).1 (outsAt4 c n (Nat.lt_of_succ_lt hn)).2,
        out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (fun h => h0 ((hcond4_0 ⟨n + 1, hn⟩).mp h)) (iblk4 V c 0 ⟨n + 1, hn⟩) (outsAt4 c n (Nat.lt_of_succ_lt hn)).1 (outsAt4 c n (Nat.lt_of_succ_lt hn)).2)

theorem outsAt4_A (c : Dev nD) (t : Fin cfg4.N) (h0 : t.val % 10 = 0) :
    outsAt4 V c t.val t.isLt = (out4_A_1 c (grid4.coords t) (ms4_0 t) (hs4_0 t) (ms4_1 t) (hs4_1 t) (ms4_2 t) (hs4_2 t) ((hcond4_0 t).mpr h0) (iblk4 V c 0 t),
      out4_A_2 c (grid4.coords t) (ms4_0 t) (hs4_0 t) (ms4_1 t) (hs4_1 t) (ms4_2 t) (hs4_2 t) ((hcond4_0 t).mpr h0) (iblk4 V c 0 t)) := by
  obtain ⟨n, hn⟩ := t
  cases n with
  | zero => exact rfl
  | succ n => exact (dif_pos h0).trans rfl

theorem outsAt4_B (c : Dev nD) (t : Fin cfg4.N) (h0 : ¬t.val % 10 = 0) :
    outsAt4 V c t.val t.isLt = (out4_B_1 c (grid4.coords t) (ms4_0 t) (hs4_0 t) (ms4_1 t) (hs4_1 t) (ms4_2 t) (hs4_2 t) (fun h => h0 ((hcond4_0 t).mp h)) (iblk4 V c 0 t) (outsAt4 V c (t.val - 1) (Nat.lt_of_le_of_lt (Nat.sub_le _ _) t.isLt)).1 (outsAt4 V c (t.val - 1) (Nat.lt_of_le_of_lt (Nat.sub_le _ _) t.isLt)).2,
      out4_B_2 c (grid4.coords t) (ms4_0 t) (hs4_0 t) (ms4_1 t) (hs4_1 t) (ms4_2 t) (hs4_2 t) (fun h => h0 ((hcond4_0 t).mp h)) (iblk4 V c 0 t) (outsAt4 V c (t.val - 1) (Nat.lt_of_le_of_lt (Nat.sub_le _ _) t.isLt)).1 (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt).1
    | ⟨2, _⟩ => (outsAt4 V c t.val t.isLt).2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = (outsAt4 V c t.val t.isLt).1 := by dsimp only [dat4]
theorem after4_2 (c : Dev nD) (t : Fin cfg4.N) : (dat4 V c).after 2 t = (outsAt4 V c t.val t.isLt).2 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl

theorem before4_1_B (c : Dev nD) (t : Fin cfg4.N) (h0 : ¬t.val % 10 = 0) (d) :
    (dat4 V c).before 1 t d = (outsAt4 V c (t.val - 1) (Nat.lt_of_le_of_lt (Nat.sub_le _ _) t.isLt)).1 := by
  have hN : t.val < 10 := lt_of_lt_of_eq t.isLt (show cfg4.N = 10 from N_4)
  rw [Dat.before_out_kept _ 1 rfl t (by omega) (Bool.eq_false_iff.mpr fun h => by have := (flush4_1 _).mp h; dsimp only at this; omega)
    (fun _ => rfl) (fun _ _ => rfl)]
  dsimp only [dat4]

theorem before4_2_B (c : Dev nD) (t : Fin cfg4.N) (h0 : ¬t.val % 10 = 0) (d) :
    (dat4 V c).before 2 t d = (outsAt4 V c (t.val - 1) (Nat.lt_of_le_of_lt (Nat.sub_le _ _) t.isLt)).2 := by
  have hN : t.val < 10 := lt_of_lt_of_eq t.isLt (show cfg4.N = 10 from N_4)
  rw [Dat.before_out_kept _ 2 rfl t (by omega) (Bool.eq_false_iff.mpr fun h => by have := (flush4_2 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t))

set_option maxHeartbeats 1600000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1, after4_2]
  have hN : t.val < 10 := lt_of_lt_of_eq t.isLt (show cfg4.N = 10 from N_4)
  by_cases h0 : t.val % 10 = 0
  · rw [outsAt4_A V c t h0]
    unfold out4_A_1 out4_A_2; (try dsimp only)
    iintro ⟨HΦ, Ho, ⟨%d0, H0⟩, ⟨%d1, H1⟩, ⟨%d2, H2⟩⟩
    iapply ((kernelRun4_A c (grid4.coords t) _ _ _ _ _ _ ((hcond4_0 t).mpr h0) (iblk4 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover4_A_1 c _ _ _ _ _ _ _ _ _)
    unfold owns; iexists _; isplitr
    swap; · iexact H2
    ipureintro; exact View.read_writes_of_cover _ _ _ _ _ (cover4_A_2 c _ _ _ _ _ _ _ _ _)
  · rw [outsAt4_B V c t h0]
    simp only [before4_1_B V c t h0, before4_2_B V c t h0]
    unfold out4_B_1 out4_B_2; (try dsimp only)
    iintro ⟨HΦ, Ho, ⟨%d0, H0⟩, ⟨%d1, H1⟩, ⟨%d2, H2⟩⟩
    iapply ((kernelRun4_B c (grid4.coords t) _ _ _ _ _ _ (fun h => h0 ((hcond4_0 t).mp h)) (iblk4 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover4_B_1 c _ _ _ _ _ _ _ _ _ _ _)
    unfold owns; iexists _; isplitr
    swap; · iexact H2
    ipureintro; exact View.read_writes_of_cover _ _ _ _ _ (cover4_B_2 c _ _ _ _ _ _ _ _ _ _ _)

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := .rfl

theorem hout4 (c : Dev nD) : (dat4 V c).Φ (Fin.last cfg4.N) ⊢ Pipeline.ΦA spec4 c := .rfl

end Region4

end Cert.Kernel.Hand

end
-- ==== Proof.K.R5.lean ====
import proofs.«407044_j9311489098471_2_alg».proof.Proof.Gen.Kernel.Launch
import proofs.«407044_j9311489098471_2_alg».proof.Proof.Gen.Kernel.Skeleton
import proofs.«407044_j9311489098471_2_alg».proof.Proof.Gen.Kernel.Points
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x64 := Rect.unit (s := S5000x64) ![0, 0] S5000x64.size inb_S5000x64_S5000x64_0_0
abbrev r5_1 : Rect S1x64 := Rect.unit (s := S1x64) ![0, 0] S1x64.size inb_S1x64_S1x64_0_0
abbrev r5_2 : Rect S64 := Rect.unit (s := S64) ![0] S64.size inb_S64_S64_0

def out5_5 (x0 : Vec F S5000x64 .f32) (x1 : Vec F S1x64 .f32) (x2 : Vec F S1x64 .f32) (x3 : Vec F S64 .f32) (x4 : Vec F S64 .f32) :
    Vec F S5000x64 .f32 :=
  View.canon [⟨r5_0, k5_pay1 (View.ld x0 r5_0) (View.ld x2 r5_1) (View.ld x1 r5_1) (View.ld x3 r5_2) (View.ld x4 r5_2)⟩]

theorem cover5_5 (p0 : Vec F S5000x64 .f32) (y : S5000x64.Idx) :
    ∃ pc ∈ ([⟨r5_0, p0⟩] : List (View.Piece (Elt F) S5000x64 .f32)), y ∈ pc.1.set :=
  View.cover_of_tiled [⟨r5_0, p0⟩] S5000x64.size (by rfl) y

set_option maxHeartbeats 1000000 in

theorem sound_kernel5 (c : Dev nD) (E : Set ℕ) (i : grid5.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5_bn_norm_kernel i arg1 harg1 arg2 harg2 arg3 harg3 arg4 harg4 arg5 harg5 arg6 harg6) K := by
  simp only [cc5_bn_norm_kernel_eq_skeleton]; unfold cc5_bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := .rfl
theorem hout5 (c : Dev nD) : (dat5 V c).Φ (Fin.last cfg5.N) ⊢ Pipeline.ΦA spec5 c := .rfl

end Cert.Kernel.Hand

end
-- ==== Proof.K.R6Runs.lean ====
import proofs.«407044_j9311489098471_2_alg».proof.Proof.Gen.Kernel.Launch
import proofs.«407044_j9311489098471_2_alg».proof.Proof.Gen.Kernel.Skeleton
import proofs.«407044_j9311489098471_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond6_0 (i : grid6.Coords) : Prop := (Scalar.cmpi .ne (Scalar.extui (Scalar.cmpi .eq (BitVec.ofNat 32 (i 1).val) 0#32)) 0#32) = 1#1

theorem hcond6_0 : ∀ t : Fin cfg6.N, cond6_0 (grid6.coords t) ↔ t.val % 391 = 0 :=
  (by decide +kernel : ∀ t : Fin grid6.N, cond6_0 (grid6.coords t) ↔ t.val % 391 = 0)

abbrev cond6_1 (i : grid6.Coords) : Prop := k6_cond2 i = 1#1

theorem hcond6_1 : ∀ t : Fin cfg6.N, cond6_1 (grid6.coords t) ↔ t.val % 391 = 390 :=
  (by decide +kernel : ∀ t : Fin grid6.N, cond6_1 (grid6.coords t) ↔ t.val % 391 = 390)

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
theorem liveAt6_3 : ∀ t : Fin cfg6.N, cfg6.idle 3 (grid6.coords t) = false := fun _ => rfl
theorem liveAt6_4 : ∀ t : Fin cfg6.N, cfg6.idle 4 (grid6.coords t) = false := fun _ => rfl

theorem idleAt6_5 : ∀ t : Fin cfg6.N, ¬cond6_1 (grid6.coords t) → cfg6.idle 5 (grid6.coords t) = true := by
  intro t h
  show (!(k6_cond2 (grid6.coords t) == 1#1)) = true
  simpa using h

theorem noFlush6_5 : ∀ t : Fin cfg6.N, ¬cond6_1 (grid6.coords t) → (cfg6.win 5).flush t = false := by
  intro t h
  cases hf : (cfg6.win 5).flush t with
  | false => rfl
  | true => exact absurd ((hcond6_1 t).mpr ((flush6_5 t).mp hf)) h

theorem liveAt6_5 : ∀ t : Fin cfg6.N, cond6_1 (grid6.coords t) → cfg6.idle 5 (grid6.coords t) = false := by
  intro t h
  show (!(k6_cond2 (grid6.coords t) == 1#1)) = false
  simpa using h

section
variable (c : Dev nD) (i : grid6.Coords) (arg2 : Memref sig .tc .vmem S5000x64 .f32) (harg2 : arg2.IsWhole) (arg3 : Memref sig .tc .vmem S1x2048 .i32) (harg3 : arg3.IsWhole) (arg4 : Memref sig .tc .vmem S2048x64 .bf16) (harg4 : arg4.IsWhole) (arg5 : Memref sig .tc .vmem S64x64 .bf16) (harg5 : arg5.IsWhole) (arg6 : Memref sig .tc .vmem S64 .f32) (harg6 : arg6.IsWhole) (arg7 : Memref sig .tc .vmem S5000x64 .f32) (harg7 : arg7.IsWhole) (arg8 : Memref sig .tc .vmem S5000x64 .f32) (harg8 : arg8.IsWhole)
include c i arg2 harg2 arg3 harg3 arg4 harg4 arg5 harg5 arg6 harg6 arg7 harg7 arg8 harg8

set_option maxHeartbeats 4000000 in

noncomputable def kernelRun6_A (hc0 : cond6_0 i) (hc1 : ¬cond6_1 i)
    (x0 : Vec F S5000x64 .f32) (x1 : Vec F S1x2048 .i32) (x2 : Vec F S2048x64 .bf16) (x3 : Vec F S64x64 .bf16) (x4 : Vec F S64 .f32) :
    Σ' (L5 : List (View.Piece (Elt F) S5000x64 .f32)), { LS0 : List (View.Piece (Elt F) S5000x64 .f32) //
      ∀ (xi5 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc6_kernel i arg2 harg2 arg3 harg3 arg4 harg4 arg5 harg5 arg6 harg6 arg7 harg7 arg8 harg8) K } := by
  refine ⟨[], ?_, fun xi5 E K => ?run⟩
  case run =>
    simp only [cc6_kernel_eq_skeleton]; unfold cc6_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in

noncomputable def kernelRun6_B (hc0 : ¬cond6_0 i) (hc1 : ¬cond6_1 i)
    (x0 : Vec F S5000x64 .f32) (x1 : Vec F S1x2048 .i32) (x2 : Vec F S2048x64 .bf16) (x3 : Vec F S64x64 .bf16) (x4 : Vec F S64 .f32) (xs0 : Vec F S5000x64 .f32) :
    Σ' (L5 : List (View.Piece (Elt F) S5000x64 .f32)), { LS0 : List (View.Piece (Elt F) S5000x64 .f32) //
      ∀ (xi5 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc6_kernel i arg2 harg2 arg3 harg3 arg4 harg4 arg5 harg5 arg6 harg6 arg7 harg7 arg8 harg8) K } := by
  refine ⟨[], ?_, fun xi5 E K => ?run⟩
  case run =>
    simp only [cc6_kernel_eq_skeleton]; unfold cc6_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in

noncomputable def kernelRun6_C (hc0 : ¬cond6_0 i) (hc1 : cond6_1 i)
    (x0 : Vec F S5000x64 .f32) (x1 : Vec F S1x2048 .i32) (x2 : Vec F S2048x64 .bf16) (x3 : Vec F S64x64 .bf16) (x4 : Vec F S64 .f32) (xs0 : Vec F S5000x64 .f32) :
    Σ' (L5 : List (View.Piece (Elt F) S5000x64 .f32)), { LS0 : List (View.Piece (Elt F) S5000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc6_kernel i arg2 harg2 arg3 harg3 arg4 harg4 arg5 harg5 arg6 harg6 arg7 harg7 arg8 harg8) K } := by
  refine ⟨?_, ?_, fun E K => ?run⟩
  case run =>
    simp only [cc6_kernel_eq_skeleton]; unfold cc6_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end

end Cert.Kernel.Hand

end
-- ==== Proof.K.R6.lean ====
import proofs.«407044_j9311489098471_2_alg».proof.Proof.K.R6Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev VO6_5 : View sig .tc .vmem S5000x64 .f32 := (Memref.whole cc6_stg5_0 : Memref sig .tc .vmem S5000x64 .f32).view
abbrev ms6_0 (t : Fin cfg6.N) : Memref sig .tc .vmem S5000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1x2048 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S2048x64 .bf16 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S64x64 .bf16 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S64 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S5000x64 .f32 := win6_5.stage (cfg6.slots t 5)
abbrev hs6_5 (t : Fin cfg6.N) : (ms6_5 t).IsWhole := hstage6_5 ((cfg6.slots t 5).cast nbuf6_5)

abbrev scM6_0 : Memref sig .tc .vmem S5000x64 .f32 := Memref.whole cc6_scratch0
abbrev VS6_0 : View sig .tc .vmem S5000x64 .f32 := scM6_0.view

theorem PhiA6_eq (c : Dev nD) :
    (Pipeline.ΦA spec6 c : sProp 𝕄)
      = iprop(iprop((∃ d, owns (c : Thread nD τ) scM6_0 fullShare d) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

section
variable (c : Dev nD) (i : grid6.Coords) (arg2 : Memref sig .tc .vmem S5000x64 .f32) (harg2 : arg2.IsWhole) (arg3 : Memref sig .tc .vmem S1x2048 .i32) (harg3 : arg3.IsWhole) (arg4 : Memref sig .tc .vmem S2048x64 .bf16) (harg4 : arg4.IsWhole) (arg5 : Memref sig .tc .vmem S64x64 .bf16) (harg5 : arg5.IsWhole) (arg6 : Memref sig .tc .vmem S64 .f32) (harg6 : arg6.IsWhole) (arg7 : Memref sig .tc .vmem S5000x64 .f32) (harg7 : arg7.IsWhole) (arg8 : Memref sig .tc .vmem S5000x64 .f32) (harg8 : arg8.IsWhole)
include c i arg2 harg2 arg3 harg3 arg4 harg4 arg5 harg5 arg6 harg6 arg7 harg7 arg8 harg8

def out6_A_5 (hc0 : cond6_0 i) (hc1 : ¬cond6_1 i)
    (x0 : Vec F S5000x64 .f32) (x1 : Vec F S1x2048 .i32) (x2 : Vec F S2048x64 .bf16) (x3 : Vec F S64x64 .bf16) (x4 : Vec F S64 .f32) : Vec F S5000x64 .f32 :=
  VO6_5.read (Elt F) (VO6_5.writes (Elt F) VO6_5.junk (kernelRun6_A c i arg2 harg2 arg3 harg3 arg4 harg4 arg5 harg5 arg6 harg6 arg7 harg7 arg8 harg8 hc0 hc1 x0 x1 x2 x3 x4).1)

theorem scover6_A_0 (hc0 : cond6_0 i) (hc1 : ¬cond6_1 i)
    (x0 : Vec F S5000x64 .f32) (x1 : Vec F S1x2048 .i32) (x2 : Vec F S2048x64 .bf16) (x3 : Vec F S64x64 .bf16) (x4 : Vec F S64 .f32) (y : S5000x64.Idx) :
    ∃ pc ∈ (kernelRun6_A c i arg2 harg2 arg3 harg3 arg4 harg4 arg5 harg5 arg6 harg6 arg7 harg7 arg8 harg8 hc0 hc1 x0 x1 x2 x3 x4).2.1, y ∈ pc.1.set :=
  View.cover_of_tiledL (kernelRun6_A c i arg2 harg2 arg3 harg3 arg4 harg4 arg5 harg5 arg6 harg6 arg7 harg7 arg8 harg8 hc0 hc1 x0 x1 x2 x3 x4).2.1 S5000x64.size (by sl_kernel_rfl) y

def sout6_A_0 (hc0 : cond6_0 i) (hc1 : ¬cond6_1 i)
    (x0 : Vec F S5000x64 .f32) (x1 : Vec F S1x2048 .i32) (x2 : Vec F S2048x64 .bf16) (x3 : Vec F S64x64 .bf16) (x4 : Vec F S64 .f32) : Vec F S5000x64 .f32 :=
  VS6_0.read (Elt F) (VS6_0.writes (Elt F) VS6_0.junk (kernelRun6_A c i arg2 harg2 arg3 harg3 arg4 harg4 arg5 harg5 arg6 harg6 arg7 harg7 arg8 harg8 hc0 hc1 x0 x1 x2 x3 x4).2.1)

def out6_B_5 (hc0 : ¬cond6_0 i) (hc1 : ¬cond6_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VO6_5.read (Elt F) (VO6_5.writes (Elt F) VO6_5.junk (kernelRun6_B c i arg2 harg2 arg3 harg3 arg4 harg4 arg5 harg5 arg6 harg6 arg7 harg7 arg8 harg8 hc0 hc1 x0 x1 x2 x3 x4 xs0).1)

theorem scover6_B_0 (hc0 : ¬cond6_0 i) (hc1 : ¬cond6_1 i)
    (x0 : Vec F S5000x64 .f32) (x1 : Vec F S1x2048 .i32) (x2 : Vec F S2048x64 .bf16) (x3 : Vec F S64x64 .bf16) (x4 : Vec F S64 .f32) (xs0 : Vec F S5000x64 .f32) (y : S5000x64.Idx) :
    ∃ pc ∈ (kernelRun6_B c i arg2 harg2 arg3 harg3 arg4 harg4 arg5 harg5 arg6 harg6 arg7 harg7 arg8 harg8 hc0 hc1 x0 x1 x2 x3 x4 xs0).2.1, y ∈ pc.1.set :=
  View.cover_of_tiledL (kernelRun6_B c i arg2 harg2 arg3 harg3 arg4 harg4 arg5 harg5 arg6 harg6 arg7 harg7 arg8 harg8 hc0 hc1 x0 x1 x2 x3 x4 xs0).2.1 S5000x64.size (by sl_kernel_rfl) y

def sout6_B_0 (hc0 : ¬cond6_0 i) (hc1 : ¬cond6_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VS6_0.read (Elt F) (VS6_0.writes (Elt F) VS6_0.junk (kernelRun6_B c i arg2 harg2 arg3 harg3 arg4 harg4 arg5 harg5 arg6 harg6 arg7 harg7 arg8 harg8 hc0 hc1 x0 x1 x2 x3 x4 xs0).2.1)

theorem cover6_C_5 (hc0 : ¬cond6_0 i) (hc1 : cond6_1 i)
    (x0 : Vec F S5000x64 .f32) (x1 : Vec F S1x2048 .i32) (x2 : Vec F S2048x64 .bf16) (x3 : Vec F S64x64 .bf16) (x4 : Vec F S64 .f32) (xs0 : Vec F S5000x64 .f32) (y : S5000x64.Idx) :
    ∃ pc ∈ (kernelRun6_C c i arg2 harg2 arg3 harg3 arg4 harg4 arg5 harg5 arg6 harg6 arg7 harg7 arg8 harg8 hc0 hc1 x0 x1 x2 x3 x4 xs0).1, y ∈ pc.1.set :=
  View.cover_of_tiledL (kernelRun6_C c i arg2 harg2 arg3 harg3 arg4 harg4 arg5 harg5 arg6 harg6 arg7 harg7 arg8 harg8 hc0 hc1 x0 x1 x2 x3 x4 xs0).1 S5000x64.size (by sl_kernel_rfl) y

def out6_C_5 (hc0 : ¬cond6_0 i) (hc1 : cond6_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VO6_5.read (Elt F) (VO6_5.writes (Elt F) VO6_5.junk (kernelRun6_C c i arg2 harg2 arg3 harg3 arg4 harg4 arg5 harg5 arg6 harg6 arg7 harg7 arg8 harg8 hc0 hc1 x0 x1 x2 x3 x4 xs0).1)

theorem scover6_C_0 (hc0 : ¬cond6_0 i) (hc1 : cond6_1 i)
    (x0 : Vec F S5000x64 .f32) (x1 : Vec F S1x2048 .i32) (x2 : Vec F S2048x64 .bf16) (x3 : Vec F S64x64 .bf16) (x4 : Vec F S64 .f32) (xs0 : Vec F S5000x64 .f32) (y : S5000x64.Idx) :
    ∃ pc ∈ (kernelRun6_C c i arg2 harg2 arg3 harg3 arg4 harg4 arg5 harg5 arg6 harg6 arg7 harg7 arg8 harg8 hc0 hc1 x0 x1 x2 x3 x4 xs0).2.1, y ∈ pc.1.set :=
  View.cover_of_tiledL (kernelRun6_C c i arg2 harg2 arg3 harg3 arg4 harg4 arg5 harg5 arg6 harg6 arg7 harg7 arg8 harg8 hc0 hc1 x0 x1 x2 x3 x4 xs0).2.1 S5000x64.size (by sl_kernel_rfl) y

def sout6_C_0 (hc0 : ¬cond6_0 i) (hc1 : cond6_1 i)
    (x0 : Vec F S5000x64 .f32) (x1 : Vec F S1x2048 .i32) (x2 : Vec F S2048x64 .bf16) (x3 : Vec F S64x64 .bf16) (x4 : Vec F S64 .f32) (xs0 : Vec F S5000x64 .f32) : Vec F S5000x64 .f32 :=
  VS6_0.read (Elt F) (VS6_0.writes (Elt F) VS6_0.junk (kernelRun6_C c i arg2 harg2 arg3 harg3 arg4 harg4 arg5 harg5 arg6 harg6 arg7 harg7 arg8 harg8 hc0 hc1 x0 x1 x2 x3 x4 xs0).2.1)

end

def outsAt6 (c : Dev nD) : (n : ℕ) → n < cfg6.N → Vec F S5000x64 .f32 × Vec F S5000x64 .f32
  | 0, hn => (out6_A_5 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩))
  | n + 1, hn =>
    if h0 : (n + 1) % 391 = 0 then
      if h1 : (n + 1) % 391 = 390 then
        False.elim (by omega)
      else
        (out6_A_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩), sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩))
    else
      if h1 : (n + 1) % 391 = 390 then
        (out6_C_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2)
      else
        (out6_B_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (outsAt6 c n (Nat.lt_of_succ_lt hn)).2)

theorem outsAt6_A (c : Dev nD) (t : Fin cfg6.N) (h0 : t.val % 391 = 0) (h1 : ¬t.val % 391 = 390) :
    outsAt6 V c t.val t.isLt = (out6_A_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) ((hcond6_0 t).mpr h0) (fun h => h1 ((hcond6_1 t).mp h)) (iblk6 V c 0 t) (iblk6 V c 1 t) (iblk6 V c 2 t) (iblk6 V c 3 t) (iblk6 V c 4 t), sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) ((hcond6_0 t).mpr h0) (fun h => h1 ((hcond6_1 t).mp h)) (iblk6 V c 0 t) (iblk6 V c 1 t) (iblk6 V c 2 t) (iblk6 V c 3 t) (iblk6 V c 4 t)) := by
  obtain ⟨n, hn⟩ := t
  cases n with
  | zero => exact rfl
  | succ n => exact (dif_pos h0).trans ((dif_neg h1).trans rfl)

theorem outsAt6_B (c : Dev nD) (t : Fin cfg6.N) (h0 : ¬t.val % 391 = 0) (h1 : ¬t.val % 391 = 390) :
    outsAt6 V c t.val t.isLt = (out6_B_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2, sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 391 = 0) (h1 : t.val % 391 = 390) :
    outsAt6 V c t.val t.isLt = (out6_C_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2, sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) (fun h => h0 ((hcond6_0 t).mp h)) ((hcond6_1 t).mpr h1) (iblk6 V c 0 t) (iblk6 V c 1 t) (iblk6 V c 2 t) (iblk6 V c 3 t) (iblk6 V c 4 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6_0 fullShare ((outsAt6 V c n hn).2) ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6_0 fullShare ((outsAt6 V c (n - 1) (by omega)).2) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = (outsAt6 V c t.val t.isLt).1 := by dsimp only [dat6]

theorem leaves6_0 (c : Dev nD) (t : Fin cfg6.N) : (dat6 V c).leavesExact 0 t = owns (c : Thread nD τ) (ms6_0 t) fullShare (iblk6 V c 0 t) := by
  unfold Dat.leavesExact; rw [liveAt6_0 t, after6_0]
theorem leaves6_1 (c : Dev nD) (t : Fin cfg6.N) : (dat6 V c).leavesExact 1 t = owns (c : Thread nD τ) (ms6_1 t) fullShare (iblk6 V c 1 t) := by
  unfold Dat.leavesExact; rw [liveAt6_1 t, after6_1]
theorem leaves6_2 (c : Dev nD) (t : Fin cfg6.N) : (dat6 V c).leavesExact 2 t = owns (c : Thread nD τ) (ms6_2 t) fullShare (iblk6 V c 2 t) := by
  unfold Dat.leavesExact; rw [liveAt6_2 t, after6_2]
theorem leaves6_3 (c : Dev nD) (t : Fin cfg6.N) : (dat6 V c).leavesExact 3 t = owns (c : Thread nD τ) (ms6_3 t) fullShare (iblk6 V c 3 t) := by
  unfold Dat.leavesExact; rw [liveAt6_3 t, after6_3]
theorem leaves6_4 (c : Dev nD) (t : Fin cfg6.N) : (dat6 V c).leavesExact 4 t = owns (c : Thread nD τ) (ms6_4 t) fullShare (iblk6 V c 4 t) := by
  unfold Dat.leavesExact; rw [liveAt6_4 t, after6_4]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl
theorem before6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl
theorem before6_4 (c : Dev nD) (t : Fin cfg6.N) (d) : (dat6 V c).before 4 t d = iblk6 V c 4 t :=
  ((dat6 V c).before_in_eq_fetched 4 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t)

set_option maxHeartbeats 4800000 in

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).owesAt () t.succ = (dat6 V c).owesAt () t.castSucc from rfl]
  rw [show (dat6 V c).Φ t.succ = PhiS6 V c (t.val + 1) t.isLt from rfl, PhiS6_succ]
  have hN : t.val < 3910 := lt_of_lt_of_eq t.isLt (show cfg6.N = 3910 from N_6)
  by_cases h0 : t.val % 391 = 0
  · by_cases h1 : t.val % 391 = 390
    · exfalso; omega
    · rw [leaves6_0, leaves6_1, leaves6_2, leaves6_3, leaves6_4]
      rw [Dat.leavesExact_idle (dat6 V c) 5 t (idleAt6_5 t (fun h => h1 ((hcond6_1 t).mp h))) (noFlush6_5 t (fun h => h1 ((hcond6_1 t).mp h)))]
      rw [outsAt6_A V c t h0 h1]
      unfold sout6_A_0; (try dsimp only)
      by_cases hz : t.val = 0
      on_goal 1 => rw [PhiS6_castSucc V c t, PhiS6_zero V c _ _ hz, PhiA6_eq]
      on_goal 2 => rw [PhiS6_castSucc V c t, PhiS6_pos V c _ _ hz]
      all_goals
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun6_A c (grid6.coords t) _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · first | iexact HS0 | (iexists _; iexact HS0)
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 391 = 390
    · rw [leaves6_0, leaves6_1, leaves6_2, leaves6_3, leaves6_4]
      rw [show (dat6 V c).leavesExact 5 t = owns (c : Thread nD τ) (ms6_5 t) fullShare ((dat6 V c).after 5 t) from (by unfold Dat.leavesExact; rw [liveAt6_5 t ((hcond6_1 t).mpr h1)]), after6_5]
      rw [outsAt6_C V c t h0 h1]
      unfold out6_C_5 sout6_C_0; (try dsimp only)
      by_cases hz : t.val = 0
      · exfalso; omega
      · rw [PhiS6_castSucc V c t, PhiS6_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun6_C c (grid6.coords t) _ _ _ _ _ _ _ _ _ _ _ _ _ _ (fun h => h0 ((hcond6_0 t).mp h)) ((hcond6_1 t).mpr h1) (iblk6 V c 0 t) (iblk6 V c 1 t) (iblk6 V c 2 t) (iblk6 V c 3 t) (iblk6 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover6_C_5 c _ _ _ _ _ _ _ _ _ _ _ _ _ _ _ _ _ _ _ _ _ _ _)
    · rw [leaves6_0, leaves6_1, leaves6_2, leaves6_3, leaves6_4]
      rw [Dat.leavesExact_idle (dat6 V c) 5 t (idleAt6_5 t (fun h => h1 ((hcond6_1 t).mp h))) (noFlush6_5 t (fun h => h1 ((hcond6_1 t).mp h)))]
      rw [outsAt6_B V c t h0 h1]
      unfold sout6_B_0; (try dsimp only)
      by_cases hz : t.val = 0
      · exfalso; omega
      · rw [PhiS6_castSucc V c t, PhiS6_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun6_B c (grid6.coords t) _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) (iblk6 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover6_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, HR⟩, Hg⟩
  isplitl [HS0 HR]
  · isplitl [HS0]
    · iexists _; iexact HS0
    iexact HR
  iexact Hg

theorem hout6 (c : Dev nD) : (dat6 V c).Φ (Fin.last cfg6.N) ⊢ Pipeline.ΦA spec6 c :=
  Phi_out6 V c _ (by rw [Fin.val_last]; have : cfg6.N = 3910 := N_6; omega)

end Region

end Cert.Kernel.Hand

end
-- ==== Proof.K.R7.lean ====
import proofs.«407044_j9311489098471_2_alg».proof.Proof.Gen.Kernel.Launch
import proofs.«407044_j9311489098471_2_alg».proof.Proof.Gen.Kernel.Skeleton
import proofs.«407044_j9311489098471_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region7

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev cond7_0 (i : grid7.Coords) : Prop := (Scalar.cmpi .ne (Scalar.extui (Scalar.cmpi .eq (BitVec.ofNat 32 (i 0).val) 0#32)) 0#32) = 1#1

theorem hcond7_0 : ∀ t : Fin cfg7.N, cond7_0 (grid7.coords t) ↔ t.val % 10 = 0 :=
  (by decide +kernel : ∀ t : Fin grid7.N, cond7_0 (grid7.coords t) ↔ t.val % 10 = 0)

abbrev VO7_1 : View sig .tc .vmem S1x64 .f32 := (Memref.whole cc7_stg1_0 : Memref sig .tc .vmem S1x64 .f32).view
abbrev VO7_2 : View sig .tc .vmem S1x64 .f32 := (Memref.whole cc7_stg2_0 : Memref sig .tc .vmem S1x64 .f32).view

abbrev ms7_0 (t : Fin cfg7.N) : Memref sig .tc .vmem S5000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x64 .f32 := win7_2.stage (cfg7.slots t 2)
abbrev hs7_2 (t : Fin cfg7.N) : (ms7_2 t).IsWhole := hstage7_2 ((cfg7.slots t 2).cast nbuf7_2)

section
variable (c : Dev nD) (i : grid7.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole)
include c i arg1 harg1 arg2 harg2 arg3 harg3

set_option maxHeartbeats 1000000 in

noncomputable def kernelRun7_A (hc0 : cond7_0 i)
    (x0 : Vec F S5000x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc7_bn_stats_kernel i arg1 harg1 arg2 harg2 arg3 harg3) K } := by
  refine ⟨?_, ?_, fun E K => ?run⟩
  case run =>
    simp only [cc7_bn_stats_kernel_eq_skeleton]; unfold cc7_bn_stats_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 1000000 in

noncomputable def kernelRun7_B (hc0 : ¬cond7_0 i)
    (x0 : Vec F S5000x64 .f32) (xo1 : Vec F S1x64 .f32) (xo2 : Vec F S1x64 .f32) :
    Σ' (L1 : List (View.Piece (Elt F) S1x64 .f32)), { L2 : List (View.Piece (Elt F) S1x64 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0 ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc7_bn_stats_kernel i arg1 harg1 arg2 harg2 arg3 harg3) K } := by
  refine ⟨?_, ?_, fun E K => ?run⟩
  case run =>
    simp only [cc7_bn_stats_kernel_eq_skeleton]; unfold cc7_bn_stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

theorem cover7_A_1 (hc0 : cond7_0 i)
    (x0 : Vec F S5000x64 .f32) (y : S1x64.Idx) :
    ∃ pc ∈ (kernelRun7_A c i arg1 harg1 arg2 harg2 arg3 harg3 hc0 x0).1, y ∈ pc.1.set :=
  View.cover_of_tiledL (kernelRun7_A c i arg1 harg1 arg2 harg2 arg3 harg3 hc0 x0).1 S1x64.size (by sl_kernel_rfl) y

theorem cover7_A_2 (hc0 : cond7_0 i)
    (x0 : Vec F S5000x64 .f32) (y : S1x64.Idx) :
    ∃ pc ∈ (kernelRun7_A c i arg1 harg1 arg2 harg2 arg3 harg3 hc0 x0).2.1, y ∈ pc.1.set :=
  View.cover_of_tiledL (kernelRun7_A c i arg1 harg1 arg2 harg2 arg3 harg3 hc0 x0).2.1 S1x64.size (by sl_kernel_rfl) y

def out7_A_1 (hc0 : cond7_0 i)
    (x0 : Vec F S5000x64 .f32) : Vec F S1x64 .f32 :=
  VO7_1.read (Elt F) (VO7_1.writes (Elt F) VO7_1.junk (kernelRun7_A c i arg1 harg1 arg2 harg2 arg3 harg3 hc0 x0).1)

def out7_A_2 (hc0 : cond7_0 i)
    (x0 : Vec F S5000x64 .f32) : Vec F S1x64 .f32 :=
  VO7_2.read (Elt F) (VO7_2.writes (Elt F) VO7_2.junk (kernelRun7_A c i arg1 harg1 arg2 harg2 arg3 harg3 hc0 x0).2.1)

theorem cover7_B_1 (hc0 : ¬cond7_0 i)
    (x0 : Vec F S5000x64 .f32) (xo1 : Vec F S1x64 .f32) (xo2 : Vec F S1x64 .f32) (y : S1x64.Idx) :
    ∃ pc ∈ (kernelRun7_B c i arg1 harg1 arg2 harg2 arg3 harg3 hc0 x0 xo1 xo2).1, y ∈ pc.1.set :=
  View.cover_of_tiledL (kernelRun7_B c i arg1 harg1 arg2 harg2 arg3 harg3 hc0 x0 xo1 xo2).1 S1x64.size (by sl_kernel_rfl) y

theorem cover7_B_2 (hc0 : ¬cond7_0 i)
    (x0 : Vec F S5000x64 .f32) (xo1 : Vec F S1x64 .f32) (xo2 : Vec F S1x64 .f32) (y : S1x64.Idx) :
    ∃ pc ∈ (kernelRun7_B c i arg1 harg1 arg2 harg2 arg3 harg3 hc0 x0 xo1 xo2).2.1, y ∈ pc.1.set :=
  View.cover_of_tiledL (kernelRun7_B c i arg1 harg1 arg2 harg2 arg3 harg3 hc0 x0 xo1 xo2).2.1 S1x64.size (by sl_kernel_rfl) y

def out7_B_1 (hc0 : ¬cond7_0 i)
    (x0 : Vec F S5000x64 .f32) (xo1 : Vec F S1x64 .f32) (xo2 : Vec F S1x64 .f32) : Vec F S1x64 .f32 :=
  VO7_1.read (Elt F) (VO7_1.writes (Elt F) VO7_1.junk (kernelRun7_B c i arg1 harg1 arg2 harg2 arg3 harg3 hc0 x0 xo1 xo2).1)

def out7_B_2 (hc0 : ¬cond7_0 i)
    (x0 : Vec F S5000x64 .f32) (xo1 : Vec F S1x64 .f32) (xo2 : Vec F S1x64 .f32) : Vec F S1x64 .f32 :=
  VO7_2.read (Elt F) (VO7_2.writes (Elt F) VO7_2.junk (kernelRun7_B c i arg1 harg1 arg2 harg2 arg3 harg3 hc0 x0 xo1 xo2).2.1)

end

def outsAt7 (c : Dev nD) : (n : ℕ) → n < cfg7.N → Vec F S1x64 .f32 × Vec F S1x64 .f32
  | 0, hn => (out7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) ((hcond7_0 ⟨0, hn⟩).mpr (Nat.zero_mod _)) (iblk7 V c 0 ⟨0, hn⟩),
      out7_A_2 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) ((hcond7_0 ⟨0, hn⟩).mpr (Nat.zero_mod _)) (iblk7 V c 0 ⟨0, hn⟩))
  | n + 1, hn =>
    if h0 : (n + 1) % 10 = 0 then
      (out7_A_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) ((hcond7_0 ⟨n + 1, hn⟩).mpr h0) (iblk7 V c 0 ⟨n + 1, hn⟩),
        out7_A_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) ((hcond7_0 ⟨n + 1, hn⟩).mpr h0) (iblk7 V c 0 ⟨n + 1, hn⟩))
    else
      (out7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (fun h => h0 ((hcond7_0 ⟨n + 1, hn⟩).mp h)) (iblk7 V c 0 ⟨n + 1, hn⟩) (outsAt7 c n (Nat.lt_of_succ_lt hn)).1 (outsAt7 c n (Nat.lt_of_succ_lt hn)).2,
        out7_B_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (fun h => h0 ((hcond7_0 ⟨n + 1, hn⟩).mp h)) (iblk7 V c 0 ⟨n + 1, hn⟩) (outsAt7 c n (Nat.lt_of_succ_lt hn)).1 (outsAt7 c n (Nat.lt_of_succ_lt hn)).2)

theorem outsAt7_A (c : Dev nD) (t : Fin cfg7.N) (h0 : t.val % 10 = 0) :
    outsAt7 V c t.val t.isLt = (out7_A_1 c (grid7.coords t) (ms7_0 t) (hs7_0 t) (ms7_1 t) (hs7_1 t) (ms7_2 t) (hs7_2 t) ((hcond7_0 t).mpr h0) (iblk7 V c 0 t),
      out7_A_2 c (grid7.coords t) (ms7_0 t) (hs7_0 t) (ms7_1 t) (hs7_1 t) (ms7_2 t) (hs7_2 t) ((hcond7_0 t).mpr h0) (iblk7 V c 0 t)) := by
  obtain ⟨n, hn⟩ := t
  cases n with
  | zero => exact rfl
  | succ n => exact (dif_pos h0).trans rfl

theorem outsAt7_B (c : Dev nD) (t : Fin cfg7.N) (h0 : ¬t.val % 10 = 0) :
    outsAt7 V c t.val t.isLt = (out7_B_1 c (grid7.coords t) (ms7_0 t) (hs7_0 t) (ms7_1 t) (hs7_1 t) (ms7_2 t) (hs7_2 t) (fun h => h0 ((hcond7_0 t).mp h)) (iblk7 V c 0 t) (outsAt7 V c (t.val - 1) (Nat.lt_of_le_of_lt (Nat.sub_le _ _) t.isLt)).1 (outsAt7 V c (t.val - 1) (Nat.lt_of_le_of_lt (Nat.sub_le _ _) t.isLt)).2,
      out7_B_2 c (grid7.coords t) (ms7_0 t) (hs7_0 t) (ms7_1 t) (hs7_1 t) (ms7_2 t) (hs7_2 t) (fun h => h0 ((hcond7_0 t).mp h)) (iblk7 V c 0 t) (outsAt7 V c (t.val - 1) (Nat.lt_of_le_of_lt (Nat.sub_le _ _) t.isLt)).1 (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => (outsAt7 V c t.val t.isLt).1
    | ⟨2, _⟩ => (outsAt7 V c t.val t.isLt).2
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = (outsAt7 V c t.val t.isLt).1 := by dsimp only [dat7]
theorem after7_2 (c : Dev nD) (t : Fin cfg7.N) : (dat7 V c).after 2 t = (outsAt7 V c t.val t.isLt).2 := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl

theorem before7_1_B (c : Dev nD) (t : Fin cfg7.N) (h0 : ¬t.val % 10 = 0) (d) :
    (dat7 V c).before 1 t d = (outsAt7 V c (t.val - 1) (Nat.lt_of_le_of_lt (Nat.sub_le _ _) t.isLt)).1 := by
  have hN : t.val < 10 := lt_of_lt_of_eq t.isLt (show cfg7.N = 10 from N_7)
  rw [Dat.before_out_kept _ 1 rfl t (by omega) (Bool.eq_false_iff.mpr fun h => by have := (flush7_1 _).mp h; dsimp only at this; omega)
    (fun _ => rfl) (fun _ _ => rfl)]
  dsimp only [dat7]

theorem before7_2_B (c : Dev nD) (t : Fin cfg7.N) (h0 : ¬t.val % 10 = 0) (d) :
    (dat7 V c).before 2 t d = (outsAt7 V c (t.val - 1) (Nat.lt_of_le_of_lt (Nat.sub_le _ _) t.isLt)).2 := by
  have hN : t.val < 10 := lt_of_lt_of_eq t.isLt (show cfg7.N = 10 from N_7)
  rw [Dat.before_out_kept _ 2 rfl t (by omega) (Bool.eq_false_iff.mpr fun h => by have := (flush7_2 _).mp h; dsimp only at this; omega)
    (fun _ => rfl) (fun _ _ => rfl)]
  dsimp only [dat7]

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t))

set_option maxHeartbeats 1600000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).Φ t.succ = (dat7 V c).Φ t.castSucc from rfl,
    show (dat7 V c).owesAt () t.succ = (dat7 V c).owesAt () t.castSucc from rfl,
    after7_0, after7_1, after7_2]
  have hN : t.val < 10 := lt_of_lt_of_eq t.isLt (show cfg7.N = 10 from N_7)
  by_cases h0 : t.val % 10 = 0
  · rw [outsAt7_A V c t h0]
    unfold out7_A_1 out7_A_2; (try dsimp only)
    iintro ⟨HΦ, Ho, ⟨%d0, H0⟩, ⟨%d1, H1⟩, ⟨%d2, H2⟩⟩
    iapply ((kernelRun7_A c (grid7.coords t) _ _ _ _ _ _ ((hcond7_0 t).mpr h0) (iblk7 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover7_A_1 c _ _ _ _ _ _ _ _ _)
    unfold owns; iexists _; isplitr
    swap; · iexact H2
    ipureintro; exact View.read_writes_of_cover _ _ _ _ _ (cover7_A_2 c _ _ _ _ _ _ _ _ _)
  · rw [outsAt7_B V c t h0]
    simp only [before7_1_B V c t h0, before7_2_B V c t h0]
    unfold out7_B_1 out7_B_2; (try dsimp only)
    iintro ⟨HΦ, Ho, ⟨%d0, H0⟩, ⟨%d1, H1⟩, ⟨%d2, H2⟩⟩
    iapply ((kernelRun7_B c (grid7.coords t) _ _ _ _ _ _ (fun h => h0 ((hcond7_0 t).mp h)) (iblk7 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover7_B_1 c _ _ _ _ _ _ _ _ _ _ _)
    unfold owns; iexists _; isplitr
    swap; · iexact H2
    ipureintro; exact View.read_writes_of_cover _ _ _ _ _ (cover7_B_2 c _ _ _ _ _ _ _ _ _ _ _)

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := .rfl

theorem hout7 (c : Dev nD) : (dat7 V c).Φ (Fin.last cfg7.N) ⊢ Pipeline.ΦA spec7 c := .rfl

end Region7

end Cert.Kernel.Hand

end
-- ==== Proof.K.R8.lean ====
import proofs.«407044_j9311489098471_2_alg».proof.Proof.Gen.Kernel.Launch
import proofs.«407044_j9311489098471_2_alg».proof.Proof.Gen.Kernel.Skeleton
import proofs.«407044_j9311489098471_2_alg».proof.Proof.Gen.Kernel.Points
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S5000x64 := Rect.unit (s := S5000x64) ![0, 0] S5000x64.size inb_S5000x64_S5000x64_0_0
abbrev r8_1 : Rect S1x64 := Rect.unit (s := S1x64) ![0, 0] S1x64.size inb_S1x64_S1x64_0_0
abbrev r8_2 : Rect S64 := Rect.unit (s := S64) ![0] S64.size inb_S64_S64_0

def out8_5 (x0 : Vec F S5000x64 .f32) (x1 : Vec F S1x64 .f32) (x2 : Vec F S1x64 .f32) (x3 : Vec F S64 .f32) (x4 : Vec F S64 .f32) :
    Vec F S5000x64 .f32 :=
  View.canon [⟨r8_0, k8_pay1 (View.ld x0 r8_0) (View.ld x2 r8_1) (View.ld x1 r8_1) (View.ld x3 r8_2) (View.ld x4 r8_2)⟩]

theorem cover8_5 (p0 : Vec F S5000x64 .f32) (y : S5000x64.Idx) :
    ∃ pc ∈ ([⟨r8_0, p0⟩] : List (View.Piece (Elt F) S5000x64 .f32)), y ∈ pc.1.set :=
  View.cover_of_tiled [⟨r8_0, p0⟩] S5000x64.size (by rfl) y

set_option maxHeartbeats 1000000 in

theorem sound_kernel8 (c : Dev nD) (E : Set ℕ) (i : grid8.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S1x64 .f32) (x2 : Vec F S1x64 .f32) (x3 : Vec F S64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E (cc8_bn_norm_kernel i arg1 harg1 arg2 harg2 arg3 harg3 arg4 harg4 arg5 harg5 arg6 harg6) K := by
  simp only [cc8_bn_norm_kernel_eq_skeleton]; unfold cc8_bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl
theorem before8_2 (c : Dev nD) (t : Fin cfg8.N) (d) : (dat8 V c).before 2 t d = iblk8 V c 2 t :=
  ((dat8 V c).before_in_eq_fetched 2 rfl (fun _ => rfl) (fun _ _ _ => rfl) (fun _ => rfl) t d).trans rfl
theorem before8_3 (c : Dev nD) (t : Fin cfg8.N) (d) : (dat8 V c).before 3 t d = iblk8 V c 3 t :=
  ((dat8 V c).before_in_eq_fetched 3 rfl (fun _ => rfl) (fun _ _ _ => rfl) (fun _ => rfl) t d).trans rfl
theorem before8_4 (c : Dev nD) (t : Fin cfg8.N) (d) : (dat8 V c).before 4 t d = iblk8 V c 4 t :=
  ((dat8 V c).before_in_eq_fetched 4 rfl (fun _ => rfl) (fun _ _ _ => rfl) (fun _ => rfl) t d).trans rfl

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _
    (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := .rfl
theorem hout8 (c : Dev nD) : (dat8 V c).Φ (Fin.last cfg8.N) ⊢ Pipeline.ΦA spec8 c := .rfl

end Cert.Kernel.Hand

end
-- ==== Proof.K.R9Runs.lean ====
import proofs.«407044_j9311489098471_2_alg».proof.Proof.Gen.Kernel.Launch
import proofs.«407044_j9311489098471_2_alg».proof.Proof.Gen.Kernel.Skeleton
import proofs.«407044_j9311489098471_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond9_0 (i : grid9.Coords) : Prop := (Scalar.cmpi .ne (Scalar.extui (Scalar.cmpi .eq (BitVec.ofNat 32 (i 0).val) 0#32)) 0#32) = 1#1

theorem hcond9_0 : ∀ t : Fin cfg9.N, cond9_0 (grid9.coords t) ↔ t.val = 0 :=
  (by decide +kernel : ∀ t : Fin grid9.N, cond9_0 (grid9.coords t) ↔ t.val = 0)

abbrev cond9_1 (i : grid9.Coords) : Prop := k9_cond2 i = 1#1

theorem hcond9_1 : ∀ t : Fin cfg9.N, cond9_1 (grid9.coords t) ↔ t.val = 9 :=
  (by decide +kernel : ∀ t : Fin grid9.N, cond9_1 (grid9.coords t) ↔ t.val = 9)

theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
theorem liveAt9_3 : ∀ t : Fin cfg9.N, cfg9.idle 3 (grid9.coords t) = false := by decide +kernel
theorem liveAt9_4 : ∀ t : Fin cfg9.N, cfg9.idle 4 (grid9.coords t) = false := by decide +kernel
theorem liveAt9_5 : ∀ t : Fin cfg9.N, cfg9.idle 5 (grid9.coords t) = false := by decide +kernel

theorem idleAt9_6 : ∀ t : Fin cfg9.N, ¬cond9_1 (grid9.coords t) → cfg9.idle 6 (grid9.coords t) = true := by decide +kernel
theorem noFlush9_6 : ∀ t : Fin cfg9.N, ¬cond9_1 (grid9.coords t) → (cfg9.win 6).flush t = false := by decide +kernel

theorem liveAt9_6 : ∀ t : Fin cfg9.N, cond9_1 (grid9.coords t) → cfg9.idle 6 (grid9.coords t) = false := by decide +kernel

abbrev VO9_6 : View sig .tc .vmem S256x1 .f32 := (Memref.whole cc9_stg6_0 : Memref sig .tc .vmem S256x1 .f32).view
abbrev ms9_0 (t : Fin cfg9.N) : Memref sig .tc .vmem S5000x1 .i32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S5000x64 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S64x64 .bf16 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S64 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S64x1 .bf16 := win9_4.stage (cfg9.slots t 4)
abbrev hs9_4 (t : Fin cfg9.N) : (ms9_4 t).IsWhole := hstage9_4 ((cfg9.slots t 4).cast nbuf9_4)
abbrev ms9_5 (t : Fin cfg9.N) : Memref sig .tc .vmem S1 .f32 := win9_5.stage (cfg9.slots t 5)
abbrev hs9_5 (t : Fin cfg9.N) : (ms9_5 t).IsWhole := hstage9_5 ((cfg9.slots t 5).cast nbuf9_5)
abbrev ms9_6 (t : Fin cfg9.N) : Memref sig .tc .vmem S256x1 .f32 := win9_6.stage (cfg9.slots t 6)
abbrev hs9_6 (t : Fin cfg9.N) : (ms9_6 t).IsWhole := hstage9_6 ((cfg9.slots t 6).cast nbuf9_6)

abbrev scM9_0 : Memref sig .tc .vmem S256x64 .f32 := Memref.whole cc9_scratch0
abbrev VS9_0 : View sig .tc .vmem S256x64 .f32 := scM9_0.view

theorem PhiA9_eq (c : Dev nD) :
    (Pipeline.ΦA spec9 c : sProp 𝕄)
      = iprop(iprop((∃ d, owns (c : Thread nD τ) scM9_0 fullShare d)
          ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [scM9_0, owns_whole]; try rfl

section
variable (c : Dev nD) (i : grid9.Coords) (arg1 : Memref sig .tc .vmem S5000x1 .i32) (harg1 : arg1.IsWhole) (arg2 : Memref sig .tc .vmem S5000x64 .f32) (harg2 : arg2.IsWhole) (arg3 : Memref sig .tc .vmem S64x64 .bf16) (harg3 : arg3.IsWhole) (arg4 : Memref sig .tc .vmem S64 .f32) (harg4 : arg4.IsWhole) (arg5 : Memref sig .tc .vmem S64x1 .bf16) (harg5 : arg5.IsWhole) (arg6 : Memref sig .tc .vmem S1 .f32) (harg6 : arg6.IsWhole) (arg7 : Memref sig .tc .vmem S256x1 .f32) (harg7 : arg7.IsWhole) (arg8 : Memref sig .tc .vmem S256x64 .f32) (harg8 : arg8.IsWhole)
include c i arg1 harg1 arg2 harg2 arg3 harg3 arg4 harg4 arg5 harg5 arg6 harg6 arg7 harg7 arg8 harg8

set_option maxHeartbeats 2000000 in

noncomputable def kernelRun9_A (hc0 : cond9_0 i) (hc1 : ¬cond9_1 i)
    (x0 : Vec F S5000x1 .i32) (x1 : Vec F S5000x64 .f32) (x2 : Vec F S64x64 .bf16) (x3 : Vec F S64 .f32) (x4 : Vec F S64x1 .bf16) (x5 : Vec F S1 .f32) :
    Σ' (L6 : List (View.Piece (Elt F) S256x1 .f32)), { LS0 : List (View.Piece (Elt F) S256x64 .f32) //
      ∀ (xi6 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc9_pool_mlp_kernel i arg1 harg1 arg2 harg2 arg3 harg3 arg4 harg4 arg5 harg5 arg6 harg6 arg7 harg7 arg8 harg8) K } := by
  refine ⟨[], ?_, fun xi6 E K => ?run⟩
  case run =>
    simp only [cc9_pool_mlp_kernel_eq_skeleton]; unfold cc9_pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

set_option maxHeartbeats 2000000 in

noncomputable def kernelRun9_B (hc0 : ¬cond9_0 i) (hc1 : ¬cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) :
    Σ' (L6 : List (View.Piece (Elt F) S256x1 .f32)), { LS0 : List (View.Piece (Elt F) S256x64 .f32) //
      ∀ (xi6 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc9_pool_mlp_kernel i arg1 harg1 arg2 harg2 arg3 harg3 arg4 harg4 arg5 harg5 arg6 harg6 arg7 harg7 arg8 harg8) K } := by
  refine ⟨[], ?_, fun xi6 E K => ?run⟩
  case run =>
    simp only [cc9_pool_mlp_kernel_eq_skeleton]; unfold cc9_pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact HS0

set_option maxHeartbeats 2000000 in

noncomputable def kernelRun9_C (hc0 : ¬cond9_0 i) (hc1 : cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) :
    Σ' (L6 : List (View.Piece (Elt F) S256x1 .f32)), { LS0 : List (View.Piece (Elt F) S256x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc9_pool_mlp_kernel i arg1 harg1 arg2 harg2 arg3 harg3 arg4 harg4 arg5 harg5 arg6 harg6 arg7 harg7 arg8 harg8) K } := by
  refine ⟨?_, ?_, fun E K => ?run⟩
  case run =>
    simp only [cc9_pool_mlp_kernel_eq_skeleton]; unfold cc9_pool_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end

end Cert.Kernel.Hand

end
-- ==== Proof.K.R9.lean ====
import proofs.«407044_j9311489098471_2_alg».proof.Proof.K.R9Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem r9_zero_ne_nine : ¬((0 : ℕ) = 9) := by decide

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

section
variable (c : Dev nD) (i : grid9.Coords) (arg1 : Memref sig .tc .vmem S5000x1 .i32) (harg1 : arg1.IsWhole) (arg2 : Memref sig .tc .vmem S5000x64 .f32) (harg2 : arg2.IsWhole) (arg3 : Memref sig .tc .vmem S64x64 .bf16) (harg3 : arg3.IsWhole) (arg4 : Memref sig .tc .vmem S64 .f32) (harg4 : arg4.IsWhole) (arg5 : Memref sig .tc .vmem S64x1 .bf16) (harg5 : arg5.IsWhole) (arg6 : Memref sig .tc .vmem S1 .f32) (harg6 : arg6.IsWhole) (arg7 : Memref sig .tc .vmem S256x1 .f32) (harg7 : arg7.IsWhole) (arg8 : Memref sig .tc .vmem S256x64 .f32) (harg8 : arg8.IsWhole)
include c i arg1 harg1 arg2 harg2 arg3 harg3 arg4 harg4 arg5 harg5 arg6 harg6 arg7 harg7 arg8 harg8

def out9_A_6 (hc0 : cond9_0 i) (hc1 : ¬cond9_1 i)
    (x0 : Vec F S5000x1 .i32) (x1 : Vec F S5000x64 .f32) (x2 : Vec F S64x64 .bf16) (x3 : Vec F S64 .f32) (x4 : Vec F S64x1 .bf16) (x5 : Vec F S1 .f32) : Vec F S256x1 .f32 :=
  VO9_6.read (Elt F) (VO9_6.writes (Elt F) VO9_6.junk (kernelRun9_A c i arg1 harg1 arg2 harg2 arg3 harg3 arg4 harg4 arg5 harg5 arg6 harg6 arg7 harg7 arg8 harg8 hc0 hc1 x0 x1 x2 x3 x4 x5).1)

theorem scover9_A_0 (hc0 : cond9_0 i) (hc1 : ¬cond9_1 i)
    (x0 : Vec F S5000x1 .i32) (x1 : Vec F S5000x64 .f32) (x2 : Vec F S64x64 .bf16) (x3 : Vec F S64 .f32) (x4 : Vec F S64x1 .bf16) (x5 : Vec F S1 .f32) (y : S256x64.Idx) :
    ∃ pc ∈ (kernelRun9_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun9_A c i arg1 harg1 arg2 harg2 arg3 harg3 arg4 harg4 arg5 harg5 arg6 harg6 arg7 harg7 arg8 harg8 hc0 hc1 x0 x1 x2 x3 x4 x5).2.1 S256x64.size (by sl_kernel_rfl) y

def sout9_A_0 (hc0 : cond9_0 i) (hc1 : ¬cond9_1 i)
    (x0 : Vec F S5000x1 .i32) (x1 : Vec F S5000x64 .f32) (x2 : Vec F S64x64 .bf16) (x3 : Vec F S64 .f32) (x4 : Vec F S64x1 .bf16) (x5 : Vec F S1 .f32) : Vec F S256x64 .f32 :=
  VS9_0.read (Elt F) (VS9_0.writes (Elt F) VS9_0.junk (kernelRun9_A c i arg1 harg1 arg2 harg2 arg3 harg3 arg4 harg4 arg5 harg5 arg6 harg6 arg7 harg7 arg8 harg8 hc0 hc1 x0 x1 x2 x3 x4 x5).2.1)

def out9_B_6 (hc0 : ¬cond9_0 i) (hc1 : ¬cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) : Vec F S256x1 .f32 :=
  VO9_6.read (Elt F) (VO9_6.writes (Elt F) VO9_6.junk (kernelRun9_B c i arg1 harg1 arg2 harg2 arg3 harg3 arg4 harg4 arg5 harg5 arg6 harg6 arg7 harg7 arg8 harg8 hc0 hc1 x0 x1 x2 x3 x4 x5 xs0).1)

theorem scover9_B_0 (hc0 : ¬cond9_0 i) (hc1 : ¬cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) (y : S256x64.Idx) :
    ∃ pc ∈ (kernelRun9_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun9_B c i arg1 harg1 arg2 harg2 arg3 harg3 arg4 harg4 arg5 harg5 arg6 harg6 arg7 harg7 arg8 harg8 hc0 hc1 x0 x1 x2 x3 x4 x5 xs0).2.1 S256x64.size (by sl_kernel_rfl) y

def sout9_B_0 (hc0 : ¬cond9_0 i) (hc1 : ¬cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) : Vec F S256x64 .f32 :=
  VS9_0.read (Elt F) (VS9_0.writes (Elt F) VS9_0.junk (kernelRun9_B c i arg1 harg1 arg2 harg2 arg3 harg3 arg4 harg4 arg5 harg5 arg6 harg6 arg7 harg7 arg8 harg8 hc0 hc1 x0 x1 x2 x3 x4 x5 xs0).2.1)

theorem cover9_C_6 (hc0 : ¬cond9_0 i) (hc1 : cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) (y : S256x1.Idx) :
    ∃ pc ∈ (kernelRun9_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun9_C c i arg1 harg1 arg2 harg2 arg3 harg3 arg4 harg4 arg5 harg5 arg6 harg6 arg7 harg7 arg8 harg8 hc0 hc1 x0 x1 x2 x3 x4 x5 xs0).1 S256x1.size (by sl_kernel_rfl) y

def out9_C_6 (hc0 : ¬cond9_0 i) (hc1 : cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) : Vec F S256x1 .f32 :=
  VO9_6.read (Elt F) (VO9_6.writes (Elt F) VO9_6.junk (kernelRun9_C c i arg1 harg1 arg2 harg2 arg3 harg3 arg4 harg4 arg5 harg5 arg6 harg6 arg7 harg7 arg8 harg8 hc0 hc1 x0 x1 x2 x3 x4 x5 xs0).1)

theorem scover9_C_0 (hc0 : ¬cond9_0 i) (hc1 : cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) (y : S256x64.Idx) :
    ∃ pc ∈ (kernelRun9_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun9_C c i arg1 harg1 arg2 harg2 arg3 harg3 arg4 harg4 arg5 harg5 arg6 harg6 arg7 harg7 arg8 harg8 hc0 hc1 x0 x1 x2 x3 x4 x5 xs0).2.1 S256x64.size (by sl_kernel_rfl) y

def sout9_C_0 (hc0 : ¬cond9_0 i) (hc1 : cond9_1 i)
    (x0 : Vec F S5000x1 .i32) (x1 : Vec F S5000x64 .f32) (x2 : Vec F S64x64 .bf16) (x3 : Vec F S64 .f32) (x4 : Vec F S64x1 .bf16) (x5 : Vec F S1 .f32) (xs0 : Vec F S256x64 .f32) : Vec F S256x64 .f32 :=
  VS9_0.read (Elt F) (VS9_0.writes (Elt F) VS9_0.junk (kernelRun9_C c i arg1 harg1 arg2 harg2 arg3 harg3 arg4 harg4 arg5 harg5 arg6 harg6 arg7 harg7 arg8 harg8 hc0 hc1 x0 x1 x2 x3 x4 x5 xs0).2.1)

end

def outsAt9 (c : Dev nD) : (n : ℕ) → n < cfg9.N → Vec F S256x1 .f32 × Vec F S256x64 .f32
  | 0, hn => (out9_A_6 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) (ms9_6 ⟨0, hn⟩) (hs9_6 ⟨0, hn⟩) scM9_0 (Memref.isWhole_whole _) ((hcond9_0 ⟨0, hn⟩).mpr rfl) (fun h => absurd ((hcond9_1 ⟨0, hn⟩).mp h) r9_zero_ne_nine) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩), sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) (ms9_6 ⟨0, hn⟩) (hs9_6 ⟨0, hn⟩) scM9_0 (Memref.isWhole_whole _) ((hcond9_0 ⟨0, hn⟩).mpr rfl) (fun h => absurd ((hcond9_1 ⟨0, hn⟩).mp h) r9_zero_ne_nine) (iblk9 V c 0 ⟨0, hn⟩) (iblk9 V c 1 ⟨0, hn⟩) (iblk9 V c 2 ⟨0, hn⟩) (iblk9 V c 3 ⟨0, hn⟩) (iblk9 V c 4 ⟨0, hn⟩) (iblk9 V c 5 ⟨0, hn⟩))
  | n + 1, hn =>
    if h1 : n + 1 = 9 then
      (out9_C_6 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) (fun h => absurd ((hcond9_0 ⟨n + 1, hn⟩).mp h) (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (outsAt9 c n (Nat.lt_of_succ_lt hn)).2, sout9_C_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) (fun h => absurd ((hcond9_0 ⟨n + 1, hn⟩).mp h) (Nat.succ_ne_zero n)) ((hcond9_1 ⟨n + 1, hn⟩).mpr h1) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (outsAt9 c n (Nat.lt_of_succ_lt hn)).2)
    else
      (out9_B_6 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) (fun h => absurd ((hcond9_0 ⟨n + 1, hn⟩).mp h) (Nat.succ_ne_zero n)) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (outsAt9 c n (Nat.lt_of_succ_lt hn)).2, sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) (ms9_6 ⟨n + 1, hn⟩) (hs9_6 ⟨n + 1, hn⟩) scM9_0 (Memref.isWhole_whole _) (fun h => absurd ((hcond9_0 ⟨n + 1, hn⟩).mp h) (Nat.succ_ne_zero n)) (fun h => h1 ((hcond9_1 ⟨n + 1, hn⟩).mp h)) (iblk9 V c 0 ⟨n + 1, hn⟩) (iblk9 V c 1 ⟨n + 1, hn⟩) (iblk9 V c 2 ⟨n + 1, hn⟩) (iblk9 V c 3 ⟨n + 1, hn⟩) (iblk9 V c 4 ⟨n + 1, hn⟩) (iblk9 V c 5 ⟨n + 1, hn⟩) (outsAt9 c n (Nat.lt_of_succ_lt hn)).2)

theorem outsAt9_A (c : Dev nD) (t : Fin cfg9.N) (h0 : t.val = 0) (h1 : ¬t.val = 9) :
    outsAt9 V c t.val t.isLt = (out9_A_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) ((hcond9_0 t).mpr h0) (fun h => h1 ((hcond9_1 t).mp h)) (iblk9 V c 0 t) (iblk9 V c 1 t) (iblk9 V c 2 t) (iblk9 V c 3 t) (iblk9 V c 4 t) (iblk9 V c 5 t), sout9_A_0 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) ((hcond9_0 t).mpr h0) (fun h => h1 ((hcond9_1 t).mp h)) (iblk9 V c 0 t) (iblk9 V c 1 t) (iblk9 V c 2 t) (iblk9 V c 3 t) (iblk9 V c 4 t) (iblk9 V c 5 t)) := by
  obtain ⟨n, hn⟩ := t
  cases n with
  | zero => exact rfl
  | succ n => exact absurd h0 (Nat.succ_ne_zero n)

theorem outsAt9_B (c : Dev nD) (t : Fin cfg9.N) (h0 : ¬t.val = 0) (h1 : ¬t.val = 9) :
    outsAt9 V c t.val t.isLt = (out9_B_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) (fun h => h0 ((hcond9_0 t).mp h)) (fun h => h1 ((hcond9_1 t).mp h)) (iblk9 V c 0 t) (iblk9 V c 1 t) (iblk9 V c 2 t) (iblk9 V c 3 t) (iblk9 V c 4 t) (iblk9 V c 5 t) (outsAt9 V c (t.val - 1) (Nat.lt_of_le_of_lt (Nat.sub_le _ _) t.isLt)).2, sout9_B_0 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) (fun h => h0 ((hcond9_0 t).mp h)) (fun h => h1 ((hcond9_1 t).mp h)) (iblk9 V c 0 t) (iblk9 V c 1 t) (iblk9 V c 2 t) (iblk9 V c 3 t) (iblk9 V c 4 t) (iblk9 V c 5 t) (outsAt9 V c (t.val - 1) (Nat.lt_of_le_of_lt (Nat.sub_le _ _) t.isLt)).2) := by
  obtain ⟨n, hn⟩ := t
  cases n with
  | zero => exact absurd rfl h0
  | succ n => exact (dif_neg h1).trans rfl

theorem outsAt9_C (c : Dev nD) (t : Fin cfg9.N) (h0 : ¬t.val = 0) (h1 : t.val = 9) :
    outsAt9 V c t.val t.isLt = (out9_C_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) (fun h => h0 ((hcond9_0 t).mp h)) ((hcond9_1 t).mpr h1) (iblk9 V c 0 t) (iblk9 V c 1 t) (iblk9 V c 2 t) (iblk9 V c 3 t) (iblk9 V c 4 t) (iblk9 V c 5 t) (outsAt9 V c (t.val - 1) (Nat.lt_of_le_of_lt (Nat.sub_le _ _) t.isLt)).2, sout9_C_0 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) scM9_0 (Memref.isWhole_whole _) (fun h => h0 ((hcond9_0 t).mp h)) ((hcond9_1 t).mpr h1) (iblk9 V c 0 t) (iblk9 V c 1 t) (iblk9 V c 2 t) (iblk9 V c 3 t) (iblk9 V c 4 t) (iblk9 V c 5 t) (outsAt9 V c (t.val - 1) (Nat.lt_of_le_of_lt (Nat.sub_le _ _) t.isLt)).2) := by
  obtain ⟨n, hn⟩ := t
  cases n with
  | zero => exact absurd rfl h0
  | succ n => exact (dif_pos h1).trans rfl

def PhiS9 (c : Dev nD) : (n : ℕ) → n ≤ cfg9.N → sProp 𝕄
  | 0, _ => Pipeline.ΦA spec9 c
  | n + 1, hn => iprop(iprop(owns (c : Thread nD τ) scM9_0 fullShare ((outsAt9 V c n hn).2)
      ∗ Pipeline.scopedRestBut (Ix := Unit) (Name := ℕ) (U := UR sig nD τ) (Lvl := ℕ) (Val := Elt F) spec9 c [cc9_scratch0]) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(owns (c : Thread nD τ) scM9_0 fullShare ((outsAt9 V c n hn).2)
      ∗ Pipeline.scopedRestBut (Ix := Unit) (Name := ℕ) (U := UR sig nD τ) (Lvl := ℕ) (Val := Elt F) spec9 c [cc9_scratch0]) ∗ (∃ r, prngReg c r)) := rfl

theorem PhiS9_pos (c : Dev nD) (n : ℕ) (h : n ≤ cfg9.N) (hz : n ≠ 0) :
    PhiS9 V c n h = iprop(iprop(owns (c : Thread nD τ) scM9_0 fullShare ((outsAt9 V c (n - 1) (by omega)).2)
      ∗ Pipeline.scopedRestBut (Ix := Unit) (Name := ℕ) (U := UR sig nD τ) (Lvl := ℕ) (Val := Elt F) spec9 c [cc9_scratch0]) ∗ (∃ r, prngReg c r)) := by
  cases n with
  | zero => exact absurd rfl hz
  | succ n => rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = (outsAt9 V c t.val t.isLt).1 := by dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl
theorem before9_2 (c : Dev nD) (t : Fin cfg9.N) (d) : (dat9 V c).before 2 t d = iblk9 V c 2 t :=
  ((dat9 V c).before_in_eq_fetched 2 rfl (fun _ => rfl) (fun _ _ _ => rfl) (fun _ => rfl) t d).trans rfl
theorem before9_3 (c : Dev nD) (t : Fin cfg9.N) (d) : (dat9 V c).before 3 t d = iblk9 V c 3 t :=
  ((dat9 V c).before_in_eq_fetched 3 rfl (fun _ => rfl) (fun _ _ _ => rfl) (fun _ => rfl) t d).trans rfl
theorem before9_4 (c : Dev nD) (t : Fin cfg9.N) (d) : (dat9 V c).before 4 t d = iblk9 V c 4 t :=
  ((dat9 V c).before_in_eq_fetched 4 rfl (fun _ => rfl) (fun _ _ _ => rfl) (fun _ => rfl) t d).trans rfl
theorem before9_5 (c : Dev nD) (t : Fin cfg9.N) (d) : (dat9 V c).before 5 t d = iblk9 V c 5 t :=
  ((dat9 V c).before_in_eq_fetched 5 rfl (fun _ => rfl) (fun _ _ _ => rfl) (fun _ => rfl) t d).trans rfl

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d))
    ∗ (∃ d, owns (c : Thread nD τ) (ms9_5 t) fullShare ((dat9 V c).before 5 t d))
    ∗ (∃ d, owns (c : Thread nD τ) (ms9_6 t) fullShare ((dat9 V c).before 6 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t
    ∗ (dat9 V c).leavesExact 5 t
    ∗ (dat9 V c).leavesExact 6 t)

set_option maxHeartbeats 4800000 in

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).owesAt () t.succ = (dat9 V c).owesAt () t.castSucc from rfl]
  rw [show (dat9 V c).Φ t.succ = PhiS9 V c (t.val + 1) t.isLt from rfl, PhiS9_succ]
  have hN : t.val < 10 := lt_of_lt_of_eq t.isLt (show cfg9.N = 10 from N_9)
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [show (dat9 V c).leavesExact 2 t = owns (c : Thread nD τ) (ms9_2 t) fullShare ((dat9 V c).after 2 t) from by
    unfold Dat.leavesExact; rw [liveAt9_2 t], after9_2]
  rw [show (dat9 V c).leavesExact 3 t = owns (c : Thread nD τ) (ms9_3 t) fullShare ((dat9 V c).after 3 t) from by
    unfold Dat.leavesExact; rw [liveAt9_3 t], after9_3]
  rw [show (dat9 V c).leavesExact 4 t = owns (c : Thread nD τ) (ms9_4 t) fullShare ((dat9 V c).after 4 t) from by
    unfold Dat.leavesExact; rw [liveAt9_4 t], after9_4]
  rw [show (dat9 V c).leavesExact 5 t = owns (c : Thread nD τ) (ms9_5 t) fullShare ((dat9 V c).after 5 t) from by
    unfold Dat.leavesExact; rw [liveAt9_5 t], after9_5]
  by_cases h0 : t.val = 0
  · have h1 : ¬t.val = 9 := by omega
    rw [Dat.leavesExact_idle (dat9 V c) 6 t (idleAt9_6 t (fun h => h1 ((hcond9_1 t).mp h))) (noFlush9_6 t (fun h => h1 ((hcond9_1 t).mp h)))]
    rw [outsAt9_A V c t h0 h1]
    unfold sout9_A_0; (try dsimp only)
    rw [PhiS9_castSucc V c t, PhiS9_zero V c _ _ h0, PhiA9_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun9_A c (grid9.coords t) _ _ _ _ _ _ _ _ _ _ _ _ _ _ _ _ ((hcond9_0 t).mpr h0) (fun h => h1 ((hcond9_1 t).mp h)) (iblk9 V c 0 t) (iblk9 V c 1 t) (iblk9 V c 2 t) (iblk9 V c 3 t) (iblk9 V c 4 t) (iblk9 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover9_A_0 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val = 9
    · rw [show (dat9 V c).leavesExact 6 t = owns (c : Thread nD τ) (ms9_6 t) fullShare ((dat9 V c).after 6 t) from by
        unfold Dat.leavesExact; rw [liveAt9_6 t ((hcond9_1 t).mpr h1)], after9_6]
      rw [outsAt9_C V c t h0 h1]
      unfold out9_C_6 sout9_C_0; (try dsimp only)
      rw [PhiS9_castSucc V c t, PhiS9_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun9_C c (grid9.coords t) _ _ _ _ _ _ _ _ _ _ _ _ _ _ _ _ (fun h => h0 ((hcond9_0 t).mp h)) ((hcond9_1 t).mpr h1) (iblk9 V c 0 t) (iblk9 V c 1 t) (iblk9 V c 2 t) (iblk9 V c 3 t) (iblk9 V c 4 t) (iblk9 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_C_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover9_C_6 c _ _ _ _ _ _ _ _ _ _ _ _ _ _ _ _ _ _ _ _ _ _ _ _ _ _)
    · rw [Dat.leavesExact_idle (dat9 V c) 6 t (idleAt9_6 t (fun h => h1 ((hcond9_1 t).mp h))) (noFlush9_6 t (fun h => h1 ((hcond9_1 t).mp h)))]
      rw [outsAt9_B V c t h0 h1]
      unfold sout9_B_0; (try dsimp only)
      rw [PhiS9_castSucc V c t, PhiS9_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun9_B c (grid9.coords t) _ _ _ _ _ _ _ _ _ _ _ _ _ _ _ _ (fun h => h0 ((hcond9_0 t).mp h)) (fun h => h1 ((hcond9_1 t).mp h)) (iblk9 V c 0 t) (iblk9 V c 1 t) (iblk9 V c 2 t) (iblk9 V c 3 t) (iblk9 V c 4 t) (iblk9 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover9_B_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation9 (c : Dev nD) : BodyObligation (dat9 (F := F) V c) (defs₀ (F := F)) Variants.none () Set.univ := fun t => by
  rw [bigSep_W9, bigSep_W9]
  exact sound_body9 V c t

theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

theorem hout9 (c : Dev nD) : (dat9 V c).Φ (Fin.last cfg9.N) ⊢ Pipeline.ΦA spec9 c := by
  have ht : (Fin.last cfg9.N).val ≠ 0 := by rw [Fin.val_last]; have : cfg9.N = 10 := N_9; omega
  rw [show (dat9 V c).Φ (Fin.last cfg9.N) = PhiS9 V c (Fin.last cfg9.N).val (Nat.le_of_lt_succ (Fin.last cfg9.N).isLt) from rfl,
    PhiS9_pos V c _ _ ht, PhiA9_eq]
  iintro ⟨⟨HS0, HR⟩, Hg⟩
  isplitl [HS0 HR]
  · isplitl [HS0]
    · iexists _; iexact HS0
    iexact HR
  iexact Hg

end Cert.Kernel.Hand

end
-- ==== Proof.K.RegOf.lean ====
import proofs.«407044_j9311489098471_2_alg».proof.Proof.Gen.Kernel.Launch
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev adm : (p : Fin 10) → (pcfgs (F := F) p).Adm := fun p => (cfgs p).toPCfg_adm
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev PDats (F : FTy → Type) [FloatOps F] : Type _ :=
  (p : Fin 10) → (c : Dev nD) → Dat τ (Elt F) Unit ℕ (UR sig nD τ) ℕ (Pipeline.pin (pcfgs (F := F)) adm p) c

set_option backward.isDefEq.respectTransparency.types false in

def regOf (pdats : PDats F) (p : Fin 10) (lf : Pipeline.LaunchFacts (nD := nD) (τ := τ) cfgs p)
    (W W' : Dev nD → Valuation τ sig (Elt F))
    (hbody : ∀ c, BodyObligation (pdats p c) (defs₀ (F := F)) Variants.none () Set.univ)
    (hq : ∀ c w, (pdats p c).q w = fullShare) (howed : ∀ c t, (pdats p c).owed t = 0)
    (hrec : ∀ c t, (pdats p c).recorded t = Set.univ)
    (hA : ∀ c w, (pdats p c).A w = W c (Pipeline.arrRef (cfgs p).spec w))
    (hin : ∀ c, Pipeline.ΦA (cfgs p).spec c ⊢ (pdats p c).Φ 0)
    (hout : ∀ c, (pdats p c).Φ (Fin.last (cfgs p).N) ⊢ Pipeline.ΦA (cfgs p).spec c)
    (hF : ∀ c w, (pdats p c).arrAt w (cfgs p).N = W' c (Pipeline.arrRef (cfgs p).spec w))
    (hrest : ∀ c, ∀ b : Ref sig .tc, b ∉ Finset.univ.image (Pipeline.arrRef (cfgs p).spec) → W' c b = W c b) :
    Pipeline.RegionSeg (pcfgs (F := F)) adm pdats () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    rw [Pipeline.ownSems0_none]
    have hsplit := Pipeline.arrays_of_unscopedBufs (p := p) (pcfgs (F := F)) adm pdats lf.win lf.arr_whole c
      ((pdats p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W0, HO⟩; iexists W0; isplitr; · ipureintro; exact fun _ _ => Or.inl (by rw [hrec c]; trivial)
      rw [howed c]; iexact HO
    isplitl [Hp]; · iexact Hp
    iexact Hrest
  hin c := by
    refine BIBase.Entails.trans ?_ (hin c); unfold Pipeline.ΦA
    iintro ⟨Hp, -, Hr⟩
    isplitl [Hr]; · iexact Hr
    iexact Hp
  hout c := by
    rw [Pipeline.ownSems0_none]
    refine (hout c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (hq c))
      (fun b => W c b) (fun b => W' c b) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W0, -, HO⟩; iexists W0; rw [howed c]; iexact HO

end Cert.Kernel.Hand

end
-- ==== Proof.K.Shares.lean ====
import proofs.«407044_j9311489098471_2_alg».proof.Proof.K.R0
import proofs.«407044_j9311489098471_2_alg».proof.Proof.K.R1
import proofs.«407044_j9311489098471_2_alg».proof.Proof.K.R2
import proofs.«407044_j9311489098471_2_alg».proof.Proof.K.R3
import proofs.«407044_j9311489098471_2_alg».proof.Proof.K.R4
import proofs.«407044_j9311489098471_2_alg».proof.Proof.K.R5
import proofs.«407044_j9311489098471_2_alg».proof.Proof.K.R6
import proofs.«407044_j9311489098471_2_alg».proof.Proof.K.R7
import proofs.«407044_j9311489098471_2_alg».proof.Proof.K.R8
import proofs.«407044_j9311489098471_2_alg».proof.Proof.K.R9
import proofs.«407044_j9311489098471_2_alg».proof.Proof.K.RegOf
noncomputable section
namespace Cert.Kernel.Hand
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
variable (V : (c : Dev nD) → (b : Ref sig .tc) → Buf (Elt F) ((c : Thread nD τ).loc b))

theorem hq0 (c : Dev nD) (w : Fin cfg0.W) : (dat0 V c).q w = fullShare := rfl
theorem howed0 (c : Dev nD) (t : Fin (cfg0.N + 1)) : (dat0 V c).owed t = 0 := rfl
theorem hrec0 (c : Dev nD) (t : Fin (cfg0.N + 1)) : (dat0 V c).recorded t = Set.univ := rfl

theorem hq1 (c : Dev nD) (w : Fin cfg1.W) : (dat1 V c).q w = fullShare := rfl
theorem howed1 (c : Dev nD) (t : Fin (cfg1.N + 1)) : (dat1 V c).owed t = 0 := rfl
theorem hrec1 (c : Dev nD) (t : Fin (cfg1.N + 1)) : (dat1 V c).recorded t = Set.univ := rfl

theorem hq2 (c : Dev nD) (w : Fin cfg2.W) : (dat2 V c).q w = fullShare := rfl
theorem howed2 (c : Dev nD) (t : Fin (cfg2.N + 1)) : (dat2 V c).owed t = 0 := rfl
theorem hrec2 (c : Dev nD) (t : Fin (cfg2.N + 1)) : (dat2 V c).recorded t = Set.univ := rfl

theorem hq3 (c : Dev nD) (w : Fin cfg3.W) : (dat3 V c).q w = fullShare := rfl
theorem howed3 (c : Dev nD) (t : Fin (cfg3.N + 1)) : (dat3 V c).owed t = 0 := rfl
theorem hrec3 (c : Dev nD) (t : Fin (cfg3.N + 1)) : (dat3 V c).recorded t = Set.univ := rfl

theorem hq4 (c : Dev nD) (w : Fin cfg4.W) : (dat4 V c).q w = fullShare := rfl
theorem howed4 (c : Dev nD) (t : Fin (cfg4.N + 1)) : (dat4 V c).owed t = 0 := rfl
theorem hrec4 (c : Dev nD) (t : Fin (cfg4.N + 1)) : (dat4 V c).recorded t = Set.univ := rfl

theorem hq5 (c : Dev nD) (w : Fin cfg5.W) : (dat5 V c).q w = fullShare := rfl
theorem howed5 (c : Dev nD) (t : Fin (cfg5.N + 1)) : (dat5 V c).owed t = 0 := rfl
theorem hrec5 (c : Dev nD) (t : Fin (cfg5.N + 1)) : (dat5 V c).recorded t = Set.univ := rfl

theorem hq6 (c : Dev nD) (w : Fin cfg6.W) : (dat6 V c).q w = fullShare := rfl
theorem howed6 (c : Dev nD) (t : Fin (cfg6.N + 1)) : (dat6 V c).owed t = 0 := rfl
theorem hrec6 (c : Dev nD) (t : Fin (cfg6.N + 1)) : (dat6 V c).recorded t = Set.univ := rfl

theorem hq7 (c : Dev nD) (w : Fin cfg7.W) : (dat7 V c).q w = fullShare := rfl
theorem howed7 (c : Dev nD) (t : Fin (cfg7.N + 1)) : (dat7 V c).owed t = 0 := rfl
theorem hrec7 (c : Dev nD) (t : Fin (cfg7.N + 1)) : (dat7 V c).recorded t = Set.univ := rfl

theorem hq8 (c : Dev nD) (w : Fin cfg8.W) : (dat8 V c).q w = fullShare := rfl
theorem howed8 (c : Dev nD) (t : Fin (cfg8.N + 1)) : (dat8 V c).owed t = 0 := rfl
theorem hrec8 (c : Dev nD) (t : Fin (cfg8.N + 1)) : (dat8 V c).recorded t = Set.univ := rfl

theorem hq9 (c : Dev nD) (w : Fin cfg9.W) : (dat9 V c).q w = fullShare := rfl
theorem howed9 (c : Dev nD) (t : Fin (cfg9.N + 1)) : (dat9 V c).owed t = 0 := rfl
theorem hrec9 (c : Dev nD) (t : Fin (cfg9.N + 1)) : (dat9 V c).recorded t = Set.univ := rfl

end Cert.Kernel.Hand
end
-- ==== Proof.K.Launch.lean ====
import proofs.«407044_j9311489098471_2_alg».proof.Proof.K.Shares
import proofs.«407044_j9311489098471_2_alg».proof.Proof.Gen.Kernel.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Vof (W : Dev nD → Valuation τ sig (Elt F)) : (c : Dev nD) → (b : Ref sig .tc) → Buf (Elt F) ((c : Thread nD τ).loc b) := fun c b => W c b

abbrev W0 : Dev nD → Valuation τ sig (Elt F) := fun c b => m ((c : Dev nD), b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)

abbrev W4 : Dev nD → Valuation τ sig (Elt F) := fun c => StableHlo.after hostOps0_3 (W3 m c)

abbrev W5 : Dev nD → Valuation τ sig (Elt F) := fun c => StableHlo.after hostOps0_4 (W4 m c)

def W6 (c : Dev nD) : Valuation τ sig (Elt F) :=
  Pipeline.withArrays spec0 c (W5 m c) fun w => (dat0 (Vof (W5 m)) c).arrAt w cfg0.N

def W7 (c : Dev nD) : Valuation τ sig (Elt F) :=
  Pipeline.withArrays spec1 c (W6 m c) fun w => (dat1 (Vof (W6 m)) c).arrAt w cfg1.N

abbrev W8 : Dev nD → Valuation τ sig (Elt F) := fun c => StableHlo.after hostOps2 (W7 m c)

def W9 (c : Dev nD) : Valuation τ sig (Elt F) :=
  Pipeline.withArrays spec2 c (W8 m c) fun w => (dat2 (Vof (W8 m)) c).arrAt w cfg2.N

abbrev W10 : Dev nD → Valuation τ sig (Elt F) := fun c => StableHlo.after hostOps3 (W9 m c)

abbrev W11 : Dev nD → Valuation τ sig (Elt F) := fun c => StableHlo.after hostOps3_1 (W10 m c)

abbrev W12 : Dev nD → Valuation τ sig (Elt F) := fun c => StableHlo.after hostOps3_2 (W11 m c)

abbrev W13 : Dev nD → Valuation τ sig (Elt F) := fun c => StableHlo.after hostOps3_3 (W12 m c)

abbrev W14 : Dev nD → Valuation τ sig (Elt F) := fun c => StableHlo.after hostOps3_4 (W13 m c)

def W15 (c : Dev nD) : Valuation τ sig (Elt F) :=
  Pipeline.withArrays spec3 c (W14 m c) fun w => (dat3 (Vof (W14 m)) c).arrAt w cfg3.N

def W16 (c : Dev nD) : Valuation τ sig (Elt F) :=
  Pipeline.withArrays spec4 c (W15 m c) fun w => (dat4 (Vof (W15 m)) c).arrAt w cfg4.N

abbrev W17 : Dev nD → Valuation τ sig (Elt F) := fun c => StableHlo.after hostOps5 (W16 m c)

def W18 (c : Dev nD) : Valuation τ sig (Elt F) :=
  Pipeline.withArrays spec5 c (W17 m c) fun w => (dat5 (Vof (W17 m)) c).arrAt w cfg5.N

abbrev W19 : Dev nD → Valuation τ sig (Elt F) := fun c => StableHlo.after hostOps6 (W18 m c)

abbrev W20 : Dev nD → Valuation τ sig (Elt F) := fun c => StableHlo.after hostOps6_1 (W19 m c)

abbrev W21 : Dev nD → Valuation τ sig (Elt F) := fun c => StableHlo.after hostOps6_2 (W20 m c)

abbrev W22 : Dev nD → Valuation τ sig (Elt F) := fun c => StableHlo.after hostOps6_3 (W21 m c)

abbrev W23 : Dev nD → Valuation τ sig (Elt F) := fun c => StableHlo.after hostOps6_4 (W22 m c)

def W24 (c : Dev nD) : Valuation τ sig (Elt F) :=
  Pipeline.withArrays spec6 c (W23 m c) fun w => (dat6 (Vof (W23 m)) c).arrAt w cfg6.N

def W25 (c : Dev nD) : Valuation τ sig (Elt F) :=
  Pipeline.withArrays spec7 c (W24 m c) fun w => (dat7 (Vof (W24 m)) c).arrAt w cfg7.N

abbrev W26 : Dev nD → Valuation τ sig (Elt F) := fun c => StableHlo.after hostOps8 (W25 m c)

def W27 (c : Dev nD) : Valuation τ sig (Elt F) :=
  Pipeline.withArrays spec8 c (W26 m c) fun w => (dat8 (Vof (W26 m)) c).arrAt w cfg8.N

abbrev W28 : Dev nD → Valuation τ sig (Elt F) := fun c => StableHlo.after hostOps9 (W27 m c)

def W29 (c : Dev nD) : Valuation τ sig (Elt F) :=
  Pipeline.withArrays spec9 c (W28 m c) fun w => (dat9 (Vof (W28 m)) c).arrAt w cfg9.N

abbrev W30 : Dev nD → Valuation τ sig (Elt F) := fun c => StableHlo.after hostOps10 (W29 m c)

theorem keep0 (c : Dev nD) (b : Ref sig .tc) (hb : b ∉ hostOps0_W) : W1 m c (Proc.devRef .tc b) = W0 m c (Proc.devRef .tc b) :=
  StableHlo.after_of_writes_sub hostOps0 _ hostOps0_writes hb
theorem keep1 (c : Dev nD) (b : Ref sig .tc) (hb : b ∉ hostOps0_1_W) : W2 m c (Proc.devRef .tc b) = W1 m c (Proc.devRef .tc b) :=
  StableHlo.after_of_writes_sub hostOps0_1 _ hostOps0_1_writes hb
theorem keep2 (c : Dev nD) (b : Ref sig .tc) (hb : b ∉ hostOps0_2_W) : W3 m c (Proc.devRef .tc b) = W2 m c (Proc.devRef .tc b) :=
  StableHlo.after_of_writes_sub hostOps0_2 _ hostOps0_2_writes hb
theorem keep3 (c : Dev nD) (b : Ref sig .tc) (hb : b ∉ hostOps0_3_W) : W4 m c (Proc.devRef .tc b) = W3 m c (Proc.devRef .tc b) :=
  StableHlo.after_of_writes_sub hostOps0_3 _ hostOps0_3_writes hb
theorem keep4 (c : Dev nD) (b : Ref sig .tc) (hb : b ∉ hostOps0_4_W) : W5 m c (Proc.devRef .tc b) = W4 m c (Proc.devRef .tc b) :=
  StableHlo.after_of_writes_sub hostOps0_4 _ hostOps0_4_writes hb
theorem W6_arr (c : Dev nD) (w : Fin cfg0.W) :
    W6 m c (Proc.devRef .tc (Pipeline.arrRef spec0 w)) = (dat0 (Vof (W5 m)) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
theorem keep5 (c : Dev nD) (b : Ref sig .tc) (hb : b ∉ ([main_v19] : List (Ref sig .tc))) : W6 m c (Proc.devRef .tc b) = W5 m c (Proc.devRef .tc b) := by
  by_cases h : ∃ w, Pipeline.arrRef spec0 w = b
  · obtain ⟨w, rfl⟩ := h
    match w with
    | ⟨0, _⟩ | ⟨1, _⟩ | ⟨2, _⟩ | ⟨3, _⟩ | ⟨4, _⟩ => exact ((W6_arr m c _).trans ((dat0 (Vof (W5 m)) c).arrAt_in _ rfl _)).trans (A_eq0 (Vof (W5 m)) c _)
    | ⟨5, _⟩ => exact absurd (by first | exact List.Mem.head _ | exact List.Mem.tail _ (List.Mem.head _)) hb
    | ⟨_ + 6, h⟩ => exact absurd h (Nat.not_lt.2 (Nat.le_add_left _ _))
  · exact W6_of_ne m c b fun w e => h ⟨w, e⟩
theorem W7_arr (c : Dev nD) (w : Fin cfg1.W) :
    W7 m c (Proc.devRef .tc (Pipeline.arrRef spec1 w)) = (dat1 (Vof (W6 m)) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem keep6 (c : Dev nD) (b : Ref sig .tc) (hb : b ∉ ([main_v20_0, main_v20_1] : List (Ref sig .tc))) : W7 m c (Proc.devRef .tc b) = W6 m c (Proc.devRef .tc b) := by
  by_cases h : ∃ w, Pipeline.arrRef spec1 w = b
  · obtain ⟨w, rfl⟩ := h
    match w with
    | ⟨0, _⟩ => exact ((W7_arr m c _).trans ((dat1 (Vof (W6 m)) c).arrAt_in _ rfl _)).trans (A_eq1 (Vof (W6 m)) c _)
    | ⟨1, _⟩ | ⟨2, _⟩ => exact absurd (by first | exact List.Mem.head _ | exact List.Mem.tail _ (List.Mem.head _)) hb
    | ⟨_ + 3, h⟩ => exact absurd h (Nat.not_lt.2 (Nat.le_add_left _ _))
  · exact W7_of_ne m c b fun w e => h ⟨w, e⟩
theorem keep7 (c : Dev nD) (b : Ref sig .tc) (hb : b ∉ hostOps2_W) : W8 m c (Proc.devRef .tc b) = W7 m c (Proc.devRef .tc b) :=
  StableHlo.after_of_writes_sub hostOps2 _ hostOps2_writes hb
theorem W9_arr (c : Dev nD) (w : Fin cfg2.W) :
    W9 m c (Proc.devRef .tc (Pipeline.arrRef spec2 w)) = (dat2 (Vof (W8 m)) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
theorem keep8 (c : Dev nD) (b : Ref sig .tc) (hb : b ∉ ([main_v27] : List (Ref sig .tc))) : W9 m c (Proc.devRef .tc b) = W8 m c (Proc.devRef .tc b) := by
  by_cases h : ∃ w, Pipeline.arrRef spec2 w = b
  · obtain ⟨w, rfl⟩ := h
    match w with
    | ⟨0, _⟩ | ⟨1, _⟩ | ⟨2, _⟩ | ⟨3, _⟩ | ⟨4, _⟩ => exact ((W9_arr m c _).trans ((dat2 (Vof (W8 m)) c).arrAt_in _ rfl _)).trans (A_eq2 (Vof (W8 m)) c _)
    | ⟨5, _⟩ => exact absurd (by first | exact List.Mem.head _ | exact List.Mem.tail _ (List.Mem.head _)) hb
    | ⟨_ + 6, h⟩ => exact absurd h (Nat.not_lt.2 (Nat.le_add_left _ _))
  · exact W9_of_ne m c b fun w e => h ⟨w, e⟩
theorem keep9 (c : Dev nD) (b : Ref sig .tc) (hb : b ∉ hostOps3_W) : W10 m c (Proc.devRef .tc b) = W9 m c (Proc.devRef .tc b) :=
  StableHlo.after_of_writes_sub hostOps3 _ hostOps3_writes hb
theorem keep10 (c : Dev nD) (b : Ref sig .tc) (hb : b ∉ hostOps3_1_W) : W11 m c (Proc.devRef .tc b) = W10 m c (Proc.devRef .tc b) :=
  StableHlo.after_of_writes_sub hostOps3_1 _ hostOps3_1_writes hb
theorem keep11 (c : Dev nD) (b : Ref sig .tc) (hb : b ∉ hostOps3_2_W) : W12 m c (Proc.devRef .tc b) = W11 m c (Proc.devRef .tc b) :=
  StableHlo.after_of_writes_sub hostOps3_2 _ hostOps3_2_writes hb
theorem keep12 (c : Dev nD) (b : Ref sig .tc) (hb : b ∉ hostOps3_3_W) : W13 m c (Proc.devRef .tc b) = W12 m c (Proc.devRef .tc b) :=
  StableHlo.after_of_writes_sub hostOps3_3 _ hostOps3_3_writes hb
theorem keep13 (c : Dev nD) (b : Ref sig .tc) (hb : b ∉ hostOps3_4_W) : W14 m c (Proc.devRef .tc b) = W13 m c (Proc.devRef .tc b) :=
  StableHlo.after_of_writes_sub hostOps3_4 _ hostOps3_4_writes hb
theorem W15_arr (c : Dev nD) (w : Fin cfg3.W) :
    W15 m c (Proc.devRef .tc (Pipeline.arrRef spec3 w)) = (dat3 (Vof (W14 m)) c).arrAt w cfg3.N := by
  unfold W15; exact Pipeline.withArrays_arr spec3 launch3.win.arr_inj c _ _ w
theorem W15_of_ne (c : Dev nD) (b : Ref sig .tc) (hb : ∀ w, Pipeline.arrRef spec3 w ≠ b) :
    W15 m c (Proc.devRef .tc b) = W14 m c (Proc.devRef .tc b) := by
  unfold W15; exact Pipeline.withArrays_of_ne spec3 c _ _ b hb
theorem keep14 (c : Dev nD) (b : Ref sig .tc) (hb : b ∉ ([main_v43] : List (Ref sig .tc))) : W15 m c (Proc.devRef .tc b) = W14 m c (Proc.devRef .tc b) := by
  by_cases h : ∃ w, Pipeline.arrRef spec3 w = b
  · obtain ⟨w, rfl⟩ := h
    match w with
    | ⟨0, _⟩ | ⟨1, _⟩ | ⟨2, _⟩ | ⟨3, _⟩ | ⟨4, _⟩ => exact ((W15_arr m c _).trans ((dat3 (Vof (W14 m)) c).arrAt_in _ rfl _)).trans (A_eq3 (Vof (W14 m)) c _)
    | ⟨5, _⟩ => exact absurd (by first | exact List.Mem.head _ | exact List.Mem.tail _ (List.Mem.head _)) hb
    | ⟨_ + 6, h⟩ => exact absurd h (Nat.not_lt.2 (Nat.le_add_left _ _))
  · exact W15_of_ne m c b fun w e => h ⟨w, e⟩
theorem W16_arr (c : Dev nD) (w : Fin cfg4.W) :
    W16 m c (Proc.devRef .tc (Pipeline.arrRef spec4 w)) = (dat4 (Vof (W15 m)) c).arrAt w cfg4.N := by
  unfold W16; exact Pipeline.withArrays_arr spec4 launch4.win.arr_inj c _ _ w
theorem W16_of_ne (c : Dev nD) (b : Ref sig .tc) (hb : ∀ w, Pipeline.arrRef spec4 w ≠ b) :
    W16 m c (Proc.devRef .tc b) = W15 m c (Proc.devRef .tc b) := by
  unfold W16; exact Pipeline.withArrays_of_ne spec4 c _ _ b hb
theorem keep15 (c : Dev nD) (b : Ref sig .tc) (hb : b ∉ ([main_v44_0, main_v44_1] : List (Ref sig .tc))) : W16 m c (Proc.devRef .tc b) = W15 m c (Proc.devRef .tc b) := by
  by_cases h : ∃ w, Pipeline.arrRef spec4 w = b
  · obtain ⟨w, rfl⟩ := h
    match w with
    | ⟨0, _⟩ => exact ((W16_arr m c _).trans ((dat4 (Vof (W15 m)) c).arrAt_in _ rfl _)).trans (A_eq4 (Vof (W15 m)) c _)
    | ⟨1, _⟩ | ⟨2, _⟩ => exact absurd (by first | exact List.Mem.head _ | exact List.Mem.tail _ (List.Mem.head _)) hb
    | ⟨_ + 3, h⟩ => exact absurd h (Nat.not_lt.2 (Nat.le_add_left _ _))
  · exact W16_of_ne m c b fun w e => h ⟨w, e⟩
theorem keep16 (c : Dev nD) (b : Ref sig .tc) (hb : b ∉ hostOps5_W) : W17 m c (Proc.devRef .tc b) = W16 m c (Proc.devRef .tc b) :=
  StableHlo.after_of_writes_sub hostOps5 _ hostOps5_writes hb
theorem W18_arr (c : Dev nD) (w : Fin cfg5.W) :
    W18 m c (Proc.devRef .tc (Pipeline.arrRef spec5 w)) = (dat5 (Vof (W17 m)) c).arrAt w cfg5.N := by
  unfold W18; exact Pipeline.withArrays_arr spec5 launch5.win.arr_inj c _ _ w
theorem W18_of_ne (c : Dev nD) (b : Ref sig .tc) (hb : ∀ w, Pipeline.arrRef spec5 w ≠ b) :
    W18 m c (Proc.devRef .tc b) = W17 m c (Proc.devRef .tc b) := by
  unfold W18; exact Pipeline.withArrays_of_ne spec5 c _ _ b hb
theorem keep17 (c : Dev nD) (b : Ref sig .tc) (hb : b ∉ ([main_v51] : List (Ref sig .tc))) : W18 m c (Proc.devRef .tc b) = W17 m c (Proc.devRef .tc b) := by
  by_cases h : ∃ w, Pipeline.arrRef spec5 w = b
  · obtain ⟨w, rfl⟩ := h
    match w with
    | ⟨0, _⟩ | ⟨1, _⟩ | ⟨2, _⟩ | ⟨3, _⟩ | ⟨4, _⟩ => exact ((W18_arr m c _).trans ((dat5 (Vof (W17 m)) c).arrAt_in _ rfl _)).trans (A_eq5 (Vof (W17 m)) c _)
    | ⟨5, _⟩ => exact absurd (by first | exact List.Mem.head _ | exact List.Mem.tail _ (List.Mem.head _)) hb
    | ⟨_ + 6, h⟩ => exact absurd h (Nat.not_lt.2 (Nat.le_add_left _ _))
  · exact W18_of_ne m c b fun w e => h ⟨w, e⟩
theorem keep18 (c : Dev nD) (b : Ref sig .tc) (hb : b ∉ hostOps6_W) : W19 m c (Proc.devRef .tc b) = W18 m c (Proc.devRef .tc b) :=
  StableHlo.after_of_writes_sub hostOps6 _ hostOps6_writes hb
theorem keep19 (c : Dev nD) (b : Ref sig .tc) (hb : b ∉ hostOps6_1_W) : W20 m c (Proc.devRef .tc b) = W19 m c (Proc.devRef .tc b) :=
  StableHlo.after_of_writes_sub hostOps6_1 _ hostOps6_1_writes hb
theorem keep20 (c : Dev nD) (b : Ref sig .tc) (hb : b ∉ hostOps6_2_W) : W21 m c (Proc.devRef .tc b) = W20 m c (Proc.devRef .tc b) :=
  StableHlo.after_of_writes_sub hostOps6_2 _ hostOps6_2_writes hb
theorem keep21 (c : Dev nD) (b : Ref sig .tc) (hb : b ∉ hostOps6_3_W) : W22 m c (Proc.devRef .tc b) = W21 m c (Proc.devRef .tc b) :=
  StableHlo.after_of_writes_sub hostOps6_3 _ hostOps6_3_writes hb
theorem keep22 (c : Dev nD) (b : Ref sig .tc) (hb : b ∉ hostOps6_4_W) : W23 m c (Proc.devRef .tc b) = W22 m c (Proc.devRef .tc b) :=
  StableHlo.after_of_writes_sub hostOps6_4 _ hostOps6_4_writes hb
theorem W24_arr (c : Dev nD) (w : Fin cfg6.W) :
    W24 m c (Proc.devRef .tc (Pipeline.arrRef spec6 w)) = (dat6 (Vof (W23 m)) c).arrAt w cfg6.N := by
  unfold W24; exact Pipeline.withArrays_arr spec6 launch6.win.arr_inj c _ _ w
theorem W24_of_ne (c : Dev nD) (b : Ref sig .tc) (hb : ∀ w, Pipeline.arrRef spec6 w ≠ b) :
    W24 m c (Proc.devRef .tc b) = W23 m c (Proc.devRef .tc b) := by
  unfold W24; exact Pipeline.withArrays_of_ne spec6 c _ _ b hb
theorem keep23 (c : Dev nD) (b : Ref sig .tc) (hb : b ∉ ([main_v67] : List (Ref sig .tc))) : W24 m c (Proc.devRef .tc b) = W23 m c (Proc.devRef .tc b) := by
  by_cases h : ∃ w, Pipeline.arrRef spec6 w = b
  · obtain ⟨w, rfl⟩ := h
    match w with
    | ⟨0, _⟩ | ⟨1, _⟩ | ⟨2, _⟩ | ⟨3, _⟩ | ⟨4, _⟩ => exact ((W24_arr m c _).trans ((dat6 (Vof (W23 m)) c).arrAt_in _ rfl _)).trans (A_eq6 (Vof (W23 m)) c _)
    | ⟨5, _⟩ => exact absurd (by first | exact List.Mem.head _ | exact List.Mem.tail _ (List.Mem.head _)) hb
    | ⟨_ + 6, h⟩ => exact absurd h (Nat.not_lt.2 (Nat.le_add_left _ _))
  · exact W24_of_ne m c b fun w e => h ⟨w, e⟩
theorem W25_arr (c : Dev nD) (w : Fin cfg7.W) :
    W25 m c (Proc.devRef .tc (Pipeline.arrRef spec7 w)) = (dat7 (Vof (W24 m)) c).arrAt w cfg7.N := by
  unfold W25; exact Pipeline.withArrays_arr spec7 launch7.win.arr_inj c _ _ w
theorem W25_of_ne (c : Dev nD) (b : Ref sig .tc) (hb : ∀ w, Pipeline.arrRef spec7 w ≠ b) :
    W25 m c (Proc.devRef .tc b) = W24 m c (Proc.devRef .tc b) := by
  unfold W25; exact Pipeline.withArrays_of_ne spec7 c _ _ b hb
theorem keep24 (c : Dev nD) (b : Ref sig .tc) (hb : b ∉ ([main_v68_0, main_v68_1] : List (Ref sig .tc))) : W25 m c (Proc.devRef .tc b) = W24 m c (Proc.devRef .tc b) := by
  by_cases h : ∃ w, Pipeline.arrRef spec7 w = b
  · obtain ⟨w, rfl⟩ := h
    match w with
    | ⟨0, _⟩ => exact ((W25_arr m c _).trans ((dat7 (Vof (W24 m)) c).arrAt_in _ rfl _)).trans (A_eq7 (Vof (W24 m)) c _)
    | ⟨1, _⟩ | ⟨2, _⟩ => exact absurd (by first | exact List.Mem.head _ | exact List.Mem.tail _ (List.Mem.head _)) hb
    | ⟨_ + 3, h⟩ => exact absurd h (Nat.not_lt.2 (Nat.le_add_left _ _))
  · exact W25_of_ne m c b fun w e => h ⟨w, e⟩
theorem keep25 (c : Dev nD) (b : Ref sig .tc) (hb : b ∉ hostOps8_W) : W26 m c (Proc.devRef .tc b) = W25 m c (Proc.devRef .tc b) :=
  StableHlo.after_of_writes_sub hostOps8 _ hostOps8_writes hb
theorem W27_arr (c : Dev nD) (w : Fin cfg8.W) :
    W27 m c (Proc.devRef .tc (Pipeline.arrRef spec8 w)) = (dat8 (Vof (W26 m)) c).arrAt w cfg8.N := by
  unfold W27; exact Pipeline.withArrays_arr spec8 launch8.win.arr_inj c _ _ w
theorem W27_of_ne (c : Dev nD) (b : Ref sig .tc) (hb : ∀ w, Pipeline.arrRef spec8 w ≠ b) :
    W27 m c (Proc.devRef .tc b) = W26 m c (Proc.devRef .tc b) := by
  unfold W27; exact Pipeline.withArrays_of_ne spec8 c _ _ b hb
theorem keep26 (c : Dev nD) (b : Ref sig .tc) (hb : b ∉ ([main_v75] : List (Ref sig .tc))) : W27 m c (Proc.devRef .tc b) = W26 m c (Proc.devRef .tc b) := by
  by_cases h : ∃ w, Pipeline.arrRef spec8 w = b
  · obtain ⟨w, rfl⟩ := h
    match w with
    | ⟨0, _⟩ | ⟨1, _⟩ | ⟨2, _⟩ | ⟨3, _⟩ | ⟨4, _⟩ => exact ((W27_arr m c _).trans ((dat8 (Vof (W26 m)) c).arrAt_in _ rfl _)).trans (A_eq8 (Vof (W26 m)) c _)
    | ⟨5, _⟩ => exact absurd (by first | exact List.Mem.head _ | exact List.Mem.tail _ (List.Mem.head _)) hb
    | ⟨_ + 6, h⟩ => exact absurd h (Nat.not_lt.2 (Nat.le_add_left _ _))
  · exact W27_of_ne m c b fun w e => h ⟨w, e⟩
theorem keep27 (c : Dev nD) (b : Ref sig .tc) (hb : b ∉ hostOps9_W) : W28 m c (Proc.devRef .tc b) = W27 m c (Proc.devRef .tc b) :=
  StableHlo.after_of_writes_sub hostOps9 _ hostOps9_writes hb
theorem W29_arr (c : Dev nD) (w : Fin cfg9.W) :
    W29 m c (Proc.devRef .tc (Pipeline.arrRef spec9 w)) = (dat9 (Vof (W28 m)) c).arrAt w cfg9.N := by
  unfold W29; exact Pipeline.withArrays_arr spec9 launch9.win.arr_inj c _ _ w
theorem W29_of_ne (c : Dev nD) (b : Ref sig .tc) (hb : ∀ w, Pipeline.arrRef spec9 w ≠ b) :
    W29 m c (Proc.devRef .tc b) = W28 m c (Proc.devRef .tc b) := by
  unfold W29; exact Pipeline.withArrays_of_ne spec9 c _ _ b hb
theorem keep28 (c : Dev nD) (b : Ref sig .tc) (hb : b ∉ ([main_v79] : List (Ref sig .tc))) : W29 m c (Proc.devRef .tc b) = W28 m c (Proc.devRef .tc b) := by
  by_cases h : ∃ w, Pipeline.arrRef spec9 w = b
  · obtain ⟨w, rfl⟩ := h
    match w with
    | ⟨0, _⟩ | ⟨1, _⟩ | ⟨2, _⟩ | ⟨3, _⟩ | ⟨4, _⟩ | ⟨5, _⟩ => exact ((W29_arr m c _).trans ((dat9 (Vof (W28 m)) c).arrAt_in _ rfl _)).trans (A_eq9 (Vof (W28 m)) c _)
    | ⟨6, _⟩ => exact absurd (by first | exact List.Mem.head _ | exact List.Mem.tail _ (List.Mem.head _)) hb
    | ⟨_ + 7, h⟩ => exact absurd h (Nat.not_lt.2 (Nat.le_add_left _ _))
  · exact W29_of_ne m c b fun w e => h ⟨w, e⟩
theorem keep29 (c : Dev nD) (b : Ref sig .tc) (hb : b ∉ hostOps10_W) : W30 m c (Proc.devRef .tc b) = W29 m c (Proc.devRef .tc b) :=
  StableHlo.after_of_writes_sub hostOps10 _ hostOps10_writes hb

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]
-- No host stretch and no launch writes an argument array, so each holds its launch contents at the last boundary.
theorem args_kept0 : ∀ b ∈ argRefs, b ∉ hostOps0_W ∧ b ∉ hostOps0_1_W ∧ b ∉ hostOps0_2_W ∧ b ∉ hostOps0_3_W ∧ b ∉ hostOps0_4_W ∧ b ∉ ([main_v19] : List (Ref sig .tc)) ∧ b ∉ ([main_v20_0, main_v20_1] : List (Ref sig .tc)) ∧ b ∉ hostOps2_W ∧ b ∉ ([main_v27] : List (Ref sig .tc)) ∧ b ∉ hostOps3_W := by decide
theorem args_kept1 : ∀ b ∈ argRefs, b ∉ hostOps3_1_W ∧ b ∉ hostOps3_2_W ∧ b ∉ hostOps3_3_W ∧ b ∉ hostOps3_4_W ∧ b ∉ ([main_v43] : List (Ref sig .tc)) ∧ b ∉ ([main_v44_0, main_v44_1] : List (Ref sig .tc)) ∧ b ∉ hostOps5_W ∧ b ∉ ([main_v51] : List (Ref sig .tc)) ∧ b ∉ hostOps6_W ∧ b ∉ hostOps6_1_W := by decide
theorem args_kept2 : ∀ b ∈ argRefs, b ∉ hostOps6_2_W ∧ b ∉ hostOps6_3_W ∧ b ∉ hostOps6_4_W ∧ b ∉ ([main_v67] : List (Ref sig .tc)) ∧ b ∉ ([main_v68_0, main_v68_1] : List (Ref sig .tc)) ∧ b ∉ hostOps8_W ∧ b ∉ ([main_v75] : List (Ref sig .tc)) ∧ b ∉ hostOps9_W ∧ b ∉ ([main_v79] : List (Ref sig .tc)) ∧ b ∉ hostOps10_W := by decide
theorem W30_arg (c : Dev nD) (b : Ref sig .tc) (hb : b ∈ argRefs) : W30 m c (Proc.devRef .tc b) = m ((c : Thread nD τ).loc b) := by
  obtain ⟨h0, h1, h2, h3, h4, h5, h6, h7, h8, h9⟩ := args_kept0 b hb
  obtain ⟨h10, h11, h12, h13, h14, h15, h16, h17, h18, h19⟩ := args_kept1 b hb
  obtain ⟨h20, h21, h22, h23, h24, h25, h26, h27, h28, h29⟩ := args_kept2 b hb
  exact (keep29 m c b h29).trans <| (keep28 m c b h28).trans <| (keep27 m c b h27).trans <| (keep26 m c b h26).trans <| (keep25 m c b h25).trans <| (keep24 m c b h24).trans <| (keep23 m c b h23).trans <| (keep22 m c b h22).trans <| (keep21 m c b h21).trans <| (keep20 m c b h20).trans <| (keep19 m c b h19).trans <| (keep18 m c b h18).trans <| (keep17 m c b h17).trans <| (keep16 m c b h16).trans <| (keep15 m c b h15).trans <| (keep14 m c b h14).trans <| (keep13 m c b h13).trans <| (keep12 m c b h12).trans <| (keep11 m c b h11).trans <| (keep10 m c b h10).trans <| (keep9 m c b h9).trans <| (keep8 m c b h8).trans <| (keep7 m c b h7).trans <| (keep6 m c b h6).trans <| (keep5 m c b h5).trans <| (keep4 m c b h4).trans <| (keep3 m c b h3).trans <| (keep2 m c b h2).trans <| (keep1 m c b h1).trans <| (keep0 m c b h0)

def pdats : PDats F
  | ⟨0, _⟩ => fun c => dat0 (Vof (W5 m)) c
  | ⟨1, _⟩ => fun c => dat1 (Vof (W6 m)) c
  | ⟨2, _⟩ => fun c => dat2 (Vof (W8 m)) c
  | ⟨3, _⟩ => fun c => dat3 (Vof (W14 m)) c
  | ⟨4, _⟩ => fun c => dat4 (Vof (W15 m)) c
  | ⟨5, _⟩ => fun c => dat5 (Vof (W17 m)) c
  | ⟨6, _⟩ => fun c => dat6 (Vof (W23 m)) c
  | ⟨7, _⟩ => fun c => dat7 (Vof (W24 m)) c
  | ⟨8, _⟩ => fun c => dat8 (Vof (W26 m)) c
  | ⟨9, _⟩ => fun c => dat9 (Vof (W28 m)) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in

def reg0 : Pipeline.RegionSeg (pcfgs (F := F)) adm (pdats m) () defs₀ 𝒱₀ L lv 0 :=
  regOf (pdats m) 0 launch0 (W5 m) (W6 m)
    (fun c => body_obligation0 (Vof (W5 m)) c) (fun c w => hq0 (Vof (W5 m)) c w) (fun c t => howed0 (Vof (W5 m)) c t) (fun c t => hrec0 (Vof (W5 m)) c t)
    (fun c w => A_eq0 (Vof (W5 m)) c w) (fun c => hin0 (Vof (W5 m)) c) (fun c => hout0 (Vof (W5 m)) c)
    (fun c w => (W6_arr m c w).symm)
    (fun c b hb => W6_of_ne m c b fun w e => hb (Finset.mem_image.mpr ⟨w, Finset.mem_univ _, e⟩))

set_option backward.isDefEq.respectTransparency.types false in

def reg1 : Pipeline.RegionSeg (pcfgs (F := F)) adm (pdats m) () defs₀ 𝒱₀ L lv 1 :=
  regOf (pdats m) 1 launch1 (W6 m) (W7 m)
    (fun c => body_obligation1 (Vof (W6 m)) c) (fun c w => hq1 (Vof (W6 m)) c w) (fun c t => howed1 (Vof (W6 m)) c t) (fun c t => hrec1 (Vof (W6 m)) c t)
    (fun c w => A_eq1 (Vof (W6 m)) c w) (fun c => hin1 (Vof (W6 m)) c) (fun c => hout1 (Vof (W6 m)) c)
    (fun c w => (W7_arr m c w).symm)
    (fun c b hb => W7_of_ne m c b fun w e => hb (Finset.mem_image.mpr ⟨w, Finset.mem_univ _, e⟩))

set_option backward.isDefEq.respectTransparency.types false in

def reg2 : Pipeline.RegionSeg (pcfgs (F := F)) adm (pdats m) () defs₀ 𝒱₀ L lv 2 :=
  regOf (pdats m) 2 launch2 (W8 m) (W9 m)
    (fun c => body_obligation2 (Vof (W8 m)) c) (fun c w => hq2 (Vof (W8 m)) c w) (fun c t => howed2 (Vof (W8 m)) c t) (fun c t => hrec2 (Vof (W8 m)) c t)
    (fun c w => A_eq2 (Vof (W8 m)) c w) (fun c => hin2 (Vof (W8 m)) c) (fun c => hout2 (Vof (W8 m)) c)
    (fun c w => (W9_arr m c w).symm)
    (fun c b hb => W9_of_ne m c b fun w e => hb (Finset.mem_image.mpr ⟨w, Finset.mem_univ _, e⟩))

set_option backward.isDefEq.respectTransparency.types false in

def reg3 : Pipeline.RegionSeg (pcfgs (F := F)) adm (pdats m) () defs₀ 𝒱₀ L lv 3 :=
  regOf (pdats m) 3 launch3 (W14 m) (W15 m)
    (fun c => body_obligation3 (Vof (W14 m)) c) (fun c w => hq3 (Vof (W14 m)) c w) (fun c t => howed3 (Vof (W14 m)) c t) (fun c t => hrec3 (Vof (W14 m)) c t)
    (fun c w => A_eq3 (Vof (W14 m)) c w) (fun c => hin3 (Vof (W14 m)) c) (fun c => hout3 (Vof (W14 m)) c)
    (fun c w => (W15_arr m c w).symm)
    (fun c b hb => W15_of_ne m c b fun w e => hb (Finset.mem_image.mpr ⟨w, Finset.mem_univ _, e⟩))

set_option backward.isDefEq.respectTransparency.types false in

def reg4 : Pipeline.RegionSeg (pcfgs (F := F)) adm (pdats m) () defs₀ 𝒱₀ L lv 4 :=
  regOf (pdats m) 4 launch4 (W15 m) (W16 m)
    (fun c => body_obligation4 (Vof (W15 m)) c) (fun c w => hq4 (Vof (W15 m)) c w) (fun c t => howed4 (Vof (W15 m)) c t) (fun c t => hrec4 (Vof (W15 m)) c t)
    (fun c w => A_eq4 (Vof (W15 m)) c w) (fun c => hin4 (Vof (W15 m)) c) (fun c => hout4 (Vof (W15 m)) c)
    (fun c w => (W16_arr m c w).symm)
    (fun c b hb => W16_of_ne m c b fun w e => hb (Finset.mem_image.mpr ⟨w, Finset.mem_univ _, e⟩))

set_option backward.isDefEq.respectTransparency.types false in

def reg5 : Pipeline.RegionSeg (pcfgs (F := F)) adm (pdats m) () defs₀ 𝒱₀ L lv 5 :=
  regOf (pdats m) 5 launch5 (W17 m) (W18 m)
    (fun c => body_obligation5 (Vof (W17 m)) c) (fun c w => hq5 (Vof (W17 m)) c w) (fun c t => howed5 (Vof (W17 m)) c t) (fun c t => hrec5 (Vof (W17 m)) c t)
    (fun c w => A_eq5 (Vof (W17 m)) c w) (fun c => hin5 (Vof (W17 m)) c) (fun c => hout5 (Vof (W17 m)) c)
    (fun c w => (W18_arr m c w).symm)
    (fun c b hb => W18_of_ne m c b fun w e => hb (Finset.mem_image.mpr ⟨w, Finset.mem_univ _, e⟩))

set_option backward.isDefEq.respectTransparency.types false in

def reg6 : Pipeline.RegionSeg (pcfgs (F := F)) adm (pdats m) () defs₀ 𝒱₀ L lv 6 :=
  regOf (pdats m) 6 launch6 (W23 m) (W24 m)
    (fun c => body_obligation6 (Vof (W23 m)) c) (fun c w => hq6 (Vof (W23 m)) c w) (fun c t => howed6 (Vof (W23 m)) c t) (fun c t => hrec6 (Vof (W23 m)) c t)
    (fun c w => A_eq6 (Vof (W23 m)) c w) (fun c => hin6 (Vof (W23 m)) c) (fun c => hout6 (Vof (W23 m)) c)
    (fun c w => (W24_arr m c w).symm)
    (fun c b hb => W24_of_ne m c b fun w e => hb (Finset.mem_image.mpr ⟨w, Finset.mem_univ _, e⟩))

set_option backward.isDefEq.respectTransparency.types false in

def reg7 : Pipeline.RegionSeg (pcfgs (F := F)) adm (pdats m) () defs₀ 𝒱₀ L lv 7 :=
  regOf (pdats m) 7 launch7 (W24 m) (W25 m)
    (fun c => body_obligation7 (Vof (W24 m)) c) (fun c w => hq7 (Vof (W24 m)) c w) (fun c t => howed7 (Vof (W24 m)) c t) (fun c t => hrec7 (Vof (W24 m)) c t)
    (fun c w => A_eq7 (Vof (W24 m)) c w) (fun c => hin7 (Vof (W24 m)) c) (fun c => hout7 (Vof (W24 m)) c)
    (fun c w => (W25_arr m c w).symm)
    (fun c b hb => W25_of_ne m c b fun w e => hb (Finset.mem_image.mpr ⟨w, Finset.mem_univ _, e⟩))

set_option backward.isDefEq.respectTransparency.types false in

def reg8 : Pipeline.RegionSeg (pcfgs (F := F)) adm (pdats m) () defs₀ 𝒱₀ L lv 8 :=
  regOf (pdats m) 8 launch8 (W26 m) (W27 m)
    (fun c => body_obligation8 (Vof (W26 m)) c) (fun c w => hq8 (Vof (W26 m)) c w) (fun c t => howed8 (Vof (W26 m)) c t) (fun c t => hrec8 (Vof (W26 m)) c t)
    (fun c w => A_eq8 (Vof (W26 m)) c w) (fun c => hin8 (Vof (W26 m)) c) (fun c => hout8 (Vof (W26 m)) c)
    (fun c w => (W27_arr m c w).symm)
    (fun c b hb => W27_of_ne m c b fun w e => hb (Finset.mem_image.mpr ⟨w, Finset.mem_univ _, e⟩))

set_option backward.isDefEq.respectTransparency.types false in

def reg9 : Pipeline.RegionSeg (pcfgs (F := F)) adm (pdats m) () defs₀ 𝒱₀ L lv 9 :=
  regOf (pdats m) 9 launch9 (W28 m) (W29 m)
    (fun c => body_obligation9 (Vof (W28 m)) c) (fun c w => hq9 (Vof (W28 m)) c w) (fun c t => howed9 (Vof (W28 m)) c t) (fun c t => hrec9 (Vof (W28 m)) c t)
    (fun c w => A_eq9 (Vof (W28 m)) c w) (fun c => hin9 (Vof (W28 m)) c) (fun c => hout9 (Vof (W28 m)) c)
    (fun c w => (W29_arr m c w).symm)
    (fun c b hb => W29_of_ne m c b fun w e => hb (Finset.mem_image.mpr ⟨w, Finset.mem_univ _, e⟩))

abbrev segs : List (Pipeline.Seg (pcfgs (F := F)) adm (pdats m) () defs₀ 𝒱₀ L lv) :=
  [
    .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .region (reg1 m),
    .host (hseg hostOps2 hostOps2_sub hostOps2_fresh (W7 m)),
    .region (reg2 m),
    .host (hseg hostOps3 hostOps3_sub hostOps3_fresh (W9 m)),
    .host (hseg hostOps3_1 hostOps3_1_sub hostOps3_1_fresh (W10 m)),
    .host (hseg hostOps3_2 hostOps3_2_sub hostOps3_2_fresh (W11 m)),
    .host (hseg hostOps3_3 hostOps3_3_sub hostOps3_3_fresh (W12 m)),
    .host (hseg hostOps3_4 hostOps3_4_sub hostOps3_4_fresh (W13 m)),
    .region (reg3 m),
    .region (reg4 m),
    .host (hseg hostOps5 hostOps5_sub hostOps5_fresh (W16 m)),
    .region (reg5 m),
    .host (hseg hostOps6 hostOps6_sub hostOps6_fresh (W18 m)),
    .host (hseg hostOps6_1 hostOps6_1_sub hostOps6_1_fresh (W19 m)),
    .host (hseg hostOps6_2 hostOps6_2_sub hostOps6_2_fresh (W20 m)),
    .host (hseg hostOps6_3 hostOps6_3_sub hostOps6_3_fresh (W21 m)),
    .host (hseg hostOps6_4 hostOps6_4_sub hostOps6_4_fresh (W22 m)),
    .region (reg6 m),
    .region (reg7 m),
    .host (hseg hostOps8 hostOps8_sub hostOps8_fresh (W25 m)),
    .region (reg8 m),
    .host (hseg hostOps9 hostOps9_sub hostOps9_fresh (W27 m)),
    .region (reg9 m),
    .host (hseg hostOps10 hostOps10_sub hostOps10_fresh (W29 m)) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W30 m c) ∗ ∃ r, prngReg c r)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W30 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W30 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W30 m c b)
    (hfin := fun c s' => by
      iintro ⟨⟨Hh, -⟩, HSI⟩
      unfold StableHlo.held
      imodintro
      iapply (pointsTo_read_all (Pipeline.ucRefs τ sig) (fun b => (((c : Thread nD τ)).1, b)) (W30 m c) s')
      isplitl [Hh] <;> iassumption)
    (hQ := fun s h c => h c)

theorem run_main : θ_run defs (onTc (τ := τ) (main (F := F))) ⟨m, fun _ => 0, ρ⟩ (fun r => ∀ c : Dev nD,
      r.2.mem ((c.tc : Thread nD τ).loc main_v80) = W30 m c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨h c _ (mem_uc main_v80 (by decide)),
    (h c _ (mem_uc main_arg0 (by decide))).trans (W30_arg m c main_arg0 (by decide)),
    (h c _ (mem_uc main_arg1 (by decide))).trans (W30_arg m c main_arg1 (by decide)),
    (h c _ (mem_uc main_arg2 (by decide))).trans (W30_arg m c main_arg2 (by decide)),
    (h c _ (mem_uc main_arg3 (by decide))).trans (W30_arg m c main_arg3 (by decide)),
    (h c _ (mem_uc main_arg4 (by decide))).trans (W30_arg m c main_arg4 (by decide)),
    (h c _ (mem_uc main_arg5 (by decide))).trans (W30_arg m c main_arg5 (by decide)),
    (h c _ (mem_uc main_arg6 (by decide))).trans (W30_arg m c main_arg6 (by decide)),
    (h c _ (mem_uc main_arg7 (by decide))).trans (W30_arg m c main_arg7 (by decide)),
    (h c _ (mem_uc main_arg8 (by decide))).trans (W30_arg m c main_arg8 (by decide)),
    (h c _ (mem_uc main_arg9 (by decide))).trans (W30_arg m c main_arg9 (by decide)),
    (h c _ (mem_uc main_arg10 (by decide))).trans (W30_arg m c main_arg10 (by decide)),
    (h c _ (mem_uc main_arg11 (by decide))).trans (W30_arg m c main_arg11 (by decide)),
    (h c _ (mem_uc main_arg12 (by decide))).trans (W30_arg m c main_arg12 (by decide)),
    (h c _ (mem_uc main_arg13 (by decide))).trans (W30_arg m c main_arg13 (by decide)),
    (h c _ (mem_uc main_arg14 (by decide))).trans (W30_arg m c main_arg14 (by decide)),
    (h c _ (mem_uc main_arg15 (by decide))).trans (W30_arg m c main_arg15 (by decide)),
    (h c _ (mem_uc main_arg16 (by decide))).trans (W30_arg m c main_arg16 (by decide)),
    (h c _ (mem_uc main_arg17 (by decide))).trans (W30_arg m c main_arg17 (by decide)),
    (h c _ (mem_uc main_arg18 (by decide))).trans (W30_arg m c main_arg18 (by decide)),
    (h c _ (mem_uc main_arg19 (by decide))).trans (W30_arg m c main_arg19 (by decide))⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => (h c).2) (run_main m ρ)

end Cert.Kernel.Hand

end
-- ==== Proof.Ref.Terms.lean ====
import proofs.«407044_j9311489098471_2_alg».proof.Proof.Gen.ReferenceIdeal
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem

variable {F : FTy → Type} [FloatOps F]

abbrev CT (F : FTy → Type) (s : Shape) (e : EltTy) : Type := (⟨s, e⟩ : BufTy).Contents (Elt F)

def srcW (a1 : CT F S2x800000 .i32) : CT F S800000 .i32 :=
  shapeCast S800000 (extractStridedSlice S1x800000 ![0, 0] a1 slices_S2x800000_S1x800000_0_0) shapeCasts_S1x800000_S800000

def dstW (a1 : CT F S2x800000 .i32) : CT F S800000 .i32 :=
  shapeCast S800000 (extractStridedSlice S1x800000 ![1, 0] a1 slices_S2x800000_S1x800000_1_0) shapeCasts_S1x800000_S800000

def idxOf (s : CT F S800000 .i32) : CT F S800000x1 .i32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

def colOf (d : CT F S800000 .i32) : CT F S800000x1 .i32 :=
  broadcastInDim S800000x1 ![0] bcast_S800000_S800000x1_0 d

def ewOf (a2 : CT F S800000 .f32) : CT F S800000x64 .f32 :=
  broadcastInDim S800000x64 ![0, 1] bcast_S800000x1_S800000x64_0_1 (broadcastInDim S800000x1 ![0] bcast_S800000_S800000x1_0 a2)

def zeroT : CT F S50000x64 .f32 := broadcastInDim S50000x64 ![] bcast_S_S50000x64 (constant S_ .f32 0x00000000#32)

def rowT (v : CT F S64 .f32) : CT F S50000x64 .f32 :=
  broadcastInDim S50000x64 ![0, 1] bcast_S1x64_S50000x64_0_1 (broadcastInDim S1x64 ![1] bcast_S64_S1x64_1 v)

def msgT (s : CT F S800000 .i32) (a2 : CT F S800000 .f32) (h : CT F S50000x64 .f32) : CT F S800000x64 .f32 :=
  mulf (Host.gather gather_S50000x64_S800000x1_S800000x64_1_0_n_n_0_1_164 h (idxOf s)) (ewOf a2)

def aggT (s d : CT F S800000 .i32) (a2 : CT F S800000 .f32) (h : CT F S50000x64 .f32) : CT F S50000x64 .f32 :=
  Host.scatterAdd scatter_S50000x64_S800000x1_S800000x64_1_0_0_1 zeroT (colOf d) (msgT s a2 h)

def preT (s d : CT F S800000 .i32) (a2 : CT F S800000 .f32) (h : CT F S50000x64 .f32)
    (W : CT F S64x64 .f32) (b : CT F S64 .f32) : CT F S50000x64 .f32 :=
  addf (Host.dotGeneral dot_S50000x64_S64x64_S50000x64_1_0_0_1_n_n none (addf h (aggT s d a2 h)) W) (rowT b)

def reluT (y : CT F S50000x64 .f32) : CT F S50000x64 .f32 := maximumf y zeroT

def sumT (y : CT F S50000x64 .f32) : CT F S64 .f32 :=
  Host.reduceAdd y (constant S_ .f32 0x00000000#32) reducesTo_S50000x64_S64_d0 h_S_

def meanT (y : CT F S50000x64 .f32) : CT F S64 .f32 :=
  Host.divf (sumT y) (broadcastInDim S64 ![] bcast_S_S64 (constant S_ .f32 0x47435000#32))

def devT (y : CT F S50000x64 .f32) : CT F S50000x64 .f32 :=
  subf y (broadcastInDim S50000x64 ![0, 1] bcast_S1x64_S50000x64_0_1
    (Host.divf (broadcastInDim S1x64 ![1] bcast_S64_S1x64_1 (sumT y))
      (broadcastInDim S1x64 ![] bcast_S_S1x64 (constant S_ .f32 0x47435000#32))))

def dofT : CT F S_ .f32 :=
  subf (constant S_ .f32 0x47435000#32) (sitofp (F := F) .f32 (constantI S_ 32 0#32))

def varT (y : CT F S50000x64 .f32) : CT F S64 .f32 :=
  select (broadcastInDim S64 ![] bcast_S_S64 (cmpf (F := F) .ogt dofT (constant S_ .f32 0x00000000#32)))
    (Host.divf (Host.reduceAdd (mulf (devT y) (devT y)) (constant S_ .f32 0x00000000#32) reducesTo_S50000x64_S64_d0 h_S_)
      (broadcastInDim S64 ![] bcast_S_S64 dofT))
    (broadcastInDim S64 ![] bcast_S_S64 (id (constant S_ .f32 0x7FC00000#32)))

def normT (y : CT F S50000x64 .f32) (mu va g be : CT F S64 .f32) : CT F S50000x64 .f32 :=
  addf (mulf (mulf (subf y (rowT mu))
    (rowT (Host.rsqrt (addf va (broadcastInDim S64 ![] bcast_S_S64 (constant S_ .f32 0x3727C5AC#32)))))) (rowT g)) (rowT be)

def bnT (y : CT F S50000x64 .f32) (g be : CT F S64 .f32) : CT F S50000x64 .f32 := normT y (meanT y) (varT y) g be

def zeroP : CT F S256x64 .f32 := broadcastInDim S256x64 ![] bcast_S_S256x64 (constant S_ .f32 0x00000000#32)
def reluP (y : CT F S256x64 .f32) : CT F S256x64 .f32 := maximumf y zeroP

def poolT (a3 : CT F S50000 .i32) (h : CT F S50000x64 .f32) : CT F S256x64 .f32 :=
  Host.scatterAdd scatter_S256x64_S50000x1_S50000x64_1_0_0_1 zeroP
    (broadcastInDim S50000x1 ![0] bcast_S50000_S50000x1_0 a3) h

def headT (p : CT F S256x64 .f32) (W1 : CT F S64x64 .f32) (b1 : CT F S64 .f32) (W2 : CT F S64x1 .f32) (b2 : CT F S1 .f32) :
    CT F S256 .f32 :=
  shapeCast S256
    (addf (Host.dotGeneral dot_S256x64_S64x1_S256x1_1_0_0_1_n_n none
        (reluP (addf (Host.dotGeneral dot_S256x64_S64x64_S256x64_1_0_0_1_n_n none (reluP p) W1)
          (broadcastInDim S256x64 ![0, 1] bcast_S1x64_S256x64_0_1 (broadcastInDim S1x64 ![1] bcast_S64_S1x64_1 b1)))) W2)
      (broadcastInDim S256x1 ![0, 1] bcast_S1x1_S256x1_0_1 (broadcastInDim S1x1 ![1] bcast_S1_S1x1_1 b2)))
    shapeCasts_S256x1_S256

def h1T (a0 : CT F S50000x64 .f32) (a1 : CT F S2x800000 .i32) (a2 : CT F S800000 .f32)
    (W1 : CT F S64x64 .f32) (b1 g1 be1 : CT F S64 .f32) : CT F S50000x64 .f32 :=
  bnT (reluT (preT (srcW a1) (dstW a1) a2 a0 W1 b1)) g1 be1

def h2T (a0 : CT F S50000x64 .f32) (a1 : CT F S2x800000 .i32) (a2 : CT F S800000 .f32)
    (W1 : CT F S64x64 .f32) (b1 g1 be1 : CT F S64 .f32) (W2 : CT F S64x64 .f32) (b2 g2 be2 : CT F S64 .f32) :
    CT F S50000x64 .f32 :=
  bnT (reluT (preT (srcW a1) (dstW a1) a2 (h1T a0 a1 a2 W1 b1 g1 be1) W2 b2)) g2 be2

def h3T (a0 : CT F S50000x64 .f32) (a1 : CT F S2x800000 .i32) (a2 : CT F S800000 .f32)
    (W1 : CT F S64x64 .f32) (b1 g1 be1 : CT F S64 .f32) (W2 : CT F S64x64 .f32) (b2 g2 be2 : CT F S64 .f32)
    (W3 : CT F S64x64 .f32) (b3 g3 be3 : CT F S64 .f32) : CT F S50000x64 .f32 :=
  bnT (preT (srcW a1) (dstW a1) a2 (h2T a0 a1 a2 W1 b1 g1 be1 W2 b2 g2 be2) W3 b3) g3 be3

def resT (a0 : CT F S50000x64 .f32) (a1 : CT F S2x800000 .i32) (a2 : CT F S800000 .f32) (a3 : CT F S50000 .i32)
    (W1 : CT F S64x64 .f32) (b1 : CT F S64 .f32) (W2 : CT F S64x64 .f32) (b2 : CT F S64 .f32)
    (W3 : CT F S64x64 .f32) (b3 : CT F S64 .f32) (fW1 : CT F S64x64 .f32) (fb1 : CT F S64 .f32)
    (fW2 : CT F S64x1 .f32) (fb2 : CT F S1 .f32) (g1 be1 g2 be2 g3 be3 : CT F S64 .f32) : CT F S256 .f32 :=
  headT (poolT a3 (h3T a0 a1 a2 W1 b1 g1 be1 W2 b2 g2 be2 W3 b3 g3 be3)) fW1 fb1 fW2 fb2

def res (m : (ℓ : Loc nD τ sig) → Buf (Elt Ideal) ℓ) (c : Dev nD) : CT Ideal S256 .f32 :=
  resT (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16)) (m ((c.tc : Thread nD τ).loc main_arg17))
    (m ((c.tc : Thread nD τ).loc main_arg18)) (m ((c.tc : Thread nD τ).loc main_arg19))

end Cert.ReferenceIdeal.Hand

end
-- ==== Proof.Ref.Ops.lean ====
import proofs.«407044_j9311489098471_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ StableHlo.unary main_arg1 main_v0 ((extractStridedSlice S1x800000 ![0, 0] · slices_S2x800000_S1x800000_0_0)),
    StableHlo.reshape main_v0 main_v1 rfl shapeCasts_S1x800000_S800000,
    StableHlo.unary main_arg1 main_v2 ((extractStridedSlice S1x800000 ![1, 0] · slices_S2x800000_S1x800000_1_0)),
    StableHlo.reshape main_v2 main_v3 rfl shapeCasts_S1x800000_S800000,
    StableHlo.nullary main_c (constantI S_ 32 0#32),
    StableHlo.unary main_c main_v4 (broadcastInDim S800000 ![] bcast_S_S800000),
    StableHlo.binary main_v1 main_v4 main_v5 (cmpi .slt),
    StableHlo.nullary main_c_0 (constantI S_ 32 50000#32),
    StableHlo.unary main_c_0 main_v6 (broadcastInDim S800000 ![] bcast_S_S800000),
    StableHlo.binary main_v1 main_v6 main_v7 (addi),
    StableHlo.ternary main_v5 main_v7 main_v1 main_v8 (select),
    StableHlo.unary main_v8 main_v9 (broadcastInDim S800000x1 ![0] bcast_S800000_S800000x1_0),
    StableHlo.binary main_arg0 main_v9 main_v10 ((fun x i => Host.gather gather_S50000x64_S800000x1_S800000x64_1_0_n_n_0_1_164 x i)),
    StableHlo.unary main_arg2 main_v11 (broadcastInDim S800000x1 ![0] bcast_S800000_S800000x1_0),
    StableHlo.unary main_v11 main_v12 (broadcastInDim S800000x64 ![0, 1] bcast_S800000x1_S800000x64_0_1),
    StableHlo.binary main_v10 main_v12 main_v13 (mulf),
    StableHlo.nullary main_cst (constant S_ .f32 0x00000000#32),
    StableHlo.unary main_cst main_v14 (broadcastInDim S50000x64 ![] bcast_S_S50000x64),
    StableHlo.unary main_v3 main_v15 (broadcastInDim S800000x1 ![0] bcast_S800000_S800000x1_0),
    StableHlo.ternary main_v14 main_v15 main_v13 main_v16 ((fun x i u => Host.scatterAdd scatter_S50000x64_S800000x1_S800000x64_1_0_0_1 x i u)),
    StableHlo.binary main_arg0 main_v16 main_v17 (addf),
    StableHlo.binary main_v17 main_arg4 main_v18 ((fun l r => Host.dotGeneral dot_S50000x64_S64x64_S50000x64_1_0_0_1_n_n none l r)),
    StableHlo.unary main_arg5 main_v19 (broadcastInDim S1x64 ![1] bcast_S64_S1x64_1),
    StableHlo.unary main_v19 main_v20 (broadcastInDim S50000x64 ![0, 1] bcast_S1x64_S50000x64_0_1),
    StableHlo.binary main_v18 main_v20 main_v21 (addf),
    StableHlo.TRef.nullary main_call0.cst (constant S_ .f32 0x00000000#32),
    StableHlo.TRef.unary main_call0.cst main_call0.v0 (broadcastInDim S50000x64 ![] bcast_S_S50000x64),
    StableHlo.TRef.binary (.of main_v21 : StableHlo.TRef sig ⟨S50000x64, .f32⟩) main_call0.v0 main_call0.v1 maximumf ]

abbrev opsB : List (HloOp τ sig (Elt F)) :=
  [ StableHlo.nullary main_cst_1 (constant S_ .f32 0x00000000#32),
    StableHlo.binary main_v22 main_cst_1 main_v23 ((fun x v => Host.reduceAdd x v reducesTo_S50000x64_S64_d0 h_S_)),
    StableHlo.nullary main_cst_2 (constant S_ .f32 0x47435000#32),
    StableHlo.unary main_cst_2 main_v24 (broadcastInDim S64 ![] bcast_S_S64),
    StableHlo.binary main_v23 main_v24 main_v25 (Host.divf),
    StableHlo.nullary main_c_3 (constantI S_ 32 0#32),
    StableHlo.TRef.nullary main_call1.cst (constant S_ .f32 0x00000000#32),
    StableHlo.TRef.binary (.of main_v22 : StableHlo.TRef sig ⟨S50000x64, .f32⟩) main_call1.cst main_call1.v0 (fun x v => Host.reduceAdd x v reducesTo_S50000x64_S64_d0 h_S_),
    StableHlo.TRef.unary main_call1.v0 main_call1.v1 (broadcastInDim S1x64 ![1] bcast_S64_S1x64_1),
    StableHlo.TRef.nullary main_call1.cst_0 (constant S_ .f32 0x47435000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S50000x64 ![0, 1] bcast_S1x64_S50000x64_0_1),
    StableHlo.TRef.binary (.of main_v22 : StableHlo.TRef sig ⟨S50000x64, .f32⟩) main_call1.v4 main_call1.v5 subf,
    StableHlo.TRef.binary main_call1.v5 main_call1.v5 main_call1.v6 mulf,
    StableHlo.TRef.unary (.of main_c_3 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b) ]

abbrev opsC : List (HloOp τ sig (Elt F)) :=
  [ StableHlo.unary main_v25 main_v27 (broadcastInDim S1x64 ![1] bcast_S64_S1x64_1),
    StableHlo.unary main_v27 main_v28 (broadcastInDim S50000x64 ![0, 1] bcast_S1x64_S50000x64_0_1),
    StableHlo.binary main_v22 main_v28 main_v29 (subf),
    StableHlo.nullary main_cst_4 (constant S_ .f32 0x3727C5AC#32),
    StableHlo.unary main_cst_4 main_v30 (broadcastInDim S64 ![] bcast_S_S64),
    StableHlo.binary main_v26 main_v30 main_v31 (addf),
    StableHlo.unary main_v31 main_v32 (Host.rsqrt),
    StableHlo.unary main_v32 main_v33 (broadcastInDim S1x64 ![1] bcast_S64_S1x64_1),
    StableHlo.unary main_v33 main_v34 (broadcastInDim S50000x64 ![0, 1] bcast_S1x64_S50000x64_0_1),
    StableHlo.binary main_v29 main_v34 main_v35 (mulf),
    StableHlo.unary main_arg14 main_v36 (broadcastInDim S1x64 ![1] bcast_S64_S1x64_1),
    StableHlo.unary main_v36 main_v37 (broadcastInDim S50000x64 ![0, 1] bcast_S1x64_S50000x64_0_1),
    StableHlo.binary main_v35 main_v37 main_v38 (mulf),
    StableHlo.unary main_arg15 main_v39 (broadcastInDim S1x64 ![1] bcast_S64_S1x64_1),
    StableHlo.unary main_v39 main_v40 (broadcastInDim S50000x64 ![0, 1] bcast_S1x64_S50000x64_0_1),
    StableHlo.binary main_v38 main_v40 main_v41 (addf),
    StableHlo.nullary main_c_5 (constantI S_ 32 0#32),
    StableHlo.unary main_c_5 main_v42 (broadcastInDim S800000 ![] bcast_S_S800000),
    StableHlo.binary main_v1 main_v42 main_v43 (cmpi .slt),
    StableHlo.nullary main_c_6 (constantI S_ 32 50000#32),
    StableHlo.unary main_c_6 main_v44 (broadcastInDim S800000 ![] bcast_S_S800000),
    StableHlo.binary main_v1 main_v44 main_v45 (addi),
    StableHlo.ternary main_v43 main_v45 main_v1 main_v46 (select),
    StableHlo.unary main_v46 main_v47 (broadcastInDim S800000x1 ![0] bcast_S800000_S800000x1_0),
    StableHlo.binary main_v41 main_v47 main_v48 ((fun x i => Host.gather gather_S50000x64_S800000x1_S800000x64_1_0_n_n_0_1_164 x i)),
    StableHlo.unary main_arg2 main_v49 (broadcastInDim S800000x1 ![0] bcast_S800000_S800000x1_0),
    StableHlo.unary main_v49 main_v50 (broadcastInDim S800000x64 ![0, 1] bcast_S800000x1_S800000x64_0_1) ]

abbrev opsD : List (HloOp τ sig (Elt F)) :=
  [ StableHlo.binary main_v48 main_v50 main_v51 (mulf),
    StableHlo.nullary main_cst_7 (constant S_ .f32 0x00000000#32),
    StableHlo.unary main_cst_7 main_v52 (broadcastInDim S50000x64 ![] bcast_S_S50000x64),
    StableHlo.unary main_v3 main_v53 (broadcastInDim S800000x1 ![0] bcast_S800000_S800000x1_0),
    StableHlo.ternary main_v52 main_v53 main_v51 main_v54 ((fun x i u => Host.scatterAdd scatter_S50000x64_S800000x1_S800000x64_1_0_0_1 x i u)),
    StableHlo.binary main_v41 main_v54 main_v55 (addf),
    StableHlo.binary main_v55 main_arg6 main_v56 ((fun l r => Host.dotGeneral dot_S50000x64_S64x64_S50000x64_1_0_0_1_n_n none l r)),
    StableHlo.unary main_arg7 main_v57 (broadcastInDim S1x64 ![1] bcast_S64_S1x64_1),
    StableHlo.unary main_v57 main_v58 (broadcastInDim S50000x64 ![0, 1] bcast_S1x64_S50000x64_0_1),
    StableHlo.binary main_v56 main_v58 main_v59 (addf),
    StableHlo.TRef.nullary main_call2.cst (constant S_ .f32 0x00000000#32),
    StableHlo.TRef.unary main_call2.cst main_call2.v0 (broadcastInDim S50000x64 ![] bcast_S_S50000x64),
    StableHlo.TRef.binary (.of main_v59 : StableHlo.TRef sig ⟨S50000x64, .f32⟩) main_call2.v0 main_call2.v1 maximumf,
    StableHlo.nullary main_cst_8 (constant S_ .f32 0x00000000#32),
    StableHlo.binary main_v60 main_cst_8 main_v61 ((fun x v => Host.reduceAdd x v reducesTo_S50000x64_S64_d0 h_S_)),
    StableHlo.nullary main_cst_9 (constant S_ .f32 0x47435000#32),
    StableHlo.unary main_cst_9 main_v62 (broadcastInDim S64 ![] bcast_S_S64),
    StableHlo.binary main_v61 main_v62 main_v63 (Host.divf),
    StableHlo.nullary main_c_10 (constantI S_ 32 0#32),
    StableHlo.TRef.nullary main_call3.cst (constant S_ .f32 0x00000000#32),
    StableHlo.TRef.binary (.of main_v60 : StableHlo.TRef sig ⟨S50000x64, .f32⟩) main_call3.cst main_call3.v0 (fun x v => Host.reduceAdd x v reducesTo_S50000x64_S64_d0 h_S_),
    StableHlo.TRef.unary main_call3.v0 main_call3.v1 (broadcastInDim S1x64 ![1] bcast_S64_S1x64_1),
    StableHlo.TRef.nullary main_call3.cst_0 (constant S_ .f32 0x47435000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S50000x64 ![0, 1] bcast_S1x64_S50000x64_0_1),
    StableHlo.TRef.binary (.of main_v60 : StableHlo.TRef sig ⟨S50000x64, .f32⟩) main_call3.v4 main_call3.v5 subf,
    StableHlo.TRef.binary main_call3.v5 main_call3.v5 main_call3.v6 mulf,
    StableHlo.TRef.unary (.of main_c_10 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b) ]

abbrev opsE : List (HloOp τ sig (Elt F)) :=
  [ StableHlo.unary main_v63 main_v65 (broadcastInDim S1x64 ![1] bcast_S64_S1x64_1),
    StableHlo.unary main_v65 main_v66 (broadcastInDim S50000x64 ![0, 1] bcast_S1x64_S50000x64_0_1),
    StableHlo.binary main_v60 main_v66 main_v67 (subf),
    StableHlo.nullary main_cst_11 (constant S_ .f32 0x3727C5AC#32),
    StableHlo.unary main_cst_11 main_v68 (broadcastInDim S64 ![] bcast_S_S64),
    StableHlo.binary main_v64 main_v68 main_v69 (addf),
    StableHlo.unary main_v69 main_v70 (Host.rsqrt),
    StableHlo.unary main_v70 main_v71 (broadcastInDim S1x64 ![1] bcast_S64_S1x64_1),
    StableHlo.unary main_v71 main_v72 (broadcastInDim S50000x64 ![0, 1] bcast_S1x64_S50000x64_0_1),
    StableHlo.binary main_v67 main_v72 main_v73 (mulf),
    StableHlo.unary main_arg16 main_v74 (broadcastInDim S1x64 ![1] bcast_S64_S1x64_1),
    StableHlo.unary main_v74 main_v75 (broadcastInDim S50000x64 ![0, 1] bcast_S1x64_S50000x64_0_1),
    StableHlo.binary main_v73 main_v75 main_v76 (mulf),
    StableHlo.unary main_arg17 main_v77 (broadcastInDim S1x64 ![1] bcast_S64_S1x64_1),
    StableHlo.unary main_v77 main_v78 (broadcastInDim S50000x64 ![0, 1] bcast_S1x64_S50000x64_0_1),
    StableHlo.binary main_v76 main_v78 main_v79 (addf),
    StableHlo.nullary main_c_12 (constantI S_ 32 0#32),
    StableHlo.unary main_c_12 main_v80 (broadcastInDim S800000 ![] bcast_S_S800000),
    StableHlo.binary main_v1 main_v80 main_v81 (cmpi .slt),
    StableHlo.nullary main_c_13 (constantI S_ 32 50000#32),
    StableHlo.unary main_c_13 main_v82 (broadcastInDim S800000 ![] bcast_S_S800000),
    StableHlo.binary main_v1 main_v82 main_v83 (addi),
    StableHlo.ternary main_v81 main_v83 main_v1 main_v84 (select),
    StableHlo.unary main_v84 main_v85 (broadcastInDim S800000x1 ![0] bcast_S800000_S800000x1_0),
    StableHlo.binary main_v79 main_v85 main_v86 ((fun x i => Host.gather gather_S50000x64_S800000x1_S800000x64_1_0_n_n_0_1_164 x i)),
    StableHlo.unary main_arg2 main_v87 (broadcastInDim S800000x1 ![0] bcast_S800000_S800000x1_0),
    StableHlo.unary main_v87 main_v88 (broadcastInDim S800000x64 ![0, 1] bcast_S800000x1_S800000x64_0_1),
    StableHlo.binary main_v86 main_v88 main_v89 (mulf),
    StableHlo.nullary main_cst_14 (constant S_ .f32 0x00000000#32),
    StableHlo.unary main_cst_14 main_v90 (broadcastInDim S50000x64 ![] bcast_S_S50000x64),
    StableHlo.unary main_v3 main_v91 (broadcastInDim S800000x1 ![0] bcast_S800000_S800000x1_0),
    StableHlo.ternary main_v90 main_v91 main_v89 main_v92 ((fun x i u => Host.scatterAdd scatter_S50000x64_S800000x1_S800000x64_1_0_0_1 x i u)),
    StableHlo.binary main_v79 main_v92 main_v93 (addf),
    StableHlo.binary main_v93 main_arg8 main_v94 ((fun l r => Host.dotGeneral dot_S50000x64_S64x64_S50000x64_1_0_0_1_n_n none l r)),
    StableHlo.unary main_arg9 main_v95 (broadcastInDim S1x64 ![1] bcast_S64_S1x64_1),
    StableHlo.unary main_v95 main_v96 (broadcastInDim S50000x64 ![0, 1] bcast_S1x64_S50000x64_0_1),
    StableHlo.binary main_v94 main_v96 main_v97 (addf),
    StableHlo.nullary main_cst_15 (constant S_ .f32 0x00000000#32),
    StableHlo.binary main_v97 main_cst_15 main_v98 ((fun x v => Host.reduceAdd x v reducesTo_S50000x64_S64_d0 h_S_)),
    StableHlo.nullary main_cst_16 (constant S_ .f32 0x47435000#32),
    StableHlo.unary main_cst_16 main_v99 (broadcastInDim S64 ![] bcast_S_S64),
    StableHlo.binary main_v98 main_v99 main_v100 (Host.divf) ]

abbrev opsG : List (HloOp τ sig (Elt F)) :=
  [ StableHlo.nullary main_c_17 (constantI S_ 32 0#32),
    StableHlo.TRef.nullary main_call4.cst (constant S_ .f32 0x00000000#32),
    StableHlo.TRef.binary (.of main_v97 : StableHlo.TRef sig ⟨S50000x64, .f32⟩) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (.of main_v97 : StableHlo.TRef sig ⟨S50000x64, .f32⟩) main_call4.v4 main_call4.v5 subf,
    StableHlo.TRef.binary main_call4.v5 main_call4.v5 main_call4.v6 mulf,
    StableHlo.TRef.unary (.of main_c_17 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v100 main_v102 (broadcastInDim S1x64 ![1] bcast_S64_S1x64_1),
    StableHlo.unary main_v102 main_v103 (broadcastInDim S50000x64 ![0, 1] bcast_S1x64_S50000x64_0_1),
    StableHlo.binary main_v97 main_v103 main_v104 (subf),
    StableHlo.nullary main_cst_18 (constant S_ .f32 0x3727C5AC#32),
    StableHlo.unary main_cst_18 main_v105 (broadcastInDim S64 ![] bcast_S_S64),
    StableHlo.binary main_v101 main_v105 main_v106 (addf),
    StableHlo.unary main_v106 main_v107 (Host.rsqrt),
    StableHlo.unary main_v107 main_v108 (broadcastInDim S1x64 ![1] bcast_S64_S1x64_1),
    StableHlo.unary main_v108 main_v109 (broadcastInDim S50000x64 ![0, 1] bcast_S1x64_S50000x64_0_1),
    StableHlo.binary main_v104 main_v109 main_v110 (mulf),
    StableHlo.unary main_arg18 main_v111 (broadcastInDim S1x64 ![1] bcast_S64_S1x64_1),
    StableHlo.unary main_v111 main_v112 (broadcastInDim S50000x64 ![0, 1] bcast_S1x64_S50000x64_0_1),
    StableHlo.binary main_v110 main_v112 main_v113 (mulf),
    StableHlo.unary main_arg19 main_v114 (broadcastInDim S1x64 ![1] bcast_S64_S1x64_1),
    StableHlo.unary main_v114 main_v115 (broadcastInDim S50000x64 ![0, 1] bcast_S1x64_S50000x64_0_1),
    StableHlo.binary main_v113 main_v115 main_v116 (addf) ]

abbrev opsH : List (HloOp τ sig (Elt F)) :=
  [ StableHlo.nullary main_cst_19 (constant S_ .f32 0x00000000#32),
    StableHlo.unary main_cst_19 main_v117 (broadcastInDim S256x64 ![] bcast_S_S256x64),
    StableHlo.unary main_arg3 main_v118 (broadcastInDim S50000x1 ![0] bcast_S50000_S50000x1_0),
    StableHlo.ternary main_v117 main_v118 main_v116 main_v119 ((fun x i u => Host.scatterAdd scatter_S256x64_S50000x1_S50000x64_1_0_0_1 x i u)),
    StableHlo.TRef.nullary main_call5.cst (constant S_ .f32 0x00000000#32),
    StableHlo.TRef.unary main_call5.cst main_call5.v0 (broadcastInDim S256x64 ![] bcast_S_S256x64),
    StableHlo.TRef.binary (.of main_v119 : StableHlo.TRef sig ⟨S256x64, .f32⟩) main_call5.v0 main_call5.v1 maximumf,
    StableHlo.binary main_v120 main_arg10 main_v121 ((fun l r => Host.dotGeneral dot_S256x64_S64x64_S256x64_1_0_0_1_n_n none l r)),
    StableHlo.unary main_arg11 main_v122 (broadcastInDim S1x64 ![1] bcast_S64_S1x64_1),
    StableHlo.unary main_v122 main_v123 (broadcastInDim S256x64 ![0, 1] bcast_S1x64_S256x64_0_1),
    StableHlo.binary main_v121 main_v123 main_v124 (addf),
    StableHlo.TRef.nullary main_call6.cst (constant S_ .f32 0x00000000#32),
    StableHlo.TRef.unary main_call6.cst main_call6.v0 (broadcastInDim S256x64 ![] bcast_S_S256x64),
    StableHlo.TRef.binary (.of main_v124 : StableHlo.TRef sig ⟨S256x64, .f32⟩) main_call6.v0 main_call6.v1 maximumf,
    StableHlo.binary main_v125 main_arg12 main_v126 ((fun l r => Host.dotGeneral dot_S256x64_S64x1_S256x1_1_0_0_1_n_n none l r)),
    StableHlo.unary main_arg13 main_v127 (broadcastInDim S1x1 ![1] bcast_S1_S1x1_1),
    StableHlo.unary main_v127 main_v128 (broadcastInDim S256x1 ![0, 1] bcast_S1x1_S256x1_0_1),
    StableHlo.binary main_v126 main_v128 main_v129 (addf),
    StableHlo.reshape main_v129 main_v130 rfl shapeCasts_S256x1_S256 ]

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub ..⟩
set_option maxRecDepth 8192 in
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

abbrev opsA_W : List (Ref sig .tc) := [main_v0, main_v1, main_v2, main_v3, main_c, main_v4, main_v5, main_c_0, main_v6, main_v7, main_v8, main_v9, main_v10, main_v11, main_v12, main_v13, main_cst, main_v14, main_v15, main_v16, main_v17, main_v18, main_v19, main_v20, main_v21, main_call0_cst, main_call0_v0, main_v22]

set_option maxRecDepth 8192 in
theorem opsB_sub : (opsB : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

abbrev opsB_W : List (Ref sig .tc) := [main_cst_1, main_v23, main_cst_2, main_v24, main_v25, main_c_3, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v26]

set_option maxRecDepth 8192 in
theorem opsC_sub : (opsC : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub ..⟩
set_option maxRecDepth 8192 in
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

abbrev opsC_W : List (Ref sig .tc) := [main_v27, main_v28, main_v29, main_cst_4, main_v30, main_v31, main_v32, main_v33, main_v34, main_v35, main_v36, main_v37, main_v38, main_v39, main_v40, main_v41, main_c_5, main_v42, main_v43, main_c_6, main_v44, main_v45, main_v46, main_v47, main_v48, main_v49, main_v50]

set_option maxRecDepth 8192 in
theorem opsD_sub : (opsD : List (HloOp τ sig (Elt F))).Forall fun op => op.bufs ⊆ tcRefs τ sig :=
  ⟨binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev opsD_W : List (Ref sig .tc) := [main_v51, main_cst_7, main_v52, main_v53, main_v54, main_v55, main_v56, main_v57, main_v58, main_v59, main_call2_cst, main_call2_v0, main_v60, main_cst_8, main_v61, main_cst_9, main_v62, main_v63, main_c_10, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v64]

set_option maxRecDepth 8192 in
theorem opsE_sub : (opsE : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., binary_bufs_sub .., nullary_bufs_sub .., unary_bufs_sub .., binary_bufs_sub ..⟩
set_option maxRecDepth 8192 in
theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev opsE_W : List (Ref sig .tc) := [main_v65, main_v66, main_v67, main_cst_11, main_v68, main_v69, main_v70, main_v71, main_v72, main_v73, main_v74, main_v75, main_v76, main_v77, main_v78, main_v79, main_c_12, main_v80, main_v81, main_c_13, main_v82, main_v83, main_v84, main_v85, main_v86, main_v87, main_v88, main_v89, main_cst_14, main_v90, main_v91, main_v92, main_v93, main_v94, main_v95, main_v96, main_v97, main_cst_15, main_v98, main_cst_16, main_v99, main_v100]

set_option maxRecDepth 8192 in
theorem opsG_sub : (opsG : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem opsG_fresh : (opsG : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev opsG_W : List (Ref sig .tc) := [main_c_17, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v101, main_v102, main_v103, main_v104, main_cst_18, main_v105, main_v106, main_v107, main_v108, main_v109, main_v110, main_v111, main_v112, main_v113, main_v114, main_v115, main_v116]

set_option maxRecDepth 8192 in
theorem opsH_sub : (opsH : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩
set_option maxRecDepth 8192 in
theorem opsH_fresh : (opsH : List (HloOp τ sig (Elt F))).Forall fun op => op.fresh = ∅ :=
  ⟨rfl, rfl, rfl, rfl, rfl, rfl, rfl, rfl, rfl, rfl, rfl, rfl, rfl, rfl, rfl, rfl, rfl, rfl, rfl⟩

abbrev opsH_W : List (Ref sig .tc) := [main_cst_19, main_v117, main_v118, main_v119, main_call5_cst, main_call5_v0, main_v120, main_v121, main_v122, main_v123, main_v124, main_call6_cst, main_call6_v0, main_v125, main_v126, main_v127, main_v128, main_v129, main_v130]

abbrev ops : List (HloOp τ sig (Elt F)) := opsA ++ (opsB ++ (opsC ++ (opsD ++ (opsE ++ (opsG ++ opsH)))))

theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE_sub op h, List.forall_iff_forall_mem.mp opsG_sub op h,
      List.forall_iff_forall_mem.mp opsH_sub op h]

theorem ops_fresh : ∀ op ∈ (ops : List (HloOp τ sig (Elt F))), op.fresh = ∅ := fun op h => by
  simp only [ops, List.mem_append] at h
  rcases h with h | h | h | h | h | h | h
  exacts [List.forall_iff_forall_mem.mp opsA_fresh op h, List.forall_iff_forall_mem.mp opsB_fresh op h,
    List.forall_iff_forall_mem.mp opsC_fresh op h, List.forall_iff_forall_mem.mp opsD_fresh op h,
    List.forall_iff_forall_mem.mp opsE_fresh op h, List.forall_iff_forall_mem.mp opsG_fresh op h,
    List.forall_iff_forall_mem.mp opsH_fresh op h]

set_option maxRecDepth 16384 in
set_option maxHeartbeats 4000000 in
theorem part0_eq (c : Dev nD) : main_part0 (F := F) c = seq (opsA ++ (opsB ++ opsC)) := rfl

set_option maxRecDepth 16384 in
set_option maxHeartbeats 4000000 in
theorem part1_eq (c : Dev nD) : main_part1 (F := F) c = seq (opsD ++ opsE) := rfl

set_option maxRecDepth 16384 in
set_option maxHeartbeats 4000000 in
theorem part2_eq (c : Dev nD) : main_part2 (F := F) c = seq (opsG ++ opsH) := rfl

theorem main_eq (c : Dev nD) : main (F := F) c = seq ops := by
  have e : (ops : List (HloOp τ sig (Elt F))) = (opsA ++ (opsB ++ opsC)) ++ ((opsD ++ opsE) ++ (opsG ++ opsH)) := by
    simp only [ops, List.append_assoc]
  rw [e, seq_append (opsA ++ (opsB ++ opsC)) _, seq_append (opsD ++ opsE) _, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.Ref.Run.lean ====
import proofs.«407044_j9311489098471_2_alg».proof.Proof.Ref.Terms
import proofs.«407044_j9311489098471_2_alg».proof.Proof.Ref.Ops
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem opsA_writes : (opsA : List (HloOp τ sig (Elt F))).Forall fun op => op.writes ⊆ (opsA_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))

set_option maxRecDepth 8192 in
theorem opsB_writes : (opsB : List (HloOp τ sig (Elt F))).Forall fun op => op.writes ⊆ (opsB_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))

set_option maxRecDepth 8192 in
theorem opsC_writes : (opsC : List (HloOp τ sig (Elt F))).Forall fun op => op.writes ⊆ (opsC_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))

set_option maxRecDepth 8192 in
theorem opsD_writes : (opsD : List (HloOp τ sig (Elt F))).Forall fun op => op.writes ⊆ (opsD_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))

set_option maxRecDepth 8192 in
theorem opsE_writes : (opsE : List (HloOp τ sig (Elt F))).Forall fun op => op.writes ⊆ (opsE_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))

set_option maxRecDepth 8192 in
theorem opsG_writes : (opsG : List (HloOp τ sig (Elt F))).Forall fun op => op.writes ⊆ (opsG_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))

set_option maxRecDepth 8192 in
theorem opsH_writes : (opsH : List (HloOp τ sig (Elt F))).Forall fun op => op.writes ⊆ (opsH_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))

section Stages
variable (V0 : Valuation τ sig (Elt F))

def sV : CT F S800000 .i32 := srcW (V0 (Proc.devRef .tc main_arg1))
def dV : CT F S800000 .i32 := dstW (V0 (Proc.devRef .tc main_arg1))

def y1V : CT F S50000x64 .f32 := reluT (preT (sV V0) (dV V0) (V0 (Proc.devRef .tc main_arg2)) (V0 (Proc.devRef .tc main_arg0)) (V0 (Proc.devRef .tc main_arg4)) (V0 (Proc.devRef .tc main_arg5)))
def h1V : CT F S50000x64 .f32 := bnT (y1V V0) (V0 (Proc.devRef .tc main_arg14)) (V0 (Proc.devRef .tc main_arg15))

def y2V : CT F S50000x64 .f32 := reluT (preT (sV V0) (dV V0) (V0 (Proc.devRef .tc main_arg2)) (h1V V0) (V0 (Proc.devRef .tc main_arg6)) (V0 (Proc.devRef .tc main_arg7)))
def h2V : CT F S50000x64 .f32 := bnT (y2V V0) (V0 (Proc.devRef .tc main_arg16)) (V0 (Proc.devRef .tc main_arg17))

def y3V : CT F S50000x64 .f32 := preT (sV V0) (dV V0) (V0 (Proc.devRef .tc main_arg2)) (h2V V0) (V0 (Proc.devRef .tc main_arg8)) (V0 (Proc.devRef .tc main_arg9))
def h3V : CT F S50000x64 .f32 := bnT (y3V V0) (V0 (Proc.devRef .tc main_arg18)) (V0 (Proc.devRef .tc main_arg19))

def rV : CT F S256 .f32 := headT (poolT (V0 (Proc.devRef .tc main_arg3)) (h3V V0)) (V0 (Proc.devRef .tc main_arg10)) (V0 (Proc.devRef .tc main_arg11)) (V0 (Proc.devRef .tc main_arg12)) (V0 (Proc.devRef .tc main_arg13))

theorem rV_eq : rV V0 = resT (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) := rfl

end Stages

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]
-- No stretch writes an argument buffer, so each argument holds its launch contents after every stretch.
theorem args_kept : ∀ r ∈ argRefs, r ∉ opsA_W ∧ r ∉ opsB_W ∧ r ∉ opsC_W ∧ r ∉ opsD_W ∧ r ∉ opsE_W ∧ r ∉ opsG_W ∧ r ∉ opsH_W := by decide

def val1 (V0 : Valuation τ sig (Elt F)) : Valuation τ sig (Elt F) := after opsA V0
theorem val1_keep (V0 : Valuation τ sig (Elt F)) (r : Ref sig .tc) (h : r ∉ opsA_W) :
    val1 V0 (Proc.devRef .tc r) = V0 (Proc.devRef .tc r) :=
  after_of_writes_sub opsA _ opsA_writes h
theorem val1_arg (V0 : Valuation τ sig (Elt F)) (r : Ref sig .tc) (h : r ∈ argRefs) :
    val1 V0 (Proc.devRef .tc r) = V0 (Proc.devRef .tc r) :=
  val1_keep V0 r (args_kept r h).1

def val2 (V0 : Valuation τ sig (Elt F)) : Valuation τ sig (Elt F) := after opsB (val1 V0)
theorem val2_keep (V0 : Valuation τ sig (Elt F)) (r : Ref sig .tc) (h : r ∉ opsB_W) :
    val2 V0 (Proc.devRef .tc r) = (val1 V0) (Proc.devRef .tc r) :=
  after_of_writes_sub opsB _ opsB_writes h
theorem val2_arg (V0 : Valuation τ sig (Elt F)) (r : Ref sig .tc) (h : r ∈ argRefs) :
    val2 V0 (Proc.devRef .tc r) = V0 (Proc.devRef .tc r) :=
  (val2_keep V0 r (args_kept r h).2.1).trans (val1_arg V0 r h)

def val3 (V0 : Valuation τ sig (Elt F)) : Valuation τ sig (Elt F) := after opsC (val2 V0)
theorem val3_keep (V0 : Valuation τ sig (Elt F)) (r : Ref sig .tc) (h : r ∉ opsC_W) :
    val3 V0 (Proc.devRef .tc r) = (val2 V0) (Proc.devRef .tc r) :=
  after_of_writes_sub opsC _ opsC_writes h
theorem val3_arg (V0 : Valuation τ sig (Elt F)) (r : Ref sig .tc) (h : r ∈ argRefs) :
    val3 V0 (Proc.devRef .tc r) = V0 (Proc.devRef .tc r) :=
  (val3_keep V0 r (args_kept r h).2.2.1).trans (val2_arg V0 r h)

def val4 (V0 : Valuation τ sig (Elt F)) : Valuation τ sig (Elt F) := after opsD (val3 V0)
theorem val4_keep (V0 : Valuation τ sig (Elt F)) (r : Ref sig .tc) (h : r ∉ opsD_W) :
    val4 V0 (Proc.devRef .tc r) = (val3 V0) (Proc.devRef .tc r) :=
  after_of_writes_sub opsD _ opsD_writes h
theorem val4_arg (V0 : Valuation τ sig (Elt F)) (r : Ref sig .tc) (h : r ∈ argRefs) :
    val4 V0 (Proc.devRef .tc r) = V0 (Proc.devRef .tc r) :=
  (val4_keep V0 r (args_kept r h).2.2.2.1).trans (val3_arg V0 r h)

def val5 (V0 : Valuation τ sig (Elt F)) : Valuation τ sig (Elt F) := after opsE (val4 V0)
theorem val5_keep (V0 : Valuation τ sig (Elt F)) (r : Ref sig .tc) (h : r ∉ opsE_W) :
    val5 V0 (Proc.devRef .tc r) = (val4 V0) (Proc.devRef .tc r) :=
  after_of_writes_sub opsE _ opsE_writes h
theorem val5_arg (V0 : Valuation τ sig (Elt F)) (r : Ref sig .tc) (h : r ∈ argRefs) :
    val5 V0 (Proc.devRef .tc r) = V0 (Proc.devRef .tc r) :=
  (val5_keep V0 r (args_kept r h).2.2.2.2.1).trans (val4_arg V0 r h)

def val6 (V0 : Valuation τ sig (Elt F)) : Valuation τ sig (Elt F) := after opsG (val5 V0)
theorem val6_keep (V0 : Valuation τ sig (Elt F)) (r : Ref sig .tc) (h : r ∉ opsG_W) :
    val6 V0 (Proc.devRef .tc r) = (val5 V0) (Proc.devRef .tc r) :=
  after_of_writes_sub opsG _ opsG_writes h
theorem val6_arg (V0 : Valuation τ sig (Elt F)) (r : Ref sig .tc) (h : r ∈ argRefs) :
    val6 V0 (Proc.devRef .tc r) = V0 (Proc.devRef .tc r) :=
  (val6_keep V0 r (args_kept r h).2.2.2.2.2.1).trans (val5_arg V0 r h)

def val7 (V0 : Valuation τ sig (Elt F)) : Valuation τ sig (Elt F) := after opsH (val6 V0)
theorem val7_keep (V0 : Valuation τ sig (Elt F)) (r : Ref sig .tc) (h : r ∉ opsH_W) :
    val7 V0 (Proc.devRef .tc r) = (val6 V0) (Proc.devRef .tc r) :=
  after_of_writes_sub opsH _ opsH_writes h
theorem val7_arg (V0 : Valuation τ sig (Elt F)) (r : Ref sig .tc) (h : r ∈ argRefs) :
    val7 V0 (Proc.devRef .tc r) = V0 (Proc.devRef .tc r) :=
  (val7_keep V0 r (args_kept r h).2.2.2.2.2.2).trans (val6_arg V0 r h)

set_option maxRecDepth 8192 in
set_option maxHeartbeats 4000000 in
theorem val1_main_v1 (V0 : Valuation τ sig (Elt F)) : val1 V0 (no_index (Proc.devRef .tc main_v1)) = sV V0 := by
  unfold val1
  simp only [opsA]
  after_results_simp
  try simp only [TRef.ofBuf, TRef.toBuf, cast_eq]
  rfl
set_option maxRecDepth 8192 in
set_option maxHeartbeats 4000000 in
theorem val1_main_v3 (V0 : Valuation τ sig (Elt F)) : val1 V0 (no_index (Proc.devRef .tc main_v3)) = dV V0 := by
  unfold val1
  simp only [opsA]
  after_results_simp
  try simp only [TRef.ofBuf, TRef.toBuf, cast_eq]
  rfl
set_option maxRecDepth 8192 in
set_option maxHeartbeats 4000000 in
theorem val1_main_v22 (V0 : Valuation τ sig (Elt F)) : val1 V0 (no_index (Proc.devRef .tc main_v22)) = y1V V0 := by
  unfold val1
  simp only [opsA]
  after_results_simp
  try simp only [TRef.ofBuf, TRef.toBuf, cast_eq]
  rfl

theorem val2_main_v1 (V0 : Valuation τ sig (Elt F)) : val2 V0 (no_index (Proc.devRef .tc main_v1)) = sV V0 :=
  (val2_keep V0 main_v1 (by decide)).trans (val1_main_v1 V0)
theorem val2_main_v3 (V0 : Valuation τ sig (Elt F)) : val2 V0 (no_index (Proc.devRef .tc main_v3)) = dV V0 :=
  (val2_keep V0 main_v3 (by decide)).trans (val1_main_v3 V0)
theorem val2_main_v22 (V0 : Valuation τ sig (Elt F)) : val2 V0 (no_index (Proc.devRef .tc main_v22)) = y1V V0 :=
  (val2_keep V0 main_v22 (by decide)).trans (val1_main_v22 V0)
set_option maxRecDepth 8192 in
set_option maxHeartbeats 4000000 in
theorem val2_main_v25 (V0 : Valuation τ sig (Elt F)) : val2 V0 (no_index (Proc.devRef .tc main_v25)) = meanT (y1V V0) := by
  unfold val2
  simp only [opsB]
  after_results_simp
  try simp only [TRef.ofBuf, TRef.toBuf, cast_eq]
  simp only [val1_main_v22]
  rfl
set_option maxRecDepth 8192 in
set_option maxHeartbeats 4000000 in
theorem val2_main_v26 (V0 : Valuation τ sig (Elt F)) : val2 V0 (no_index (Proc.devRef .tc main_v26)) = varT (y1V V0) := by
  unfold val2
  simp only [opsB]
  after_results_simp
  try simp only [TRef.ofBuf, TRef.toBuf, cast_eq]
  simp only [val1_main_v22]
  rfl

theorem val3_main_v1 (V0 : Valuation τ sig (Elt F)) : val3 V0 (no_index (Proc.devRef .tc main_v1)) = sV V0 :=
  (val3_keep V0 main_v1 (by decide)).trans (val2_main_v1 V0)
theorem val3_main_v3 (V0 : Valuation τ sig (Elt F)) : val3 V0 (no_index (Proc.devRef .tc main_v3)) = dV V0 :=
  (val3_keep V0 main_v3 (by decide)).trans (val2_main_v3 V0)
set_option maxRecDepth 8192 in
set_option maxHeartbeats 4000000 in
theorem val3_main_v41 (V0 : Valuation τ sig (Elt F)) : val3 V0 (no_index (Proc.devRef .tc main_v41)) = h1V V0 := by
  unfold val3
  simp only [opsC]
  after_results_simp
  try simp only [TRef.ofBuf, TRef.toBuf, cast_eq]
  simp only [val2_main_v25, val2_main_v22, val2_main_v26, val2_main_v1, val2_arg V0 main_arg14 (by decide), val2_arg V0 main_arg15 (by decide), val2_arg V0 main_arg2 (by decide)]
  rfl
set_option maxRecDepth 8192 in
set_option maxHeartbeats 4000000 in
theorem val3_main_v48 (V0 : Valuation τ sig (Elt F)) : val3 V0 (no_index (Proc.devRef .tc main_v48)) = Host.gather gather_S50000x64_S800000x1_S800000x64_1_0_n_n_0_1_164 (h1V V0) (idxOf (sV V0)) := by
  unfold val3
  simp only [opsC]
  after_results_simp
  try simp only [TRef.ofBuf, TRef.toBuf, cast_eq]
  simp only [val2_main_v25, val2_main_v22, val2_main_v26, val2_main_v1, val2_arg V0 main_arg14 (by decide), val2_arg V0 main_arg15 (by decide), val2_arg V0 main_arg2 (by decide)]
  rfl
set_option maxRecDepth 8192 in
set_option maxHeartbeats 4000000 in
theorem val3_main_v50 (V0 : Valuation τ sig (Elt F)) : val3 V0 (no_index (Proc.devRef .tc main_v50)) = ewOf (V0 (Proc.devRef .tc main_arg2)) := by
  unfold val3
  simp only [opsC]
  after_results_simp
  try simp only [TRef.ofBuf, TRef.toBuf, cast_eq]
  simp only [val2_main_v25, val2_main_v22, val2_main_v26, val2_main_v1, val2_arg V0 main_arg14 (by decide), val2_arg V0 main_arg15 (by decide), val2_arg V0 main_arg2 (by decide)]
  rfl

theorem val4_main_v1 (V0 : Valuation τ sig (Elt F)) : val4 V0 (no_index (Proc.devRef .tc main_v1)) = sV V0 :=
  (val4_keep V0 main_v1 (by decide)).trans (val3_main_v1 V0)
theorem val4_main_v3 (V0 : Valuation τ sig (Elt F)) : val4 V0 (no_index (Proc.devRef .tc main_v3)) = dV V0 :=
  (val4_keep V0 main_v3 (by decide)).trans (val3_main_v3 V0)
set_option maxRecDepth 8192 in
set_option maxHeartbeats 4000000 in
theorem val4_main_v60 (V0 : Valuation τ sig (Elt F)) : val4 V0 (no_index (Proc.devRef .tc main_v60)) = y2V V0 := by
  unfold val4
  simp only [opsD]
  after_results_simp
  try simp only [TRef.ofBuf, TRef.toBuf, cast_eq]
  simp only [val3_main_v48, val3_main_v50, val3_main_v3, val3_main_v41, val3_arg V0 main_arg6 (by decide), val3_arg V0 main_arg7 (by decide)]
  rfl
set_option maxRecDepth 8192 in
set_option maxHeartbeats 4000000 in
theorem val4_main_v63 (V0 : Valuation τ sig (Elt F)) : val4 V0 (no_index (Proc.devRef .tc main_v63)) = meanT (y2V V0) := by
  unfold val4
  simp only [opsD]
  after_results_simp
  try simp only [TRef.ofBuf, TRef.toBuf, cast_eq]
  simp only [val3_main_v48, val3_main_v50, val3_main_v3, val3_main_v41, val3_arg V0 main_arg6 (by decide), val3_arg V0 main_arg7 (by decide)]
  rfl
set_option maxRecDepth 8192 in
set_option maxHeartbeats 4000000 in
theorem val4_main_v64 (V0 : Valuation τ sig (Elt F)) : val4 V0 (no_index (Proc.devRef .tc main_v64)) = varT (y2V V0) := by
  unfold val4
  simp only [opsD]
  after_results_simp
  try simp only [TRef.ofBuf, TRef.toBuf, cast_eq]
  simp only [val3_main_v48, val3_main_v50, val3_main_v3, val3_main_v41, val3_arg V0 main_arg6 (by decide), val3_arg V0 main_arg7 (by decide)]
  rfl

set_option maxRecDepth 8192 in
set_option maxHeartbeats 4000000 in
theorem val5_main_v97 (V0 : Valuation τ sig (Elt F)) : val5 V0 (no_index (Proc.devRef .tc main_v97)) = y3V V0 := by
  unfold val5
  simp only [opsE]
  after_results_simp
  try simp only [TRef.ofBuf, TRef.toBuf, cast_eq]
  simp only [val4_main_v63, val4_main_v60, val4_main_v64, val4_main_v1, val4_main_v3, val4_arg V0 main_arg16 (by decide), val4_arg V0 main_arg17 (by decide), val4_arg V0 main_arg2 (by decide), val4_arg V0 main_arg8 (by decide), val4_arg V0 main_arg9 (by decide)]
  rfl
set_option maxRecDepth 8192 in
set_option maxHeartbeats 4000000 in
theorem val5_main_v100 (V0 : Valuation τ sig (Elt F)) : val5 V0 (no_index (Proc.devRef .tc main_v100)) = meanT (y3V V0) := by
  unfold val5
  simp only [opsE]
  after_results_simp
  try simp only [TRef.ofBuf, TRef.toBuf, cast_eq]
  simp only [val4_main_v63, val4_main_v60, val4_main_v64, val4_main_v1, val4_main_v3, val4_arg V0 main_arg16 (by decide), val4_arg V0 main_arg17 (by decide), val4_arg V0 main_arg2 (by decide), val4_arg V0 main_arg8 (by decide), val4_arg V0 main_arg9 (by decide)]
  rfl

set_option maxRecDepth 8192 in
set_option maxHeartbeats 4000000 in
theorem val6_main_v116 (V0 : Valuation τ sig (Elt F)) : val6 V0 (no_index (Proc.devRef .tc main_v116)) = h3V V0 := by
  unfold val6
  simp only [opsG]
  after_results_simp
  try simp only [TRef.ofBuf, TRef.toBuf, cast_eq]
  simp only [val5_main_v97, val5_main_v100, val5_arg V0 main_arg18 (by decide), val5_arg V0 main_arg19 (by decide)]
  rfl

set_option maxRecDepth 8192 in
set_option maxHeartbeats 4000000 in
theorem val7_main_v130 (V0 : Valuation τ sig (Elt F)) : val7 V0 (no_index (Proc.devRef .tc main_v130)) = rV V0 := by
  unfold val7
  simp only [opsH]
  after_results_simp
  try simp only [TRef.ofBuf, TRef.toBuf, cast_eq]
  simp only [val6_main_v116, val6_arg V0 main_arg3 (by decide), val6_arg V0 main_arg10 (by decide), val6_arg V0 main_arg11 (by decide), val6_arg V0 main_arg12 (by decide), val6_arg V0 main_arg13 (by decide)]
  rfl

set_option maxRecDepth 8192 in

theorem after_ops (V0 : Valuation τ sig (Elt F)) : after ops V0 = val7 V0 := by
  simp only [ops, after_append]
  rfl

theorem rV_res (m : (ℓ : Loc nD τ sig) → Buf (Elt Ideal) ℓ) (c : Dev nD) : rV (launchContents m c) = res m c := rfl

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v130) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨
      (h c main_v130).trans (by simp only [after_ops]; exact (val7_main_v130 (launchContents m c)).trans (rV_res m c)),
      (h c main_arg0).trans (by simp only [after_ops]; exact val7_arg _ main_arg0 (by decide)),
      (h c main_arg1).trans (by simp only [after_ops]; exact val7_arg _ main_arg1 (by decide)),
      (h c main_arg2).trans (by simp only [after_ops]; exact val7_arg _ main_arg2 (by decide)),
      (h c main_arg3).trans (by simp only [after_ops]; exact val7_arg _ main_arg3 (by decide)),
      (h c main_arg4).trans (by simp only [after_ops]; exact val7_arg _ main_arg4 (by decide)),
      (h c main_arg5).trans (by simp only [after_ops]; exact val7_arg _ main_arg5 (by decide)),
      (h c main_arg6).trans (by simp only [after_ops]; exact val7_arg _ main_arg6 (by decide)),
      (h c main_arg7).trans (by simp only [after_ops]; exact val7_arg _ main_arg7 (by decide)),
      (h c main_arg8).trans (by simp only [after_ops]; exact val7_arg _ main_arg8 (by decide)),
      (h c main_arg9).trans (by simp only [after_ops]; exact val7_arg _ main_arg9 (by decide)),
      (h c main_arg10).trans (by simp only [after_ops]; exact val7_arg _ main_arg10 (by decide)),
      (h c main_arg11).trans (by simp only [after_ops]; exact val7_arg _ main_arg11 (by decide)),
      (h c main_arg12).trans (by simp only [after_ops]; exact val7_arg _ main_arg12 (by decide)),
      (h c main_arg13).trans (by simp only [after_ops]; exact val7_arg _ main_arg13 (by decide)),
      (h c main_arg14).trans (by simp only [after_ops]; exact val7_arg _ main_arg14 (by decide)),
      (h c main_arg15).trans (by simp only [after_ops]; exact val7_arg _ main_arg15 (by decide)),
      (h c main_arg16).trans (by simp only [after_ops]; exact val7_arg _ main_arg16 (by decide)),
      (h c main_arg17).trans (by simp only [after_ops]; exact val7_arg _ main_arg17 (by decide)),
      (h c main_arg18).trans (by simp only [after_ops]; exact val7_arg _ main_arg18 (by decide)),
      (h c main_arg19).trans (by simp only [after_ops]; exact val7_arg _ main_arg19 (by decide))⟩)
    (run_seq scopedRefs_eq scopedSems_eq defs main (fun _ => ops) main_eq (fun _ => ops_sub) m ρ (fun _ => ops_fresh))

end Cert.ReferenceIdeal.Hand

end
-- ==== Proof.Ref.ValueDefs.lean ====
import proofs.«407044_j9311489098471_2_alg».proof.Proof.Ref.Terms
import proofs.«407044_j9311489098471_2_alg».proof.Proof.Spec
import Idealize.ShloMosaic.Lib.ValueIdx

noncomputable section

namespace Cert.ReferenceIdeal.Hand

open Cert.ReferenceIdeal Cert.ReferenceIdeal.Gen Idealize.ShloMosaic Idealize.ShloMosaic.TcCoe Idealize.SL.Sem
open Idealize.ShloMosaic.ValueIdx

abbrev tab (h : CT Ideal S50000x64 .f32) : Cert.Spec.Tab := fun n k => h (ValueIdx.ix2 n k)

abbrev vec (v : CT Ideal S64 .f32) : Cert.Spec.Vec64 := fun f => v (ValueIdx.ix1 f)

abbrev mat (W : CT Ideal S64x64 .f32) : Cert.Spec.Mat64 := fun k f => W (ValueIdx.ix2 k f)

abbrev dstOf (a1 : CT Ideal S2x800000 .i32) : Fin 800000 → BitVec 32 := fun e => a1 (ValueIdx.ix2 1 e)

def msgR (a1 : CT Ideal S2x800000 .i32) (a2 : CT Ideal S800000 .f32) (t : Cert.Spec.Tab) : Fin 800000 → Fin 64 → EReal :=
  fun e k => Host.gather gather_S50000x64_S800000x1_S800000x64_1_0_n_n_0_1_164 (fun i => t (i 0) (i 1)) (idxOf (srcW a1)) (ValueIdx.ix2 e k) * a2 (ValueIdx.ix1 e)

end Cert.ReferenceIdeal.Hand

end
-- ==== Proof.Ref.ScatterRows.lean ====
import Idealize.ShloMosaic.PureOps.Ideal
import Idealize.ShloMosaic.Lib.ValueIdx

noncomputable section

open scoped BigOperators

namespace Cert.RowScatter

open Idealize.ShloMosaic Idealize.ShloMosaic.ValueIdx

abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E : Nat} (wf : ScatterDims.WF ⟨2, ![N, C]⟩ ⟨2, ![E, 1]⟩ ⟨2, ![E, C]⟩ [1] [0] [0] 1)

theorem start_row {w : Nat} (j : (⟨2, ![E, C]⟩ : Shape).Idx) (idx : IVec ⟨2, ![E, 1]⟩ w) :
    (rowDims N C E wf).start j idx 0 = (idx (ix2 (j 0) 0)).toInt := by
  unfold ScatterDims.start
  rw [dif_pos (show (0 : Fin 2) ∈ (rowDims N C E wf).scatterDimsToOperandDims from List.mem_singleton.mpr rfl)]
  congr 2
  funext b; refine Fin.ext ?_
  match b with
  | ⟨0, _⟩ => rfl
  | ⟨1, _⟩ => rfl

theorem start_col {w : Nat} (j : (⟨2, ![E, C]⟩ : Shape).Idx) (idx : IVec ⟨2, ![E, 1]⟩ w) :
    (rowDims N C E wf).start j idx 1 = 0 := by
  unfold ScatterDims.start
  rw [dif_neg (by show (1 : Fin 2) ∉ ([0] : List (Fin 2)); decide)]

theorem window_row (j : (⟨2, ![E, C]⟩ : Shape).Idx) : (rowDims N C E wf).window j 0 = 0 := by
  unfold ScatterDims.window
  rw [dif_neg (by show (0 : Fin 2) ∉ ([1] : List (Fin 2)); decide)]

theorem window_col (j : (⟨2, ![E, C]⟩ : Shape).Idx) : (rowDims N C E wf).window j 1 = (j 1).val := by
  unfold ScatterDims.window
  rw [dif_pos (by show (1 : Fin 2) ∈ ([1] : List (Fin 2)); decide)]
  rfl

theorem resultIdx?_eq_some_iff {w : Nat} (j : (⟨2, ![E, C]⟩ : Shape).Idx) (idx : IVec ⟨2, ![E, 1]⟩ w)
    (n : Fin N) (k : Fin C) :
    (rowDims N C E wf).resultIdx? j idx = some (ix2 n k) ↔ (idx (ix2 (j 0) 0)).toInt = (n.val : Int) ∧ j 1 = k := by
  have hs0 := start_row wf j idx
  have hs1 := start_col wf j idx
  have hw0 := window_row wf j
  have hw1 := window_col wf j
  unfold ScatterDims.resultIdx?
  split_ifs with h
  · rw [Option.some.injEq]
    constructor
    · intro hf
      have h0 := congrFun hf 0
      have h1 := congrFun hf 1
      have h0' := congrArg Fin.val h0
      have h1' := congrArg Fin.val h1
      simp only [hs0, hs1, hw0, hw1] at h0' h1'
      have hh := (h 0).1
      rw [hs0, hw0] at hh
      refine ⟨?_, Fin.ext ?_⟩
      · change ((idx (ix2 (j 0) 0)).toInt + ((0 : Nat) : Int)).toNat = n.val at h0'
        omega
      · change ((0 : Int) + (((j 1).val : Nat) : Int)).toNat = k.val at h1'
        omega
    · rintro ⟨hn, hk⟩
      funext a
      refine Fin.ext ?_
      match a with
      | ⟨0, _⟩ =>
        change ((rowDims N C E wf).start j idx 0 + ((rowDims N C E wf).window j 0 : Nat)).toNat = n.val
        rw [hs0, hw0, hn]; simp
      | ⟨1, _⟩ =>
        change ((rowDims N C E wf).start j idx 1 + ((rowDims N C E wf).window j 1 : Nat)).toNat = k.val
        rw [hs1, hw1, ← hk]; simp
  · constructor
    · intro hf; exact absurd hf (by simp)
    · rintro ⟨hn, hk⟩
      exfalso; apply h
      intro a
      match a with
      | ⟨0, _⟩ =>
        change 0 ≤ (rowDims N C E wf).start j idx 0 + ((rowDims N C E wf).window j 0 : Nat) ∧
          (rowDims N C E wf).start j idx 0 + ((rowDims N C E wf).window j 0 : Nat) < (N : Int)
        rw [hs0, hw0, hn]; have := n.isLt; constructor <;> omega
      | ⟨1, _⟩ =>
        change 0 ≤ (rowDims N C E wf).start j idx 1 + ((rowDims N C E wf).window j 1 : Nat) ∧
          (rowDims N C E wf).start j idx 1 + ((rowDims N C E wf).window j 1 : Nat) < (C : Int)
        rw [hs1, hw1]; have := idx2_lt1 j; constructor <;> omega

theorem toInt_eq_iff (v : BitVec 32) (n : Nat) (hn : n < 2 ^ 31) : v.toInt = (n : Int) ↔ v = BitVec.ofNat 32 n := by
  have h1 : (BitVec.ofNat 32 n).toNat = n := by
    rw [BitVec.toNat_ofNat]; exact Nat.mod_eq_of_lt (by omega)
  have h2 : (BitVec.ofNat 32 n).toInt = (n : Int) := by
    rw [BitVec.toInt_eq_toNat_of_lt (by rw [h1]; omega), h1]
  constructor
  · intro h
    apply BitVec.eq_of_toInt_eq
    rw [h, h2]
  · rintro rfl
    exact h2

theorem hostScatterAdd_rows (hN : N ≤ 2 ^ 31) (x : (⟨2, ![N, C]⟩ : Shape).Idx → EReal) (idx : IVec ⟨2, ![E, 1]⟩ 32)
    (upd : (⟨2, ![E, C]⟩ : Shape).Idx → EReal) (n : Fin N) (k : Fin C) :
    Ideal.hostScatterAdd (rowDims N C E wf) x idx upd (ix2 n k)
      = x (ix2 n k) + ∑ e : Fin E, if idx (ix2 e 0) = BitVec.ofNat 32 n.val then upd (ix2 e k) else 0 := by
  unfold Ideal.hostScatterAdd
  congr 1
  rw [Finset.sum_filter, sum_idx2]
  refine Finset.sum_congr rfl fun e _ => ?_
  have hiff : ∀ b : Fin C, ((rowDims N C E wf).resultIdx? (ix2 e b) idx = some (ix2 n k)) ↔
      (idx (ix2 e 0) = BitVec.ofNat 32 n.val ∧ b = k) := by
    intro b
    have h := resultIdx?_eq_some_iff wf (ix2 e b) idx n k
    rw [toInt_eq_iff _ _ (lt_of_lt_of_le n.isLt hN)] at h
    exact h
  by_cases hw : idx (ix2 e 0) = BitVec.ofNat 32 n.val
  · rw [if_pos hw]
    rw [Finset.sum_eq_single k]
    · rw [if_pos ((hiff k).2 ⟨hw, rfl⟩)]
    · intro b _ hb
      rw [if_neg (fun hc => hb ((hiff b).1 hc).2)]
    · intro hk; exact absurd (Finset.mem_univ k) hk
  · rw [if_neg hw]
    refine Finset.sum_eq_zero fun b _ => ?_
    rw [if_neg (fun hc => hw ((hiff b).1 hc).1)]

theorem scatterAdd_rows {φ : FTy} (hN : N ≤ 2 ^ 31) (x : FVec Ideal ⟨2, ![N, C]⟩ φ) (idx : IVec ⟨2, ![E, 1]⟩ 32)
    (upd : FVec Ideal ⟨2, ![E, C]⟩ φ) (n : Fin N) (k : Fin C) :
    Host.scatterAdd (rowDims N C E wf) x idx upd (ix2 n k)
      = x (ix2 n k) + ∑ e : Fin E, if idx (ix2 e 0) = BitVec.ofNat 32 n.val then upd (ix2 e k) else 0 :=
  hostScatterAdd_rows wf hN x idx upd n k

end Cert.RowScatter

end
-- ==== Proof.Ref.ValueConv.lean ====
import proofs.«407044_j9311489098471_2_alg».proof.Proof.Ref.ValueDefs
import proofs.«407044_j9311489098471_2_alg».proof.Proof.Ref.ScatterRows
import Idealize.ShloMosaic.PureOps.Ideal.Laws
import Idealize.ShloMosaic.Lib.ValueLayout
import Idealize.ShloMosaic.Lib.Pipeline.Value
import Idealize.ShloMosaic.Lib.StackMember

noncomputable section

open scoped BigOperators

namespace Cert.ReferenceIdeal.Hand

open Cert.ReferenceIdeal Cert.ReferenceIdeal.Gen Idealize.ShloMosaic Idealize.ShloMosaic.TcCoe Idealize.SL.Sem
open Idealize.ShloMosaic.ValueIdx Idealize.ShloMosaic.StackMember

theorem dstW_apply (a1 : CT Ideal S2x800000 .i32) (e : Fin 800000) : dstW a1 (ix1 e) = a1 (ix2 1 e) := by
  unfold dstW
  rw [shapeCast_1a_a_apply]
  exact slice2_axis0_apply 1 a1 _ 0 e 1 rfl

theorem colOf_apply (d : CT Ideal S800000 .i32) (e : Fin 800000) : colOf d (ix2 e 0) = d (ix1 e) := by
  unfold colOf
  exact broadcastInDim_apply _ _ _ _ (ix1 e) (fun a => by match a with | ⟨0, _⟩ => rfl)

theorem ewOf_apply (a2 : CT Ideal S800000 .f32) (e : Fin 800000) (k : Fin 64) : ewOf a2 (ix2 e k) = a2 (ix1 e) := by
  unfold ewOf
  refine (broadcastInDim_apply _ _ _ _ (ix2 e (0 : Fin 1)) (fun a => by
    match a with
    | ⟨0, _⟩ => rfl
    | ⟨1, _⟩ => rfl)).trans ?_
  exact broadcastInDim_apply _ _ _ _ (ix1 e) (fun a => by match a with | ⟨0, _⟩ => rfl)

theorem zeroT_apply (i : S50000x64.Idx) : (zeroT : CT Ideal S50000x64 .f32) i = 0 := by
  unfold zeroT
  rw [broadcastInDim_apply _ _ _ _ ix0 (fun a => a.elim0)]
  exact Ideal.ofBits_zero_f32

private theorem rowTc_apply (v : CT Ideal S64 .f32) (n : Fin 50000) (f : Fin 64) : rowT v (ix2 n f) = v (ix1 f) := by
  unfold rowT
  refine (broadcastInDim_apply _ _ _ _ (ix2 (0 : Fin 1) f) (fun a => by
    match a with
    | ⟨0, _⟩ => rfl
    | ⟨1, _⟩ => rfl)).trans ?_
  exact broadcastInDim_apply _ _ _ _ (ix1 f) (fun a => by match a with | ⟨0, _⟩ => rfl)

theorem msgT_apply (a1 : CT Ideal S2x800000 .i32) (a2 : CT Ideal S800000 .f32) (h : CT Ideal S50000x64 .f32)
    (e : Fin 800000) (k : Fin 64) : msgT (srcW a1) a2 h (ix2 e k) = msgR a1 a2 (tab h) e k := by
  unfold msgT msgR
  rw [mulf_apply, ewOf_apply]
  have hh : (fun i : S50000x64.Idx => tab h (i 0) (i 1)) = h := funext fun i => congrArg h (eq_ix2 i).symm
  rw [hh]

theorem aggT_apply (a1 : CT Ideal S2x800000 .i32) (a2 : CT Ideal S800000 .f32) (h : CT Ideal S50000x64 .f32)
    (n : Fin 50000) (k : Fin 64) :
    aggT (srcW a1) (dstW a1) a2 h (ix2 n k) = Cert.Spec.agg (dstOf a1) (msgR a1 a2 (tab h)) n k := by
  unfold aggT
  refine (Cert.RowScatter.scatterAdd_rows scatter_S50000x64_S800000x1_S800000x64_1_0_0_1_wf (by norm_num)
    (zeroT (F := Ideal)) (colOf (dstW a1)) (msgT (srcW a1) a2 h) n k).trans ?_
  rw [zeroT_apply, zero_add]
  refine Finset.sum_congr rfl fun e _ => ?_
  rw [colOf_apply, dstW_apply, msgT_apply]

theorem preT_apply (a1 : CT Ideal S2x800000 .i32) (a2 : CT Ideal S800000 .f32) (h : CT Ideal S50000x64 .f32)
    (W : CT Ideal S64x64 .f32) (b : CT Ideal S64 .f32) (n : Fin 50000) (f : Fin 64) :
    preT (srcW a1) (dstW a1) a2 h W b (ValueIdx.ix2 n f)
      = (∑ k : Fin 64, (h (ValueIdx.ix2 n k) + Cert.Spec.agg (dstOf a1) (msgR a1 a2 (tab h)) n k) * W (ValueIdx.ix2 k f))
        + b (ValueIdx.ix1 f) := by
  unfold preT
  rw [addf_apply, rowTc_apply]
  congr 1
  show Host.dotGeneral (DotDims.plain 50000 64 64) none (addf h (aggT (srcW a1) (dstW a1) a2 h)) W (ix2 n f) = _
  rw [dotGeneral_plain_apply]
  refine Finset.sum_congr rfl fun k _ => ?_
  rw [addf_apply, aggT_apply]

theorem conv_true (a1 : CT Ideal S2x800000 .i32) (a2 : CT Ideal S800000 .f32) (h : CT Ideal S50000x64 .f32)
    (W : CT Ideal S64x64 .f32) (b : CT Ideal S64 .f32) :
    tab (reluT (preT (srcW a1) (dstW a1) a2 h W b))
      = Cert.Spec.conv true (tab h) (dstOf a1) (msgR a1 a2 (tab h)) (mat W) (vec b) := by
  funext n f
  show reluT (preT (srcW a1) (dstW a1) a2 h W b) (ix2 n f) = _
  unfold reluT
  rw [maximumf_apply, zeroT_apply, preT_apply]
  rfl

theorem conv_false (a1 : CT Ideal S2x800000 .i32) (a2 : CT Ideal S800000 .f32) (h : CT Ideal S50000x64 .f32)
    (W : CT Ideal S64x64 .f32) (b : CT Ideal S64 .f32) :
    tab (preT (srcW a1) (dstW a1) a2 h W b)
      = Cert.Spec.conv false (tab h) (dstOf a1) (msgR a1 a2 (tab h)) (mat W) (vec b) := by
  funext n f
  show preT (srcW a1) (dstW a1) a2 h W b (ix2 n f) = _
  rw [preT_apply]
  rfl

end Cert.ReferenceIdeal.Hand

end
-- ==== Proof.Ref.ValueBn.lean ====
import proofs.«407044_j9311489098471_2_alg».proof.Proof.Ref.ValueDefs
import proofs.«407044_j9311489098471_2_alg».proof.Proof.Math
import Idealize.ShloMosaic.Lib.ValueLayout
import Idealize.ShloMosaic.Lib.IdealHost
import Idealize.ShloMosaic.Lib.KernelVsHost

noncomputable section

open scoped BigOperators

namespace Cert.ReferenceIdeal.Hand

open Cert.ReferenceIdeal Cert.ReferenceIdeal.Gen Idealize.ShloMosaic Idealize.ShloMosaic.ValueIdx

theorem bcastRow_apply {α : Type} {c : Nat} (h : (⟨1, ![c]⟩ : Shape).BroadcastsInDim ⟨2, ![1, c]⟩ ![1])
    (v : (⟨1, ![c]⟩ : Shape).Idx → α) (u : Fin 1) (t : Fin c) :
    broadcastInDim ⟨2, ![1, c]⟩ ![1] h v (ix2 u t) = v (ix1 t) :=
  broadcastInDim_apply ![1] h v (ix2 u t) (ix1 t) (fun a => by
    match a with
    | ⟨0, _⟩ =>
      show t.val = if c = 1 then 0 else t.val
      split
      · have := t.isLt; omega
      · rfl)

theorem rowT_apply (v : CT Ideal S64 .f32) (n : Fin 50000) (f : Fin 64) : rowT v (ix2 n f) = v (ix1 f) := by
  unfold rowT
  rw [broadcastInDim_oneRow_apply, bcastRow_apply]

theorem red_S50000x64_S64 : S50000x64.Reduces [0] S64 := by decide

theorem colsum_apply (z : FVec Ideal S50000x64 .f32) (f : Fin 64) :
    Host.reduceAdd z (constant (F := Ideal) S_ .f32 0x00000000#32) reducesTo_S50000x64_S64_d0 h_S_ (ix1 f)
      = ∑ n : Fin 50000, z (ix2 n f) := by
  rw [hostReduceAdd_apply, Ideal.hostReduceAdd_single _ red_S50000x64_S64]
  show Ideal.ofBits .f32 0x00000000#32 + _ = _
  rw [Ideal.ofBits_zero_f32, zero_add]
  refine Finset.sum_congr rfl fun n _ => congrArg z ?_
  funext a
  match a with
  | ⟨0, _⟩ => rfl
  | ⟨1, _⟩ => rfl

theorem meanT_apply (y : CT Ideal S50000x64 .f32) (f : Fin 64) : meanT y (ix1 f) = Cert.Spec.mean (tab y) f := by
  unfold meanT sumT
  rw [hostDivf_apply, colsum_apply, broadcastInDim_scalar_apply]
  rfl

theorem devT_apply (y : CT Ideal S50000x64 .f32) (n : Fin 50000) (f : Fin 64) :
    devT y (ix2 n f) = y (ix2 n f) - Cert.Spec.mean (tab y) f := by
  unfold devT sumT
  rw [subf_apply, broadcastInDim_oneRow_apply, hostDivf_apply, broadcastInDim_scalar_apply, bcastRow_apply,
    colsum_apply]
  rfl

theorem dofT_eq : dofT (F := Ideal) ix0 = Cert.Spec.cN := by
  unfold dofT
  rw [subf_apply, sitofp_apply, constantI_apply, constant_apply]
  show Cert.Spec.cN - (((0#32 : BitVec 32).toInt : ℝ) : EReal) = Cert.Spec.cN
  simp

theorem guard_eq :
    FloatOps.cmpf (F := Ideal) (φ := .f32) .ogt Cert.Spec.cN (Ideal.ofBits .f32 0x00000000#32) = 1#1 := by
  rw [Ideal.cmpf_def, Ideal.ofBits_zero_f32, Cert.Math.cN_eq]
  have h : (0 : EReal) < ((50000 : ℝ) : EReal) := by exact_mod_cast (by norm_num : (0:ℝ) < 50000)
  simp [Ideal.cmp, h]

theorem varT_apply (y : CT Ideal S50000x64 .f32) (f : Fin 64) : varT y (ix1 f) = Cert.Spec.varDev (tab y) f := by
  unfold varT
  rw [select_apply, broadcastInDim_scalar_apply, cmpf_apply, dofT_eq, constant_apply, guard_eq, select_one,
    hostDivf_apply, colsum_apply, broadcastInDim_scalar_apply, dofT_eq]
  unfold Cert.Spec.varDev
  refine congrArg (fun s => Ideal.div s Cert.Spec.cN) (Finset.sum_congr rfl fun n _ => ?_)
  rw [mulf_apply, devT_apply]

theorem bnT_eq (y : CT Ideal S50000x64 .f32) (g be : CT Ideal S64 .f32) :
    tab (bnT y g be) = Cert.Spec.bnDev (tab y) (vec g) (vec be) := by
  funext n f
  show bnT y g be (ix2 n f) = _
  unfold bnT normT
  rw [addf_apply, mulf_apply, mulf_apply, subf_apply, rowT_apply, rowT_apply, rowT_apply, rowT_apply, meanT_apply]
  show _ * Ideal.rsqrt (addf (varT y) _ (ix1 f)) * _ + _ = _
  rw [addf_apply, varT_apply, broadcastInDim_scalar_apply, constant_apply]
  rfl

end Cert.ReferenceIdeal.Hand

end
-- ==== Proof.Ref.ValueHead.lean ====
import proofs.«407044_j9311489098471_2_alg».proof.Proof.Ref.ValueBn
import proofs.«407044_j9311489098471_2_alg».proof.Proof.Ref.ScatterRows
import Idealize.ShloMosaic.Lib.StackMember

noncomputable section

open scoped BigOperators

namespace Cert.ReferenceIdeal.Hand

open Cert.ReferenceIdeal Cert.ReferenceIdeal.Gen Idealize.ShloMosaic Idealize.ShloMosaic.ValueIdx

theorem zeroP_apply (i : S256x64.Idx) : zeroP (F := Ideal) i = 0 := by
  unfold zeroP
  rw [broadcastInDim_scalar_apply, constant_apply, Ideal.ofBits_zero_f32]

theorem reluP_apply (y : CT Ideal S256x64 .f32) (i : S256x64.Idx) : reluP y i = max (y i) 0 := by
  unfold reluP
  rw [maximumf_apply, zeroP_apply]

theorem poolT_apply (a3 : CT Ideal S50000 .i32) (h : CT Ideal S50000x64 .f32) (g : Fin 256) (f : Fin 64) :
    poolT a3 h (ix2 g f) = Cert.Spec.pool (fun n => a3 (ix1 n)) (tab h) g f := by
  unfold poolT
  show Ideal.hostScatterAdd (Cert.RowScatter.rowDims 256 64 50000 scatter_S256x64_S50000x1_S50000x64_1_0_0_1_wf)
    (zeroP (F := Ideal)) _ h (ix2 g f) = _
  rw [Cert.RowScatter.hostScatterAdd_rows _ (by norm_num), zeroP_apply, zero_add]
  unfold Cert.Spec.pool
  refine Finset.sum_congr rfl fun n _ => ?_
  rw [broadcastInDim_apply ![0] bcast_S50000_S50000x1_0 a3 (ix2 n (0 : Fin 1)) (ix1 n) (fun a => by
    match a with
    | ⟨0, _⟩ => show n.val = if (50000:ℕ) = 1 then 0 else n.val; simp)]

theorem castCol_apply {α : Type} (x : S256x1.Idx → α) (g : Fin 256) :
    shapeCast S256 x shapeCasts_S256x1_S256 (ix1 g) = x (ix2 g (0 : Fin 1)) :=
  shapeCast_apply x shapeCasts_S256x1_S256 (ix1 g) (ix2 g (0 : Fin 1)) (by
    rw [Shape.rowMajor_val_two, Shape.rowMajor_val_one]
    show g.val * 1 + 0 = g.val
    omega)

theorem dot1_eq : dot_S256x64_S64x64_S256x64_1_0_0_1_n_n = DotDims.plain 256 64 64 := rfl
theorem dot2_eq : dot_S256x64_S64x1_S256x1_1_0_0_1_n_n = DotDims.plain 256 64 1 := rfl

theorem head_eq (a3 : CT Ideal S50000 .i32) (h : CT Ideal S50000x64 .f32) (fW1 : CT Ideal S64x64 .f32) (fb1 : CT Ideal S64 .f32)
    (fW2 : CT Ideal S64x1 .f32) (fb2 : CT Ideal S1 .f32) (g : Fin 256) :
    headT (poolT a3 h) fW1 fb1 fW2 fb2 (ix1 g)
      = Cert.Spec.head (Cert.Spec.pool (fun n => a3 (ix1 n)) (tab h)) (mat fW1) (vec fb1) (fun k => fW2 (ix2 k 0)) (fb2 (ix1 0)) g := by
  unfold headT
  rw [castCol_apply, addf_apply, broadcastInDim_oneRow_apply, bcastRow_apply, dot2_eq,
    StackMember.dotGeneral_plain_apply]
  unfold Cert.Spec.head
  refine congrArg (· + fb2 (ix1 0)) (Finset.sum_congr rfl fun k _ => ?_)
  rw [reluP_apply, addf_apply, broadcastInDim_oneRow_apply, bcastRow_apply, dot1_eq,
    StackMember.dotGeneral_plain_apply]
  refine congrArg (fun s => max (s + fb1 (ix1 k)) 0 * fW2 (ix2 k 0)) (Finset.sum_congr rfl fun j _ => ?_)
  rw [reluP_apply, poolT_apply]

end Cert.ReferenceIdeal.Hand

end
-- ==== Proof.Ref.Value.lean ====
import proofs.«407044_j9311489098471_2_alg».proof.Proof.Ref.ValueConv
import proofs.«407044_j9311489098471_2_alg».proof.Proof.Ref.ValueBn
import proofs.«407044_j9311489098471_2_alg».proof.Proof.Ref.ValueHead

noncomputable section

open scoped BigOperators

namespace Cert.ReferenceIdeal.Hand

open Cert.ReferenceIdeal Cert.ReferenceIdeal.Gen Idealize.ShloMosaic Idealize.ShloMosaic.TcCoe Idealize.SL.Sem
open Idealize.ShloMosaic.ValueIdx

theorem resT_eq (a0 : CT Ideal S50000x64 .f32) (a1 : CT Ideal S2x800000 .i32) (a2 : CT Ideal S800000 .f32) (a3 : CT Ideal S50000 .i32)
    (W1 : CT Ideal S64x64 .f32) (b1 : CT Ideal S64 .f32) (W2 : CT Ideal S64x64 .f32) (b2 : CT Ideal S64 .f32)
    (W3 : CT Ideal S64x64 .f32) (b3 : CT Ideal S64 .f32) (fW1 : CT Ideal S64x64 .f32) (fb1 : CT Ideal S64 .f32)
    (fW2 : CT Ideal S64x1 .f32) (fb2 : CT Ideal S1 .f32) (g1 be1 g2 be2 g3 be3 : CT Ideal S64 .f32) (g : Fin 256) :
    resT a0 a1 a2 a3 W1 b1 W2 b2 W3 b3 fW1 fb1 fW2 fb2 g1 be1 g2 be2 g3 be3 (ix1 g)
      = Cert.Spec.head (Cert.Spec.pool (fun n => a3 (ix1 n))
          (Cert.Spec.bnDev (Cert.Spec.conv false
            (Cert.Spec.bnDev (Cert.Spec.conv true
              (Cert.Spec.bnDev (Cert.Spec.conv true (tab a0) (dstOf a1) (msgR a1 a2 (tab a0)) (mat W1) (vec b1)) (vec g1) (vec be1))
              (dstOf a1) (msgR a1 a2
                (Cert.Spec.bnDev (Cert.Spec.conv true (tab a0) (dstOf a1) (msgR a1 a2 (tab a0)) (mat W1) (vec b1)) (vec g1) (vec be1)))
              (mat W2) (vec b2)) (vec g2) (vec be2))
            (dstOf a1) (msgR a1 a2
              (Cert.Spec.bnDev (Cert.Spec.conv true
                (Cert.Spec.bnDev (Cert.Spec.conv true (tab a0) (dstOf a1) (msgR a1 a2 (tab a0)) (mat W1) (vec b1)) (vec g1) (vec be1))
                (dstOf a1) (msgR a1 a2
                  (Cert.Spec.bnDev (Cert.Spec.conv true (tab a0) (dstOf a1) (msgR a1 a2 (tab a0)) (mat W1) (vec b1)) (vec g1) (vec be1)))
                (mat W2) (vec b2)) (vec g2) (vec be2)))
            (mat W3) (vec b3)) (vec g3) (vec be3)))
        (mat fW1) (vec fb1) (fun k => fW2 (ix2 k 0)) (fb2 (ix1 0)) g := by
  unfold resT h3T h2T h1T
  rw [head_eq, bnT_eq, conv_false, bnT_eq, conv_true, bnT_eq, conv_true]

section OnADevice

variable (m : (ℓ : Loc nD τ sig) → Buf (Elt Ideal) ℓ) (c : Dev nD)

set_option quotPrecheck false

local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)
local notation "A8" => m ((c.tc : Thread nD τ).loc main_arg8)
local notation "A9" => m ((c.tc : Thread nD τ).loc main_arg9)
local notation "A10" => m ((c.tc : Thread nD τ).loc main_arg10)
local notation "A11" => m ((c.tc : Thread nD τ).loc main_arg11)
local notation "A12" => m ((c.tc : Thread nD τ).loc main_arg12)
local notation "A13" => m ((c.tc : Thread nD τ).loc main_arg13)
local notation "A14" => m ((c.tc : Thread nD τ).loc main_arg14)
local notation "A15" => m ((c.tc : Thread nD τ).loc main_arg15)
local notation "A16" => m ((c.tc : Thread nD τ).loc main_arg16)
local notation "A17" => m ((c.tc : Thread nD τ).loc main_arg17)
local notation "A18" => m ((c.tc : Thread nD τ).loc main_arg18)
local notation "A19" => m ((c.tc : Thread nD τ).loc main_arg19)

theorem res_eq (g : Fin 256) :
    res m c (ix1 g)
      = Cert.Spec.head (Cert.Spec.pool (fun n => A3 (ix1 n))
          (Cert.Spec.bnDev (Cert.Spec.conv false
            (Cert.Spec.bnDev (Cert.Spec.conv true
              (Cert.Spec.bnDev (Cert.Spec.conv true (tab A0) (dstOf A1) (msgR A1 A2 (tab A0)) (mat A4) (vec A5)) (vec A14) (vec A15))
              (dstOf A1) (msgR A1 A2
                (Cert.Spec.bnDev (Cert.Spec.conv true (tab A0) (dstOf A1) (msgR A1 A2 (tab A0)) (mat A4) (vec A5)) (vec A14) (vec A15)))
              (mat A6) (vec A7)) (vec A16) (vec A17))
            (dstOf A1) (msgR A1 A2
              (Cert.Spec.bnDev (Cert.Spec.conv true
                (Cert.Spec.bnDev (Cert.Spec.conv true (tab A0) (dstOf A1) (msgR A1 A2 (tab A0)) (mat A4) (vec A5)) (vec A14) (vec A15))
                (dstOf A1) (msgR A1 A2
                  (Cert.Spec.bnDev (Cert.Spec.conv true (tab A0) (dstOf A1) (msgR A1 A2 (tab A0)) (mat A4) (vec A5)) (vec A14) (vec A15)))
                (mat A6) (vec A7)) (vec A16) (vec A17)))
            (mat A8) (vec A9)) (vec A18) (vec A19)))
        (mat A10) (vec A11) (fun k => A12 (ix2 k 0)) (A13 (ix1 0)) g := by
  unfold res
  exact resT_eq _ _ _ _ _ _ _ _ _ _ _ _ _ _ _ _ _ _ _ _ g

end OnADevice

end Cert.ReferenceIdeal.Hand

end
-- ==== Proof.Ref.ValueNet.lean ====
import proofs.«407044_j9311489098471_2_alg».proof.Proof.Ref.Value
import proofs.«407044_j9311489098471_2_alg».proof.Proof.Net

noncomputable section

open scoped BigOperators

namespace Cert.ReferenceIdeal.Hand

open Cert.ReferenceIdeal Cert.ReferenceIdeal.Gen Idealize.ShloMosaic Idealize.ShloMosaic.TcCoe Idealize.SL.Sem
open Idealize.ShloMosaic.ValueIdx

def gatR (a1 : CT Ideal S2x800000 .i32) (t : Cert.Spec.Tab) : Fin 800000 → Fin 64 → EReal :=
  fun e k => Host.gather gather_S50000x64_S800000x1_S800000x64_1_0_n_n_0_1_164 (fun i => t (i 0) (i 1)) (idxOf (srcW a1)) (ix2 e k)

theorem gatR_row (a1 : CT Ideal S2x800000 .i32) (t : Cert.Spec.Tab) (e : Fin 800000) (k : Fin 64) :
    ∃ n, gatR a1 t e k = t n k := by
  refine ⟨gather_S50000x64_S800000x1_S800000x64_1_0_n_n_0_1_164.operandIdx (ix2 e k) (idxOf (srcW a1)) 0, ?_⟩
  unfold gatR Host.gather
  show t _ _ = t _ k
  congr 1
  refine Fin.ext ?_
  show gather_S50000x64_S800000x1_S800000x64_1_0_n_n_0_1_164.start (ix2 e k) (idxOf (srcW a1)) 1
    + gather_S50000x64_S800000x1_S800000x64_1_0_n_n_0_1_164.batchCoord (ix2 e k) 1
    + gather_S50000x64_S800000x1_S800000x64_1_0_n_n_0_1_164.offCoord (ix2 e k) 1 = k.val
  rw [GatherDims.batchCoord_eq_zero _ _ _ List.not_mem_nil]
  unfold GatherDims.start
  rw [dif_neg (by show (1 : Fin 2) ∉ ([0] : List (Fin 2)); decide)]
  unfold GatherDims.offCoord
  rw [dif_pos (by show (1 : Fin 2) ∈ Shape.kept S50000x64 ([0] ++ []); decide)]
  rw [Nat.zero_add]
  rfl

theorem msgOf_gatR (a1 : CT Ideal S2x800000 .i32) (a2 : CT Ideal S800000 .f32) (t : Cert.Spec.Tab) :
    Cert.Math.msgOf (gatR a1) (fun e => a2 (ix1 e)) t = msgR a1 a2 t := rfl

theorem resT_eq_netR (a0 : CT Ideal S50000x64 .f32) (a1 : CT Ideal S2x800000 .i32) (a2 : CT Ideal S800000 .f32) (a3 : CT Ideal S50000 .i32)
    (W1 : CT Ideal S64x64 .f32) (b1 : CT Ideal S64 .f32) (W2 : CT Ideal S64x64 .f32) (b2 : CT Ideal S64 .f32)
    (W3 : CT Ideal S64x64 .f32) (b3 : CT Ideal S64 .f32) (fW1 : CT Ideal S64x64 .f32) (fb1 : CT Ideal S64 .f32)
    (fW2 : CT Ideal S64x1 .f32) (fb2 : CT Ideal S1 .f32) (g1 be1 g2 be2 g3 be3 : CT Ideal S64 .f32) (g : Fin 256) :
    resT a0 a1 a2 a3 W1 b1 W2 b2 W3 b3 fW1 fb1 fW2 fb2 g1 be1 g2 be2 g3 be3 (ix1 g)
      = Cert.Math.netR (gatR a1) (tab a0) (dstOf a1) (fun e => a2 (ix1 e)) (fun n => a3 (ix1 n))
          (mat W1) (vec b1) (mat W2) (vec b2) (mat W3) (vec b3)
          (vec g1) (vec be1) (vec g2) (vec be2) (vec g3) (vec be3)
          (mat fW1) (vec fb1) (fun k => fW2 (ix2 k 0)) (fb2 (ix1 0)) g := by
  rw [resT_eq]
  simp only [Cert.Math.netR, Cert.Math.layerR, msgOf_gatR]

section OnADevice

variable (m : (ℓ : Loc nD τ sig) → Buf (Elt Ideal) ℓ) (c : Dev nD)

set_option quotPrecheck false

local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)
local notation "A8" => m ((c.tc : Thread nD τ).loc main_arg8)
local notation "A9" => m ((c.tc : Thread nD τ).loc main_arg9)
local notation "A10" => m ((c.tc : Thread nD τ).loc main_arg10)
local notation "A11" => m ((c.tc : Thread nD τ).loc main_arg11)
local notation "A12" => m ((c.tc : Thread nD τ).loc main_arg12)
local notation "A13" => m ((c.tc : Thread nD τ).loc main_arg13)
local notation "A14" => m ((c.tc : Thread nD τ).loc main_arg14)
local notation "A15" => m ((c.tc : Thread nD τ).loc main_arg15)
local notation "A16" => m ((c.tc : Thread nD τ).loc main_arg16)
local notation "A17" => m ((c.tc : Thread nD τ).loc main_arg17)
local notation "A18" => m ((c.tc : Thread nD τ).loc main_arg18)
local notation "A19" => m ((c.tc : Thread nD τ).loc main_arg19)

theorem res_eq_netR (g : Fin 256) :
    res m c (ix1 g)
      = Cert.Math.netR (gatR A1) (tab A0) (dstOf A1) (fun e => A2 (ix1 e)) (fun n => A3 (ix1 n))
          (mat A4) (vec A5) (mat A6) (vec A7) (mat A8) (vec A9)
          (vec A14) (vec A15) (vec A16) (vec A17) (vec A18) (vec A19)
          (mat A10) (vec A11) (fun k => A12 (ix2 k 0)) (A13 (ix1 0)) g := by
  unfold res
  exact resT_eq_netR _ _ _ _ _ _ _ _ _ _ _ _ _ _ _ _ _ _ _ _ g

end OnADevice

end Cert.ReferenceIdeal.Hand

end
-- ==== Proof.FinPre.lean ====
import proofs.«407044_j9311489098471_2_alg».proof.Pre_finite_inputs
import proofs.«407044_j9311489098471_2_alg».proof.Proof.Gen.Pre_finite_inputs
import proofs.«407044_j9311489098471_2_alg».proof.Proof.Spec
import proofs.«407044_j9311489098471_2_alg».proof.Proof.Math
import Idealize.ShloMosaic.Lib.ReduceAll
import Idealize.ShloMosaic.Lib.ValueIdx
import Idealize.ShloMosaic.PureOps.Ideal

noncomputable section

namespace Cert.FinPre

open Idealize.ShloMosaic Cert.Pre_finite_inputs

theorem real_of_abs_lt (x : EReal)
    (h : Ideal.cmp .olt (max x (-x)) (Ideal.ofBits .f32 0x7F800000#32) = 1#1) :
    ∃ r : ℝ, x = (r : EReal) := by
  rw [Cert.Math.cInf_eq] at h
  induction x using EReal.rec with
  | bot => simp [Ideal.cmp] at h
  | coe r => exact ⟨r, rfl⟩
  | top => simp [Ideal.cmp] at h

instance : Subsingleton S_.Idx := ⟨fun a b => funext fun d => d.elim0⟩

theorem all_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
      (cmpf .olt (Host.absf a) (broadcastInDim s ![] hb (constant (F := Ideal) S_ .f32 0x7F800000#32)))
      (constantI S_ 1 1#1) hr hu ValueIdx.ix0 = 1#1) :
    ∀ i, ∃ r : ℝ, a i = (r : EReal) := by
  intro i
  have hi := Host.reduce_andi_all _ _ hr hu _ h i
  exact real_of_abs_lt (a i) hi

variable [Cert.Pre_finite_inputs.Facts]

theorem fin_of_pre (a0 : FVec Ideal S50000x64 .f32) (a1 : IVec S2x800000 32) (a2 : FVec Ideal S800000 .f32) (a3 : IVec S50000 32) (a4 : FVec Ideal S64x64 .f32) (a5 : FVec Ideal S64 .f32) (a6 : FVec Ideal S64x64 .f32) (a7 : FVec Ideal S64 .f32) (a8 : FVec Ideal S64x64 .f32) (a9 : FVec Ideal S64 .f32) (a10 : FVec Ideal S64x64 .f32) (a11 : FVec Ideal S64 .f32) (a12 : FVec Ideal S64x1 .f32) (a13 : FVec Ideal S1 .f32) (a14 : FVec Ideal S64 .f32) (a15 : FVec Ideal S64 .f32) (a16 : FVec Ideal S64 .f32) (a17 : FVec Ideal S64 .f32) (a18 : FVec Ideal S64 .f32) (a19 : FVec Ideal S64 .f32)
    (h : Cert.Pre_finite_inputs.fn (F := Ideal) a0 a1 a2 a3 a4 a5 a6 a7 a8 a9 a10 a11 a12 a13 a14 a15 a16 a17 a18 a19 = (fun _ => 1#1)) :
    (∀ i, ∃ r : ℝ, a0 i = (r : EReal)) ∧
      (∀ i, ∃ r : ℝ, a2 i = (r : EReal)) ∧
      (∀ i, ∃ r : ℝ, a4 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) ∧
      (∀ i, ∃ r : ℝ, a12 i = (r : EReal)) ∧
      (∀ i, ∃ r : ℝ, a13 i = (r : EReal)) ∧
      (∀ i, ∃ r : ℝ, a14 i = (r : EReal)) ∧
      (∀ i, ∃ r : ℝ, a15 i = (r : EReal)) ∧
      (∀ i, ∃ r : ℝ, a16 i = (r : EReal)) ∧
      (∀ i, ∃ r : ℝ, a17 i = (r : EReal)) ∧
      (∀ i, ∃ r : ℝ, a18 i = (r : EReal)) ∧
      (∀ i, ∃ r : ℝ, a19 i = (r : EReal)) := by
  have h0 := congrFun h ValueIdx.ix0
  dsimp only [fn, fn_part1, fn_part2, fn_part3, fn_part4, fn_part5, andi] at h0
  simp only [IntOp.andi_eq_one] at h0
  obtain ⟨⟨⟨⟨⟨⟨⟨⟨⟨⟨⟨⟨⟨⟨⟨⟨⟨q0, q2⟩, q4⟩, q5⟩, q6⟩, q7⟩, q8⟩, q9⟩, q10⟩, q11⟩, q12⟩, q13⟩, q14⟩, q15⟩, q16⟩, q17⟩, q18⟩, q19⟩ := h0
  exact ⟨all_real a0 _ _ _ q0,
    all_real a2 _ _ _ q2,
    all_real a4 _ _ _ q4,
    all_real a5 _ _ _ q5,
    all_real a6 _ _ _ q6,
    all_real a7 _ _ _ q7,
    all_real a8 _ _ _ q8,
    all_real a9 _ _ _ q9,
    all_real a10 _ _ _ q10,
    all_real a11 _ _ _ q11,
    all_real a12 _ _ _ q12,
    all_real a13 _ _ _ q13,
    all_real a14 _ _ _ q14,
    all_real a15 _ _ _ q15,
    all_real a16 _ _ _ q16,
    all_real a17 _ _ _ q17,
    all_real a18 _ _ _ q18,
    all_real a19 _ _ _ q19⟩

end Cert.FinPre

end
-- ==== Proof.Final.lean ====
import proofs.«407044_j9311489098471_2_alg».proof.Defs
import proofs.«407044_j9311489098471_2_alg».proof.Proof.Gen.Kernel
import proofs.«407044_j9311489098471_2_alg».proof.Proof.Gen.KernelIdeal
import proofs.«407044_j9311489098471_2_alg».proof.Proof.Gen.ReferenceIdeal
import proofs.«407044_j9311489098471_2_alg».proof.Proof.Gen.Pre_finite_inputs
import proofs.«407044_j9311489098471_2_alg».proof.Proof.KI.Launch
import proofs.«407044_j9311489098471_2_alg».proof.Proof.KI.Result
import proofs.«407044_j9311489098471_2_alg».proof.Proof.K.Launch
import proofs.«407044_j9311489098471_2_alg».proof.Proof.Ref.Run
import proofs.«407044_j9311489098471_2_alg».proof.Proof.Ref.ValueNet
import proofs.«407044_j9311489098471_2_alg».proof.Proof.Net
import proofs.«407044_j9311489098471_2_alg».proof.Proof.FinPre
import Idealize.ShloMosaic.Lib.ValueIdx

noncomputable section

namespace Cert.Proof.Final

open Idealize.ShloMosaic Idealize.ShloMosaic.TcCoe Idealize.SL.Sem
open Idealize.ShloMosaic.ValueIdx
open Cert.Spec

theorem gat_eq (m : (ℓ : Loc Cert.KernelIdeal.nD Cert.KernelIdeal.τ Cert.KernelIdeal.sig) → Buf (Elt Ideal) ℓ) (c : Dev Cert.KernelIdeal.nD) :
    Cert.ReferenceIdeal.Hand.gatR (m ((c.tc : Thread Cert.KernelIdeal.nD Cert.KernelIdeal.τ).loc Cert.KernelIdeal.main_arg1)) = Cert.KernelIdeal.Hand.gatK m c := rfl

theorem gatK_row (m : (ℓ : Loc Cert.KernelIdeal.nD Cert.KernelIdeal.τ Cert.KernelIdeal.sig) → Buf (Elt Ideal) ℓ) (c : Dev Cert.KernelIdeal.nD) :
    ∀ (h : Tab) e k, ∃ n, Cert.KernelIdeal.Hand.gatK m c h e k = h n k := by
  rw [← gat_eq m c]
  exact Cert.ReferenceIdeal.Hand.gatR_row _

theorem nets_eq (a0 : FVec Ideal Cert.Pre_finite_inputs.S50000x64 .f32) (a1 : IVec Cert.Pre_finite_inputs.S2x800000 32) (a2 : FVec Ideal Cert.Pre_finite_inputs.S800000 .f32) (a3 : IVec Cert.Pre_finite_inputs.S50000 32) (a4 : FVec Ideal Cert.Pre_finite_inputs.S64x64 .f32) (a5 : FVec Ideal Cert.Pre_finite_inputs.S64 .f32) (a6 : FVec Ideal Cert.Pre_finite_inputs.S64x64 .f32) (a7 : FVec Ideal Cert.Pre_finite_inputs.S64 .f32) (a8 : FVec Ideal Cert.Pre_finite_inputs.S64x64 .f32) (a9 : FVec Ideal Cert.Pre_finite_inputs.S64 .f32) (a10 : FVec Ideal Cert.Pre_finite_inputs.S64x64 .f32) (a11 : FVec Ideal Cert.Pre_finite_inputs.S64 .f32) (a12 : FVec Ideal Cert.Pre_finite_inputs.S64x1 .f32) (a13 : FVec Ideal Cert.Pre_finite_inputs.S1 .f32) (a14 : FVec Ideal Cert.Pre_finite_inputs.S64 .f32) (a15 : FVec Ideal Cert.Pre_finite_inputs.S64 .f32) (a16 : FVec Ideal Cert.Pre_finite_inputs.S64 .f32) (a17 : FVec Ideal Cert.Pre_finite_inputs.S64 .f32) (a18 : FVec Ideal Cert.Pre_finite_inputs.S64 .f32) (a19 : FVec Ideal Cert.Pre_finite_inputs.S64 .f32)
    (hpre : Cert.Pre_finite_inputs.fn (F := Ideal) a0 a1 a2 a3 a4 a5 a6 a7 a8 a9 a10 a11 a12 a13 a14 a15 a16 a17 a18 a19 = (fun _ => 1#1))
    (gat : Tab → Fin 800000 → Fin 64 → EReal) (hgat : ∀ (h : Tab) e k, ∃ n, gat h e k = h n k) (g : Fin 256) :
    Cert.Math.netK gat
        (fun n k => a0 (ix2 n k))
        (fun e => a1 (ix2 1 e))
        (fun e => a2 (ix1 e))
        (fun n => a3 (ix1 n))
        (fun k f => a4 (ix2 k f))
        (fun f => a5 (ix1 f))
        (fun k f => a6 (ix2 k f))
        (fun f => a7 (ix1 f))
        (fun k f => a8 (ix2 k f))
        (fun f => a9 (ix1 f))
        (fun f => a14 (ix1 f))
        (fun f => a15 (ix1 f))
        (fun f => a16 (ix1 f))
        (fun f => a17 (ix1 f))
        (fun f => a18 (ix1 f))
        (fun f => a19 (ix1 f))
        (fun k f => a10 (ix2 k f))
        (fun f => a11 (ix1 f))
        (fun k => a12 (ix2 k 0))
        (a13 (ix1 0)) g =
      Cert.Math.netR gat
        (fun n k => a0 (ix2 n k))
        (fun e => a1 (ix2 1 e))
        (fun e => a2 (ix1 e))
        (fun n => a3 (ix1 n))
        (fun k f => a4 (ix2 k f))
        (fun f => a5 (ix1 f))
        (fun k f => a6 (ix2 k f))
        (fun f => a7 (ix1 f))
        (fun k f => a8 (ix2 k f))
        (fun f => a9 (ix1 f))
        (fun f => a14 (ix1 f))
        (fun f => a15 (ix1 f))
        (fun f => a16 (ix1 f))
        (fun f => a17 (ix1 f))
        (fun f => a18 (ix1 f))
        (fun f => a19 (ix1 f))
        (fun k f => a10 (ix2 k f))
        (fun f => a11 (ix1 f))
        (fun k => a12 (ix2 k 0))
        (a13 (ix1 0)) g := by
  obtain ⟨f0, f2, f4, f5, f6, f7, f8, f9, f10, f11, f12, f13, f14, f15, f16, f17, f18, f19⟩ :=
    Cert.FinPre.fin_of_pre a0 a1 a2 a3 a4 a5 a6 a7 a8 a9 a10 a11 a12 a13 a14 a15 a16 a17 a18 a19 hpre
  exact congrFun (Cert.Math.netK_eq_netR gat _ _ _ _ _ _ _ _ _ _ _ _ _ _ _ _ _ _ _ _ hgat
    (fun n k => f0 _) (fun e => f2 _) (fun k f => f4 _) (fun f => f5 _) (fun k f => f6 _) (fun f => f7 _)
    (fun k f => f8 _) (fun f => f9 _) (fun f => f14 _) (fun f => f15 _) (fun f => f16 _) (fun f => f17 _)
    (fun f => f18 _) (fun f => f19 _)) g

theorem ext256 (u v : (⟨1, ![256]⟩ : Shape).Idx → EReal) (h : ∀ g : Fin 256, u (ix1 g) = v (ix1 g)) : u = v :=
  funext fun i => by rw [eq_ix1 i]; exact h (i 0)

theorem pre_at (m : (ℓ : Loc Cert.KernelIdeal.nD Cert.KernelIdeal.τ Cert.KernelIdeal.sig) → Buf (Elt Ideal) ℓ) (hpre : Cert.Pre_KernelIdeal m) (c : Dev Cert.KernelIdeal.nD) :
    Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19)) = (fun _ => 1#1) := hpre c

-- The two memories hold the same twenty argument arrays on a device.
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)

theorem res_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : Agree m m' c) :
    Cert.ReferenceIdeal.Hand.res m' c = Cert.ReferenceIdeal.Hand.resT
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19)) := by
  obtain ⟨h0, h1, h2, h3, h4, h5, h6, h7, h8, h9, h10, h11, h12, h13, h14, h15, h16, h17, h18, h19⟩ := hagree
  unfold Cert.ReferenceIdeal.Hand.res
  rw [h0, h1, h2, h3, h4, h5, h6, h7, h8, h9, h10, h11, h12, h13, h14, h15, h16, h17, h18, h19]

theorem resT_val (m : (ℓ : Loc Cert.KernelIdeal.nD Cert.KernelIdeal.τ Cert.KernelIdeal.sig) → Buf (Elt Ideal) ℓ) (c : Dev Cert.KernelIdeal.nD) (g : Fin 256) :
    Cert.ReferenceIdeal.Hand.resT
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19)) (ix1 g) =
      Cert.Math.netR (Cert.KernelIdeal.Hand.gatK m c)
        (fun n k => (m ((c.tc : Thread Cert.KernelIdeal.nD Cert.KernelIdeal.τ).loc Cert.KernelIdeal.main_arg0)) (ix2 n k))
        (fun e => (m ((c.tc : Thread Cert.KernelIdeal.nD Cert.KernelIdeal.τ).loc Cert.KernelIdeal.main_arg1)) (ix2 1 e))
        (fun e => (m ((c.tc : Thread Cert.KernelIdeal.nD Cert.KernelIdeal.τ).loc Cert.KernelIdeal.main_arg2)) (ix1 e))
        (fun n => (m ((c.tc : Thread Cert.KernelIdeal.nD Cert.KernelIdeal.τ).loc Cert.KernelIdeal.main_arg3)) (ix1 n))
        (fun k f => (m ((c.tc : Thread Cert.KernelIdeal.nD Cert.KernelIdeal.τ).loc Cert.KernelIdeal.main_arg4)) (ix2 k f))
        (fun f => (m ((c.tc : Thread Cert.KernelIdeal.nD Cert.KernelIdeal.τ).loc Cert.KernelIdeal.main_arg5)) (ix1 f))
        (fun k f => (m ((c.tc : Thread Cert.KernelIdeal.nD Cert.KernelIdeal.τ).loc Cert.KernelIdeal.main_arg6)) (ix2 k f))
        (fun f => (m ((c.tc : Thread Cert.KernelIdeal.nD Cert.KernelIdeal.τ).loc Cert.KernelIdeal.main_arg7)) (ix1 f))
        (fun k f => (m ((c.tc : Thread Cert.KernelIdeal.nD Cert.KernelIdeal.τ).loc Cert.KernelIdeal.main_arg8)) (ix2 k f))
        (fun f => (m ((c.tc : Thread Cert.KernelIdeal.nD Cert.KernelIdeal.τ).loc Cert.KernelIdeal.main_arg9)) (ix1 f))
        (fun f => (m ((c.tc : Thread Cert.KernelIdeal.nD Cert.KernelIdeal.τ).loc Cert.KernelIdeal.main_arg14)) (ix1 f))
        (fun f => (m ((c.tc : Thread Cert.KernelIdeal.nD Cert.KernelIdeal.τ).loc Cert.KernelIdeal.main_arg15)) (ix1 f))
        (fun f => (m ((c.tc : Thread Cert.KernelIdeal.nD Cert.KernelIdeal.τ).loc Cert.KernelIdeal.main_arg16)) (ix1 f))
        (fun f => (m ((c.tc : Thread Cert.KernelIdeal.nD Cert.KernelIdeal.τ).loc Cert.KernelIdeal.main_arg17)) (ix1 f))
        (fun f => (m ((c.tc : Thread Cert.KernelIdeal.nD Cert.KernelIdeal.τ).loc Cert.KernelIdeal.main_arg18)) (ix1 f))
        (fun f => (m ((c.tc : Thread Cert.KernelIdeal.nD Cert.KernelIdeal.τ).loc Cert.KernelIdeal.main_arg19)) (ix1 f))
        (fun k f => (m ((c.tc : Thread Cert.KernelIdeal.nD Cert.KernelIdeal.τ).loc Cert.KernelIdeal.main_arg10)) (ix2 k f))
        (fun f => (m ((c.tc : Thread Cert.KernelIdeal.nD Cert.KernelIdeal.τ).loc Cert.KernelIdeal.main_arg11)) (ix1 f))
        (fun k => (m ((c.tc : Thread Cert.KernelIdeal.nD Cert.KernelIdeal.τ).loc Cert.KernelIdeal.main_arg12)) (ix2 k 0))
        ((m ((c.tc : Thread Cert.KernelIdeal.nD Cert.KernelIdeal.τ).loc Cert.KernelIdeal.main_arg13)) (ix1 0)) g :=
  Cert.ReferenceIdeal.Hand.resT_eq_netR _ _ _ _ _ _ _ _ _ _ _ _ _ _ _ _ _ _ _ _ g

theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hagree : Agree m m' c) :
    Cert.ReferenceIdeal.Hand.res m' c = Cert.KernelIdeal.Hand.W30 m c (Proc.devRef .tc Cert.KernelIdeal.main_v80) := by
  rw [res_agree m m' c hagree]
  refine ext256 _ _ (fun g => ?_)
  rw [resT_val m c g, Cert.KernelIdeal.Hand.result_eq m c g]
  exact (nets_eq _ _ _ _ _ _ _ _ _ _ _ _ _ _ _ _ _ _ _ _ (pre_at m hpre c) _ (gatK_row m c) g).symm

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run m ρ)

theorem preserves : Cert.preserves_Kernel_KernelIdeal := trivial

theorem algebraic : Cert.algebraic_KernelIdeal_ReferenceIdeal := by
  intro m ρ m' ρ' hpre hagree
  refine ⟨fun c => Cert.KernelIdeal.Hand.W30 m c (Proc.devRef .tc Cert.KernelIdeal.main_v80),
    Cert.KernelIdeal.Hand.run_main m ρ, ?_⟩
  exact (θ_run Cert.ReferenceIdeal.defs _ _).mono
    (fun _ h c => ⟨(h c).1.trans (value_eq m m' hpre c (hagree c)), (h c).2⟩)
    (Cert.ReferenceIdeal.Hand.run m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof.Final

end
-- ==== Proof.lean ====
/-
  Ten kernel launches and the host operations between them compute, at the exact reading, the same graph network
  as the plain array program: per layer each node's row plus the weighted sum of the rows its incoming edges select,
  through a linear map, then a normalisation of the columns; at the end a sum per graph and a two-layer head.
  The two sides differ in how the sum over the edges is grouped and in the form of the variance.
-/
import proofs.«407044_j9311489098471_2_alg».proof.Proof.Final

theorem Cert.Proof.claim : Cert.Claim := Cert.Proof.Final.claim
